-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v131)) (v1 : (c : Dev Cert.KernelIdeal.nD) → Buf (Elt Ideal) ((c.tc : Thread Cert.KernelIdeal.nD Cert.KernelIdeal.τ).loc Cert.KernelIdeal.main_v165)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v131) = v0 c
          ∧ r.2.mem ((c.tc : Thread Cert.KernelIdeal.nD Cert.KernelIdeal.τ).loc Cert.KernelIdeal.main_v165) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v289) = v0 c
          ∧ r.2.mem ((c.tc : Thread Cert.ReferenceIdeal.nD Cert.ReferenceIdeal.τ).loc Cert.ReferenceIdeal.main_v357) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1 : Shape := ⟨2, ![50000, 1]⟩
abbrev S50000 : Shape := ⟨1, ![50000]⟩
abbrev S2x800000 : Shape := ⟨2, ![2, 800000]⟩
abbrev S800000x3 : Shape := ⟨2, ![800000, 3]⟩
abbrev S800000 : Shape := ⟨1, ![800000]⟩
abbrev S50000x2 : Shape := ⟨2, ![50000, 2]⟩
abbrev S131x64 : Shape := ⟨2, ![131, 64]⟩
abbrev S64 : Shape := ⟨1, ![64]⟩
abbrev S64x64 : Shape := ⟨2, ![64, 64]⟩
abbrev S194x64 : Shape := ⟨2, ![194, 64]⟩
abbrev S1x64 : Shape := ⟨2, ![1, 64]⟩
abbrev S64x1 : Shape := ⟨2, ![64, 1]⟩
abbrev S1 : Shape := ⟨1, ![1]⟩
abbrev S_ : Shape := ⟨0, ![]⟩

class Facts : Prop where
  bcast_S_S50000x1 : S_.BroadcastsInDim S50000x1 (![] : Fin 0 → Fin S50000x1.rank)
  reducesTo_S50000x1_S_d0_1 : S50000x1.ReducesTo [0, 1] S_
  h_S_ : 0 < S_.numel
  bcast_S_S800000x3 : S_.BroadcastsInDim S800000x3 (![] : Fin 0 → Fin S800000x3.rank)
  reducesTo_S800000x3_S_d0_1 : S800000x3.ReducesTo [0, 1] S_
  bcast_S_S800000 : S_.BroadcastsInDim S800000 (![] : Fin 0 → Fin S800000.rank)
  reducesTo_S800000_S_d0 : S800000.ReducesTo [0] S_
  bcast_S_S50000x2 : S_.BroadcastsInDim S50000x2 (![] : Fin 0 → Fin S50000x2.rank)
  reducesTo_S50000x2_S_d0_1 : S50000x2.ReducesTo [0, 1] S_
  bcast_S_S131x64 : S_.BroadcastsInDim S131x64 (![] : Fin 0 → Fin S131x64.rank)
  reducesTo_S131x64_S_d0_1 : S131x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S194x64 : S_.BroadcastsInDim S194x64 (![] : Fin 0 → Fin S194x64.rank)
  reducesTo_S194x64_S_d0_1 : S194x64.ReducesTo [0, 1] S_
  bcast_S_S1x64 : S_.BroadcastsInDim S1x64 (![] : Fin 0 → Fin S1x64.rank)
  reducesTo_S1x64_S_d0_1 : S1x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part8 {F : FTy → Type} [FloatOps F] (main_v133 : IVec S_ 1) (main_v136 : IVec S1 1) : IVec S_ 1 :=
  let main_c_53 : IVec S_ 1 := constantI S_ 1 1#1
  let main_v137 : IVec S_ 1 := (fun x v => Host.reduce IntOp.andi x v reducesTo_S1_S_d0 h_S_) main_v136 main_c_53
  let main_v138 : IVec S_ 1 := andi main_v133 main_v137
  main_v138

def fn_part7 {F : FTy → Type} [FloatOps F] (main_arg27 : FVec F S64 .f32) (main_arg28 : FVec F S64x1 .f32) (main_arg29 : FVec F S1 .f32) (main_v118 : IVec S_ 1) (main_v119 : FVec F S64x64 .f32) : IVec S_ 1 :=
  let main_cst_46 : FVec F S_ .f32 := constant S_ .f32 0x7F800000#32
  let main_v120 : FVec F S64x64 .f32 := broadcastInDim S64x64 ![] bcast_S_S64x64 main_cst_46
  let main_v121 : IVec S64x64 1 := cmpf .olt main_v119 main_v120
  let main_c_47 : IVec S_ 1 := constantI S_ 1 1#1
  let main_v122 : IVec S_ 1 := (fun x v => Host.reduce IntOp.andi x v reducesTo_S64x64_S_d0_1 h_S_) main_v121 main_c_47
  let main_v123 : IVec S_ 1 := andi main_v118 main_v122
  let main_v124 : FVec F S64 .f32 := Host.absf main_arg27
  let main_cst_48 : FVec F S_ .f32 := constant S_ .f32 0x7F800000#32
  let main_v125 : FVec F S64 .f32 := broadcastInDim S64 ![] bcast_S_S64 main_cst_48
  let main_v126 : IVec S64 1 := cmpf .olt main_v124 main_v125
  let main_c_49 : IVec S_ 1 := constantI S_ 1 1#1
  let main_v127 : IVec S_ 1 := (fun x v => Host.reduce IntOp.andi x v reducesTo_S64_S_d0 h_S_) main_v126 main_c_49
  let main_v128 : IVec S_ 1 := andi main_v123 main_v127
  let main_v129 : FVec F S64x1 .f32 := Host.absf main_arg28
  let main_cst_50 : FVec F S_ .f32 := constant S_ .f32 0x7F800000#32
  let main_v130 : FVec F S64x1 .f32 := broadcastInDim S64x1 ![] bcast_S_S64x1 main_cst_50
  let main_v131 : IVec S64x1 1 := cmpf .olt main_v129 main_v130
  let main_c_51 : IVec S_ 1 := constantI S_ 1 1#1
  let main_v132 : IVec S_ 1 := (fun x v => Host.reduce IntOp.andi x v reducesTo_S64x1_S_d0_1 h_S_) main_v131 main_c_51
  let main_v133 : IVec S_ 1 := andi main_v128 main_v132
  let main_v134 : FVec F S1 .f32 := Host.absf main_arg29
  let main_cst_52 : FVec F S_ .f32 := constant S_ .f32 0x7F800000#32
  let main_v135 : FVec F S1 .f32 := broadcastInDim S1 ![] bcast_S_S1 main_cst_52
  let main_v136 : IVec S1 1 := cmpf .olt main_v134 main_v135
  fn_part8 (F := F) main_v133 main_v136

def fn_part6 {F : FTy → Type} [FloatOps F] (main_arg23 : FVec F S64 .f32) (main_arg24 : FVec F S64x64 .f32) (main_arg25 : FVec F S64 .f32) (main_arg26 : FVec F S64x64 .f32) (main_arg27 : FVec F S64 .f32) (main_arg28 : FVec F S64x1 .f32) (main_arg29 : FVec F S1 .f32) (main_v98 : IVec S_ 1) (main_v101 : IVec S1x64 1) (main_c_39 : IVec S_ 1) : IVec S_ 1 :=
  let main_v102 : IVec S_ 1 := (fun x v => Host.reduce IntOp.andi x v reducesTo_S1x64_S_d0_1 h_S_) main_v101 main_c_39
  let main_v103 : IVec S_ 1 := andi main_v98 main_v102
  let main_v104 : FVec F S64 .f32 := Host.absf main_arg23
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64x64 .f32 := Host.absf main_arg24
  let main_cst_42 : FVec F S_ .f32 := constant S_ .f32 0x7F800000#32
  let main_v110 : FVec F S64x64 .f32 := broadcastInDim S64x64 ![] bcast_S_S64x64 main_cst_42
  let main_v111 : IVec S64x64 1 := cmpf .olt main_v109 main_v110
  let main_c_43 : IVec S_ 1 := constantI S_ 1 1#1
  let main_v112 : IVec S_ 1 := (fun x v => Host.reduce IntOp.andi x v reducesTo_S64x64_S_d0_1 h_S_) main_v111 main_c_43
  let main_v113 : IVec S_ 1 := andi main_v108 main_v112
  let main_v114 : FVec F S64 .f32 := Host.absf main_arg25
  let main_cst_44 : FVec F S_ .f32 := constant S_ .f32 0x7F800000#32
  let main_v115 : FVec F S64 .f32 := broadcastInDim S64 ![] bcast_S_S64 main_cst_44
  let main_v116 : IVec S64 1 := cmpf .olt main_v114 main_v115
  let main_c_45 : IVec S_ 1 := constantI S_ 1 1#1
  let main_v117 : IVec S_ 1 := (fun x v => Host.reduce IntOp.andi x v reducesTo_S64_S_d0 h_S_) main_v116 main_c_45
  let main_v118 : IVec S_ 1 := andi main_v113 main_v117
  let main_v119 : FVec F S64x64 .f32 := Host.absf main_arg26
  fn_part7 (F := F) main_arg27 main_arg28 main_arg29 main_v118 main_v119

def fn_part5 {F : FTy → Type} [FloatOps F] (main_arg20 : FVec F S194x64 .f32) (main_arg21 : FVec F S64 .f32) (main_arg22 : FVec F S1x64 .f32) (main_arg23 : FVec F S64 .f32) (main_arg24 : FVec F S64x64 .f32) (main_arg25 : FVec F S64 .f32) (main_arg26 : FVec F S64x64 .f32) (main_arg27 : FVec F S64 .f32) (main_arg28 : FVec F S64x1 .f32) (main_arg29 : FVec F S1 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S194x64 .f32 := Host.absf main_arg20
  let main_cst_34 : FVec F S_ .f32 := constant S_ .f32 0x7F800000#32
  let main_v90 : FVec F S194x64 .f32 := broadcastInDim S194x64 ![] bcast_S_S194x64 main_cst_34
  let main_v91 : IVec S194x64 1 := cmpf .olt main_v89 main_v90
  let main_c_35 : IVec S_ 1 := constantI S_ 1 1#1
  let main_v92 : IVec S_ 1 := (fun x v => Host.reduce IntOp.andi x v reducesTo_S194x64_S_d0_1 h_S_) main_v91 main_c_35
  let main_v93 : IVec S_ 1 := andi main_v88 main_v92
  let main_v94 : FVec F S64 .f32 := Host.absf main_arg21
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S1x64 .f32 := Host.absf main_arg22
  let main_cst_38 : FVec F S_ .f32 := constant S_ .f32 0x7F800000#32
  let main_v100 : FVec F S1x64 .f32 := broadcastInDim S1x64 ![] bcast_S_S1x64 main_cst_38
  let main_v101 : IVec S1x64 1 := cmpf .olt main_v99 main_v100
  let main_c_39 : IVec S_ 1 := constantI S_ 1 1#1
  fn_part6 (F := F) main_arg23 main_arg24 main_arg25 main_arg26 main_arg27 main_arg28 main_arg29 main_v98 main_v101 main_c_39

def fn_part4 {F : FTy → Type} [FloatOps F] (main_arg16 : FVec F S194x64 .f32) (main_arg17 : FVec F S64 .f32) (main_arg18 : FVec F S194x64 .f32) (main_arg19 : FVec F S64 .f32) (main_arg20 : FVec F S194x64 .f32) (main_arg21 : FVec F S64 .f32) (main_arg22 : FVec F S1x64 .f32) (main_arg23 : FVec F S64 .f32) (main_arg24 : FVec F S64x64 .f32) (main_arg25 : FVec F S64 .f32) (main_arg26 : FVec F S64x64 .f32) (main_arg27 : FVec F S64 .f32) (main_arg28 : FVec F S64x1 .f32) (main_arg29 : FVec F S1 .f32) (main_v63 : IVec S_ 1) (main_v67 : IVec S_ 1) : IVec S_ 1 :=
  let main_v68 : IVec S_ 1 := andi main_v63 main_v67
  let main_v69 : FVec F S194x64 .f32 := Host.absf main_arg16
  let main_cst_26 : FVec F S_ .f32 := constant S_ .f32 0x7F800000#32
  let main_v70 : FVec F S194x64 .f32 := broadcastInDim S194x64 ![] bcast_S_S194x64 main_cst_26
  let main_v71 : IVec S194x64 1 := cmpf .olt main_v69 main_v70
  let main_c_27 : IVec S_ 1 := constantI S_ 1 1#1
  let main_v72 : IVec S_ 1 := (fun x v => Host.reduce IntOp.andi x v reducesTo_S194x64_S_d0_1 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S194x64 .f32 := Host.absf main_arg18
  let main_cst_30 : FVec F S_ .f32 := constant S_ .f32 0x7F800000#32
  let main_v80 : FVec F S194x64 .f32 := broadcastInDim S194x64 ![] bcast_S_S194x64 main_cst_30
  let main_v81 : IVec S194x64 1 := cmpf .olt main_v79 main_v80
  let main_c_31 : IVec S_ 1 := constantI S_ 1 1#1
  let main_v82 : IVec S_ 1 := (fun x v => Host.reduce IntOp.andi x v reducesTo_S194x64_S_d0_1 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_arg29 main_v83 main_v84 main_cst_32

def fn_part3 {F : FTy → Type} [FloatOps F] (main_arg13 : FVec F S64 .f32) (main_arg14 : FVec F S64x64 .f32) (main_arg15 : FVec F S64 .f32) (main_arg16 : FVec F S194x64 .f32) (main_arg17 : FVec F S64 .f32) (main_arg18 : FVec F S194x64 .f32) (main_arg19 : FVec F S64 .f32) (main_arg20 : FVec F S194x64 .f32) (main_arg21 : FVec F S64 .f32) (main_arg22 : FVec F S1x64 .f32) (main_arg23 : FVec F S64 .f32) (main_arg24 : FVec F S64x64 .f32) (main_arg25 : FVec F S64 .f32) (main_arg26 : FVec F S64x64 .f32) (main_arg27 : FVec F S64 .f32) (main_arg28 : FVec F S64x1 .f32) (main_arg29 : FVec F S1 .f32) (main_v48 : IVec S_ 1) (main_v49 : FVec F S131x64 .f32) (main_v50 : FVec F S131x64 .f32) : IVec S_ 1 :=
  let main_v51 : IVec S131x64 1 := cmpf .olt main_v49 main_v50
  let main_c_19 : IVec S_ 1 := constantI S_ 1 1#1
  let main_v52 : IVec S_ 1 := (fun x v => Host.reduce IntOp.andi x v reducesTo_S131x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg14
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_arg19 main_arg20 main_arg21 main_arg22 main_arg23 main_arg24 main_arg25 main_arg26 main_arg27 main_arg28 main_arg29 main_v63 main_v67

def fn_part2 {F : FTy → Type} [FloatOps F] (main_arg9 : FVec F S64 .f32) (main_arg10 : FVec F S64x64 .f32) (main_arg11 : FVec F S64 .f32) (main_arg12 : FVec F S131x64 .f32) (main_arg13 : FVec F S64 .f32) (main_arg14 : FVec F S64x64 .f32) (main_arg15 : FVec F S64 .f32) (main_arg16 : FVec F S194x64 .f32) (main_arg17 : FVec F S64 .f32) (main_arg18 : FVec F S194x64 .f32) (main_arg19 : FVec F S64 .f32) (main_arg20 : FVec F S194x64 .f32) (main_arg21 : FVec F S64 .f32) (main_arg22 : FVec F S1x64 .f32) (main_arg23 : FVec F S64 .f32) (main_arg24 : FVec F S64x64 .f32) (main_arg25 : FVec F S64 .f32) (main_arg26 : FVec F S64x64 .f32) (main_arg27 : FVec F S64 .f32) (main_arg28 : FVec F S64x1 .f32) (main_arg29 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S131x64 .f32 := Host.absf main_arg12
  let main_cst_18 : FVec F S_ .f32 := constant S_ .f32 0x7F800000#32
  let main_v50 : FVec F S131x64 .f32 := broadcastInDim S131x64 ![] bcast_S_S131x64 main_cst_18
  fn_part3 (F := F) main_arg13 main_arg14 main_arg15 main_arg16 main_arg17 main_arg18 main_arg19 main_arg20 main_arg21 main_arg22 main_arg23 main_arg24 main_arg25 main_arg26 main_arg27 main_arg28 main_arg29 main_v48 main_v49 main_v50

def fn_part1 {F : FTy → Type} [FloatOps F] (main_arg6 : FVec F S800000 .f32) (main_arg7 : FVec F S50000x2 .f32) (main_arg8 : FVec F S131x64 .f32) (main_arg9 : FVec F S64 .f32) (main_arg10 : FVec F S64x64 .f32) (main_arg11 : FVec F S64 .f32) (main_arg12 : FVec F S131x64 .f32) (main_arg13 : FVec F S64 .f32) (main_arg14 : FVec F S64x64 .f32) (main_arg15 : FVec F S64 .f32) (main_arg16 : FVec F S194x64 .f32) (main_arg17 : FVec F S64 .f32) (main_arg18 : FVec F S194x64 .f32) (main_arg19 : FVec F S64 .f32) (main_arg20 : FVec F S194x64 .f32) (main_arg21 : FVec F S64 .f32) (main_arg22 : FVec F S1x64 .f32) (main_arg23 : FVec F S64 .f32) (main_arg24 : FVec F S64x64 .f32) (main_arg25 : FVec F S64 .f32) (main_arg26 : FVec F S64x64 .f32) (main_arg27 : FVec F S64 .f32) (main_arg28 : FVec F S64x1 .f32) (main_arg29 : FVec F S1 .f32) (main_v13 : IVec S_ 1) (main_v16 : IVec S800000x3 1) : IVec S_ 1 :=
  let main_c_5 : IVec S_ 1 := constantI S_ 1 1#1
  let main_v17 : IVec S_ 1 := (fun x v => Host.reduce IntOp.andi x v reducesTo_S800000x3_S_d0_1 h_S_) main_v16 main_c_5
  let main_v18 : IVec S_ 1 := andi main_v13 main_v17
  let main_v19 : FVec F S800000 .f32 := Host.absf main_arg6
  let main_cst_6 : FVec F S_ .f32 := constant S_ .f32 0x7F800000#32
  let main_v20 : FVec F S800000 .f32 := broadcastInDim S800000 ![] bcast_S_S800000 main_cst_6
  let main_v21 : IVec S800000 1 := cmpf .olt main_v19 main_v20
  let main_c_7 : IVec S_ 1 := constantI S_ 1 1#1
  let main_v22 : IVec S_ 1 := (fun x v => Host.reduce IntOp.andi x v reducesTo_S800000_S_d0 h_S_) main_v21 main_c_7
  let main_v23 : IVec S_ 1 := andi main_v18 main_v22
  let main_v24 : FVec F S50000x2 .f32 := Host.absf main_arg7
  let main_cst_8 : FVec F S_ .f32 := constant S_ .f32 0x7F800000#32
  let main_v25 : FVec F S50000x2 .f32 := broadcastInDim S50000x2 ![] bcast_S_S50000x2 main_cst_8
  let main_v26 : IVec S50000x2 1 := cmpf .olt main_v24 main_v25
  let main_c_9 : IVec S_ 1 := constantI S_ 1 1#1
  let main_v27 : IVec S_ 1 := (fun x v => Host.reduce IntOp.andi x v reducesTo_S50000x2_S_d0_1 h_S_) main_v26 main_c_9
  let main_v28 : IVec S_ 1 := andi main_v23 main_v27
  let main_v29 : FVec F S131x64 .f32 := Host.absf main_arg8
  let main_cst_10 : FVec F S_ .f32 := constant S_ .f32 0x7F800000#32
  let main_v30 : FVec F S131x64 .f32 := broadcastInDim S131x64 ![] bcast_S_S131x64 main_cst_10
  let main_v31 : IVec S131x64 1 := cmpf .olt main_v29 main_v30
  let main_c_11 : IVec S_ 1 := constantI S_ 1 1#1
  let main_v32 : IVec S_ 1 := (fun x v => Host.reduce IntOp.andi x v reducesTo_S131x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : FVec F S50000x1 .f32) (main_arg1 : FVec F S50000x1 .f32) (main_arg2 : FVec F S50000x1 .f32) (main_arg3 : IVec S50000 32) (main_arg4 : IVec S2x800000 32) (main_arg5 : FVec F S800000x3 .f32) (main_arg6 : FVec F S800000 .f32) (main_arg7 : FVec F S50000x2 .f32) (main_arg8 : FVec F S131x64 .f32) (main_arg9 : FVec F S64 .f32) (main_arg10 : FVec F S64x64 .f32) (main_arg11 : FVec F S64 .f32) (main_arg12 : FVec F S131x64 .f32) (main_arg13 : FVec F S64 .f32) (main_arg14 : FVec F S64x64 .f32) (main_arg15 : FVec F S64 .f32) (main_arg16 : FVec F S194x64 .f32) (main_arg17 : FVec F S64 .f32) (main_arg18 : FVec F S194x64 .f32) (main_arg19 : FVec F S64 .f32) (main_arg20 : FVec F S194x64 .f32) (main_arg21 : FVec F S64 .f32) (main_arg22 : FVec F S1x64 .f32) (main_arg23 : FVec F S64 .f32) (main_arg24 : FVec F S64x64 .f32) (main_arg25 : FVec F S64 .f32) (main_arg26 : FVec F S64x64 .f32) (main_arg27 : FVec F S64 .f32) (main_arg28 : FVec F S64x1 .f32) (main_arg29 : FVec F S1 .f32) : IVec S_ 1 :=
  let main_v0 : FVec F S50000x1 .f32 := Host.absf main_arg0
  let main_cst : FVec F S_ .f32 := constant S_ .f32 0x7F800000#32
  let main_v1 : FVec F S50000x1 .f32 := broadcastInDim S50000x1 ![] bcast_S_S50000x1 main_cst
  let main_v2 : IVec S50000x1 1 := cmpf .olt main_v0 main_v1
  let main_c : IVec S_ 1 := constantI S_ 1 1#1
  let main_v3 : IVec S_ 1 := (fun x v => Host.reduce IntOp.andi x v reducesTo_S50000x1_S_d0_1 h_S_) main_v2 main_c
  let main_v4 : FVec F S50000x1 .f32 := Host.absf main_arg1
  let main_cst_0 : FVec F S_ .f32 := constant S_ .f32 0x7F800000#32
  let main_v5 : FVec F S50000x1 .f32 := broadcastInDim S50000x1 ![] bcast_S_S50000x1 main_cst_0
  let main_v6 : IVec S50000x1 1 := cmpf .olt main_v4 main_v5
  let main_c_1 : IVec S_ 1 := constantI S_ 1 1#1
  let main_v7 : IVec S_ 1 := (fun x v => Host.reduce IntOp.andi x v reducesTo_S50000x1_S_d0_1 h_S_) main_v6 main_c_1
  let main_v8 : IVec S_ 1 := andi main_v3 main_v7
  let main_v9 : FVec F S50000x1 .f32 := Host.absf main_arg2
  let main_cst_2 : FVec F S_ .f32 := constant S_ .f32 0x7F800000#32
  let main_v10 : FVec F S50000x1 .f32 := broadcastInDim S50000x1 ![] bcast_S_S50000x1 main_cst_2
  let main_v11 : IVec S50000x1 1 := cmpf .olt main_v9 main_v10
  let main_c_3 : IVec S_ 1 := constantI S_ 1 1#1
  let main_v12 : IVec S_ 1 := (fun x v => Host.reduce IntOp.andi x v reducesTo_S50000x1_S_d0_1 h_S_) main_v11 main_c_3
  let main_v13 : IVec S_ 1 := andi main_v8 main_v12
  let main_v14 : FVec F S800000x3 .f32 := Host.absf main_arg5
  let main_cst_4 : FVec F S_ .f32 := constant S_ .f32 0x7F800000#32
  let main_v15 : FVec F S800000x3 .f32 := broadcastInDim S800000x3 ![] bcast_S_S800000x3 main_cst_4
  let main_v16 : IVec S800000x3 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S50000x1 : Shape := ⟨2, ![50000, 1]⟩
abbrev S50000 : Shape := ⟨1, ![50000]⟩
abbrev S2x800000 : Shape := ⟨2, ![2, 800000]⟩
abbrev S800000x3 : Shape := ⟨2, ![800000, 3]⟩
abbrev S800000 : Shape := ⟨1, ![800000]⟩
abbrev S50000x2 : Shape := ⟨2, ![50000, 2]⟩
abbrev S131x64 : Shape := ⟨2, ![131, 64]⟩
abbrev S64 : Shape := ⟨1, ![64]⟩
abbrev S64x64 : Shape := ⟨2, ![64, 64]⟩
abbrev S194x64 : Shape := ⟨2, ![194, 64]⟩
abbrev S1x64 : Shape := ⟨2, ![1, 64]⟩
abbrev S64x1 : Shape := ⟨2, ![64, 1]⟩
abbrev S1 : Shape := ⟨1, ![1]⟩
abbrev S1x800000 : Shape := ⟨2, ![1, 800000]⟩
abbrev S800000x1 : Shape := ⟨2, ![800000, 1]⟩
abbrev S50000x64 : Shape := ⟨2, ![50000, 64]⟩
abbrev S2000x1 : Shape := ⟨2, ![2000, 1]⟩
abbrev S2000x64 : Shape := ⟨2, ![2000, 64]⟩
abbrev S_ : Shape := ⟨0, ![]⟩
abbrev S3x64 : Shape := ⟨2, ![3, 64]⟩
abbrev S2x64 : Shape := ⟨2, ![2, 64]⟩
abbrev S800000x64 : Shape := ⟨2, ![800000, 64]⟩
abbrev S4000x64 : Shape := ⟨2, ![4000, 64]⟩
abbrev S4000x3 : Shape := ⟨2, ![4000, 3]⟩
abbrev S4000x1 : Shape := ⟨2, ![4000, 1]⟩
abbrev S2000x2 : Shape := ⟨2, ![2000, 2]⟩
abbrev S1x1 : Shape := ⟨2, ![1, 1]⟩

abbrev nBuf : Space → Nat
  | .hbm => 230
  | .vmem => 178
  | .smem => 0
  | _ => 0

abbrev hbmTy0_0 (i : Nat) : BufTy := match i % 128 with
  | 0 => ⟨S50000x1, .f32⟩
  | 1 => ⟨S50000x1, .f32⟩
  | 2 => ⟨S50000x1, .f32⟩
  | 3 => ⟨S50000, .i32⟩
  | 4 => ⟨S2x800000, .i32⟩
  | 5 => ⟨S800000x3, .f32⟩
  | 6 => ⟨S800000, .f32⟩
  | 7 => ⟨S50000x2, .f32⟩
  | 8 => ⟨S131x64, .f32⟩
  | 9 => ⟨S64, .f32⟩
  | 10 => ⟨S64x64, .f32⟩
  | 11 => ⟨S64, .f32⟩
  | 12 => ⟨S131x64, .f32⟩
  | 13 => ⟨S64, .f32⟩
  | 14 => ⟨S64x64, .f32⟩
  | 15 => ⟨S64, .f32⟩
  | 16 => ⟨S194x64, .f32⟩
  | 17 => ⟨S64, .f32⟩
  | 18 => ⟨S194x64, .f32⟩
  | 19 => ⟨S64, .f32⟩
  | 20 => ⟨S194x64, .f32⟩
  | 21 => ⟨S64, .f32⟩
  | 22 => ⟨S1x64, .f32⟩
  | 23 => ⟨S64, .f32⟩
  | 24 => ⟨S64x64, .f32⟩
  | 25 => ⟨S64, .f32⟩
  | 26 => ⟨S64x64, .f32⟩
  | 27 => ⟨S64, .f32⟩
  | 28 => ⟨S64x1, .f32⟩
  | 29 => ⟨S1, .f32⟩
  | 30 => ⟨S1x800000, .i32⟩
  | 31 => ⟨S800000, .i32⟩
  | 32 => ⟨S1x800000, .i32⟩
  | 33 => ⟨S800000, .i32⟩
  | 34 => ⟨S800000, .i1⟩
  | 35 => ⟨S800000, .f32⟩
  | 36 => ⟨S800000x1, .f32⟩
  | 37 => ⟨S1x64, .f32⟩
  | 38 => ⟨S1x64, .f32⟩
  | 39 => ⟨S50000x64, .f32⟩
  | 40 => ⟨S_, .i32⟩
  | 41 => ⟨S50000, .i32⟩
  | 42 => ⟨S50000, .i1⟩
  | 43 => ⟨S50000, .f32⟩
  | 44 => ⟨S50000x1, .f32⟩
  | 45 => ⟨S64x64, .f32⟩
  | 46 => ⟨S64x64, .f32⟩
  | 47 => ⟨S3x64, .f32⟩
  | 48 => ⟨S64x64, .f32⟩
  | 49 => ⟨S64x64, .f32⟩
  | 50 => ⟨S3x64, .f32⟩
  | 51 => ⟨S64x64, .f32⟩
  | 52 => ⟨S64x64, .f32⟩
  | 53 => ⟨S64x64, .f32⟩
  | 54 => ⟨S2x64, .f32⟩
  | 55 => ⟨S64x64, .f32⟩
  | 56 => ⟨S64x64, .f32⟩
  | 57 => ⟨S64x64, .f32⟩
  | 58 => ⟨S2x64, .f32⟩
  | 59 => ⟨S64x64, .f32⟩
  | 60 => ⟨S64x64, .f32⟩
  | 61 => ⟨S64x64, .f32⟩
  | 62 => ⟨S2x64, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x64, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000x64, .f32⟩
  | 81 => ⟨S1x64, .f32⟩
  | 82 => ⟨S1x64, .f32⟩
  | 83 => ⟨S800000x64, .f32⟩
  | 84 => ⟨S1x64, .f32⟩
  | 85 => ⟨S1x64, .f32⟩
  | 86 => ⟨S800000x64, .f32⟩
  | 87 => ⟨S_, .f32⟩
  | 88 => ⟨S50000x64, .f32⟩
  | 89 => ⟨S800000x1, .i32⟩
  | 90 => ⟨S50000x64, .f32⟩
  | 91 => ⟨S_, .f32⟩
  | 92 => ⟨S50000x64, .f32⟩
  | 93 => ⟨S800000x1, .i32⟩
  | 94 => ⟨S50000x64, .f32⟩
  | 95 => ⟨S1x64, .f32⟩
  | 96 => ⟨S1x64, .f32⟩
  | 97 => ⟨S1x64, .f32⟩
  | 98 => ⟨S50000x64, .f32⟩
  | 99 => ⟨S1x64, .f32⟩
  | 100 => ⟨S1x1, .f32⟩
  | 101 => ⟨S50000x1, .f32⟩
  | 102 => ⟨S800000x1, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x1, .f32⟩
  | 112 => ⟨S800000x1, .f32⟩
  | 113 => ⟨S_, .f32⟩
  | 114 => ⟨S50000x1, .f32⟩
  | 115 => ⟨S800000x1, .i32⟩
  | 116 => ⟨S50000x1, .f32⟩
  | 117 => ⟨S50000x1, .f32⟩
  | 118 => ⟨S50000x1, .f32⟩
  | 119 => ⟨S_, .f32⟩
  | 120 => ⟨S_, .f32⟩
  | 121 => ⟨S_, .f32⟩
  | 122 => ⟨S_, .f32⟩
  | 123 => ⟨S1x64, .f32⟩
  | 124 => ⟨S1x64, .f32⟩
  | 125 => ⟨S50000x64, .f32⟩
  | 126 => ⟨S50000x64, .f32⟩
  | 127 => ⟨S50000x64, .f32⟩
  | _ => ⟨S50000x1, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S1x64, .f32⟩
  | 5 => ⟨S1x1, .f32⟩
  | 6 => ⟨S50000x1, .f32⟩
  | 7 => ⟨S50000x1, .f32⟩
  | 8 => ⟨S50000x1, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x64, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x64, .f32⟩
  | 37 => ⟨S1x64, .f32⟩
  | 38 => ⟨S1x64, .f32⟩
  | 39 => ⟨S800000x64, .f32⟩
  | 40 => ⟨S1x64, .f32⟩
  | 41 => ⟨S1x64, .f32⟩
  | 42 => ⟨S800000x64, .f32⟩
  | 43 => ⟨S_, .f32⟩
  | 44 => ⟨S50000x64, .f32⟩
  | 45 => ⟨S800000x1, .i32⟩
  | 46 => ⟨S50000x64, .f32⟩
  | 47 => ⟨S_, .f32⟩
  | 48 => ⟨S50000x64, .f32⟩
  | 49 => ⟨S800000x1, .i32⟩
  | 50 => ⟨S50000x64, .f32⟩
  | 51 => ⟨S1x64, .f32⟩
  | 52 => ⟨S1x64, .f32⟩
  | 53 => ⟨S1x64, .f32⟩
  | 54 => ⟨S50000x64, .f32⟩
  | 55 => ⟨S1x64, .f32⟩
  | 56 => ⟨S1x1, .f32⟩
  | 57 => ⟨S50000x1, .f32⟩
  | 58 => ⟨S800000x1, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x1, .f32⟩
  | 68 => ⟨S800000x1, .f32⟩
  | 69 => ⟨S_, .f32⟩
  | 70 => ⟨S50000x1, .f32⟩
  | 71 => ⟨S800000x1, .i32⟩
  | 72 => ⟨S50000x1, .f32⟩
  | 73 => ⟨S50000x1, .f32⟩
  | 74 => ⟨S50000x1, .f32⟩
  | 75 => ⟨S_, .f32⟩
  | 76 => ⟨S_, .f32⟩
  | 77 => ⟨S_, .f32⟩
  | 78 => ⟨S_, .f32⟩
  | 79 => ⟨S1x64, .f32⟩
  | 80 => ⟨S1x64, .f32⟩
  | 81 => ⟨S50000x64, .f32⟩
  | 82 => ⟨S50000x64, .f32⟩
  | 83 => ⟨S50000x64, .f32⟩
  | 84 => ⟨S_, .f32⟩
  | 85 => ⟨S_, .f32⟩
  | 86 => ⟨S_, .f32⟩
  | 87 => ⟨S_, .f32⟩
  | 88 => ⟨S1x64, .f32⟩
  | 89 => ⟨S1x1, .f32⟩
  | 90 => ⟨S50000x1, .f32⟩
  | 91 => ⟨S50000x1, .f32⟩
  | 92 => ⟨S50000x1, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | _ => ⟨S50000x1, .f32⟩

abbrev hbmTy (i : Nat) : BufTy := match i / 128 with
  | 0 => hbmTy0_0 i
  | 1 => hbmTy0_1 i
  | _ => ⟨S50000x1, .f32⟩

abbrev vmemTy0_0 (i : Nat) : BufTy := match i % 128 with
  | 0 => ⟨S2000x1, .f32⟩
  | 1 => ⟨S2000x1, .f32⟩
  | 2 => ⟨S1x64, .f32⟩
  | 3 => ⟨S1x64, .f32⟩
  | 4 => ⟨S64x64, .f32⟩
  | 5 => ⟨S1x64, .f32⟩
  | 6 => ⟨S2000x64, .f32⟩
  | 7 => ⟨S2000x64, .f32⟩
  | 8 => ⟨S4000x64, .f32⟩
  | 9 => ⟨S4000x64, .f32⟩
  | 10 => ⟨S4000x64, .f32⟩
  | 11 => ⟨S4000x64, .f32⟩
  | 12 => ⟨S4000x3, .f32⟩
  | 13 => ⟨S4000x3, .f32⟩
  | 14 => ⟨S4000x1, .f32⟩
  | 15 => ⟨S4000x1, .f32⟩
  | 16 => ⟨S64x64, .f32⟩
  | 17 => ⟨S64x64, .f32⟩
  | 18 => ⟨S3x64, .f32⟩
  | 19 => ⟨S1x64, .f32⟩
  | 20 => ⟨S64x64, .f32⟩
  | 21 => ⟨S1x64, .f32⟩
  | 22 => ⟨S4000x64, .f32⟩
  | 23 => ⟨S4000x64, .f32⟩
  | 24 => ⟨S4000x64, .f32⟩
  | 25 => ⟨S4000x64, .f32⟩
  | 26 => ⟨S4000x64, .f32⟩
  | 27 => ⟨S4000x64, .f32⟩
  | 28 => ⟨S4000x3, .f32⟩
  | 29 => ⟨S4000x3, .f32⟩
  | 30 => ⟨S4000x1, .f32⟩
  | 31 => ⟨S4000x1, .f32⟩
  | 32 => ⟨S64x64, .f32⟩
  | 33 => ⟨S64x64, .f32⟩
  | 34 => ⟨S3x64, .f32⟩
  | 35 => ⟨S1x64, .f32⟩
  | 36 => ⟨S64x64, .f32⟩
  | 37 => ⟨S1x64, .f32⟩
  | 38 => ⟨S4000x64, .f32⟩
  | 39 => ⟨S4000x64, .f32⟩
  | 40 => ⟨S2000x64, .f32⟩
  | 41 => ⟨S2000x64, .f32⟩
  | 42 => ⟨S2000x64, .f32⟩
  | 43 => ⟨S2000x64, .f32⟩
  | 44 => ⟨S2000x64, .f32⟩
  | 45 => ⟨S2000x64, .f32⟩
  | 46 => ⟨S2000x2, .f32⟩
  | 47 => ⟨S2000x2, .f32⟩
  | 48 => ⟨S2000x64, .f32⟩
  | 49 => ⟨S2000x64, .f32⟩
  | 50 => ⟨S2000x1, .f32⟩
  | 51 => ⟨S2000x1, .f32⟩
  | 52 => ⟨S64x64, .f32⟩
  | 53 => ⟨S64x64, .f32⟩
  | 54 => ⟨S64x64, .f32⟩
  | 55 => ⟨S2x64, .f32⟩
  | 56 => ⟨S1x64, .f32⟩
  | 57 => ⟨S64x64, .f32⟩
  | 58 => ⟨S64x64, .f32⟩
  | 59 => ⟨S64x64, .f32⟩
  | 60 => ⟨S2x64, .f32⟩
  | 61 => ⟨S1x64, .f32⟩
  | 62 => ⟨S64x64, .f32⟩
  | 63 => ⟨S64x64, .f32⟩
  | 64 => ⟨S64x64, .f32⟩
  | 65 => ⟨S2x64, .f32⟩
  | 66 => ⟨S1x64, .f32⟩
  | 67 => ⟨S2000x64, .f32⟩
  | 68 => ⟨S2000x64, .f32⟩
  | 69 => ⟨S2000x64, .f32⟩
  | 70 => ⟨S2000x64, .f32⟩
  | 71 => ⟨S64x64, .f32⟩
  | 72 => ⟨S1x64, .f32⟩
  | 73 => ⟨S64x1, .f32⟩
  | 74 => ⟨S1x1, .f32⟩
  | 75 => ⟨S2000x1, .f32⟩
  | 76 => ⟨S2000x1, .f32⟩
  | 77 => ⟨S2000x1, .f32⟩
  | 78 => ⟨S2000x1, .f32⟩
  | 79 => ⟨S1x64, .f32⟩
  | 80 => ⟨S1x64, .f32⟩
  | 81 => ⟨S64x64, .f32⟩
  | 82 => ⟨S1x64, .f32⟩
  | 83 => ⟨S2000x64, .f32⟩
  | 84 => ⟨S2000x64, .f32⟩
  | 85 => ⟨S2000x64, .f32⟩
  | 86 => ⟨S2000x64, .f32⟩
  | 87 => ⟨S64x64, .f32⟩
  | 88 => ⟨S1x64, .f32⟩
  | 89 => ⟨S64x1, .f32⟩
  | 90 => ⟨S1x1, .f32⟩
  | 91 => ⟨S2000x1, .f32⟩
  | 92 => ⟨S2000x1, .f32⟩
  | 93 => ⟨S4000x64, .f32⟩
  | 94 => ⟨S4000x64, .f32⟩
  | 95 => ⟨S4000x64, .f32⟩
  | 96 => ⟨S4000x64, .f32⟩
  | 97 => ⟨S4000x3, .f32⟩
  | 98 => ⟨S4000x3, .f32⟩
  | 99 => ⟨S4000x1, .f32⟩
  | 100 => ⟨S4000x1, .f32⟩
  | 101 => ⟨S64x64, .f32⟩
  | 102 => ⟨S64x64, .f32⟩
  | 103 => ⟨S3x64, .f32⟩
  | 104 => ⟨S1x64, .f32⟩
  | 105 => ⟨S64x64, .f32⟩
  | 106 => ⟨S1x64, .f32⟩
  | 107 => ⟨S4000x64, .f32⟩
  | 108 => ⟨S4000x64, .f32⟩
  | 109 => ⟨S4000x64, .f32⟩
  | 110 => ⟨S4000x64, .f32⟩
  | 111 => ⟨S4000x64, .f32⟩
  | 112 => ⟨S4000x64, .f32⟩
  | 113 => ⟨S4000x3, .f32⟩
  | 114 => ⟨S4000x3, .f32⟩
  | 115 => ⟨S4000x1, .f32⟩
  | 116 => ⟨S4000x1, .f32⟩
  | 117 => ⟨S64x64, .f32⟩
  | 118 => ⟨S64x64, .f32⟩
  | 119 => ⟨S3x64, .f32⟩
  | 120 => ⟨S1x64, .f32⟩
  | 121 => ⟨S64x64, .f32⟩
  | 122 => ⟨S1x64, .f32⟩
  | 123 => ⟨S4000x64, .f32⟩
  | 124 => ⟨S4000x64, .f32⟩
  | 125 => ⟨S2000x64, .f32⟩
  | 126 => ⟨S2000x64, .f32⟩
  | 127 => ⟨S2000x64, .f32⟩
  | _ => ⟨S50000x1, .f32⟩

abbrev vmemTy0_1 (i : Nat) : BufTy := match i % 128 with
  | 0 => ⟨S2000x64, .f32⟩
  | 1 => ⟨S2000x64, .f32⟩
  | 2 => ⟨S2000x64, .f32⟩
  | 3 => ⟨S2000x2, .f32⟩
  | 4 => ⟨S2000x2, .f32⟩
  | 5 => ⟨S2000x64, .f32⟩
  | 6 => ⟨S2000x64, .f32⟩
  | 7 => ⟨S2000x1, .f32⟩
  | 8 => ⟨S2000x1, .f32⟩
  | 9 => ⟨S64x64, .f32⟩
  | 10 => ⟨S64x64, .f32⟩
  | 11 => ⟨S64x64, .f32⟩
  | 12 => ⟨S2x64, .f32⟩
  | 13 => ⟨S1x64, .f32⟩
  | 14 => ⟨S64x64, .f32⟩
  | 15 => ⟨S64x64, .f32⟩
  | 16 => ⟨S64x64, .f32⟩
  | 17 => ⟨S2x64, .f32⟩
  | 18 => ⟨S1x64, .f32⟩
  | 19 => ⟨S64x64, .f32⟩
  | 20 => ⟨S64x64, .f32⟩
  | 21 => ⟨S64x64, .f32⟩
  | 22 => ⟨S2x64, .f32⟩
  | 23 => ⟨S1x64, .f32⟩
  | 24 => ⟨S2000x64, .f32⟩
  | 25 => ⟨S2000x64, .f32⟩
  | 26 => ⟨S2000x64, .f32⟩
  | 27 => ⟨S2000x64, .f32⟩
  | 28 => ⟨S64x64, .f32⟩
  | 29 => ⟨S1x64, .f32⟩
  | 30 => ⟨S64x1, .f32⟩
  | 31 => ⟨S1x1, .f32⟩
  | 32 => ⟨S2000x1, .f32⟩
  | 33 => ⟨S2000x1, .f32⟩
  | 34 => ⟨S2000x1, .f32⟩
  | 35 => ⟨S2000x1, .f32⟩
  | 36 => ⟨S1x64, .f32⟩
  | 37 => ⟨S1x64, .f32⟩
  | 38 => ⟨S64x64, .f32⟩
  | 39 => ⟨S1x64, .f32⟩
  | 40 => ⟨S2000x64, .f32⟩
  | 41 => ⟨S2000x64, .f32⟩
  | 42 => ⟨S2000x64, .f32⟩
  | 43 => ⟨S2000x64, .f32⟩
  | 44 => ⟨S64x64, .f32⟩
  | 45 => ⟨S1x64, .f32⟩
  | 46 => ⟨S64x1, .f32⟩
  | 47 => ⟨S1x1, .f32⟩
  | 48 => ⟨S2000x1, .f32⟩
  | 49 => ⟨S2000x1, .f32⟩
  | _ => ⟨S50000x1, .f32⟩

abbrev vmemTy (i : Nat) : BufTy := match i / 128 with
  | 0 => vmemTy0_0 i
  | 1 => vmemTy0_1 i
  | _ => ⟨S50000x1, .f32⟩

abbrev bufTy : (tb : Table) → Fin (tcTables nBuf tb) → BufTy
  | .hbm, ⟨i, _⟩ => hbmTy i
  | .local _ .vmem, ⟨i, _⟩ => vmemTy i
  | _, _ => ⟨S50000x1, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 178 → Bool
  | ⟨i, _⟩ => dmaSemScopedAt i

abbrev sig : RefSig :=
  ofTc nBuf bufTy 0 178 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_c : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_c_0 : Ref sig .tc := ⟨.hbm, 63, rfl⟩
abbrev main_v32 : Ref sig .tc := ⟨.hbm, 64, rfl⟩
abbrev main_v33 : Ref sig .tc := ⟨.hbm, 65, rfl⟩
abbrev main_c_1 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_c_2 : Ref sig .tc := ⟨.hbm, 72, rfl⟩
abbrev main_v39 : Ref sig .tc := ⟨.hbm, 73, rfl⟩
abbrev main_v40 : Ref sig .tc := ⟨.hbm, 74, rfl⟩
abbrev main_c_3 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_4 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_c_5 : Ref sig .tc := ⟨.hbm, 103, rfl⟩
abbrev main_v66 : Ref sig .tc := ⟨.hbm, 104, rfl⟩
abbrev main_v67 : Ref sig .tc := ⟨.hbm, 105, rfl⟩
abbrev main_c_6 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_7 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_cst_8 : Ref sig .tc := ⟨.hbm, 119, rfl⟩
abbrev main_v79 : Ref sig .tc := ⟨.hbm, 120, rfl⟩
abbrev main_cst_9 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_10 : Ref sig .tc := ⟨.hbm, 128, rfl⟩
abbrev main_v86 : Ref sig .tc := ⟨.hbm, 129, rfl⟩
abbrev main_cst_11 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_12 : Ref sig .tc := ⟨.hbm, 137, rfl⟩
abbrev main_v93 : Ref sig .tc := ⟨.hbm, 138, rfl⟩
abbrev main_cst_13 : Ref sig .tc := ⟨.hbm, 139, rfl⟩
abbrev main_v94 : Ref sig .tc := ⟨.hbm, 140, rfl⟩
abbrev main_cst_14 : Ref sig .tc := ⟨.hbm, 141, rfl⟩
abbrev main_v95 : Ref sig .tc := ⟨.hbm, 142, rfl⟩
abbrev main_cst_15 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_c_16 : Ref sig .tc := ⟨.hbm, 147, rfl⟩
abbrev main_v99 : Ref sig .tc := ⟨.hbm, 148, rfl⟩
abbrev main_v100 : Ref sig .tc := ⟨.hbm, 149, rfl⟩
abbrev main_c_17 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_c_18 : Ref sig .tc := ⟨.hbm, 156, rfl⟩
abbrev main_v106 : Ref sig .tc := ⟨.hbm, 157, rfl⟩
abbrev main_v107 : Ref sig .tc := ⟨.hbm, 158, rfl⟩
abbrev main_c_19 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_cst_20 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_cst_21 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_c_22 : Ref sig .tc := ⟨.hbm, 187, rfl⟩
abbrev main_v133 : Ref sig .tc := ⟨.hbm, 188, rfl⟩
abbrev main_v134 : Ref sig .tc := ⟨.hbm, 189, rfl⟩
abbrev main_c_23 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_cst_24 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_cst_25 : Ref sig .tc := ⟨.hbm, 203, rfl⟩
abbrev main_v146 : Ref sig .tc := ⟨.hbm, 204, rfl⟩
abbrev main_cst_26 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_cst_27 : Ref sig .tc := ⟨.hbm, 212, rfl⟩
abbrev main_v153 : Ref sig .tc := ⟨.hbm, 213, rfl⟩
abbrev main_cst_28 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_cst_29 : Ref sig .tc := ⟨.hbm, 221, rfl⟩
abbrev main_v160 : Ref sig .tc := ⟨.hbm, 222, rfl⟩
abbrev main_cst_30 : Ref sig .tc := ⟨.hbm, 223, rfl⟩
abbrev main_v161 : Ref sig .tc := ⟨.hbm, 224, rfl⟩
abbrev main_cst_31 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg10_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg8_0 : Ref sig .tc := ⟨.vmem, 36, rfl⟩
abbrev cc2_stg9_0 : Ref sig .tc := ⟨.vmem, 37, rfl⟩
abbrev cc2_stg10_0 : Ref sig .tc := ⟨.vmem, 38, rfl⟩
abbrev cc2_stg10_1 : Ref sig .tc := ⟨.vmem, 39, rfl⟩
abbrev cc3_stg0_0 : Ref sig .tc := ⟨.vmem, 40, rfl⟩
abbrev cc3_stg0_1 : Ref sig .tc := ⟨.vmem, 41, rfl⟩
abbrev cc3_stg1_0 : Ref sig .tc := ⟨.vmem, 42, rfl⟩
abbrev cc3_stg1_1 : Ref sig .tc := ⟨.vmem, 43, rfl⟩
abbrev cc3_stg2_0 : Ref sig .tc := ⟨.vmem, 44, rfl⟩
abbrev cc3_stg2_1 : Ref sig .tc := ⟨.vmem, 45, rfl⟩
abbrev cc3_stg3_0 : Ref sig .tc := ⟨.vmem, 46, rfl⟩
abbrev cc3_stg3_1 : Ref sig .tc := ⟨.vmem, 47, rfl⟩
abbrev cc3_stg4_0 : Ref sig .tc := ⟨.vmem, 48, rfl⟩
abbrev cc3_stg4_1 : Ref sig .tc := ⟨.vmem, 49, rfl⟩
abbrev cc3_stg5_0 : Ref sig .tc := ⟨.vmem, 50, rfl⟩
abbrev cc3_stg5_1 : Ref sig .tc := ⟨.vmem, 51, rfl⟩
abbrev cc3_stg6_0 : Ref sig .tc := ⟨.vmem, 52, rfl⟩
abbrev cc3_stg7_0 : Ref sig .tc := ⟨.vmem, 53, rfl⟩
abbrev cc3_stg8_0 : Ref sig .tc := ⟨.vmem, 54, rfl⟩
abbrev cc3_stg9_0 : Ref sig .tc := ⟨.vmem, 55, rfl⟩
abbrev cc3_stg10_0 : Ref sig .tc := ⟨.vmem, 56, rfl⟩
abbrev cc3_stg11_0 : Ref sig .tc := ⟨.vmem, 57, rfl⟩
abbrev cc3_stg12_0 : Ref sig .tc := ⟨.vmem, 58, rfl⟩
abbrev cc3_stg13_0 : Ref sig .tc := ⟨.vmem, 59, rfl⟩
abbrev cc3_stg14_0 : Ref sig .tc := ⟨.vmem, 60, rfl⟩
abbrev cc3_stg15_0 : Ref sig .tc := ⟨.vmem, 61, rfl⟩
abbrev cc3_stg16_0 : Ref sig .tc := ⟨.vmem, 62, rfl⟩
abbrev cc3_stg17_0 : Ref sig .tc := ⟨.vmem, 63, rfl⟩
abbrev cc3_stg18_0 : Ref sig .tc := ⟨.vmem, 64, rfl⟩
abbrev cc3_stg19_0 : Ref sig .tc := ⟨.vmem, 65, rfl⟩
abbrev cc3_stg20_0 : Ref sig .tc := ⟨.vmem, 66, rfl⟩
abbrev cc3_stg21_0 : Ref sig .tc := ⟨.vmem, 67, rfl⟩
abbrev cc3_stg21_1 : Ref sig .tc := ⟨.vmem, 68, rfl⟩
abbrev cc4_stg0_0 : Ref sig .tc := ⟨.vmem, 69, rfl⟩
abbrev cc4_stg0_1 : Ref sig .tc := ⟨.vmem, 70, rfl⟩
abbrev cc4_stg1_0 : Ref sig .tc := ⟨.vmem, 71, rfl⟩
abbrev cc4_stg2_0 : Ref sig .tc := ⟨.vmem, 72, rfl⟩
abbrev cc4_stg3_0 : Ref sig .tc := ⟨.vmem, 73, rfl⟩
abbrev cc4_stg4_0 : Ref sig .tc := ⟨.vmem, 74, rfl⟩
abbrev cc4_stg5_0 : Ref sig .tc := ⟨.vmem, 75, rfl⟩
abbrev cc4_stg5_1 : Ref sig .tc := ⟨.vmem, 76, rfl⟩
abbrev cc5_stg0_0 : Ref sig .tc := ⟨.vmem, 77, rfl⟩
abbrev cc5_stg0_1 : Ref sig .tc := ⟨.vmem, 78, rfl⟩
abbrev cc5_stg1_0 : Ref sig .tc := ⟨.vmem, 79, rfl⟩
abbrev cc5_stg2_0 : Ref sig .tc := ⟨.vmem, 80, rfl⟩
abbrev cc5_stg3_0 : Ref sig .tc := ⟨.vmem, 81, rfl⟩
abbrev cc5_stg4_0 : Ref sig .tc := ⟨.vmem, 82, rfl⟩
abbrev cc5_stg5_0 : Ref sig .tc := ⟨.vmem, 83, rfl⟩
abbrev cc5_stg5_1 : Ref sig .tc := ⟨.vmem, 84, rfl⟩
abbrev cc6_stg0_0 : Ref sig .tc := ⟨.vmem, 85, rfl⟩
abbrev cc6_stg0_1 : Ref sig .tc := ⟨.vmem, 86, rfl⟩
abbrev cc6_stg1_0 : Ref sig .tc := ⟨.vmem, 87, rfl⟩
abbrev cc6_stg2_0 : Ref sig .tc := ⟨.vmem, 88, rfl⟩
abbrev cc6_stg3_0 : Ref sig .tc := ⟨.vmem, 89, rfl⟩
abbrev cc6_stg4_0 : Ref sig .tc := ⟨.vmem, 90, rfl⟩
abbrev cc6_stg5_0 : Ref sig .tc := ⟨.vmem, 91, rfl⟩
abbrev cc6_stg5_1 : Ref sig .tc := ⟨.vmem, 92, rfl⟩
abbrev cc7_stg0_0 : Ref sig .tc := ⟨.vmem, 93, rfl⟩
abbrev cc7_stg0_1 : Ref sig .tc := ⟨.vmem, 94, rfl⟩
abbrev cc7_stg1_0 : Ref sig .tc := ⟨.vmem, 95, rfl⟩
abbrev cc7_stg1_1 : Ref sig .tc := ⟨.vmem, 96, rfl⟩
abbrev cc7_stg2_0 : Ref sig .tc := ⟨.vmem, 97, rfl⟩
abbrev cc7_stg2_1 : Ref sig .tc := ⟨.vmem, 98, rfl⟩
abbrev cc7_stg3_0 : Ref sig .tc := ⟨.vmem, 99, rfl⟩
abbrev cc7_stg3_1 : Ref sig .tc := ⟨.vmem, 100, rfl⟩
abbrev cc7_stg4_0 : Ref sig .tc := ⟨.vmem, 101, rfl⟩
abbrev cc7_stg5_0 : Ref sig .tc := ⟨.vmem, 102, rfl⟩
abbrev cc7_stg6_0 : Ref sig .tc := ⟨.vmem, 103, rfl⟩
abbrev cc7_stg7_0 : Ref sig .tc := ⟨.vmem, 104, rfl⟩
abbrev cc7_stg8_0 : Ref sig .tc := ⟨.vmem, 105, rfl⟩
abbrev cc7_stg9_0 : Ref sig .tc := ⟨.vmem, 106, rfl⟩
abbrev cc7_stg10_0 : Ref sig .tc := ⟨.vmem, 107, rfl⟩
abbrev cc7_stg10_1 : Ref sig .tc := ⟨.vmem, 108, rfl⟩
abbrev cc8_stg0_0 : Ref sig .tc := ⟨.vmem, 109, rfl⟩
abbrev cc8_stg0_1 : Ref sig .tc := ⟨.vmem, 110, rfl⟩
abbrev cc8_stg1_0 : Ref sig .tc := ⟨.vmem, 111, rfl⟩
abbrev cc8_stg1_1 : Ref sig .tc := ⟨.vmem, 112, rfl⟩
abbrev cc8_stg2_0 : Ref sig .tc := ⟨.vmem, 113, rfl⟩
abbrev cc8_stg2_1 : Ref sig .tc := ⟨.vmem, 114, rfl⟩
abbrev cc8_stg3_0 : Ref sig .tc := ⟨.vmem, 115, rfl⟩
abbrev cc8_stg3_1 : Ref sig .tc := ⟨.vmem, 116, rfl⟩
abbrev cc8_stg4_0 : Ref sig .tc := ⟨.vmem, 117, rfl⟩
abbrev cc8_stg5_0 : Ref sig .tc := ⟨.vmem, 118, rfl⟩
abbrev cc8_stg6_0 : Ref sig .tc := ⟨.vmem, 119, rfl⟩
abbrev cc8_stg7_0 : Ref sig .tc := ⟨.vmem, 120, rfl⟩
abbrev cc8_stg8_0 : Ref sig .tc := ⟨.vmem, 121, rfl⟩
abbrev cc8_stg9_0 : Ref sig .tc := ⟨.vmem, 122, rfl⟩
abbrev cc8_stg10_0 : Ref sig .tc := ⟨.vmem, 123, rfl⟩
abbrev cc8_stg10_1 : Ref sig .tc := ⟨.vmem, 124, rfl⟩
abbrev cc9_stg0_0 : Ref sig .tc := ⟨.vmem, 125, rfl⟩
abbrev cc9_stg0_1 : Ref sig .tc := ⟨.vmem, 126, rfl⟩
abbrev cc9_stg1_0 : Ref sig .tc := ⟨.vmem, 127, rfl⟩
abbrev cc9_stg1_1 : Ref sig .tc := ⟨.vmem, 128, rfl⟩
abbrev cc9_stg2_0 : Ref sig .tc := ⟨.vmem, 129, rfl⟩
abbrev cc9_stg2_1 : Ref sig .tc := ⟨.vmem, 130, rfl⟩
abbrev cc9_stg3_0 : Ref sig .tc := ⟨.vmem, 131, rfl⟩
abbrev cc9_stg3_1 : Ref sig .tc := ⟨.vmem, 132, rfl⟩
abbrev cc9_stg4_0 : Ref sig .tc := ⟨.vmem, 133, rfl⟩
abbrev cc9_stg4_1 : Ref sig .tc := ⟨.vmem, 134, rfl⟩
abbrev cc9_stg5_0 : Ref sig .tc := ⟨.vmem, 135, rfl⟩
abbrev cc9_stg5_1 : Ref sig .tc := ⟨.vmem, 136, rfl⟩
abbrev cc9_stg6_0 : Ref sig .tc := ⟨.vmem, 137, rfl⟩
abbrev cc9_stg7_0 : Ref sig .tc := ⟨.vmem, 138, rfl⟩
abbrev cc9_stg8_0 : Ref sig .tc := ⟨.vmem, 139, rfl⟩
abbrev cc9_stg9_0 : Ref sig .tc := ⟨.vmem, 140, rfl⟩
abbrev cc9_stg10_0 : Ref sig .tc := ⟨.vmem, 141, rfl⟩
abbrev cc9_stg11_0 : Ref sig .tc := ⟨.vmem, 142, rfl⟩
abbrev cc9_stg12_0 : Ref sig .tc := ⟨.vmem, 143, rfl⟩
abbrev cc9_stg13_0 : Ref sig .tc := ⟨.vmem, 144, rfl⟩
abbrev cc9_stg14_0 : Ref sig .tc := ⟨.vmem, 145, rfl⟩
abbrev cc9_stg15_0 : Ref sig .tc := ⟨.vmem, 146, rfl⟩
abbrev cc9_stg16_0 : Ref sig .tc := ⟨.vmem, 147, rfl⟩
abbrev cc9_stg17_0 : Ref sig .tc := ⟨.vmem, 148, rfl⟩
abbrev cc9_stg18_0 : Ref sig .tc := ⟨.vmem, 149, rfl⟩
abbrev cc9_stg19_0 : Ref sig .tc := ⟨.vmem, 150, rfl⟩
abbrev cc9_stg20_0 : Ref sig .tc := ⟨.vmem, 151, rfl⟩
abbrev cc9_stg21_0 : Ref sig .tc := ⟨.vmem, 152, rfl⟩
abbrev cc9_stg21_1 : Ref sig .tc := ⟨.vmem, 153, rfl⟩
abbrev cc10_stg0_0 : Ref sig .tc := ⟨.vmem, 154, rfl⟩
abbrev cc10_stg0_1 : Ref sig .tc := ⟨.vmem, 155, rfl⟩
abbrev cc10_stg1_0 : Ref sig .tc := ⟨.vmem, 156, rfl⟩
abbrev cc10_stg2_0 : Ref sig .tc := ⟨.vmem, 157, rfl⟩
abbrev cc10_stg3_0 : Ref sig .tc := ⟨.vmem, 158, rfl⟩
abbrev cc10_stg4_0 : Ref sig .tc := ⟨.vmem, 159, rfl⟩
abbrev cc10_stg5_0 : Ref sig .tc := ⟨.vmem, 160, rfl⟩
abbrev cc10_stg5_1 : Ref sig .tc := ⟨.vmem, 161, rfl⟩
abbrev cc11_stg0_0 : Ref sig .tc := ⟨.vmem, 162, rfl⟩
abbrev cc11_stg0_1 : Ref sig .tc := ⟨.vmem, 163, rfl⟩
abbrev cc11_stg1_0 : Ref sig .tc := ⟨.vmem, 164, rfl⟩
abbrev cc11_stg2_0 : Ref sig .tc := ⟨.vmem, 165, rfl⟩
abbrev cc11_stg3_0 : Ref sig .tc := ⟨.vmem, 166, rfl⟩
abbrev cc11_stg4_0 : Ref sig .tc := ⟨.vmem, 167, rfl⟩
abbrev cc11_stg5_0 : Ref sig .tc := ⟨.vmem, 168, rfl⟩
abbrev cc11_stg5_1 : Ref sig .tc := ⟨.vmem, 169, rfl⟩
abbrev cc12_stg0_0 : Ref sig .tc := ⟨.vmem, 170, rfl⟩
abbrev cc12_stg0_1 : Ref sig .tc := ⟨.vmem, 171, rfl⟩
abbrev cc12_stg1_0 : Ref sig .tc := ⟨.vmem, 172, rfl⟩
abbrev cc12_stg2_0 : Ref sig .tc := ⟨.vmem, 173, rfl⟩
abbrev cc12_stg3_0 : Ref sig .tc := ⟨.vmem, 174, rfl⟩
abbrev cc12_stg4_0 : Ref sig .tc := ⟨.vmem, 175, rfl⟩
abbrev cc12_stg5_0 : Ref sig .tc := ⟨.vmem, 176, rfl⟩
abbrev cc12_stg5_1 : Ref sig .tc := ⟨.vmem, 177, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem10_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem8_0 : DmaSem sig := 36
abbrev cc2_sem9_0 : DmaSem sig := 37
abbrev cc2_sem10_0 : DmaSem sig := 38
abbrev cc2_sem10_1 : DmaSem sig := 39
abbrev cc3_sem0_0 : DmaSem sig := 40
abbrev cc3_sem0_1 : DmaSem sig := 41
abbrev cc3_sem1_0 : DmaSem sig := 42
abbrev cc3_sem1_1 : DmaSem sig := 43
abbrev cc3_sem2_0 : DmaSem sig := 44
abbrev cc3_sem2_1 : DmaSem sig := 45
abbrev cc3_sem3_0 : DmaSem sig := 46
abbrev cc3_sem3_1 : DmaSem sig := 47
abbrev cc3_sem4_0 : DmaSem sig := 48
abbrev cc3_sem4_1 : DmaSem sig := 49
abbrev cc3_sem5_0 : DmaSem sig := 50
abbrev cc3_sem5_1 : DmaSem sig := 51
abbrev cc3_sem6_0 : DmaSem sig := 52
abbrev cc3_sem7_0 : DmaSem sig := 53
abbrev cc3_sem8_0 : DmaSem sig := 54
abbrev cc3_sem9_0 : DmaSem sig := 55
abbrev cc3_sem10_0 : DmaSem sig := 56
abbrev cc3_sem11_0 : DmaSem sig := 57
abbrev cc3_sem12_0 : DmaSem sig := 58
abbrev cc3_sem13_0 : DmaSem sig := 59
abbrev cc3_sem14_0 : DmaSem sig := 60
abbrev cc3_sem15_0 : DmaSem sig := 61
abbrev cc3_sem16_0 : DmaSem sig := 62
abbrev cc3_sem17_0 : DmaSem sig := 63
abbrev cc3_sem18_0 : DmaSem sig := 64
abbrev cc3_sem19_0 : DmaSem sig := 65
abbrev cc3_sem20_0 : DmaSem sig := 66
abbrev cc3_sem21_0 : DmaSem sig := 67
abbrev cc3_sem21_1 : DmaSem sig := 68
abbrev cc4_sem0_0 : DmaSem sig := 69
abbrev cc4_sem0_1 : DmaSem sig := 70
abbrev cc4_sem1_0 : DmaSem sig := 71
abbrev cc4_sem2_0 : DmaSem sig := 72
abbrev cc4_sem3_0 : DmaSem sig := 73
abbrev cc4_sem4_0 : DmaSem sig := 74
abbrev cc4_sem5_0 : DmaSem sig := 75
abbrev cc4_sem5_1 : DmaSem sig := 76
abbrev cc5_sem0_0 : DmaSem sig := 77
abbrev cc5_sem0_1 : DmaSem sig := 78
abbrev cc5_sem1_0 : DmaSem sig := 79
abbrev cc5_sem2_0 : DmaSem sig := 80
abbrev cc5_sem3_0 : DmaSem sig := 81
abbrev cc5_sem4_0 : DmaSem sig := 82
abbrev cc5_sem5_0 : DmaSem sig := 83
abbrev cc5_sem5_1 : DmaSem sig := 84
abbrev cc6_sem0_0 : DmaSem sig := 85
abbrev cc6_sem0_1 : DmaSem sig := 86
abbrev cc6_sem1_0 : DmaSem sig := 87
abbrev cc6_sem2_0 : DmaSem sig := 88
abbrev cc6_sem3_0 : DmaSem sig := 89
abbrev cc6_sem4_0 : DmaSem sig := 90
abbrev cc6_sem5_0 : DmaSem sig := 91
abbrev cc6_sem5_1 : DmaSem sig := 92
abbrev cc7_sem0_0 : DmaSem sig := 93
abbrev cc7_sem0_1 : DmaSem sig := 94
abbrev cc7_sem1_0 : DmaSem sig := 95
abbrev cc7_sem1_1 : DmaSem sig := 96
abbrev cc7_sem2_0 : DmaSem sig := 97
abbrev cc7_sem2_1 : DmaSem sig := 98
abbrev cc7_sem3_0 : DmaSem sig := 99
abbrev cc7_sem3_1 : DmaSem sig := 100
abbrev cc7_sem4_0 : DmaSem sig := 101
abbrev cc7_sem5_0 : DmaSem sig := 102
abbrev cc7_sem6_0 : DmaSem sig := 103
abbrev cc7_sem7_0 : DmaSem sig := 104
abbrev cc7_sem8_0 : DmaSem sig := 105
abbrev cc7_sem9_0 : DmaSem sig := 106
abbrev cc7_sem10_0 : DmaSem sig := 107
abbrev cc7_sem10_1 : DmaSem sig := 108
abbrev cc8_sem0_0 : DmaSem sig := 109
abbrev cc8_sem0_1 : DmaSem sig := 110
abbrev cc8_sem1_0 : DmaSem sig := 111
abbrev cc8_sem1_1 : DmaSem sig := 112
abbrev cc8_sem2_0 : DmaSem sig := 113
abbrev cc8_sem2_1 : DmaSem sig := 114
abbrev cc8_sem3_0 : DmaSem sig := 115
abbrev cc8_sem3_1 : DmaSem sig := 116
abbrev cc8_sem4_0 : DmaSem sig := 117
abbrev cc8_sem5_0 : DmaSem sig := 118
abbrev cc8_sem6_0 : DmaSem sig := 119
abbrev cc8_sem7_0 : DmaSem sig := 120
abbrev cc8_sem8_0 : DmaSem sig := 121
abbrev cc8_sem9_0 : DmaSem sig := 122
abbrev cc8_sem10_0 : DmaSem sig := 123
abbrev cc8_sem10_1 : DmaSem sig := 124
abbrev cc9_sem0_0 : DmaSem sig := 125
abbrev cc9_sem0_1 : DmaSem sig := 126
abbrev cc9_sem1_0 : DmaSem sig := 127
abbrev cc9_sem1_1 : DmaSem sig := 128
abbrev cc9_sem2_0 : DmaSem sig := 129
abbrev cc9_sem2_1 : DmaSem sig := 130
abbrev cc9_sem3_0 : DmaSem sig := 131
abbrev cc9_sem3_1 : DmaSem sig := 132
abbrev cc9_sem4_0 : DmaSem sig := 133
abbrev cc9_sem4_1 : DmaSem sig := 134
abbrev cc9_sem5_0 : DmaSem sig := 135
abbrev cc9_sem5_1 : DmaSem sig := 136
abbrev cc9_sem6_0 : DmaSem sig := 137
abbrev cc9_sem7_0 : DmaSem sig := 138
abbrev cc9_sem8_0 : DmaSem sig := 139
abbrev cc9_sem9_0 : DmaSem sig := 140
abbrev cc9_sem10_0 : DmaSem sig := 141
abbrev cc9_sem11_0 : DmaSem sig := 142
abbrev cc9_sem12_0 : DmaSem sig := 143
abbrev cc9_sem13_0 : DmaSem sig := 144
abbrev cc9_sem14_0 : DmaSem sig := 145
abbrev cc9_sem15_0 : DmaSem sig := 146
abbrev cc9_sem16_0 : DmaSem sig := 147
abbrev cc9_sem17_0 : DmaSem sig := 148
abbrev cc9_sem18_0 : DmaSem sig := 149
abbrev cc9_sem19_0 : DmaSem sig := 150
abbrev cc9_sem20_0 : DmaSem sig := 151
abbrev cc9_sem21_0 : DmaSem sig := 152
abbrev cc9_sem21_1 : DmaSem sig := 153
abbrev cc10_sem0_0 : DmaSem sig := 154
abbrev cc10_sem0_1 : DmaSem sig := 155
abbrev cc10_sem1_0 : DmaSem sig := 156
abbrev cc10_sem2_0 : DmaSem sig := 157
abbrev cc10_sem3_0 : DmaSem sig := 158
abbrev cc10_sem4_0 : DmaSem sig := 159
abbrev cc10_sem5_0 : DmaSem sig := 160
abbrev cc10_sem5_1 : DmaSem sig := 161
abbrev cc11_sem0_0 : DmaSem sig := 162
abbrev cc11_sem0_1 : DmaSem sig := 163
abbrev cc11_sem1_0 : DmaSem sig := 164
abbrev cc11_sem2_0 : DmaSem sig := 165
abbrev cc11_sem3_0 : DmaSem sig := 166
abbrev cc11_sem4_0 : DmaSem sig := 167
abbrev cc11_sem5_0 : DmaSem sig := 168
abbrev cc11_sem5_1 : DmaSem sig := 169
abbrev cc12_sem0_0 : DmaSem sig := 170
abbrev cc12_sem0_1 : DmaSem sig := 171
abbrev cc12_sem1_0 : DmaSem sig := 172
abbrev cc12_sem2_0 : DmaSem sig := 173
abbrev cc12_sem3_0 : DmaSem sig := 174
abbrev cc12_sem4_0 : DmaSem sig := 175
abbrev cc12_sem5_0 : DmaSem sig := 176
abbrev cc12_sem5_1 : DmaSem sig := 177

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S3x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S4000x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x3 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S3x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S4000x64 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_15 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_16 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_17 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_18 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_19 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_20 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_21 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x2 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S64x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S64x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S2x64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x64 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S64x64 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S64x64 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S64x64 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S2x64 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 1 → Memref sig .tc .vmem S1x64 .f32 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))
abbrev reads3_15 : Fin grid3.rank → Bool := ![false]

abbrev stage3_16 : Fin 1 → Memref sig .tc .vmem S64x64 .f32 := fun | 0 => Memref.whole cc3_stg16_0 | ⟨_ + 1, h⟩ => absurd h (Nat.not_lt.2 (Nat.le_add_left _ _))
abbrev sem3_16 : Fin 1 → DmaSem sig := fun | 0 => cc3_sem16_0 | ⟨_ + 1, h⟩ => absurd h (Nat.not_lt.2 (Nat.le_add_left _ _))
abbrev reads3_16 : Fin grid3.rank → Bool := ![false]

abbrev stage3_17 : Fin 1 → Memref sig .tc .vmem S64x64 .f32 := fun | 0 => Memref.whole cc3_stg17_0 | ⟨_ + 1, h⟩ => absurd h (Nat.not_lt.2 (Nat.le_add_left _ _))
abbrev sem3_17 : Fin 1 → DmaSem sig := fun | 0 => cc3_sem17_0 | ⟨_ + 1, h⟩ => absurd h (Nat.not_lt.2 (Nat.le_add_left _ _))
abbrev reads3_17 : Fin grid3.rank → Bool := ![false]

abbrev stage3_18 : Fin 1 → Memref sig .tc .vmem S64x64 .f32 := fun | 0 => Memref.whole cc3_stg18_0 | ⟨_ + 1, h⟩ => absurd h (Nat.not_lt.2 (Nat.le_add_left _ _))
abbrev sem3_18 : Fin 1 → DmaSem sig := fun | 0 => cc3_sem18_0 | ⟨_ + 1, h⟩ => absurd h (Nat.not_lt.2 (Nat.le_add_left _ _))
abbrev reads3_18 : Fin grid3.rank → Bool := ![false]

abbrev stage3_19 : Fin 1 → Memref sig .tc .vmem S2x64 .f32 := fun | 0 => Memref.whole cc3_stg19_0 | ⟨_ + 1, h⟩ => absurd h (Nat.not_lt.2 (Nat.le_add_left _ _))
abbrev sem3_19 : Fin 1 → DmaSem sig := fun | 0 => cc3_sem19_0 | ⟨_ + 1, h⟩ => absurd h (Nat.not_lt.2 (Nat.le_add_left _ _))
abbrev reads3_19 : Fin grid3.rank → Bool := ![false]

abbrev stage3_20 : Fin 1 → Memref sig .tc .vmem S1x64 .f32 := fun | 0 => Memref.whole cc3_stg20_0 | ⟨_ + 1, h⟩ => absurd h (Nat.not_lt.2 (Nat.le_add_left _ _))
abbrev sem3_20 : Fin 1 → DmaSem sig := fun | 0 => cc3_sem20_0 | ⟨_ + 1, h⟩ => absurd h (Nat.not_lt.2 (Nat.le_add_left _ _))
abbrev reads3_20 : Fin grid3.rank → Bool := ![false]

abbrev stage3_21 : Fin 2 → Memref sig .tc .vmem S2000x64 .f32 := fun | 0 => Memref.whole cc3_stg21_0 | 1 => Memref.whole cc3_stg21_1 | ⟨_ + 2, h⟩ => absurd h (Nat.not_lt.2 (Nat.le_add_left _ _))
abbrev sem3_21 : Fin 2 → DmaSem sig := fun | 0 => cc3_sem21_0 | 1 => cc3_sem21_1 | ⟨_ + 2, h⟩ => absurd h (Nat.not_lt.2 (Nat.le_add_left _ _))
abbrev reads3_21 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2000x1 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![200], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_10 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S4000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S4000x3 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S4000x1 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 1 → Memref sig .tc .vmem S64x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S64x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S3x64 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x64 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S64x64 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S1x64 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev stage7_10 : Fin 2 → Memref sig .tc .vmem S4000x64 .f32 := fun | 0 => Memref.whole cc7_stg10_0 | 1 => Memref.whole cc7_stg10_1 | ⟨_ + 2, h⟩ => absurd h (Nat.not_lt.2 (Nat.le_add_left _ _))
abbrev sem7_10 : Fin 2 → DmaSem sig := fun | 0 => cc7_sem10_0 | 1 => cc7_sem10_1 | ⟨_ + 2, h⟩ => absurd h (Nat.not_lt.2 (Nat.le_add_left _ _))
abbrev reads7_10 : Fin grid7.rank → Bool := ![true]

abbrev grid8 : Pipeline.Grid := ⟨1, ![200], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_10 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S4000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S4000x3 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S4000x1 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 1 → Memref sig .tc .vmem S64x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S64x64 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S3x64 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1x64 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S64x64 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 1 → Memref sig .tc .vmem S1x64 .f32 := fun | 0 => Memref.whole cc8_stg9_0 | ⟨_ + 1, h⟩ => absurd h (Nat.not_lt.2 (Nat.le_add_left _ _))
abbrev sem8_9 : Fin 1 → DmaSem sig := fun | 0 => cc8_sem9_0 | ⟨_ + 1, h⟩ => absurd h (Nat.not_lt.2 (Nat.le_add_left _ _))
abbrev reads8_9 : Fin grid8.rank → Bool := ![false]

abbrev stage8_10 : Fin 2 → Memref sig .tc .vmem S4000x64 .f32 := fun | 0 => Memref.whole cc8_stg10_0 | 1 => Memref.whole cc8_stg10_1 | ⟨_ + 2, h⟩ => absurd h (Nat.not_lt.2 (Nat.le_add_left _ _))
abbrev sem8_10 : Fin 2 → DmaSem sig := fun | 0 => cc8_sem10_0 | 1 => cc8_sem10_1 | ⟨_ + 2, h⟩ => absurd h (Nat.not_lt.2 (Nat.le_add_left _ _))
abbrev reads8_10 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_9 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_10 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_11 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_12 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_13 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_14 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_15 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_16 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_17 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_18 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_19 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_20 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_21 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S2000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S2000x2 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S2000x64 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 2 → Memref sig .tc .vmem S2000x1 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 1 → Memref sig .tc .vmem S64x64 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S64x64 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 1 → Memref sig .tc .vmem S64x64 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]

abbrev stage9_9 : Fin 1 → Memref sig .tc .vmem S2x64 .f32 := fun | 0 => Memref.whole cc9_stg9_0 | ⟨_ + 1, h⟩ => absurd h (Nat.not_lt.2 (Nat.le_add_left _ _))
abbrev sem9_9 : Fin 1 → DmaSem sig := fun | 0 => cc9_sem9_0 | ⟨_ + 1, h⟩ => absurd h (Nat.not_lt.2 (Nat.le_add_left _ _))
abbrev reads9_9 : Fin grid9.rank → Bool := ![false]

abbrev stage9_10 : Fin 1 → Memref sig .tc .vmem S1x64 .f32 := fun | 0 => Memref.whole cc9_stg10_0 | ⟨_ + 1, h⟩ => absurd h (Nat.not_lt.2 (Nat.le_add_left _ _))
abbrev sem9_10 : Fin 1 → DmaSem sig := fun | 0 => cc9_sem10_0 | ⟨_ + 1, h⟩ => absurd h (Nat.not_lt.2 (Nat.le_add_left _ _))
abbrev reads9_10 : Fin grid9.rank → Bool := ![false]

abbrev stage9_11 : Fin 1 → Memref sig .tc .vmem S64x64 .f32 := fun | 0 => Memref.whole cc9_stg11_0 | ⟨_ + 1, h⟩ => absurd h (Nat.not_lt.2 (Nat.le_add_left _ _))
abbrev sem9_11 : Fin 1 → DmaSem sig := fun | 0 => cc9_sem11_0 | ⟨_ + 1, h⟩ => absurd h (Nat.not_lt.2 (Nat.le_add_left _ _))
abbrev reads9_11 : Fin grid9.rank → Bool := ![false]

abbrev stage9_12 : Fin 1 → Memref sig .tc .vmem S64x64 .f32 := fun | 0 => Memref.whole cc9_stg12_0 | ⟨_ + 1, h⟩ => absurd h (Nat.not_lt.2 (Nat.le_add_left _ _))
abbrev sem9_12 : Fin 1 → DmaSem sig := fun | 0 => cc9_sem12_0 | ⟨_ + 1, h⟩ => absurd h (Nat.not_lt.2 (Nat.le_add_left _ _))
abbrev reads9_12 : Fin grid9.rank → Bool := ![false]

abbrev stage9_13 : Fin 1 → Memref sig .tc .vmem S64x64 .f32 := fun | 0 => Memref.whole cc9_stg13_0 | ⟨_ + 1, h⟩ => absurd h (Nat.not_lt.2 (Nat.le_add_left _ _))
abbrev sem9_13 : Fin 1 → DmaSem sig := fun | 0 => cc9_sem13_0 | ⟨_ + 1, h⟩ => absurd h (Nat.not_lt.2 (Nat.le_add_left _ _))
abbrev reads9_13 : Fin grid9.rank → Bool := ![false]

abbrev stage9_14 : Fin 1 → Memref sig .tc .vmem S2x64 .f32 := fun | 0 => Memref.whole cc9_stg14_0 | ⟨_ + 1, h⟩ => absurd h (Nat.not_lt.2 (Nat.le_add_left _ _))
abbrev sem9_14 : Fin 1 → DmaSem sig := fun | 0 => cc9_sem14_0 | ⟨_ + 1, h⟩ => absurd h (Nat.not_lt.2 (Nat.le_add_left _ _))
abbrev reads9_14 : Fin grid9.rank → Bool := ![false]

abbrev stage9_15 : Fin 1 → Memref sig .tc .vmem S1x64 .f32 := fun | 0 => Memref.whole cc9_stg15_0 | ⟨_ + 1, h⟩ => absurd h (Nat.not_lt.2 (Nat.le_add_left _ _))
abbrev sem9_15 : Fin 1 → DmaSem sig := fun | 0 => cc9_sem15_0 | ⟨_ + 1, h⟩ => absurd h (Nat.not_lt.2 (Nat.le_add_left _ _))
abbrev reads9_15 : Fin grid9.rank → Bool := ![false]

abbrev stage9_16 : Fin 1 → Memref sig .tc .vmem S64x64 .f32 := fun | 0 => Memref.whole cc9_stg16_0 | ⟨_ + 1, h⟩ => absurd h (Nat.not_lt.2 (Nat.le_add_left _ _))
abbrev sem9_16 : Fin 1 → DmaSem sig := fun | 0 => cc9_sem16_0 | ⟨_ + 1, h⟩ => absurd h (Nat.not_lt.2 (Nat.le_add_left _ _))
abbrev reads9_16 : Fin grid9.rank → Bool := ![false]

abbrev stage9_17 : Fin 1 → Memref sig .tc .vmem S64x64 .f32 := fun | 0 => Memref.whole cc9_stg17_0 | ⟨_ + 1, h⟩ => absurd h (Nat.not_lt.2 (Nat.le_add_left _ _))
abbrev sem9_17 : Fin 1 → DmaSem sig := fun | 0 => cc9_sem17_0 | ⟨_ + 1, h⟩ => absurd h (Nat.not_lt.2 (Nat.le_add_left _ _))
abbrev reads9_17 : Fin grid9.rank → Bool := ![false]

abbrev stage9_18 : Fin 1 → Memref sig .tc .vmem S64x64 .f32 := fun | 0 => Memref.whole cc9_stg18_0 | ⟨_ + 1, h⟩ => absurd h (Nat.not_lt.2 (Nat.le_add_left _ _))
abbrev sem9_18 : Fin 1 → DmaSem sig := fun | 0 => cc9_sem18_0 | ⟨_ + 1, h⟩ => absurd h (Nat.not_lt.2 (Nat.le_add_left _ _))
abbrev reads9_18 : Fin grid9.rank → Bool := ![false]

abbrev stage9_19 : Fin 1 → Memref sig .tc .vmem S2x64 .f32 := fun | 0 => Memref.whole cc9_stg19_0 | ⟨_ + 1, h⟩ => absurd h (Nat.not_lt.2 (Nat.le_add_left _ _))
abbrev sem9_19 : Fin 1 → DmaSem sig := fun | 0 => cc9_sem19_0 | ⟨_ + 1, h⟩ => absurd h (Nat.not_lt.2 (Nat.le_add_left _ _))
abbrev reads9_19 : Fin grid9.rank → Bool := ![false]

abbrev stage9_20 : Fin 1 → Memref sig .tc .vmem S1x64 .f32 := fun | 0 => Memref.whole cc9_stg20_0 | ⟨_ + 1, h⟩ => absurd h (Nat.not_lt.2 (Nat.le_add_left _ _))
abbrev sem9_20 : Fin 1 → DmaSem sig := fun | 0 => cc9_sem20_0 | ⟨_ + 1, h⟩ => absurd h (Nat.not_lt.2 (Nat.le_add_left _ _))
abbrev reads9_20 : Fin grid9.rank → Bool := ![false]

abbrev stage9_21 : Fin 2 → Memref sig .tc .vmem S2000x64 .f32 := fun | 0 => Memref.whole cc9_stg21_0 | 1 => Memref.whole cc9_stg21_1 | ⟨_ + 2, h⟩ => absurd h (Nat.not_lt.2 (Nat.le_add_left _ _))
abbrev sem9_21 : Fin 2 → DmaSem sig := fun | 0 => cc9_sem21_0 | 1 => cc9_sem21_1 | ⟨_ + 2, h⟩ => absurd h (Nat.not_lt.2 (Nat.le_add_left _ _))
abbrev reads9_21 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S64x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S64x1 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x1 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S2000x1 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x1 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S64x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x64 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S2000x64 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![25], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S64x64 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x64 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S64x1 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x1 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S2000x1 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  shapeCasts_S64_S1x64 : S64.ShapeCasts S1x64
  inb_S2000x1_S2000x1_0_0 : ∀ a, (![0, 0] : Fin 2 → Nat) a + S2000x1.size a ≤ S2000x1.size a
  h_S2000x1 : 0 < S2000x1.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  inb_S2000x64_S2000x64_0_0 : ∀ a, (![0, 0] : Fin 2 → Nat) a + S2000x64.size a ≤ S2000x64.size a
  h_S2000x64 : 0 < S2000x64.numel
  bcast_S_S50000 : S_.BroadcastsInDim S50000 (![] : Fin 0 → Fin S50000.rank)
  bcast_S50000_S50000x1_0 : S50000.BroadcastsInDim S50000x1 (![0] : Fin 1 → Fin S50000x1.rank)
  slices_S131x64_S64x64_0_0 : S131x64.Slices ![0, 0] S64x64
  slices_S131x64_S64x64_64_0 : S131x64.Slices ![64, 0] S64x64
  slices_S131x64_S3x64_128_0 : S131x64.Slices ![128, 0] S3x64
  slices_S194x64_S64x64_0_0 : S194x64.Slices ![0, 0] S64x64
  slices_S194x64_S64x64_64_0 : S194x64.Slices ![64, 0] S64x64
  slices_S194x64_S64x64_128_0 : S194x64.Slices ![128, 0] S64x64
  slices_S194x64_S2x64_192_0 : S194x64.Slices ![192, 0] S2x64
  bcast_S_S800000 : S_.BroadcastsInDim S800000 (![] : Fin 0 → Fin S800000.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x3_S4000x3_0_0 : ∀ a, (![0, 0] : Fin 2 → Nat) a + S4000x3.size a ≤ S4000x3.size a
  h_S4000x3 : 0 < S4000x3.numel
  shapeCasts_S64x64_S64x64 : S64x64.ShapeCasts S64x64
  inb_S3x64_S3x64_0_0 : ∀ a, (![0, 0] : Fin 2 → Nat) a + S3x64.size a ≤ S3x64.size a
  h_S3x64 : 0 < S3x64.numel
  shapeCasts_S3x64_S3x64 : S3x64.ShapeCasts S3x64
  broadcasts_S1x64_S4000x64 : S1x64.Broadcasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  bcast_S_S50000x64 : S_.BroadcastsInDim S50000x64 (![] : Fin 0 → Fin S50000x64.rank)
  shapeCasts_S2000x64_S2000x64 : S2000x64.ShapeCasts S2000x64
  inb_S2000x2_S2000x2_0_0 : ∀ a, (![0, 0] : Fin 2 → Nat) a + S2000x2.size a ≤ S2000x2.size a
  h_S2000x2 : 0 < S2000x2.numel
  shapeCasts_S2000x1_S2000x1 : S2000x1.ShapeCasts S2000x1
  inb_S2x64_S2x64_0_0 : ∀ a, (![0, 0] : Fin 2 → Nat) a + S2x64.size a ≤ S2x64.size a
  h_S2x64 : 0 < S2x64.numel
  shapeCasts_S2x64_S2x64 : S2x64.ShapeCasts S2x64
  broadcasts_S2000x1_S2000x64 : S2000x1.Broadcasts S2000x64
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  bcast_S_S50000x1 : S_.BroadcastsInDim S50000x1 (![] : Fin 0 → Fin S50000x1.rank)
  reducesTo_S50000x1_S_d0_1 : S50000x1.ReducesTo [0, 1] S_
  h_S_ : 0 < S_.numel
  reducesTo_S50000x64_S_d0_1 : S50000x64.ReducesTo [0, 1] S_
  dot_S2000x1_S1x64_S2000x64_1_0_0_1_n_n_wf : DotDims.WF S2000x1 S1x64 S2000x64 [1] [0] [0] [1] [] []
  dot_S2000x64_S64x64_S2000x64_1_0_0_1_n_n_wf : DotDims.WF S2000x64 S64x64 S2000x64 [1] [0] [0] [1] [] []
  gather_S50000x64_S800000x1_S800000x64_1_0_n_n_0_1_164_wf : GatherDims.WF S50000x64 S800000x1 S800000x64 [1] [0] [] [0] [] 1 ![1, 64]
  dot_S4000x64_S64x64_S4000x64_1_0_0_1_n_n_wf : DotDims.WF S4000x64 S64x64 S4000x64 [1] [0] [0] [1] [] []
  dot_S4000x3_S3x64_S4000x64_1_0_0_1_n_n_wf : DotDims.WF S4000x3 S3x64 S4000x64 [1] [0] [0] [1] [] []
  scatter_S50000x64_S800000x1_S800000x64_1_0_0_1_wf : ScatterDims.WF S50000x64 S800000x1 S800000x64 [1] [0] [0] 1
  dot_S2000x2_S2x64_S2000x64_1_0_0_1_n_n_wf : DotDims.WF S2000x2 S2x64 S2000x64 [1] [0] [0] [1] [] []
  dot_S2000x64_S64x1_S2000x1_1_0_0_1_n_n_wf : DotDims.WF S2000x64 S64x1 S2000x1 [1] [0] [0] [1] [] []
  gather_S50000x1_S800000x1_S800000x1_1_0_n_n_0_1_11_wf : GatherDims.WF S50000x1 S800000x1 S800000x1 [1] [0] [] [0] [] 1 ![1, 1]
  scatter_S50000x1_S800000x1_S800000x1_1_0_0_1_wf : ScatterDims.WF S50000x1 S800000x1 S800000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S50000x1.size a
  hwx0_0 : ∀ i : grid0.Coords, EltTy.bits .f32 = 32 ∨ (Rect.block (s := S50000x1) S2000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S50000x64.size a
  hwx0_5 : ∀ i : grid0.Coords, EltTy.bits .f32 = 32 ∨ (Rect.block (s := S50000x64) S2000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S800000x64.size a
  hwx1_0 : ∀ i : grid1.Coords, EltTy.bits .f32 = 32 ∨ (Rect.block (s := S800000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S800000x64.size a
  hwx1_1 : ∀ i : grid1.Coords, EltTy.bits .f32 = 32 ∨ (Rect.block (s := S800000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x3.size a ≤ S800000x3.size a
  hwx1_2 : ∀ i : grid1.Coords, EltTy.bits .f32 = 32 ∨ (Rect.block (s := S800000x3) S4000x3.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x1.size a ≤ S800000x1.size a
  hwx1_3 : ∀ i : grid1.Coords, EltTy.bits .f32 = 32 ∨ (Rect.block (s := S800000x1) S4000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S3x64.size a ≤ S3x64.size a
  hwx1_6 : ∀ i : grid1.Coords, EltTy.bits .f32 = 32 ∨ (Rect.block (s := S3x64) S3x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S4000x64.size a ≤ S800000x64.size a
  hwx1_10 : ∀ i : grid1.Coords, EltTy.bits .f32 = 32 ∨ (Rect.block (s := S800000x64) S4000x64.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S800000x64.size a
  hwx2_0 : ∀ i : grid2.Coords, EltTy.bits .f32 = 32 ∨ (Rect.block (s := S800000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S800000x64.size a
  hwx2_1 : ∀ i : grid2.Coords, EltTy.bits .f32 = 32 ∨ (Rect.block (s := S800000x64) S4000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x3.size a ≤ S800000x3.size a
  hwx2_2 : ∀ i : grid2.Coords, EltTy.bits .f32 = 32 ∨ (Rect.block (s := S800000x3) S4000x3.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x1.size a ≤ S800000x1.size a
  hwx2_3 : ∀ i : grid2.Coords, EltTy.bits .f32 = 32 ∨ (Rect.block (s := S800000x1) S4000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S3x64.size a ≤ S3x64.size a
  hwx2_6 : ∀ i : grid2.Coords, EltTy.bits .f32 = 32 ∨ (Rect.block (s := S3x64) S3x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x64.size a ≤ S64x64.size a
  hwx2_8 : ∀ i : grid2.Coords, EltTy.bits .f32 = 32 ∨ (Rect.block (s := S64x64) S64x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x64.size a ≤ S1x64.size a
  hwx2_9 : ∀ i : grid2.Coords, EltTy.bits .f32 = 32 ∨ (Rect.block (s := S1x64) S1x64.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S4000x64.size a ≤ S800000x64.size a
  hwx2_10 : ∀ i : grid2.Coords, EltTy.bits .f32 = 32 ∨ (Rect.block (s := S800000x64) S4000x64.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S50000x64.size a
  hwx3_1 : ∀ i : grid3.Coords, EltTy.bits .f32 = 32 ∨ (Rect.block (s := S50000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x2.size a ≤ S50000x2.size a
  hwx3_3 : ∀ i : grid3.Coords, EltTy.bits .f32 = 32 ∨ (Rect.block (s := S50000x2) S2000x2.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S50000x64.size a
  hwx3_4 : ∀ i : grid3.Coords, EltTy.bits .f32 = 32 ∨ (Rect.block (s := S50000x64) S2000x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x1.size a ≤ S50000x1.size a
  hwx3_5 : ∀ i : grid3.Coords, EltTy.bits .f32 = 32 ∨ (Rect.block (s := S50000x1) S2000x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64x64.size a ≤ S64x64.size a
  hwx3_6 : ∀ i : grid3.Coords, EltTy.bits .f32 = 32 ∨ (Rect.block (s := S64x64) S64x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x64.size a ≤ S64x64.size a
  hwx3_7 : ∀ i : grid3.Coords, EltTy.bits .f32 = 32 ∨ (Rect.block (s := S64x64) S64x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S64x64.size a ≤ S64x64.size a
  hwx3_8 : ∀ i : grid3.Coords, EltTy.bits .f32 = 32 ∨ (Rect.block (s := S64x64) S64x64.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S2x64.size a ≤ S2x64.size a
  hwx3_9 : ∀ i : grid3.Coords, EltTy.bits .f32 = 32 ∨ (Rect.block (s := S2x64) S2x64.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x64.size a ≤ S1x64.size a
  hwx3_10 : ∀ i : grid3.Coords, EltTy.bits .f32 = 32 ∨ (Rect.block (s := S1x64) S1x64.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S64x64.size a ≤ S64x64.size a
  hwx3_11 : ∀ i : grid3.Coords, EltTy.bits .f32 = 32 ∨ (Rect.block (s := S64x64) S64x64.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S64x64.size a ≤ S64x64.size a
  hwx3_12 : ∀ i : grid3.Coords, EltTy.bits .f32 = 32 ∨ (Rect.block (s := S64x64) S64x64.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S64x64.size a ≤ S64x64.size a
  hwx3_13 : ∀ i : grid3.Coords, EltTy.bits .f32 = 32 ∨ (Rect.block (s := S64x64) S64x64.size (cc3_transform_13 i) (hinb3_13 i)).WholeWords (EltTy.packing .f32)
  hstage3_14 : ∀ j, (stage3_14 j).IsWhole
  nbuf3_14 : grid3.bufCount reads3_14 true = 1
  hreads3_14 : ∀ i i' : grid3.Coords, (∀ a, reads3_14 a = true → i a = i' a) → cc3_transform_14 i = cc3_transform_14 i'
  hinb3_14 : ∀ (i : grid3.Coords) a, (cc3_transform_14 i a + 1) * S2x64.size a ≤ S2x64.size a
  hwx3_14 : ∀ i : grid3.Coords, EltTy.bits .f32 = 32 ∨ (Rect.block (s := S2x64) S2x64.size (cc3_transform_14 i) (hinb3_14 i)).WholeWords (EltTy.packing .f32)
  hstage3_15 : ∀ j, (stage3_15 j).IsWhole
  nbuf3_15 : grid3.bufCount reads3_15 true = 1
  hreads3_15 : ∀ i i' : grid3.Coords, (∀ a, reads3_15 a = true → i a = i' a) → cc3_transform_15 i = cc3_transform_15 i'
  hinb3_15 : ∀ (i : grid3.Coords) a, (cc3_transform_15 i a + 1) * S1x64.size a ≤ S1x64.size a
  hwx3_15 : ∀ i : grid3.Coords, EltTy.bits .f32 = 32 ∨ (Rect.block (s := S1x64) S1x64.size (cc3_transform_15 i) (hinb3_15 i)).WholeWords (EltTy.packing .f32)
  hstage3_16 : ∀ j, (stage3_16 j).IsWhole
  nbuf3_16 : grid3.bufCount reads3_16 true = 1
  hreads3_16 : ∀ i i' : grid3.Coords, (∀ a, reads3_16 a = true → i a = i' a) → cc3_transform_16 i = cc3_transform_16 i'
  hinb3_16 : ∀ (i : grid3.Coords) a, (cc3_transform_16 i a + 1) * S64x64.size a ≤ S64x64.size a
  hwx3_16 : ∀ i : grid3.Coords, EltTy.bits .f32 = 32 ∨ (Rect.block (s := S64x64) S64x64.size (cc3_transform_16 i) (hinb3_16 i)).WholeWords (EltTy.packing .f32)
  hstage3_17 : ∀ j, (stage3_17 j).IsWhole
  nbuf3_17 : grid3.bufCount reads3_17 true = 1
  hreads3_17 : ∀ i i' : grid3.Coords, (∀ a, reads3_17 a = true → i a = i' a) → cc3_transform_17 i = cc3_transform_17 i'
  hinb3_17 : ∀ (i : grid3.Coords) a, (cc3_transform_17 i a + 1) * S64x64.size a ≤ S64x64.size a
  hwx3_17 : ∀ i : grid3.Coords, EltTy.bits .f32 = 32 ∨ (Rect.block (s := S64x64) S64x64.size (cc3_transform_17 i) (hinb3_17 i)).WholeWords (EltTy.packing .f32)
  hstage3_18 : ∀ j, (stage3_18 j).IsWhole
  nbuf3_18 : grid3.bufCount reads3_18 true = 1
  hreads3_18 : ∀ i i' : grid3.Coords, (∀ a, reads3_18 a = true → i a = i' a) → cc3_transform_18 i = cc3_transform_18 i'
  hinb3_18 : ∀ (i : grid3.Coords) a, (cc3_transform_18 i a + 1) * S64x64.size a ≤ S64x64.size a
  hwx3_18 : ∀ i : grid3.Coords, EltTy.bits .f32 = 32 ∨ (Rect.block (s := S64x64) S64x64.size (cc3_transform_18 i) (hinb3_18 i)).WholeWords (EltTy.packing .f32)
  hstage3_19 : ∀ j, (stage3_19 j).IsWhole
  nbuf3_19 : grid3.bufCount reads3_19 true = 1
  hreads3_19 : ∀ i i' : grid3.Coords, (∀ a, reads3_19 a = true → i a = i' a) → cc3_transform_19 i = cc3_transform_19 i'
  hinb3_19 : ∀ (i : grid3.Coords) a, (cc3_transform_19 i a + 1) * S2x64.size a ≤ S2x64.size a
  hwx3_19 : ∀ i : grid3.Coords, EltTy.bits .f32 = 32 ∨ (Rect.block (s := S2x64) S2x64.size (cc3_transform_19 i) (hinb3_19 i)).WholeWords (EltTy.packing .f32)
  hstage3_20 : ∀ j, (stage3_20 j).IsWhole
  nbuf3_20 : grid3.bufCount reads3_20 true = 1
  hreads3_20 : ∀ i i' : grid3.Coords, (∀ a, reads3_20 a = true → i a = i' a) → cc3_transform_20 i = cc3_transform_20 i'
  hinb3_20 : ∀ (i : grid3.Coords) a, (cc3_transform_20 i a + 1) * S1x64.size a ≤ S1x64.size a
  hwx3_20 : ∀ i : grid3.Coords, EltTy.bits .f32 = 32 ∨ (Rect.block (s := S1x64) S1x64.size (cc3_transform_20 i) (hinb3_20 i)).WholeWords (EltTy.packing .f32)
  hstage3_21 : ∀ j, (stage3_21 j).IsWhole
  nbuf3_21 : grid3.bufCount reads3_21 false = 2
  hreads3_21 : ∀ i i' : grid3.Coords, (∀ a, reads3_21 a = true → i a = i' a) → cc3_transform_21 i = cc3_transform_21 i'
  hinb3_21 : ∀ (i : grid3.Coords) a, (cc3_transform_21 i a + 1) * S2000x64.size a ≤ S50000x64.size a
  hwx3_21 : ∀ i : grid3.Coords, EltTy.bits .f32 = 32 ∨ (Rect.block (s := S50000x64) S2000x64.size (cc3_transform_21 i) (hinb3_21 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x1.size a ≤ S64x1.size a
  hwx4_3 : ∀ i : grid4.Coords, EltTy.bits .f32 = 32 ∨ (Rect.block (s := S64x1) S64x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x1.size a ≤ S50000x1.size a
  hwx4_5 : ∀ i : grid4.Coords, EltTy.bits .f32 = 32 ∨ (Rect.block (s := S50000x1) S2000x1.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x1.size a ≤ S50000x1.size a
  hwx5_0 : ∀ i : grid5.Coords, EltTy.bits .f32 = 32 ∨ (Rect.block (s := S50000x1) S2000x1.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x64.size a ≤ S50000x64.size a
  hwx5_5 : ∀ i : grid5.Coords, EltTy.bits .f32 = 32 ∨ (Rect.block (s := S50000x64) S2000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S50000x64.size a
  hwx6_0 : ∀ i : grid6.Coords, EltTy.bits .f32 = 32 ∨ (Rect.block (s := S50000x64) S2000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x1.size a ≤ S64x1.size a
  hwx6_3 : ∀ i : grid6.Coords, EltTy.bits .f32 = 32 ∨ (Rect.block (s := S64x1) S64x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x1.size a ≤ S50000x1.size a
  hwx6_5 : ∀ i : grid6.Coords, EltTy.bits .f32 = 32 ∨ (Rect.block (s := S50000x1) S2000x1.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x64.size a ≤ S800000x64.size a
  hwx7_0 : ∀ i : grid7.Coords, EltTy.bits .f32 = 32 ∨ (Rect.block (s := S800000x64) S4000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S4000x64.size a ≤ S800000x64.size a
  hwx7_1 : ∀ i : grid7.Coords, EltTy.bits .f32 = 32 ∨ (Rect.block (s := S800000x64) S4000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S4000x3.size a ≤ S800000x3.size a
  hwx7_2 : ∀ i : grid7.Coords, EltTy.bits .f32 = 32 ∨ (Rect.block (s := S800000x3) S4000x3.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S4000x1.size a ≤ S800000x1.size a
  hwx7_3 : ∀ i : grid7.Coords, EltTy.bits .f32 = 32 ∨ (Rect.block (s := S800000x1) S4000x1.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S64x64.size a ≤ S64x64.size a
  hwx7_4 : ∀ i : grid7.Coords, EltTy.bits .f32 = 32 ∨ (Rect.block (s := S64x64) S64x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S64x64.size a ≤ S64x64.size a
  hwx7_5 : ∀ i : grid7.Coords, EltTy.bits .f32 = 32 ∨ (Rect.block (s := S64x64) S64x64.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S3x64.size a ≤ S3x64.size a
  hwx7_6 : ∀ i : grid7.Coords, EltTy.bits .f32 = 32 ∨ (Rect.block (s := S3x64) S3x64.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x64.size a ≤ S1x64.size a
  hwx7_7 : ∀ i : grid7.Coords, EltTy.bits .f32 = 32 ∨ (Rect.block (s := S1x64) S1x64.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S64x64.size a ≤ S64x64.size a
  hwx7_8 : ∀ i : grid7.Coords, EltTy.bits .f32 = 32 ∨ (Rect.block (s := S64x64) S64x64.size (cc7_transform_8 i) (hinb7_8 i)).WholeWords (EltTy.packing .f32)
  hstage7_9 : ∀ j, (stage7_9 j).IsWhole
  nbuf7_9 : grid7.bufCount reads7_9 true = 1
  hreads7_9 : ∀ i i' : grid7.Coords, (∀ a, reads7_9 a = true → i a = i' a) → cc7_transform_9 i = cc7_transform_9 i'
  hinb7_9 : ∀ (i : grid7.Coords) a, (cc7_transform_9 i a + 1) * S1x64.size a ≤ S1x64.size a
  hwx7_9 : ∀ i : grid7.Coords, EltTy.bits .f32 = 32 ∨ (Rect.block (s := S1x64) S1x64.size (cc7_transform_9 i) (hinb7_9 i)).WholeWords (EltTy.packing .f32)
  hstage7_10 : ∀ j, (stage7_10 j).IsWhole
  nbuf7_10 : grid7.bufCount reads7_10 false = 2
  hreads7_10 : ∀ i i' : grid7.Coords, (∀ a, reads7_10 a = true → i a = i' a) → cc7_transform_10 i = cc7_transform_10 i'
  hinb7_10 : ∀ (i : grid7.Coords) a, (cc7_transform_10 i a + 1) * S4000x64.size a ≤ S800000x64.size a
  hwx7_10 : ∀ i : grid7.Coords, EltTy.bits .f32 = 32 ∨ (Rect.block (s := S800000x64) S4000x64.size (cc7_transform_10 i) (hinb7_10 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4000x64.size a ≤ S800000x64.size a
  hwx8_0 : ∀ i : grid8.Coords, EltTy.bits .f32 = 32 ∨ (Rect.block (s := S800000x64) S4000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S4000x64.size a ≤ S800000x64.size a
  hwx8_1 : ∀ i : grid8.Coords, EltTy.bits .f32 = 32 ∨ (Rect.block (s := S800000x64) S4000x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S4000x3.size a ≤ S800000x3.size a
  hwx8_2 : ∀ i : grid8.Coords, EltTy.bits .f32 = 32 ∨ (Rect.block (s := S800000x3) S4000x3.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S4000x1.size a ≤ S800000x1.size a
  hwx8_3 : ∀ i : grid8.Coords, EltTy.bits .f32 = 32 ∨ (Rect.block (s := S800000x1) S4000x1.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S64x64.size a ≤ S64x64.size a
  hwx8_4 : ∀ i : grid8.Coords, EltTy.bits .f32 = 32 ∨ (Rect.block (s := S64x64) S64x64.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S64x64.size a ≤ S64x64.size a
  hwx8_5 : ∀ i : grid8.Coords, EltTy.bits .f32 = 32 ∨ (Rect.block (s := S64x64) S64x64.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S3x64.size a ≤ S3x64.size a
  hwx8_6 : ∀ i : grid8.Coords, EltTy.bits .f32 = 32 ∨ (Rect.block (s := S3x64) S3x64.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1x64.size a ≤ S1x64.size a
  hwx8_7 : ∀ i : grid8.Coords, EltTy.bits .f32 = 32 ∨ (Rect.block (s := S1x64) S1x64.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S64x64.size a ≤ S64x64.size a
  hwx8_8 : ∀ i : grid8.Coords, EltTy.bits .f32 = 32 ∨ (Rect.block (s := S64x64) S64x64.size (cc8_transform_8 i) (hinb8_8 i)).WholeWords (EltTy.packing .f32)
  hstage8_9 : ∀ j, (stage8_9 j).IsWhole
  nbuf8_9 : grid8.bufCount reads8_9 true = 1
  hreads8_9 : ∀ i i' : grid8.Coords, (∀ a, reads8_9 a = true → i a = i' a) → cc8_transform_9 i = cc8_transform_9 i'
  hinb8_9 : ∀ (i : grid8.Coords) a, (cc8_transform_9 i a + 1) * S1x64.size a ≤ S1x64.size a
  hwx8_9 : ∀ i : grid8.Coords, EltTy.bits .f32 = 32 ∨ (Rect.block (s := S1x64) S1x64.size (cc8_transform_9 i) (hinb8_9 i)).WholeWords (EltTy.packing .f32)
  hstage8_10 : ∀ j, (stage8_10 j).IsWhole
  nbuf8_10 : grid8.bufCount reads8_10 false = 2
  hreads8_10 : ∀ i i' : grid8.Coords, (∀ a, reads8_10 a = true → i a = i' a) → cc8_transform_10 i = cc8_transform_10 i'
  hinb8_10 : ∀ (i : grid8.Coords) a, (cc8_transform_10 i a + 1) * S4000x64.size a ≤ S800000x64.size a
  hwx8_10 : ∀ i : grid8.Coords, EltTy.bits .f32 = 32 ∨ (Rect.block (s := S800000x64) S4000x64.size (cc8_transform_10 i) (hinb8_10 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x64.size a ≤ S50000x64.size a
  hwx9_0 : ∀ i : grid9.Coords, EltTy.bits .f32 = 32 ∨ (Rect.block (s := S50000x64) S2000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x64.size a ≤ S50000x64.size a
  hwx9_1 : ∀ i : grid9.Coords, EltTy.bits .f32 = 32 ∨ (Rect.block (s := S50000x64) S2000x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x64.size a ≤ S50000x64.size a
  hwx9_2 : ∀ i : grid9.Coords, EltTy.bits .f32 = 32 ∨ (Rect.block (s := S50000x64) S2000x64.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S2000x2.size a ≤ S50000x2.size a
  hwx9_3 : ∀ i : grid9.Coords, EltTy.bits .f32 = 32 ∨ (Rect.block (s := S50000x2) S2000x2.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S2000x64.size a ≤ S50000x64.size a
  hwx9_4 : ∀ i : grid9.Coords, EltTy.bits .f32 = 32 ∨ (Rect.block (s := S50000x64) S2000x64.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S2000x1.size a ≤ S50000x1.size a
  hwx9_5 : ∀ i : grid9.Coords, EltTy.bits .f32 = 32 ∨ (Rect.block (s := S50000x1) S2000x1.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S64x64.size a ≤ S64x64.size a
  hwx9_6 : ∀ i : grid9.Coords, EltTy.bits .f32 = 32 ∨ (Rect.block (s := S64x64) S64x64.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S64x64.size a ≤ S64x64.size a
  hwx9_7 : ∀ i : grid9.Coords, EltTy.bits .f32 = 32 ∨ (Rect.block (s := S64x64) S64x64.size (cc9_transform_7 i) (hinb9_7 i)).WholeWords (EltTy.packing .f32)
  hstage9_8 : ∀ j, (stage9_8 j).IsWhole
  nbuf9_8 : grid9.bufCount reads9_8 true = 1
  hreads9_8 : ∀ i i' : grid9.Coords, (∀ a, reads9_8 a = true → i a = i' a) → cc9_transform_8 i = cc9_transform_8 i'
  hinb9_8 : ∀ (i : grid9.Coords) a, (cc9_transform_8 i a + 1) * S64x64.size a ≤ S64x64.size a
  hwx9_8 : ∀ i : grid9.Coords, EltTy.bits .f32 = 32 ∨ (Rect.block (s := S64x64) S64x64.size (cc9_transform_8 i) (hinb9_8 i)).WholeWords (EltTy.packing .f32)
  hstage9_9 : ∀ j, (stage9_9 j).IsWhole
  nbuf9_9 : grid9.bufCount reads9_9 true = 1
  hreads9_9 : ∀ i i' : grid9.Coords, (∀ a, reads9_9 a = true → i a = i' a) → cc9_transform_9 i = cc9_transform_9 i'
  hinb9_9 : ∀ (i : grid9.Coords) a, (cc9_transform_9 i a + 1) * S2x64.size a ≤ S2x64.size a
  hwx9_9 : ∀ i : grid9.Coords, EltTy.bits .f32 = 32 ∨ (Rect.block (s := S2x64) S2x64.size (cc9_transform_9 i) (hinb9_9 i)).WholeWords (EltTy.packing .f32)
  hstage9_10 : ∀ j, (stage9_10 j).IsWhole
  nbuf9_10 : grid9.bufCount reads9_10 true = 1
  hreads9_10 : ∀ i i' : grid9.Coords, (∀ a, reads9_10 a = true → i a = i' a) → cc9_transform_10 i = cc9_transform_10 i'
  hinb9_10 : ∀ (i : grid9.Coords) a, (cc9_transform_10 i a + 1) * S1x64.size a ≤ S1x64.size a
  hwx9_10 : ∀ i : grid9.Coords, EltTy.bits .f32 = 32 ∨ (Rect.block (s := S1x64) S1x64.size (cc9_transform_10 i) (hinb9_10 i)).WholeWords (EltTy.packing .f32)
  hstage9_11 : ∀ j, (stage9_11 j).IsWhole
  nbuf9_11 : grid9.bufCount reads9_11 true = 1
  hreads9_11 : ∀ i i' : grid9.Coords, (∀ a, reads9_11 a = true → i a = i' a) → cc9_transform_11 i = cc9_transform_11 i'
  hinb9_11 : ∀ (i : grid9.Coords) a, (cc9_transform_11 i a + 1) * S64x64.size a ≤ S64x64.size a
  hwx9_11 : ∀ i : grid9.Coords, EltTy.bits .f32 = 32 ∨ (Rect.block (s := S64x64) S64x64.size (cc9_transform_11 i) (hinb9_11 i)).WholeWords (EltTy.packing .f32)
  hstage9_12 : ∀ j, (stage9_12 j).IsWhole
  nbuf9_12 : grid9.bufCount reads9_12 true = 1
  hreads9_12 : ∀ i i' : grid9.Coords, (∀ a, reads9_12 a = true → i a = i' a) → cc9_transform_12 i = cc9_transform_12 i'
  hinb9_12 : ∀ (i : grid9.Coords) a, (cc9_transform_12 i a + 1) * S64x64.size a ≤ S64x64.size a
  hwx9_12 : ∀ i : grid9.Coords, EltTy.bits .f32 = 32 ∨ (Rect.block (s := S64x64) S64x64.size (cc9_transform_12 i) (hinb9_12 i)).WholeWords (EltTy.packing .f32)
  hstage9_13 : ∀ j, (stage9_13 j).IsWhole
  nbuf9_13 : grid9.bufCount reads9_13 true = 1
  hreads9_13 : ∀ i i' : grid9.Coords, (∀ a, reads9_13 a = true → i a = i' a) → cc9_transform_13 i = cc9_transform_13 i'
  hinb9_13 : ∀ (i : grid9.Coords) a, (cc9_transform_13 i a + 1) * S64x64.size a ≤ S64x64.size a
  hwx9_13 : ∀ i : grid9.Coords, EltTy.bits .f32 = 32 ∨ (Rect.block (s := S64x64) S64x64.size (cc9_transform_13 i) (hinb9_13 i)).WholeWords (EltTy.packing .f32)
  hstage9_14 : ∀ j, (stage9_14 j).IsWhole
  nbuf9_14 : grid9.bufCount reads9_14 true = 1
  hreads9_14 : ∀ i i' : grid9.Coords, (∀ a, reads9_14 a = true → i a = i' a) → cc9_transform_14 i = cc9_transform_14 i'
  hinb9_14 : ∀ (i : grid9.Coords) a, (cc9_transform_14 i a + 1) * S2x64.size a ≤ S2x64.size a
  hwx9_14 : ∀ i : grid9.Coords, EltTy.bits .f32 = 32 ∨ (Rect.block (s := S2x64) S2x64.size (cc9_transform_14 i) (hinb9_14 i)).WholeWords (EltTy.packing .f32)
  hstage9_15 : ∀ j, (stage9_15 j).IsWhole
  nbuf9_15 : grid9.bufCount reads9_15 true = 1
  hreads9_15 : ∀ i i' : grid9.Coords, (∀ a, reads9_15 a = true → i a = i' a) → cc9_transform_15 i = cc9_transform_15 i'
  hinb9_15 : ∀ (i : grid9.Coords) a, (cc9_transform_15 i a + 1) * S1x64.size a ≤ S1x64.size a
  hwx9_15 : ∀ i : grid9.Coords, EltTy.bits .f32 = 32 ∨ (Rect.block (s := S1x64) S1x64.size (cc9_transform_15 i) (hinb9_15 i)).WholeWords (EltTy.packing .f32)
  hstage9_16 : ∀ j, (stage9_16 j).IsWhole
  nbuf9_16 : grid9.bufCount reads9_16 true = 1
  hreads9_16 : ∀ i i' : grid9.Coords, (∀ a, reads9_16 a = true → i a = i' a) → cc9_transform_16 i = cc9_transform_16 i'
  hinb9_16 : ∀ (i : grid9.Coords) a, (cc9_transform_16 i a + 1) * S64x64.size a ≤ S64x64.size a
  hwx9_16 : ∀ i : grid9.Coords, EltTy.bits .f32 = 32 ∨ (Rect.block (s := S64x64) S64x64.size (cc9_transform_16 i) (hinb9_16 i)).WholeWords (EltTy.packing .f32)
  hstage9_17 : ∀ j, (stage9_17 j).IsWhole
  nbuf9_17 : grid9.bufCount reads9_17 true = 1
  hreads9_17 : ∀ i i' : grid9.Coords, (∀ a, reads9_17 a = true → i a = i' a) → cc9_transform_17 i = cc9_transform_17 i'
  hinb9_17 : ∀ (i : grid9.Coords) a, (cc9_transform_17 i a + 1) * S64x64.size a ≤ S64x64.size a
  hwx9_17 : ∀ i : grid9.Coords, EltTy.bits .f32 = 32 ∨ (Rect.block (s := S64x64) S64x64.size (cc9_transform_17 i) (hinb9_17 i)).WholeWords (EltTy.packing .f32)
  hstage9_18 : ∀ j, (stage9_18 j).IsWhole
  nbuf9_18 : grid9.bufCount reads9_18 true = 1
  hreads9_18 : ∀ i i' : grid9.Coords, (∀ a, reads9_18 a = true → i a = i' a) → cc9_transform_18 i = cc9_transform_18 i'
  hinb9_18 : ∀ (i : grid9.Coords) a, (cc9_transform_18 i a + 1) * S64x64.size a ≤ S64x64.size a
  hwx9_18 : ∀ i : grid9.Coords, EltTy.bits .f32 = 32 ∨ (Rect.block (s := S64x64) S64x64.size (cc9_transform_18 i) (hinb9_18 i)).WholeWords (EltTy.packing .f32)
  hstage9_19 : ∀ j, (stage9_19 j).IsWhole
  nbuf9_19 : grid9.bufCount reads9_19 true = 1
  hreads9_19 : ∀ i i' : grid9.Coords, (∀ a, reads9_19 a = true → i a = i' a) → cc9_transform_19 i = cc9_transform_19 i'
  hinb9_19 : ∀ (i : grid9.Coords) a, (cc9_transform_19 i a + 1) * S2x64.size a ≤ S2x64.size a
  hwx9_19 : ∀ i : grid9.Coords, EltTy.bits .f32 = 32 ∨ (Rect.block (s := S2x64) S2x64.size (cc9_transform_19 i) (hinb9_19 i)).WholeWords (EltTy.packing .f32)
  hstage9_20 : ∀ j, (stage9_20 j).IsWhole
  nbuf9_20 : grid9.bufCount reads9_20 true = 1
  hreads9_20 : ∀ i i' : grid9.Coords, (∀ a, reads9_20 a = true → i a = i' a) → cc9_transform_20 i = cc9_transform_20 i'
  hinb9_20 : ∀ (i : grid9.Coords) a, (cc9_transform_20 i a + 1) * S1x64.size a ≤ S1x64.size a
  hwx9_20 : ∀ i : grid9.Coords, EltTy.bits .f32 = 32 ∨ (Rect.block (s := S1x64) S1x64.size (cc9_transform_20 i) (hinb9_20 i)).WholeWords (EltTy.packing .f32)
  hstage9_21 : ∀ j, (stage9_21 j).IsWhole
  nbuf9_21 : grid9.bufCount reads9_21 false = 2
  hreads9_21 : ∀ i i' : grid9.Coords, (∀ a, reads9_21 a = true → i a = i' a) → cc9_transform_21 i = cc9_transform_21 i'
  hinb9_21 : ∀ (i : grid9.Coords) a, (cc9_transform_21 i a + 1) * S2000x64.size a ≤ S50000x64.size a
  hwx9_21 : ∀ i : grid9.Coords, EltTy.bits .f32 = 32 ∨ (Rect.block (s := S50000x64) S2000x64.size (cc9_transform_21 i) (hinb9_21 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x64.size a ≤ S50000x64.size a
  hwx10_0 : ∀ i : grid10.Coords, EltTy.bits .f32 = 32 ∨ (Rect.block (s := S50000x64) S2000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S64x64.size a ≤ S64x64.size a
  hwx10_1 : ∀ i : grid10.Coords, EltTy.bits .f32 = 32 ∨ (Rect.block (s := S64x64) S64x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x64.size a ≤ S1x64.size a
  hwx10_2 : ∀ i : grid10.Coords, EltTy.bits .f32 = 32 ∨ (Rect.block (s := S1x64) S1x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S64x1.size a ≤ S64x1.size a
  hwx10_3 : ∀ i : grid10.Coords, EltTy.bits .f32 = 32 ∨ (Rect.block (s := S64x1) S64x1.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x1.size a ≤ S1x1.size a
  hwx10_4 : ∀ i : grid10.Coords, EltTy.bits .f32 = 32 ∨ (Rect.block (s := S1x1) S1x1.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S2000x1.size a ≤ S50000x1.size a
  hwx10_5 : ∀ i : grid10.Coords, EltTy.bits .f32 = 32 ∨ (Rect.block (s := S50000x1) S2000x1.size (cc10_transform_5 i) (hinb10_5 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x1.size a ≤ S50000x1.size a
  hwx11_0 : ∀ i : grid11.Coords, EltTy.bits .f32 = 32 ∨ (Rect.block (s := S50000x1) S2000x1.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x64.size a ≤ S1x64.size a
  hwx11_1 : ∀ i : grid11.Coords, EltTy.bits .f32 = 32 ∨ (Rect.block (s := S1x64) S1x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S64x64.size a ≤ S64x64.size a
  hwx11_3 : ∀ i : grid11.Coords, EltTy.bits .f32 = 32 ∨ (Rect.block (s := S64x64) S64x64.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x64.size a ≤ S1x64.size a
  hwx11_4 : ∀ i : grid11.Coords, EltTy.bits .f32 = 32 ∨ (Rect.block (s := S1x64) S1x64.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S2000x64.size a ≤ S50000x64.size a
  hwx11_5 : ∀ i : grid11.Coords, EltTy.bits .f32 = 32 ∨ (Rect.block (s := S50000x64) S2000x64.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x64.size a ≤ S50000x64.size a
  hwx12_0 : ∀ i : grid12.Coords, EltTy.bits .f32 = 32 ∨ (Rect.block (s := S50000x64) S2000x64.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S64x64.size a ≤ S64x64.size a
  hwx12_1 : ∀ i : grid12.Coords, EltTy.bits .f32 = 32 ∨ (Rect.block (s := S64x64) S64x64.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x64.size a ≤ S1x64.size a
  hwx12_2 : ∀ i : grid12.Coords, EltTy.bits .f32 = 32 ∨ (Rect.block (s := S1x64) S1x64.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S64x1.size a ≤ S64x1.size a
  hwx12_3 : ∀ i : grid12.Coords, EltTy.bits .f32 = 32 ∨ (Rect.block (s := S64x1) S64x1.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x1.size a ≤ S1x1.size a
  hwx12_4 : ∀ i : grid12.Coords, EltTy.bits .f32 = 32 ∨ (Rect.block (s := S1x1) S1x1.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S2000x1.size a ≤ S50000x1.size a
  hwx12_5 : ∀ i : grid12.Coords, EltTy.bits .f32 = 32 ∨ (Rect.block (s := S50000x1) S2000x1.size (cc12_transform_5 i) (hinb12_5 i)).WholeWords (EltTy.packing .f32)

variable [Facts₀]

def dot_S2000x1_S1x64_S2000x64_1_0_0_1_n_n : DotDims S2000x1 S1x64 S2000x64 where
  lhsContracting := [1]
  rhsContracting := [0]
  lhsNonContracting := [0]
  rhsNonContracting := [1]
  lhsBatch := []
  rhsBatch := []
  wf := dot_S2000x1_S1x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x3_S3x64_S4000x64_1_0_0_1_n_n : DotDims S4000x3 S3x64 S4000x64 where
  lhsContracting := [1]
  rhsContracting := [0]
  lhsNonContracting := [0]
  rhsNonContracting := [1]
  lhsBatch := []
  rhsBatch := []
  wf := dot_S4000x3_S3x64_S4000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x2_S2x64_S2000x64_1_0_0_1_n_n : DotDims S2000x2 S2x64 S2000x64 where
  lhsContracting := [1]
  rhsContracting := [0]
  lhsNonContracting := [0]
  rhsNonContracting := [1]
  lhsBatch := []
  rhsBatch := []
  wf := dot_S2000x2_S2x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf

abbrev win0_0 : Pipeline.Window sig grid0 :=
  Pipeline.Window.ofSpec (Memref.whole main_arg0) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg22) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg24) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S4000x3.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S4000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v14) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v16) S3x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg10) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v47) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v48) S4000x64.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v45) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S4000x3.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v6) S4000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v17) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v18) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v19) S3x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v49) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg14) S64x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v50) S1x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v51) S4000x64.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v9) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v57) S2000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg7) S2000x2.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v9) S2000x64.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v13) S2000x1.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v20) S64x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v21) S64x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v22) S64x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v23) S2x64.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v58) S1x64.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v24) S64x64.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v25) S64x64.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v26) S64x64.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_v27) S2x64.size cc3_transform_14 reads3_14 false true 1 stage3_14 sem3_14
    hrank3 hreads3_14 hinb3_14 nbuf3_14 (Memref.isWhole_whole _) hwx3_14 hstage3_14

abbrev win3_15 : Pipeline.Window sig grid3 :=
  Pipeline.Window.ofSpec (Memref.whole main_v59) S1x64.size cc3_transform_15 reads3_15 false true 1 stage3_15 sem3_15
    hrank3 hreads3_15 hinb3_15 nbuf3_15 (Memref.isWhole_whole _) hwx3_15 hstage3_15

abbrev win3_16 : Pipeline.Window sig grid3 :=
  Pipeline.Window.ofSpec (Memref.whole main_v28) S64x64.size cc3_transform_16 reads3_16 false true 1 stage3_16 sem3_16
    hrank3 hreads3_16 hinb3_16 nbuf3_16 (Memref.isWhole_whole _) hwx3_16 hstage3_16

abbrev win3_17 : Pipeline.Window sig grid3 :=
  Pipeline.Window.ofSpec (Memref.whole main_v29) S64x64.size cc3_transform_17 reads3_17 false true 1 stage3_17 sem3_17
    hrank3 hreads3_17 hinb3_17 nbuf3_17 (Memref.isWhole_whole _) hwx3_17 hstage3_17

abbrev win3_18 : Pipeline.Window sig grid3 :=
  Pipeline.Window.ofSpec (Memref.whole main_v30) S64x64.size cc3_transform_18 reads3_18 false true 1 stage3_18 sem3_18
    hrank3 hreads3_18 hinb3_18 nbuf3_18 (Memref.isWhole_whole _) hwx3_18 hstage3_18

abbrev win3_19 : Pipeline.Window sig grid3 :=
  Pipeline.Window.ofSpec (Memref.whole main_v31) S2x64.size cc3_transform_19 reads3_19 false true 1 stage3_19 sem3_19
    hrank3 hreads3_19 hinb3_19 nbuf3_19 (Memref.isWhole_whole _) hwx3_19 hstage3_19

abbrev win3_20 : Pipeline.Window sig grid3 :=
  Pipeline.Window.ofSpec (Memref.whole main_v60) S1x64.size cc3_transform_20 reads3_20 false true 1 stage3_20 sem3_20
    hrank3 hreads3_20 hinb3_20 nbuf3_20 (Memref.isWhole_whole _) hwx3_20 hstage3_20

abbrev win3_21 : Pipeline.Window sig grid3 :=
  Pipeline.Window.ofSpec (Memref.whole main_v61) S2000x64.size cc3_transform_21 reads3_21 true false 2 stage3_21 sem3_21
    hrank3 hreads3_21 hinb3_21 nbuf3_21 (Memref.isWhole_whole _) hwx3_21 hstage3_21

abbrev win3 : Fin 22 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | 15 => win3_15 | 16 => win3_16 | 17 => win3_17 | 18 => win3_18 | 19 => win3_19 | 20 => win3_20 | 21 => win3_21 | ⟨_ + 22, h⟩ => absurd h (Nat.not_lt.2 (Nat.le_add_left _ _))
abbrev spec3 : Fin 22 → Pipeline.WinSpec sig grid3.rank := fun w => (win3 w).toWinSpec

abbrev win4_0 : Pipeline.Window sig grid4 :=
  Pipeline.Window.ofSpec (Memref.whole main_v61) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg26) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg28) S64x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v63) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v64) S2000x1.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v64) S2000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg22) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v81) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg24) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v82) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v83) S2000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v83) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg26) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v88) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg28) S64x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v89) S1x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v90) S2000x1.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v105) S4000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v112) S4000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_arg5) S4000x3.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v6) S4000x1.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v14) S64x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v15) S64x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v16) S3x64.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v113) S1x64.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_arg10) S64x64.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v114) S1x64.size cc7_transform_9 reads7_9 false true 1 stage7_9 sem7_9
    hrank7 hreads7_9 hinb7_9 nbuf7_9 (Memref.isWhole_whole _) hwx7_9 hstage7_9

abbrev win7_10 : Pipeline.Window sig grid7 :=
  Pipeline.Window.ofSpec (Memref.whole main_v115) S4000x64.size cc7_transform_10 reads7_10 true false 2 stage7_10 sem7_10
    hrank7 hreads7_10 hinb7_10 nbuf7_10 (Memref.isWhole_whole _) hwx7_10 hstage7_10

abbrev win7 : Fin 11 → Pipeline.Window sig grid7 := fun | 0 => win7_0 | 1 => win7_1 | 2 => win7_2 | 3 => win7_3 | 4 => win7_4 | 5 => win7_5 | 6 => win7_6 | 7 => win7_7 | 8 => win7_8 | 9 => win7_9 | 10 => win7_10 | ⟨_ + 11, h⟩ => absurd h (Nat.not_lt.2 (Nat.le_add_left _ _))
abbrev spec7 : Fin 11 → Pipeline.WinSpec sig grid7.rank := fun w => (win7 w).toWinSpec

abbrev win8_0 : Pipeline.Window sig grid8 :=
  Pipeline.Window.ofSpec (Memref.whole main_v112) S4000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v105) S4000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_arg5) S4000x3.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v6) S4000x1.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v17) S64x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v18) S64x64.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v19) S3x64.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v116) S1x64.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_arg14) S64x64.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_v117) S1x64.size cc8_transform_9 reads8_9 false true 1 stage8_9 sem8_9
    hrank8 hreads8_9 hinb8_9 nbuf8_9 (Memref.isWhole_whole _) hwx8_9 hstage8_9

abbrev win8_10 : Pipeline.Window sig grid8 :=
  Pipeline.Window.ofSpec (Memref.whole main_v118) S4000x64.size cc8_transform_10 reads8_10 true false 2 stage8_10 sem8_10
    hrank8 hreads8_10 hinb8_10 nbuf8_10 (Memref.isWhole_whole _) hwx8_10 hstage8_10

abbrev win8 : Fin 11 → Pipeline.Window sig grid8 := fun | 0 => win8_0 | 1 => win8_1 | 2 => win8_2 | 3 => win8_3 | 4 => win8_4 | 5 => win8_5 | 6 => win8_6 | 7 => win8_7 | 8 => win8_8 | 9 => win8_9 | 10 => win8_10 | ⟨_ + 11, h⟩ => absurd h (Nat.not_lt.2 (Nat.le_add_left _ _))
abbrev spec8 : Fin 11 → Pipeline.WinSpec sig grid8.rank := fun w => (win8 w).toWinSpec

abbrev win9_0 : Pipeline.Window sig grid9 :=
  Pipeline.Window.ofSpec (Memref.whole main_v61) S2000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v121) S2000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v124) S2000x64.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_arg7) S2000x2.size cc9_transform_3 reads9_3 false false 2 stage9_3 sem9_3
    hrank9 hreads9_3 hinb9_3 nbuf9_3 (Memref.isWhole_whole _) hwx9_3 hstage9_3

abbrev win9_4 : Pipeline.Window sig grid9 :=
  Pipeline.Window.ofSpec (Memref.whole main_v9) S2000x64.size cc9_transform_4 reads9_4 false false 2 stage9_4 sem9_4
    hrank9 hreads9_4 hinb9_4 nbuf9_4 (Memref.isWhole_whole _) hwx9_4 hstage9_4

abbrev win9_5 : Pipeline.Window sig grid9 :=
  Pipeline.Window.ofSpec (Memref.whole main_v13) S2000x1.size cc9_transform_5 reads9_5 false false 2 stage9_5 sem9_5
    hrank9 hreads9_5 hinb9_5 nbuf9_5 (Memref.isWhole_whole _) hwx9_5 hstage9_5

abbrev win9_6 : Pipeline.Window sig grid9 :=
  Pipeline.Window.ofSpec (Memref.whole main_v20) S64x64.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v21) S64x64.size cc9_transform_7 reads9_7 false true 1 stage9_7 sem9_7
    hrank9 hreads9_7 hinb9_7 nbuf9_7 (Memref.isWhole_whole _) hwx9_7 hstage9_7

abbrev win9_8 : Pipeline.Window sig grid9 :=
  Pipeline.Window.ofSpec (Memref.whole main_v22) S64x64.size cc9_transform_8 reads9_8 false true 1 stage9_8 sem9_8
    hrank9 hreads9_8 hinb9_8 nbuf9_8 (Memref.isWhole_whole _) hwx9_8 hstage9_8

abbrev win9_9 : Pipeline.Window sig grid9 :=
  Pipeline.Window.ofSpec (Memref.whole main_v23) S2x64.size cc9_transform_9 reads9_9 false true 1 stage9_9 sem9_9
    hrank9 hreads9_9 hinb9_9 nbuf9_9 (Memref.isWhole_whole _) hwx9_9 hstage9_9

abbrev win9_10 : Pipeline.Window sig grid9 :=
  Pipeline.Window.ofSpec (Memref.whole main_v125) S1x64.size cc9_transform_10 reads9_10 false true 1 stage9_10 sem9_10
    hrank9 hreads9_10 hinb9_10 nbuf9_10 (Memref.isWhole_whole _) hwx9_10 hstage9_10

abbrev win9_11 : Pipeline.Window sig grid9 :=
  Pipeline.Window.ofSpec (Memref.whole main_v24) S64x64.size cc9_transform_11 reads9_11 false true 1 stage9_11 sem9_11
    hrank9 hreads9_11 hinb9_11 nbuf9_11 (Memref.isWhole_whole _) hwx9_11 hstage9_11

abbrev win9_12 : Pipeline.Window sig grid9 :=
  Pipeline.Window.ofSpec (Memref.whole main_v25) S64x64.size cc9_transform_12 reads9_12 false true 1 stage9_12 sem9_12
    hrank9 hreads9_12 hinb9_12 nbuf9_12 (Memref.isWhole_whole _) hwx9_12 hstage9_12

abbrev win9_13 : Pipeline.Window sig grid9 :=
  Pipeline.Window.ofSpec (Memref.whole main_v26) S64x64.size cc9_transform_13 reads9_13 false true 1 stage9_13 sem9_13
    hrank9 hreads9_13 hinb9_13 nbuf9_13 (Memref.isWhole_whole _) hwx9_13 hstage9_13

abbrev win9_14 : Pipeline.Window sig grid9 :=
  Pipeline.Window.ofSpec (Memref.whole main_v27) S2x64.size cc9_transform_14 reads9_14 false true 1 stage9_14 sem9_14
    hrank9 hreads9_14 hinb9_14 nbuf9_14 (Memref.isWhole_whole _) hwx9_14 hstage9_14

abbrev win9_15 : Pipeline.Window sig grid9 :=
  Pipeline.Window.ofSpec (Memref.whole main_v126) S1x64.size cc9_transform_15 reads9_15 false true 1 stage9_15 sem9_15
    hrank9 hreads9_15 hinb9_15 nbuf9_15 (Memref.isWhole_whole _) hwx9_15 hstage9_15

abbrev win9_16 : Pipeline.Window sig grid9 :=
  Pipeline.Window.ofSpec (Memref.whole main_v28) S64x64.size cc9_transform_16 reads9_16 false true 1 stage9_16 sem9_16
    hrank9 hreads9_16 hinb9_16 nbuf9_16 (Memref.isWhole_whole _) hwx9_16 hstage9_16

abbrev win9_17 : Pipeline.Window sig grid9 :=
  Pipeline.Window.ofSpec (Memref.whole main_v29) S64x64.size cc9_transform_17 reads9_17 false true 1 stage9_17 sem9_17
    hrank9 hreads9_17 hinb9_17 nbuf9_17 (Memref.isWhole_whole _) hwx9_17 hstage9_17

abbrev win9_18 : Pipeline.Window sig grid9 :=
  Pipeline.Window.ofSpec (Memref.whole main_v30) S64x64.size cc9_transform_18 reads9_18 false true 1 stage9_18 sem9_18
    hrank9 hreads9_18 hinb9_18 nbuf9_18 (Memref.isWhole_whole _) hwx9_18 hstage9_18

abbrev win9_19 : Pipeline.Window sig grid9 :=
  Pipeline.Window.ofSpec (Memref.whole main_v31) S2x64.size cc9_transform_19 reads9_19 false true 1 stage9_19 sem9_19
    hrank9 hreads9_19 hinb9_19 nbuf9_19 (Memref.isWhole_whole _) hwx9_19 hstage9_19

abbrev win9_20 : Pipeline.Window sig grid9 :=
  Pipeline.Window.ofSpec (Memref.whole main_v127) S1x64.size cc9_transform_20 reads9_20 false true 1 stage9_20 sem9_20
    hrank9 hreads9_20 hinb9_20 nbuf9_20 (Memref.isWhole_whole _) hwx9_20 hstage9_20

abbrev win9_21 : Pipeline.Window sig grid9 :=
  Pipeline.Window.ofSpec (Memref.whole main_v128) S2000x64.size cc9_transform_21 reads9_21 true false 2 stage9_21 sem9_21
    hrank9 hreads9_21 hinb9_21 nbuf9_21 (Memref.isWhole_whole _) hwx9_21 hstage9_21

abbrev win9 : Fin 22 → Pipeline.Window sig grid9 := fun | 0 => win9_0 | 1 => win9_1 | 2 => win9_2 | 3 => win9_3 | 4 => win9_4 | 5 => win9_5 | 6 => win9_6 | 7 => win9_7 | 8 => win9_8 | 9 => win9_9 | 10 => win9_10 | 11 => win9_11 | 12 => win9_12 | 13 => win9_13 | 14 => win9_14 | 15 => win9_15 | 16 => win9_16 | 17 => win9_17 | 18 => win9_18 | 19 => win9_19 | 20 => win9_20 | 21 => win9_21 | ⟨_ + 22, h⟩ => absurd h (Nat.not_lt.2 (Nat.le_add_left _ _))
abbrev spec9 : Fin 22 → Pipeline.WinSpec sig grid9.rank := fun w => (win9 w).toWinSpec

abbrev win10_0 : Pipeline.Window sig grid10 :=
  Pipeline.Window.ofSpec (Memref.whole main_v128) S2000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg26) S64x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v129) S1x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_arg28) S64x1.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v130) S1x1.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v131) S2000x1.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_v131) S2000x1.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_arg22) S1x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v148) S1x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_arg24) S64x64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v149) S1x64.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v150) S2000x64.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v150) S2000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg26) S64x64.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v155) S1x64.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_arg28) S64x1.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v156) S1x1.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v157) S2000x1.size cc12_transform_5 reads12_5 true false 2 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

class Facts : Prop extends Facts₀ where

variable [Facts]
-- ==== ReferenceIdeal.lean ====
abbrev S50000x1 : Shape := ⟨2, ![50000, 1]⟩
abbrev S50000 : Shape := ⟨1, ![50000]⟩
abbrev S2x800000 : Shape := ⟨2, ![2, 800000]⟩
abbrev S800000x3 : Shape := ⟨2, ![800000, 3]⟩
abbrev S800000 : Shape := ⟨1, ![800000]⟩
abbrev S50000x2 : Shape := ⟨2, ![50000, 2]⟩
abbrev S131x64 : Shape := ⟨2, ![131, 64]⟩
abbrev S64 : Shape := ⟨1, ![64]⟩
abbrev S64x64 : Shape := ⟨2, ![64, 64]⟩
abbrev S194x64 : Shape := ⟨2, ![194, 64]⟩
abbrev S1x64 : Shape := ⟨2, ![1, 64]⟩
abbrev S64x1 : Shape := ⟨2, ![64, 1]⟩
abbrev S1 : Shape := ⟨1, ![1]⟩
abbrev S1x800000 : Shape := ⟨2, ![1, 800000]⟩
abbrev S800000x1 : Shape := ⟨2, ![800000, 1]⟩
abbrev S_ : Shape := ⟨0, ![]⟩
abbrev S50000x64 : Shape := ⟨2, ![50000, 64]⟩
abbrev S800000x64 : Shape := ⟨2, ![800000, 64]⟩
abbrev S800000x131 : Shape := ⟨2, ![800000, 131]⟩
abbrev S50000x194 : Shape := ⟨2, ![50000, 194]⟩
abbrev S1x1 : Shape := ⟨2, ![1, 1]⟩

abbrev nBuf : Space → Nat
  | .hbm => 455
  | .vmem => 0
  | .smem => 0
  | _ => 0

abbrev hbmTy0_0 (i : Nat) : BufTy := match i % 128 with
  | 0 => ⟨S50000x1, .f32⟩
  | 1 => ⟨S50000x1, .f32⟩
  | 2 => ⟨S50000x1, .f32⟩
  | 3 => ⟨S50000, .i32⟩
  | 4 => ⟨S2x800000, .i32⟩
  | 5 => ⟨S800000x3, .f32⟩
  | 6 => ⟨S800000, .f32⟩
  | 7 => ⟨S50000x2, .f32⟩
  | 8 => ⟨S131x64, .f32⟩
  | 9 => ⟨S64, .f32⟩
  | 10 => ⟨S64x64, .f32⟩
  | 11 => ⟨S64, .f32⟩
  | 12 => ⟨S131x64, .f32⟩
  | 13 => ⟨S64, .f32⟩
  | 14 => ⟨S64x64, .f32⟩
  | 15 => ⟨S64, .f32⟩
  | 16 => ⟨S194x64, .f32⟩
  | 17 => ⟨S64, .f32⟩
  | 18 => ⟨S194x64, .f32⟩
  | 19 => ⟨S64, .f32⟩
  | 20 => ⟨S194x64, .f32⟩
  | 21 => ⟨S64, .f32⟩
  | 22 => ⟨S1x64, .f32⟩
  | 23 => ⟨S64, .f32⟩
  | 24 => ⟨S64x64, .f32⟩
  | 25 => ⟨S64, .f32⟩
  | 26 => ⟨S64x64, .f32⟩
  | 27 => ⟨S64, .f32⟩
  | 28 => ⟨S64x1, .f32⟩
  | 29 => ⟨S1, .f32⟩
  | 30 => ⟨S1x800000, .i32⟩
  | 31 => ⟨S800000, .i32⟩
  | 32 => ⟨S1x800000, .i32⟩
  | 33 => ⟨S800000, .i32⟩
  | 34 => ⟨S800000, .i1⟩
  | 35 => ⟨S800000, .f32⟩
  | 36 => ⟨S800000x1, .f32⟩
  | 37 => ⟨S_, .i32⟩
  | 38 => ⟨S50000, .i32⟩
  | 39 => ⟨S50000, .i1⟩
  | 40 => ⟨S50000x1, .i1⟩
  | 41 => ⟨S50000x64, .f32⟩
  | 42 => ⟨S1x64, .f32⟩
  | 43 => ⟨S50000x64, .f32⟩
  | 44 => ⟨S50000x64, .f32⟩
  | 45 => ⟨S_, .f32⟩
  | 46 => ⟨S50000x64, .f32⟩
  | 47 => ⟨S50000x64, .f32⟩
  | 48 => ⟨S50000x64, .f32⟩
  | 49 => ⟨S1x64, .f32⟩
  | 50 => ⟨S50000x64, .f32⟩
  | 51 => ⟨S50000x64, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x64, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x64, .f32⟩
  | 70 => ⟨S800000x131, .f32⟩
  | 71 => ⟨S800000x64, .f32⟩
  | 72 => ⟨S1x64, .f32⟩
  | 73 => ⟨S800000x64, .f32⟩
  | 74 => ⟨S800000x64, .f32⟩
  | 75 => ⟨S_, .f32⟩
  | 76 => ⟨S800000x64, .f32⟩
  | 77 => ⟨S800000x64, .f32⟩
  | 78 => ⟨S800000x64, .f32⟩
  | 79 => ⟨S1x64, .f32⟩
  | 80 => ⟨S800000x64, .f32⟩
  | 81 => ⟨S800000x64, .f32⟩
  | 82 => ⟨S800000x64, .f32⟩
  | 83 => ⟨S800000x64, .f32⟩
  | 84 => ⟨S_, .f32⟩
  | 85 => ⟨S50000x64, .f32⟩
  | 86 => ⟨S800000x1, .i32⟩
  | 87 => ⟨S50000x64, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x64, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x64, .f32⟩
  | 106 => ⟨S800000x131, .f32⟩
  | 107 => ⟨S800000x64, .f32⟩
  | 108 => ⟨S1x64, .f32⟩
  | 109 => ⟨S800000x64, .f32⟩
  | 110 => ⟨S800000x64, .f32⟩
  | 111 => ⟨S_, .f32⟩
  | 112 => ⟨S800000x64, .f32⟩
  | 113 => ⟨S800000x64, .f32⟩
  | 114 => ⟨S800000x64, .f32⟩
  | 115 => ⟨S1x64, .f32⟩
  | 116 => ⟨S800000x64, .f32⟩
  | 117 => ⟨S800000x64, .f32⟩
  | 118 => ⟨S800000x64, .f32⟩
  | 119 => ⟨S800000x64, .f32⟩
  | 120 => ⟨S_, .f32⟩
  | 121 => ⟨S50000x64, .f32⟩
  | 122 => ⟨S800000x1, .i32⟩
  | 123 => ⟨S50000x64, .f32⟩
  | 124 => ⟨S50000x194, .f32⟩
  | 125 => ⟨S50000x64, .f32⟩
  | 126 => ⟨S1x64, .f32⟩
  | 127 => ⟨S50000x64, .f32⟩
  | _ => ⟨S50000x1, .f32⟩

abbrev hbmTy0_1 (i : Nat) : BufTy := match i % 128 with
  | 0 => ⟨S50000x64, .f32⟩
  | 1 => ⟨S50000x64, .f32⟩
  | 2 => ⟨S50000x64, .f32⟩
  | 3 => ⟨S_, .f32⟩
  | 4 => ⟨S50000x64, .f32⟩
  | 5 => ⟨S50000x64, .f32⟩
  | 6 => ⟨S_, .f32⟩
  | 7 => ⟨S50000x64, .f32⟩
  | 8 => ⟨S50000x64, .f32⟩
  | 9 => ⟨S50000x64, .f32⟩
  | 10 => ⟨S1x64, .f32⟩
  | 11 => ⟨S50000x64, .f32⟩
  | 12 => ⟨S50000x64, .f32⟩
  | 13 => ⟨S50000x64, .f32⟩
  | 14 => ⟨S50000x64, .f32⟩
  | 15 => ⟨S_, .f32⟩
  | 16 => ⟨S50000x64, .f32⟩
  | 17 => ⟨S50000x64, .f32⟩
  | 18 => ⟨S_, .f32⟩
  | 19 => ⟨S50000x64, .f32⟩
  | 20 => ⟨S50000x64, .f32⟩
  | 21 => ⟨S50000x64, .f32⟩
  | 22 => ⟨S50000x194, .f32⟩
  | 23 => ⟨S50000x64, .f32⟩
  | 24 => ⟨S1x64, .f32⟩
  | 25 => ⟨S50000x64, .f32⟩
  | 26 => ⟨S50000x64, .f32⟩
  | 27 => ⟨S50000x64, .f32⟩
  | 28 => ⟨S50000x64, .f32⟩
  | 29 => ⟨S50000x64, .f32⟩
  | 30 => ⟨S50000x64, .i1⟩
  | 31 => ⟨S50000x64, .f32⟩
  | 32 => ⟨S50000x64, .f32⟩
  | 33 => ⟨S1x64, .f32⟩
  | 34 => ⟨S50000x64, .f32⟩
  | 35 => ⟨S50000x64, .f32⟩
  | 36 => ⟨S_, .f32⟩
  | 37 => ⟨S50000x64, .f32⟩
  | 38 => ⟨S50000x64, .f32⟩
  | 39 => ⟨S50000x1, .f32⟩
  | 40 => ⟨S1x1, .f32⟩
  | 41 => ⟨S50000x1, .f32⟩
  | 42 => ⟨S50000x1, .f32⟩
  | 43 => ⟨S800000x1, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x1, .f32⟩
  | 53 => ⟨S800000x1, .f32⟩
  | 54 => ⟨S_, .f32⟩
  | 55 => ⟨S50000x1, .f32⟩
  | 56 => ⟨S800000x1, .i32⟩
  | 57 => ⟨S50000x1, .f32⟩
  | 58 => ⟨S50000x1, .f32⟩
  | 59 => ⟨S50000x1, .f32⟩
  | 60 => ⟨S_, .f32⟩
  | 61 => ⟨S_, .f32⟩
  | 62 => ⟨S_, .f32⟩
  | 63 => ⟨S_, .f32⟩
  | 64 => ⟨S50000x64, .f32⟩
  | 65 => ⟨S1x64, .f32⟩
  | 66 => ⟨S50000x64, .f32⟩
  | 67 => ⟨S50000x64, .f32⟩
  | 68 => ⟨S_, .f32⟩
  | 69 => ⟨S50000x64, .f32⟩
  | 70 => ⟨S50000x64, .f32⟩
  | 71 => ⟨S50000x1, .f32⟩
  | 72 => ⟨S1x1, .f32⟩
  | 73 => ⟨S50000x1, .f32⟩
  | 74 => ⟨S50000x1, .f32⟩
  | 75 => ⟨S50000x64, .f32⟩
  | 76 => ⟨S1x64, .f32⟩
  | 77 => ⟨S50000x64, .f32⟩
  | 78 => ⟨S50000x64, .f32⟩
  | 79 => ⟨S_, .f32⟩
  | 80 => ⟨S50000x64, .f32⟩
  | 81 => ⟨S50000x64, .f32⟩
  | 82 => ⟨S50000x64, .f32⟩
  | 83 => ⟨S1x64, .f32⟩
  | 84 => ⟨S50000x64, .f32⟩
  | 85 => ⟨S50000x64, .f32⟩
  | 86 => ⟨S50000x64, .f32⟩
  | 87 => ⟨S50000x64, .f32⟩
  | 88 => ⟨S_, .f32⟩
  | 89 => ⟨S_, .f32⟩
  | 90 => ⟨S_, .f32⟩
  | 91 => ⟨S_, .f32⟩
  | 92 => ⟨S50000x64, .f32⟩
  | 93 => ⟨S1x64, .f32⟩
  | 94 => ⟨S50000x64, .f32⟩
  | 95 => ⟨S50000x64, .f32⟩
  | 96 => ⟨S_, .f32⟩
  | 97 => ⟨S50000x64, .f32⟩
  | 98 => ⟨S50000x64, .f32⟩
  | 99 => ⟨S50000x64, .f32⟩
  | 100 => ⟨S1x64, .f32⟩
  | 101 => ⟨S50000x64, .f32⟩
  | 102 => ⟨S50000x64, .f32⟩
  | 103 => ⟨S50000x64, .f32⟩
  | 104 => ⟨S1x64, .f32⟩
  | 105 => ⟨S50000x64, .f32⟩
  | 106 => ⟨S50000x64, .f32⟩
  | 107 => ⟨S_, .f32⟩
  | 108 => ⟨S50000x64, .f32⟩
  | 109 => ⟨S50000x64, .f32⟩
  | 110 => ⟨S50000x1, .f32⟩
  | 111 => ⟨S1x1, .f32⟩
  | 112 => ⟨S50000x1, .f32⟩
  | 113 => ⟨S50000x1, .f32⟩
  | 114 => ⟨S50000x1, .f32⟩
  | 115 => ⟨S50000x1, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .i32⟩
  | 127 => ⟨S800000, .i32⟩
  | _ => ⟨S50000x1, .f32⟩

abbrev hbmTy0_2 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000x64, .f32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S800000x64, .f32⟩
  | 16 => ⟨S800000x131, .f32⟩
  | 17 => ⟨S800000x64, .f32⟩
  | 18 => ⟨S1x64, .f32⟩
  | 19 => ⟨S800000x64, .f32⟩
  | 20 => ⟨S800000x64, .f32⟩
  | 21 => ⟨S_, .f32⟩
  | 22 => ⟨S800000x64, .f32⟩
  | 23 => ⟨S800000x64, .f32⟩
  | 24 => ⟨S800000x64, .f32⟩
  | 25 => ⟨S1x64, .f32⟩
  | 26 => ⟨S800000x64, .f32⟩
  | 27 => ⟨S800000x64, .f32⟩
  | 28 => ⟨S800000x64, .f32⟩
  | 29 => ⟨S800000x64, .f32⟩
  | 30 => ⟨S_, .f32⟩
  | 31 => ⟨S50000x64, .f32⟩
  | 32 => ⟨S800000x1, .i32⟩
  | 33 => ⟨S50000x64, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x64, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x64, .f32⟩
  | 52 => ⟨S800000x131, .f32⟩
  | 53 => ⟨S800000x64, .f32⟩
  | 54 => ⟨S1x64, .f32⟩
  | 55 => ⟨S800000x64, .f32⟩
  | 56 => ⟨S800000x64, .f32⟩
  | 57 => ⟨S_, .f32⟩
  | 58 => ⟨S800000x64, .f32⟩
  | 59 => ⟨S800000x64, .f32⟩
  | 60 => ⟨S800000x64, .f32⟩
  | 61 => ⟨S1x64, .f32⟩
  | 62 => ⟨S800000x64, .f32⟩
  | 63 => ⟨S800000x64, .f32⟩
  | 64 => ⟨S800000x64, .f32⟩
  | 65 => ⟨S800000x64, .f32⟩
  | 66 => ⟨S_, .f32⟩
  | 67 => ⟨S50000x64, .f32⟩
  | 68 => ⟨S800000x1, .i32⟩
  | 69 => ⟨S50000x64, .f32⟩
  | 70 => ⟨S50000x194, .f32⟩
  | 71 => ⟨S50000x64, .f32⟩
  | 72 => ⟨S1x64, .f32⟩
  | 73 => ⟨S50000x64, .f32⟩
  | 74 => ⟨S50000x64, .f32⟩
  | 75 => ⟨S50000x64, .f32⟩
  | 76 => ⟨S50000x64, .f32⟩
  | 77 => ⟨S_, .f32⟩
  | 78 => ⟨S50000x64, .f32⟩
  | 79 => ⟨S50000x64, .f32⟩
  | 80 => ⟨S_, .f32⟩
  | 81 => ⟨S50000x64, .f32⟩
  | 82 => ⟨S50000x64, .f32⟩
  | 83 => ⟨S50000x64, .f32⟩
  | 84 => ⟨S1x64, .f32⟩
  | 85 => ⟨S50000x64, .f32⟩
  | 86 => ⟨S50000x64, .f32⟩
  | 87 => ⟨S50000x64, .f32⟩
  | 88 => ⟨S50000x64, .f32⟩
  | 89 => ⟨S_, .f32⟩
  | 90 => ⟨S50000x64, .f32⟩
  | 91 => ⟨S50000x64, .f32⟩
  | 92 => ⟨S_, .f32⟩
  | 93 => ⟨S50000x64, .f32⟩
  | 94 => ⟨S50000x64, .f32⟩
  | 95 => ⟨S50000x64, .f32⟩
  | 96 => ⟨S50000x194, .f32⟩
  | 97 => ⟨S50000x64, .f32⟩
  | 98 => ⟨S1x64, .f32⟩
  | 99 => ⟨S50000x64, .f32⟩
  | 100 => ⟨S50000x64, .f32⟩
  | 101 => ⟨S50000x64, .f32⟩
  | 102 => ⟨S50000x64, .f32⟩
  | 103 => ⟨S50000x64, .f32⟩
  | 104 => ⟨S50000x64, .i1⟩
  | 105 => ⟨S50000x64, .f32⟩
  | 106 => ⟨S50000x64, .f32⟩
  | 107 => ⟨S1x64, .f32⟩
  | 108 => ⟨S50000x64, .f32⟩
  | 109 => ⟨S50000x64, .f32⟩
  | 110 => ⟨S_, .f32⟩
  | 111 => ⟨S50000x64, .f32⟩
  | 112 => ⟨S50000x64, .f32⟩
  | 113 => ⟨S50000x1, .f32⟩
  | 114 => ⟨S1x1, .f32⟩
  | 115 => ⟨S50000x1, .f32⟩
  | 116 => ⟨S50000x1, .f32⟩
  | 117 => ⟨S800000x1, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000x1, .f32⟩
  | 127 => ⟨S800000x1, .f32⟩
  | _ => ⟨S50000x1, .f32⟩

abbrev hbmTy0_3 (i : Nat) : BufTy := match i % 128 with
  | 0 => ⟨S_, .f32⟩
  | 1 => ⟨S50000x1, .f32⟩
  | 2 => ⟨S800000x1, .i32⟩
  | 3 => ⟨S50000x1, .f32⟩
  | 4 => ⟨S50000x1, .f32⟩
  | 5 => ⟨S50000x1, .f32⟩
  | 6 => ⟨S_, .f32⟩
  | 7 => ⟨S_, .f32⟩
  | 8 => ⟨S_, .f32⟩
  | 9 => ⟨S_, .f32⟩
  | 10 => ⟨S50000x64, .f32⟩
  | 11 => ⟨S1x64, .f32⟩
  | 12 => ⟨S50000x64, .f32⟩
  | 13 => ⟨S50000x64, .f32⟩
  | 14 => ⟨S_, .f32⟩
  | 15 => ⟨S50000x64, .f32⟩
  | 16 => ⟨S50000x64, .f32⟩
  | 17 => ⟨S50000x1, .f32⟩
  | 18 => ⟨S1x1, .f32⟩
  | 19 => ⟨S50000x1, .f32⟩
  | 20 => ⟨S50000x1, .f32⟩
  | 21 => ⟨S50000x64, .f32⟩
  | 22 => ⟨S1x64, .f32⟩
  | 23 => ⟨S50000x64, .f32⟩
  | 24 => ⟨S50000x64, .f32⟩
  | 25 => ⟨S_, .f32⟩
  | 26 => ⟨S50000x64, .f32⟩
  | 27 => ⟨S50000x64, .f32⟩
  | 28 => ⟨S50000x64, .f32⟩
  | 29 => ⟨S1x64, .f32⟩
  | 30 => ⟨S50000x64, .f32⟩
  | 31 => ⟨S50000x64, .f32⟩
  | 32 => ⟨S50000x64, .f32⟩
  | 33 => ⟨S50000x64, .f32⟩
  | 34 => ⟨S_, .f32⟩
  | 35 => ⟨S_, .f32⟩
  | 36 => ⟨S_, .f32⟩
  | 37 => ⟨S_, .f32⟩
  | 38 => ⟨S50000x64, .f32⟩
  | 39 => ⟨S1x64, .f32⟩
  | 40 => ⟨S50000x64, .f32⟩
  | 41 => ⟨S50000x64, .f32⟩
  | 42 => ⟨S_, .f32⟩
  | 43 => ⟨S50000x64, .f32⟩
  | 44 => ⟨S50000x64, .f32⟩
  | 45 => ⟨S50000x64, .f32⟩
  | 46 => ⟨S1x64, .f32⟩
  | 47 => ⟨S50000x64, .f32⟩
  | 48 => ⟨S50000x64, .f32⟩
  | 49 => ⟨S50000x64, .f32⟩
  | 50 => ⟨S1x64, .f32⟩
  | 51 => ⟨S50000x64, .f32⟩
  | 52 => ⟨S50000x64, .f32⟩
  | 53 => ⟨S_, .f32⟩
  | 54 => ⟨S50000x64, .f32⟩
  | 55 => ⟨S50000x64, .f32⟩
  | 56 => ⟨S50000x1, .f32⟩
  | 57 => ⟨S1x1, .f32⟩
  | 58 => ⟨S50000x1, .f32⟩
  | 59 => ⟨S50000x1, .f32⟩
  | 60 => ⟨S50000x1, .f32⟩
  | 61 => ⟨S50000x1, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | _ => ⟨S50000x1, .f32⟩

abbrev hbmTy (i : Nat) : BufTy := match i / 128 with
  | 0 => hbmTy0_0 i
  | 1 => hbmTy0_1 i
  | 2 => hbmTy0_2 i
  | 3 => hbmTy0_3 i
  | _ => ⟨S50000x1, .f32⟩

abbrev bufTy : (tb : Table) → Fin (tcTables nBuf tb) → BufTy
  | .hbm, ⟨i, _⟩ => hbmTy i
  | _, _ => ⟨S50000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_c : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_c_0 : Ref sig .tc := ⟨.hbm, 52, rfl⟩
abbrev main_v20 : Ref sig .tc := ⟨.hbm, 53, rfl⟩
abbrev main_v21 : Ref sig .tc := ⟨.hbm, 54, rfl⟩
abbrev main_c_1 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_c_2 : Ref sig .tc := ⟨.hbm, 61, rfl⟩
abbrev main_v27 : Ref sig .tc := ⟨.hbm, 62, rfl⟩
abbrev main_v28 : Ref sig .tc := ⟨.hbm, 63, rfl⟩
abbrev main_c_3 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_cst_4 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_cst_5 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_c_6 : Ref sig .tc := ⟨.hbm, 88, rfl⟩
abbrev main_v50 : Ref sig .tc := ⟨.hbm, 89, rfl⟩
abbrev main_v51 : Ref sig .tc := ⟨.hbm, 90, rfl⟩
abbrev main_c_7 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_c_8 : Ref sig .tc := ⟨.hbm, 97, rfl⟩
abbrev main_v57 : Ref sig .tc := ⟨.hbm, 98, rfl⟩
abbrev main_v58 : Ref sig .tc := ⟨.hbm, 99, rfl⟩
abbrev main_c_9 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_cst_10 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst_11 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_cst_12 : Ref sig .tc := ⟨.hbm, 131, rfl⟩
abbrev main_v87 : Ref sig .tc := ⟨.hbm, 132, rfl⟩
abbrev main_v88 : Ref sig .tc := ⟨.hbm, 133, rfl⟩
abbrev main_cst_13 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_cst_14 : Ref sig .tc := ⟨.hbm, 143, rfl⟩
abbrev main_v97 : Ref sig .tc := ⟨.hbm, 144, rfl⟩
abbrev main_v98 : Ref sig .tc := ⟨.hbm, 145, rfl⟩
abbrev main_cst_15 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_call0_v0 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_cst_16 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_c_17 : Ref sig .tc := ⟨.hbm, 172, rfl⟩
abbrev main_v122 : Ref sig .tc := ⟨.hbm, 173, rfl⟩
abbrev main_v123 : Ref sig .tc := ⟨.hbm, 174, rfl⟩
abbrev main_c_18 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_cst_19 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_cst_20 : Ref sig .tc := ⟨.hbm, 188, rfl⟩
abbrev main_v135 : Ref sig .tc := ⟨.hbm, 189, rfl⟩
abbrev main_cst_21 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_cst_22 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_cst_23 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_cst_24 : Ref sig .tc := ⟨.hbm, 216, rfl⟩
abbrev main_v159 : Ref sig .tc := ⟨.hbm, 217, rfl⟩
abbrev main_cst_25 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_cst_26 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_cst_27 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_cst_28 : Ref sig .tc := ⟨.hbm, 244, rfl⟩
abbrev main_v183 : Ref sig .tc := ⟨.hbm, 245, rfl⟩
abbrev main_cst_29 : Ref sig .tc := ⟨.hbm, 246, rfl⟩
abbrev main_v184 : Ref sig .tc := ⟨.hbm, 247, rfl⟩
abbrev main_cst_30 : Ref sig .tc := ⟨.hbm, 248, rfl⟩
abbrev main_v185 : Ref sig .tc := ⟨.hbm, 249, rfl⟩
abbrev main_cst_31 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_c_32 : Ref sig .tc := ⟨.hbm, 254, rfl⟩
abbrev main_v189 : Ref sig .tc := ⟨.hbm, 255, rfl⟩
abbrev main_v190 : Ref sig .tc := ⟨.hbm, 256, rfl⟩
abbrev main_c_33 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_c_34 : Ref sig .tc := ⟨.hbm, 263, rfl⟩
abbrev main_v196 : Ref sig .tc := ⟨.hbm, 264, rfl⟩
abbrev main_v197 : Ref sig .tc := ⟨.hbm, 265, rfl⟩
abbrev main_c_35 : Ref sig .tc := ⟨.hbm, 266, rfl⟩
abbrev main_v198 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩
abbrev main_v205 : Ref sig .tc := ⟨.hbm, 274, rfl⟩
abbrev main_v206 : Ref sig .tc := ⟨.hbm, 275, rfl⟩
abbrev main_v207 : Ref sig .tc := ⟨.hbm, 276, rfl⟩
abbrev main_cst_36 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_v211 : Ref sig .tc := ⟨.hbm, 281, rfl⟩
abbrev main_v212 : Ref sig .tc := ⟨.hbm, 282, rfl⟩
abbrev main_v213 : Ref sig .tc := ⟨.hbm, 283, rfl⟩
abbrev main_v214 : Ref sig .tc := ⟨.hbm, 284, rfl⟩
abbrev main_v215 : Ref sig .tc := ⟨.hbm, 285, rfl⟩
abbrev main_cst_37 : Ref sig .tc := ⟨.hbm, 286, rfl⟩
abbrev main_v216 : Ref sig .tc := ⟨.hbm, 287, rfl⟩
abbrev main_v217 : Ref sig .tc := ⟨.hbm, 288, rfl⟩
abbrev main_v218 : Ref sig .tc := ⟨.hbm, 289, rfl⟩
abbrev main_c_38 : Ref sig .tc := ⟨.hbm, 290, rfl⟩
abbrev main_v219 : Ref sig .tc := ⟨.hbm, 291, rfl⟩
abbrev main_v220 : Ref sig .tc := ⟨.hbm, 292, rfl⟩
abbrev main_c_39 : Ref sig .tc := ⟨.hbm, 293, rfl⟩
abbrev main_v221 : Ref sig .tc := ⟨.hbm, 294, rfl⟩
abbrev main_v222 : Ref sig .tc := ⟨.hbm, 295, rfl⟩
abbrev main_v223 : Ref sig .tc := ⟨.hbm, 296, rfl⟩
abbrev main_v224 : Ref sig .tc := ⟨.hbm, 297, rfl⟩
abbrev main_v225 : Ref sig .tc := ⟨.hbm, 298, rfl⟩
abbrev main_c_40 : Ref sig .tc := ⟨.hbm, 299, rfl⟩
abbrev main_v226 : Ref sig .tc := ⟨.hbm, 300, rfl⟩
abbrev main_v227 : Ref sig .tc := ⟨.hbm, 301, rfl⟩
abbrev main_c_41 : Ref sig .tc := ⟨.hbm, 302, rfl⟩
abbrev main_v228 : Ref sig .tc := ⟨.hbm, 303, rfl⟩
abbrev main_v229 : Ref sig .tc := ⟨.hbm, 304, rfl⟩
abbrev main_v230 : Ref sig .tc := ⟨.hbm, 305, rfl⟩
abbrev main_v231 : Ref sig .tc := ⟨.hbm, 306, rfl⟩
abbrev main_v232 : Ref sig .tc := ⟨.hbm, 307, rfl⟩
abbrev main_v233 : Ref sig .tc := ⟨.hbm, 308, rfl⟩
abbrev main_v234 : Ref sig .tc := ⟨.hbm, 309, rfl⟩
abbrev main_v235 : Ref sig .tc := ⟨.hbm, 310, rfl⟩
abbrev main_v236 : Ref sig .tc := ⟨.hbm, 311, rfl⟩
abbrev main_v237 : Ref sig .tc := ⟨.hbm, 312, rfl⟩
abbrev main_cst_42 : Ref sig .tc := ⟨.hbm, 313, rfl⟩
abbrev main_v238 : Ref sig .tc := ⟨.hbm, 314, rfl⟩
abbrev main_v239 : Ref sig .tc := ⟨.hbm, 315, rfl⟩
abbrev main_v240 : Ref sig .tc := ⟨.hbm, 316, rfl⟩
abbrev main_v241 : Ref sig .tc := ⟨.hbm, 317, rfl⟩
abbrev main_v242 : Ref sig .tc := ⟨.hbm, 318, rfl⟩
abbrev main_v243 : Ref sig .tc := ⟨.hbm, 319, rfl⟩
abbrev main_v244 : Ref sig .tc := ⟨.hbm, 320, rfl⟩
abbrev main_v245 : Ref sig .tc := ⟨.hbm, 321, rfl⟩
abbrev main_cst_43 : Ref sig .tc := ⟨.hbm, 322, rfl⟩
abbrev main_v246 : Ref sig .tc := ⟨.hbm, 323, rfl⟩
abbrev main_v247 : Ref sig .tc := ⟨.hbm, 324, rfl⟩
abbrev main_v248 : Ref sig .tc := ⟨.hbm, 325, rfl⟩
abbrev main_v249 : Ref sig .tc := ⟨.hbm, 326, rfl⟩
abbrev main_v250 : Ref sig .tc := ⟨.hbm, 327, rfl⟩
abbrev main_v251 : Ref sig .tc := ⟨.hbm, 328, rfl⟩
abbrev main_v252 : Ref sig .tc := ⟨.hbm, 329, rfl⟩
abbrev main_v253 : Ref sig .tc := ⟨.hbm, 330, rfl⟩
abbrev main_v254 : Ref sig .tc := ⟨.hbm, 331, rfl⟩
abbrev main_v255 : Ref sig .tc := ⟨.hbm, 332, rfl⟩
abbrev main_cst_44 : Ref sig .tc := ⟨.hbm, 333, rfl⟩
abbrev main_v256 : Ref sig .tc := ⟨.hbm, 334, rfl⟩
abbrev main_v257 : Ref sig .tc := ⟨.hbm, 335, rfl⟩
abbrev main_cst_45 : Ref sig .tc := ⟨.hbm, 336, rfl⟩
abbrev main_v258 : Ref sig .tc := ⟨.hbm, 337, rfl⟩
abbrev main_v259 : Ref sig .tc := ⟨.hbm, 338, rfl⟩
abbrev main_v260 : Ref sig .tc := ⟨.hbm, 339, rfl⟩
abbrev main_v261 : Ref sig .tc := ⟨.hbm, 340, rfl⟩
abbrev main_v262 : Ref sig .tc := ⟨.hbm, 341, rfl⟩
abbrev main_v263 : Ref sig .tc := ⟨.hbm, 342, rfl⟩
abbrev main_v264 : Ref sig .tc := ⟨.hbm, 343, rfl⟩
abbrev main_v265 : Ref sig .tc := ⟨.hbm, 344, rfl⟩
abbrev main_cst_46 : Ref sig .tc := ⟨.hbm, 345, rfl⟩
abbrev main_v266 : Ref sig .tc := ⟨.hbm, 346, rfl⟩
abbrev main_v267 : Ref sig .tc := ⟨.hbm, 347, rfl⟩
abbrev main_cst_47 : Ref sig .tc := ⟨.hbm, 348, rfl⟩
abbrev main_v268 : Ref sig .tc := ⟨.hbm, 349, rfl⟩
abbrev main_v269 : Ref sig .tc := ⟨.hbm, 350, rfl⟩
abbrev main_v270 : Ref sig .tc := ⟨.hbm, 351, rfl⟩
abbrev main_v271 : Ref sig .tc := ⟨.hbm, 352, rfl⟩
abbrev main_v272 : Ref sig .tc := ⟨.hbm, 353, rfl⟩
abbrev main_v273 : Ref sig .tc := ⟨.hbm, 354, rfl⟩
abbrev main_v274 : Ref sig .tc := ⟨.hbm, 355, rfl⟩
abbrev main_v275 : Ref sig .tc := ⟨.hbm, 356, rfl⟩
abbrev main_v276 : Ref sig .tc := ⟨.hbm, 357, rfl⟩
abbrev main_v277 : Ref sig .tc := ⟨.hbm, 358, rfl⟩
abbrev main_v278 : Ref sig .tc := ⟨.hbm, 359, rfl⟩
abbrev main_call1_v0 : Ref sig .tc := ⟨.hbm, 360, rfl⟩
abbrev main_v279 : Ref sig .tc := ⟨.hbm, 361, rfl⟩
abbrev main_v280 : Ref sig .tc := ⟨.hbm, 362, rfl⟩
abbrev main_v281 : Ref sig .tc := ⟨.hbm, 363, rfl⟩
abbrev main_v282 : Ref sig .tc := ⟨.hbm, 364, rfl⟩
abbrev main_v283 : Ref sig .tc := ⟨.hbm, 365, rfl⟩
abbrev main_cst_48 : Ref sig .tc := ⟨.hbm, 366, rfl⟩
abbrev main_v284 : Ref sig .tc := ⟨.hbm, 367, rfl⟩
abbrev main_v285 : Ref sig .tc := ⟨.hbm, 368, rfl⟩
abbrev main_v286 : Ref sig .tc := ⟨.hbm, 369, rfl⟩
abbrev main_v287 : Ref sig .tc := ⟨.hbm, 370, rfl⟩
abbrev main_v288 : Ref sig .tc := ⟨.hbm, 371, rfl⟩
abbrev main_v289 : Ref sig .tc := ⟨.hbm, 372, rfl⟩
abbrev main_v290 : Ref sig .tc := ⟨.hbm, 373, rfl⟩
abbrev main_c_49 : Ref sig .tc := ⟨.hbm, 374, rfl⟩
abbrev main_v291 : Ref sig .tc := ⟨.hbm, 375, rfl⟩
abbrev main_v292 : Ref sig .tc := ⟨.hbm, 376, rfl⟩
abbrev main_c_50 : Ref sig .tc := ⟨.hbm, 377, rfl⟩
abbrev main_v293 : Ref sig .tc := ⟨.hbm, 378, rfl⟩
abbrev main_v294 : Ref sig .tc := ⟨.hbm, 379, rfl⟩
abbrev main_v295 : Ref sig .tc := ⟨.hbm, 380, rfl⟩
abbrev main_v296 : Ref sig .tc := ⟨.hbm, 381, rfl⟩
abbrev main_v297 : Ref sig .tc := ⟨.hbm, 382, rfl⟩
abbrev main_v298 : Ref sig .tc := ⟨.hbm, 383, rfl⟩
abbrev main_cst_51 : Ref sig .tc := ⟨.hbm, 384, rfl⟩
abbrev main_v299 : Ref sig .tc := ⟨.hbm, 385, rfl⟩
abbrev main_v300 : Ref sig .tc := ⟨.hbm, 386, rfl⟩
abbrev main_v301 : Ref sig .tc := ⟨.hbm, 387, rfl⟩
abbrev main_v302 : Ref sig .tc := ⟨.hbm, 388, rfl⟩
abbrev main_v303 : Ref sig .tc := ⟨.hbm, 389, rfl⟩
abbrev main_cst_52 : Ref sig .tc := ⟨.hbm, 390, rfl⟩
abbrev main_v304 : Ref sig .tc := ⟨.hbm, 391, rfl⟩
abbrev main_cst_53 : Ref sig .tc := ⟨.hbm, 392, rfl⟩
abbrev main_v305 : Ref sig .tc := ⟨.hbm, 393, rfl⟩
abbrev main_v306 : Ref sig .tc := ⟨.hbm, 394, rfl⟩
abbrev main_v307 : Ref sig .tc := ⟨.hbm, 395, rfl⟩
abbrev main_v308 : Ref sig .tc := ⟨.hbm, 396, rfl⟩
abbrev main_v309 : Ref sig .tc := ⟨.hbm, 397, rfl⟩
abbrev main_cst_54 : Ref sig .tc := ⟨.hbm, 398, rfl⟩
abbrev main_v310 : Ref sig .tc := ⟨.hbm, 399, rfl⟩
abbrev main_v311 : Ref sig .tc := ⟨.hbm, 400, rfl⟩
abbrev main_v312 : Ref sig .tc := ⟨.hbm, 401, rfl⟩
abbrev main_v313 : Ref sig .tc := ⟨.hbm, 402, rfl⟩
abbrev main_v314 : Ref sig .tc := ⟨.hbm, 403, rfl⟩
abbrev main_v315 : Ref sig .tc := ⟨.hbm, 404, rfl⟩
abbrev main_v316 : Ref sig .tc := ⟨.hbm, 405, rfl⟩
abbrev main_v317 : Ref sig .tc := ⟨.hbm, 406, rfl⟩
abbrev main_v318 : Ref sig .tc := ⟨.hbm, 407, rfl⟩
abbrev main_v319 : Ref sig .tc := ⟨.hbm, 408, rfl⟩
abbrev main_cst_55 : Ref sig .tc := ⟨.hbm, 409, rfl⟩
abbrev main_v320 : Ref sig .tc := ⟨.hbm, 410, rfl⟩
abbrev main_v321 : Ref sig .tc := ⟨.hbm, 411, rfl⟩
abbrev main_v322 : Ref sig .tc := ⟨.hbm, 412, rfl⟩
abbrev main_v323 : Ref sig .tc := ⟨.hbm, 413, rfl⟩
abbrev main_v324 : Ref sig .tc := ⟨.hbm, 414, rfl⟩
abbrev main_v325 : Ref sig .tc := ⟨.hbm, 415, rfl⟩
abbrev main_v326 : Ref sig .tc := ⟨.hbm, 416, rfl⟩
abbrev main_v327 : Ref sig .tc := ⟨.hbm, 417, rfl⟩
abbrev main_cst_56 : Ref sig .tc := ⟨.hbm, 418, rfl⟩
abbrev main_v328 : Ref sig .tc := ⟨.hbm, 419, rfl⟩
abbrev main_cst_57 : Ref sig .tc := ⟨.hbm, 420, rfl⟩
abbrev main_v329 : Ref sig .tc := ⟨.hbm, 421, rfl⟩
abbrev main_v330 : Ref sig .tc := ⟨.hbm, 422, rfl⟩
abbrev main_v331 : Ref sig .tc := ⟨.hbm, 423, rfl⟩
abbrev main_v332 : Ref sig .tc := ⟨.hbm, 424, rfl⟩
abbrev main_v333 : Ref sig .tc := ⟨.hbm, 425, rfl⟩
abbrev main_cst_58 : Ref sig .tc := ⟨.hbm, 426, rfl⟩
abbrev main_v334 : Ref sig .tc := ⟨.hbm, 427, rfl⟩
abbrev main_v335 : Ref sig .tc := ⟨.hbm, 428, rfl⟩
abbrev main_v336 : Ref sig .tc := ⟨.hbm, 429, rfl⟩
abbrev main_v337 : Ref sig .tc := ⟨.hbm, 430, rfl⟩
abbrev main_v338 : Ref sig .tc := ⟨.hbm, 431, rfl⟩
abbrev main_v339 : Ref sig .tc := ⟨.hbm, 432, rfl⟩
abbrev main_v340 : Ref sig .tc := ⟨.hbm, 433, rfl⟩
abbrev main_v341 : Ref sig .tc := ⟨.hbm, 434, rfl⟩
abbrev main_v342 : Ref sig .tc := ⟨.hbm, 435, rfl⟩
abbrev main_v343 : Ref sig .tc := ⟨.hbm, 436, rfl⟩
abbrev main_cst_59 : Ref sig .tc := ⟨.hbm, 437, rfl⟩
abbrev main_v344 : Ref sig .tc := ⟨.hbm, 438, rfl⟩
abbrev main_v345 : Ref sig .tc := ⟨.hbm, 439, rfl⟩
abbrev main_v346 : Ref sig .tc := ⟨.hbm, 440, rfl⟩
abbrev main_v347 : Ref sig .tc := ⟨.hbm, 441, rfl⟩
abbrev main_v348 : Ref sig .tc := ⟨.hbm, 442, rfl⟩
abbrev main_v349 : Ref sig .tc := ⟨.hbm, 443, rfl⟩
abbrev main_v350 : Ref sig .tc := ⟨.hbm, 444, rfl⟩
abbrev main_v351 : Ref sig .tc := ⟨.hbm, 445, rfl⟩
abbrev main_cst_60 : Ref sig .tc := ⟨.hbm, 446, rfl⟩
abbrev main_v352 : Ref sig .tc := ⟨.hbm, 447, rfl⟩
abbrev main_cst_61 : Ref sig .tc := ⟨.hbm, 448, rfl⟩
abbrev main_v353 : Ref sig .tc := ⟨.hbm, 449, rfl⟩
abbrev main_cst_62 : Ref sig .tc := ⟨.hbm, 450, rfl⟩
abbrev main_v354 : Ref sig .tc := ⟨.hbm, 451, rfl⟩
abbrev main_v355 : Ref sig .tc := ⟨.hbm, 452, rfl⟩
abbrev main_v356 : Ref sig .tc := ⟨.hbm, 453, rfl⟩
abbrev main_v357 : Ref sig .tc := ⟨.hbm, 454, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S_S800000 : S_.BroadcastsInDim S800000 (![] : Fin 0 → Fin S800000.rank)
  concatenates_S800000x64_S800000x64_S800000x3_S800000x131_d1 : Shape.Concatenates [S800000x64, S800000x64, S800000x3] S800000x131 1
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S800000x1_S800000x64_0_1 : S800000x1.BroadcastsInDim S800000x64 (![0, 1] : Fin 2 → Fin S800000x64.rank)
  concatenates_S50000x64_S50000x64_S50000x64_S50000x2_S50000x194_d1 : Shape.Concatenates [S50000x64, S50000x64, S50000x64, S50000x2] S50000x194 1
  bcast_S50000x1_S50000x64_0_1 : S50000x1.BroadcastsInDim S50000x64 (![0, 1] : Fin 2 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  reducesTo_S50000x1_S_d0_1 : S50000x1.ReducesTo [0, 1] S_
  h_S_ : 0 < S_.numel
  reducesTo_S50000x64_S_d0_1 : S50000x64.ReducesTo [0, 1] S_
  dot_S50000x1_S1x64_S50000x64_1_0_0_1_n_n_wf : DotDims.WF S50000x1 S1x64 S50000x64 [1] [0] [0] [1] [] []
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  dot_S800000x131_S131x64_S800000x64_1_0_0_1_n_n_wf : DotDims.WF S800000x131 S131x64 S800000x64 [1] [0] [0] [1] [] []
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  dot_S50000x194_S194x64_S50000x64_1_0_0_1_n_n_wf : DotDims.WF S50000x194 S194x64 S50000x64 [1] [0] [0] [1] [] []
  dot_S50000x64_S64x1_S50000x1_1_0_0_1_n_n_wf : DotDims.WF S50000x64 S64x1 S50000x1 [1] [0] [0] [1] [] []
  gather_S50000x1_S800000x1_S800000x1_1_0_n_n_0_1_11_wf : GatherDims.WF S50000x1 S800000x1 S800000x1 [1] [0] [] [0] [] 1 ![1, 1]
  scatter_S50000x1_S800000x1_S800000x1_1_0_0_1_wf : ScatterDims.WF S50000x1 S800000x1 S800000x1 [1] [0] [0] 1

variable [Facts₀]

def dot_S50000x1_S1x64_S50000x64_1_0_0_1_n_n : DotDims S50000x1 S1x64 S50000x64 where
  lhsContracting := [1]
  rhsContracting := [0]
  lhsNonContracting := [0]
  rhsNonContracting := [1]
  lhsBatch := []
  rhsBatch := []
  wf := dot_S50000x1_S1x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x131_S131x64_S800000x64_1_0_0_1_n_n : DotDims S800000x131 S131x64 S800000x64 where
  lhsContracting := [1]
  rhsContracting := [0]
  lhsNonContracting := [0]
  rhsNonContracting := [1]
  lhsBatch := []
  rhsBatch := []
  wf := dot_S800000x131_S131x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x194_S194x64_S50000x64_1_0_0_1_n_n : DotDims S50000x194 S194x64 S50000x64 where
  lhsContracting := [1]
  rhsContracting := [0]
  lhsNonContracting := [0]
  rhsNonContracting := [1]
  lhsBatch := []
  rhsBatch := []
  wf := dot_S50000x194_S194x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf

class Facts : Prop extends Facts₀ where

variable [Facts]
-- ==== Proof.KI.D0.lean ====
import proofs.«138431_j79370995631014_1_alg».proof.Proof.Gen.KernelIdeal.Launch
import proofs.«138431_j79370995631014_1_alg».proof.Proof.Gen.KernelIdeal.Skeleton
import proofs.«138431_j79370995631014_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x1 := Rect.unit (s := S2000x1) ![0, 0] S2000x1.size inb_S2000x1_S2000x1_0_0
abbrev r0_1 : Rect S1x64 := Rect.unit (s := S1x64) ![0, 0] S1x64.size inb_S1x64_S1x64_0_0
abbrev r0_2 : Rect S1x64 := Rect.unit (s := S1x64) ![0, 0] S1x64.size inb_S1x64_S1x64_0_0
abbrev r0_3 : Rect S64x64 := Rect.unit (s := S64x64) ![0, 0] S64x64.size inb_S64x64_S64x64_0_0
abbrev r0_4 : Rect S1x64 := Rect.unit (s := S1x64) ![0, 0] S1x64.size inb_S1x64_S1x64_0_0
abbrev r0_5 : Rect S2000x64 := Rect.unit (s := S2000x64) ![0, 0] S2000x64.size inb_S2000x64_S2000x64_0_0

def out0 (x0 : Vec F S2000x1 .f32) (x1 : Vec F S1x64 .f32) (x2 : Vec F S1x64 .f32) (x3 : Vec F S64x64 .f32)
    (x4 : Vec F S1x64 .f32) : Vec F S2000x64 .f32 :=
  View.canon [⟨r0_5, k0_pay1 (View.ld x0 r0_0) (View.ld x1 r0_1) (View.ld x2 r0_2) (View.ld x3 r0_3) (View.ld x4 r0_4)⟩]

theorem cover0 (p0 : Vec F S2000x64 .f32) (y : S2000x64.Idx) :
    ∃ pc ∈ ([⟨r0_5, p0⟩] : List (View.Piece (Elt F) S2000x64 .f32)), y ∈ pc.1.set :=
  View.cover_of_tiled [⟨r0_5, p0⟩] S2000x64.size (by rfl) y

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0 (c : Dev nD) (t : Fin cfg0.N) :
    (dat0 V c).after 0 t = iblk0 V c 0 t ∧ (dat0 V c).after 1 t = iblk0 V c 1 t ∧ (dat0 V c).after 2 t = iblk0 V c 2 t ∧ (dat0 V c).after 3 t = iblk0 V c 3 t ∧ (dat0 V c).after 4 t = iblk0 V c 4 t :=
  ⟨rfl, rfl, rfl, rfl, rfl⟩

theorem after0_5 (c : Dev nD) (t : Fin cfg0.N) : (dat0 V c).after 5 t =
    out0 (iblk0 V c 0 t) (iblk0 V c 1 t) (iblk0 V c 2 t) (iblk0 V c 3 t) (iblk0 V c 4 t) := by dsimp only [dat0]

theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t) ∧ (∀ d, (dat0 V c).before 3 t d = iblk0 V c 3 t) ∧ (∀ d, (dat0 V c).before 4 t d = iblk0 V c 4 t) := by
  refine ⟨?_, ?_, ?_, ?_, ?_⟩ <;> intro d <;>
    (refine (Dat.before_in_eq_fetched _ _ ?_ ?_ ?_ ?_ t d).trans ?_ <;>
      first | rfl | exact fun _ => rfl | exact fun _ _ _ => rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

end Cert.KernelIdeal.Hand
-- ==== Proof.KI.D1.lean ====
import proofs.«138431_j79370995631014_1_alg».proof.Proof.Gen.KernelIdeal.Launch
import proofs.«138431_j79370995631014_1_alg».proof.Proof.Gen.KernelIdeal.Skeleton
import proofs.«138431_j79370995631014_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S4000x64 := Rect.unit (s := S4000x64) ![0, 0] S4000x64.size inb_S4000x64_S4000x64_0_0
abbrev r1_1 : Rect S4000x3 := Rect.unit (s := S4000x3) ![0, 0] S4000x3.size inb_S4000x3_S4000x3_0_0
abbrev r1_2 : Rect S4000x1 := Rect.unit (s := S4000x1) ![0, 0] S4000x1.size inb_S4000x1_S4000x1_0_0
abbrev r1_3 : Rect S64x64 := Rect.unit (s := S64x64) ![0, 0] S64x64.size inb_S64x64_S64x64_0_0
abbrev r1_4 : Rect S3x64 := Rect.unit (s := S3x64) ![0, 0] S3x64.size inb_S3x64_S3x64_0_0
abbrev r1_5 : Rect S1x64 := Rect.unit (s := S1x64) ![0, 0] S1x64.size inb_S1x64_S1x64_0_0

def out1 (x0 : Vec F S4000x64 .f32) (x1 : Vec F S4000x64 .f32) (x2 : Vec F S4000x3 .f32) (x3 : Vec F S4000x1 .f32)
    (x4 : Vec F S64x64 .f32) (x5 : Vec F S64x64 .f32) (x6 : Vec F S3x64 .f32) (x7 : Vec F S1x64 .f32)
    (x8 : Vec F S64x64 .f32) (x9 : Vec F S1x64 .f32) : Vec F S4000x64 .f32 :=
  View.canon [⟨r1_0, k1_pay1 (k1_pay2 (View.ld x0 r1_0) (View.ld x1 r1_0) (View.ld x2 r1_1) (View.ld x4 r1_3) (View.ld x5 r1_3)
    (View.ld x6 r1_4) (View.ld x7 r1_5) (View.ld x8 r1_3) (View.ld x9 r1_5)) (View.ld x3 r1_2)⟩]

theorem cover1 (p0 : Vec F S4000x64 .f32) (y : S4000x64.Idx) :
    ∃ pc ∈ ([⟨r1_0, p0⟩] : List (View.Piece (Elt F) S4000x64 .f32)), y ∈ pc.1.set :=
  View.cover_of_tiled [⟨r1_0, p0⟩] S4000x64.size (by rfl) y

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1 (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1 (c : Dev nD) (t : Fin cfg1.N) :
    (dat1 V c).after 0 t = iblk1 V c 0 t ∧ (dat1 V c).after 1 t = iblk1 V c 1 t ∧ (dat1 V c).after 2 t = iblk1 V c 2 t ∧ (dat1 V c).after 3 t = iblk1 V c 3 t ∧ (dat1 V c).after 4 t = iblk1 V c 4 t ∧ (dat1 V c).after 5 t = iblk1 V c 5 t ∧ (dat1 V c).after 6 t = iblk1 V c 6 t ∧ (dat1 V c).after 7 t = iblk1 V c 7 t ∧ (dat1 V c).after 8 t = iblk1 V c 8 t ∧ (dat1 V c).after 9 t = iblk1 V c 9 t :=
  ⟨rfl, rfl, rfl, rfl, rfl, rfl, rfl, rfl, rfl, rfl⟩

theorem after1_10 (c : Dev nD) (t : Fin cfg1.N) : (dat1 V c).after 10 t =
    out1 (iblk1 V c 0 t) (iblk1 V c 1 t) (iblk1 V c 2 t) (iblk1 V c 3 t) (iblk1 V c 4 t) (iblk1 V c 5 t)
      (iblk1 V c 6 t) (iblk1 V c 7 t) (iblk1 V c 8 t) (iblk1 V c 9 t) := by dsimp only [dat1]

theorem before1 (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t) ∧ (∀ d, (dat1 V c).before 3 t d = iblk1 V c 3 t) ∧ (∀ d, (dat1 V c).before 4 t d = iblk1 V c 4 t) ∧ (∀ d, (dat1 V c).before 5 t d = iblk1 V c 5 t) ∧ (∀ d, (dat1 V c).before 6 t d = iblk1 V c 6 t) ∧ (∀ d, (dat1 V c).before 7 t d = iblk1 V c 7 t) ∧ (∀ d, (dat1 V c).before 8 t d = iblk1 V c 8 t) ∧ (∀ d, (dat1 V c).before 9 t d = iblk1 V c 9 t) := by
  refine ⟨?_, ?_, ?_, ?_, ?_, ?_, ?_, ?_, ?_, ?_⟩ <;> intro d <;>
    (refine (Dat.before_in_eq_fetched _ _ ?_ ?_ ?_ ?_ t d).trans ?_ <;>
      first | rfl | exact fun _ => rfl | exact fun _ _ _ => rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

end Cert.KernelIdeal.Hand
-- ==== Proof.KI.D2.lean ====
import proofs.«138431_j79370995631014_1_alg».proof.Proof.Gen.KernelIdeal.Launch
import proofs.«138431_j79370995631014_1_alg».proof.Proof.Gen.KernelIdeal.Skeleton
import proofs.«138431_j79370995631014_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S4000x64 := Rect.unit (s := S4000x64) ![0, 0] S4000x64.size inb_S4000x64_S4000x64_0_0
abbrev r2_1 : Rect S4000x3 := Rect.unit (s := S4000x3) ![0, 0] S4000x3.size inb_S4000x3_S4000x3_0_0
abbrev r2_2 : Rect S4000x1 := Rect.unit (s := S4000x1) ![0, 0] S4000x1.size inb_S4000x1_S4000x1_0_0
abbrev r2_3 : Rect S64x64 := Rect.unit (s := S64x64) ![0, 0] S64x64.size inb_S64x64_S64x64_0_0
abbrev r2_4 : Rect S3x64 := Rect.unit (s := S3x64) ![0, 0] S3x64.size inb_S3x64_S3x64_0_0
abbrev r2_5 : Rect S1x64 := Rect.unit (s := S1x64) ![0, 0] S1x64.size inb_S1x64_S1x64_0_0

def out2 (x0 : Vec F S4000x64 .f32) (x1 : Vec F S4000x64 .f32) (x2 : Vec F S4000x3 .f32) (x3 : Vec F S4000x1 .f32)
    (x4 : Vec F S64x64 .f32) (x5 : Vec F S64x64 .f32) (x6 : Vec F S3x64 .f32) (x7 : Vec F S1x64 .f32)
    (x8 : Vec F S64x64 .f32) (x9 : Vec F S1x64 .f32) : Vec F S4000x64 .f32 :=
  View.canon [⟨r2_0, k2_pay1 (k2_pay2 (View.ld x0 r2_0) (View.ld x1 r2_0) (View.ld x2 r2_1) (View.ld x4 r2_3) (View.ld x5 r2_3)
    (View.ld x6 r2_4) (View.ld x7 r2_5) (View.ld x8 r2_3) (View.ld x9 r2_5)) (View.ld x3 r2_2)⟩]

theorem cover2 (p0 : Vec F S4000x64 .f32) (y : S4000x64.Idx) :
    ∃ pc ∈ ([⟨r2_0, p0⟩] : List (View.Piece (Elt F) S4000x64 .f32)), y ∈ pc.1.set :=
  View.cover_of_tiled [⟨r2_0, p0⟩] S4000x64.size (by rfl) y

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2 (iblk2 V c 0 t) (iblk2 V c 1 t) (iblk2 V c 2 t) (iblk2 V c 3 t) (iblk2 V c 4 t) (iblk2 V c 5 t)
        (iblk2 V c 6 t) (iblk2 V c 7 t) (iblk2 V c 8 t) (iblk2 V c 9 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2 (c : Dev nD) (t : Fin cfg2.N) :
    (dat2 V c).after 0 t = iblk2 V c 0 t ∧ (dat2 V c).after 1 t = iblk2 V c 1 t ∧ (dat2 V c).after 2 t = iblk2 V c 2 t ∧ (dat2 V c).after 3 t = iblk2 V c 3 t ∧ (dat2 V c).after 4 t = iblk2 V c 4 t ∧ (dat2 V c).after 5 t = iblk2 V c 5 t ∧ (dat2 V c).after 6 t = iblk2 V c 6 t ∧ (dat2 V c).after 7 t = iblk2 V c 7 t ∧ (dat2 V c).after 8 t = iblk2 V c 8 t ∧ (dat2 V c).after 9 t = iblk2 V c 9 t :=
  ⟨rfl, rfl, rfl, rfl, rfl, rfl, rfl, rfl, rfl, rfl⟩

theorem after2_10 (c : Dev nD) (t : Fin cfg2.N) : (dat2 V c).after 10 t =
    out2 (iblk2 V c 0 t) (iblk2 V c 1 t) (iblk2 V c 2 t) (iblk2 V c 3 t) (iblk2 V c 4 t) (iblk2 V c 5 t)
      (iblk2 V c 6 t) (iblk2 V c 7 t) (iblk2 V c 8 t) (iblk2 V c 9 t) := by dsimp only [dat2]

theorem before2 (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t) ∧ (∀ d, (dat2 V c).before 3 t d = iblk2 V c 3 t) ∧ (∀ d, (dat2 V c).before 4 t d = iblk2 V c 4 t) ∧ (∀ d, (dat2 V c).before 5 t d = iblk2 V c 5 t) ∧ (∀ d, (dat2 V c).before 6 t d = iblk2 V c 6 t) ∧ (∀ d, (dat2 V c).before 7 t d = iblk2 V c 7 t) ∧ (∀ d, (dat2 V c).before 8 t d = iblk2 V c 8 t) ∧ (∀ d, (dat2 V c).before 9 t d = iblk2 V c 9 t) := by
  refine ⟨?_, ?_, ?_, ?_, ?_, ?_, ?_, ?_, ?_, ?_⟩ <;> intro d <;>
    (refine (Dat.before_in_eq_fetched _ _ ?_ ?_ ?_ ?_ t d).trans ?_ <;>
      first | rfl | exact fun _ => rfl | exact fun _ _ _ => rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t))

end Cert.KernelIdeal.Hand
-- ==== Proof.KI.Share3.lean ====
import proofs.«138431_j79370995631014_1_alg».proof.Proof.Gen.KernelIdeal.Launch

noncomputable section

namespace Cert.KernelIdeal.Hand

open Cert.KernelIdeal Cert.KernelIdeal.Gen
open Idealize.ShloMosaic Idealize.ShloMosaic.TcCoe
open Idealize.SL Idealize.SL.RA
open PCS

def q3 : Fin cfg3.W → PosShare TreeShare :=
  fun w => if w = 0 then fullShare.left else if w = 4 then fullShare.right else fullShare

theorem q3_of_ne (w : Fin cfg3.W) (h0 : w ≠ 0) (h4 : w ≠ 4) : q3 w = fullShare := by
  unfold q3; rw [if_neg h0, if_neg h4]

end Cert.KernelIdeal.Hand
end
-- ==== Proof.KI.D3.lean ====
import proofs.«138431_j79370995631014_1_alg».proof.Proof.KI.Share3
import proofs.«138431_j79370995631014_1_alg».proof.Proof.Gen.KernelIdeal.Launch
import proofs.«138431_j79370995631014_1_alg».proof.Proof.Gen.KernelIdeal.Skeleton
import proofs.«138431_j79370995631014_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S2000x64 := Rect.unit (s := S2000x64) ![0, 0] S2000x64.size inb_S2000x64_S2000x64_0_0
abbrev r3_1 : Rect S2000x2 := Rect.unit (s := S2000x2) ![0, 0] S2000x2.size inb_S2000x2_S2000x2_0_0
abbrev r3_2 : Rect S2000x1 := Rect.unit (s := S2000x1) ![0, 0] S2000x1.size inb_S2000x1_S2000x1_0_0
abbrev r3_3 : Rect S64x64 := Rect.unit (s := S64x64) ![0, 0] S64x64.size inb_S64x64_S64x64_0_0
abbrev r3_4 : Rect S2x64 := Rect.unit (s := S2x64) ![0, 0] S2x64.size inb_S2x64_S2x64_0_0
abbrev r3_5 : Rect S1x64 := Rect.unit (s := S1x64) ![0, 0] S1x64.size inb_S1x64_S1x64_0_0

def out3 (x0 : Vec F S2000x64 .f32) (x1 : Vec F S2000x64 .f32) (x2 : Vec F S2000x64 .f32) (x3 : Vec F S2000x2 .f32) (x4 : Vec F S2000x64 .f32) (x5 : Vec F S2000x1 .f32) (x6 : Vec F S64x64 .f32) (x7 : Vec F S64x64 .f32) (x8 : Vec F S64x64 .f32) (x9 : Vec F S2x64 .f32) (x10 : Vec F S1x64 .f32) (x11 : Vec F S64x64 .f32) (x12 : Vec F S64x64 .f32) (x13 : Vec F S64x64 .f32) (x14 : Vec F S2x64 .f32) (x15 : Vec F S1x64 .f32) (x16 : Vec F S64x64 .f32) (x17 : Vec F S64x64 .f32) (x18 : Vec F S64x64 .f32) (x19 : Vec F S2x64 .f32) (x20 : Vec F S1x64 .f32) : Vec F S2000x64 .f32 :=
  View.canon [⟨r3_0, k3_pay1
    (k3_pay2 (View.ld x0 r3_0))
    (k3_pay3 (View.ld x4 r3_0))
    (k3_pay4 (View.ld x5 r3_2))
    (k3_pay6 (View.ld x2 r3_0))
    (k3_pay7 (View.ld x3 r3_1))
    (k3_pay10 (k3_pay9 (View.ld x0 r3_0) (View.ld x1 r3_0) (View.ld x2 r3_0) (View.ld x3 r3_1) (View.ld x6 r3_3) (View.ld x7 r3_3) (View.ld x8 r3_3) (View.ld x9 r3_4)) (View.ld x10 r3_5))
    (k3_pay11 (k3_pay2 (View.ld x0 r3_0)) (k3_pay5 (View.ld x1 r3_0)) (k3_pay6 (View.ld x2 r3_0)) (k3_pay7 (View.ld x3 r3_1)) (k3_pay8 (View.ld x0 r3_0)) (View.ld x11 r3_3) (View.ld x12 r3_3) (View.ld x13 r3_3) (View.ld x14 r3_4) (View.ld x15 r3_5) (View.ld x16 r3_3))
    (k3_pay12 (k3_pay5 (View.ld x1 r3_0)) (View.ld x17 r3_3))
    (View.ld x18 r3_3) (View.ld x19 r3_4) (View.ld x20 r3_5)⟩]

theorem cover3 (p0 : Vec F S2000x64 .f32) (y : S2000x64.Idx) :
    ∃ pc ∈ ([⟨r3_0, p0⟩] : List (View.Piece (Elt F) S2000x64 .f32)), y ∈ pc.1.set :=
  View.cover_of_tiled [⟨r3_0, p0⟩] S2000x64.size (by rfl) y

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => iblk3 V c 13 t
    | ⟨14, _⟩ => iblk3 V c 14 t
    | ⟨15, _⟩ => iblk3 V c 15 t
    | ⟨16, _⟩ => iblk3 V c 16 t
    | ⟨17, _⟩ => iblk3 V c 17 t
    | ⟨18, _⟩ => iblk3 V c 18 t
    | ⟨19, _⟩ => iblk3 V c 19 t
    | ⟨20, _⟩ => iblk3 V c 20 t
    | ⟨21, _⟩ => out3 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t) (iblk3 V c 19 t) (iblk3 V c 20 t)
    | ⟨_ + 22, h⟩ => absurd h (Nat.not_lt.2 (Nat.le_add_left _ _))
  Φ _ := Pipeline.ΦA spec3 c
  q := q3
  owed _ := 0

theorem A_eq3 (c : Dev nD) (w : Fin cfg3.W) : (dat3 V c).A w = V c (Pipeline.arrRef spec3 w) := by
  dsimp only [dat3]

theorem after3 (c : Dev nD) (t : Fin cfg3.N) :
    (dat3 V c).after 0 t = iblk3 V c 0 t ∧ (dat3 V c).after 1 t = iblk3 V c 1 t ∧ (dat3 V c).after 2 t = iblk3 V c 2 t ∧ (dat3 V c).after 3 t = iblk3 V c 3 t ∧ (dat3 V c).after 4 t = iblk3 V c 4 t ∧ (dat3 V c).after 5 t = iblk3 V c 5 t ∧ (dat3 V c).after 6 t = iblk3 V c 6 t ∧ (dat3 V c).after 7 t = iblk3 V c 7 t ∧ (dat3 V c).after 8 t = iblk3 V c 8 t ∧ (dat3 V c).after 9 t = iblk3 V c 9 t ∧ (dat3 V c).after 10 t = iblk3 V c 10 t ∧ (dat3 V c).after 11 t = iblk3 V c 11 t ∧ (dat3 V c).after 12 t = iblk3 V c 12 t ∧ (dat3 V c).after 13 t = iblk3 V c 13 t ∧ (dat3 V c).after 14 t = iblk3 V c 14 t ∧ (dat3 V c).after 15 t = iblk3 V c 15 t ∧ (dat3 V c).after 16 t = iblk3 V c 16 t ∧ (dat3 V c).after 17 t = iblk3 V c 17 t ∧ (dat3 V c).after 18 t = iblk3 V c 18 t ∧ (dat3 V c).after 19 t = iblk3 V c 19 t ∧ (dat3 V c).after 20 t = iblk3 V c 20 t :=
  ⟨rfl, rfl, rfl, rfl, rfl, rfl, rfl, rfl, rfl, rfl, rfl, rfl, rfl, rfl, rfl, rfl, rfl, rfl, rfl, rfl, rfl⟩

theorem after3_21 (c : Dev nD) (t : Fin cfg3.N) : (dat3 V c).after 21 t = out3 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t) (iblk3 V c 19 t) (iblk3 V c 20 t) := by dsimp only [dat3]

theorem before3 (c : Dev nD) (t : Fin cfg3.N) :
    (∀ d, (dat3 V c).before 0 t d = iblk3 V c 0 t) ∧ (∀ d, (dat3 V c).before 1 t d = iblk3 V c 1 t) ∧ (∀ d, (dat3 V c).before 2 t d = iblk3 V c 2 t) ∧ (∀ d, (dat3 V c).before 3 t d = iblk3 V c 3 t) ∧ (∀ d, (dat3 V c).before 4 t d = iblk3 V c 4 t) ∧ (∀ d, (dat3 V c).before 5 t d = iblk3 V c 5 t) ∧ (∀ d, (dat3 V c).before 6 t d = iblk3 V c 6 t) ∧ (∀ d, (dat3 V c).before 7 t d = iblk3 V c 7 t) ∧ (∀ d, (dat3 V c).before 8 t d = iblk3 V c 8 t) ∧ (∀ d, (dat3 V c).before 9 t d = iblk3 V c 9 t) ∧ (∀ d, (dat3 V c).before 10 t d = iblk3 V c 10 t) ∧ (∀ d, (dat3 V c).before 11 t d = iblk3 V c 11 t) ∧ (∀ d, (dat3 V c).before 12 t d = iblk3 V c 12 t) ∧ (∀ d, (dat3 V c).before 13 t d = iblk3 V c 13 t) ∧ (∀ d, (dat3 V c).before 14 t d = iblk3 V c 14 t) ∧ (∀ d, (dat3 V c).before 15 t d = iblk3 V c 15 t) ∧ (∀ d, (dat3 V c).before 16 t d = iblk3 V c 16 t) ∧ (∀ d, (dat3 V c).before 17 t d = iblk3 V c 17 t) ∧ (∀ d, (dat3 V c).before 18 t d = iblk3 V c 18 t) ∧ (∀ d, (dat3 V c).before 19 t d = iblk3 V c 19 t) ∧ (∀ d, (dat3 V c).before 20 t d = iblk3 V c 20 t) := by
  refine ⟨?_, ?_, ?_, ?_, ?_, ?_, ?_, ?_, ?_, ?_, ?_, ?_, ?_, ?_, ?_, ?_, ?_, ?_, ?_, ?_, ?_⟩ <;> intro d <;>
    (refine (Dat.before_in_eq_fetched _ _ ?_ ?_ ?_ ?_ t d).trans ?_ <;>
      first | rfl | exact fun _ => rfl | exact fun _ _ _ => rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d))
    ∗ (∃ d, owns (c : Thread nD τ) (st3_13 t) fullShare ((dat3 V c).before 13 t d))
    ∗ (∃ d, owns (c : Thread nD τ) (st3_14 t) fullShare ((dat3 V c).before 14 t d))
    ∗ (∃ d, owns (c : Thread nD τ) (st3_15 t) fullShare ((dat3 V c).before 15 t d))
    ∗ (∃ d, owns (c : Thread nD τ) (st3_16 t) fullShare ((dat3 V c).before 16 t d))
    ∗ (∃ d, owns (c : Thread nD τ) (st3_17 t) fullShare ((dat3 V c).before 17 t d))
    ∗ (∃ d, owns (c : Thread nD τ) (st3_18 t) fullShare ((dat3 V c).before 18 t d))
    ∗ (∃ d, owns (c : Thread nD τ) (st3_19 t) fullShare ((dat3 V c).before 19 t d))
    ∗ (∃ d, owns (c : Thread nD τ) (st3_20 t) fullShare ((dat3 V c).before 20 t d))
    ∗ (∃ d, owns (c : Thread nD τ) (st3_21 t) fullShare ((dat3 V c).before 21 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t)
    ∗ owns (c : Thread nD τ) (st3_13 t) fullShare ((dat3 V c).after 13 t)
    ∗ owns (c : Thread nD τ) (st3_14 t) fullShare ((dat3 V c).after 14 t)
    ∗ owns (c : Thread nD τ) (st3_15 t) fullShare ((dat3 V c).after 15 t)
    ∗ owns (c : Thread nD τ) (st3_16 t) fullShare ((dat3 V c).after 16 t)
    ∗ owns (c : Thread nD τ) (st3_17 t) fullShare ((dat3 V c).after 17 t)
    ∗ owns (c : Thread nD τ) (st3_18 t) fullShare ((dat3 V c).after 18 t)
    ∗ owns (c : Thread nD τ) (st3_19 t) fullShare ((dat3 V c).after 19 t)
    ∗ owns (c : Thread nD τ) (st3_20 t) fullShare ((dat3 V c).after 20 t)
    ∗ owns (c : Thread nD τ) (st3_21 t) fullShare ((dat3 V c).after 21 t))

end Cert.KernelIdeal.Hand
-- ==== Proof.KI.D4.lean ====
import proofs.«138431_j79370995631014_1_alg».proof.Proof.Gen.KernelIdeal.Launch
import proofs.«138431_j79370995631014_1_alg».proof.Proof.Gen.KernelIdeal.Skeleton
import proofs.«138431_j79370995631014_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S2000x64 := Rect.unit (s := S2000x64) ![0, 0] S2000x64.size inb_S2000x64_S2000x64_0_0
abbrev r4_1 : Rect S64x64 := Rect.unit (s := S64x64) ![0, 0] S64x64.size inb_S64x64_S64x64_0_0
abbrev r4_2 : Rect S1x64 := Rect.unit (s := S1x64) ![0, 0] S1x64.size inb_S1x64_S1x64_0_0
abbrev r4_3 : Rect S64x1 := Rect.unit (s := S64x1) ![0, 0] S64x1.size inb_S64x1_S64x1_0_0
abbrev r4_4 : Rect S1x1 := Rect.unit (s := S1x1) ![0, 0] S1x1.size inb_S1x1_S1x1_0_0
abbrev r4_5 : Rect S2000x1 := Rect.unit (s := S2000x1) ![0, 0] S2000x1.size inb_S2000x1_S2000x1_0_0

def out4 (x0 : Vec F S2000x64 .f32) (x1 : Vec F S64x64 .f32) (x2 : Vec F S1x64 .f32) (x3 : Vec F S64x1 .f32) (x4 : Vec F S1x1 .f32) :
    Vec F S2000x1 .f32 :=
  View.canon [⟨r4_5, k4_pay1 (View.ld x0 r4_0) (View.ld x1 r4_1) (View.ld x2 r4_2) (View.ld x3 r4_3) (View.ld x4 r4_4)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4 (c : Dev nD) (t : Fin cfg4.N) :
    (dat4 V c).after 0 t = iblk4 V c 0 t ∧ (dat4 V c).after 1 t = iblk4 V c 1 t ∧ (dat4 V c).after 2 t = iblk4 V c 2 t ∧ (dat4 V c).after 3 t = iblk4 V c 3 t ∧ (dat4 V c).after 4 t = iblk4 V c 4 t :=
  ⟨rfl, rfl, rfl, rfl, rfl⟩

theorem after4_5 (c : Dev nD) (t : Fin cfg4.N) :
    (dat4 V c).after 5 t = out4 (iblk4 V c 0 t) (iblk4 V c 1 t) (iblk4 V c 2 t) (iblk4 V c 3 t) (iblk4 V c 4 t) := by dsimp only [dat4]

theorem cover4 (p0 : Vec F S2000x1 .f32) (y : S2000x1.Idx) :
    ∃ pc ∈ ([⟨r4_5, p0⟩] : List (View.Piece (Elt F) S2000x1 .f32)), y ∈ pc.1.set :=
  View.cover_of_tiled [⟨r4_5, p0⟩] S2000x1.size (by rfl) y

theorem before4 (c : Dev nD) (t : Fin cfg4.N) :
    (∀ d, (dat4 V c).before 0 t d = iblk4 V c 0 t) ∧ (∀ d, (dat4 V c).before 1 t d = iblk4 V c 1 t) ∧ (∀ d, (dat4 V c).before 2 t d = iblk4 V c 2 t) ∧ (∀ d, (dat4 V c).before 3 t d = iblk4 V c 3 t) ∧ (∀ d, (dat4 V c).before 4 t d = iblk4 V c 4 t) := by
  refine ⟨?_, ?_, ?_, ?_, ?_⟩ <;> intro d <;>
    (refine (Dat.before_in_eq_fetched _ _ ?_ ?_ ?_ ?_ t d).trans ?_ <;>
      first | rfl | exact fun _ => rfl | exact fun _ _ _ => rfl)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

end Cert.KernelIdeal.Hand
-- ==== Proof.KI.D5.lean ====
import proofs.«138431_j79370995631014_1_alg».proof.Proof.Gen.KernelIdeal.Launch
import proofs.«138431_j79370995631014_1_alg».proof.Proof.Gen.KernelIdeal.Skeleton
import proofs.«138431_j79370995631014_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S2000x1 := Rect.unit (s := S2000x1) ![0, 0] S2000x1.size inb_S2000x1_S2000x1_0_0
abbrev r5_1 : Rect S1x64 := Rect.unit (s := S1x64) ![0, 0] S1x64.size inb_S1x64_S1x64_0_0
abbrev r5_2 : Rect S1x64 := Rect.unit (s := S1x64) ![0, 0] S1x64.size inb_S1x64_S1x64_0_0
abbrev r5_3 : Rect S64x64 := Rect.unit (s := S64x64) ![0, 0] S64x64.size inb_S64x64_S64x64_0_0
abbrev r5_4 : Rect S1x64 := Rect.unit (s := S1x64) ![0, 0] S1x64.size inb_S1x64_S1x64_0_0
abbrev r5_5 : Rect S2000x64 := Rect.unit (s := S2000x64) ![0, 0] S2000x64.size inb_S2000x64_S2000x64_0_0

def out5 (x0 : Vec F S2000x1 .f32) (x1 : Vec F S1x64 .f32) (x2 : Vec F S1x64 .f32) (x3 : Vec F S64x64 .f32)
    (x4 : Vec F S1x64 .f32) : Vec F S2000x64 .f32 :=
  View.canon [⟨r5_5, k5_pay1 (View.ld x0 r5_0) (View.ld x1 r5_1) (View.ld x2 r5_2) (View.ld x3 r5_3) (View.ld x4 r5_4)⟩]

theorem cover5 (p0 : Vec F S2000x64 .f32) (y : S2000x64.Idx) :
    ∃ pc ∈ ([⟨r5_5, p0⟩] : List (View.Piece (Elt F) S2000x64 .f32)), y ∈ pc.1.set :=
  View.cover_of_tiled [⟨r5_5, p0⟩] S2000x64.size (by rfl) y

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5 (c : Dev nD) (t : Fin cfg5.N) :
    (dat5 V c).after 0 t = iblk5 V c 0 t ∧ (dat5 V c).after 1 t = iblk5 V c 1 t ∧ (dat5 V c).after 2 t = iblk5 V c 2 t ∧ (dat5 V c).after 3 t = iblk5 V c 3 t ∧ (dat5 V c).after 4 t = iblk5 V c 4 t :=
  ⟨rfl, rfl, rfl, rfl, rfl⟩

theorem after5_5 (c : Dev nD) (t : Fin cfg5.N) : (dat5 V c).after 5 t =
    out5 (iblk5 V c 0 t) (iblk5 V c 1 t) (iblk5 V c 2 t) (iblk5 V c 3 t) (iblk5 V c 4 t) := by dsimp only [dat5]

theorem before5 (c : Dev nD) (t : Fin cfg5.N) :
    (∀ d, (dat5 V c).before 0 t d = iblk5 V c 0 t) ∧ (∀ d, (dat5 V c).before 1 t d = iblk5 V c 1 t) ∧ (∀ d, (dat5 V c).before 2 t d = iblk5 V c 2 t) ∧ (∀ d, (dat5 V c).before 3 t d = iblk5 V c 3 t) ∧ (∀ d, (dat5 V c).before 4 t d = iblk5 V c 4 t) := by
  refine ⟨?_, ?_, ?_, ?_, ?_⟩ <;> intro d <;>
    (refine (Dat.before_in_eq_fetched _ _ ?_ ?_ ?_ ?_ t d).trans ?_ <;>
      first | rfl | exact fun _ => rfl | exact fun _ _ _ => rfl)

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

end Cert.KernelIdeal.Hand
-- ==== Proof.KI.D6.lean ====
import proofs.«138431_j79370995631014_1_alg».proof.Proof.Gen.KernelIdeal.Launch
import proofs.«138431_j79370995631014_1_alg».proof.Proof.Gen.KernelIdeal.Skeleton
import proofs.«138431_j79370995631014_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S2000x64 := Rect.unit (s := S2000x64) ![0, 0] S2000x64.size inb_S2000x64_S2000x64_0_0
abbrev r6_1 : Rect S64x64 := Rect.unit (s := S64x64) ![0, 0] S64x64.size inb_S64x64_S64x64_0_0
abbrev r6_2 : Rect S1x64 := Rect.unit (s := S1x64) ![0, 0] S1x64.size inb_S1x64_S1x64_0_0
abbrev r6_3 : Rect S64x1 := Rect.unit (s := S64x1) ![0, 0] S64x1.size inb_S64x1_S64x1_0_0
abbrev r6_4 : Rect S1x1 := Rect.unit (s := S1x1) ![0, 0] S1x1.size inb_S1x1_S1x1_0_0
abbrev r6_5 : Rect S2000x1 := Rect.unit (s := S2000x1) ![0, 0] S2000x1.size inb_S2000x1_S2000x1_0_0

def out6 (x0 : Vec F S2000x64 .f32) (x1 : Vec F S64x64 .f32) (x2 : Vec F S1x64 .f32) (x3 : Vec F S64x1 .f32) (x4 : Vec F S1x1 .f32) :
    Vec F S2000x1 .f32 :=
  View.canon [⟨r6_5, k6_pay1 (View.ld x0 r6_0) (View.ld x1 r6_1) (View.ld x2 r6_2) (View.ld x3 r6_3) (View.ld x4 r6_4)⟩]

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6 (c : Dev nD) (t : Fin cfg6.N) :
    (dat6 V c).after 0 t = iblk6 V c 0 t ∧ (dat6 V c).after 1 t = iblk6 V c 1 t ∧ (dat6 V c).after 2 t = iblk6 V c 2 t ∧ (dat6 V c).after 3 t = iblk6 V c 3 t ∧ (dat6 V c).after 4 t = iblk6 V c 4 t :=
  ⟨rfl, rfl, rfl, rfl, rfl⟩

theorem after6_5 (c : Dev nD) (t : Fin cfg6.N) :
    (dat6 V c).after 5 t = out6 (iblk6 V c 0 t) (iblk6 V c 1 t) (iblk6 V c 2 t) (iblk6 V c 3 t) (iblk6 V c 4 t) := by dsimp only [dat6]

theorem cover6 (p0 : Vec F S2000x1 .f32) (y : S2000x1.Idx) :
    ∃ pc ∈ ([⟨r6_5, p0⟩] : List (View.Piece (Elt F) S2000x1 .f32)), y ∈ pc.1.set :=
  View.cover_of_tiled [⟨r6_5, p0⟩] S2000x1.size (by rfl) y

theorem before6 (c : Dev nD) (t : Fin cfg6.N) :
    (∀ d, (dat6 V c).before 0 t d = iblk6 V c 0 t) ∧ (∀ d, (dat6 V c).before 1 t d = iblk6 V c 1 t) ∧ (∀ d, (dat6 V c).before 2 t d = iblk6 V c 2 t) ∧ (∀ d, (dat6 V c).before 3 t d = iblk6 V c 3 t) ∧ (∀ d, (dat6 V c).before 4 t d = iblk6 V c 4 t) := by
  refine ⟨?_, ?_, ?_, ?_, ?_⟩ <;> intro d <;>
    (refine (Dat.before_in_eq_fetched _ _ ?_ ?_ ?_ ?_ t d).trans ?_ <;>
      first | rfl | exact fun _ => rfl | exact fun _ _ _ => rfl)

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

end Cert.KernelIdeal.Hand
-- ==== Proof.KI.D7.lean ====
import proofs.«138431_j79370995631014_1_alg».proof.Proof.Gen.KernelIdeal.Launch
import proofs.«138431_j79370995631014_1_alg».proof.Proof.Gen.KernelIdeal.Skeleton
import proofs.«138431_j79370995631014_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S4000x64 := Rect.unit (s := S4000x64) ![0, 0] S4000x64.size inb_S4000x64_S4000x64_0_0
abbrev r7_1 : Rect S4000x3 := Rect.unit (s := S4000x3) ![0, 0] S4000x3.size inb_S4000x3_S4000x3_0_0
abbrev r7_2 : Rect S4000x1 := Rect.unit (s := S4000x1) ![0, 0] S4000x1.size inb_S4000x1_S4000x1_0_0
abbrev r7_3 : Rect S64x64 := Rect.unit (s := S64x64) ![0, 0] S64x64.size inb_S64x64_S64x64_0_0
abbrev r7_4 : Rect S3x64 := Rect.unit (s := S3x64) ![0, 0] S3x64.size inb_S3x64_S3x64_0_0
abbrev r7_5 : Rect S1x64 := Rect.unit (s := S1x64) ![0, 0] S1x64.size inb_S1x64_S1x64_0_0

def out7 (x0 : Vec F S4000x64 .f32) (x1 : Vec F S4000x64 .f32) (x2 : Vec F S4000x3 .f32) (x3 : Vec F S4000x1 .f32)
    (x4 : Vec F S64x64 .f32) (x5 : Vec F S64x64 .f32) (x6 : Vec F S3x64 .f32) (x7 : Vec F S1x64 .f32)
    (x8 : Vec F S64x64 .f32) (x9 : Vec F S1x64 .f32) : Vec F S4000x64 .f32 :=
  View.canon [⟨r7_0, k7_pay1 (k7_pay2 (View.ld x0 r7_0) (View.ld x1 r7_0) (View.ld x2 r7_1) (View.ld x4 r7_3) (View.ld x5 r7_3)
    (View.ld x6 r7_4) (View.ld x7 r7_5) (View.ld x8 r7_3) (View.ld x9 r7_5)) (View.ld x3 r7_2)⟩]

theorem cover7 (p0 : Vec F S4000x64 .f32) (y : S4000x64.Idx) :
    ∃ pc ∈ ([⟨r7_0, p0⟩] : List (View.Piece (Elt F) S4000x64 .f32)), y ∈ pc.1.set :=
  View.cover_of_tiled [⟨r7_0, p0⟩] S4000x64.size (by rfl) y

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => iblk7 V c 9 t
    | ⟨10, _⟩ => out7 (iblk7 V c 0 t) (iblk7 V c 1 t) (iblk7 V c 2 t) (iblk7 V c 3 t) (iblk7 V c 4 t) (iblk7 V c 5 t)
        (iblk7 V c 6 t) (iblk7 V c 7 t) (iblk7 V c 8 t) (iblk7 V c 9 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7 (c : Dev nD) (t : Fin cfg7.N) :
    (dat7 V c).after 0 t = iblk7 V c 0 t ∧ (dat7 V c).after 1 t = iblk7 V c 1 t ∧ (dat7 V c).after 2 t = iblk7 V c 2 t ∧ (dat7 V c).after 3 t = iblk7 V c 3 t ∧ (dat7 V c).after 4 t = iblk7 V c 4 t ∧ (dat7 V c).after 5 t = iblk7 V c 5 t ∧ (dat7 V c).after 6 t = iblk7 V c 6 t ∧ (dat7 V c).after 7 t = iblk7 V c 7 t ∧ (dat7 V c).after 8 t = iblk7 V c 8 t ∧ (dat7 V c).after 9 t = iblk7 V c 9 t :=
  ⟨rfl, rfl, rfl, rfl, rfl, rfl, rfl, rfl, rfl, rfl⟩

theorem after7_10 (c : Dev nD) (t : Fin cfg7.N) : (dat7 V c).after 10 t =
    out7 (iblk7 V c 0 t) (iblk7 V c 1 t) (iblk7 V c 2 t) (iblk7 V c 3 t) (iblk7 V c 4 t) (iblk7 V c 5 t)
      (iblk7 V c 6 t) (iblk7 V c 7 t) (iblk7 V c 8 t) (iblk7 V c 9 t) := by dsimp only [dat7]

theorem before7 (c : Dev nD) (t : Fin cfg7.N) :
    (∀ d, (dat7 V c).before 0 t d = iblk7 V c 0 t) ∧ (∀ d, (dat7 V c).before 1 t d = iblk7 V c 1 t) ∧ (∀ d, (dat7 V c).before 2 t d = iblk7 V c 2 t) ∧ (∀ d, (dat7 V c).before 3 t d = iblk7 V c 3 t) ∧ (∀ d, (dat7 V c).before 4 t d = iblk7 V c 4 t) ∧ (∀ d, (dat7 V c).before 5 t d = iblk7 V c 5 t) ∧ (∀ d, (dat7 V c).before 6 t d = iblk7 V c 6 t) ∧ (∀ d, (dat7 V c).before 7 t d = iblk7 V c 7 t) ∧ (∀ d, (dat7 V c).before 8 t d = iblk7 V c 8 t) ∧ (∀ d, (dat7 V c).before 9 t d = iblk7 V c 9 t) := by
  refine ⟨?_, ?_, ?_, ?_, ?_, ?_, ?_, ?_, ?_, ?_⟩ <;> intro d <;>
    (refine (Dat.before_in_eq_fetched _ _ ?_ ?_ ?_ ?_ t d).trans ?_ <;>
      first | rfl | exact fun _ => rfl | exact fun _ _ _ => rfl)

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d))
    ∗ (∃ d, owns (c : Thread nD τ) (st7_8 t) fullShare ((dat7 V c).before 8 t d))
    ∗ (∃ d, owns (c : Thread nD τ) (st7_9 t) fullShare ((dat7 V c).before 9 t d))
    ∗ (∃ d, owns (c : Thread nD τ) (st7_10 t) fullShare ((dat7 V c).before 10 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t)
    ∗ owns (c : Thread nD τ) (st7_8 t) fullShare ((dat7 V c).after 8 t)
    ∗ owns (c : Thread nD τ) (st7_9 t) fullShare ((dat7 V c).after 9 t)
    ∗ owns (c : Thread nD τ) (st7_10 t) fullShare ((dat7 V c).after 10 t))

end Cert.KernelIdeal.Hand
-- ==== Proof.KI.D8.lean ====
import proofs.«138431_j79370995631014_1_alg».proof.Proof.Gen.KernelIdeal.Launch
import proofs.«138431_j79370995631014_1_alg».proof.Proof.Gen.KernelIdeal.Skeleton
import proofs.«138431_j79370995631014_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_0 : Rect S4000x64 := Rect.unit (s := S4000x64) ![0, 0] S4000x64.size inb_S4000x64_S4000x64_0_0
abbrev r8_1 : Rect S4000x3 := Rect.unit (s := S4000x3) ![0, 0] S4000x3.size inb_S4000x3_S4000x3_0_0
abbrev r8_2 : Rect S4000x1 := Rect.unit (s := S4000x1) ![0, 0] S4000x1.size inb_S4000x1_S4000x1_0_0
abbrev r8_3 : Rect S64x64 := Rect.unit (s := S64x64) ![0, 0] S64x64.size inb_S64x64_S64x64_0_0
abbrev r8_4 : Rect S3x64 := Rect.unit (s := S3x64) ![0, 0] S3x64.size inb_S3x64_S3x64_0_0
abbrev r8_5 : Rect S1x64 := Rect.unit (s := S1x64) ![0, 0] S1x64.size inb_S1x64_S1x64_0_0

def out8 (x0 : Vec F S4000x64 .f32) (x1 : Vec F S4000x64 .f32) (x2 : Vec F S4000x3 .f32) (x3 : Vec F S4000x1 .f32)
    (x4 : Vec F S64x64 .f32) (x5 : Vec F S64x64 .f32) (x6 : Vec F S3x64 .f32) (x7 : Vec F S1x64 .f32)
    (x8 : Vec F S64x64 .f32) (x9 : Vec F S1x64 .f32) : Vec F S4000x64 .f32 :=
  View.canon [⟨r8_0, k8_pay1 (k8_pay2 (View.ld x0 r8_0) (View.ld x1 r8_0) (View.ld x2 r8_1) (View.ld x4 r8_3) (View.ld x5 r8_3)
    (View.ld x6 r8_4) (View.ld x7 r8_5) (View.ld x8 r8_3) (View.ld x9 r8_5)) (View.ld x3 r8_2)⟩]

theorem cover8 (p0 : Vec F S4000x64 .f32) (y : S4000x64.Idx) :
    ∃ pc ∈ ([⟨r8_0, p0⟩] : List (View.Piece (Elt F) S4000x64 .f32)), y ∈ pc.1.set :=
  View.cover_of_tiled [⟨r8_0, p0⟩] S4000x64.size (by rfl) y

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => iblk8 V c 9 t
    | ⟨10, _⟩ => out8 (iblk8 V c 0 t) (iblk8 V c 1 t) (iblk8 V c 2 t) (iblk8 V c 3 t) (iblk8 V c 4 t) (iblk8 V c 5 t)
        (iblk8 V c 6 t) (iblk8 V c 7 t) (iblk8 V c 8 t) (iblk8 V c 9 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8 (c : Dev nD) (t : Fin cfg8.N) :
    (dat8 V c).after 0 t = iblk8 V c 0 t ∧ (dat8 V c).after 1 t = iblk8 V c 1 t ∧ (dat8 V c).after 2 t = iblk8 V c 2 t ∧ (dat8 V c).after 3 t = iblk8 V c 3 t ∧ (dat8 V c).after 4 t = iblk8 V c 4 t ∧ (dat8 V c).after 5 t = iblk8 V c 5 t ∧ (dat8 V c).after 6 t = iblk8 V c 6 t ∧ (dat8 V c).after 7 t = iblk8 V c 7 t ∧ (dat8 V c).after 8 t = iblk8 V c 8 t ∧ (dat8 V c).after 9 t = iblk8 V c 9 t :=
  ⟨rfl, rfl, rfl, rfl, rfl, rfl, rfl, rfl, rfl, rfl⟩

theorem after8_10 (c : Dev nD) (t : Fin cfg8.N) : (dat8 V c).after 10 t =
    out8 (iblk8 V c 0 t) (iblk8 V c 1 t) (iblk8 V c 2 t) (iblk8 V c 3 t) (iblk8 V c 4 t) (iblk8 V c 5 t)
      (iblk8 V c 6 t) (iblk8 V c 7 t) (iblk8 V c 8 t) (iblk8 V c 9 t) := by dsimp only [dat8]

theorem before8 (c : Dev nD) (t : Fin cfg8.N) :
    (∀ d, (dat8 V c).before 0 t d = iblk8 V c 0 t) ∧ (∀ d, (dat8 V c).before 1 t d = iblk8 V c 1 t) ∧ (∀ d, (dat8 V c).before 2 t d = iblk8 V c 2 t) ∧ (∀ d, (dat8 V c).before 3 t d = iblk8 V c 3 t) ∧ (∀ d, (dat8 V c).before 4 t d = iblk8 V c 4 t) ∧ (∀ d, (dat8 V c).before 5 t d = iblk8 V c 5 t) ∧ (∀ d, (dat8 V c).before 6 t d = iblk8 V c 6 t) ∧ (∀ d, (dat8 V c).before 7 t d = iblk8 V c 7 t) ∧ (∀ d, (dat8 V c).before 8 t d = iblk8 V c 8 t) ∧ (∀ d, (dat8 V c).before 9 t d = iblk8 V c 9 t) := by
  refine ⟨?_, ?_, ?_, ?_, ?_, ?_, ?_, ?_, ?_, ?_⟩ <;> intro d <;>
    (refine (Dat.before_in_eq_fetched _ _ ?_ ?_ ?_ ?_ t d).trans ?_ <;>
      first | rfl | exact fun _ => rfl | exact fun _ _ _ => rfl)

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d))
    ∗ (∃ d, owns (c : Thread nD τ) (st8_9 t) fullShare ((dat8 V c).before 9 t d))
    ∗ (∃ d, owns (c : Thread nD τ) (st8_10 t) fullShare ((dat8 V c).before 10 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t)
    ∗ owns (c : Thread nD τ) (st8_8 t) fullShare ((dat8 V c).after 8 t)
    ∗ owns (c : Thread nD τ) (st8_9 t) fullShare ((dat8 V c).after 9 t)
    ∗ owns (c : Thread nD τ) (st8_10 t) fullShare ((dat8 V c).after 10 t))

end Cert.KernelIdeal.Hand
-- ==== Proof.KI.D9.lean ====
import proofs.«138431_j79370995631014_1_alg».proof.Proof.Gen.KernelIdeal.Launch
import proofs.«138431_j79370995631014_1_alg».proof.Proof.Gen.KernelIdeal.Skeleton
import proofs.«138431_j79370995631014_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev r9_0 : Rect S2000x64 := Rect.unit (s := S2000x64) ![0, 0] S2000x64.size inb_S2000x64_S2000x64_0_0
abbrev r9_1 : Rect S2000x2 := Rect.unit (s := S2000x2) ![0, 0] S2000x2.size inb_S2000x2_S2000x2_0_0
abbrev r9_2 : Rect S2000x1 := Rect.unit (s := S2000x1) ![0, 0] S2000x1.size inb_S2000x1_S2000x1_0_0
abbrev r9_3 : Rect S64x64 := Rect.unit (s := S64x64) ![0, 0] S64x64.size inb_S64x64_S64x64_0_0
abbrev r9_4 : Rect S2x64 := Rect.unit (s := S2x64) ![0, 0] S2x64.size inb_S2x64_S2x64_0_0
abbrev r9_5 : Rect S1x64 := Rect.unit (s := S1x64) ![0, 0] S1x64.size inb_S1x64_S1x64_0_0

def out9 (x0 : Vec F S2000x64 .f32) (x1 : Vec F S2000x64 .f32) (x2 : Vec F S2000x64 .f32) (x3 : Vec F S2000x2 .f32) (x4 : Vec F S2000x64 .f32) (x5 : Vec F S2000x1 .f32) (x6 : Vec F S64x64 .f32) (x7 : Vec F S64x64 .f32) (x8 : Vec F S64x64 .f32) (x9 : Vec F S2x64 .f32) (x10 : Vec F S1x64 .f32) (x11 : Vec F S64x64 .f32) (x12 : Vec F S64x64 .f32) (x13 : Vec F S64x64 .f32) (x14 : Vec F S2x64 .f32) (x15 : Vec F S1x64 .f32) (x16 : Vec F S64x64 .f32) (x17 : Vec F S64x64 .f32) (x18 : Vec F S64x64 .f32) (x19 : Vec F S2x64 .f32) (x20 : Vec F S1x64 .f32) : Vec F S2000x64 .f32 :=
  View.canon [⟨r9_0, k9_pay1
    (k9_pay2 (View.ld x0 r9_0))
    (k9_pay3 (View.ld x4 r9_0))
    (k9_pay4 (View.ld x5 r9_2))
    (k9_pay6 (View.ld x2 r9_0))
    (k9_pay7 (View.ld x3 r9_1))
    (k9_pay10 (k9_pay9 (View.ld x0 r9_0) (View.ld x1 r9_0) (View.ld x2 r9_0) (View.ld x3 r9_1) (View.ld x6 r9_3) (View.ld x7 r9_3) (View.ld x8 r9_3) (View.ld x9 r9_4)) (View.ld x10 r9_5))
    (k9_pay11 (k9_pay2 (View.ld x0 r9_0)) (k9_pay5 (View.ld x1 r9_0)) (k9_pay6 (View.ld x2 r9_0)) (k9_pay7 (View.ld x3 r9_1)) (k9_pay8 (View.ld x0 r9_0)) (View.ld x11 r9_3) (View.ld x12 r9_3) (View.ld x13 r9_3) (View.ld x14 r9_4) (View.ld x15 r9_5) (View.ld x16 r9_3))
    (k9_pay12 (k9_pay5 (View.ld x1 r9_0)) (View.ld x17 r9_3))
    (View.ld x18 r9_3) (View.ld x19 r9_4) (View.ld x20 r9_5)⟩]

theorem cover9 (p0 : Vec F S2000x64 .f32) (y : S2000x64.Idx) :
    ∃ pc ∈ ([⟨r9_0, p0⟩] : List (View.Piece (Elt F) S2000x64 .f32)), y ∈ pc.1.set :=
  View.cover_of_tiled [⟨r9_0, p0⟩] S2000x64.size (by rfl) y

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => iblk9 V c 7 t
    | ⟨8, _⟩ => iblk9 V c 8 t
    | ⟨9, _⟩ => iblk9 V c 9 t
    | ⟨10, _⟩ => iblk9 V c 10 t
    | ⟨11, _⟩ => iblk9 V c 11 t
    | ⟨12, _⟩ => iblk9 V c 12 t
    | ⟨13, _⟩ => iblk9 V c 13 t
    | ⟨14, _⟩ => iblk9 V c 14 t
    | ⟨15, _⟩ => iblk9 V c 15 t
    | ⟨16, _⟩ => iblk9 V c 16 t
    | ⟨17, _⟩ => iblk9 V c 17 t
    | ⟨18, _⟩ => iblk9 V c 18 t
    | ⟨19, _⟩ => iblk9 V c 19 t
    | ⟨20, _⟩ => iblk9 V c 20 t
    | ⟨21, _⟩ => out9 (iblk9 V c 0 t) (iblk9 V c 1 t) (iblk9 V c 2 t) (iblk9 V c 3 t) (iblk9 V c 4 t) (iblk9 V c 5 t) (iblk9 V c 6 t) (iblk9 V c 7 t) (iblk9 V c 8 t) (iblk9 V c 9 t) (iblk9 V c 10 t) (iblk9 V c 11 t) (iblk9 V c 12 t) (iblk9 V c 13 t) (iblk9 V c 14 t) (iblk9 V c 15 t) (iblk9 V c 16 t) (iblk9 V c 17 t) (iblk9 V c 18 t) (iblk9 V c 19 t) (iblk9 V c 20 t)
    | ⟨_ + 22, h⟩ => absurd h (Nat.not_lt.2 (Nat.le_add_left _ _))
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9 (c : Dev nD) (t : Fin cfg9.N) :
    (dat9 V c).after 0 t = iblk9 V c 0 t ∧ (dat9 V c).after 1 t = iblk9 V c 1 t ∧ (dat9 V c).after 2 t = iblk9 V c 2 t ∧ (dat9 V c).after 3 t = iblk9 V c 3 t ∧ (dat9 V c).after 4 t = iblk9 V c 4 t ∧ (dat9 V c).after 5 t = iblk9 V c 5 t ∧ (dat9 V c).after 6 t = iblk9 V c 6 t ∧ (dat9 V c).after 7 t = iblk9 V c 7 t ∧ (dat9 V c).after 8 t = iblk9 V c 8 t ∧ (dat9 V c).after 9 t = iblk9 V c 9 t ∧ (dat9 V c).after 10 t = iblk9 V c 10 t ∧ (dat9 V c).after 11 t = iblk9 V c 11 t ∧ (dat9 V c).after 12 t = iblk9 V c 12 t ∧ (dat9 V c).after 13 t = iblk9 V c 13 t ∧ (dat9 V c).after 14 t = iblk9 V c 14 t ∧ (dat9 V c).after 15 t = iblk9 V c 15 t ∧ (dat9 V c).after 16 t = iblk9 V c 16 t ∧ (dat9 V c).after 17 t = iblk9 V c 17 t ∧ (dat9 V c).after 18 t = iblk9 V c 18 t ∧ (dat9 V c).after 19 t = iblk9 V c 19 t ∧ (dat9 V c).after 20 t = iblk9 V c 20 t :=
  ⟨rfl, rfl, rfl, rfl, rfl, rfl, rfl, rfl, rfl, rfl, rfl, rfl, rfl, rfl, rfl, rfl, rfl, rfl, rfl, rfl, rfl⟩

theorem after9_21 (c : Dev nD) (t : Fin cfg9.N) : (dat9 V c).after 21 t = out9 (iblk9 V c 0 t) (iblk9 V c 1 t) (iblk9 V c 2 t) (iblk9 V c 3 t) (iblk9 V c 4 t) (iblk9 V c 5 t) (iblk9 V c 6 t) (iblk9 V c 7 t) (iblk9 V c 8 t) (iblk9 V c 9 t) (iblk9 V c 10 t) (iblk9 V c 11 t) (iblk9 V c 12 t) (iblk9 V c 13 t) (iblk9 V c 14 t) (iblk9 V c 15 t) (iblk9 V c 16 t) (iblk9 V c 17 t) (iblk9 V c 18 t) (iblk9 V c 19 t) (iblk9 V c 20 t) := by dsimp only [dat9]

theorem before9 (c : Dev nD) (t : Fin cfg9.N) :
    (∀ d, (dat9 V c).before 0 t d = iblk9 V c 0 t) ∧ (∀ d, (dat9 V c).before 1 t d = iblk9 V c 1 t) ∧ (∀ d, (dat9 V c).before 2 t d = iblk9 V c 2 t) ∧ (∀ d, (dat9 V c).before 3 t d = iblk9 V c 3 t) ∧ (∀ d, (dat9 V c).before 4 t d = iblk9 V c 4 t) ∧ (∀ d, (dat9 V c).before 5 t d = iblk9 V c 5 t) ∧ (∀ d, (dat9 V c).before 6 t d = iblk9 V c 6 t) ∧ (∀ d, (dat9 V c).before 7 t d = iblk9 V c 7 t) ∧ (∀ d, (dat9 V c).before 8 t d = iblk9 V c 8 t) ∧ (∀ d, (dat9 V c).before 9 t d = iblk9 V c 9 t) ∧ (∀ d, (dat9 V c).before 10 t d = iblk9 V c 10 t) ∧ (∀ d, (dat9 V c).before 11 t d = iblk9 V c 11 t) ∧ (∀ d, (dat9 V c).before 12 t d = iblk9 V c 12 t) ∧ (∀ d, (dat9 V c).before 13 t d = iblk9 V c 13 t) ∧ (∀ d, (dat9 V c).before 14 t d = iblk9 V c 14 t) ∧ (∀ d, (dat9 V c).before 15 t d = iblk9 V c 15 t) ∧ (∀ d, (dat9 V c).before 16 t d = iblk9 V c 16 t) ∧ (∀ d, (dat9 V c).before 17 t d = iblk9 V c 17 t) ∧ (∀ d, (dat9 V c).before 18 t d = iblk9 V c 18 t) ∧ (∀ d, (dat9 V c).before 19 t d = iblk9 V c 19 t) ∧ (∀ d, (dat9 V c).before 20 t d = iblk9 V c 20 t) := by
  refine ⟨?_, ?_, ?_, ?_, ?_, ?_, ?_, ?_, ?_, ?_, ?_, ?_, ?_, ?_, ?_, ?_, ?_, ?_, ?_, ?_, ?_⟩ <;> intro d <;>
    (refine (Dat.before_in_eq_fetched _ _ ?_ ?_ ?_ ?_ t d).trans ?_ <;>
      first | rfl | exact fun _ => rfl | exact fun _ _ _ => rfl)

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d))
    ∗ (∃ d, owns (c : Thread nD τ) (st9_7 t) fullShare ((dat9 V c).before 7 t d))
    ∗ (∃ d, owns (c : Thread nD τ) (st9_8 t) fullShare ((dat9 V c).before 8 t d))
    ∗ (∃ d, owns (c : Thread nD τ) (st9_9 t) fullShare ((dat9 V c).before 9 t d))
    ∗ (∃ d, owns (c : Thread nD τ) (st9_10 t) fullShare ((dat9 V c).before 10 t d))
    ∗ (∃ d, owns (c : Thread nD τ) (st9_11 t) fullShare ((dat9 V c).before 11 t d))
    ∗ (∃ d, owns (c : Thread nD τ) (st9_12 t) fullShare ((dat9 V c).before 12 t d))
    ∗ (∃ d, owns (c : Thread nD τ) (st9_13 t) fullShare ((dat9 V c).before 13 t d))
    ∗ (∃ d, owns (c : Thread nD τ) (st9_14 t) fullShare ((dat9 V c).before 14 t d))
    ∗ (∃ d, owns (c : Thread nD τ) (st9_15 t) fullShare ((dat9 V c).before 15 t d))
    ∗ (∃ d, owns (c : Thread nD τ) (st9_16 t) fullShare ((dat9 V c).before 16 t d))
    ∗ (∃ d, owns (c : Thread nD τ) (st9_17 t) fullShare ((dat9 V c).before 17 t d))
    ∗ (∃ d, owns (c : Thread nD τ) (st9_18 t) fullShare ((dat9 V c).before 18 t d))
    ∗ (∃ d, owns (c : Thread nD τ) (st9_19 t) fullShare ((dat9 V c).before 19 t d))
    ∗ (∃ d, owns (c : Thread nD τ) (st9_20 t) fullShare ((dat9 V c).before 20 t d))
    ∗ (∃ d, owns (c : Thread nD τ) (st9_21 t) fullShare ((dat9 V c).before 21 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t)
    ∗ owns (c : Thread nD τ) (st9_7 t) fullShare ((dat9 V c).after 7 t)
    ∗ owns (c : Thread nD τ) (st9_8 t) fullShare ((dat9 V c).after 8 t)
    ∗ owns (c : Thread nD τ) (st9_9 t) fullShare ((dat9 V c).after 9 t)
    ∗ owns (c : Thread nD τ) (st9_10 t) fullShare ((dat9 V c).after 10 t)
    ∗ owns (c : Thread nD τ) (st9_11 t) fullShare ((dat9 V c).after 11 t)
    ∗ owns (c : Thread nD τ) (st9_12 t) fullShare ((dat9 V c).after 12 t)
    ∗ owns (c : Thread nD τ) (st9_13 t) fullShare ((dat9 V c).after 13 t)
    ∗ owns (c : Thread nD τ) (st9_14 t) fullShare ((dat9 V c).after 14 t)
    ∗ owns (c : Thread nD τ) (st9_15 t) fullShare ((dat9 V c).after 15 t)
    ∗ owns (c : Thread nD τ) (st9_16 t) fullShare ((dat9 V c).after 16 t)
    ∗ owns (c : Thread nD τ) (st9_17 t) fullShare ((dat9 V c).after 17 t)
    ∗ owns (c : Thread nD τ) (st9_18 t) fullShare ((dat9 V c).after 18 t)
    ∗ owns (c : Thread nD τ) (st9_19 t) fullShare ((dat9 V c).after 19 t)
    ∗ owns (c : Thread nD τ) (st9_20 t) fullShare ((dat9 V c).after 20 t)
    ∗ owns (c : Thread nD τ) (st9_21 t) fullShare ((dat9 V c).after 21 t))

end Cert.KernelIdeal.Hand
-- ==== Proof.KI.D10.lean ====
import proofs.«138431_j79370995631014_1_alg».proof.Proof.Gen.KernelIdeal.Launch
import proofs.«138431_j79370995631014_1_alg».proof.Proof.Gen.KernelIdeal.Skeleton
import proofs.«138431_j79370995631014_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

abbrev r10_0 : Rect S2000x64 := Rect.unit (s := S2000x64) ![0, 0] S2000x64.size inb_S2000x64_S2000x64_0_0
abbrev r10_1 : Rect S64x64 := Rect.unit (s := S64x64) ![0, 0] S64x64.size inb_S64x64_S64x64_0_0
abbrev r10_2 : Rect S1x64 := Rect.unit (s := S1x64) ![0, 0] S1x64.size inb_S1x64_S1x64_0_0
abbrev r10_3 : Rect S64x1 := Rect.unit (s := S64x1) ![0, 0] S64x1.size inb_S64x1_S64x1_0_0
abbrev r10_4 : Rect S1x1 := Rect.unit (s := S1x1) ![0, 0] S1x1.size inb_S1x1_S1x1_0_0
abbrev r10_5 : Rect S2000x1 := Rect.unit (s := S2000x1) ![0, 0] S2000x1.size inb_S2000x1_S2000x1_0_0

def out10 (x0 : Vec F S2000x64 .f32) (x1 : Vec F S64x64 .f32) (x2 : Vec F S1x64 .f32) (x3 : Vec F S64x1 .f32) (x4 : Vec F S1x1 .f32) :
    Vec F S2000x1 .f32 :=
  View.canon [⟨r10_5, k10_pay1 (View.ld x0 r10_0) (View.ld x1 r10_1) (View.ld x2 r10_2) (View.ld x3 r10_3) (View.ld x4 r10_4)⟩]

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => out10 (iblk10 V c 0 t) (iblk10 V c 1 t) (iblk10 V c 2 t) (iblk10 V c 3 t) (iblk10 V c 4 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10 (c : Dev nD) (t : Fin cfg10.N) :
    (dat10 V c).after 0 t = iblk10 V c 0 t ∧ (dat10 V c).after 1 t = iblk10 V c 1 t ∧ (dat10 V c).after 2 t = iblk10 V c 2 t ∧ (dat10 V c).after 3 t = iblk10 V c 3 t ∧ (dat10 V c).after 4 t = iblk10 V c 4 t :=
  ⟨rfl, rfl, rfl, rfl, rfl⟩

theorem after10_5 (c : Dev nD) (t : Fin cfg10.N) :
    (dat10 V c).after 5 t = out10 (iblk10 V c 0 t) (iblk10 V c 1 t) (iblk10 V c 2 t) (iblk10 V c 3 t) (iblk10 V c 4 t) := by dsimp only [dat10]

theorem cover10 (p0 : Vec F S2000x1 .f32) (y : S2000x1.Idx) :
    ∃ pc ∈ ([⟨r10_5, p0⟩] : List (View.Piece (Elt F) S2000x1 .f32)), y ∈ pc.1.set :=
  View.cover_of_tiled [⟨r10_5, p0⟩] S2000x1.size (by rfl) y

theorem before10 (c : Dev nD) (t : Fin cfg10.N) :
    (∀ d, (dat10 V c).before 0 t d = iblk10 V c 0 t) ∧ (∀ d, (dat10 V c).before 1 t d = iblk10 V c 1 t) ∧ (∀ d, (dat10 V c).before 2 t d = iblk10 V c 2 t) ∧ (∀ d, (dat10 V c).before 3 t d = iblk10 V c 3 t) ∧ (∀ d, (dat10 V c).before 4 t d = iblk10 V c 4 t) := by
  refine ⟨?_, ?_, ?_, ?_, ?_⟩ <;> intro d <;>
    (refine (Dat.before_in_eq_fetched _ _ ?_ ?_ ?_ ?_ t d).trans ?_ <;>
      first | rfl | exact fun _ => rfl | exact fun _ _ _ => rfl)

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d)))

def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t))

end Cert.KernelIdeal.Hand
-- ==== Proof.KI.D11.lean ====
import proofs.«138431_j79370995631014_1_alg».proof.Proof.Gen.KernelIdeal.Launch
import proofs.«138431_j79370995631014_1_alg».proof.Proof.Gen.KernelIdeal.Skeleton
import proofs.«138431_j79370995631014_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

abbrev r11_0 : Rect S2000x1 := Rect.unit (s := S2000x1) ![0, 0] S2000x1.size inb_S2000x1_S2000x1_0_0
abbrev r11_1 : Rect S1x64 := Rect.unit (s := S1x64) ![0, 0] S1x64.size inb_S1x64_S1x64_0_0
abbrev r11_2 : Rect S1x64 := Rect.unit (s := S1x64) ![0, 0] S1x64.size inb_S1x64_S1x64_0_0
abbrev r11_3 : Rect S64x64 := Rect.unit (s := S64x64) ![0, 0] S64x64.size inb_S64x64_S64x64_0_0
abbrev r11_4 : Rect S1x64 := Rect.unit (s := S1x64) ![0, 0] S1x64.size inb_S1x64_S1x64_0_0
abbrev r11_5 : Rect S2000x64 := Rect.unit (s := S2000x64) ![0, 0] S2000x64.size inb_S2000x64_S2000x64_0_0

def out11 (x0 : Vec F S2000x1 .f32) (x1 : Vec F S1x64 .f32) (x2 : Vec F S1x64 .f32) (x3 : Vec F S64x64 .f32)
    (x4 : Vec F S1x64 .f32) : Vec F S2000x64 .f32 :=
  View.canon [⟨r11_5, k11_pay1 (View.ld x0 r11_0) (View.ld x1 r11_1) (View.ld x2 r11_2) (View.ld x3 r11_3) (View.ld x4 r11_4)⟩]

theorem cover11 (p0 : Vec F S2000x64 .f32) (y : S2000x64.Idx) :
    ∃ pc ∈ ([⟨r11_5, p0⟩] : List (View.Piece (Elt F) S2000x64 .f32)), y ∈ pc.1.set :=
  View.cover_of_tiled [⟨r11_5, p0⟩] S2000x64.size (by rfl) y

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11 (iblk11 V c 0 t) (iblk11 V c 1 t) (iblk11 V c 2 t) (iblk11 V c 3 t) (iblk11 V c 4 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11 (c : Dev nD) (t : Fin cfg11.N) :
    (dat11 V c).after 0 t = iblk11 V c 0 t ∧ (dat11 V c).after 1 t = iblk11 V c 1 t ∧ (dat11 V c).after 2 t = iblk11 V c 2 t ∧ (dat11 V c).after 3 t = iblk11 V c 3 t ∧ (dat11 V c).after 4 t = iblk11 V c 4 t :=
  ⟨rfl, rfl, rfl, rfl, rfl⟩

theorem after11_5 (c : Dev nD) (t : Fin cfg11.N) : (dat11 V c).after 5 t =
    out11 (iblk11 V c 0 t) (iblk11 V c 1 t) (iblk11 V c 2 t) (iblk11 V c 3 t) (iblk11 V c 4 t) := by dsimp only [dat11]

theorem before11 (c : Dev nD) (t : Fin cfg11.N) :
    (∀ d, (dat11 V c).before 0 t d = iblk11 V c 0 t) ∧ (∀ d, (dat11 V c).before 1 t d = iblk11 V c 1 t) ∧ (∀ d, (dat11 V c).before 2 t d = iblk11 V c 2 t) ∧ (∀ d, (dat11 V c).before 3 t d = iblk11 V c 3 t) ∧ (∀ d, (dat11 V c).before 4 t d = iblk11 V c 4 t) := by
  refine ⟨?_, ?_, ?_, ?_, ?_⟩ <;> intro d <;>
    (refine (Dat.before_in_eq_fetched _ _ ?_ ?_ ?_ ?_ t d).trans ?_ <;>
      first | rfl | exact fun _ => rfl | exact fun _ _ _ => rfl)

def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

end Cert.KernelIdeal.Hand
-- ==== Proof.KI.D12.lean ====
import proofs.«138431_j79370995631014_1_alg».proof.Proof.Gen.KernelIdeal.Launch
import proofs.«138431_j79370995631014_1_alg».proof.Proof.Gen.KernelIdeal.Skeleton
import proofs.«138431_j79370995631014_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

abbrev r12_0 : Rect S2000x64 := Rect.unit (s := S2000x64) ![0, 0] S2000x64.size inb_S2000x64_S2000x64_0_0
abbrev r12_1 : Rect S64x64 := Rect.unit (s := S64x64) ![0, 0] S64x64.size inb_S64x64_S64x64_0_0
abbrev r12_2 : Rect S1x64 := Rect.unit (s := S1x64) ![0, 0] S1x64.size inb_S1x64_S1x64_0_0
abbrev r12_3 : Rect S64x1 := Rect.unit (s := S64x1) ![0, 0] S64x1.size inb_S64x1_S64x1_0_0
abbrev r12_4 : Rect S1x1 := Rect.unit (s := S1x1) ![0, 0] S1x1.size inb_S1x1_S1x1_0_0
abbrev r12_5 : Rect S2000x1 := Rect.unit (s := S2000x1) ![0, 0] S2000x1.size inb_S2000x1_S2000x1_0_0

def out12 (x0 : Vec F S2000x64 .f32) (x1 : Vec F S64x64 .f32) (x2 : Vec F S1x64 .f32) (x3 : Vec F S64x1 .f32) (x4 : Vec F S1x1 .f32) :
    Vec F S2000x1 .f32 :=
  View.canon [⟨r12_5, k12_pay1 (View.ld x0 r12_0) (View.ld x1 r12_1) (View.ld x2 r12_2) (View.ld x3 r12_3) (View.ld x4 r12_4)⟩]

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => out12 (iblk12 V c 0 t) (iblk12 V c 1 t) (iblk12 V c 2 t) (iblk12 V c 3 t) (iblk12 V c 4 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12 (c : Dev nD) (t : Fin cfg12.N) :
    (dat12 V c).after 0 t = iblk12 V c 0 t ∧ (dat12 V c).after 1 t = iblk12 V c 1 t ∧ (dat12 V c).after 2 t = iblk12 V c 2 t ∧ (dat12 V c).after 3 t = iblk12 V c 3 t ∧ (dat12 V c).after 4 t = iblk12 V c 4 t :=
  ⟨rfl, rfl, rfl, rfl, rfl⟩

theorem after12_5 (c : Dev nD) (t : Fin cfg12.N) :
    (dat12 V c).after 5 t = out12 (iblk12 V c 0 t) (iblk12 V c 1 t) (iblk12 V c 2 t) (iblk12 V c 3 t) (iblk12 V c 4 t) := by dsimp only [dat12]

theorem cover12 (p0 : Vec F S2000x1 .f32) (y : S2000x1.Idx) :
    ∃ pc ∈ ([⟨r12_5, p0⟩] : List (View.Piece (Elt F) S2000x1 .f32)), y ∈ pc.1.set :=
  View.cover_of_tiled [⟨r12_5, p0⟩] S2000x1.size (by rfl) y

theorem before12 (c : Dev nD) (t : Fin cfg12.N) :
    (∀ d, (dat12 V c).before 0 t d = iblk12 V c 0 t) ∧ (∀ d, (dat12 V c).before 1 t d = iblk12 V c 1 t) ∧ (∀ d, (dat12 V c).before 2 t d = iblk12 V c 2 t) ∧ (∀ d, (dat12 V c).before 3 t d = iblk12 V c 3 t) ∧ (∀ d, (dat12 V c).before 4 t d = iblk12 V c 4 t) := by
  refine ⟨?_, ?_, ?_, ?_, ?_⟩ <;> intro d <;>
    (refine (Dat.before_in_eq_fetched _ _ ?_ ?_ ?_ ?_ t d).trans ?_ <;>
      first | rfl | exact fun _ => rfl | exact fun _ _ _ => rfl)

def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d)))

def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t))

end Cert.KernelIdeal.Hand
-- ==== Proof.KI.Keep.lean ====
import proofs.«138431_j79370995631014_1_alg».proof.Proof.Gen.KernelIdeal.Regions

noncomputable section

namespace Cert.KernelIdeal.Hand

open Cert.KernelIdeal Cert.KernelIdeal.Gen
open Idealize.ShloMosaic Idealize.ShloMosaic.TcCoe Idealize.SL.Sem

variable {F : FTy → Type} [FloatOps F]

theorem keep0 (V : Valuation τ sig (Elt F)) (b : Ref sig .tc) (hb : b ∉ hostOps0_W) :
    StableHlo.after hostOps0 V (Proc.devRef .tc b) = V (Proc.devRef .tc b) :=
  StableHlo.after_of_writes_sub hostOps0 V hostOps0_writes hb

theorem keep1 (V : Valuation τ sig (Elt F)) (b : Ref sig .tc) (hb : b ∉ hostOps1_W) :
    StableHlo.after hostOps1 V (Proc.devRef .tc b) = V (Proc.devRef .tc b) :=
  StableHlo.after_of_writes_sub hostOps1 V hostOps1_writes hb

theorem keep2 (V : Valuation τ sig (Elt F)) (b : Ref sig .tc) (hb : b ∉ hostOps2_W) :
    StableHlo.after hostOps2 V (Proc.devRef .tc b) = V (Proc.devRef .tc b) :=
  StableHlo.after_of_writes_sub hostOps2 V hostOps2_writes hb

theorem keep3 (V : Valuation τ sig (Elt F)) (b : Ref sig .tc) (hb : b ∉ hostOps3_W) :
    StableHlo.after hostOps3 V (Proc.devRef .tc b) = V (Proc.devRef .tc b) :=
  StableHlo.after_of_writes_sub hostOps3 V hostOps3_writes hb

theorem keep4 (V : Valuation τ sig (Elt F)) (b : Ref sig .tc) (hb : b ∉ hostOps4_W) :
    StableHlo.after hostOps4 V (Proc.devRef .tc b) = V (Proc.devRef .tc b) :=
  StableHlo.after_of_writes_sub hostOps4 V hostOps4_writes hb

theorem keep5 (V : Valuation τ sig (Elt F)) (b : Ref sig .tc) (hb : b ∉ hostOps5_W) :
    StableHlo.after hostOps5 V (Proc.devRef .tc b) = V (Proc.devRef .tc b) :=
  StableHlo.after_of_writes_sub hostOps5 V hostOps5_writes hb

theorem keep6 (V : Valuation τ sig (Elt F)) (b : Ref sig .tc) (hb : b ∉ hostOps6_W) :
    StableHlo.after hostOps6 V (Proc.devRef .tc b) = V (Proc.devRef .tc b) :=
  StableHlo.after_of_writes_sub hostOps6 V hostOps6_writes hb

theorem keep7 (V : Valuation τ sig (Elt F)) (b : Ref sig .tc) (hb : b ∉ hostOps7_W) :
    StableHlo.after hostOps7 V (Proc.devRef .tc b) = V (Proc.devRef .tc b) :=
  StableHlo.after_of_writes_sub hostOps7 V hostOps7_writes hb

theorem keep8 (V : Valuation τ sig (Elt F)) (b : Ref sig .tc) (hb : b ∉ hostOps8_W) :
    StableHlo.after hostOps8 V (Proc.devRef .tc b) = V (Proc.devRef .tc b) :=
  StableHlo.after_of_writes_sub hostOps8 V hostOps8_writes hb

theorem keep9 (V : Valuation τ sig (Elt F)) (b : Ref sig .tc) (hb : b ∉ hostOps9_W) :
    StableHlo.after hostOps9 V (Proc.devRef .tc b) = V (Proc.devRef .tc b) :=
  StableHlo.after_of_writes_sub hostOps9 V hostOps9_writes hb

theorem keep10 (V : Valuation τ sig (Elt F)) (b : Ref sig .tc) (hb : b ∉ hostOps10_W) :
    StableHlo.after hostOps10 V (Proc.devRef .tc b) = V (Proc.devRef .tc b) :=
  StableHlo.after_of_writes_sub hostOps10 V hostOps10_writes hb

theorem keep11 (V : Valuation τ sig (Elt F)) (b : Ref sig .tc) (hb : b ∉ hostOps11_W) :
    StableHlo.after hostOps11 V (Proc.devRef .tc b) = V (Proc.devRef .tc b) :=
  StableHlo.after_of_writes_sub hostOps11 V hostOps11_writes hb

theorem keep12 (V : Valuation τ sig (Elt F)) (b : Ref sig .tc) (hb : b ∉ hostOps12_W) :
    StableHlo.after hostOps12 V (Proc.devRef .tc b) = V (Proc.devRef .tc b) :=
  StableHlo.after_of_writes_sub hostOps12 V hostOps12_writes hb

theorem keep13 (V : Valuation τ sig (Elt F)) (b : Ref sig .tc) (hb : b ∉ hostOps13_W) :
    StableHlo.after hostOps13 V (Proc.devRef .tc b) = V (Proc.devRef .tc b) :=
  StableHlo.after_of_writes_sub hostOps13 V hostOps13_writes hb

end Cert.KernelIdeal.Hand

end
-- ==== Proof.KI.Fold.lean ====
import proofs.«138431_j79370995631014_1_alg».proof.Proof.Gen.KernelIdeal.Launch
import proofs.«138431_j79370995631014_1_alg».proof.Proof.Gen.KernelIdeal.Regions
import proofs.«138431_j79370995631014_1_alg».proof.Proof.KI.D0
import proofs.«138431_j79370995631014_1_alg».proof.Proof.KI.D1
import proofs.«138431_j79370995631014_1_alg».proof.Proof.KI.D2
import proofs.«138431_j79370995631014_1_alg».proof.Proof.KI.D3
import proofs.«138431_j79370995631014_1_alg».proof.Proof.KI.D4
import proofs.«138431_j79370995631014_1_alg».proof.Proof.KI.D5
import proofs.«138431_j79370995631014_1_alg».proof.Proof.KI.D6
import proofs.«138431_j79370995631014_1_alg».proof.Proof.KI.D7
import proofs.«138431_j79370995631014_1_alg».proof.Proof.KI.D8
import proofs.«138431_j79370995631014_1_alg».proof.Proof.KI.D9
import proofs.«138431_j79370995631014_1_alg».proof.Proof.KI.D10
import proofs.«138431_j79370995631014_1_alg».proof.Proof.KI.D11
import proofs.«138431_j79370995631014_1_alg».proof.Proof.KI.D12
import proofs.«138431_j79370995631014_1_alg».proof.Proof.KI.Keep
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w

theorem W2_out (c : Dev nD) : W2 m ρ c (Proc.devRef .tc main_v9) = (dat0 (V1 m ρ) c).arrAt 5 cfg0.N :=
  W2_arr m ρ c 5

theorem W2_of_ne (c : Dev nD) (b : Ref sig .tc) (hb : b ≠ main_v9) :
    W2 m ρ c (Proc.devRef .tc b) = W1 m ρ c (Proc.devRef .tc b) := by
  by_cases h : ∃ w, Pipeline.arrRef spec0 w = b
  · obtain ⟨w, rfl⟩ := h
    have hin : (cfg0.win w).isOut = false := by revert hb; revert w; decide
    rw [W2_arr, (dat0 (V1 m ρ) c).arrAt_in w hin, A_eq0]
  · unfold W2; exact Pipeline.withArrays_of_ne spec0 c _ _ b fun w e => h ⟨w, e⟩

abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun h => hb (h ▸ Finset.mem_image.mpr ⟨5, Finset.mem_univ _, rfl⟩)

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w

theorem W4_out (c : Dev nD) : W4 m ρ c (Proc.devRef .tc main_v48) = (dat1 (V3 m ρ) c).arrAt 10 cfg1.N :=
  W4_arr m ρ c 10

theorem W4_of_ne (c : Dev nD) (b : Ref sig .tc) (hb : b ≠ main_v48) :
    W4 m ρ c (Proc.devRef .tc b) = W3 m ρ c (Proc.devRef .tc b) := by
  by_cases h : ∃ w, Pipeline.arrRef spec1 w = b
  · obtain ⟨w, rfl⟩ := h
    have hin : (cfg1.win w).isOut = false := by revert hb; revert w; decide
    rw [W4_arr, (dat1 (V3 m ρ) c).arrAt_in w hin, A_eq1]
  · unfold W4; exact Pipeline.withArrays_of_ne spec1 c _ _ b fun w e => h ⟨w, e⟩

abbrev V4 : (c : Dev nD) → (b : Ref sig .tc) → Buf (Elt F) ((c : Thread nD τ).loc b) := fun c b => W4 m ρ c b

theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun h => hb (h ▸ Finset.mem_image.mpr ⟨10, Finset.mem_univ _, rfl⟩)

abbrev W5 : Dev nD → Valuation τ sig (Elt F) := fun c => StableHlo.after hostOps2 (W4 m ρ c)

abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w

theorem W6_out (c : Dev nD) : W6 m ρ c (Proc.devRef .tc main_v51) = (dat2 (V5 m ρ) c).arrAt 10 cfg2.N :=
  W6_arr m ρ c 10

theorem W6_of_ne (c : Dev nD) (b : Ref sig .tc) (hb : b ≠ main_v51) :
    W6 m ρ c (Proc.devRef .tc b) = W5 m ρ c (Proc.devRef .tc b) := by
  by_cases h : ∃ w, Pipeline.arrRef spec2 w = b
  · obtain ⟨w, rfl⟩ := h
    have hin : (cfg2.win w).isOut = false := by revert hb; revert w; decide
    rw [W6_arr, (dat2 (V5 m ρ) c).arrAt_in w hin, A_eq2]
  · unfold W6; exact Pipeline.withArrays_of_ne spec2 c _ _ b fun w e => h ⟨w, e⟩

abbrev V6 : (c : Dev nD) → (b : Ref sig .tc) → Buf (Elt F) ((c : Thread nD τ).loc b) := fun c b => W6 m ρ c b

theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun h => hb (h ▸ Finset.mem_image.mpr ⟨10, Finset.mem_univ _, rfl⟩)

abbrev W7 : Dev nD → Valuation τ sig (Elt F) := fun c => StableHlo.after hostOps3 (W6 m ρ c)

abbrev V7 : (c : Dev nD) → (b : Ref sig .tc) → Buf (Elt F) ((c : Thread nD τ).loc b) := fun c b => W7 m ρ c b

def W8 (c : Dev nD) : Valuation τ sig (Elt F) :=
  Function.update (W7 m ρ c) (Proc.devRef .tc main_v61) ((dat3 (V7 m ρ) c).arrAt 21 cfg3.N)

theorem W8_out (c : Dev nD) : W8 m ρ c (Proc.devRef .tc main_v61) = (dat3 (V7 m ρ) c).arrAt 21 cfg3.N := by
  unfold W8; exact Function.update_self ..

theorem W8_of_ne (c : Dev nD) (b : Ref sig .tc) (hb : b ≠ main_v61) :
    W8 m ρ c (Proc.devRef .tc b) = W7 m ρ c (Proc.devRef .tc b) := by
  unfold W8; exact Function.update_of_ne (StableHlo.devRef_ne_of_ne hb) ..

abbrev V8 : (c : Dev nD) → (b : Ref sig .tc) → Buf (Elt F) ((c : Thread nD τ).loc b) := fun c b => W8 m ρ c b

abbrev W9 : Dev nD → Valuation τ sig (Elt F) := fun c => StableHlo.after hostOps4 (W8 m ρ c)

abbrev V9 : (c : Dev nD) → (b : Ref sig .tc) → Buf (Elt F) ((c : Thread nD τ).loc b) := fun c b => W9 m ρ c b

def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w

theorem W10_out (c : Dev nD) : W10 m ρ c (Proc.devRef .tc main_v64) = (dat4 (V9 m ρ) c).arrAt 5 cfg4.N :=
  W10_arr m ρ c 5

theorem W10_of_ne (c : Dev nD) (b : Ref sig .tc) (hb : b ≠ main_v64) :
    W10 m ρ c (Proc.devRef .tc b) = W9 m ρ c (Proc.devRef .tc b) := by
  by_cases h : ∃ w, Pipeline.arrRef spec4 w = b
  · obtain ⟨w, rfl⟩ := h
    have hin : (cfg4.win w).isOut = false := by revert hb; revert w; decide
    rw [W10_arr, (dat4 (V9 m ρ) c).arrAt_in w hin, A_eq4]
  · unfold W10; exact Pipeline.withArrays_of_ne spec4 c _ _ b fun w e => h ⟨w, e⟩

abbrev V10 : (c : Dev nD) → (b : Ref sig .tc) → Buf (Elt F) ((c : Thread nD τ).loc b) := fun c b => W10 m ρ c b

theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun h => hb (h ▸ Finset.mem_image.mpr ⟨5, Finset.mem_univ _, rfl⟩)

abbrev W11 : Dev nD → Valuation τ sig (Elt F) := fun c => StableHlo.after hostOps5 (W10 m ρ c)

abbrev V11 : (c : Dev nD) → (b : Ref sig .tc) → Buf (Elt F) ((c : Thread nD τ).loc b) := fun c b => W11 m ρ c b

def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w

theorem W12_out (c : Dev nD) : W12 m ρ c (Proc.devRef .tc main_v83) = (dat5 (V11 m ρ) c).arrAt 5 cfg5.N :=
  W12_arr m ρ c 5

theorem W12_of_ne (c : Dev nD) (b : Ref sig .tc) (hb : b ≠ main_v83) :
    W12 m ρ c (Proc.devRef .tc b) = W11 m ρ c (Proc.devRef .tc b) := by
  by_cases h : ∃ w, Pipeline.arrRef spec5 w = b
  · obtain ⟨w, rfl⟩ := h
    have hin : (cfg5.win w).isOut = false := by revert hb; revert w; decide
    rw [W12_arr, (dat5 (V11 m ρ) c).arrAt_in w hin, A_eq5]
  · unfold W12; exact Pipeline.withArrays_of_ne spec5 c _ _ b fun w e => h ⟨w, e⟩

abbrev V12 : (c : Dev nD) → (b : Ref sig .tc) → Buf (Elt F) ((c : Thread nD τ).loc b) := fun c b => W12 m ρ c b

theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun h => hb (h ▸ Finset.mem_image.mpr ⟨5, Finset.mem_univ _, rfl⟩)

abbrev W13 : Dev nD → Valuation τ sig (Elt F) := fun c => StableHlo.after hostOps6 (W12 m ρ c)

abbrev V13 : (c : Dev nD) → (b : Ref sig .tc) → Buf (Elt F) ((c : Thread nD τ).loc b) := fun c b => W13 m ρ c b

def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w

theorem W14_out (c : Dev nD) : W14 m ρ c (Proc.devRef .tc main_v90) = (dat6 (V13 m ρ) c).arrAt 5 cfg6.N :=
  W14_arr m ρ c 5

theorem W14_of_ne (c : Dev nD) (b : Ref sig .tc) (hb : b ≠ main_v90) :
    W14 m ρ c (Proc.devRef .tc b) = W13 m ρ c (Proc.devRef .tc b) := by
  by_cases h : ∃ w, Pipeline.arrRef spec6 w = b
  · obtain ⟨w, rfl⟩ := h
    have hin : (cfg6.win w).isOut = false := by revert hb; revert w; decide
    rw [W14_arr, (dat6 (V13 m ρ) c).arrAt_in w hin, A_eq6]
  · unfold W14; exact Pipeline.withArrays_of_ne spec6 c _ _ b fun w e => h ⟨w, e⟩

abbrev V14 : (c : Dev nD) → (b : Ref sig .tc) → Buf (Elt F) ((c : Thread nD τ).loc b) := fun c b => W14 m ρ c b

theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun h => hb (h ▸ Finset.mem_image.mpr ⟨5, Finset.mem_univ _, rfl⟩)

abbrev W15 : Dev nD → Valuation τ sig (Elt F) := fun c => StableHlo.after hostOps7 (W14 m ρ c)

abbrev V15 : (c : Dev nD) → (b : Ref sig .tc) → Buf (Elt F) ((c : Thread nD τ).loc b) := fun c b => W15 m ρ c b

def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w

theorem W16_out (c : Dev nD) : W16 m ρ c (Proc.devRef .tc main_v115) = (dat7 (V15 m ρ) c).arrAt 10 cfg7.N :=
  W16_arr m ρ c 10

theorem W16_of_ne (c : Dev nD) (b : Ref sig .tc) (hb : b ≠ main_v115) :
    W16 m ρ c (Proc.devRef .tc b) = W15 m ρ c (Proc.devRef .tc b) := by
  by_cases h : ∃ w, Pipeline.arrRef spec7 w = b
  · obtain ⟨w, rfl⟩ := h
    have hin : (cfg7.win w).isOut = false := by revert hb; revert w; decide
    rw [W16_arr, (dat7 (V15 m ρ) c).arrAt_in w hin, A_eq7]
  · unfold W16; exact Pipeline.withArrays_of_ne spec7 c _ _ b fun w e => h ⟨w, e⟩

abbrev V16 : (c : Dev nD) → (b : Ref sig .tc) → Buf (Elt F) ((c : Thread nD τ).loc b) := fun c b => W16 m ρ c b

theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun h => hb (h ▸ Finset.mem_image.mpr ⟨10, Finset.mem_univ _, rfl⟩)

abbrev W17 : Dev nD → Valuation τ sig (Elt F) := fun c => StableHlo.after hostOps8 (W16 m ρ c)

abbrev V17 : (c : Dev nD) → (b : Ref sig .tc) → Buf (Elt F) ((c : Thread nD τ).loc b) := fun c b => W17 m ρ c b

def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w

theorem W18_out (c : Dev nD) : W18 m ρ c (Proc.devRef .tc main_v118) = (dat8 (V17 m ρ) c).arrAt 10 cfg8.N :=
  W18_arr m ρ c 10

theorem W18_of_ne (c : Dev nD) (b : Ref sig .tc) (hb : b ≠ main_v118) :
    W18 m ρ c (Proc.devRef .tc b) = W17 m ρ c (Proc.devRef .tc b) := by
  by_cases h : ∃ w, Pipeline.arrRef spec8 w = b
  · obtain ⟨w, rfl⟩ := h
    have hin : (cfg8.win w).isOut = false := by revert hb; revert w; decide
    rw [W18_arr, (dat8 (V17 m ρ) c).arrAt_in w hin, A_eq8]
  · unfold W18; exact Pipeline.withArrays_of_ne spec8 c _ _ b fun w e => h ⟨w, e⟩

abbrev V18 : (c : Dev nD) → (b : Ref sig .tc) → Buf (Elt F) ((c : Thread nD τ).loc b) := fun c b => W18 m ρ c b

theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun h => hb (h ▸ Finset.mem_image.mpr ⟨10, Finset.mem_univ _, rfl⟩)

abbrev W19 : Dev nD → Valuation τ sig (Elt F) := fun c => StableHlo.after hostOps9 (W18 m ρ c)

abbrev V19 : (c : Dev nD) → (b : Ref sig .tc) → Buf (Elt F) ((c : Thread nD τ).loc b) := fun c b => W19 m ρ c b

def W20 (c : Dev nD) : Valuation τ sig (Elt F) :=
  Pipeline.withArrays spec9 c (W19 m ρ c) fun w => (dat9 (V19 m ρ) c).arrAt w cfg9.N
theorem W20_arr (c : Dev nD) (w : Fin cfg9.W) :
    W20 m ρ c (Proc.devRef .tc (Pipeline.arrRef spec9 w)) = (dat9 (V19 m ρ) c).arrAt w cfg9.N := by
  unfold W20; exact Pipeline.withArrays_arr spec9 launch9.win.arr_inj c _ _ w

theorem W20_out (c : Dev nD) : W20 m ρ c (Proc.devRef .tc main_v128) = (dat9 (V19 m ρ) c).arrAt 21 cfg9.N :=
  W20_arr m ρ c 21

theorem W20_of_ne (c : Dev nD) (b : Ref sig .tc) (hb : b ≠ main_v128) :
    W20 m ρ c (Proc.devRef .tc b) = W19 m ρ c (Proc.devRef .tc b) := by
  by_cases h : ∃ w, Pipeline.arrRef spec9 w = b
  · obtain ⟨w, rfl⟩ := h
    have hin : (cfg9.win w).isOut = false := by revert hb; revert w; decide
    rw [W20_arr, (dat9 (V19 m ρ) c).arrAt_in w hin, A_eq9]
  · unfold W20; exact Pipeline.withArrays_of_ne spec9 c _ _ b fun w e => h ⟨w, e⟩

abbrev V20 : (c : Dev nD) → (b : Ref sig .tc) → Buf (Elt F) ((c : Thread nD τ).loc b) := fun c b => W20 m ρ c b

theorem hF9 (c : Dev nD) (w : Fin cfg9.W) : (dat9 (V19 m ρ) c).arrAt w cfg9.N = V20 m ρ c (Pipeline.arrRef spec9 w) :=
  (W20_arr m ρ c w).symm
theorem hrest9 (c : Dev nD) : ∀ b, b ∉ Finset.univ.image (Pipeline.arrRef spec9) → V20 m ρ c b = V19 m ρ c b :=
  fun b hb => W20_of_ne m ρ c b fun h => hb (h ▸ Finset.mem_image.mpr ⟨21, Finset.mem_univ _, rfl⟩)

abbrev W21 : Dev nD → Valuation τ sig (Elt F) := fun c => StableHlo.after hostOps10 (W20 m ρ c)

abbrev V21 : (c : Dev nD) → (b : Ref sig .tc) → Buf (Elt F) ((c : Thread nD τ).loc b) := fun c b => W21 m ρ c b

def W22 (c : Dev nD) : Valuation τ sig (Elt F) :=
  Pipeline.withArrays spec10 c (W21 m ρ c) fun w => (dat10 (V21 m ρ) c).arrAt w cfg10.N
theorem W22_arr (c : Dev nD) (w : Fin cfg10.W) :
    W22 m ρ c (Proc.devRef .tc (Pipeline.arrRef spec10 w)) = (dat10 (V21 m ρ) c).arrAt w cfg10.N := by
  unfold W22; exact Pipeline.withArrays_arr spec10 launch10.win.arr_inj c _ _ w

theorem W22_out (c : Dev nD) : W22 m ρ c (Proc.devRef .tc main_v131) = (dat10 (V21 m ρ) c).arrAt 5 cfg10.N :=
  W22_arr m ρ c 5

theorem W22_of_ne (c : Dev nD) (b : Ref sig .tc) (hb : b ≠ main_v131) :
    W22 m ρ c (Proc.devRef .tc b) = W21 m ρ c (Proc.devRef .tc b) := by
  by_cases h : ∃ w, Pipeline.arrRef spec10 w = b
  · obtain ⟨w, rfl⟩ := h
    have hin : (cfg10.win w).isOut = false := by revert hb; revert w; decide
    rw [W22_arr, (dat10 (V21 m ρ) c).arrAt_in w hin, A_eq10]
  · unfold W22; exact Pipeline.withArrays_of_ne spec10 c _ _ b fun w e => h ⟨w, e⟩

abbrev V22 : (c : Dev nD) → (b : Ref sig .tc) → Buf (Elt F) ((c : Thread nD τ).loc b) := fun c b => W22 m ρ c b

theorem hF10 (c : Dev nD) (w : Fin cfg10.W) : (dat10 (V21 m ρ) c).arrAt w cfg10.N = V22 m ρ c (Pipeline.arrRef spec10 w) :=
  (W22_arr m ρ c w).symm
theorem hrest10 (c : Dev nD) : ∀ b, b ∉ Finset.univ.image (Pipeline.arrRef spec10) → V22 m ρ c b = V21 m ρ c b :=
  fun b hb => W22_of_ne m ρ c b fun h => hb (h ▸ Finset.mem_image.mpr ⟨5, Finset.mem_univ _, rfl⟩)

abbrev W23 : Dev nD → Valuation τ sig (Elt F) := fun c => StableHlo.after hostOps11 (W22 m ρ c)

abbrev V23 : (c : Dev nD) → (b : Ref sig .tc) → Buf (Elt F) ((c : Thread nD τ).loc b) := fun c b => W23 m ρ c b

def W24 (c : Dev nD) : Valuation τ sig (Elt F) :=
  Pipeline.withArrays spec11 c (W23 m ρ c) fun w => (dat11 (V23 m ρ) c).arrAt w cfg11.N
theorem W24_arr (c : Dev nD) (w : Fin cfg11.W) :
    W24 m ρ c (Proc.devRef .tc (Pipeline.arrRef spec11 w)) = (dat11 (V23 m ρ) c).arrAt w cfg11.N := by
  unfold W24; exact Pipeline.withArrays_arr spec11 launch11.win.arr_inj c _ _ w

theorem W24_out (c : Dev nD) : W24 m ρ c (Proc.devRef .tc main_v150) = (dat11 (V23 m ρ) c).arrAt 5 cfg11.N :=
  W24_arr m ρ c 5

theorem W24_of_ne (c : Dev nD) (b : Ref sig .tc) (hb : b ≠ main_v150) :
    W24 m ρ c (Proc.devRef .tc b) = W23 m ρ c (Proc.devRef .tc b) := by
  by_cases h : ∃ w, Pipeline.arrRef spec11 w = b
  · obtain ⟨w, rfl⟩ := h
    have hin : (cfg11.win w).isOut = false := by revert hb; revert w; decide
    rw [W24_arr, (dat11 (V23 m ρ) c).arrAt_in w hin, A_eq11]
  · unfold W24; exact Pipeline.withArrays_of_ne spec11 c _ _ b fun w e => h ⟨w, e⟩

abbrev V24 : (c : Dev nD) → (b : Ref sig .tc) → Buf (Elt F) ((c : Thread nD τ).loc b) := fun c b => W24 m ρ c b

theorem hF11 (c : Dev nD) (w : Fin cfg11.W) : (dat11 (V23 m ρ) c).arrAt w cfg11.N = V24 m ρ c (Pipeline.arrRef spec11 w) :=
  (W24_arr m ρ c w).symm
theorem hrest11 (c : Dev nD) : ∀ b, b ∉ Finset.univ.image (Pipeline.arrRef spec11) → V24 m ρ c b = V23 m ρ c b :=
  fun b hb => W24_of_ne m ρ c b fun h => hb (h ▸ Finset.mem_image.mpr ⟨5, Finset.mem_univ _, rfl⟩)

abbrev W25 : Dev nD → Valuation τ sig (Elt F) := fun c => StableHlo.after hostOps12 (W24 m ρ c)

abbrev V25 : (c : Dev nD) → (b : Ref sig .tc) → Buf (Elt F) ((c : Thread nD τ).loc b) := fun c b => W25 m ρ c b

def W26 (c : Dev nD) : Valuation τ sig (Elt F) :=
  Pipeline.withArrays spec12 c (W25 m ρ c) fun w => (dat12 (V25 m ρ) c).arrAt w cfg12.N
theorem W26_arr (c : Dev nD) (w : Fin cfg12.W) :
    W26 m ρ c (Proc.devRef .tc (Pipeline.arrRef spec12 w)) = (dat12 (V25 m ρ) c).arrAt w cfg12.N := by
  unfold W26; exact Pipeline.withArrays_arr spec12 launch12.win.arr_inj c _ _ w

theorem W26_out (c : Dev nD) : W26 m ρ c (Proc.devRef .tc main_v157) = (dat12 (V25 m ρ) c).arrAt 5 cfg12.N :=
  W26_arr m ρ c 5

theorem W26_of_ne (c : Dev nD) (b : Ref sig .tc) (hb : b ≠ main_v157) :
    W26 m ρ c (Proc.devRef .tc b) = W25 m ρ c (Proc.devRef .tc b) := by
  by_cases h : ∃ w, Pipeline.arrRef spec12 w = b
  · obtain ⟨w, rfl⟩ := h
    have hin : (cfg12.win w).isOut = false := by revert hb; revert w; decide
    rw [W26_arr, (dat12 (V25 m ρ) c).arrAt_in w hin, A_eq12]
  · unfold W26; exact Pipeline.withArrays_of_ne spec12 c _ _ b fun w e => h ⟨w, e⟩

abbrev V26 : (c : Dev nD) → (b : Ref sig .tc) → Buf (Elt F) ((c : Thread nD τ).loc b) := fun c b => W26 m ρ c b

theorem hF12 (c : Dev nD) (w : Fin cfg12.W) : (dat12 (V25 m ρ) c).arrAt w cfg12.N = V26 m ρ c (Pipeline.arrRef spec12 w) :=
  (W26_arr m ρ c w).symm
theorem hrest12 (c : Dev nD) : ∀ b, b ∉ Finset.univ.image (Pipeline.arrRef spec12) → V26 m ρ c b = V25 m ρ c b :=
  fun b hb => W26_of_ne m ρ c b fun h => hb (h ▸ Finset.mem_image.mpr ⟨5, Finset.mem_univ _, rfl⟩)

abbrev W27 : Dev nD → Valuation τ sig (Elt F) := fun c => StableHlo.after hostOps13 (W26 m ρ c)

theorem W27_of_unwritten (c : Dev nD) (r : Ref sig .tc)
    (h0 : r ∉ hostOps0_W) (g0 : r ≠ main_v9) (h1 : r ∉ hostOps1_W) (g1 : r ≠ main_v48) (h2 : r ∉ hostOps2_W) (g2 : r ≠ main_v51) (h3 : r ∉ hostOps3_W) (g3 : r ≠ main_v61) (h4 : r ∉ hostOps4_W) (g4 : r ≠ main_v64) (h5 : r ∉ hostOps5_W) (g5 : r ≠ main_v83) (h6 : r ∉ hostOps6_W) (g6 : r ≠ main_v90) (h7 : r ∉ hostOps7_W) (g7 : r ≠ main_v115) (h8 : r ∉ hostOps8_W) (g8 : r ≠ main_v118) (h9 : r ∉ hostOps9_W) (g9 : r ≠ main_v128) (h10 : r ∉ hostOps10_W) (g10 : r ≠ main_v131) (h11 : r ∉ hostOps11_W) (g11 : r ≠ main_v150) (h12 : r ∉ hostOps12_W) (g12 : r ≠ main_v157) (h13 : r ∉ hostOps13_W) :
    W27 m ρ c (Proc.devRef .tc r) = m ((c : Thread nD τ).loc r) :=
  (keep13 (W26 m ρ c) r h13).trans <|
  (W26_of_ne m ρ c r g12).trans <|
  (keep12 (W24 m ρ c) r h12).trans <|
  (W24_of_ne m ρ c r g11).trans <|
  (keep11 (W22 m ρ c) r h11).trans <|
  (W22_of_ne m ρ c r g10).trans <|
  (keep10 (W20 m ρ c) r h10).trans <|
  (W20_of_ne m ρ c r g9).trans <|
  (keep9 (W18 m ρ c) r h9).trans <|
  (W18_of_ne m ρ c r g8).trans <|
  (keep8 (W16 m ρ c) r h8).trans <|
  (W16_of_ne m ρ c r g7).trans <|
  (keep7 (W14 m ρ c) r h7).trans <|
  (W14_of_ne m ρ c r g6).trans <|
  (keep6 (W12 m ρ c) r h6).trans <|
  (W12_of_ne m ρ c r g5).trans <|
  (keep5 (W10 m ρ c) r h5).trans <|
  (W10_of_ne m ρ c r g4).trans <|
  (keep4 (W8 m ρ c) r h4).trans <|
  (W8_of_ne m ρ c r g3).trans <|
  (keep3 (W6 m ρ c) r h3).trans <|
  (W6_of_ne m ρ c r g2).trans <|
  (keep2 (W4 m ρ c) r h2).trans <|
  (W4_of_ne m ρ c r g1).trans <|
  (keep1 (W2 m ρ c) r h1).trans <|
  (W2_of_ne m ρ c r g0).trans <|
  (keep0 (W0 m ρ c) r h0)

theorem W27_main_arg0 (c : Dev nD) : W27 m ρ c (Proc.devRef .tc main_arg0) = m ((c : Thread nD τ).loc main_arg0) :=
  W27_of_unwritten m ρ c main_arg0 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg1 (c : Dev nD) : W27 m ρ c (Proc.devRef .tc main_arg1) = m ((c : Thread nD τ).loc main_arg1) :=
  W27_of_unwritten m ρ c main_arg1 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg2 (c : Dev nD) : W27 m ρ c (Proc.devRef .tc main_arg2) = m ((c : Thread nD τ).loc main_arg2) :=
  W27_of_unwritten m ρ c main_arg2 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg3 (c : Dev nD) : W27 m ρ c (Proc.devRef .tc main_arg3) = m ((c : Thread nD τ).loc main_arg3) :=
  W27_of_unwritten m ρ c main_arg3 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg4 (c : Dev nD) : W27 m ρ c (Proc.devRef .tc main_arg4) = m ((c : Thread nD τ).loc main_arg4) :=
  W27_of_unwritten m ρ c main_arg4 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg5 (c : Dev nD) : W27 m ρ c (Proc.devRef .tc main_arg5) = m ((c : Thread nD τ).loc main_arg5) :=
  W27_of_unwritten m ρ c main_arg5 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg6 (c : Dev nD) : W27 m ρ c (Proc.devRef .tc main_arg6) = m ((c : Thread nD τ).loc main_arg6) :=
  W27_of_unwritten m ρ c main_arg6 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg7 (c : Dev nD) : W27 m ρ c (Proc.devRef .tc main_arg7) = m ((c : Thread nD τ).loc main_arg7) :=
  W27_of_unwritten m ρ c main_arg7 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg8 (c : Dev nD) : W27 m ρ c (Proc.devRef .tc main_arg8) = m ((c : Thread nD τ).loc main_arg8) :=
  W27_of_unwritten m ρ c main_arg8 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg9 (c : Dev nD) : W27 m ρ c (Proc.devRef .tc main_arg9) = m ((c : Thread nD τ).loc main_arg9) :=
  W27_of_unwritten m ρ c main_arg9 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg10 (c : Dev nD) : W27 m ρ c (Proc.devRef .tc main_arg10) = m ((c : Thread nD τ).loc main_arg10) :=
  W27_of_unwritten m ρ c main_arg10 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg11 (c : Dev nD) : W27 m ρ c (Proc.devRef .tc main_arg11) = m ((c : Thread nD τ).loc main_arg11) :=
  W27_of_unwritten m ρ c main_arg11 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg12 (c : Dev nD) : W27 m ρ c (Proc.devRef .tc main_arg12) = m ((c : Thread nD τ).loc main_arg12) :=
  W27_of_unwritten m ρ c main_arg12 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg13 (c : Dev nD) : W27 m ρ c (Proc.devRef .tc main_arg13) = m ((c : Thread nD τ).loc main_arg13) :=
  W27_of_unwritten m ρ c main_arg13 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg14 (c : Dev nD) : W27 m ρ c (Proc.devRef .tc main_arg14) = m ((c : Thread nD τ).loc main_arg14) :=
  W27_of_unwritten m ρ c main_arg14 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg15 (c : Dev nD) : W27 m ρ c (Proc.devRef .tc main_arg15) = m ((c : Thread nD τ).loc main_arg15) :=
  W27_of_unwritten m ρ c main_arg15 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg16 (c : Dev nD) : W27 m ρ c (Proc.devRef .tc main_arg16) = m ((c : Thread nD τ).loc main_arg16) :=
  W27_of_unwritten m ρ c main_arg16 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg17 (c : Dev nD) : W27 m ρ c (Proc.devRef .tc main_arg17) = m ((c : Thread nD τ).loc main_arg17) :=
  W27_of_unwritten m ρ c main_arg17 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg18 (c : Dev nD) : W27 m ρ c (Proc.devRef .tc main_arg18) = m ((c : Thread nD τ).loc main_arg18) :=
  W27_of_unwritten m ρ c main_arg18 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg19 (c : Dev nD) : W27 m ρ c (Proc.devRef .tc main_arg19) = m ((c : Thread nD τ).loc main_arg19) :=
  W27_of_unwritten m ρ c main_arg19 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg20 (c : Dev nD) : W27 m ρ c (Proc.devRef .tc main_arg20) = m ((c : Thread nD τ).loc main_arg20) :=
  W27_of_unwritten m ρ c main_arg20 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg21 (c : Dev nD) : W27 m ρ c (Proc.devRef .tc main_arg21) = m ((c : Thread nD τ).loc main_arg21) :=
  W27_of_unwritten m ρ c main_arg21 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg22 (c : Dev nD) : W27 m ρ c (Proc.devRef .tc main_arg22) = m ((c : Thread nD τ).loc main_arg22) :=
  W27_of_unwritten m ρ c main_arg22 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg23 (c : Dev nD) : W27 m ρ c (Proc.devRef .tc main_arg23) = m ((c : Thread nD τ).loc main_arg23) :=
  W27_of_unwritten m ρ c main_arg23 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg24 (c : Dev nD) : W27 m ρ c (Proc.devRef .tc main_arg24) = m ((c : Thread nD τ).loc main_arg24) :=
  W27_of_unwritten m ρ c main_arg24 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg25 (c : Dev nD) : W27 m ρ c (Proc.devRef .tc main_arg25) = m ((c : Thread nD τ).loc main_arg25) :=
  W27_of_unwritten m ρ c main_arg25 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg26 (c : Dev nD) : W27 m ρ c (Proc.devRef .tc main_arg26) = m ((c : Thread nD τ).loc main_arg26) :=
  W27_of_unwritten m ρ c main_arg26 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg27 (c : Dev nD) : W27 m ρ c (Proc.devRef .tc main_arg27) = m ((c : Thread nD τ).loc main_arg27) :=
  W27_of_unwritten m ρ c main_arg27 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg28 (c : Dev nD) : W27 m ρ c (Proc.devRef .tc main_arg28) = m ((c : Thread nD τ).loc main_arg28) :=
  W27_of_unwritten m ρ c main_arg28 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem W27_main_arg29 (c : Dev nD) : W27 m ρ c (Proc.devRef .tc main_arg29) = m ((c : Thread nD τ).loc main_arg29) :=
  W27_of_unwritten m ρ c main_arg29 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)

def pdats : (p : Fin 13) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c
  | ⟨10, _⟩ => fun c => dat10 (V21 m ρ) c
  | ⟨11, _⟩ => fun c => dat11 (V23 m ρ) c
  | ⟨12, _⟩ => fun c => dat12 (V25 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W27 m ρ c) ∗ ∃ r, prngReg c r)

end Cert.KernelIdeal.Hand

end
-- ==== Proof.KI.R0.lean ====
import proofs.«138431_j79370995631014_1_alg».proof.Proof.KI.D0
import proofs.«138431_j79370995631014_1_alg».proof.Proof.Gen.KernelIdeal.Launch
import proofs.«138431_j79370995631014_1_alg».proof.Proof.Gen.KernelIdeal.Skeleton
import proofs.«138431_j79370995631014_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

theorem sound_kernel0 (c : Dev nD) (E : Set ℕ) (i : grid0.Coords) (arg1 : Memref sig .tc .vmem S2000x1 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2000x64 .f32) (harg6 : arg6.IsWhole)
    (x0 : Vec F S2000x1 .f32) (x1 : Vec F S1x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out0 x0 x1 x2 x3 x4)) -∗ K ⟨⟩))
      ⊢ wp frame (wpE (defs₀ (F := F)) Variants.none c none) E (cc0__mlp2_kernel i arg1 harg1 arg2 harg2 arg3 harg3 arg4 harg4 arg5 harg5 arg6 harg6) K := by
  simp only [cc0__mlp2_kernel_eq_skeleton]; unfold cc0__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0 _)

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0 V c t, after0 V c t]
  rw [show (dat0 V c).Φ t.succ = (dat0 V c).Φ t.castSucc from rfl,
    show (dat0 V c).owesAt () t.succ = (dat0 V c).owesAt () t.castSucc from rfl, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KI.R1.lean ====
import proofs.«138431_j79370995631014_1_alg».proof.Proof.KI.D1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

theorem sound_kernel1 (c : Dev nD) (E : Set ℕ) (i : grid1.Coords)
    (arg1 : Memref sig .tc .vmem S4000x64 .f32) (harg1 : arg1.IsWhole)
    (arg2 : Memref sig .tc .vmem S4000x64 .f32) (harg2 : arg2.IsWhole)
    (arg3 : Memref sig .tc .vmem S4000x3 .f32) (harg3 : arg3.IsWhole)
    (arg4 : Memref sig .tc .vmem S4000x1 .f32) (harg4 : arg4.IsWhole)
    (arg5 : Memref sig .tc .vmem S64x64 .f32) (harg5 : arg5.IsWhole)
    (arg6 : Memref sig .tc .vmem S64x64 .f32) (harg6 : arg6.IsWhole)
    (arg7 : Memref sig .tc .vmem S3x64 .f32) (harg7 : arg7.IsWhole)
    (arg8 : Memref sig .tc .vmem S1x64 .f32) (harg8 : arg8.IsWhole)
    (arg9 : Memref sig .tc .vmem S64x64 .f32) (harg9 : arg9.IsWhole)
    (arg10 : Memref sig .tc .vmem S1x64 .f32) (harg10 : arg10.IsWhole)
    (arg11 : Memref sig .tc .vmem S4000x64 .f32) (harg11 : arg11.IsWhole)
    (x0 : Vec F S4000x64 .f32) (x1 : Vec F S4000x64 .f32) (x2 : Vec F S4000x3 .f32) (x3 : Vec F S4000x1 .f32) (x4 : Vec F S64x64 .f32) (x5 : Vec F S64x64 .f32) (x6 : Vec F S3x64 .f32) (x7 : Vec F S1x64 .f32) (x8 : Vec F S64x64 .f32) (x9 : Vec F S1x64 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ (∃ d, owns (c : Thread nD τ) arg11 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare (out1 x0 x1 x2 x3 x4 x5 x6 x7 x8 x9)) -∗ K ⟨⟩))
      ⊢ wp frame (wpE (defs₀ (F := F)) Variants.none c none) E
          (cc1__message_kernel i arg1 harg1 arg2 harg2 arg3 harg3 arg4 harg4 arg5 harg5 arg6 harg6 arg7 harg7 arg8 harg8 arg9 harg9 arg10 harg10 arg11 harg11) K := by
  simp only [cc1__message_kernel_eq_skeleton]; unfold cc1__message_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover1 _)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1 V c t, after1 V c t]
  rw [show (dat1 V c).Φ t.succ = (dat1 V c).Φ t.castSucc from rfl,
    show (dat1 V c).owesAt () t.succ = (dat1 V c).owesAt () t.castSucc from rfl, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation1 (c : Dev nD) : BodyObligation (dat1 (F := F) V c) (defs₀ (F := F)) Variants.none () Set.univ := fun t => by
  rw [bigSep_W1, bigSep_W1]
  exact sound_body1 V c t

end Cert.KernelIdeal.Hand
-- ==== Proof.KI.R2.lean ====
import proofs.«138431_j79370995631014_1_alg».proof.Proof.KI.D2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

theorem sound_kernel2 (c : Dev nD) (E : Set ℕ) (i : grid2.Coords)
    (arg1 : Memref sig .tc .vmem S4000x64 .f32) (harg1 : arg1.IsWhole)
    (arg2 : Memref sig .tc .vmem S4000x64 .f32) (harg2 : arg2.IsWhole)
    (arg3 : Memref sig .tc .vmem S4000x3 .f32) (harg3 : arg3.IsWhole)
    (arg4 : Memref sig .tc .vmem S4000x1 .f32) (harg4 : arg4.IsWhole)
    (arg5 : Memref sig .tc .vmem S64x64 .f32) (harg5 : arg5.IsWhole)
    (arg6 : Memref sig .tc .vmem S64x64 .f32) (harg6 : arg6.IsWhole)
    (arg7 : Memref sig .tc .vmem S3x64 .f32) (harg7 : arg7.IsWhole)
    (arg8 : Memref sig .tc .vmem S1x64 .f32) (harg8 : arg8.IsWhole)
    (arg9 : Memref sig .tc .vmem S64x64 .f32) (harg9 : arg9.IsWhole)
    (arg10 : Memref sig .tc .vmem S1x64 .f32) (harg10 : arg10.IsWhole)
    (arg11 : Memref sig .tc .vmem S4000x64 .f32) (harg11 : arg11.IsWhole)
    (x0 : Vec F S4000x64 .f32) (x1 : Vec F S4000x64 .f32) (x2 : Vec F S4000x3 .f32) (x3 : Vec F S4000x1 .f32) (x4 : Vec F S64x64 .f32) (x5 : Vec F S64x64 .f32) (x6 : Vec F S3x64 .f32) (x7 : Vec F S1x64 .f32) (x8 : Vec F S64x64 .f32) (x9 : Vec F S1x64 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ (∃ d, owns (c : Thread nD τ) arg11 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare (out2 x0 x1 x2 x3 x4 x5 x6 x7 x8 x9)) -∗ K ⟨⟩))
      ⊢ wp frame (wpE (defs₀ (F := F)) Variants.none c none) E
          (cc2__message_kernel i arg1 harg1 arg2 harg2 arg3 harg3 arg4 harg4 arg5 harg5 arg6 harg6 arg7 harg7 arg8 harg8 arg9 harg9 arg10 harg10 arg11 harg11) K := by
  simp only [cc2__message_kernel_eq_skeleton]; unfold cc2__message_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover2 _)

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2 V c t, after2 V c t]
  rw [show (dat2 V c).Φ t.succ = (dat2 V c).Φ t.castSucc from rfl,
    show (dat2 V c).owesAt () t.succ = (dat2 V c).owesAt () t.castSucc from rfl, after2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ _ _ _ _ _ _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation2 (c : Dev nD) : BodyObligation (dat2 (F := F) V c) (defs₀ (F := F)) Variants.none () Set.univ := fun t => by
  rw [bigSep_W2, bigSep_W2]
  exact sound_body2 V c t

end Cert.KernelIdeal.Hand
-- ==== Proof.KI.R3.lean ====
import proofs.«138431_j79370995631014_1_alg».proof.Proof.KI.D3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in

theorem sound_kernel3 (c : Dev nD) (E : Set ℕ) (i : grid3.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x2 .f32) (harg4 : arg4.IsWhole) (arg5 : Memref sig .tc .vmem S2000x64 .f32) (harg5 : arg5.IsWhole) (arg6 : Memref sig .tc .vmem S2000x1 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S2x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S64x64 .f32) (harg13 : arg13.IsWhole) (arg14 : Memref sig .tc .vmem S64x64 .f32) (harg14 : arg14.IsWhole) (arg15 : Memref sig .tc .vmem S2x64 .f32) (harg15 : arg15.IsWhole) (arg16 : Memref sig .tc .vmem S1x64 .f32) (harg16 : arg16.IsWhole) (arg17 : Memref sig .tc .vmem S64x64 .f32) (harg17 : arg17.IsWhole) (arg18 : Memref sig .tc .vmem S64x64 .f32) (harg18 : arg18.IsWhole) (arg19 : Memref sig .tc .vmem S64x64 .f32) (harg19 : arg19.IsWhole) (arg20 : Memref sig .tc .vmem S2x64 .f32) (harg20 : arg20.IsWhole) (arg21 : Memref sig .tc .vmem S1x64 .f32) (harg21 : arg21.IsWhole) (arg22 : Memref sig .tc .vmem S2000x64 .f32) (harg22 : arg22.IsWhole)
    (x0 : Vec F S2000x64 .f32) (x1 : Vec F S2000x64 .f32) (x2 : Vec F S2000x64 .f32) (x3 : Vec F S2000x2 .f32) (x4 : Vec F S2000x64 .f32) (x5 : Vec F S2000x1 .f32) (x6 : Vec F S64x64 .f32) (x7 : Vec F S64x64 .f32) (x8 : Vec F S64x64 .f32) (x9 : Vec F S2x64 .f32) (x10 : Vec F S1x64 .f32) (x11 : Vec F S64x64 .f32) (x12 : Vec F S64x64 .f32) (x13 : Vec F S64x64 .f32) (x14 : Vec F S2x64 .f32) (x15 : Vec F S1x64 .f32) (x16 : Vec F S64x64 .f32) (x17 : Vec F S64x64 .f32) (x18 : Vec F S64x64 .f32) (x19 : Vec F S2x64 .f32) (x20 : Vec F S1x64 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ owns (c : Thread nD τ) arg15 fullShare x14
        ∗ owns (c : Thread nD τ) arg16 fullShare x15
        ∗ owns (c : Thread nD τ) arg17 fullShare x16
        ∗ owns (c : Thread nD τ) arg18 fullShare x17
        ∗ owns (c : Thread nD τ) arg19 fullShare x18
        ∗ owns (c : Thread nD τ) arg20 fullShare x19
        ∗ owns (c : Thread nD τ) arg21 fullShare x20
        ∗ (∃ d, owns (c : Thread nD τ) arg22 fullShare d)
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare x9
          ∗ owns (c : Thread nD τ) arg11 fullShare x10
          ∗ owns (c : Thread nD τ) arg12 fullShare x11
          ∗ owns (c : Thread nD τ) arg13 fullShare x12
          ∗ owns (c : Thread nD τ) arg14 fullShare x13
          ∗ owns (c : Thread nD τ) arg15 fullShare x14
          ∗ owns (c : Thread nD τ) arg16 fullShare x15
          ∗ owns (c : Thread nD τ) arg17 fullShare x16
          ∗ owns (c : Thread nD τ) arg18 fullShare x17
          ∗ owns (c : Thread nD τ) arg19 fullShare x18
          ∗ owns (c : Thread nD τ) arg20 fullShare x19
          ∗ owns (c : Thread nD τ) arg21 fullShare x20
          ∗ owns (c : Thread nD τ) arg22 fullShare (out3 x0 x1 x2 x3 x4 x5 x6 x7 x8 x9 x10 x11 x12 x13 x14 x15 x16 x17 x18 x19 x20)) -∗ K ⟨⟩))
      ⊢ wp frame (wpE (defs₀ (F := F)) Variants.none c none) E (cc3__gate_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc3__gate_kernel_eq_skeleton]; unfold cc3__gate_kernel_skel
  simp only [k3_part1_eq_skeleton]; unfold k3_part1_skel
  simp only [k3_part2_eq_skeleton]; unfold k3_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, Hk⟩
  subst hf0 hf1 hf2 hf3 hf4 hf5 hf6 hf7 hf8 hf9 hf10 hf11 hf12 hf13 hf14 hf15 hf16 hf17 hf18 hf19 hf20
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  iexists _; isplitr
  swap; · iexact H21
  ipureintro
  try dsimp only
  exact View.read_writes_eq_canon _ _ _ (cover3 _)

set_option maxHeartbeats 1000000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3 V c t, after3 V c t]
  rw [show (dat3 V c).Φ t.succ = (dat3 V c).Φ t.castSucc from rfl,
    show (dat3 V c).owesAt () t.succ = (dat3 V c).owesAt () t.castSucc from rfl, after3_21]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (sound_kernel3 c Set.univ _ _ _ _ _ _ _ _ _ _ _ _ _ _ _ _ _ _ _ _ _ _ _ _ _ _ _ _ _ _ _ _ _ _ _ _ _ _ _ _ _ _ _ _ _
    (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t) (iblk3 V c 19 t) (iblk3 V c 20 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  iintro ⟨H0, H1, H2, H3, H4, H5, H6, H7, H8, H9, H10, H11, H12, H13, H14, H15, H16, H17, H18, H19, H20, H21⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem body_obligation3 (c : Dev nD) : BodyObligation (dat3 (F := F) V c) (defs₀ (F := F)) Variants.none () Set.univ := fun t => by
  rw [bigSep_W3, bigSep_W3]
  exact sound_body3 V c t

end Cert.KernelIdeal.Hand
-- ==== Proof.KI.R4.lean ====
import proofs.«138431_j79370995631014_1_alg».proof.Proof.KI.D4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

theorem sound_kernel4 (c : Dev nD) (E : Set ℕ) (i : grid4.Coords) (arg1 : Memref sig .tc .vmem S2000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S2000x1 .f32) (harg6 : arg6.IsWhole)
    (x0 : Vec F S2000x64 .f32) (x1 : Vec F S64x64 .f32) (x2 : Vec F S1x64 .f32) (x3 : Vec F S64x1 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4 x0 x1 x2 x3 x4)) -∗ K ⟨⟩))
      ⊢ wp frame (wpE (defs₀ (F := F)) Variants.none c none) E (cc4__mlp2_kernel i arg1 harg1 arg2 harg2 arg3 harg3 arg4 harg4 arg5 harg5 arg6 harg6) K := by
  simp only [cc4__mlp2_kernel_eq_skeleton]; unfold cc4__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4 _)

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4 V c t, after4 V c t]
  rw [show (dat4 V c).Φ t.succ = (dat4 V c).Φ t.castSucc from rfl,
    show (dat4 V c).owesAt () t.succ = (dat4 V c).owesAt () t.castSucc from rfl, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation4 (c : Dev nD) : BodyObligation (dat4 (F := F) V c) (defs₀ (F := F)) Variants.none () Set.univ := fun t => by
  rw [bigSep_W4, bigSep_W4]
  exact sound_body4 V c t

end Cert.KernelIdeal.Hand
-- ==== Proof.KI.R5.lean ====
import proofs.«138431_j79370995631014_1_alg».proof.Proof.KI.D5
import proofs.«138431_j79370995631014_1_alg».proof.Proof.Gen.KernelIdeal.Launch
import proofs.«138431_j79370995631014_1_alg».proof.Proof.Gen.KernelIdeal.Skeleton
import proofs.«138431_j79370995631014_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

theorem sound_kernel5 (c : Dev nD) (E : Set ℕ) (i : grid5.Coords) (arg1 : Memref sig .tc .vmem S2000x1 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2000x64 .f32) (harg6 : arg6.IsWhole)
    (x0 : Vec F S2000x1 .f32) (x1 : Vec F S1x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out5 x0 x1 x2 x3 x4)) -∗ K ⟨⟩))
      ⊢ wp frame (wpE (defs₀ (F := F)) Variants.none c none) E (cc5__mlp2_kernel i arg1 harg1 arg2 harg2 arg3 harg3 arg4 harg4 arg5 harg5 arg6 harg6) K := by
  simp only [cc5__mlp2_kernel_eq_skeleton]; unfold cc5__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5 V c t, after5 V c t]
  rw [show (dat5 V c).Φ t.succ = (dat5 V c).Φ t.castSucc from rfl,
    show (dat5 V c).owesAt () t.succ = (dat5 V c).owesAt () t.castSucc from rfl, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _
    (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation5 (c : Dev nD) : BodyObligation (dat5 (F := F) V c) (defs₀ (F := F)) Variants.none () Set.univ := fun t => by
  rw [bigSep_W5, bigSep_W5]
  exact sound_body5 V c t

end Cert.KernelIdeal.Hand
-- ==== Proof.KI.R6.lean ====
import proofs.«138431_j79370995631014_1_alg».proof.Proof.KI.D6

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

theorem sound_kernel6 (c : Dev nD) (E : Set ℕ) (i : grid6.Coords) (arg1 : Memref sig .tc .vmem S2000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S2000x1 .f32) (harg6 : arg6.IsWhole)
    (x0 : Vec F S2000x64 .f32) (x1 : Vec F S64x64 .f32) (x2 : Vec F S1x64 .f32) (x3 : Vec F S64x1 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out6 x0 x1 x2 x3 x4)) -∗ K ⟨⟩))
      ⊢ wp frame (wpE (defs₀ (F := F)) Variants.none c none) E (cc6__mlp2_kernel i arg1 harg1 arg2 harg2 arg3 harg3 arg4 harg4 arg5 harg5 arg6 harg6) K := by
  simp only [cc6__mlp2_kernel_eq_skeleton]; unfold cc6__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6 _)

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6 V c t, after6 V c t]
  rw [show (dat6 V c).Φ t.succ = (dat6 V c).Φ t.castSucc from rfl,
    show (dat6 V c).owesAt () t.succ = (dat6 V c).owesAt () t.castSucc from rfl, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation6 (c : Dev nD) : BodyObligation (dat6 (F := F) V c) (defs₀ (F := F)) Variants.none () Set.univ := fun t => by
  rw [bigSep_W6, bigSep_W6]
  exact sound_body6 V c t

end Cert.KernelIdeal.Hand
-- ==== Proof.KI.R7.lean ====
import proofs.«138431_j79370995631014_1_alg».proof.Proof.KI.D7

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

theorem sound_kernel7 (c : Dev nD) (E : Set ℕ) (i : grid7.Coords)
    (arg1 : Memref sig .tc .vmem S4000x64 .f32) (harg1 : arg1.IsWhole)
    (arg2 : Memref sig .tc .vmem S4000x64 .f32) (harg2 : arg2.IsWhole)
    (arg3 : Memref sig .tc .vmem S4000x3 .f32) (harg3 : arg3.IsWhole)
    (arg4 : Memref sig .tc .vmem S4000x1 .f32) (harg4 : arg4.IsWhole)
    (arg5 : Memref sig .tc .vmem S64x64 .f32) (harg5 : arg5.IsWhole)
    (arg6 : Memref sig .tc .vmem S64x64 .f32) (harg6 : arg6.IsWhole)
    (arg7 : Memref sig .tc .vmem S3x64 .f32) (harg7 : arg7.IsWhole)
    (arg8 : Memref sig .tc .vmem S1x64 .f32) (harg8 : arg8.IsWhole)
    (arg9 : Memref sig .tc .vmem S64x64 .f32) (harg9 : arg9.IsWhole)
    (arg10 : Memref sig .tc .vmem S1x64 .f32) (harg10 : arg10.IsWhole)
    (arg11 : Memref sig .tc .vmem S4000x64 .f32) (harg11 : arg11.IsWhole)
    (x0 : Vec F S4000x64 .f32) (x1 : Vec F S4000x64 .f32) (x2 : Vec F S4000x3 .f32) (x3 : Vec F S4000x1 .f32) (x4 : Vec F S64x64 .f32) (x5 : Vec F S64x64 .f32) (x6 : Vec F S3x64 .f32) (x7 : Vec F S1x64 .f32) (x8 : Vec F S64x64 .f32) (x9 : Vec F S1x64 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ (∃ d, owns (c : Thread nD τ) arg11 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare (out7 x0 x1 x2 x3 x4 x5 x6 x7 x8 x9)) -∗ K ⟨⟩))
      ⊢ wp frame (wpE (defs₀ (F := F)) Variants.none c none) E
          (cc7__message_kernel i arg1 harg1 arg2 harg2 arg3 harg3 arg4 harg4 arg5 harg5 arg6 harg6 arg7 harg7 arg8 harg8 arg9 harg9 arg10 harg10 arg11 harg11) K := by
  simp only [cc7__message_kernel_eq_skeleton]; unfold cc7__message_kernel_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover7 _)

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7 V c t, after7 V c t]
  rw [show (dat7 V c).Φ t.succ = (dat7 V c).Φ t.castSucc from rfl,
    show (dat7 V c).owesAt () t.succ = (dat7 V c).owesAt () t.castSucc from rfl, after7_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel7 c Set.univ _ _ _ _ _ _ _ _ _ _ _ _ _ _ _ _ _ _ _ _ _ _ _
    (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation7 (c : Dev nD) : BodyObligation (dat7 (F := F) V c) (defs₀ (F := F)) Variants.none () Set.univ := fun t => by
  rw [bigSep_W7, bigSep_W7]
  exact sound_body7 V c t

end Cert.KernelIdeal.Hand
-- ==== Proof.KI.R8.lean ====
import proofs.«138431_j79370995631014_1_alg».proof.Proof.KI.D8

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

theorem sound_kernel8 (c : Dev nD) (E : Set ℕ) (i : grid8.Coords)
    (arg1 : Memref sig .tc .vmem S4000x64 .f32) (harg1 : arg1.IsWhole)
    (arg2 : Memref sig .tc .vmem S4000x64 .f32) (harg2 : arg2.IsWhole)
    (arg3 : Memref sig .tc .vmem S4000x3 .f32) (harg3 : arg3.IsWhole)
    (arg4 : Memref sig .tc .vmem S4000x1 .f32) (harg4 : arg4.IsWhole)
    (arg5 : Memref sig .tc .vmem S64x64 .f32) (harg5 : arg5.IsWhole)
    (arg6 : Memref sig .tc .vmem S64x64 .f32) (harg6 : arg6.IsWhole)
    (arg7 : Memref sig .tc .vmem S3x64 .f32) (harg7 : arg7.IsWhole)
    (arg8 : Memref sig .tc .vmem S1x64 .f32) (harg8 : arg8.IsWhole)
    (arg9 : Memref sig .tc .vmem S64x64 .f32) (harg9 : arg9.IsWhole)
    (arg10 : Memref sig .tc .vmem S1x64 .f32) (harg10 : arg10.IsWhole)
    (arg11 : Memref sig .tc .vmem S4000x64 .f32) (harg11 : arg11.IsWhole)
    (x0 : Vec F S4000x64 .f32) (x1 : Vec F S4000x64 .f32) (x2 : Vec F S4000x3 .f32) (x3 : Vec F S4000x1 .f32) (x4 : Vec F S64x64 .f32) (x5 : Vec F S64x64 .f32) (x6 : Vec F S3x64 .f32) (x7 : Vec F S1x64 .f32) (x8 : Vec F S64x64 .f32) (x9 : Vec F S1x64 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ (∃ d, owns (c : Thread nD τ) arg11 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare (out8 x0 x1 x2 x3 x4 x5 x6 x7 x8 x9)) -∗ K ⟨⟩))
      ⊢ wp frame (wpE (defs₀ (F := F)) Variants.none c none) E
          (cc8__message_kernel i arg1 harg1 arg2 harg2 arg3 harg3 arg4 harg4 arg5 harg5 arg6 harg6 arg7 harg7 arg8 harg8 arg9 harg9 arg10 harg10 arg11 harg11) K := by
  simp only [cc8__message_kernel_eq_skeleton]; unfold cc8__message_kernel_skel
  simp only [k8_part1_eq_skeleton]; unfold k8_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover8 _)

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8 V c t, after8 V c t]
  rw [show (dat8 V c).Φ t.succ = (dat8 V c).Φ t.castSucc from rfl,
    show (dat8 V c).owesAt () t.succ = (dat8 V c).owesAt () t.castSucc from rfl, after8_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel8 c Set.univ _ _ _ _ _ _ _ _ _ _ _ _ _ _ _ _ _ _ _ _ _ _ _
    (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation8 (c : Dev nD) : BodyObligation (dat8 (F := F) V c) (defs₀ (F := F)) Variants.none () Set.univ := fun t => by
  rw [bigSep_W8, bigSep_W8]
  exact sound_body8 V c t

end Cert.KernelIdeal.Hand
-- ==== Proof.KI.R9.lean ====
import proofs.«138431_j79370995631014_1_alg».proof.Proof.KI.D9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in

theorem sound_kernel9 (c : Dev nD) (E : Set ℕ) (i : grid9.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x2 .f32) (harg4 : arg4.IsWhole) (arg5 : Memref sig .tc .vmem S2000x64 .f32) (harg5 : arg5.IsWhole) (arg6 : Memref sig .tc .vmem S2000x1 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S2x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S64x64 .f32) (harg13 : arg13.IsWhole) (arg14 : Memref sig .tc .vmem S64x64 .f32) (harg14 : arg14.IsWhole) (arg15 : Memref sig .tc .vmem S2x64 .f32) (harg15 : arg15.IsWhole) (arg16 : Memref sig .tc .vmem S1x64 .f32) (harg16 : arg16.IsWhole) (arg17 : Memref sig .tc .vmem S64x64 .f32) (harg17 : arg17.IsWhole) (arg18 : Memref sig .tc .vmem S64x64 .f32) (harg18 : arg18.IsWhole) (arg19 : Memref sig .tc .vmem S64x64 .f32) (harg19 : arg19.IsWhole) (arg20 : Memref sig .tc .vmem S2x64 .f32) (harg20 : arg20.IsWhole) (arg21 : Memref sig .tc .vmem S1x64 .f32) (harg21 : arg21.IsWhole) (arg22 : Memref sig .tc .vmem S2000x64 .f32) (harg22 : arg22.IsWhole)
    (x0 : Vec F S2000x64 .f32) (x1 : Vec F S2000x64 .f32) (x2 : Vec F S2000x64 .f32) (x3 : Vec F S2000x2 .f32) (x4 : Vec F S2000x64 .f32) (x5 : Vec F S2000x1 .f32) (x6 : Vec F S64x64 .f32) (x7 : Vec F S64x64 .f32) (x8 : Vec F S64x64 .f32) (x9 : Vec F S2x64 .f32) (x10 : Vec F S1x64 .f32) (x11 : Vec F S64x64 .f32) (x12 : Vec F S64x64 .f32) (x13 : Vec F S64x64 .f32) (x14 : Vec F S2x64 .f32) (x15 : Vec F S1x64 .f32) (x16 : Vec F S64x64 .f32) (x17 : Vec F S64x64 .f32) (x18 : Vec F S64x64 .f32) (x19 : Vec F S2x64 .f32) (x20 : Vec F S1x64 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ owns (c : Thread nD τ) arg15 fullShare x14
        ∗ owns (c : Thread nD τ) arg16 fullShare x15
        ∗ owns (c : Thread nD τ) arg17 fullShare x16
        ∗ owns (c : Thread nD τ) arg18 fullShare x17
        ∗ owns (c : Thread nD τ) arg19 fullShare x18
        ∗ owns (c : Thread nD τ) arg20 fullShare x19
        ∗ owns (c : Thread nD τ) arg21 fullShare x20
        ∗ (∃ d, owns (c : Thread nD τ) arg22 fullShare d)
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare x9
          ∗ owns (c : Thread nD τ) arg11 fullShare x10
          ∗ owns (c : Thread nD τ) arg12 fullShare x11
          ∗ owns (c : Thread nD τ) arg13 fullShare x12
          ∗ owns (c : Thread nD τ) arg14 fullShare x13
          ∗ owns (c : Thread nD τ) arg15 fullShare x14
          ∗ owns (c : Thread nD τ) arg16 fullShare x15
          ∗ owns (c : Thread nD τ) arg17 fullShare x16
          ∗ owns (c : Thread nD τ) arg18 fullShare x17
          ∗ owns (c : Thread nD τ) arg19 fullShare x18
          ∗ owns (c : Thread nD τ) arg20 fullShare x19
          ∗ owns (c : Thread nD τ) arg21 fullShare x20
          ∗ owns (c : Thread nD τ) arg22 fullShare (out9 x0 x1 x2 x3 x4 x5 x6 x7 x8 x9 x10 x11 x12 x13 x14 x15 x16 x17 x18 x19 x20)) -∗ K ⟨⟩))
      ⊢ wp frame (wpE (defs₀ (F := F)) Variants.none c none) E (cc9__gate_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc9__gate_kernel_eq_skeleton]; unfold cc9__gate_kernel_skel
  simp only [k9_part1_eq_skeleton]; unfold k9_part1_skel
  simp only [k9_part2_eq_skeleton]; unfold k9_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, Hk⟩
  subst hf0 hf1 hf2 hf3 hf4 hf5 hf6 hf7 hf8 hf9 hf10 hf11 hf12 hf13 hf14 hf15 hf16 hf17 hf18 hf19 hf20
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  iexists _; isplitr
  swap; · iexact H21
  ipureintro
  try dsimp only
  exact View.read_writes_eq_canon _ _ _ (cover9 _)

set_option maxHeartbeats 1000000 in

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9 V c t, after9 V c t]
  rw [show (dat9 V c).Φ t.succ = (dat9 V c).Φ t.castSucc from rfl,
    show (dat9 V c).owesAt () t.succ = (dat9 V c).owesAt () t.castSucc from rfl, after9_21]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (sound_kernel9 c Set.univ _ _ _ _ _ _ _ _ _ _ _ _ _ _ _ _ _ _ _ _ _ _ _ _ _ _ _ _ _ _ _ _ _ _ _ _ _ _ _ _ _ _ _ _ _
    (iblk9 V c 0 t) (iblk9 V c 1 t) (iblk9 V c 2 t) (iblk9 V c 3 t) (iblk9 V c 4 t) (iblk9 V c 5 t) (iblk9 V c 6 t) (iblk9 V c 7 t) (iblk9 V c 8 t) (iblk9 V c 9 t) (iblk9 V c 10 t) (iblk9 V c 11 t) (iblk9 V c 12 t) (iblk9 V c 13 t) (iblk9 V c 14 t) (iblk9 V c 15 t) (iblk9 V c 16 t) (iblk9 V c 17 t) (iblk9 V c 18 t) (iblk9 V c 19 t) (iblk9 V c 20 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  iintro ⟨H0, H1, H2, H3, H4, H5, H6, H7, H8, H9, H10, H11, H12, H13, H14, H15, H16, H17, H18, H19, H20, H21⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem body_obligation9 (c : Dev nD) : BodyObligation (dat9 (F := F) V c) (defs₀ (F := F)) Variants.none () Set.univ := fun t => by
  rw [bigSep_W9, bigSep_W9]
  exact sound_body9 V c t

end Cert.KernelIdeal.Hand
-- ==== Proof.KI.R10.lean ====
import proofs.«138431_j79370995631014_1_alg».proof.Proof.KI.D10

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

theorem sound_kernel10 (c : Dev nD) (E : Set ℕ) (i : grid10.Coords) (arg1 : Memref sig .tc .vmem S2000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S2000x1 .f32) (harg6 : arg6.IsWhole)
    (x0 : Vec F S2000x64 .f32) (x1 : Vec F S64x64 .f32) (x2 : Vec F S1x64 .f32) (x3 : Vec F S64x1 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out10 x0 x1 x2 x3 x4)) -∗ K ⟨⟩))
      ⊢ wp frame (wpE (defs₀ (F := F)) Variants.none c none) E (cc10__mlp2_kernel i arg1 harg1 arg2 harg2 arg3 harg3 arg4 harg4 arg5 harg5 arg6 harg6) K := by
  simp only [cc10__mlp2_kernel_eq_skeleton]; unfold cc10__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover10 _)

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10 V c t, after10 V c t]
  rw [show (dat10 V c).Φ t.succ = (dat10 V c).Φ t.castSucc from rfl,
    show (dat10 V c).owesAt () t.succ = (dat10 V c).owesAt () t.castSucc from rfl, after10_5]
  iintro ⟨HΦ, Ho, ⟨%d0, H0⟩, ⟨%d1, H1⟩, ⟨%d2, H2⟩, ⟨%d3, H3⟩, ⟨%d4, H4⟩, ⟨%d5, H5⟩⟩
  iapply (sound_kernel10 c Set.univ _ _ _ _ _ _ _ _ _ _ _ _ _ (iblk10 V c 0 t) (iblk10 V c 1 t) (iblk10 V c 2 t) (iblk10 V c 3 t) (iblk10 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation10 (c : Dev nD) : BodyObligation (dat10 (F := F) V c) (defs₀ (F := F)) Variants.none () Set.univ := fun t => by
  rw [bigSep_W10, bigSep_W10]
  exact sound_body10 V c t

end Cert.KernelIdeal.Hand
-- ==== Proof.KI.R11.lean ====
import proofs.«138431_j79370995631014_1_alg».proof.Proof.KI.D11
import proofs.«138431_j79370995631014_1_alg».proof.Proof.Gen.KernelIdeal.Launch
import proofs.«138431_j79370995631014_1_alg».proof.Proof.Gen.KernelIdeal.Skeleton
import proofs.«138431_j79370995631014_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

theorem sound_kernel11 (c : Dev nD) (E : Set ℕ) (i : grid11.Coords) (arg1 : Memref sig .tc .vmem S2000x1 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S2000x64 .f32) (harg6 : arg6.IsWhole)
    (x0 : Vec F S2000x1 .f32) (x1 : Vec F S1x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out11 x0 x1 x2 x3 x4)) -∗ K ⟨⟩))
      ⊢ wp frame (wpE (defs₀ (F := F)) Variants.none c none) E (cc11__mlp2_kernel i arg1 harg1 arg2 harg2 arg3 harg3 arg4 harg4 arg5 harg5 arg6 harg6) K := by
  simp only [cc11__mlp2_kernel_eq_skeleton]; unfold cc11__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover11 _)

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11 V c t, after11 V c t]
  rw [show (dat11 V c).Φ t.succ = (dat11 V c).Φ t.castSucc from rfl,
    show (dat11 V c).owesAt () t.succ = (dat11 V c).owesAt () t.castSucc from rfl, after11_5]
  iintro ⟨HΦ, Ho, ⟨%d0, H0⟩, ⟨%d1, H1⟩, ⟨%d2, H2⟩, ⟨%d3, H3⟩, ⟨%d4, H4⟩, ⟨%d5, H5⟩⟩
  iapply (sound_kernel11 c Set.univ _ _ _ _ _ _ _ _ _ _ _ _ _
    (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation11 (c : Dev nD) : BodyObligation (dat11 (F := F) V c) (defs₀ (F := F)) Variants.none () Set.univ := fun t => by
  rw [bigSep_W11, bigSep_W11]
  exact sound_body11 V c t

end Cert.KernelIdeal.Hand
-- ==== Proof.KI.R12.lean ====
import proofs.«138431_j79370995631014_1_alg».proof.Proof.KI.D12

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

theorem sound_kernel12 (c : Dev nD) (E : Set ℕ) (i : grid12.Coords) (arg1 : Memref sig .tc .vmem S2000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x1 .f32) (harg4 : arg4.IsWhole) (arg5 : Memref sig .tc .vmem S1x1 .f32) (harg5 : arg5.IsWhole) (arg6 : Memref sig .tc .vmem S2000x1 .f32) (harg6 : arg6.IsWhole)
    (x0 : Vec F S2000x64 .f32) (x1 : Vec F S64x64 .f32) (x2 : Vec F S1x64 .f32) (x3 : Vec F S64x1 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out12 x0 x1 x2 x3 x4)) -∗ K ⟨⟩))
      ⊢ wp frame (wpE (defs₀ (F := F)) Variants.none c none) E (cc12__mlp2_kernel i arg1 harg1 arg2 harg2 arg3 harg3 arg4 harg4 arg5 harg5 arg6 harg6) K := by
  simp only [cc12__mlp2_kernel_eq_skeleton]; unfold cc12__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover12 _)

theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12 V c t, after12 V c t]
  rw [show (dat12 V c).Φ t.succ = (dat12 V c).Φ t.castSucc from rfl,
    show (dat12 V c).owesAt () t.succ = (dat12 V c).owesAt () t.castSucc from rfl, after12_5]
  iintro ⟨HΦ, Ho, ⟨%d0, H0⟩, ⟨%d1, H1⟩, ⟨%d2, H2⟩, ⟨%d3, H3⟩, ⟨%d4, H4⟩, ⟨%d5, H5⟩⟩
  iapply (sound_kernel12 c Set.univ _ _ _ _ _ _ _ _ _ _ _ _ _ (iblk12 V c 0 t) (iblk12 V c 1 t) (iblk12 V c 2 t) (iblk12 V c 3 t) (iblk12 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation12 (c : Dev nD) : BodyObligation (dat12 (F := F) V c) (defs₀ (F := F)) Variants.none () Set.univ := fun t => by
  rw [bigSep_W12, bigSep_W12]
  exact sound_body12 V c t

end Cert.KernelIdeal.Hand
-- ==== Proof.KI.Reg3.lean ====
import proofs.«138431_j79370995631014_1_alg».proof.Proof.Gen.KernelIdeal.Launch
import proofs.«138431_j79370995631014_1_alg».proof.Proof.KI.Share3
import Idealize.ShloMosaic.Lib.Pipeline.RegionsLoop
import Idealize.ShloMosaic.Rules.PointsTo

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open PCS
open Idealize.ShloMosaic.Pipeline (Dat Cfg Window)

variable {F : FTy → Type} [FloatOps F]

local notation "𝕄" => MT nD τ sig Unit (Elt F) ℕ (UR sig nD τ) ℕ

section Shared

variable {cfg : Cfg sig Λ₀} {c : Dev nD} (dat : Dat τ (Elt F) Unit ℕ (UR sig nD τ) ℕ cfg c)

theorem bigSep_image_injOn {I J : Type} [DecidableEq J] {s : Finset I} (g : I → J) (H : Set.InjOn g s)
    (Φ : J → sProp 𝕄) : bigSep (s.image g) Φ = bigSep s fun i => Φ (g i) :=
  Finset.fold_image H

theorem sep_rotate (A B R : sProp 𝕄) : (iprop(B ∗ A ∗ R) : sProp 𝕄) = iprop((A ∗ B) ∗ R) := by
  have h1 : (iprop(B ∗ A ∗ R) : sProp 𝕄) ⊢ iprop((A ∗ B) ∗ R) := by
    iintro ⟨HB, HA, HR⟩
    isplitl [HA HB]
    · isplitl [HA] <;> iassumption
    · iexact HR
  have h2 : (iprop((A ∗ B) ∗ R) : sProp 𝕄) ⊢ iprop(B ∗ A ∗ R) := by
    iintro ⟨⟨HA, HB⟩, HR⟩
    isplitl [HB]; · iexact HB
    isplitl [HA]; · iexact HA
    iexact HR
  exact equiv_iff.mp ⟨h1, h2⟩

theorem arr_conjunct (harr : ∀ w, (cfg.spec w).arr.IsWhole)
    (V : (b : Ref sig .tc) → Buf (Elt F) ((c : Thread nD τ).loc b))
    (G : (w : Fin cfg.W) → Buf (Elt F) ((cfg.win w).arr.view.loc (c.tc : Thread nD τ)))
    (hG : ∀ w, G w = V (Pipeline.arrRef cfg.spec w)) (w : Fin cfg.W) :
    ((cfg.win w).arr.view.loc (c.tc : Thread nD τ) ↦[(cfg.win w).arr.view.set]{dat.share w} G w : sProp 𝕄)
      = (((c.tc : Thread nD τ).loc (Pipeline.arrRef cfg.spec w)) ↦{dat.share w} V (Pipeline.arrRef cfg.spec w)) := by
  rw [(harr w).set_eq_univ, hG w]

theorem arrays_eq_arrBufs_of_pair (i j : Fin cfg.W) (hij : i ≠ j)
    (href : Pipeline.arrRef cfg.spec j = Pipeline.arrRef cfg.spec i)
    (hinj : ∀ x, x ≠ j → ∀ y, y ≠ j → Pipeline.arrRef cfg.spec x = Pipeline.arrRef cfg.spec y → x = y)
    (harr : ∀ w, (cfg.spec w).arr.IsWhole)
    (hfull : ∀ w, w ≠ i → w ≠ j → dat.share w = fullShare)
    (hq : fullShare ∈ dat.share i ·? dat.share j)
    (V : (b : Ref sig .tc) → Buf (Elt F) ((c : Thread nD τ).loc b))
    (G : (w : Fin cfg.W) → Buf (Elt F) ((cfg.win w).arr.view.loc (c.tc : Thread nD τ)))
    (hG : ∀ w, G w = V (Pipeline.arrRef cfg.spec w)) :
    (dat.arrays G : sProp 𝕄) = Pipeline.arrBufs cfg.spec c V := by
  classical

  have himg : Finset.univ.image (Pipeline.arrRef cfg.spec) = (Finset.univ.erase j).image (Pipeline.arrRef cfg.spec) := by
    ext b
    simp only [Finset.mem_image, Finset.mem_univ, true_and, Finset.mem_erase, ne_eq, and_true]
    constructor
    · rintro ⟨w, rfl⟩
      by_cases h : w = j
      · exact ⟨i, hij, by rw [h, href]⟩
      · exact ⟨w, h, rfl⟩
    · rintro ⟨w, -, rfl⟩; exact ⟨w, rfl⟩
  have hon : Set.InjOn (Pipeline.arrRef cfg.spec) ((Finset.univ.erase j : Finset (Fin cfg.W)) : Set (Fin cfg.W)) :=
    fun x hx y hy e => hinj x (Finset.ne_of_mem_erase hx) y (Finset.ne_of_mem_erase hy) e
  have hi : i ∈ (Finset.univ.erase j : Finset (Fin cfg.W)) := Finset.mem_erase.mpr ⟨hij, Finset.mem_univ _⟩
  unfold Pipeline.Dat.arrays Pipeline.arrBufs
  rw [bigSep_congr fun w _ => arr_conjunct dat harr V G hG w, himg, bigSep_image_injOn _ hon,
    bigSep_univ_split j, bigSep_erase hi, bigSep_erase hi]

  rw [bigSep_congr (Ψ := fun w => (((c.tc : Thread nD τ).loc (Pipeline.arrRef cfg.spec w)) ↦{fullShare} V (Pipeline.arrRef cfg.spec w) : sProp 𝕄))
    fun w hw => by
      rw [hfull w (Finset.ne_of_mem_erase hw) (Finset.ne_of_mem_erase (Finset.mem_of_mem_erase hw))]]

  rw [congrArg (fun b => (((c.tc : Thread nD τ).loc b) ↦{dat.share j} V b : sProp 𝕄)) href]

  have hsh : ((((c.tc : Thread nD τ).loc (Pipeline.arrRef cfg.spec i)) ↦{fullShare} V (Pipeline.arrRef cfg.spec i)) : sProp 𝕄)
      ⊣⊢ iprop((((c.tc : Thread nD τ).loc (Pipeline.arrRef cfg.spec i)) ↦{dat.share i} V (Pipeline.arrRef cfg.spec i))
          ∗ (((c.tc : Thread nD τ).loc (Pipeline.arrRef cfg.spec i)) ↦{dat.share j} V (Pipeline.arrRef cfg.spec i))) :=
    pointsTo_share hq
  rw [equiv_iff.mp ⟨hsh.1, hsh.2⟩]
  exact sep_rotate _ _ _

end Shared

set_option maxRecDepth 8192

theorem arrRef3_4 : Pipeline.arrRef cfg3.spec 4 = Pipeline.arrRef cfg3.spec 0 := rfl

theorem arrRef3_injOn : ∀ x : Fin cfg3.W, x ≠ 4 → ∀ y : Fin cfg3.W, y ≠ 4 →
    Pipeline.arrRef cfg3.spec x = Pipeline.arrRef cfg3.spec y → x = y := by decide

theorem isOut3_of_ne : ∀ w : Fin cfg3.W, w ≠ 21 → (cfg3.win w).isOut = false := by decide

theorem arrRef3_ne_out : ∀ w : Fin cfg3.W, w ≠ 21 → Pipeline.arrRef cfg3.spec w ≠ Pipeline.arrRef cfg3.spec 21 := by decide

section Region3

variable {c : Dev nD} (dat : Dat τ (Elt F) Unit ℕ (UR sig nD τ) ℕ cfg3 c) (hq : dat.q = q3)

include hq in

theorem share3_0 : dat.share 0 = fullShare.left := by
  unfold Pipeline.Dat.share; rw [isOut3_of_ne 0 (by decide), hq]; rfl

include hq in

theorem share3_4 : dat.share 4 = fullShare.right := by
  unfold Pipeline.Dat.share; rw [isOut3_of_ne 4 (by decide), hq]; rfl

include hq in

theorem share3_of_ne (w : Fin cfg3.W) (h0 : w ≠ 0) (h4 : w ≠ 4) : dat.share w = fullShare := by
  unfold Pipeline.Dat.share; split
  · rfl
  · rw [hq]; exact q3_of_ne w h0 h4

include hq in

theorem arrays3_eq_arrBufs (V : (b : Ref sig .tc) → Buf (Elt F) ((c : Thread nD τ).loc b))
    (G : (w : Fin cfg3.W) → Buf (Elt F) ((cfg3.win w).arr.view.loc (c.tc : Thread nD τ)))
    (hG : ∀ w, G w = V (Pipeline.arrRef spec3 w)) :
    (dat.arrays G : sProp 𝕄) = Pipeline.arrBufs spec3 c V :=
  arrays_eq_arrBufs_of_pair dat 0 4 (by decide) arrRef3_4 arrRef3_injOn arr_whole3
    (share3_of_ne dat hq) (by rw [share3_0 dat hq, share3_4 dat hq]; exact PosShare.mem_left_op_right fullShare) V G hG

theorem unscopedBufs3_split (c : Dev nD) (V : (b : Ref sig .tc) → Buf (Elt F) ((c : Thread nD τ).loc b)) :
    (unscopedBufs c V : sProp 𝕄) = iprop(Pipeline.arrBufs spec3 c V ∗ Pipeline.unscopedRest spec3 c V) :=
  Pipeline.PerCore.unscopedBufs_split₀ (P := Unit) (fun _ _ => cfg3) () c winFacts₀3.arr_unscoped V

include hq in

theorem entry3 (V : (b : Ref sig .tc) → Buf (Elt F) ((c : Thread nD τ).loc b))
    (hA : ∀ w, dat.A w = V (Pipeline.arrRef spec3 w)) :
    (unscopedBufs c V : sProp 𝕄) ⊢ iprop(dat.arrays dat.A ∗ Pipeline.unscopedRest spec3 c V) := by
  rw [unscopedBufs3_split c V, arrays3_eq_arrBufs dat hq V dat.A hA]

include hq in

theorem exit3 (V V' : (b : Ref sig .tc) → Buf (Elt F) ((c : Thread nD τ).loc b))
    (hA : ∀ w, dat.A w = V (Pipeline.arrRef spec3 w))
    (hout : V' main_v61 = dat.arrAt 21 cfg3.N)
    (hrest : ∀ b, b ≠ main_v61 → V' b = V b) :
    (iprop(dat.arrays (dat.arrAt · cfg3.N) ∗ Pipeline.unscopedRest spec3 c V) : sProp 𝕄) ⊢ unscopedBufs c V' := by
  classical

  have hG : ∀ w : Fin cfg3.W, dat.arrAt w cfg3.N = V' (Pipeline.arrRef spec3 w) := fun w => by
    by_cases h : w = 21
    · subst h; exact hout.symm
    · rw [dat.arrAt_in w (isOut3_of_ne w h) cfg3.N, hA w]
      exact (hrest _ (arrRef3_ne_out w h)).symm

  have hR : (Pipeline.unscopedRest spec3 c V : sProp 𝕄) = Pipeline.unscopedRest spec3 c V' := by
    unfold Pipeline.unscopedRest
    refine bigSep_congr fun b hb => ?_
    rw [hrest b fun e => (Finset.mem_sdiff.mp hb).2 (Finset.mem_image.mpr ⟨21, Finset.mem_univ _, e.symm⟩)]
  rw [arrays3_eq_arrBufs dat hq V' (dat.arrAt · cfg3.N) hG, hR, ← unscopedBufs3_split c V']

end Region3

end Cert.KernelIdeal.Hand
end
-- ==== Proof.KI.Segs.lean ====
import proofs.«138431_j79370995631014_1_alg».proof.Proof.Gen.KernelIdeal.Launch
import proofs.«138431_j79370995631014_1_alg».proof.Proof.Gen.KernelIdeal.Regions
import proofs.«138431_j79370995631014_1_alg».proof.Proof.KI.Fold
import proofs.«138431_j79370995631014_1_alg».proof.Proof.KI.R0
import proofs.«138431_j79370995631014_1_alg».proof.Proof.KI.R1
import proofs.«138431_j79370995631014_1_alg».proof.Proof.KI.R2
import proofs.«138431_j79370995631014_1_alg».proof.Proof.KI.R3
import proofs.«138431_j79370995631014_1_alg».proof.Proof.KI.R4
import proofs.«138431_j79370995631014_1_alg».proof.Proof.KI.R5
import proofs.«138431_j79370995631014_1_alg».proof.Proof.KI.R6
import proofs.«138431_j79370995631014_1_alg».proof.Proof.KI.R7
import proofs.«138431_j79370995631014_1_alg».proof.Proof.KI.R8
import proofs.«138431_j79370995631014_1_alg».proof.Proof.KI.R9
import proofs.«138431_j79370995631014_1_alg».proof.Proof.KI.R10
import proofs.«138431_j79370995631014_1_alg».proof.Proof.KI.R11
import proofs.«138431_j79370995631014_1_alg».proof.Proof.KI.R12
import proofs.«138431_j79370995631014_1_alg».proof.Proof.KI.Reg3
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg3 : Pipeline.RegionSeg (pcfgs (F := F)) adm (pdats m ρ) () defs₀ 𝒱₀ L lv 3 where
  win := winFacts₀3
  block_pos := block_pos3
  stage_whole := stage_whole3
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := entry3 (pdats m ρ 3 c) rfl (V7 m ρ c) (A_eq3 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := exit3 (pdats m ρ 3 c) rfl (V7 m ρ c) (V8 m ρ c) (A_eq3 (V7 m ρ) c) (W8_out m ρ c) (W8_of_ne m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m ρ) c).loose
  hwaits := Pipeline.hwaits_of_owed_zero _ _ _ _ L lv 9 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec9 c (V19 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V19 m ρ c) (V20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V21 m ρ) c).loose
  hwaits := Pipeline.hwaits_of_owed_zero _ _ _ _ L lv 10 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec10 c (V21 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V21 m ρ c) (V22 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V23 m ρ) c).loose
  hwaits := Pipeline.hwaits_of_owed_zero _ _ _ _ L lv 11 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec11 c (V23 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V23 m ρ c) (V24 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (V25 m ρ) c).loose
  hwaits := Pipeline.hwaits_of_owed_zero _ _ _ _ L lv 12 fun _ _ => rfl
  pre c := iprop(StableHlo.held (c : Thread nD τ) (Pipeline.ucRefs τ sig) (W25 m ρ c) ∗ R c)
  post c := iprop(StableHlo.held (c : Thread nD τ) (Pipeline.ucRefs τ sig) (W26 m ρ c) ∗ R c)
  X c := iprop(∃ r, prngReg c r)
  Y c := iprop(∃ r, prngReg c r)
  Z c := Pipeline.unscopedRest (Ix := Unit) (Name := ℕ) (U := UR sig nD τ) (Lvl := ℕ) spec12 c (V25 m ρ c)
  hentry c := by
    rw [Pipeline.ownSems0_none]
    have hsplit := Pipeline.arrays_of_unscopedBufs (p := 12) (pcfgs (F := F)) adm (pdats m ρ) launch12.win launch12.arr_whole c
      ((pdats m ρ 12 c).share_full fun _ => rfl) (V25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m ρ 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m ρ) ((pdats m ρ 12 c).share_full fun _ => rfl)
      (V25 m ρ c) (V26 m ρ c) ((pdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .region (reg9 m ρ),
    .host (hseg hostOps10 hostOps10_sub hostOps10_fresh (W20 m ρ)),
    .region (reg10 m ρ),
    .host (hseg hostOps11 hostOps11_sub hostOps11_fresh (W22 m ρ)),
    .region (reg11 m ρ),
    .host (hseg hostOps12 hostOps12_sub hostOps12_fresh (W24 m ρ)),
    .region (reg12 m ρ),
    .host (hseg hostOps13 hostOps13_sub hostOps13_fresh (W26 m ρ)) ]

set_option backward.isDefEq.respectTransparency.types false in

theorem run_all : θ_run defs (onTc (τ := τ) (main (F := F))) ⟨m, fun _ => 0, ρ⟩
    (fun r => ∀ c : Dev nD, ∀ b ∈ Pipeline.ucRefs τ sig, r.2.mem (((c : Thread nD τ)).1, b) = W27 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W27 m ρ c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W27 m ρ c b)
    (hfin := fun c s' => by
      iintro ⟨⟨Hh, -⟩, HSI⟩
      unfold StableHlo.held
      imodintro
      iapply (pointsTo_read_all (Pipeline.ucRefs τ sig) (fun b => (((c : Thread nD τ)).1, b)) (W27 m ρ c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run (defs (F := F)) (onTc (τ := τ) (main (F := F))) ⟨m, fun _ => 0, ρ⟩).mono (fun r h c =>
    ⟨(h c _ (mem_uc main_arg0 (by decide))).trans (W27_main_arg0 m ρ c),
     (h c _ (mem_uc main_arg1 (by decide))).trans (W27_main_arg1 m ρ c),
     (h c _ (mem_uc main_arg2 (by decide))).trans (W27_main_arg2 m ρ c),
     (h c _ (mem_uc main_arg3 (by decide))).trans (W27_main_arg3 m ρ c),
     (h c _ (mem_uc main_arg4 (by decide))).trans (W27_main_arg4 m ρ c),
     (h c _ (mem_uc main_arg5 (by decide))).trans (W27_main_arg5 m ρ c),
     (h c _ (mem_uc main_arg6 (by decide))).trans (W27_main_arg6 m ρ c),
     (h c _ (mem_uc main_arg7 (by decide))).trans (W27_main_arg7 m ρ c),
     (h c _ (mem_uc main_arg8 (by decide))).trans (W27_main_arg8 m ρ c),
     (h c _ (mem_uc main_arg9 (by decide))).trans (W27_main_arg9 m ρ c),
     (h c _ (mem_uc main_arg10 (by decide))).trans (W27_main_arg10 m ρ c),
     (h c _ (mem_uc main_arg11 (by decide))).trans (W27_main_arg11 m ρ c),
     (h c _ (mem_uc main_arg12 (by decide))).trans (W27_main_arg12 m ρ c),
     (h c _ (mem_uc main_arg13 (by decide))).trans (W27_main_arg13 m ρ c),
     (h c _ (mem_uc main_arg14 (by decide))).trans (W27_main_arg14 m ρ c),
     (h c _ (mem_uc main_arg15 (by decide))).trans (W27_main_arg15 m ρ c),
     (h c _ (mem_uc main_arg16 (by decide))).trans (W27_main_arg16 m ρ c),
     (h c _ (mem_uc main_arg17 (by decide))).trans (W27_main_arg17 m ρ c),
     (h c _ (mem_uc main_arg18 (by decide))).trans (W27_main_arg18 m ρ c),
     (h c _ (mem_uc main_arg19 (by decide))).trans (W27_main_arg19 m ρ c),
     (h c _ (mem_uc main_arg20 (by decide))).trans (W27_main_arg20 m ρ c),
     (h c _ (mem_uc main_arg21 (by decide))).trans (W27_main_arg21 m ρ c),
     (h c _ (mem_uc main_arg22 (by decide))).trans (W27_main_arg22 m ρ c),
     (h c _ (mem_uc main_arg23 (by decide))).trans (W27_main_arg23 m ρ c),
     (h c _ (mem_uc main_arg24 (by decide))).trans (W27_main_arg24 m ρ c),
     (h c _ (mem_uc main_arg25 (by decide))).trans (W27_main_arg25 m ρ c),
     (h c _ (mem_uc main_arg26 (by decide))).trans (W27_main_arg26 m ρ c),
     (h c _ (mem_uc main_arg27 (by decide))).trans (W27_main_arg27 m ρ c),
     (h c _ (mem_uc main_arg28 (by decide))).trans (W27_main_arg28 m ρ c),
     (h c _ (mem_uc main_arg29 (by decide))).trans (W27_main_arg29 m ρ c)⟩) (run_all m ρ)

end Cert.KernelIdeal.Hand

end
-- ==== Proof.Ref.ReadP.lean ====
import proofs.«138431_j79370995631014_1_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

def val_main_v0 (x4 : (⟨S2x800000, .i32⟩ : BufTy).Contents (Elt F)) : (⟨S1x800000, .i32⟩ : BufTy).Contents (Elt F) :=
  extractStridedSlice S1x800000 ![0, 0] (x4) slices_S2x800000_S1x800000_0_0

def val_main_v1 (x4 : (⟨S2x800000, .i32⟩ : BufTy).Contents (Elt F)) : (⟨S800000, .i32⟩ : BufTy).Contents (Elt F) :=
  shapeCast _ (val_main_v0 (F := F) x4) shapeCasts_S1x800000_S800000

def val_main_v2 (x4 : (⟨S2x800000, .i32⟩ : BufTy).Contents (Elt F)) : (⟨S1x800000, .i32⟩ : BufTy).Contents (Elt F) :=
  extractStridedSlice S1x800000 ![1, 0] (x4) slices_S2x800000_S1x800000_1_0

def val_main_v3 (x4 : (⟨S2x800000, .i32⟩ : BufTy).Contents (Elt F)) : (⟨S800000, .i32⟩ : BufTy).Contents (Elt F) :=
  shapeCast _ (val_main_v2 (F := F) x4) shapeCasts_S1x800000_S800000

def val_main_v4 (x4 : (⟨S2x800000, .i32⟩ : BufTy).Contents (Elt F)) : (⟨S800000, .i1⟩ : BufTy).Contents (Elt F) :=
  cmpi .ne (val_main_v1 (F := F) x4) (val_main_v3 (F := F) x4)

def val_main_v5 (x4 : (⟨S2x800000, .i32⟩ : BufTy).Contents (Elt F)) : (⟨S800000, .f32⟩ : BufTy).Contents (Elt F) :=
  uitofp .f32 (val_main_v4 (F := F) x4)

def val_main_v6 (x4 : (⟨S2x800000, .i32⟩ : BufTy).Contents (Elt F)) : (⟨S800000x1, .f32⟩ : BufTy).Contents (Elt F) :=
  broadcastInDim S800000x1 ![0] bcast_S800000_S800000x1_0 (val_main_v5 (F := F) x4)

def val_main_c : (⟨S_, .i32⟩ : BufTy).Contents (Elt F) :=
  constantI S_ 32 1#32

def val_main_v7 : (⟨S50000, .i32⟩ : BufTy).Contents (Elt F) :=
  broadcastInDim S50000 ![] bcast_S_S50000 (val_main_c (F := F))

def val_main_v8 (x3 : (⟨S50000, .i32⟩ : BufTy).Contents (Elt F)) : (⟨S50000, .i1⟩ : BufTy).Contents (Elt F) :=
  cmpi .eq (x3) (val_main_v7 (F := F))

def val_main_v9 (x3 : (⟨S50000, .i32⟩ : BufTy).Contents (Elt F)) : (⟨S50000x1, .i1⟩ : BufTy).Contents (Elt F) :=
  broadcastInDim S50000x1 ![0] bcast_S50000_S50000x1_0 (val_main_v8 (F := F) x3)

def val_main_v10 (x0 : (⟨S50000x1, .f32⟩ : BufTy).Contents (Elt F)) (x22 : (⟨S1x64, .f32⟩ : BufTy).Contents (Elt F)) : (⟨S50000x64, .f32⟩ : BufTy).Contents (Elt F) :=
  Host.dotGeneral dot_S50000x1_S1x64_S50000x64_1_0_0_1_n_n none (x0) (x22)

theorem lhs_main_v10_0 (i : S50000x64.Idx) (q : dot_S50000x1_S1x64_S50000x64_1_0_0_1_n_n.contr.Idx) :
    (dot_S50000x1_S1x64_S50000x64_1_0_0_1_n_n.lhsIdx i q 0).val = (i 0).val := by
  unfold DotDims.lhsIdx
  rw [dif_neg (show ¬(0 : Fin S50000x1.rank) ∈ dot_S50000x1_S1x64_S50000x64_1_0_0_1_n_n.lhsBatch by decide), dif_pos (show (0 : Fin S50000x1.rank) ∈ dot_S50000x1_S1x64_S50000x64_1_0_0_1_n_n.lhsNonContracting by decide)]
  rfl

theorem lhs_main_v10_1 (i : S50000x64.Idx) (q : dot_S50000x1_S1x64_S50000x64_1_0_0_1_n_n.contr.Idx) :
    (dot_S50000x1_S1x64_S50000x64_1_0_0_1_n_n.lhsIdx i q 1).val = (q ⟨0, by decide⟩).val :=
  dot_S50000x1_S1x64_S50000x64_1_0_0_1_n_n.lhsIdx_val_of_single rfl i q

theorem rhs_main_v10_0 (i : S50000x64.Idx) (q : dot_S50000x1_S1x64_S50000x64_1_0_0_1_n_n.contr.Idx) :
    (dot_S50000x1_S1x64_S50000x64_1_0_0_1_n_n.rhsIdx i q 0).val = (q ⟨0, by decide⟩).val :=
  dot_S50000x1_S1x64_S50000x64_1_0_0_1_n_n.rhsIdx_val_of_single rfl i q

theorem rhs_main_v10_1 (i : S50000x64.Idx) (q : dot_S50000x1_S1x64_S50000x64_1_0_0_1_n_n.contr.Idx) :
    (dot_S50000x1_S1x64_S50000x64_1_0_0_1_n_n.rhsIdx i q 1).val = (i 1).val := by
  unfold DotDims.rhsIdx
  rw [dif_neg (show ¬(1 : Fin S1x64.rank) ∈ dot_S50000x1_S1x64_S50000x64_1_0_0_1_n_n.rhsBatch by decide), dif_pos (show (1 : Fin S1x64.rank) ∈ dot_S50000x1_S1x64_S50000x64_1_0_0_1_n_n.rhsNonContracting by decide)]
  rfl

abbrev lidx_main_v10 (i : S50000x64.Idx) (k : Fin 1) : S50000x1.Idx := fun a => match a with
  | ⟨0, _⟩ => ⟨(i 0).val, (i 0).isLt⟩
  | ⟨1, _⟩ => ⟨k.val, k.isLt⟩

abbrev ridx_main_v10 (i : S50000x64.Idx) (k : Fin 1) : S1x64.Idx := fun a => match a with
  | ⟨0, _⟩ => ⟨k.val, k.isLt⟩
  | ⟨1, _⟩ => ⟨(i 1).val, (i 1).isLt⟩

theorem val_main_v10_apply (x0 : (⟨S50000x1, .f32⟩ : BufTy).Contents (Elt Ideal)) (x22 : (⟨S1x64, .f32⟩ : BufTy).Contents (Elt Ideal)) (i : S50000x64.Idx) :
    val_main_v10 (F := Ideal) x0 x22 i = ∑ k : Fin 1, x0 (lidx_main_v10 i k) * x22 (ridx_main_v10 i k) := by
  unfold val_main_v10
  simp only [Host.dotGeneral]
  rw [Ideal.dotGeneral_apply, ← Equiv.sum_comp (ValueIdx.contrEquiv1 dot_S50000x1_S1x64_S50000x64_1_0_0_1_n_n 1 rfl rfl).symm]
  refine Finset.sum_congr rfl fun k _ => ?_
  have hk := ValueIdx.contrEquiv1_symm_val dot_S50000x1_S1x64_S50000x64_1_0_0_1_n_n 1 rfl rfl k
  have el : dot_S50000x1_S1x64_S50000x64_1_0_0_1_n_n.lhsIdx i ((ValueIdx.contrEquiv1 dot_S50000x1_S1x64_S50000x64_1_0_0_1_n_n 1 rfl rfl).symm k) = lidx_main_v10 i k := funext fun a => Fin.ext (by
    match a with
    | ⟨0, _⟩ => exact lhs_main_v10_0 _ _
    | ⟨1, _⟩ => exact (lhs_main_v10_1 _ _).trans hk)
  have er : dot_S50000x1_S1x64_S50000x64_1_0_0_1_n_n.rhsIdx i ((ValueIdx.contrEquiv1 dot_S50000x1_S1x64_S50000x64_1_0_0_1_n_n 1 rfl rfl).symm k) = ridx_main_v10 i k := funext fun a => Fin.ext (by
    match a with
    | ⟨0, _⟩ => exact (rhs_main_v10_0 _ _).trans hk
    | ⟨1, _⟩ => exact rhs_main_v10_1 _ _)
  rw [el, er]

def val_main_v11 (x23 : (⟨S64, .f32⟩ : BufTy).Contents (Elt F)) : (⟨S1x64, .f32⟩ : BufTy).Contents (Elt F) :=
  broadcastInDim S1x64 ![1] bcast_S64_S1x64_1 (x23)

abbrev idx_main_v11 (i : S1x64.Idx) : S64.Idx := fun a => match a with
  | ⟨0, _⟩ => ⟨(i 1).val, (i 1).isLt⟩

theorem val_main_v11_apply (x23 : (⟨S64, .f32⟩ : BufTy).Contents (Elt F)) (i : S1x64.Idx) :
    val_main_v11 (F := F) x23 i = x23 (idx_main_v11 i) := by
  unfold val_main_v11
  exact broadcastInDim_apply _ bcast_S64_S1x64_1 x23 i (idx_main_v11 i) (fun a => match a with
    | ⟨0, _⟩ => by show (i 1).val = if (64 : Nat) = 1 then 0 else (i 1).val; rw [if_neg (by decide)])

def val_main_v12 (x23 : (⟨S64, .f32⟩ : BufTy).Contents (Elt F)) : (⟨S50000x64, .f32⟩ : BufTy).Contents (Elt F) :=
  broadcastInDim S50000x64 ![0, 1] bcast_S1x64_S50000x64_0_1 (val_main_v11 (F := F) x23)

abbrev idx_main_v12 (i : S50000x64.Idx) : S1x64.Idx := fun a => match a with
  | ⟨0, _⟩ => ⟨0, Nat.one_pos⟩
  | ⟨1, _⟩ => ⟨(i 1).val, (i 1).isLt⟩

theorem val_main_v12_apply (x23 : (⟨S64, .f32⟩ : BufTy).Contents (Elt F)) (i : S50000x64.Idx) :
    val_main_v12 (F := F) x23 i = val_main_v11 (F := F) x23 (idx_main_v12 i) := by
  unfold val_main_v12
  generalize val_main_v11 (F := F) x23 = y
  exact broadcastInDim_apply _ bcast_S1x64_S50000x64_0_1 y i (idx_main_v12 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_main_v13 (x0 : (⟨S50000x1, .f32⟩ : BufTy).Contents (Elt F)) (x22 : (⟨S1x64, .f32⟩ : BufTy).Contents (Elt F)) (x23 : (⟨S64, .f32⟩ : BufTy).Contents (Elt F)) : (⟨S50000x64, .f32⟩ : BufTy).Contents (Elt F) :=
  addf (val_main_v10 (F := F) x0 x22) (val_main_v12 (F := F) x23)

def val_main_cst : (⟨S_, .f32⟩ : BufTy).Contents (Elt F) :=
  constant S_ .f32 0x00000000#32

theorem val_main_cst_apply (i : S_.Idx) :
    val_main_cst (F := F) i = FloatOps.ofBits .f32 0x00000000#32 := rfl

def val_main_v14 : (⟨S50000x64, .f32⟩ : BufTy).Contents (Elt F) :=
  broadcastInDim S50000x64 ![] bcast_S_S50000x64 (val_main_cst (F := F))

abbrev idx_main_v14 (i : S50000x64.Idx) : S_.Idx := fun a => a.elim0

theorem val_main_v14_apply (i : S50000x64.Idx) :
    val_main_v14 (F := F) i = val_main_cst (F := F) (idx_main_v14 i) := by
  unfold val_main_v14
  generalize val_main_cst (F := F) = y
  exact broadcastInDim_apply _ bcast_S_S50000x64 y i (idx_main_v14 i) (fun a => a.elim0)

def val_main_v15 (x0 : (⟨S50000x1, .f32⟩ : BufTy).Contents (Elt F)) (x22 : (⟨S1x64, .f32⟩ : BufTy).Contents (Elt F)) (x23 : (⟨S64, .f32⟩ : BufTy).Contents (Elt F)) : (⟨S50000x64, .f32⟩ : BufTy).Contents (Elt F) :=
  maximumf (val_main_v13 (F := F) x0 x22 x23) (val_main_v14 (F := F))

def val_main_v16 (x0 : (⟨S50000x1, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) : (⟨S50000x64, .f32⟩ : BufTy).Contents (Elt F) :=
  Host.dotGeneral dot_S50000x64_S64x64_S50000x64_1_0_0_1_n_n none (val_main_v15 (F := F) x0 x22 x23) (x24)

theorem lhs_main_v16_0 (i : S50000x64.Idx) (q : dot_S50000x64_S64x64_S50000x64_1_0_0_1_n_n.contr.Idx) :
    (dot_S50000x64_S64x64_S50000x64_1_0_0_1_n_n.lhsIdx i q 0).val = (i 0).val := by
  unfold DotDims.lhsIdx
  rw [dif_neg (show ¬(0 : Fin S50000x64.rank) ∈ dot_S50000x64_S64x64_S50000x64_1_0_0_1_n_n.lhsBatch by decide), dif_pos (show (0 : Fin S50000x64.rank) ∈ dot_S50000x64_S64x64_S50000x64_1_0_0_1_n_n.lhsNonContracting by decide)]
  rfl

theorem lhs_main_v16_1 (i : S50000x64.Idx) (q : dot_S50000x64_S64x64_S50000x64_1_0_0_1_n_n.contr.Idx) :
    (dot_S50000x64_S64x64_S50000x64_1_0_0_1_n_n.lhsIdx i q 1).val = (q ⟨0, by decide⟩).val :=
  dot_S50000x64_S64x64_S50000x64_1_0_0_1_n_n.lhsIdx_val_of_single rfl i q

theorem rhs_main_v16_0 (i : S50000x64.Idx) (q : dot_S50000x64_S64x64_S50000x64_1_0_0_1_n_n.contr.Idx) :
    (dot_S50000x64_S64x64_S50000x64_1_0_0_1_n_n.rhsIdx i q 0).val = (q ⟨0, by decide⟩).val :=
  dot_S50000x64_S64x64_S50000x64_1_0_0_1_n_n.rhsIdx_val_of_single rfl i q

theorem rhs_main_v16_1 (i : S50000x64.Idx) (q : dot_S50000x64_S64x64_S50000x64_1_0_0_1_n_n.contr.Idx) :
    (dot_S50000x64_S64x64_S50000x64_1_0_0_1_n_n.rhsIdx i q 1).val = (i 1).val := by
  unfold DotDims.rhsIdx
  rw [dif_neg (show ¬(1 : Fin S64x64.rank) ∈ dot_S50000x64_S64x64_S50000x64_1_0_0_1_n_n.rhsBatch by decide), dif_pos (show (1 : Fin S64x64.rank) ∈ dot_S50000x64_S64x64_S50000x64_1_0_0_1_n_n.rhsNonContracting by decide)]
  rfl

def val_main_v17 (x25 : (⟨S64, .f32⟩ : BufTy).Contents (Elt F)) : (⟨S1x64, .f32⟩ : BufTy).Contents (Elt F) :=
  broadcastInDim S1x64 ![1] bcast_S64_S1x64_1 (x25)

def val_main_v18 (x25 : (⟨S64, .f32⟩ : BufTy).Contents (Elt F)) : (⟨S50000x64, .f32⟩ : BufTy).Contents (Elt F) :=
  broadcastInDim S50000x64 ![0, 1] bcast_S1x64_S50000x64_0_1 (val_main_v17 (F := F) x25)

def val_main_v19 (x0 : (⟨S50000x1, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  addf (val_main_v16 (F := F) x0 x22 x23 x24) (val_main_v18 (F := F) x25)

def val_main_c_0 : (⟨S_, .i32⟩ : BufTy).Contents (Elt F) :=
  constantI S_ 32 0#32

def val_main_v20 : (⟨S800000, .i32⟩ : BufTy).Contents (Elt F) :=
  broadcastInDim S800000 ![] bcast_S_S800000 (val_main_c_0 (F := F))

def val_main_v21 (x4 : (⟨S2x800000, .i32⟩ : BufTy).Contents (Elt F)) : (⟨S800000, .i1⟩ : BufTy).Contents (Elt F) :=
  cmpi .slt (val_main_v3 (F := F) x4) (val_main_v20 (F := F))

def val_main_c_1 : (⟨S_, .i32⟩ : BufTy).Contents (Elt F) :=
  constantI S_ 32 50000#32

def val_main_v22 : (⟨S800000, .i32⟩ : BufTy).Contents (Elt F) :=
  broadcastInDim S800000 ![] bcast_S_S800000 (val_main_c_1 (F := F))

def val_main_v23 (x4 : (⟨S2x800000, .i32⟩ : BufTy).Contents (Elt F)) : (⟨S800000, .i32⟩ : BufTy).Contents (Elt F) :=
  addi (val_main_v3 (F := F) x4) (val_main_v22 (F := F))

def val_main_v24 (x4 : (⟨S2x800000, .i32⟩ : BufTy).Contents (Elt F)) : (⟨S800000, .i32⟩ : BufTy).Contents (Elt F) :=
  select (val_main_v21 (F := F) x4) (val_main_v23 (F := F) x4) (val_main_v3 (F := F) x4)

def val_main_v25 (x4 : (⟨S2x800000, .i32⟩ : BufTy).Contents (Elt F)) : (⟨S800000x1, .i32⟩ : BufTy).Contents (Elt F) :=
  broadcastInDim S800000x1 ![0] bcast_S800000_S800000x1_0 (val_main_v24 (F := F) x4)

def val_main_v26 (x0 : (⟨S50000x1, .f32⟩ : BufTy).Contents (Elt F)) (x4 : (⟨S2x800000, .i32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S800000x64, .f32⟩ : BufTy).Contents (Elt F) :=
  Host.gather gather_S50000x64_S800000x1_S800000x64_1_0_n_n_0_1_164 (val_main_v19 (F := F) x0 x22 x23 x24 x25) (val_main_v25 (F := F) x4)

def val_main_c_2 : (⟨S_, .i32⟩ : BufTy).Contents (Elt F) :=
  constantI S_ 32 0#32

def val_main_v27 : (⟨S800000, .i32⟩ : BufTy).Contents (Elt F) :=
  broadcastInDim S800000 ![] bcast_S_S800000 (val_main_c_2 (F := F))

def val_main_v28 (x4 : (⟨S2x800000, .i32⟩ : BufTy).Contents (Elt F)) : (⟨S800000, .i1⟩ : BufTy).Contents (Elt F) :=
  cmpi .slt (val_main_v1 (F := F) x4) (val_main_v27 (F := F))

def val_main_c_3 : (⟨S_, .i32⟩ : BufTy).Contents (Elt F) :=
  constantI S_ 32 50000#32

def val_main_v29 : (⟨S800000, .i32⟩ : BufTy).Contents (Elt F) :=
  broadcastInDim S800000 ![] bcast_S_S800000 (val_main_c_3 (F := F))

def val_main_v30 (x4 : (⟨S2x800000, .i32⟩ : BufTy).Contents (Elt F)) : (⟨S800000, .i32⟩ : BufTy).Contents (Elt F) :=
  addi (val_main_v1 (F := F) x4) (val_main_v29 (F := F))

def val_main_v31 (x4 : (⟨S2x800000, .i32⟩ : BufTy).Contents (Elt F)) : (⟨S800000, .i32⟩ : BufTy).Contents (Elt F) :=
  select (val_main_v28 (F := F) x4) (val_main_v30 (F := F) x4) (val_main_v1 (F := F) x4)

def val_main_v32 (x4 : (⟨S2x800000, .i32⟩ : BufTy).Contents (Elt F)) : (⟨S800000x1, .i32⟩ : BufTy).Contents (Elt F) :=
  broadcastInDim S800000x1 ![0] bcast_S800000_S800000x1_0 (val_main_v31 (F := F) x4)

def val_main_v33 (x0 : (⟨S50000x1, .f32⟩ : BufTy).Contents (Elt F)) (x4 : (⟨S2x800000, .i32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S800000x64, .f32⟩ : BufTy).Contents (Elt F) :=
  Host.gather gather_S50000x64_S800000x1_S800000x64_1_0_n_n_0_1_164 (val_main_v19 (F := F) x0 x22 x23 x24 x25) (val_main_v32 (F := F) x4)

def val_main_v34 (x0 : (⟨S50000x1, .f32⟩ : BufTy).Contents (Elt F)) (x4 : (⟨S2x800000, .i32⟩ : BufTy).Contents (Elt F)) (x5 : (⟨S800000x3, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S800000x131, .f32⟩ : BufTy).Contents (Elt F) :=
  concatenate S800000x131 1 [⟨S800000x64, (val_main_v26 (F := F) x0 x4 x22 x23 x24 x25)⟩, ⟨S800000x64, (val_main_v33 (F := F) x0 x4 x22 x23 x24 x25)⟩, ⟨S800000x3, (x5)⟩] concatenates_S800000x64_S800000x64_S800000x3_S800000x131_d1

def val_main_v35 (x0 : (⟨S50000x1, .f32⟩ : BufTy).Contents (Elt F)) (x4 : (⟨S2x800000, .i32⟩ : BufTy).Contents (Elt F)) (x5 : (⟨S800000x3, .f32⟩ : BufTy).Contents (Elt F)) (x8 : (⟨S131x64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S800000x64, .f32⟩ : BufTy).Contents (Elt F) :=
  Host.dotGeneral dot_S800000x131_S131x64_S800000x64_1_0_0_1_n_n none (val_main_v34 (F := F) x0 x4 x5 x22 x23 x24 x25) (x8)

theorem lhs_main_v35_0 (i : S800000x64.Idx) (q : dot_S800000x131_S131x64_S800000x64_1_0_0_1_n_n.contr.Idx) :
    (dot_S800000x131_S131x64_S800000x64_1_0_0_1_n_n.lhsIdx i q 0).val = (i 0).val := by
  unfold DotDims.lhsIdx
  rw [dif_neg (show ¬(0 : Fin S800000x131.rank) ∈ dot_S800000x131_S131x64_S800000x64_1_0_0_1_n_n.lhsBatch by decide), dif_pos (show (0 : Fin S800000x131.rank) ∈ dot_S800000x131_S131x64_S800000x64_1_0_0_1_n_n.lhsNonContracting by decide)]
  rfl

theorem lhs_main_v35_1 (i : S800000x64.Idx) (q : dot_S800000x131_S131x64_S800000x64_1_0_0_1_n_n.contr.Idx) :
    (dot_S800000x131_S131x64_S800000x64_1_0_0_1_n_n.lhsIdx i q 1).val = (q ⟨0, by decide⟩).val :=
  dot_S800000x131_S131x64_S800000x64_1_0_0_1_n_n.lhsIdx_val_of_single rfl i q

theorem rhs_main_v35_0 (i : S800000x64.Idx) (q : dot_S800000x131_S131x64_S800000x64_1_0_0_1_n_n.contr.Idx) :
    (dot_S800000x131_S131x64_S800000x64_1_0_0_1_n_n.rhsIdx i q 0).val = (q ⟨0, by decide⟩).val :=
  dot_S800000x131_S131x64_S800000x64_1_0_0_1_n_n.rhsIdx_val_of_single rfl i q

theorem rhs_main_v35_1 (i : S800000x64.Idx) (q : dot_S800000x131_S131x64_S800000x64_1_0_0_1_n_n.contr.Idx) :
    (dot_S800000x131_S131x64_S800000x64_1_0_0_1_n_n.rhsIdx i q 1).val = (i 1).val := by
  unfold DotDims.rhsIdx
  rw [dif_neg (show ¬(1 : Fin S131x64.rank) ∈ dot_S800000x131_S131x64_S800000x64_1_0_0_1_n_n.rhsBatch by decide), dif_pos (show (1 : Fin S131x64.rank) ∈ dot_S800000x131_S131x64_S800000x64_1_0_0_1_n_n.rhsNonContracting by decide)]
  rfl

def val_main_v36 (x9 : (⟨S64, .f32⟩ : BufTy).Contents (Elt F)) : (⟨S1x64, .f32⟩ : BufTy).Contents (Elt F) :=
  broadcastInDim S1x64 ![1] bcast_S64_S1x64_1 (x9)

def val_main_v37 (x9 : (⟨S64, .f32⟩ : BufTy).Contents (Elt F)) : (⟨S800000x64, .f32⟩ : BufTy).Contents (Elt F) :=
  broadcastInDim S800000x64 ![0, 1] bcast_S1x64_S800000x64_0_1 (val_main_v36 (F := F) x9)

def val_main_v38 (x0 : (⟨S50000x1, .f32⟩ : BufTy).Contents (Elt F)) (x4 : (⟨S2x800000, .i32⟩ : BufTy).Contents (Elt F)) (x5 : (⟨S800000x3, .f32⟩ : BufTy).Contents (Elt F)) (x8 : (⟨S131x64, .f32⟩ : BufTy).Contents (Elt F)) (x9 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S800000x64, .f32⟩ : BufTy).Contents (Elt F) :=
  addf (val_main_v35 (F := F) x0 x4 x5 x8 x22 x23 x24 x25) (val_main_v37 (F := F) x9)

def val_main_cst_4 : (⟨S_, .f32⟩ : BufTy).Contents (Elt F) :=
  constant S_ .f32 0x00000000#32

def val_main_v39 : (⟨S800000x64, .f32⟩ : BufTy).Contents (Elt F) :=
  broadcastInDim S800000x64 ![] bcast_S_S800000x64 (val_main_cst_4 (F := F))

def val_main_v40 (x0 : (⟨S50000x1, .f32⟩ : BufTy).Contents (Elt F)) (x4 : (⟨S2x800000, .i32⟩ : BufTy).Contents (Elt F)) (x5 : (⟨S800000x3, .f32⟩ : BufTy).Contents (Elt F)) (x8 : (⟨S131x64, .f32⟩ : BufTy).Contents (Elt F)) (x9 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S800000x64, .f32⟩ : BufTy).Contents (Elt F) :=
  maximumf (val_main_v38 (F := F) x0 x4 x5 x8 x9 x22 x23 x24 x25) (val_main_v39 (F := F))

def val_main_v41 (x0 : (⟨S50000x1, .f32⟩ : BufTy).Contents (Elt F)) (x4 : (⟨S2x800000, .i32⟩ : BufTy).Contents (Elt F)) (x5 : (⟨S800000x3, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S800000x64, .f32⟩ : BufTy).Contents (Elt F) :=
  Host.dotGeneral dot_S800000x64_S64x64_S800000x64_1_0_0_1_n_n none (val_main_v40 (F := F) x0 x4 x5 x8 x9 x22 x23 x24 x25) (x10)

theorem lhs_main_v41_0 (i : S800000x64.Idx) (q : dot_S800000x64_S64x64_S800000x64_1_0_0_1_n_n.contr.Idx) :
    (dot_S800000x64_S64x64_S800000x64_1_0_0_1_n_n.lhsIdx i q 0).val = (i 0).val := by
  unfold DotDims.lhsIdx
  rw [dif_neg (show ¬(0 : Fin S800000x64.rank) ∈ dot_S800000x64_S64x64_S800000x64_1_0_0_1_n_n.lhsBatch by decide), dif_pos (show (0 : Fin S800000x64.rank) ∈ dot_S800000x64_S64x64_S800000x64_1_0_0_1_n_n.lhsNonContracting by decide)]
  rfl

theorem lhs_main_v41_1 (i : S800000x64.Idx) (q : dot_S800000x64_S64x64_S800000x64_1_0_0_1_n_n.contr.Idx) :
    (dot_S800000x64_S64x64_S800000x64_1_0_0_1_n_n.lhsIdx i q 1).val = (q ⟨0, by decide⟩).val :=
  dot_S800000x64_S64x64_S800000x64_1_0_0_1_n_n.lhsIdx_val_of_single rfl i q

theorem rhs_main_v41_0 (i : S800000x64.Idx) (q : dot_S800000x64_S64x64_S800000x64_1_0_0_1_n_n.contr.Idx) :
    (dot_S800000x64_S64x64_S800000x64_1_0_0_1_n_n.rhsIdx i q 0).val = (q ⟨0, by decide⟩).val :=
  dot_S800000x64_S64x64_S800000x64_1_0_0_1_n_n.rhsIdx_val_of_single rfl i q

theorem rhs_main_v41_1 (i : S800000x64.Idx) (q : dot_S800000x64_S64x64_S800000x64_1_0_0_1_n_n.contr.Idx) :
    (dot_S800000x64_S64x64_S800000x64_1_0_0_1_n_n.rhsIdx i q 1).val = (i 1).val := by
  unfold DotDims.rhsIdx
  rw [dif_neg (show ¬(1 : Fin S64x64.rank) ∈ dot_S800000x64_S64x64_S800000x64_1_0_0_1_n_n.rhsBatch by decide), dif_pos (show (1 : Fin S64x64.rank) ∈ dot_S800000x64_S64x64_S800000x64_1_0_0_1_n_n.rhsNonContracting by decide)]
  rfl

def val_main_v42 (x11 : (⟨S64, .f32⟩ : BufTy).Contents (Elt F)) : (⟨S1x64, .f32⟩ : BufTy).Contents (Elt F) :=
  broadcastInDim S1x64 ![1] bcast_S64_S1x64_1 (x11)

def val_main_v43 (x11 : (⟨S64, .f32⟩ : BufTy).Contents (Elt F)) : (⟨S800000x64, .f32⟩ : BufTy).Contents (Elt F) :=
  broadcastInDim S800000x64 ![0, 1] bcast_S1x64_S800000x64_0_1 (val_main_v42 (F := F) x11)

def val_main_v44 (x0 : (⟨S50000x1, .f32⟩ : BufTy).Contents (Elt F)) (x4 : (⟨S2x800000, .i32⟩ : BufTy).Contents (Elt F)) (x5 : (⟨S800000x3, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S800000x64, .f32⟩ : BufTy).Contents (Elt F) :=
  addf (val_main_v41 (F := F) x0 x4 x5 x8 x9 x10 x22 x23 x24 x25) (val_main_v43 (F := F) x11)

def val_main_v45 (x4 : (⟨S2x800000, .i32⟩ : BufTy).Contents (Elt F)) : (⟨S800000x64, .f32⟩ : BufTy).Contents (Elt F) :=
  broadcastInDim S800000x64 ![0, 1] bcast_S800000x1_S800000x64_0_1 (val_main_v6 (F := F) x4)

def val_main_v46 (x0 : (⟨S50000x1, .f32⟩ : BufTy).Contents (Elt F)) (x4 : (⟨S2x800000, .i32⟩ : BufTy).Contents (Elt F)) (x5 : (⟨S800000x3, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S800000x64, .f32⟩ : BufTy).Contents (Elt F) :=
  mulf (val_main_v44 (F := F) x0 x4 x5 x8 x9 x10 x11 x22 x23 x24 x25) (val_main_v45 (F := F) x4)

def val_main_cst_5 : (⟨S_, .f32⟩ : BufTy).Contents (Elt F) :=
  constant S_ .f32 0x00000000#32

def val_main_v47 : (⟨S50000x64, .f32⟩ : BufTy).Contents (Elt F) :=
  broadcastInDim S50000x64 ![] bcast_S_S50000x64 (val_main_cst_5 (F := F))

def val_main_v48 (x4 : (⟨S2x800000, .i32⟩ : BufTy).Contents (Elt F)) : (⟨S800000x1, .i32⟩ : BufTy).Contents (Elt F) :=
  broadcastInDim S800000x1 ![0] bcast_S800000_S800000x1_0 (val_main_v3 (F := F) x4)

def val_main_v49 (x0 : (⟨S50000x1, .f32⟩ : BufTy).Contents (Elt F)) (x4 : (⟨S2x800000, .i32⟩ : BufTy).Contents (Elt F)) (x5 : (⟨S800000x3, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  Host.scatterAdd scatter_S50000x64_S800000x1_S800000x64_1_0_0_1 (val_main_v47 (F := F)) (val_main_v48 (F := F) x4) (val_main_v46 (F := F) x0 x4 x5 x8 x9 x10 x11 x22 x23 x24 x25)

def val_main_c_6 : (⟨S_, .i32⟩ : BufTy).Contents (Elt F) :=
  constantI S_ 32 0#32

def val_main_v50 : (⟨S800000, .i32⟩ : BufTy).Contents (Elt F) :=
  broadcastInDim S800000 ![] bcast_S_S800000 (val_main_c_6 (F := F))

def val_main_v51 (x4 : (⟨S2x800000, .i32⟩ : BufTy).Contents (Elt F)) : (⟨S800000, .i1⟩ : BufTy).Contents (Elt F) :=
  cmpi .slt (val_main_v1 (F := F) x4) (val_main_v50 (F := F))

def val_main_c_7 : (⟨S_, .i32⟩ : BufTy).Contents (Elt F) :=
  constantI S_ 32 50000#32

def val_main_v52 : (⟨S800000, .i32⟩ : BufTy).Contents (Elt F) :=
  broadcastInDim S800000 ![] bcast_S_S800000 (val_main_c_7 (F := F))

def val_main_v53 (x4 : (⟨S2x800000, .i32⟩ : BufTy).Contents (Elt F)) : (⟨S800000, .i32⟩ : BufTy).Contents (Elt F) :=
  addi (val_main_v1 (F := F) x4) (val_main_v52 (F := F))

def val_main_v54 (x4 : (⟨S2x800000, .i32⟩ : BufTy).Contents (Elt F)) : (⟨S800000, .i32⟩ : BufTy).Contents (Elt F) :=
  select (val_main_v51 (F := F) x4) (val_main_v53 (F := F) x4) (val_main_v1 (F := F) x4)

def val_main_v55 (x4 : (⟨S2x800000, .i32⟩ : BufTy).Contents (Elt F)) : (⟨S800000x1, .i32⟩ : BufTy).Contents (Elt F) :=
  broadcastInDim S800000x1 ![0] bcast_S800000_S800000x1_0 (val_main_v54 (F := F) x4)

def val_main_v56 (x0 : (⟨S50000x1, .f32⟩ : BufTy).Contents (Elt F)) (x4 : (⟨S2x800000, .i32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S800000x64, .f32⟩ : BufTy).Contents (Elt F) :=
  Host.gather gather_S50000x64_S800000x1_S800000x64_1_0_n_n_0_1_164 (val_main_v19 (F := F) x0 x22 x23 x24 x25) (val_main_v55 (F := F) x4)

def val_main_c_8 : (⟨S_, .i32⟩ : BufTy).Contents (Elt F) :=
  constantI S_ 32 0#32

def val_main_v57 : (⟨S800000, .i32⟩ : BufTy).Contents (Elt F) :=
  broadcastInDim S800000 ![] bcast_S_S800000 (val_main_c_8 (F := F))

def val_main_v58 (x4 : (⟨S2x800000, .i32⟩ : BufTy).Contents (Elt F)) : (⟨S800000, .i1⟩ : BufTy).Contents (Elt F) :=
  cmpi .slt (val_main_v3 (F := F) x4) (val_main_v57 (F := F))

def val_main_c_9 : (⟨S_, .i32⟩ : BufTy).Contents (Elt F) :=
  constantI S_ 32 50000#32

def val_main_v59 : (⟨S800000, .i32⟩ : BufTy).Contents (Elt F) :=
  broadcastInDim S800000 ![] bcast_S_S800000 (val_main_c_9 (F := F))

def val_main_v60 (x4 : (⟨S2x800000, .i32⟩ : BufTy).Contents (Elt F)) : (⟨S800000, .i32⟩ : BufTy).Contents (Elt F) :=
  addi (val_main_v3 (F := F) x4) (val_main_v59 (F := F))

def val_main_v61 (x4 : (⟨S2x800000, .i32⟩ : BufTy).Contents (Elt F)) : (⟨S800000, .i32⟩ : BufTy).Contents (Elt F) :=
  select (val_main_v58 (F := F) x4) (val_main_v60 (F := F) x4) (val_main_v3 (F := F) x4)

def val_main_v62 (x4 : (⟨S2x800000, .i32⟩ : BufTy).Contents (Elt F)) : (⟨S800000x1, .i32⟩ : BufTy).Contents (Elt F) :=
  broadcastInDim S800000x1 ![0] bcast_S800000_S800000x1_0 (val_main_v61 (F := F) x4)

def val_main_v63 (x0 : (⟨S50000x1, .f32⟩ : BufTy).Contents (Elt F)) (x4 : (⟨S2x800000, .i32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S800000x64, .f32⟩ : BufTy).Contents (Elt F) :=
  Host.gather gather_S50000x64_S800000x1_S800000x64_1_0_n_n_0_1_164 (val_main_v19 (F := F) x0 x22 x23 x24 x25) (val_main_v62 (F := F) x4)

def val_main_v64 (x0 : (⟨S50000x1, .f32⟩ : BufTy).Contents (Elt F)) (x4 : (⟨S2x800000, .i32⟩ : BufTy).Contents (Elt F)) (x5 : (⟨S800000x3, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S800000x131, .f32⟩ : BufTy).Contents (Elt F) :=
  concatenate S800000x131 1 [⟨S800000x64, (val_main_v56 (F := F) x0 x4 x22 x23 x24 x25)⟩, ⟨S800000x64, (val_main_v63 (F := F) x0 x4 x22 x23 x24 x25)⟩, ⟨S800000x3, (x5)⟩] concatenates_S800000x64_S800000x64_S800000x3_S800000x131_d1

def val_main_v65 (x0 : (⟨S50000x1, .f32⟩ : BufTy).Contents (Elt F)) (x4 : (⟨S2x800000, .i32⟩ : BufTy).Contents (Elt F)) (x5 : (⟨S800000x3, .f32⟩ : BufTy).Contents (Elt F)) (x12 : (⟨S131x64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S800000x64, .f32⟩ : BufTy).Contents (Elt F) :=
  Host.dotGeneral dot_S800000x131_S131x64_S800000x64_1_0_0_1_n_n none (val_main_v64 (F := F) x0 x4 x5 x22 x23 x24 x25) (x12)

def val_main_v66 (x13 : (⟨S64, .f32⟩ : BufTy).Contents (Elt F)) : (⟨S1x64, .f32⟩ : BufTy).Contents (Elt F) :=
  broadcastInDim S1x64 ![1] bcast_S64_S1x64_1 (x13)

def val_main_v67 (x13 : (⟨S64, .f32⟩ : BufTy).Contents (Elt F)) : (⟨S800000x64, .f32⟩ : BufTy).Contents (Elt F) :=
  broadcastInDim S800000x64 ![0, 1] bcast_S1x64_S800000x64_0_1 (val_main_v66 (F := F) x13)

def val_main_v68 (x0 : (⟨S50000x1, .f32⟩ : BufTy).Contents (Elt F)) (x4 : (⟨S2x800000, .i32⟩ : BufTy).Contents (Elt F)) (x5 : (⟨S800000x3, .f32⟩ : BufTy).Contents (Elt F)) (x12 : (⟨S131x64, .f32⟩ : BufTy).Contents (Elt F)) (x13 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S800000x64, .f32⟩ : BufTy).Contents (Elt F) :=
  addf (val_main_v65 (F := F) x0 x4 x5 x12 x22 x23 x24 x25) (val_main_v67 (F := F) x13)

def val_main_cst_10 : (⟨S_, .f32⟩ : BufTy).Contents (Elt F) :=
  constant S_ .f32 0x00000000#32

def val_main_v69 : (⟨S800000x64, .f32⟩ : BufTy).Contents (Elt F) :=
  broadcastInDim S800000x64 ![] bcast_S_S800000x64 (val_main_cst_10 (F := F))

def val_main_v70 (x0 : (⟨S50000x1, .f32⟩ : BufTy).Contents (Elt F)) (x4 : (⟨S2x800000, .i32⟩ : BufTy).Contents (Elt F)) (x5 : (⟨S800000x3, .f32⟩ : BufTy).Contents (Elt F)) (x12 : (⟨S131x64, .f32⟩ : BufTy).Contents (Elt F)) (x13 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S800000x64, .f32⟩ : BufTy).Contents (Elt F) :=
  maximumf (val_main_v68 (F := F) x0 x4 x5 x12 x13 x22 x23 x24 x25) (val_main_v69 (F := F))

def val_main_v71 (x0 : (⟨S50000x1, .f32⟩ : BufTy).Contents (Elt F)) (x4 : (⟨S2x800000, .i32⟩ : BufTy).Contents (Elt F)) (x5 : (⟨S800000x3, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S800000x64, .f32⟩ : BufTy).Contents (Elt F) :=
  Host.dotGeneral dot_S800000x64_S64x64_S800000x64_1_0_0_1_n_n none (val_main_v70 (F := F) x0 x4 x5 x12 x13 x22 x23 x24 x25) (x14)

def val_main_v72 (x15 : (⟨S64, .f32⟩ : BufTy).Contents (Elt F)) : (⟨S1x64, .f32⟩ : BufTy).Contents (Elt F) :=
  broadcastInDim S1x64 ![1] bcast_S64_S1x64_1 (x15)

def val_main_v73 (x15 : (⟨S64, .f32⟩ : BufTy).Contents (Elt F)) : (⟨S800000x64, .f32⟩ : BufTy).Contents (Elt F) :=
  broadcastInDim S800000x64 ![0, 1] bcast_S1x64_S800000x64_0_1 (val_main_v72 (F := F) x15)

def val_main_v74 (x0 : (⟨S50000x1, .f32⟩ : BufTy).Contents (Elt F)) (x4 : (⟨S2x800000, .i32⟩ : BufTy).Contents (Elt F)) (x5 : (⟨S800000x3, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S800000x64, .f32⟩ : BufTy).Contents (Elt F) :=
  addf (val_main_v71 (F := F) x0 x4 x5 x12 x13 x14 x22 x23 x24 x25) (val_main_v73 (F := F) x15)

def val_main_v75 (x4 : (⟨S2x800000, .i32⟩ : BufTy).Contents (Elt F)) : (⟨S800000x64, .f32⟩ : BufTy).Contents (Elt F) :=
  broadcastInDim S800000x64 ![0, 1] bcast_S800000x1_S800000x64_0_1 (val_main_v6 (F := F) x4)

def val_main_v76 (x0 : (⟨S50000x1, .f32⟩ : BufTy).Contents (Elt F)) (x4 : (⟨S2x800000, .i32⟩ : BufTy).Contents (Elt F)) (x5 : (⟨S800000x3, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S800000x64, .f32⟩ : BufTy).Contents (Elt F) :=
  mulf (val_main_v74 (F := F) x0 x4 x5 x12 x13 x14 x15 x22 x23 x24 x25) (val_main_v75 (F := F) x4)

def val_main_cst_11 : (⟨S_, .f32⟩ : BufTy).Contents (Elt F) :=
  constant S_ .f32 0x00000000#32

def val_main_v77 : (⟨S50000x64, .f32⟩ : BufTy).Contents (Elt F) :=
  broadcastInDim S50000x64 ![] bcast_S_S50000x64 (val_main_cst_11 (F := F))

def val_main_v78 (x4 : (⟨S2x800000, .i32⟩ : BufTy).Contents (Elt F)) : (⟨S800000x1, .i32⟩ : BufTy).Contents (Elt F) :=
  broadcastInDim S800000x1 ![0] bcast_S800000_S800000x1_0 (val_main_v1 (F := F) x4)

def val_main_v79 (x0 : (⟨S50000x1, .f32⟩ : BufTy).Contents (Elt F)) (x4 : (⟨S2x800000, .i32⟩ : BufTy).Contents (Elt F)) (x5 : (⟨S800000x3, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  Host.scatterAdd scatter_S50000x64_S800000x1_S800000x64_1_0_0_1 (val_main_v77 (F := F)) (val_main_v78 (F := F) x4) (val_main_v76 (F := F) x0 x4 x5 x12 x13 x14 x15 x22 x23 x24 x25)

def val_main_v80 (x0 : (⟨S50000x1, .f32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x194, .f32⟩ : BufTy).Contents (Elt F) :=
  concatenate S50000x194 1 [⟨S50000x64, (val_main_v19 (F := F) x0 x22 x23 x24 x25)⟩, ⟨S50000x64, (val_main_v49 (F := F) x0 x4 x5 x8 x9 x10 x11 x22 x23 x24 x25)⟩, ⟨S50000x64, (val_main_v79 (F := F) x0 x4 x5 x12 x13 x14 x15 x22 x23 x24 x25)⟩, ⟨S50000x2, (x7)⟩] concatenates_S50000x64_S50000x64_S50000x64_S50000x2_S50000x194_d1

def val_main_v81 (x0 : (⟨S50000x1, .f32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  Host.dotGeneral dot_S50000x194_S194x64_S50000x64_1_0_0_1_n_n none (val_main_v80 (F := F) x0 x4 x5 x7 x8 x9 x10 x11 x12 x13 x14 x15 x22 x23 x24 x25) (x16)

theorem lhs_main_v81_0 (i : S50000x64.Idx) (q : dot_S50000x194_S194x64_S50000x64_1_0_0_1_n_n.contr.Idx) :
    (dot_S50000x194_S194x64_S50000x64_1_0_0_1_n_n.lhsIdx i q 0).val = (i 0).val := by
  unfold DotDims.lhsIdx
  rw [dif_neg (show ¬(0 : Fin S50000x194.rank) ∈ dot_S50000x194_S194x64_S50000x64_1_0_0_1_n_n.lhsBatch by decide), dif_pos (show (0 : Fin S50000x194.rank) ∈ dot_S50000x194_S194x64_S50000x64_1_0_0_1_n_n.lhsNonContracting by decide)]
  rfl

theorem lhs_main_v81_1 (i : S50000x64.Idx) (q : dot_S50000x194_S194x64_S50000x64_1_0_0_1_n_n.contr.Idx) :
    (dot_S50000x194_S194x64_S50000x64_1_0_0_1_n_n.lhsIdx i q 1).val = (q ⟨0, by decide⟩).val :=
  dot_S50000x194_S194x64_S50000x64_1_0_0_1_n_n.lhsIdx_val_of_single rfl i q

theorem rhs_main_v81_0 (i : S50000x64.Idx) (q : dot_S50000x194_S194x64_S50000x64_1_0_0_1_n_n.contr.Idx) :
    (dot_S50000x194_S194x64_S50000x64_1_0_0_1_n_n.rhsIdx i q 0).val = (q ⟨0, by decide⟩).val :=
  dot_S50000x194_S194x64_S50000x64_1_0_0_1_n_n.rhsIdx_val_of_single rfl i q

theorem rhs_main_v81_1 (i : S50000x64.Idx) (q : dot_S50000x194_S194x64_S50000x64_1_0_0_1_n_n.contr.Idx) :
    (dot_S50000x194_S194x64_S50000x64_1_0_0_1_n_n.rhsIdx i q 1).val = (i 1).val := by
  unfold DotDims.rhsIdx
  rw [dif_neg (show ¬(1 : Fin S194x64.rank) ∈ dot_S50000x194_S194x64_S50000x64_1_0_0_1_n_n.rhsBatch by decide), dif_pos (show (1 : Fin S194x64.rank) ∈ dot_S50000x194_S194x64_S50000x64_1_0_0_1_n_n.rhsNonContracting by decide)]
  rfl

def val_main_v82 (x17 : (⟨S64, .f32⟩ : BufTy).Contents (Elt F)) : (⟨S1x64, .f32⟩ : BufTy).Contents (Elt F) :=
  broadcastInDim S1x64 ![1] bcast_S64_S1x64_1 (x17)

def val_main_v83 (x17 : (⟨S64, .f32⟩ : BufTy).Contents (Elt F)) : (⟨S50000x64, .f32⟩ : BufTy).Contents (Elt F) :=
  broadcastInDim S50000x64 ![0, 1] bcast_S1x64_S50000x64_0_1 (val_main_v82 (F := F) x17)

def val_main_v84 (x0 : (⟨S50000x1, .f32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  addf (val_main_v81 (F := F) x0 x4 x5 x7 x8 x9 x10 x11 x12 x13 x14 x15 x16 x22 x23 x24 x25) (val_main_v83 (F := F) x17)

def val_main_v85 (x0 : (⟨S50000x1, .f32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  Host.negf (val_main_v84 (F := F) x0 x4 x5 x7 x8 x9 x10 x11 x12 x13 x14 x15 x16 x17 x22 x23 x24 x25)

def val_main_v86 (x0 : (⟨S50000x1, .f32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  Host.exp (val_main_v85 (F := F) x0 x4 x5 x7 x8 x9 x10 x11 x12 x13 x14 x15 x16 x17 x22 x23 x24 x25)

def val_main_cst_12 : (⟨S_, .f32⟩ : BufTy).Contents (Elt F) :=
  constant S_ .f32 0x3F800000#32

def val_main_v87 : (⟨S50000x64, .f32⟩ : BufTy).Contents (Elt F) :=
  broadcastInDim S50000x64 ![] bcast_S_S50000x64 (val_main_cst_12 (F := F))

def val_main_v88 (x0 : (⟨S50000x1, .f32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  addf (val_main_v87 (F := F)) (val_main_v86 (F := F) x0 x4 x5 x7 x8 x9 x10 x11 x12 x13 x14 x15 x16 x17 x22 x23 x24 x25)

def val_main_cst_13 : (⟨S_, .f32⟩ : BufTy).Contents (Elt F) :=
  constant S_ .f32 0x3F800000#32

def val_main_v89 : (⟨S50000x64, .f32⟩ : BufTy).Contents (Elt F) :=
  broadcastInDim S50000x64 ![] bcast_S_S50000x64 (val_main_cst_13 (F := F))

def val_main_v90 (x0 : (⟨S50000x1, .f32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  Host.divf (val_main_v89 (F := F)) (val_main_v88 (F := F) x0 x4 x5 x7 x8 x9 x10 x11 x12 x13 x14 x15 x16 x17 x22 x23 x24 x25)

def val_main_v91 (x0 : (⟨S50000x1, .f32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x18 : (⟨S194x64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  Host.dotGeneral dot_S50000x194_S194x64_S50000x64_1_0_0_1_n_n none (val_main_v80 (F := F) x0 x4 x5 x7 x8 x9 x10 x11 x12 x13 x14 x15 x22 x23 x24 x25) (x18)

def val_main_v92 (x19 : (⟨S64, .f32⟩ : BufTy).Contents (Elt F)) : (⟨S1x64, .f32⟩ : BufTy).Contents (Elt F) :=
  broadcastInDim S1x64 ![1] bcast_S64_S1x64_1 (x19)

def val_main_v93 (x19 : (⟨S64, .f32⟩ : BufTy).Contents (Elt F)) : (⟨S50000x64, .f32⟩ : BufTy).Contents (Elt F) :=
  broadcastInDim S50000x64 ![0, 1] bcast_S1x64_S50000x64_0_1 (val_main_v92 (F := F) x19)

def val_main_v94 (x0 : (⟨S50000x1, .f32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x18 : (⟨S194x64, .f32⟩ : BufTy).Contents (Elt F)) (x19 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  addf (val_main_v91 (F := F) x0 x4 x5 x7 x8 x9 x10 x11 x12 x13 x14 x15 x18 x22 x23 x24 x25) (val_main_v93 (F := F) x19)

def val_main_v95 (x0 : (⟨S50000x1, .f32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x18 : (⟨S194x64, .f32⟩ : BufTy).Contents (Elt F)) (x19 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  Host.negf (val_main_v94 (F := F) x0 x4 x5 x7 x8 x9 x10 x11 x12 x13 x14 x15 x18 x19 x22 x23 x24 x25)

def val_main_v96 (x0 : (⟨S50000x1, .f32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x18 : (⟨S194x64, .f32⟩ : BufTy).Contents (Elt F)) (x19 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  Host.exp (val_main_v95 (F := F) x0 x4 x5 x7 x8 x9 x10 x11 x12 x13 x14 x15 x18 x19 x22 x23 x24 x25)

def val_main_cst_14 : (⟨S_, .f32⟩ : BufTy).Contents (Elt F) :=
  constant S_ .f32 0x3F800000#32

def val_main_v97 : (⟨S50000x64, .f32⟩ : BufTy).Contents (Elt F) :=
  broadcastInDim S50000x64 ![] bcast_S_S50000x64 (val_main_cst_14 (F := F))

def val_main_v98 (x0 : (⟨S50000x1, .f32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x18 : (⟨S194x64, .f32⟩ : BufTy).Contents (Elt F)) (x19 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  addf (val_main_v97 (F := F)) (val_main_v96 (F := F) x0 x4 x5 x7 x8 x9 x10 x11 x12 x13 x14 x15 x18 x19 x22 x23 x24 x25)

def val_main_cst_15 : (⟨S_, .f32⟩ : BufTy).Contents (Elt F) :=
  constant S_ .f32 0x3F800000#32

def val_main_v99 : (⟨S50000x64, .f32⟩ : BufTy).Contents (Elt F) :=
  broadcastInDim S50000x64 ![] bcast_S_S50000x64 (val_main_cst_15 (F := F))

def val_main_v100 (x0 : (⟨S50000x1, .f32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x18 : (⟨S194x64, .f32⟩ : BufTy).Contents (Elt F)) (x19 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  Host.divf (val_main_v99 (F := F)) (val_main_v98 (F := F) x0 x4 x5 x7 x8 x9 x10 x11 x12 x13 x14 x15 x18 x19 x22 x23 x24 x25)

def val_main_v101 (x0 : (⟨S50000x1, .f32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x18 : (⟨S194x64, .f32⟩ : BufTy).Contents (Elt F)) (x19 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  mulf (val_main_v100 (F := F) x0 x4 x5 x7 x8 x9 x10 x11 x12 x13 x14 x15 x18 x19 x22 x23 x24 x25) (val_main_v19 (F := F) x0 x22 x23 x24 x25)

def val_main_v102 (x0 : (⟨S50000x1, .f32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x18 : (⟨S194x64, .f32⟩ : BufTy).Contents (Elt F)) (x19 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x194, .f32⟩ : BufTy).Contents (Elt F) :=
  concatenate S50000x194 1 [⟨S50000x64, (val_main_v101 (F := F) x0 x4 x5 x7 x8 x9 x10 x11 x12 x13 x14 x15 x18 x19 x22 x23 x24 x25)⟩, ⟨S50000x64, (val_main_v49 (F := F) x0 x4 x5 x8 x9 x10 x11 x22 x23 x24 x25)⟩, ⟨S50000x64, (val_main_v79 (F := F) x0 x4 x5 x12 x13 x14 x15 x22 x23 x24 x25)⟩, ⟨S50000x2, (x7)⟩] concatenates_S50000x64_S50000x64_S50000x64_S50000x2_S50000x194_d1

def val_main_v103 (x0 : (⟨S50000x1, .f32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  Host.dotGeneral dot_S50000x194_S194x64_S50000x64_1_0_0_1_n_n none (val_main_v102 (F := F) x0 x4 x5 x7 x8 x9 x10 x11 x12 x13 x14 x15 x18 x19 x22 x23 x24 x25) (x20)

def val_main_v104 (x21 : (⟨S64, .f32⟩ : BufTy).Contents (Elt F)) : (⟨S1x64, .f32⟩ : BufTy).Contents (Elt F) :=
  broadcastInDim S1x64 ![1] bcast_S64_S1x64_1 (x21)

def val_main_v105 (x21 : (⟨S64, .f32⟩ : BufTy).Contents (Elt F)) : (⟨S50000x64, .f32⟩ : BufTy).Contents (Elt F) :=
  broadcastInDim S50000x64 ![0, 1] bcast_S1x64_S50000x64_0_1 (val_main_v104 (F := F) x21)

def val_main_v106 (x0 : (⟨S50000x1, .f32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  addf (val_main_v103 (F := F) x0 x4 x5 x7 x8 x9 x10 x11 x12 x13 x14 x15 x18 x19 x20 x22 x23 x24 x25) (val_main_v105 (F := F) x21)

def val_main_v107 (x0 : (⟨S50000x1, .f32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  Host.tanh (val_main_v106 (F := F) x0 x4 x5 x7 x8 x9 x10 x11 x12 x13 x14 x15 x18 x19 x20 x21 x22 x23 x24 x25)

def val_main_v108 (x0 : (⟨S50000x1, .f32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  mulf (val_main_v90 (F := F) x0 x4 x5 x7 x8 x9 x10 x11 x12 x13 x14 x15 x16 x17 x22 x23 x24 x25) (val_main_v107 (F := F) x0 x4 x5 x7 x8 x9 x10 x11 x12 x13 x14 x15 x18 x19 x20 x21 x22 x23 x24 x25)

def val_main_v109 (x0 : (⟨S50000x1, .f32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  addf (val_main_v19 (F := F) x0 x22 x23 x24 x25) (val_main_v108 (F := F) x0 x4 x5 x7 x8 x9 x10 x11 x12 x13 x14 x15 x16 x17 x18 x19 x20 x21 x22 x23 x24 x25)

def val_main_call0_v0 (x3 : (⟨S50000, .i32⟩ : BufTy).Contents (Elt F)) : (⟨S50000x64, .i1⟩ : BufTy).Contents (Elt F) :=
  broadcastInDim S50000x64 ![0, 1] bcast_S50000x1_S50000x64_0_1 (val_main_v9 (F := F) x3)

def val_main_v110 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  select (val_main_call0_v0 (F := F) x3) (val_main_v19 (F := F) x0 x22 x23 x24 x25) (val_main_v109 (F := F) x0 x4 x5 x7 x8 x9 x10 x11 x12 x13 x14 x15 x16 x17 x18 x19 x20 x21 x22 x23 x24 x25)

def val_main_v111 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) : (⟨S50000x64, .f32⟩ : BufTy).Contents (Elt F) :=
  Host.dotGeneral dot_S50000x64_S64x64_S50000x64_1_0_0_1_n_n none (val_main_v110 (F := F) x0 x3 x4 x5 x7 x8 x9 x10 x11 x12 x13 x14 x15 x16 x17 x18 x19 x20 x21 x22 x23 x24 x25) (x26)

theorem lhs_main_v111_0 (i : S50000x64.Idx) (q : dot_S50000x64_S64x64_S50000x64_1_0_0_1_n_n.contr.Idx) :
    (dot_S50000x64_S64x64_S50000x64_1_0_0_1_n_n.lhsIdx i q 0).val = (i 0).val := by
  unfold DotDims.lhsIdx
  rw [dif_neg (show ¬(0 : Fin S50000x64.rank) ∈ dot_S50000x64_S64x64_S50000x64_1_0_0_1_n_n.lhsBatch by decide), dif_pos (show (0 : Fin S50000x64.rank) ∈ dot_S50000x64_S64x64_S50000x64_1_0_0_1_n_n.lhsNonContracting by decide)]
  rfl

theorem lhs_main_v111_1 (i : S50000x64.Idx) (q : dot_S50000x64_S64x64_S50000x64_1_0_0_1_n_n.contr.Idx) :
    (dot_S50000x64_S64x64_S50000x64_1_0_0_1_n_n.lhsIdx i q 1).val = (q ⟨0, by decide⟩).val :=
  dot_S50000x64_S64x64_S50000x64_1_0_0_1_n_n.lhsIdx_val_of_single rfl i q

theorem rhs_main_v111_0 (i : S50000x64.Idx) (q : dot_S50000x64_S64x64_S50000x64_1_0_0_1_n_n.contr.Idx) :
    (dot_S50000x64_S64x64_S50000x64_1_0_0_1_n_n.rhsIdx i q 0).val = (q ⟨0, by decide⟩).val :=
  dot_S50000x64_S64x64_S50000x64_1_0_0_1_n_n.rhsIdx_val_of_single rfl i q

theorem rhs_main_v111_1 (i : S50000x64.Idx) (q : dot_S50000x64_S64x64_S50000x64_1_0_0_1_n_n.contr.Idx) :
    (dot_S50000x64_S64x64_S50000x64_1_0_0_1_n_n.rhsIdx i q 1).val = (i 1).val := by
  unfold DotDims.rhsIdx
  rw [dif_neg (show ¬(1 : Fin S64x64.rank) ∈ dot_S50000x64_S64x64_S50000x64_1_0_0_1_n_n.rhsBatch by decide), dif_pos (show (1 : Fin S64x64.rank) ∈ dot_S50000x64_S64x64_S50000x64_1_0_0_1_n_n.rhsNonContracting by decide)]
  rfl

def val_main_v112 (x27 : (⟨S64, .f32⟩ : BufTy).Contents (Elt F)) : (⟨S1x64, .f32⟩ : BufTy).Contents (Elt F) :=
  broadcastInDim S1x64 ![1] bcast_S64_S1x64_1 (x27)

abbrev idx_main_v112 (i : S1x64.Idx) : S64.Idx := fun a => match a with
  | ⟨0, _⟩ => ⟨(i 1).val, (i 1).isLt⟩

theorem val_main_v112_apply (x27 : (⟨S64, .f32⟩ : BufTy).Contents (Elt F)) (i : S1x64.Idx) :
    val_main_v112 (F := F) x27 i = x27 (idx_main_v112 i) := by
  unfold val_main_v112
  exact broadcastInDim_apply _ bcast_S64_S1x64_1 x27 i (idx_main_v112 i) (fun a => match a with
    | ⟨0, _⟩ => by show (i 1).val = if (64 : Nat) = 1 then 0 else (i 1).val; rw [if_neg (by decide)])

def val_main_v113 (x27 : (⟨S64, .f32⟩ : BufTy).Contents (Elt F)) : (⟨S50000x64, .f32⟩ : BufTy).Contents (Elt F) :=
  broadcastInDim S50000x64 ![0, 1] bcast_S1x64_S50000x64_0_1 (val_main_v112 (F := F) x27)

abbrev idx_main_v113 (i : S50000x64.Idx) : S1x64.Idx := fun a => match a with
  | ⟨0, _⟩ => ⟨0, Nat.one_pos⟩
  | ⟨1, _⟩ => ⟨(i 1).val, (i 1).isLt⟩

theorem val_main_v113_apply (x27 : (⟨S64, .f32⟩ : BufTy).Contents (Elt F)) (i : S50000x64.Idx) :
    val_main_v113 (F := F) x27 i = val_main_v112 (F := F) x27 (idx_main_v113 i) := by
  unfold val_main_v113
  generalize val_main_v112 (F := F) x27 = y
  exact broadcastInDim_apply _ bcast_S1x64_S50000x64_0_1 y i (idx_main_v113 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_main_v114 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) : (⟨S50000x64, .f32⟩ : BufTy).Contents (Elt F) :=
  addf (val_main_v111 (F := F) x0 x3 x4 x5 x7 x8 x9 x10 x11 x12 x13 x14 x15 x16 x17 x18 x19 x20 x21 x22 x23 x24 x25 x26) (val_main_v113 (F := F) x27)

def val_main_cst_16 : (⟨S_, .f32⟩ : BufTy).Contents (Elt F) :=
  constant S_ .f32 0x00000000#32

theorem val_main_cst_16_apply (i : S_.Idx) :
    val_main_cst_16 (F := F) i = FloatOps.ofBits .f32 0x00000000#32 := rfl

def val_main_v115 : (⟨S50000x64, .f32⟩ : BufTy).Contents (Elt F) :=
  broadcastInDim S50000x64 ![] bcast_S_S50000x64 (val_main_cst_16 (F := F))

abbrev idx_main_v115 (i : S50000x64.Idx) : S_.Idx := fun a => a.elim0

theorem val_main_v115_apply (i : S50000x64.Idx) :
    val_main_v115 (F := F) i = val_main_cst_16 (F := F) (idx_main_v115 i) := by
  unfold val_main_v115
  generalize val_main_cst_16 (F := F) = y
  exact broadcastInDim_apply _ bcast_S_S50000x64 y i (idx_main_v115 i) (fun a => a.elim0)

def val_main_v116 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) : (⟨S50000x64, .f32⟩ : BufTy).Contents (Elt F) :=
  maximumf (val_main_v114 (F := F) x0 x3 x4 x5 x7 x8 x9 x10 x11 x12 x13 x14 x15 x16 x17 x18 x19 x20 x21 x22 x23 x24 x25 x26 x27) (val_main_v115 (F := F))

def val_main_v117 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) : (⟨S50000x1, .f32⟩ : BufTy).Contents (Elt F) :=
  Host.dotGeneral dot_S50000x64_S64x1_S50000x1_1_0_0_1_n_n none (val_main_v116 (F := F) x0 x3 x4 x5 x7 x8 x9 x10 x11 x12 x13 x14 x15 x16 x17 x18 x19 x20 x21 x22 x23 x24 x25 x26 x27) (x28)

theorem lhs_main_v117_0 (i : S50000x1.Idx) (q : dot_S50000x64_S64x1_S50000x1_1_0_0_1_n_n.contr.Idx) :
    (dot_S50000x64_S64x1_S50000x1_1_0_0_1_n_n.lhsIdx i q 0).val = (i 0).val := by
  unfold DotDims.lhsIdx
  rw [dif_neg (show ¬(0 : Fin S50000x64.rank) ∈ dot_S50000x64_S64x1_S50000x1_1_0_0_1_n_n.lhsBatch by decide), dif_pos (show (0 : Fin S50000x64.rank) ∈ dot_S50000x64_S64x1_S50000x1_1_0_0_1_n_n.lhsNonContracting by decide)]
  rfl

theorem lhs_main_v117_1 (i : S50000x1.Idx) (q : dot_S50000x64_S64x1_S50000x1_1_0_0_1_n_n.contr.Idx) :
    (dot_S50000x64_S64x1_S50000x1_1_0_0_1_n_n.lhsIdx i q 1).val = (q ⟨0, by decide⟩).val :=
  dot_S50000x64_S64x1_S50000x1_1_0_0_1_n_n.lhsIdx_val_of_single rfl i q

theorem rhs_main_v117_0 (i : S50000x1.Idx) (q : dot_S50000x64_S64x1_S50000x1_1_0_0_1_n_n.contr.Idx) :
    (dot_S50000x64_S64x1_S50000x1_1_0_0_1_n_n.rhsIdx i q 0).val = (q ⟨0, by decide⟩).val :=
  dot_S50000x64_S64x1_S50000x1_1_0_0_1_n_n.rhsIdx_val_of_single rfl i q

theorem rhs_main_v117_1 (i : S50000x1.Idx) (q : dot_S50000x64_S64x1_S50000x1_1_0_0_1_n_n.contr.Idx) :
    (dot_S50000x64_S64x1_S50000x1_1_0_0_1_n_n.rhsIdx i q 1).val = (i 1).val := by
  unfold DotDims.rhsIdx
  rw [dif_neg (show ¬(1 : Fin S64x1.rank) ∈ dot_S50000x64_S64x1_S50000x1_1_0_0_1_n_n.rhsBatch by decide), dif_pos (show (1 : Fin S64x1.rank) ∈ dot_S50000x64_S64x1_S50000x1_1_0_0_1_n_n.rhsNonContracting by decide)]
  rfl

def val_main_v118 (x29 : (⟨S1, .f32⟩ : BufTy).Contents (Elt F)) : (⟨S1x1, .f32⟩ : BufTy).Contents (Elt F) :=
  broadcastInDim S1x1 ![1] bcast_S1_S1x1_1 (x29)

abbrev idx_main_v118 (i : S1x1.Idx) : S1.Idx := fun a => match a with
  | ⟨0, _⟩ => ⟨0, Nat.one_pos⟩

theorem val_main_v118_apply (x29 : (⟨S1, .f32⟩ : BufTy).Contents (Elt F)) (i : S1x1.Idx) :
    val_main_v118 (F := F) x29 i = x29 (idx_main_v118 i) := by
  unfold val_main_v118
  exact broadcastInDim_apply _ bcast_S1_S1x1_1 x29 i (idx_main_v118 i) (fun a => match a with
    | ⟨0, _⟩ => by show 0 = if (1 : Nat) = 1 then 0 else (i 1).val; rw [if_pos rfl])

def val_main_v119 (x29 : (⟨S1, .f32⟩ : BufTy).Contents (Elt F)) : (⟨S50000x1, .f32⟩ : BufTy).Contents (Elt F) :=
  broadcastInDim S50000x1 ![0, 1] bcast_S1x1_S50000x1_0_1 (val_main_v118 (F := F) x29)

abbrev idx_main_v119 (i : S50000x1.Idx) : S1x1.Idx := fun a => match a with
  | ⟨0, _⟩ => ⟨0, Nat.one_pos⟩
  | ⟨1, _⟩ => ⟨0, Nat.one_pos⟩

theorem val_main_v119_apply (x29 : (⟨S1, .f32⟩ : BufTy).Contents (Elt F)) (i : S50000x1.Idx) :
    val_main_v119 (F := F) x29 i = val_main_v118 (F := F) x29 (idx_main_v119 i) := by
  unfold val_main_v119
  generalize val_main_v118 (F := F) x29 = y
  exact broadcastInDim_apply _ bcast_S1x1_S50000x1_0_1 y i (idx_main_v119 i) (fun a => match a with
    | ⟨0, _⟩ => by show 0 = if (1 : Nat) = 1 then 0 else (i 0).val; rw [if_pos rfl]
    | ⟨1, _⟩ => by show 0 = if (1 : Nat) = 1 then 0 else (i 1).val; rw [if_pos rfl])

def val_main_v120 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x1, .f32⟩ : BufTy).Contents (Elt F) :=
  addf (val_main_v117 (F := F) x0 x3 x4 x5 x7 x8 x9 x10 x11 x12 x13 x14 x15 x16 x17 x18 x19 x20 x21 x22 x23 x24 x25 x26 x27 x28) (val_main_v119 (F := F) x29)

def val_main_v121 (x6 : (⟨S800000, .f32⟩ : BufTy).Contents (Elt F)) : (⟨S800000x1, .f32⟩ : BufTy).Contents (Elt F) :=
  broadcastInDim S800000x1 ![0] bcast_S800000_S800000x1_0 (x6)

def val_main_c_17 : (⟨S_, .i32⟩ : BufTy).Contents (Elt F) :=
  constantI S_ 32 0#32

def val_main_v122 : (⟨S800000, .i32⟩ : BufTy).Contents (Elt F) :=
  broadcastInDim S800000 ![] bcast_S_S800000 (val_main_c_17 (F := F))

def val_main_v123 (x4 : (⟨S2x800000, .i32⟩ : BufTy).Contents (Elt F)) : (⟨S800000, .i1⟩ : BufTy).Contents (Elt F) :=
  cmpi .slt (val_main_v3 (F := F) x4) (val_main_v122 (F := F))

def val_main_c_18 : (⟨S_, .i32⟩ : BufTy).Contents (Elt F) :=
  constantI S_ 32 50000#32

def val_main_v124 : (⟨S800000, .i32⟩ : BufTy).Contents (Elt F) :=
  broadcastInDim S800000 ![] bcast_S_S800000 (val_main_c_18 (F := F))

def val_main_v125 (x4 : (⟨S2x800000, .i32⟩ : BufTy).Contents (Elt F)) : (⟨S800000, .i32⟩ : BufTy).Contents (Elt F) :=
  addi (val_main_v3 (F := F) x4) (val_main_v124 (F := F))

def val_main_v126 (x4 : (⟨S2x800000, .i32⟩ : BufTy).Contents (Elt F)) : (⟨S800000, .i32⟩ : BufTy).Contents (Elt F) :=
  select (val_main_v123 (F := F) x4) (val_main_v125 (F := F) x4) (val_main_v3 (F := F) x4)

def val_main_v127 (x4 : (⟨S2x800000, .i32⟩ : BufTy).Contents (Elt F)) : (⟨S800000x1, .i32⟩ : BufTy).Contents (Elt F) :=
  broadcastInDim S800000x1 ![0] bcast_S800000_S800000x1_0 (val_main_v126 (F := F) x4)

def val_main_v128 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S800000x1, .f32⟩ : BufTy).Contents (Elt F) :=
  Host.gather gather_S50000x1_S800000x1_S800000x1_1_0_n_n_0_1_11 (val_main_v120 (F := F) x0 x3 x4 x5 x7 x8 x9 x10 x11 x12 x13 x14 x15 x16 x17 x18 x19 x20 x21 x22 x23 x24 x25 x26 x27 x28 x29) (val_main_v127 (F := F) x4)

def val_main_v129 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x6 : (⟨S800000, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S800000x1, .f32⟩ : BufTy).Contents (Elt F) :=
  mulf (val_main_v121 (F := F) x6) (val_main_v128 (F := F) x0 x3 x4 x5 x7 x8 x9 x10 x11 x12 x13 x14 x15 x16 x17 x18 x19 x20 x21 x22 x23 x24 x25 x26 x27 x28 x29)

def val_main_cst_19 : (⟨S_, .f32⟩ : BufTy).Contents (Elt F) :=
  constant S_ .f32 0x00000000#32

def val_main_v130 : (⟨S50000x1, .f32⟩ : BufTy).Contents (Elt F) :=
  broadcastInDim S50000x1 ![] bcast_S_S50000x1 (val_main_cst_19 (F := F))

def val_main_v131 (x4 : (⟨S2x800000, .i32⟩ : BufTy).Contents (Elt F)) : (⟨S800000x1, .i32⟩ : BufTy).Contents (Elt F) :=
  broadcastInDim S800000x1 ![0] bcast_S800000_S800000x1_0 (val_main_v1 (F := F) x4)

def val_main_v132 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x6 : (⟨S800000, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x1, .f32⟩ : BufTy).Contents (Elt F) :=
  Host.scatterAdd scatter_S50000x1_S800000x1_S800000x1_1_0_0_1 (val_main_v130 (F := F)) (val_main_v131 (F := F) x4) (val_main_v129 (F := F) x0 x3 x4 x5 x6 x7 x8 x9 x10 x11 x12 x13 x14 x15 x16 x17 x18 x19 x20 x21 x22 x23 x24 x25 x26 x27 x28 x29)

def val_main_v133 (x0 x2 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x6 : (⟨S800000, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x1, .f32⟩ : BufTy).Contents (Elt F) :=
  subf (val_main_v132 (F := F) x0 x3 x4 x5 x6 x7 x8 x9 x10 x11 x12 x13 x14 x15 x16 x17 x18 x19 x20 x21 x22 x23 x24 x25 x26 x27 x28 x29) (x2)

def val_main_v134 (x0 x2 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x6 : (⟨S800000, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x1, .f32⟩ : BufTy).Contents (Elt F) :=
  mulf (val_main_v133 (F := F) x0 x2 x3 x4 x5 x6 x7 x8 x9 x10 x11 x12 x13 x14 x15 x16 x17 x18 x19 x20 x21 x22 x23 x24 x25 x26 x27 x28 x29) (val_main_v133 (F := F) x0 x2 x3 x4 x5 x6 x7 x8 x9 x10 x11 x12 x13 x14 x15 x16 x17 x18 x19 x20 x21 x22 x23 x24 x25 x26 x27 x28 x29)

def val_main_cst_20 : (⟨S_, .f32⟩ : BufTy).Contents (Elt F) :=
  constant S_ .f32 0x00000000#32

def val_main_v135 (x0 x2 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x6 : (⟨S800000, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S_, .f32⟩ : BufTy).Contents (Elt F) :=
  Host.reduceAdd (val_main_v134 (F := F) x0 x2 x3 x4 x5 x6 x7 x8 x9 x10 x11 x12 x13 x14 x15 x16 x17 x18 x19 x20 x21 x22 x23 x24 x25 x26 x27 x28 x29) (val_main_cst_20 (F := F)) reducesTo_S50000x1_S_d0_1 h_S_

def val_main_cst_21 : (⟨S_, .f32⟩ : BufTy).Contents (Elt F) :=
  constant S_ .f32 0x47435000#32

def val_main_v136 (x0 x2 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x6 : (⟨S800000, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S_, .f32⟩ : BufTy).Contents (Elt F) :=
  Host.divf (val_main_v135 (F := F) x0 x2 x3 x4 x5 x6 x7 x8 x9 x10 x11 x12 x13 x14 x15 x16 x17 x18 x19 x20 x21 x22 x23 x24 x25 x26 x27 x28 x29) (val_main_cst_21 (F := F))

def val_main_v137 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) : (⟨S50000x64, .f32⟩ : BufTy).Contents (Elt F) :=
  Host.dotGeneral dot_S50000x64_S64x64_S50000x64_1_0_0_1_n_n none (val_main_v110 (F := F) x0 x3 x4 x5 x7 x8 x9 x10 x11 x12 x13 x14 x15 x16 x17 x18 x19 x20 x21 x22 x23 x24 x25) (x26)

def val_main_v138 (x27 : (⟨S64, .f32⟩ : BufTy).Contents (Elt F)) : (⟨S1x64, .f32⟩ : BufTy).Contents (Elt F) :=
  broadcastInDim S1x64 ![1] bcast_S64_S1x64_1 (x27)

def val_main_v139 (x27 : (⟨S64, .f32⟩ : BufTy).Contents (Elt F)) : (⟨S50000x64, .f32⟩ : BufTy).Contents (Elt F) :=
  broadcastInDim S50000x64 ![0, 1] bcast_S1x64_S50000x64_0_1 (val_main_v138 (F := F) x27)

def val_main_v140 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) : (⟨S50000x64, .f32⟩ : BufTy).Contents (Elt F) :=
  addf (val_main_v137 (F := F) x0 x3 x4 x5 x7 x8 x9 x10 x11 x12 x13 x14 x15 x16 x17 x18 x19 x20 x21 x22 x23 x24 x25 x26) (val_main_v139 (F := F) x27)

def val_main_cst_22 : (⟨S_, .f32⟩ : BufTy).Contents (Elt F) :=
  constant S_ .f32 0x00000000#32

def val_main_v141 : (⟨S50000x64, .f32⟩ : BufTy).Contents (Elt F) :=
  broadcastInDim S50000x64 ![] bcast_S_S50000x64 (val_main_cst_22 (F := F))

def val_main_v142 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) : (⟨S50000x64, .f32⟩ : BufTy).Contents (Elt F) :=
  maximumf (val_main_v140 (F := F) x0 x3 x4 x5 x7 x8 x9 x10 x11 x12 x13 x14 x15 x16 x17 x18 x19 x20 x21 x22 x23 x24 x25 x26 x27) (val_main_v141 (F := F))

def val_main_v143 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) : (⟨S50000x1, .f32⟩ : BufTy).Contents (Elt F) :=
  Host.dotGeneral dot_S50000x64_S64x1_S50000x1_1_0_0_1_n_n none (val_main_v142 (F := F) x0 x3 x4 x5 x7 x8 x9 x10 x11 x12 x13 x14 x15 x16 x17 x18 x19 x20 x21 x22 x23 x24 x25 x26 x27) (x28)

def val_main_v144 (x29 : (⟨S1, .f32⟩ : BufTy).Contents (Elt F)) : (⟨S1x1, .f32⟩ : BufTy).Contents (Elt F) :=
  broadcastInDim S1x1 ![1] bcast_S1_S1x1_1 (x29)

def val_main_v145 (x29 : (⟨S1, .f32⟩ : BufTy).Contents (Elt F)) : (⟨S50000x1, .f32⟩ : BufTy).Contents (Elt F) :=
  broadcastInDim S50000x1 ![0, 1] bcast_S1x1_S50000x1_0_1 (val_main_v144 (F := F) x29)

def val_main_v146 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x1, .f32⟩ : BufTy).Contents (Elt F) :=
  addf (val_main_v143 (F := F) x0 x3 x4 x5 x7 x8 x9 x10 x11 x12 x13 x14 x15 x16 x17 x18 x19 x20 x21 x22 x23 x24 x25 x26 x27 x28) (val_main_v145 (F := F) x29)

def val_main_v147 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x64, .f32⟩ : BufTy).Contents (Elt F) :=
  Host.dotGeneral dot_S50000x1_S1x64_S50000x64_1_0_0_1_n_n none (val_main_v146 (F := F) x0 x3 x4 x5 x7 x8 x9 x10 x11 x12 x13 x14 x15 x16 x17 x18 x19 x20 x21 x22 x23 x24 x25 x26 x27 x28 x29) (x22)

def val_main_v148 (x23 : (⟨S64, .f32⟩ : BufTy).Contents (Elt F)) : (⟨S1x64, .f32⟩ : BufTy).Contents (Elt F) :=
  broadcastInDim S1x64 ![1] bcast_S64_S1x64_1 (x23)

def val_main_v149 (x23 : (⟨S64, .f32⟩ : BufTy).Contents (Elt F)) : (⟨S50000x64, .f32⟩ : BufTy).Contents (Elt F) :=
  broadcastInDim S50000x64 ![0, 1] bcast_S1x64_S50000x64_0_1 (val_main_v148 (F := F) x23)

def val_main_v150 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x64, .f32⟩ : BufTy).Contents (Elt F) :=
  addf (val_main_v147 (F := F) x0 x3 x4 x5 x7 x8 x9 x10 x11 x12 x13 x14 x15 x16 x17 x18 x19 x20 x21 x22 x23 x24 x25 x26 x27 x28 x29) (val_main_v149 (F := F) x23)

def val_main_cst_23 : (⟨S_, .f32⟩ : BufTy).Contents (Elt F) :=
  constant S_ .f32 0x00000000#32

def val_main_v151 : (⟨S50000x64, .f32⟩ : BufTy).Contents (Elt F) :=
  broadcastInDim S50000x64 ![] bcast_S_S50000x64 (val_main_cst_23 (F := F))

def val_main_v152 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x64, .f32⟩ : BufTy).Contents (Elt F) :=
  maximumf (val_main_v150 (F := F) x0 x3 x4 x5 x7 x8 x9 x10 x11 x12 x13 x14 x15 x16 x17 x18 x19 x20 x21 x22 x23 x24 x25 x26 x27 x28 x29) (val_main_v151 (F := F))

def val_main_v153 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x64, .f32⟩ : BufTy).Contents (Elt F) :=
  Host.dotGeneral dot_S50000x64_S64x64_S50000x64_1_0_0_1_n_n none (val_main_v152 (F := F) x0 x3 x4 x5 x7 x8 x9 x10 x11 x12 x13 x14 x15 x16 x17 x18 x19 x20 x21 x22 x23 x24 x25 x26 x27 x28 x29) (x24)

def val_main_v154 (x25 : (⟨S64, .f32⟩ : BufTy).Contents (Elt F)) : (⟨S1x64, .f32⟩ : BufTy).Contents (Elt F) :=
  broadcastInDim S1x64 ![1] bcast_S64_S1x64_1 (x25)

def val_main_v155 (x25 : (⟨S64, .f32⟩ : BufTy).Contents (Elt F)) : (⟨S50000x64, .f32⟩ : BufTy).Contents (Elt F) :=
  broadcastInDim S50000x64 ![0, 1] bcast_S1x64_S50000x64_0_1 (val_main_v154 (F := F) x25)

def val_main_v156 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x64, .f32⟩ : BufTy).Contents (Elt F) :=
  addf (val_main_v153 (F := F) x0 x3 x4 x5 x7 x8 x9 x10 x11 x12 x13 x14 x15 x16 x17 x18 x19 x20 x21 x22 x23 x24 x25 x26 x27 x28 x29) (val_main_v155 (F := F) x25)

def val_main_v157 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x64, .f32⟩ : BufTy).Contents (Elt F) :=
  subf (val_main_v156 (F := F) x0 x3 x4 x5 x7 x8 x9 x10 x11 x12 x13 x14 x15 x16 x17 x18 x19 x20 x21 x22 x23 x24 x25 x26 x27 x28 x29) (val_main_v110 (F := F) x0 x3 x4 x5 x7 x8 x9 x10 x11 x12 x13 x14 x15 x16 x17 x18 x19 x20 x21 x22 x23 x24 x25)

def val_main_v158 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x64, .f32⟩ : BufTy).Contents (Elt F) :=
  mulf (val_main_v157 (F := F) x0 x3 x4 x5 x7 x8 x9 x10 x11 x12 x13 x14 x15 x16 x17 x18 x19 x20 x21 x22 x23 x24 x25 x26 x27 x28 x29) (val_main_v157 (F := F) x0 x3 x4 x5 x7 x8 x9 x10 x11 x12 x13 x14 x15 x16 x17 x18 x19 x20 x21 x22 x23 x24 x25 x26 x27 x28 x29)

def val_main_cst_24 : (⟨S_, .f32⟩ : BufTy).Contents (Elt F) :=
  constant S_ .f32 0x00000000#32

def val_main_v159 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S_, .f32⟩ : BufTy).Contents (Elt F) :=
  Host.reduceAdd (val_main_v158 (F := F) x0 x3 x4 x5 x7 x8 x9 x10 x11 x12 x13 x14 x15 x16 x17 x18 x19 x20 x21 x22 x23 x24 x25 x26 x27 x28 x29) (val_main_cst_24 (F := F)) reducesTo_S50000x64_S_d0_1 h_S_

def val_main_cst_25 : (⟨S_, .f32⟩ : BufTy).Contents (Elt F) :=
  constant S_ .f32 0x4A435000#32

def val_main_v160 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S_, .f32⟩ : BufTy).Contents (Elt F) :=
  Host.divf (val_main_v159 (F := F) x0 x3 x4 x5 x7 x8 x9 x10 x11 x12 x13 x14 x15 x16 x17 x18 x19 x20 x21 x22 x23 x24 x25 x26 x27 x28 x29) (val_main_cst_25 (F := F))

def val_main_v161 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x64, .f32⟩ : BufTy).Contents (Elt F) :=
  Host.dotGeneral dot_S50000x1_S1x64_S50000x64_1_0_0_1_n_n none (val_main_v120 (F := F) x0 x3 x4 x5 x7 x8 x9 x10 x11 x12 x13 x14 x15 x16 x17 x18 x19 x20 x21 x22 x23 x24 x25 x26 x27 x28 x29) (x22)

def val_main_v162 (x23 : (⟨S64, .f32⟩ : BufTy).Contents (Elt F)) : (⟨S1x64, .f32⟩ : BufTy).Contents (Elt F) :=
  broadcastInDim S1x64 ![1] bcast_S64_S1x64_1 (x23)

def val_main_v163 (x23 : (⟨S64, .f32⟩ : BufTy).Contents (Elt F)) : (⟨S50000x64, .f32⟩ : BufTy).Contents (Elt F) :=
  broadcastInDim S50000x64 ![0, 1] bcast_S1x64_S50000x64_0_1 (val_main_v162 (F := F) x23)

def val_main_v164 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x64, .f32⟩ : BufTy).Contents (Elt F) :=
  addf (val_main_v161 (F := F) x0 x3 x4 x5 x7 x8 x9 x10 x11 x12 x13 x14 x15 x16 x17 x18 x19 x20 x21 x22 x23 x24 x25 x26 x27 x28 x29) (val_main_v163 (F := F) x23)

def val_main_cst_26 : (⟨S_, .f32⟩ : BufTy).Contents (Elt F) :=
  constant S_ .f32 0x00000000#32

def val_main_v165 : (⟨S50000x64, .f32⟩ : BufTy).Contents (Elt F) :=
  broadcastInDim S50000x64 ![] bcast_S_S50000x64 (val_main_cst_26 (F := F))

def val_main_v166 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x64, .f32⟩ : BufTy).Contents (Elt F) :=
  maximumf (val_main_v164 (F := F) x0 x3 x4 x5 x7 x8 x9 x10 x11 x12 x13 x14 x15 x16 x17 x18 x19 x20 x21 x22 x23 x24 x25 x26 x27 x28 x29) (val_main_v165 (F := F))

def val_main_v167 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x64, .f32⟩ : BufTy).Contents (Elt F) :=
  Host.dotGeneral dot_S50000x64_S64x64_S50000x64_1_0_0_1_n_n none (val_main_v166 (F := F) x0 x3 x4 x5 x7 x8 x9 x10 x11 x12 x13 x14 x15 x16 x17 x18 x19 x20 x21 x22 x23 x24 x25 x26 x27 x28 x29) (x24)

def val_main_v168 (x25 : (⟨S64, .f32⟩ : BufTy).Contents (Elt F)) : (⟨S1x64, .f32⟩ : BufTy).Contents (Elt F) :=
  broadcastInDim S1x64 ![1] bcast_S64_S1x64_1 (x25)

def val_main_v169 (x25 : (⟨S64, .f32⟩ : BufTy).Contents (Elt F)) : (⟨S50000x64, .f32⟩ : BufTy).Contents (Elt F) :=
  broadcastInDim S50000x64 ![0, 1] bcast_S1x64_S50000x64_0_1 (val_main_v168 (F := F) x25)

def val_main_v170 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x64, .f32⟩ : BufTy).Contents (Elt F) :=
  addf (val_main_v167 (F := F) x0 x3 x4 x5 x7 x8 x9 x10 x11 x12 x13 x14 x15 x16 x17 x18 x19 x20 x21 x22 x23 x24 x25 x26 x27 x28 x29) (val_main_v169 (F := F) x25)

def val_main_v171 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x64, .f32⟩ : BufTy).Contents (Elt F) :=
  Host.dotGeneral dot_S50000x64_S64x64_S50000x64_1_0_0_1_n_n none (val_main_v170 (F := F) x0 x3 x4 x5 x7 x8 x9 x10 x11 x12 x13 x14 x15 x16 x17 x18 x19 x20 x21 x22 x23 x24 x25 x26 x27 x28 x29) (x26)

def val_main_v172 (x27 : (⟨S64, .f32⟩ : BufTy).Contents (Elt F)) : (⟨S1x64, .f32⟩ : BufTy).Contents (Elt F) :=
  broadcastInDim S1x64 ![1] bcast_S64_S1x64_1 (x27)

def val_main_v173 (x27 : (⟨S64, .f32⟩ : BufTy).Contents (Elt F)) : (⟨S50000x64, .f32⟩ : BufTy).Contents (Elt F) :=
  broadcastInDim S50000x64 ![0, 1] bcast_S1x64_S50000x64_0_1 (val_main_v172 (F := F) x27)

def val_main_v174 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x64, .f32⟩ : BufTy).Contents (Elt F) :=
  addf (val_main_v171 (F := F) x0 x3 x4 x5 x7 x8 x9 x10 x11 x12 x13 x14 x15 x16 x17 x18 x19 x20 x21 x22 x23 x24 x25 x26 x27 x28 x29) (val_main_v173 (F := F) x27)

def val_main_cst_27 : (⟨S_, .f32⟩ : BufTy).Contents (Elt F) :=
  constant S_ .f32 0x00000000#32

def val_main_v175 : (⟨S50000x64, .f32⟩ : BufTy).Contents (Elt F) :=
  broadcastInDim S50000x64 ![] bcast_S_S50000x64 (val_main_cst_27 (F := F))

def val_main_v176 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x64, .f32⟩ : BufTy).Contents (Elt F) :=
  maximumf (val_main_v174 (F := F) x0 x3 x4 x5 x7 x8 x9 x10 x11 x12 x13 x14 x15 x16 x17 x18 x19 x20 x21 x22 x23 x24 x25 x26 x27 x28 x29) (val_main_v175 (F := F))

def val_main_v177 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x1, .f32⟩ : BufTy).Contents (Elt F) :=
  Host.dotGeneral dot_S50000x64_S64x1_S50000x1_1_0_0_1_n_n none (val_main_v176 (F := F) x0 x3 x4 x5 x7 x8 x9 x10 x11 x12 x13 x14 x15 x16 x17 x18 x19 x20 x21 x22 x23 x24 x25 x26 x27 x28 x29) (x28)

def val_main_v178 (x29 : (⟨S1, .f32⟩ : BufTy).Contents (Elt F)) : (⟨S1x1, .f32⟩ : BufTy).Contents (Elt F) :=
  broadcastInDim S1x1 ![1] bcast_S1_S1x1_1 (x29)

def val_main_v179 (x29 : (⟨S1, .f32⟩ : BufTy).Contents (Elt F)) : (⟨S50000x1, .f32⟩ : BufTy).Contents (Elt F) :=
  broadcastInDim S50000x1 ![0, 1] bcast_S1x1_S50000x1_0_1 (val_main_v178 (F := F) x29)

def val_main_v180 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x1, .f32⟩ : BufTy).Contents (Elt F) :=
  addf (val_main_v177 (F := F) x0 x3 x4 x5 x7 x8 x9 x10 x11 x12 x13 x14 x15 x16 x17 x18 x19 x20 x21 x22 x23 x24 x25 x26 x27 x28 x29) (val_main_v179 (F := F) x29)

def val_main_v181 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x1, .f32⟩ : BufTy).Contents (Elt F) :=
  subf (val_main_v180 (F := F) x0 x3 x4 x5 x7 x8 x9 x10 x11 x12 x13 x14 x15 x16 x17 x18 x19 x20 x21 x22 x23 x24 x25 x26 x27 x28 x29) (val_main_v120 (F := F) x0 x3 x4 x5 x7 x8 x9 x10 x11 x12 x13 x14 x15 x16 x17 x18 x19 x20 x21 x22 x23 x24 x25 x26 x27 x28 x29)

def val_main_v182 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x1, .f32⟩ : BufTy).Contents (Elt F) :=
  mulf (val_main_v181 (F := F) x0 x3 x4 x5 x7 x8 x9 x10 x11 x12 x13 x14 x15 x16 x17 x18 x19 x20 x21 x22 x23 x24 x25 x26 x27 x28 x29) (val_main_v181 (F := F) x0 x3 x4 x5 x7 x8 x9 x10 x11 x12 x13 x14 x15 x16 x17 x18 x19 x20 x21 x22 x23 x24 x25 x26 x27 x28 x29)

def val_main_cst_28 : (⟨S_, .f32⟩ : BufTy).Contents (Elt F) :=
  constant S_ .f32 0x00000000#32

def val_main_v183 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S_, .f32⟩ : BufTy).Contents (Elt F) :=
  Host.reduceAdd (val_main_v182 (F := F) x0 x3 x4 x5 x7 x8 x9 x10 x11 x12 x13 x14 x15 x16 x17 x18 x19 x20 x21 x22 x23 x24 x25 x26 x27 x28 x29) (val_main_cst_28 (F := F)) reducesTo_S50000x1_S_d0_1 h_S_

def val_main_cst_29 : (⟨S_, .f32⟩ : BufTy).Contents (Elt F) :=
  constant S_ .f32 0x47435000#32

def val_main_v184 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S_, .f32⟩ : BufTy).Contents (Elt F) :=
  Host.divf (val_main_v183 (F := F) x0 x3 x4 x5 x7 x8 x9 x10 x11 x12 x13 x14 x15 x16 x17 x18 x19 x20 x21 x22 x23 x24 x25 x26 x27 x28 x29) (val_main_cst_29 (F := F))

def val_main_cst_30 : (⟨S_, .f32⟩ : BufTy).Contents (Elt F) :=
  constant S_ .f32 0x3F666666#32

def val_main_v185 (x0 x2 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x6 : (⟨S800000, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S_, .f32⟩ : BufTy).Contents (Elt F) :=
  mulf (val_main_v136 (F := F) x0 x2 x3 x4 x5 x6 x7 x8 x9 x10 x11 x12 x13 x14 x15 x16 x17 x18 x19 x20 x21 x22 x23 x24 x25 x26 x27 x28 x29) (val_main_cst_30 (F := F))

def val_main_cst_31 : (⟨S_, .f32⟩ : BufTy).Contents (Elt F) :=
  constant S_ .f32 0x00000000#32

def val_main_v186 (x0 x2 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x6 : (⟨S800000, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S_, .f32⟩ : BufTy).Contents (Elt F) :=
  addf (val_main_cst_31 (F := F)) (val_main_v185 (F := F) x0 x2 x3 x4 x5 x6 x7 x8 x9 x10 x11 x12 x13 x14 x15 x16 x17 x18 x19 x20 x21 x22 x23 x24 x25 x26 x27 x28 x29)

def val_main_v187 (x0 x2 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x6 : (⟨S800000, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S_, .f32⟩ : BufTy).Contents (Elt F) :=
  addf (val_main_v186 (F := F) x0 x2 x3 x4 x5 x6 x7 x8 x9 x10 x11 x12 x13 x14 x15 x16 x17 x18 x19 x20 x21 x22 x23 x24 x25 x26 x27 x28 x29) (val_main_v160 (F := F) x0 x3 x4 x5 x7 x8 x9 x10 x11 x12 x13 x14 x15 x16 x17 x18 x19 x20 x21 x22 x23 x24 x25 x26 x27 x28 x29)

def val_main_v188 (x0 x2 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x6 : (⟨S800000, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S_, .f32⟩ : BufTy).Contents (Elt F) :=
  addf (val_main_v187 (F := F) x0 x2 x3 x4 x5 x6 x7 x8 x9 x10 x11 x12 x13 x14 x15 x16 x17 x18 x19 x20 x21 x22 x23 x24 x25 x26 x27 x28 x29) (val_main_v184 (F := F) x0 x3 x4 x5 x7 x8 x9 x10 x11 x12 x13 x14 x15 x16 x17 x18 x19 x20 x21 x22 x23 x24 x25 x26 x27 x28 x29)

def val_main_c_32 : (⟨S_, .i32⟩ : BufTy).Contents (Elt F) :=
  constantI S_ 32 0#32

def val_main_v189 : (⟨S800000, .i32⟩ : BufTy).Contents (Elt F) :=
  broadcastInDim S800000 ![] bcast_S_S800000 (val_main_c_32 (F := F))

def val_main_v190 (x4 : (⟨S2x800000, .i32⟩ : BufTy).Contents (Elt F)) : (⟨S800000, .i1⟩ : BufTy).Contents (Elt F) :=
  cmpi .slt (val_main_v3 (F := F) x4) (val_main_v189 (F := F))

def val_main_c_33 : (⟨S_, .i32⟩ : BufTy).Contents (Elt F) :=
  constantI S_ 32 50000#32

def val_main_v191 : (⟨S800000, .i32⟩ : BufTy).Contents (Elt F) :=
  broadcastInDim S800000 ![] bcast_S_S800000 (val_main_c_33 (F := F))

def val_main_v192 (x4 : (⟨S2x800000, .i32⟩ : BufTy).Contents (Elt F)) : (⟨S800000, .i32⟩ : BufTy).Contents (Elt F) :=
  addi (val_main_v3 (F := F) x4) (val_main_v191 (F := F))

def val_main_v193 (x4 : (⟨S2x800000, .i32⟩ : BufTy).Contents (Elt F)) : (⟨S800000, .i32⟩ : BufTy).Contents (Elt F) :=
  select (val_main_v190 (F := F) x4) (val_main_v192 (F := F) x4) (val_main_v3 (F := F) x4)

def val_main_v194 (x4 : (⟨S2x800000, .i32⟩ : BufTy).Contents (Elt F)) : (⟨S800000x1, .i32⟩ : BufTy).Contents (Elt F) :=
  broadcastInDim S800000x1 ![0] bcast_S800000_S800000x1_0 (val_main_v193 (F := F) x4)

def val_main_v195 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S800000x64, .f32⟩ : BufTy).Contents (Elt F) :=
  Host.gather gather_S50000x64_S800000x1_S800000x64_1_0_n_n_0_1_164 (val_main_v110 (F := F) x0 x3 x4 x5 x7 x8 x9 x10 x11 x12 x13 x14 x15 x16 x17 x18 x19 x20 x21 x22 x23 x24 x25) (val_main_v194 (F := F) x4)

def val_main_c_34 : (⟨S_, .i32⟩ : BufTy).Contents (Elt F) :=
  constantI S_ 32 0#32

def val_main_v196 : (⟨S800000, .i32⟩ : BufTy).Contents (Elt F) :=
  broadcastInDim S800000 ![] bcast_S_S800000 (val_main_c_34 (F := F))

def val_main_v197 (x4 : (⟨S2x800000, .i32⟩ : BufTy).Contents (Elt F)) : (⟨S800000, .i1⟩ : BufTy).Contents (Elt F) :=
  cmpi .slt (val_main_v1 (F := F) x4) (val_main_v196 (F := F))

def val_main_c_35 : (⟨S_, .i32⟩ : BufTy).Contents (Elt F) :=
  constantI S_ 32 50000#32

def val_main_v198 : (⟨S800000, .i32⟩ : BufTy).Contents (Elt F) :=
  broadcastInDim S800000 ![] bcast_S_S800000 (val_main_c_35 (F := F))

def val_main_v199 (x4 : (⟨S2x800000, .i32⟩ : BufTy).Contents (Elt F)) : (⟨S800000, .i32⟩ : BufTy).Contents (Elt F) :=
  addi (val_main_v1 (F := F) x4) (val_main_v198 (F := F))

def val_main_v200 (x4 : (⟨S2x800000, .i32⟩ : BufTy).Contents (Elt F)) : (⟨S800000, .i32⟩ : BufTy).Contents (Elt F) :=
  select (val_main_v197 (F := F) x4) (val_main_v199 (F := F) x4) (val_main_v1 (F := F) x4)

def val_main_v201 (x4 : (⟨S2x800000, .i32⟩ : BufTy).Contents (Elt F)) : (⟨S800000x1, .i32⟩ : BufTy).Contents (Elt F) :=
  broadcastInDim S800000x1 ![0] bcast_S800000_S800000x1_0 (val_main_v200 (F := F) x4)

def val_main_v202 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S800000x64, .f32⟩ : BufTy).Contents (Elt F) :=
  Host.gather gather_S50000x64_S800000x1_S800000x64_1_0_n_n_0_1_164 (val_main_v110 (F := F) x0 x3 x4 x5 x7 x8 x9 x10 x11 x12 x13 x14 x15 x16 x17 x18 x19 x20 x21 x22 x23 x24 x25) (val_main_v201 (F := F) x4)

def val_main_v203 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S800000x131, .f32⟩ : BufTy).Contents (Elt F) :=
  concatenate S800000x131 1 [⟨S800000x64, (val_main_v195 (F := F) x0 x3 x4 x5 x7 x8 x9 x10 x11 x12 x13 x14 x15 x16 x17 x18 x19 x20 x21 x22 x23 x24 x25)⟩, ⟨S800000x64, (val_main_v202 (F := F) x0 x3 x4 x5 x7 x8 x9 x10 x11 x12 x13 x14 x15 x16 x17 x18 x19 x20 x21 x22 x23 x24 x25)⟩, ⟨S800000x3, (x5)⟩] concatenates_S800000x64_S800000x64_S800000x3_S800000x131_d1

def val_main_v204 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S800000x64, .f32⟩ : BufTy).Contents (Elt F) :=
  Host.dotGeneral dot_S800000x131_S131x64_S800000x64_1_0_0_1_n_n none (val_main_v203 (F := F) x0 x3 x4 x5 x7 x8 x9 x10 x11 x12 x13 x14 x15 x16 x17 x18 x19 x20 x21 x22 x23 x24 x25) (x8)

def val_main_v205 (x9 : (⟨S64, .f32⟩ : BufTy).Contents (Elt F)) : (⟨S1x64, .f32⟩ : BufTy).Contents (Elt F) :=
  broadcastInDim S1x64 ![1] bcast_S64_S1x64_1 (x9)

def val_main_v206 (x9 : (⟨S64, .f32⟩ : BufTy).Contents (Elt F)) : (⟨S800000x64, .f32⟩ : BufTy).Contents (Elt F) :=
  broadcastInDim S800000x64 ![0, 1] bcast_S1x64_S800000x64_0_1 (val_main_v205 (F := F) x9)

def val_main_v207 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S800000x64, .f32⟩ : BufTy).Contents (Elt F) :=
  addf (val_main_v204 (F := F) x0 x3 x4 x5 x7 x8 x9 x10 x11 x12 x13 x14 x15 x16 x17 x18 x19 x20 x21 x22 x23 x24 x25) (val_main_v206 (F := F) x9)

def val_main_cst_36 : (⟨S_, .f32⟩ : BufTy).Contents (Elt F) :=
  constant S_ .f32 0x00000000#32

def val_main_v208 : (⟨S800000x64, .f32⟩ : BufTy).Contents (Elt F) :=
  broadcastInDim S800000x64 ![] bcast_S_S800000x64 (val_main_cst_36 (F := F))

def val_main_v209 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S800000x64, .f32⟩ : BufTy).Contents (Elt F) :=
  maximumf (val_main_v207 (F := F) x0 x3 x4 x5 x7 x8 x9 x10 x11 x12 x13 x14 x15 x16 x17 x18 x19 x20 x21 x22 x23 x24 x25) (val_main_v208 (F := F))

def val_main_v210 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S800000x64, .f32⟩ : BufTy).Contents (Elt F) :=
  Host.dotGeneral dot_S800000x64_S64x64_S800000x64_1_0_0_1_n_n none (val_main_v209 (F := F) x0 x3 x4 x5 x7 x8 x9 x10 x11 x12 x13 x14 x15 x16 x17 x18 x19 x20 x21 x22 x23 x24 x25) (x10)

def val_main_v211 (x11 : (⟨S64, .f32⟩ : BufTy).Contents (Elt F)) : (⟨S1x64, .f32⟩ : BufTy).Contents (Elt F) :=
  broadcastInDim S1x64 ![1] bcast_S64_S1x64_1 (x11)

def val_main_v212 (x11 : (⟨S64, .f32⟩ : BufTy).Contents (Elt F)) : (⟨S800000x64, .f32⟩ : BufTy).Contents (Elt F) :=
  broadcastInDim S800000x64 ![0, 1] bcast_S1x64_S800000x64_0_1 (val_main_v211 (F := F) x11)

def val_main_v213 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S800000x64, .f32⟩ : BufTy).Contents (Elt F) :=
  addf (val_main_v210 (F := F) x0 x3 x4 x5 x7 x8 x9 x10 x11 x12 x13 x14 x15 x16 x17 x18 x19 x20 x21 x22 x23 x24 x25) (val_main_v212 (F := F) x11)

def val_main_v214 (x4 : (⟨S2x800000, .i32⟩ : BufTy).Contents (Elt F)) : (⟨S800000x64, .f32⟩ : BufTy).Contents (Elt F) :=
  broadcastInDim S800000x64 ![0, 1] bcast_S800000x1_S800000x64_0_1 (val_main_v6 (F := F) x4)

def val_main_v215 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S800000x64, .f32⟩ : BufTy).Contents (Elt F) :=
  mulf (val_main_v213 (F := F) x0 x3 x4 x5 x7 x8 x9 x10 x11 x12 x13 x14 x15 x16 x17 x18 x19 x20 x21 x22 x23 x24 x25) (val_main_v214 (F := F) x4)

def val_main_cst_37 : (⟨S_, .f32⟩ : BufTy).Contents (Elt F) :=
  constant S_ .f32 0x00000000#32

def val_main_v216 : (⟨S50000x64, .f32⟩ : BufTy).Contents (Elt F) :=
  broadcastInDim S50000x64 ![] bcast_S_S50000x64 (val_main_cst_37 (F := F))

def val_main_v217 (x4 : (⟨S2x800000, .i32⟩ : BufTy).Contents (Elt F)) : (⟨S800000x1, .i32⟩ : BufTy).Contents (Elt F) :=
  broadcastInDim S800000x1 ![0] bcast_S800000_S800000x1_0 (val_main_v3 (F := F) x4)

def val_main_v218 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  Host.scatterAdd scatter_S50000x64_S800000x1_S800000x64_1_0_0_1 (val_main_v216 (F := F)) (val_main_v217 (F := F) x4) (val_main_v215 (F := F) x0 x3 x4 x5 x7 x8 x9 x10 x11 x12 x13 x14 x15 x16 x17 x18 x19 x20 x21 x22 x23 x24 x25)

def val_main_c_38 : (⟨S_, .i32⟩ : BufTy).Contents (Elt F) :=
  constantI S_ 32 0#32

def val_main_v219 : (⟨S800000, .i32⟩ : BufTy).Contents (Elt F) :=
  broadcastInDim S800000 ![] bcast_S_S800000 (val_main_c_38 (F := F))

def val_main_v220 (x4 : (⟨S2x800000, .i32⟩ : BufTy).Contents (Elt F)) : (⟨S800000, .i1⟩ : BufTy).Contents (Elt F) :=
  cmpi .slt (val_main_v1 (F := F) x4) (val_main_v219 (F := F))

def val_main_c_39 : (⟨S_, .i32⟩ : BufTy).Contents (Elt F) :=
  constantI S_ 32 50000#32

def val_main_v221 : (⟨S800000, .i32⟩ : BufTy).Contents (Elt F) :=
  broadcastInDim S800000 ![] bcast_S_S800000 (val_main_c_39 (F := F))

def val_main_v222 (x4 : (⟨S2x800000, .i32⟩ : BufTy).Contents (Elt F)) : (⟨S800000, .i32⟩ : BufTy).Contents (Elt F) :=
  addi (val_main_v1 (F := F) x4) (val_main_v221 (F := F))

def val_main_v223 (x4 : (⟨S2x800000, .i32⟩ : BufTy).Contents (Elt F)) : (⟨S800000, .i32⟩ : BufTy).Contents (Elt F) :=
  select (val_main_v220 (F := F) x4) (val_main_v222 (F := F) x4) (val_main_v1 (F := F) x4)

def val_main_v224 (x4 : (⟨S2x800000, .i32⟩ : BufTy).Contents (Elt F)) : (⟨S800000x1, .i32⟩ : BufTy).Contents (Elt F) :=
  broadcastInDim S800000x1 ![0] bcast_S800000_S800000x1_0 (val_main_v223 (F := F) x4)

def val_main_v225 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S800000x64, .f32⟩ : BufTy).Contents (Elt F) :=
  Host.gather gather_S50000x64_S800000x1_S800000x64_1_0_n_n_0_1_164 (val_main_v110 (F := F) x0 x3 x4 x5 x7 x8 x9 x10 x11 x12 x13 x14 x15 x16 x17 x18 x19 x20 x21 x22 x23 x24 x25) (val_main_v224 (F := F) x4)

def val_main_c_40 : (⟨S_, .i32⟩ : BufTy).Contents (Elt F) :=
  constantI S_ 32 0#32

def val_main_v226 : (⟨S800000, .i32⟩ : BufTy).Contents (Elt F) :=
  broadcastInDim S800000 ![] bcast_S_S800000 (val_main_c_40 (F := F))

def val_main_v227 (x4 : (⟨S2x800000, .i32⟩ : BufTy).Contents (Elt F)) : (⟨S800000, .i1⟩ : BufTy).Contents (Elt F) :=
  cmpi .slt (val_main_v3 (F := F) x4) (val_main_v226 (F := F))

def val_main_c_41 : (⟨S_, .i32⟩ : BufTy).Contents (Elt F) :=
  constantI S_ 32 50000#32

def val_main_v228 : (⟨S800000, .i32⟩ : BufTy).Contents (Elt F) :=
  broadcastInDim S800000 ![] bcast_S_S800000 (val_main_c_41 (F := F))

def val_main_v229 (x4 : (⟨S2x800000, .i32⟩ : BufTy).Contents (Elt F)) : (⟨S800000, .i32⟩ : BufTy).Contents (Elt F) :=
  addi (val_main_v3 (F := F) x4) (val_main_v228 (F := F))

def val_main_v230 (x4 : (⟨S2x800000, .i32⟩ : BufTy).Contents (Elt F)) : (⟨S800000, .i32⟩ : BufTy).Contents (Elt F) :=
  select (val_main_v227 (F := F) x4) (val_main_v229 (F := F) x4) (val_main_v3 (F := F) x4)

def val_main_v231 (x4 : (⟨S2x800000, .i32⟩ : BufTy).Contents (Elt F)) : (⟨S800000x1, .i32⟩ : BufTy).Contents (Elt F) :=
  broadcastInDim S800000x1 ![0] bcast_S800000_S800000x1_0 (val_main_v230 (F := F) x4)

def val_main_v232 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S800000x64, .f32⟩ : BufTy).Contents (Elt F) :=
  Host.gather gather_S50000x64_S800000x1_S800000x64_1_0_n_n_0_1_164 (val_main_v110 (F := F) x0 x3 x4 x5 x7 x8 x9 x10 x11 x12 x13 x14 x15 x16 x17 x18 x19 x20 x21 x22 x23 x24 x25) (val_main_v231 (F := F) x4)

def val_main_v233 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S800000x131, .f32⟩ : BufTy).Contents (Elt F) :=
  concatenate S800000x131 1 [⟨S800000x64, (val_main_v225 (F := F) x0 x3 x4 x5 x7 x8 x9 x10 x11 x12 x13 x14 x15 x16 x17 x18 x19 x20 x21 x22 x23 x24 x25)⟩, ⟨S800000x64, (val_main_v232 (F := F) x0 x3 x4 x5 x7 x8 x9 x10 x11 x12 x13 x14 x15 x16 x17 x18 x19 x20 x21 x22 x23 x24 x25)⟩, ⟨S800000x3, (x5)⟩] concatenates_S800000x64_S800000x64_S800000x3_S800000x131_d1

def val_main_v234 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S800000x64, .f32⟩ : BufTy).Contents (Elt F) :=
  Host.dotGeneral dot_S800000x131_S131x64_S800000x64_1_0_0_1_n_n none (val_main_v233 (F := F) x0 x3 x4 x5 x7 x8 x9 x10 x11 x12 x13 x14 x15 x16 x17 x18 x19 x20 x21 x22 x23 x24 x25) (x12)

def val_main_v235 (x13 : (⟨S64, .f32⟩ : BufTy).Contents (Elt F)) : (⟨S1x64, .f32⟩ : BufTy).Contents (Elt F) :=
  broadcastInDim S1x64 ![1] bcast_S64_S1x64_1 (x13)

def val_main_v236 (x13 : (⟨S64, .f32⟩ : BufTy).Contents (Elt F)) : (⟨S800000x64, .f32⟩ : BufTy).Contents (Elt F) :=
  broadcastInDim S800000x64 ![0, 1] bcast_S1x64_S800000x64_0_1 (val_main_v235 (F := F) x13)

def val_main_v237 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S800000x64, .f32⟩ : BufTy).Contents (Elt F) :=
  addf (val_main_v234 (F := F) x0 x3 x4 x5 x7 x8 x9 x10 x11 x12 x13 x14 x15 x16 x17 x18 x19 x20 x21 x22 x23 x24 x25) (val_main_v236 (F := F) x13)

def val_main_cst_42 : (⟨S_, .f32⟩ : BufTy).Contents (Elt F) :=
  constant S_ .f32 0x00000000#32

def val_main_v238 : (⟨S800000x64, .f32⟩ : BufTy).Contents (Elt F) :=
  broadcastInDim S800000x64 ![] bcast_S_S800000x64 (val_main_cst_42 (F := F))

def val_main_v239 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S800000x64, .f32⟩ : BufTy).Contents (Elt F) :=
  maximumf (val_main_v237 (F := F) x0 x3 x4 x5 x7 x8 x9 x10 x11 x12 x13 x14 x15 x16 x17 x18 x19 x20 x21 x22 x23 x24 x25) (val_main_v238 (F := F))

def val_main_v240 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S800000x64, .f32⟩ : BufTy).Contents (Elt F) :=
  Host.dotGeneral dot_S800000x64_S64x64_S800000x64_1_0_0_1_n_n none (val_main_v239 (F := F) x0 x3 x4 x5 x7 x8 x9 x10 x11 x12 x13 x14 x15 x16 x17 x18 x19 x20 x21 x22 x23 x24 x25) (x14)

def val_main_v241 (x15 : (⟨S64, .f32⟩ : BufTy).Contents (Elt F)) : (⟨S1x64, .f32⟩ : BufTy).Contents (Elt F) :=
  broadcastInDim S1x64 ![1] bcast_S64_S1x64_1 (x15)

def val_main_v242 (x15 : (⟨S64, .f32⟩ : BufTy).Contents (Elt F)) : (⟨S800000x64, .f32⟩ : BufTy).Contents (Elt F) :=
  broadcastInDim S800000x64 ![0, 1] bcast_S1x64_S800000x64_0_1 (val_main_v241 (F := F) x15)

def val_main_v243 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S800000x64, .f32⟩ : BufTy).Contents (Elt F) :=
  addf (val_main_v240 (F := F) x0 x3 x4 x5 x7 x8 x9 x10 x11 x12 x13 x14 x15 x16 x17 x18 x19 x20 x21 x22 x23 x24 x25) (val_main_v242 (F := F) x15)

def val_main_v244 (x4 : (⟨S2x800000, .i32⟩ : BufTy).Contents (Elt F)) : (⟨S800000x64, .f32⟩ : BufTy).Contents (Elt F) :=
  broadcastInDim S800000x64 ![0, 1] bcast_S800000x1_S800000x64_0_1 (val_main_v6 (F := F) x4)

def val_main_v245 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S800000x64, .f32⟩ : BufTy).Contents (Elt F) :=
  mulf (val_main_v243 (F := F) x0 x3 x4 x5 x7 x8 x9 x10 x11 x12 x13 x14 x15 x16 x17 x18 x19 x20 x21 x22 x23 x24 x25) (val_main_v244 (F := F) x4)

def val_main_cst_43 : (⟨S_, .f32⟩ : BufTy).Contents (Elt F) :=
  constant S_ .f32 0x00000000#32

def val_main_v246 : (⟨S50000x64, .f32⟩ : BufTy).Contents (Elt F) :=
  broadcastInDim S50000x64 ![] bcast_S_S50000x64 (val_main_cst_43 (F := F))

def val_main_v247 (x4 : (⟨S2x800000, .i32⟩ : BufTy).Contents (Elt F)) : (⟨S800000x1, .i32⟩ : BufTy).Contents (Elt F) :=
  broadcastInDim S800000x1 ![0] bcast_S800000_S800000x1_0 (val_main_v1 (F := F) x4)

def val_main_v248 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  Host.scatterAdd scatter_S50000x64_S800000x1_S800000x64_1_0_0_1 (val_main_v246 (F := F)) (val_main_v247 (F := F) x4) (val_main_v245 (F := F) x0 x3 x4 x5 x7 x8 x9 x10 x11 x12 x13 x14 x15 x16 x17 x18 x19 x20 x21 x22 x23 x24 x25)

def val_main_v249 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x194, .f32⟩ : BufTy).Contents (Elt F) :=
  concatenate S50000x194 1 [⟨S50000x64, (val_main_v110 (F := F) x0 x3 x4 x5 x7 x8 x9 x10 x11 x12 x13 x14 x15 x16 x17 x18 x19 x20 x21 x22 x23 x24 x25)⟩, ⟨S50000x64, (val_main_v218 (F := F) x0 x3 x4 x5 x7 x8 x9 x10 x11 x12 x13 x14 x15 x16 x17 x18 x19 x20 x21 x22 x23 x24 x25)⟩, ⟨S50000x64, (val_main_v248 (F := F) x0 x3 x4 x5 x7 x8 x9 x10 x11 x12 x13 x14 x15 x16 x17 x18 x19 x20 x21 x22 x23 x24 x25)⟩, ⟨S50000x2, (x7)⟩] concatenates_S50000x64_S50000x64_S50000x64_S50000x2_S50000x194_d1

def val_main_v250 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  Host.dotGeneral dot_S50000x194_S194x64_S50000x64_1_0_0_1_n_n none (val_main_v249 (F := F) x0 x3 x4 x5 x7 x8 x9 x10 x11 x12 x13 x14 x15 x16 x17 x18 x19 x20 x21 x22 x23 x24 x25) (x16)

def val_main_v251 (x17 : (⟨S64, .f32⟩ : BufTy).Contents (Elt F)) : (⟨S1x64, .f32⟩ : BufTy).Contents (Elt F) :=
  broadcastInDim S1x64 ![1] bcast_S64_S1x64_1 (x17)

def val_main_v252 (x17 : (⟨S64, .f32⟩ : BufTy).Contents (Elt F)) : (⟨S50000x64, .f32⟩ : BufTy).Contents (Elt F) :=
  broadcastInDim S50000x64 ![0, 1] bcast_S1x64_S50000x64_0_1 (val_main_v251 (F := F) x17)

def val_main_v253 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  addf (val_main_v250 (F := F) x0 x3 x4 x5 x7 x8 x9 x10 x11 x12 x13 x14 x15 x16 x17 x18 x19 x20 x21 x22 x23 x24 x25) (val_main_v252 (F := F) x17)

def val_main_v254 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  Host.negf (val_main_v253 (F := F) x0 x3 x4 x5 x7 x8 x9 x10 x11 x12 x13 x14 x15 x16 x17 x18 x19 x20 x21 x22 x23 x24 x25)

def val_main_v255 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  Host.exp (val_main_v254 (F := F) x0 x3 x4 x5 x7 x8 x9 x10 x11 x12 x13 x14 x15 x16 x17 x18 x19 x20 x21 x22 x23 x24 x25)

def val_main_cst_44 : (⟨S_, .f32⟩ : BufTy).Contents (Elt F) :=
  constant S_ .f32 0x3F800000#32

def val_main_v256 : (⟨S50000x64, .f32⟩ : BufTy).Contents (Elt F) :=
  broadcastInDim S50000x64 ![] bcast_S_S50000x64 (val_main_cst_44 (F := F))

def val_main_v257 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  addf (val_main_v256 (F := F)) (val_main_v255 (F := F) x0 x3 x4 x5 x7 x8 x9 x10 x11 x12 x13 x14 x15 x16 x17 x18 x19 x20 x21 x22 x23 x24 x25)

def val_main_cst_45 : (⟨S_, .f32⟩ : BufTy).Contents (Elt F) :=
  constant S_ .f32 0x3F800000#32

def val_main_v258 : (⟨S50000x64, .f32⟩ : BufTy).Contents (Elt F) :=
  broadcastInDim S50000x64 ![] bcast_S_S50000x64 (val_main_cst_45 (F := F))

def val_main_v259 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  Host.divf (val_main_v258 (F := F)) (val_main_v257 (F := F) x0 x3 x4 x5 x7 x8 x9 x10 x11 x12 x13 x14 x15 x16 x17 x18 x19 x20 x21 x22 x23 x24 x25)

def val_main_v260 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  Host.dotGeneral dot_S50000x194_S194x64_S50000x64_1_0_0_1_n_n none (val_main_v249 (F := F) x0 x3 x4 x5 x7 x8 x9 x10 x11 x12 x13 x14 x15 x16 x17 x18 x19 x20 x21 x22 x23 x24 x25) (x18)

def val_main_v261 (x19 : (⟨S64, .f32⟩ : BufTy).Contents (Elt F)) : (⟨S1x64, .f32⟩ : BufTy).Contents (Elt F) :=
  broadcastInDim S1x64 ![1] bcast_S64_S1x64_1 (x19)

def val_main_v262 (x19 : (⟨S64, .f32⟩ : BufTy).Contents (Elt F)) : (⟨S50000x64, .f32⟩ : BufTy).Contents (Elt F) :=
  broadcastInDim S50000x64 ![0, 1] bcast_S1x64_S50000x64_0_1 (val_main_v261 (F := F) x19)

def val_main_v263 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  addf (val_main_v260 (F := F) x0 x3 x4 x5 x7 x8 x9 x10 x11 x12 x13 x14 x15 x16 x17 x18 x19 x20 x21 x22 x23 x24 x25) (val_main_v262 (F := F) x19)

def val_main_v264 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  Host.negf (val_main_v263 (F := F) x0 x3 x4 x5 x7 x8 x9 x10 x11 x12 x13 x14 x15 x16 x17 x18 x19 x20 x21 x22 x23 x24 x25)

def val_main_v265 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  Host.exp (val_main_v264 (F := F) x0 x3 x4 x5 x7 x8 x9 x10 x11 x12 x13 x14 x15 x16 x17 x18 x19 x20 x21 x22 x23 x24 x25)

def val_main_cst_46 : (⟨S_, .f32⟩ : BufTy).Contents (Elt F) :=
  constant S_ .f32 0x3F800000#32

def val_main_v266 : (⟨S50000x64, .f32⟩ : BufTy).Contents (Elt F) :=
  broadcastInDim S50000x64 ![] bcast_S_S50000x64 (val_main_cst_46 (F := F))

def val_main_v267 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  addf (val_main_v266 (F := F)) (val_main_v265 (F := F) x0 x3 x4 x5 x7 x8 x9 x10 x11 x12 x13 x14 x15 x16 x17 x18 x19 x20 x21 x22 x23 x24 x25)

def val_main_cst_47 : (⟨S_, .f32⟩ : BufTy).Contents (Elt F) :=
  constant S_ .f32 0x3F800000#32

def val_main_v268 : (⟨S50000x64, .f32⟩ : BufTy).Contents (Elt F) :=
  broadcastInDim S50000x64 ![] bcast_S_S50000x64 (val_main_cst_47 (F := F))

def val_main_v269 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  Host.divf (val_main_v268 (F := F)) (val_main_v267 (F := F) x0 x3 x4 x5 x7 x8 x9 x10 x11 x12 x13 x14 x15 x16 x17 x18 x19 x20 x21 x22 x23 x24 x25)

def val_main_v270 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  mulf (val_main_v269 (F := F) x0 x3 x4 x5 x7 x8 x9 x10 x11 x12 x13 x14 x15 x16 x17 x18 x19 x20 x21 x22 x23 x24 x25) (val_main_v110 (F := F) x0 x3 x4 x5 x7 x8 x9 x10 x11 x12 x13 x14 x15 x16 x17 x18 x19 x20 x21 x22 x23 x24 x25)

def val_main_v271 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x194, .f32⟩ : BufTy).Contents (Elt F) :=
  concatenate S50000x194 1 [⟨S50000x64, (val_main_v270 (F := F) x0 x3 x4 x5 x7 x8 x9 x10 x11 x12 x13 x14 x15 x16 x17 x18 x19 x20 x21 x22 x23 x24 x25)⟩, ⟨S50000x64, (val_main_v218 (F := F) x0 x3 x4 x5 x7 x8 x9 x10 x11 x12 x13 x14 x15 x16 x17 x18 x19 x20 x21 x22 x23 x24 x25)⟩, ⟨S50000x64, (val_main_v248 (F := F) x0 x3 x4 x5 x7 x8 x9 x10 x11 x12 x13 x14 x15 x16 x17 x18 x19 x20 x21 x22 x23 x24 x25)⟩, ⟨S50000x2, (x7)⟩] concatenates_S50000x64_S50000x64_S50000x64_S50000x2_S50000x194_d1

def val_main_v272 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  Host.dotGeneral dot_S50000x194_S194x64_S50000x64_1_0_0_1_n_n none (val_main_v271 (F := F) x0 x3 x4 x5 x7 x8 x9 x10 x11 x12 x13 x14 x15 x16 x17 x18 x19 x20 x21 x22 x23 x24 x25) (x20)

def val_main_v273 (x21 : (⟨S64, .f32⟩ : BufTy).Contents (Elt F)) : (⟨S1x64, .f32⟩ : BufTy).Contents (Elt F) :=
  broadcastInDim S1x64 ![1] bcast_S64_S1x64_1 (x21)

def val_main_v274 (x21 : (⟨S64, .f32⟩ : BufTy).Contents (Elt F)) : (⟨S50000x64, .f32⟩ : BufTy).Contents (Elt F) :=
  broadcastInDim S50000x64 ![0, 1] bcast_S1x64_S50000x64_0_1 (val_main_v273 (F := F) x21)

def val_main_v275 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  addf (val_main_v272 (F := F) x0 x3 x4 x5 x7 x8 x9 x10 x11 x12 x13 x14 x15 x16 x17 x18 x19 x20 x21 x22 x23 x24 x25) (val_main_v274 (F := F) x21)

def val_main_v276 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  Host.tanh (val_main_v275 (F := F) x0 x3 x4 x5 x7 x8 x9 x10 x11 x12 x13 x14 x15 x16 x17 x18 x19 x20 x21 x22 x23 x24 x25)

def val_main_v277 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  mulf (val_main_v259 (F := F) x0 x3 x4 x5 x7 x8 x9 x10 x11 x12 x13 x14 x15 x16 x17 x18 x19 x20 x21 x22 x23 x24 x25) (val_main_v276 (F := F) x0 x3 x4 x5 x7 x8 x9 x10 x11 x12 x13 x14 x15 x16 x17 x18 x19 x20 x21 x22 x23 x24 x25)

def val_main_v278 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  addf (val_main_v110 (F := F) x0 x3 x4 x5 x7 x8 x9 x10 x11 x12 x13 x14 x15 x16 x17 x18 x19 x20 x21 x22 x23 x24 x25) (val_main_v277 (F := F) x0 x3 x4 x5 x7 x8 x9 x10 x11 x12 x13 x14 x15 x16 x17 x18 x19 x20 x21 x22 x23 x24 x25)

def val_main_call1_v0 (x3 : (⟨S50000, .i32⟩ : BufTy).Contents (Elt F)) : (⟨S50000x64, .i1⟩ : BufTy).Contents (Elt F) :=
  broadcastInDim S50000x64 ![0, 1] bcast_S50000x1_S50000x64_0_1 (val_main_v9 (F := F) x3)

def val_main_v279 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) : (⟨S50000x64, .f32⟩ : BufTy).Contents (Elt F) :=
  select (val_main_call1_v0 (F := F) x3) (val_main_v19 (F := F) x0 x22 x23 x24 x25) (val_main_v278 (F := F) x0 x3 x4 x5 x7 x8 x9 x10 x11 x12 x13 x14 x15 x16 x17 x18 x19 x20 x21 x22 x23 x24 x25)

def val_main_v280 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) : (⟨S50000x64, .f32⟩ : BufTy).Contents (Elt F) :=
  Host.dotGeneral dot_S50000x64_S64x64_S50000x64_1_0_0_1_n_n none (val_main_v279 (F := F) x0 x3 x4 x5 x7 x8 x9 x10 x11 x12 x13 x14 x15 x16 x17 x18 x19 x20 x21 x22 x23 x24 x25) (x26)

def val_main_v281 (x27 : (⟨S64, .f32⟩ : BufTy).Contents (Elt F)) : (⟨S1x64, .f32⟩ : BufTy).Contents (Elt F) :=
  broadcastInDim S1x64 ![1] bcast_S64_S1x64_1 (x27)

def val_main_v282 (x27 : (⟨S64, .f32⟩ : BufTy).Contents (Elt F)) : (⟨S50000x64, .f32⟩ : BufTy).Contents (Elt F) :=
  broadcastInDim S50000x64 ![0, 1] bcast_S1x64_S50000x64_0_1 (val_main_v281 (F := F) x27)

def val_main_v283 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) : (⟨S50000x64, .f32⟩ : BufTy).Contents (Elt F) :=
  addf (val_main_v280 (F := F) x0 x3 x4 x5 x7 x8 x9 x10 x11 x12 x13 x14 x15 x16 x17 x18 x19 x20 x21 x22 x23 x24 x25 x26) (val_main_v282 (F := F) x27)

def val_main_cst_48 : (⟨S_, .f32⟩ : BufTy).Contents (Elt F) :=
  constant S_ .f32 0x00000000#32

def val_main_v284 : (⟨S50000x64, .f32⟩ : BufTy).Contents (Elt F) :=
  broadcastInDim S50000x64 ![] bcast_S_S50000x64 (val_main_cst_48 (F := F))

def val_main_v285 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) : (⟨S50000x64, .f32⟩ : BufTy).Contents (Elt F) :=
  maximumf (val_main_v283 (F := F) x0 x3 x4 x5 x7 x8 x9 x10 x11 x12 x13 x14 x15 x16 x17 x18 x19 x20 x21 x22 x23 x24 x25 x26 x27) (val_main_v284 (F := F))

def val_main_v286 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) : (⟨S50000x1, .f32⟩ : BufTy).Contents (Elt F) :=
  Host.dotGeneral dot_S50000x64_S64x1_S50000x1_1_0_0_1_n_n none (val_main_v285 (F := F) x0 x3 x4 x5 x7 x8 x9 x10 x11 x12 x13 x14 x15 x16 x17 x18 x19 x20 x21 x22 x23 x24 x25 x26 x27) (x28)

def val_main_v287 (x29 : (⟨S1, .f32⟩ : BufTy).Contents (Elt F)) : (⟨S1x1, .f32⟩ : BufTy).Contents (Elt F) :=
  broadcastInDim S1x1 ![1] bcast_S1_S1x1_1 (x29)

def val_main_v288 (x29 : (⟨S1, .f32⟩ : BufTy).Contents (Elt F)) : (⟨S50000x1, .f32⟩ : BufTy).Contents (Elt F) :=
  broadcastInDim S50000x1 ![0, 1] bcast_S1x1_S50000x1_0_1 (val_main_v287 (F := F) x29)

def val_main_v289 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x1, .f32⟩ : BufTy).Contents (Elt F) :=
  addf (val_main_v286 (F := F) x0 x3 x4 x5 x7 x8 x9 x10 x11 x12 x13 x14 x15 x16 x17 x18 x19 x20 x21 x22 x23 x24 x25 x26 x27 x28) (val_main_v288 (F := F) x29)

def val_main_v290 (x6 : (⟨S800000, .f32⟩ : BufTy).Contents (Elt F)) : (⟨S800000x1, .f32⟩ : BufTy).Contents (Elt F) :=
  broadcastInDim S800000x1 ![0] bcast_S800000_S800000x1_0 (x6)

def val_main_c_49 : (⟨S_, .i32⟩ : BufTy).Contents (Elt F) :=
  constantI S_ 32 0#32

def val_main_v291 : (⟨S800000, .i32⟩ : BufTy).Contents (Elt F) :=
  broadcastInDim S800000 ![] bcast_S_S800000 (val_main_c_49 (F := F))

def val_main_v292 (x4 : (⟨S2x800000, .i32⟩ : BufTy).Contents (Elt F)) : (⟨S800000, .i1⟩ : BufTy).Contents (Elt F) :=
  cmpi .slt (val_main_v3 (F := F) x4) (val_main_v291 (F := F))

def val_main_c_50 : (⟨S_, .i32⟩ : BufTy).Contents (Elt F) :=
  constantI S_ 32 50000#32

def val_main_v293 : (⟨S800000, .i32⟩ : BufTy).Contents (Elt F) :=
  broadcastInDim S800000 ![] bcast_S_S800000 (val_main_c_50 (F := F))

def val_main_v294 (x4 : (⟨S2x800000, .i32⟩ : BufTy).Contents (Elt F)) : (⟨S800000, .i32⟩ : BufTy).Contents (Elt F) :=
  addi (val_main_v3 (F := F) x4) (val_main_v293 (F := F))

def val_main_v295 (x4 : (⟨S2x800000, .i32⟩ : BufTy).Contents (Elt F)) : (⟨S800000, .i32⟩ : BufTy).Contents (Elt F) :=
  select (val_main_v292 (F := F) x4) (val_main_v294 (F := F) x4) (val_main_v3 (F := F) x4)

def val_main_v296 (x4 : (⟨S2x800000, .i32⟩ : BufTy).Contents (Elt F)) : (⟨S800000x1, .i32⟩ : BufTy).Contents (Elt F) :=
  broadcastInDim S800000x1 ![0] bcast_S800000_S800000x1_0 (val_main_v295 (F := F) x4)

def val_main_v297 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S800000x1, .f32⟩ : BufTy).Contents (Elt F) :=
  Host.gather gather_S50000x1_S800000x1_S800000x1_1_0_n_n_0_1_11 (val_main_v289 (F := F) x0 x3 x4 x5 x7 x8 x9 x10 x11 x12 x13 x14 x15 x16 x17 x18 x19 x20 x21 x22 x23 x24 x25 x26 x27 x28 x29) (val_main_v296 (F := F) x4)

def val_main_v298 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x6 : (⟨S800000, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S800000x1, .f32⟩ : BufTy).Contents (Elt F) :=
  mulf (val_main_v290 (F := F) x6) (val_main_v297 (F := F) x0 x3 x4 x5 x7 x8 x9 x10 x11 x12 x13 x14 x15 x16 x17 x18 x19 x20 x21 x22 x23 x24 x25 x26 x27 x28 x29)

def val_main_cst_51 : (⟨S_, .f32⟩ : BufTy).Contents (Elt F) :=
  constant S_ .f32 0x00000000#32

def val_main_v299 : (⟨S50000x1, .f32⟩ : BufTy).Contents (Elt F) :=
  broadcastInDim S50000x1 ![] bcast_S_S50000x1 (val_main_cst_51 (F := F))

def val_main_v300 (x4 : (⟨S2x800000, .i32⟩ : BufTy).Contents (Elt F)) : (⟨S800000x1, .i32⟩ : BufTy).Contents (Elt F) :=
  broadcastInDim S800000x1 ![0] bcast_S800000_S800000x1_0 (val_main_v1 (F := F) x4)

def val_main_v301 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x6 : (⟨S800000, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x1, .f32⟩ : BufTy).Contents (Elt F) :=
  Host.scatterAdd scatter_S50000x1_S800000x1_S800000x1_1_0_0_1 (val_main_v299 (F := F)) (val_main_v300 (F := F) x4) (val_main_v298 (F := F) x0 x3 x4 x5 x6 x7 x8 x9 x10 x11 x12 x13 x14 x15 x16 x17 x18 x19 x20 x21 x22 x23 x24 x25 x26 x27 x28 x29)

def val_main_v302 (x0 x2 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x6 : (⟨S800000, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x1, .f32⟩ : BufTy).Contents (Elt F) :=
  subf (val_main_v301 (F := F) x0 x3 x4 x5 x6 x7 x8 x9 x10 x11 x12 x13 x14 x15 x16 x17 x18 x19 x20 x21 x22 x23 x24 x25 x26 x27 x28 x29) (x2)

def val_main_v303 (x0 x2 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x6 : (⟨S800000, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x1, .f32⟩ : BufTy).Contents (Elt F) :=
  mulf (val_main_v302 (F := F) x0 x2 x3 x4 x5 x6 x7 x8 x9 x10 x11 x12 x13 x14 x15 x16 x17 x18 x19 x20 x21 x22 x23 x24 x25 x26 x27 x28 x29) (val_main_v302 (F := F) x0 x2 x3 x4 x5 x6 x7 x8 x9 x10 x11 x12 x13 x14 x15 x16 x17 x18 x19 x20 x21 x22 x23 x24 x25 x26 x27 x28 x29)

def val_main_cst_52 : (⟨S_, .f32⟩ : BufTy).Contents (Elt F) :=
  constant S_ .f32 0x00000000#32

def val_main_v304 (x0 x2 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x6 : (⟨S800000, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S_, .f32⟩ : BufTy).Contents (Elt F) :=
  Host.reduceAdd (val_main_v303 (F := F) x0 x2 x3 x4 x5 x6 x7 x8 x9 x10 x11 x12 x13 x14 x15 x16 x17 x18 x19 x20 x21 x22 x23 x24 x25 x26 x27 x28 x29) (val_main_cst_52 (F := F)) reducesTo_S50000x1_S_d0_1 h_S_

def val_main_cst_53 : (⟨S_, .f32⟩ : BufTy).Contents (Elt F) :=
  constant S_ .f32 0x47435000#32

def val_main_v305 (x0 x2 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x6 : (⟨S800000, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S_, .f32⟩ : BufTy).Contents (Elt F) :=
  Host.divf (val_main_v304 (F := F) x0 x2 x3 x4 x5 x6 x7 x8 x9 x10 x11 x12 x13 x14 x15 x16 x17 x18 x19 x20 x21 x22 x23 x24 x25 x26 x27 x28 x29) (val_main_cst_53 (F := F))

def val_main_v306 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) : (⟨S50000x64, .f32⟩ : BufTy).Contents (Elt F) :=
  Host.dotGeneral dot_S50000x64_S64x64_S50000x64_1_0_0_1_n_n none (val_main_v279 (F := F) x0 x3 x4 x5 x7 x8 x9 x10 x11 x12 x13 x14 x15 x16 x17 x18 x19 x20 x21 x22 x23 x24 x25) (x26)

def val_main_v307 (x27 : (⟨S64, .f32⟩ : BufTy).Contents (Elt F)) : (⟨S1x64, .f32⟩ : BufTy).Contents (Elt F) :=
  broadcastInDim S1x64 ![1] bcast_S64_S1x64_1 (x27)

def val_main_v308 (x27 : (⟨S64, .f32⟩ : BufTy).Contents (Elt F)) : (⟨S50000x64, .f32⟩ : BufTy).Contents (Elt F) :=
  broadcastInDim S50000x64 ![0, 1] bcast_S1x64_S50000x64_0_1 (val_main_v307 (F := F) x27)

def val_main_v309 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) : (⟨S50000x64, .f32⟩ : BufTy).Contents (Elt F) :=
  addf (val_main_v306 (F := F) x0 x3 x4 x5 x7 x8 x9 x10 x11 x12 x13 x14 x15 x16 x17 x18 x19 x20 x21 x22 x23 x24 x25 x26) (val_main_v308 (F := F) x27)

def val_main_cst_54 : (⟨S_, .f32⟩ : BufTy).Contents (Elt F) :=
  constant S_ .f32 0x00000000#32

def val_main_v310 : (⟨S50000x64, .f32⟩ : BufTy).Contents (Elt F) :=
  broadcastInDim S50000x64 ![] bcast_S_S50000x64 (val_main_cst_54 (F := F))

def val_main_v311 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) : (⟨S50000x64, .f32⟩ : BufTy).Contents (Elt F) :=
  maximumf (val_main_v309 (F := F) x0 x3 x4 x5 x7 x8 x9 x10 x11 x12 x13 x14 x15 x16 x17 x18 x19 x20 x21 x22 x23 x24 x25 x26 x27) (val_main_v310 (F := F))

def val_main_v312 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) : (⟨S50000x1, .f32⟩ : BufTy).Contents (Elt F) :=
  Host.dotGeneral dot_S50000x64_S64x1_S50000x1_1_0_0_1_n_n none (val_main_v311 (F := F) x0 x3 x4 x5 x7 x8 x9 x10 x11 x12 x13 x14 x15 x16 x17 x18 x19 x20 x21 x22 x23 x24 x25 x26 x27) (x28)

def val_main_v313 (x29 : (⟨S1, .f32⟩ : BufTy).Contents (Elt F)) : (⟨S1x1, .f32⟩ : BufTy).Contents (Elt F) :=
  broadcastInDim S1x1 ![1] bcast_S1_S1x1_1 (x29)

def val_main_v314 (x29 : (⟨S1, .f32⟩ : BufTy).Contents (Elt F)) : (⟨S50000x1, .f32⟩ : BufTy).Contents (Elt F) :=
  broadcastInDim S50000x1 ![0, 1] bcast_S1x1_S50000x1_0_1 (val_main_v313 (F := F) x29)

def val_main_v315 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x1, .f32⟩ : BufTy).Contents (Elt F) :=
  addf (val_main_v312 (F := F) x0 x3 x4 x5 x7 x8 x9 x10 x11 x12 x13 x14 x15 x16 x17 x18 x19 x20 x21 x22 x23 x24 x25 x26 x27 x28) (val_main_v314 (F := F) x29)

def val_main_v316 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x64, .f32⟩ : BufTy).Contents (Elt F) :=
  Host.dotGeneral dot_S50000x1_S1x64_S50000x64_1_0_0_1_n_n none (val_main_v315 (F := F) x0 x3 x4 x5 x7 x8 x9 x10 x11 x12 x13 x14 x15 x16 x17 x18 x19 x20 x21 x22 x23 x24 x25 x26 x27 x28 x29) (x22)

def val_main_v317 (x23 : (⟨S64, .f32⟩ : BufTy).Contents (Elt F)) : (⟨S1x64, .f32⟩ : BufTy).Contents (Elt F) :=
  broadcastInDim S1x64 ![1] bcast_S64_S1x64_1 (x23)

def val_main_v318 (x23 : (⟨S64, .f32⟩ : BufTy).Contents (Elt F)) : (⟨S50000x64, .f32⟩ : BufTy).Contents (Elt F) :=
  broadcastInDim S50000x64 ![0, 1] bcast_S1x64_S50000x64_0_1 (val_main_v317 (F := F) x23)

def val_main_v319 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x64, .f32⟩ : BufTy).Contents (Elt F) :=
  addf (val_main_v316 (F := F) x0 x3 x4 x5 x7 x8 x9 x10 x11 x12 x13 x14 x15 x16 x17 x18 x19 x20 x21 x22 x23 x24 x25 x26 x27 x28 x29) (val_main_v318 (F := F) x23)

def val_main_cst_55 : (⟨S_, .f32⟩ : BufTy).Contents (Elt F) :=
  constant S_ .f32 0x00000000#32

def val_main_v320 : (⟨S50000x64, .f32⟩ : BufTy).Contents (Elt F) :=
  broadcastInDim S50000x64 ![] bcast_S_S50000x64 (val_main_cst_55 (F := F))

def val_main_v321 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x64, .f32⟩ : BufTy).Contents (Elt F) :=
  maximumf (val_main_v319 (F := F) x0 x3 x4 x5 x7 x8 x9 x10 x11 x12 x13 x14 x15 x16 x17 x18 x19 x20 x21 x22 x23 x24 x25 x26 x27 x28 x29) (val_main_v320 (F := F))

def val_main_v322 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x64, .f32⟩ : BufTy).Contents (Elt F) :=
  Host.dotGeneral dot_S50000x64_S64x64_S50000x64_1_0_0_1_n_n none (val_main_v321 (F := F) x0 x3 x4 x5 x7 x8 x9 x10 x11 x12 x13 x14 x15 x16 x17 x18 x19 x20 x21 x22 x23 x24 x25 x26 x27 x28 x29) (x24)

def val_main_v323 (x25 : (⟨S64, .f32⟩ : BufTy).Contents (Elt F)) : (⟨S1x64, .f32⟩ : BufTy).Contents (Elt F) :=
  broadcastInDim S1x64 ![1] bcast_S64_S1x64_1 (x25)

def val_main_v324 (x25 : (⟨S64, .f32⟩ : BufTy).Contents (Elt F)) : (⟨S50000x64, .f32⟩ : BufTy).Contents (Elt F) :=
  broadcastInDim S50000x64 ![0, 1] bcast_S1x64_S50000x64_0_1 (val_main_v323 (F := F) x25)

def val_main_v325 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x64, .f32⟩ : BufTy).Contents (Elt F) :=
  addf (val_main_v322 (F := F) x0 x3 x4 x5 x7 x8 x9 x10 x11 x12 x13 x14 x15 x16 x17 x18 x19 x20 x21 x22 x23 x24 x25 x26 x27 x28 x29) (val_main_v324 (F := F) x25)

def val_main_v326 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x64, .f32⟩ : BufTy).Contents (Elt F) :=
  subf (val_main_v325 (F := F) x0 x3 x4 x5 x7 x8 x9 x10 x11 x12 x13 x14 x15 x16 x17 x18 x19 x20 x21 x22 x23 x24 x25 x26 x27 x28 x29) (val_main_v279 (F := F) x0 x3 x4 x5 x7 x8 x9 x10 x11 x12 x13 x14 x15 x16 x17 x18 x19 x20 x21 x22 x23 x24 x25)

def val_main_v327 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x64, .f32⟩ : BufTy).Contents (Elt F) :=
  mulf (val_main_v326 (F := F) x0 x3 x4 x5 x7 x8 x9 x10 x11 x12 x13 x14 x15 x16 x17 x18 x19 x20 x21 x22 x23 x24 x25 x26 x27 x28 x29) (val_main_v326 (F := F) x0 x3 x4 x5 x7 x8 x9 x10 x11 x12 x13 x14 x15 x16 x17 x18 x19 x20 x21 x22 x23 x24 x25 x26 x27 x28 x29)

def val_main_cst_56 : (⟨S_, .f32⟩ : BufTy).Contents (Elt F) :=
  constant S_ .f32 0x00000000#32

def val_main_v328 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S_, .f32⟩ : BufTy).Contents (Elt F) :=
  Host.reduceAdd (val_main_v327 (F := F) x0 x3 x4 x5 x7 x8 x9 x10 x11 x12 x13 x14 x15 x16 x17 x18 x19 x20 x21 x22 x23 x24 x25 x26 x27 x28 x29) (val_main_cst_56 (F := F)) reducesTo_S50000x64_S_d0_1 h_S_

def val_main_cst_57 : (⟨S_, .f32⟩ : BufTy).Contents (Elt F) :=
  constant S_ .f32 0x4A435000#32

def val_main_v329 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S_, .f32⟩ : BufTy).Contents (Elt F) :=
  Host.divf (val_main_v328 (F := F) x0 x3 x4 x5 x7 x8 x9 x10 x11 x12 x13 x14 x15 x16 x17 x18 x19 x20 x21 x22 x23 x24 x25 x26 x27 x28 x29) (val_main_cst_57 (F := F))

def val_main_v330 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x64, .f32⟩ : BufTy).Contents (Elt F) :=
  Host.dotGeneral dot_S50000x1_S1x64_S50000x64_1_0_0_1_n_n none (val_main_v289 (F := F) x0 x3 x4 x5 x7 x8 x9 x10 x11 x12 x13 x14 x15 x16 x17 x18 x19 x20 x21 x22 x23 x24 x25 x26 x27 x28 x29) (x22)

def val_main_v331 (x23 : (⟨S64, .f32⟩ : BufTy).Contents (Elt F)) : (⟨S1x64, .f32⟩ : BufTy).Contents (Elt F) :=
  broadcastInDim S1x64 ![1] bcast_S64_S1x64_1 (x23)

def val_main_v332 (x23 : (⟨S64, .f32⟩ : BufTy).Contents (Elt F)) : (⟨S50000x64, .f32⟩ : BufTy).Contents (Elt F) :=
  broadcastInDim S50000x64 ![0, 1] bcast_S1x64_S50000x64_0_1 (val_main_v331 (F := F) x23)

def val_main_v333 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x64, .f32⟩ : BufTy).Contents (Elt F) :=
  addf (val_main_v330 (F := F) x0 x3 x4 x5 x7 x8 x9 x10 x11 x12 x13 x14 x15 x16 x17 x18 x19 x20 x21 x22 x23 x24 x25 x26 x27 x28 x29) (val_main_v332 (F := F) x23)

def val_main_cst_58 : (⟨S_, .f32⟩ : BufTy).Contents (Elt F) :=
  constant S_ .f32 0x00000000#32

def val_main_v334 : (⟨S50000x64, .f32⟩ : BufTy).Contents (Elt F) :=
  broadcastInDim S50000x64 ![] bcast_S_S50000x64 (val_main_cst_58 (F := F))

def val_main_v335 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x64, .f32⟩ : BufTy).Contents (Elt F) :=
  maximumf (val_main_v333 (F := F) x0 x3 x4 x5 x7 x8 x9 x10 x11 x12 x13 x14 x15 x16 x17 x18 x19 x20 x21 x22 x23 x24 x25 x26 x27 x28 x29) (val_main_v334 (F := F))

def val_main_v336 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x64, .f32⟩ : BufTy).Contents (Elt F) :=
  Host.dotGeneral dot_S50000x64_S64x64_S50000x64_1_0_0_1_n_n none (val_main_v335 (F := F) x0 x3 x4 x5 x7 x8 x9 x10 x11 x12 x13 x14 x15 x16 x17 x18 x19 x20 x21 x22 x23 x24 x25 x26 x27 x28 x29) (x24)

def val_main_v337 (x25 : (⟨S64, .f32⟩ : BufTy).Contents (Elt F)) : (⟨S1x64, .f32⟩ : BufTy).Contents (Elt F) :=
  broadcastInDim S1x64 ![1] bcast_S64_S1x64_1 (x25)

def val_main_v338 (x25 : (⟨S64, .f32⟩ : BufTy).Contents (Elt F)) : (⟨S50000x64, .f32⟩ : BufTy).Contents (Elt F) :=
  broadcastInDim S50000x64 ![0, 1] bcast_S1x64_S50000x64_0_1 (val_main_v337 (F := F) x25)

def val_main_v339 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x64, .f32⟩ : BufTy).Contents (Elt F) :=
  addf (val_main_v336 (F := F) x0 x3 x4 x5 x7 x8 x9 x10 x11 x12 x13 x14 x15 x16 x17 x18 x19 x20 x21 x22 x23 x24 x25 x26 x27 x28 x29) (val_main_v338 (F := F) x25)

def val_main_v340 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x64, .f32⟩ : BufTy).Contents (Elt F) :=
  Host.dotGeneral dot_S50000x64_S64x64_S50000x64_1_0_0_1_n_n none (val_main_v339 (F := F) x0 x3 x4 x5 x7 x8 x9 x10 x11 x12 x13 x14 x15 x16 x17 x18 x19 x20 x21 x22 x23 x24 x25 x26 x27 x28 x29) (x26)

def val_main_v341 (x27 : (⟨S64, .f32⟩ : BufTy).Contents (Elt F)) : (⟨S1x64, .f32⟩ : BufTy).Contents (Elt F) :=
  broadcastInDim S1x64 ![1] bcast_S64_S1x64_1 (x27)

def val_main_v342 (x27 : (⟨S64, .f32⟩ : BufTy).Contents (Elt F)) : (⟨S50000x64, .f32⟩ : BufTy).Contents (Elt F) :=
  broadcastInDim S50000x64 ![0, 1] bcast_S1x64_S50000x64_0_1 (val_main_v341 (F := F) x27)

def val_main_v343 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x64, .f32⟩ : BufTy).Contents (Elt F) :=
  addf (val_main_v340 (F := F) x0 x3 x4 x5 x7 x8 x9 x10 x11 x12 x13 x14 x15 x16 x17 x18 x19 x20 x21 x22 x23 x24 x25 x26 x27 x28 x29) (val_main_v342 (F := F) x27)

def val_main_cst_59 : (⟨S_, .f32⟩ : BufTy).Contents (Elt F) :=
  constant S_ .f32 0x00000000#32

def val_main_v344 : (⟨S50000x64, .f32⟩ : BufTy).Contents (Elt F) :=
  broadcastInDim S50000x64 ![] bcast_S_S50000x64 (val_main_cst_59 (F := F))

def val_main_v345 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x64, .f32⟩ : BufTy).Contents (Elt F) :=
  maximumf (val_main_v343 (F := F) x0 x3 x4 x5 x7 x8 x9 x10 x11 x12 x13 x14 x15 x16 x17 x18 x19 x20 x21 x22 x23 x24 x25 x26 x27 x28 x29) (val_main_v344 (F := F))

def val_main_v346 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x1, .f32⟩ : BufTy).Contents (Elt F) :=
  Host.dotGeneral dot_S50000x64_S64x1_S50000x1_1_0_0_1_n_n none (val_main_v345 (F := F) x0 x3 x4 x5 x7 x8 x9 x10 x11 x12 x13 x14 x15 x16 x17 x18 x19 x20 x21 x22 x23 x24 x25 x26 x27 x28 x29) (x28)

def val_main_v347 (x29 : (⟨S1, .f32⟩ : BufTy).Contents (Elt F)) : (⟨S1x1, .f32⟩ : BufTy).Contents (Elt F) :=
  broadcastInDim S1x1 ![1] bcast_S1_S1x1_1 (x29)

def val_main_v348 (x29 : (⟨S1, .f32⟩ : BufTy).Contents (Elt F)) : (⟨S50000x1, .f32⟩ : BufTy).Contents (Elt F) :=
  broadcastInDim S50000x1 ![0, 1] bcast_S1x1_S50000x1_0_1 (val_main_v347 (F := F) x29)

def val_main_v349 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x1, .f32⟩ : BufTy).Contents (Elt F) :=
  addf (val_main_v346 (F := F) x0 x3 x4 x5 x7 x8 x9 x10 x11 x12 x13 x14 x15 x16 x17 x18 x19 x20 x21 x22 x23 x24 x25 x26 x27 x28 x29) (val_main_v348 (F := F) x29)

def val_main_v350 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x1, .f32⟩ : BufTy).Contents (Elt F) :=
  subf (val_main_v349 (F := F) x0 x3 x4 x5 x7 x8 x9 x10 x11 x12 x13 x14 x15 x16 x17 x18 x19 x20 x21 x22 x23 x24 x25 x26 x27 x28 x29) (val_main_v289 (F := F) x0 x3 x4 x5 x7 x8 x9 x10 x11 x12 x13 x14 x15 x16 x17 x18 x19 x20 x21 x22 x23 x24 x25 x26 x27 x28 x29)

def val_main_v351 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S50000x1, .f32⟩ : BufTy).Contents (Elt F) :=
  mulf (val_main_v350 (F := F) x0 x3 x4 x5 x7 x8 x9 x10 x11 x12 x13 x14 x15 x16 x17 x18 x19 x20 x21 x22 x23 x24 x25 x26 x27 x28 x29) (val_main_v350 (F := F) x0 x3 x4 x5 x7 x8 x9 x10 x11 x12 x13 x14 x15 x16 x17 x18 x19 x20 x21 x22 x23 x24 x25 x26 x27 x28 x29)

def val_main_cst_60 : (⟨S_, .f32⟩ : BufTy).Contents (Elt F) :=
  constant S_ .f32 0x00000000#32

def val_main_v352 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S_, .f32⟩ : BufTy).Contents (Elt F) :=
  Host.reduceAdd (val_main_v351 (F := F) x0 x3 x4 x5 x7 x8 x9 x10 x11 x12 x13 x14 x15 x16 x17 x18 x19 x20 x21 x22 x23 x24 x25 x26 x27 x28 x29) (val_main_cst_60 (F := F)) reducesTo_S50000x1_S_d0_1 h_S_

def val_main_cst_61 : (⟨S_, .f32⟩ : BufTy).Contents (Elt F) :=
  constant S_ .f32 0x47435000#32

def val_main_v353 (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S_, .f32⟩ : BufTy).Contents (Elt F) :=
  Host.divf (val_main_v352 (F := F) x0 x3 x4 x5 x7 x8 x9 x10 x11 x12 x13 x14 x15 x16 x17 x18 x19 x20 x21 x22 x23 x24 x25 x26 x27 x28 x29) (val_main_cst_61 (F := F))

def val_main_cst_62 : (⟨S_, .f32⟩ : BufTy).Contents (Elt F) :=
  constant S_ .f32 0x3F800000#32

def val_main_v354 (x0 x2 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x6 : (⟨S800000, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S_, .f32⟩ : BufTy).Contents (Elt F) :=
  mulf (val_main_v305 (F := F) x0 x2 x3 x4 x5 x6 x7 x8 x9 x10 x11 x12 x13 x14 x15 x16 x17 x18 x19 x20 x21 x22 x23 x24 x25 x26 x27 x28 x29) (val_main_cst_62 (F := F))

def val_main_v355 (x0 x2 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x6 : (⟨S800000, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S_, .f32⟩ : BufTy).Contents (Elt F) :=
  addf (val_main_v188 (F := F) x0 x2 x3 x4 x5 x6 x7 x8 x9 x10 x11 x12 x13 x14 x15 x16 x17 x18 x19 x20 x21 x22 x23 x24 x25 x26 x27 x28 x29) (val_main_v354 (F := F) x0 x2 x3 x4 x5 x6 x7 x8 x9 x10 x11 x12 x13 x14 x15 x16 x17 x18 x19 x20 x21 x22 x23 x24 x25 x26 x27 x28 x29)

def val_main_v356 (x0 x2 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x6 : (⟨S800000, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S_, .f32⟩ : BufTy).Contents (Elt F) :=
  addf (val_main_v355 (F := F) x0 x2 x3 x4 x5 x6 x7 x8 x9 x10 x11 x12 x13 x14 x15 x16 x17 x18 x19 x20 x21 x22 x23 x24 x25 x26 x27 x28 x29) (val_main_v329 (F := F) x0 x3 x4 x5 x7 x8 x9 x10 x11 x12 x13 x14 x15 x16 x17 x18 x19 x20 x21 x22 x23 x24 x25 x26 x27 x28 x29)

def val_main_v357 (x0 x2 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x6 : (⟨S800000, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) (x26 : (⟨S64x64, .f32⟩ : BufTy).Contents (Elt F)) (x27 : (⟨S64, .f32⟩ : BufTy).Contents (Elt F)) (x28 : (⟨S64x1, .f32⟩ : BufTy).Contents (Elt F)) (x29 : (⟨S1, .f32⟩ : BufTy).Contents (Elt F)) : (⟨S_, .f32⟩ : BufTy).Contents (Elt F) :=
  addf (val_main_v356 (F := F) x0 x2 x3 x4 x5 x6 x7 x8 x9 x10 x11 x12 x13 x14 x15 x16 x17 x18 x19 x20 x21 x22 x23 x24 x25 x26 x27 x28 x29) (val_main_v353 (F := F) x0 x3 x4 x5 x7 x8 x9 x10 x11 x12 x13 x14 x15 x16 x17 x18 x19 x20 x21 x22 x23 x24 x25 x26 x27 x28 x29)

end Cert.ReferenceIdeal.Read
end
-- ==== Proof.LibHostLine.lean ====
import Idealize.ShloMosaic.Lib.StableHlo.Run
import Idealize.ShloMosaic.Lib.Pipeline.Frame

namespace HostLine

open Idealize.ShloMosaic Idealize.ShloMosaic.StableHlo Idealize.SL.Sem

variable {τ : Topo} {sig : RefSig} {Val : EltTy → Type}

abbrev Fact (sig : RefSig) (Val : EltTy → Type) : Type := (b : Ref sig .tc) × b.ty.Contents Val

def Sat (V : Valuation τ sig Val) (L : List (Fact sig Val)) : Prop :=
  ∀ p ∈ L, V (Proc.devRef (τ := τ) .tc p.1) = p.2

theorem Sat.nil (V : Valuation τ sig Val) : Sat V [] := fun _ hp => nomatch hp

theorem Sat.cons {V : Valuation τ sig Val} {L : List (Fact sig Val)} {b : Ref sig .tc} {v : b.ty.Contents Val}
    (hb : V (Proc.devRef (τ := τ) .tc b) = v) (h : Sat V L) : Sat V (⟨b, v⟩ :: L) := by
  intro p hp
  rcases List.mem_cons.1 hp with rfl | hp
  · exact hb
  · exact h p hp

theorem Sat.get {V : Valuation τ sig Val} {L : List (Fact sig Val)} (h : Sat V L) (i : Nat) {b : Ref sig .tc}
    {v : b.ty.Contents Val} (hi : L[i]? = some ⟨b, v⟩) : V (Proc.devRef (τ := τ) .tc b) = v :=
  h ⟨b, v⟩ (List.mem_of_getElem? hi)

theorem done {L Lout : List (Fact sig Val)} (idx : List Nat) (h : idx.filterMap (fun i => L[i]?) = Lout) :
    ∀ V : Valuation τ sig Val, Sat V L → Sat (after [] V) Lout := by
  intro V hV p hp
  subst h
  obtain ⟨i, _, hi⟩ := List.mem_filterMap.1 hp
  exact hV p (List.mem_of_getElem? hi)

theorem step {op : HloOp τ sig Val} {y : Ref sig .tc} {L Lout : List (Fact sig Val)} {rest : List (HloOp τ sig Val)}
    (vy : y.ty.Contents Val)
    (hres : ∀ V : Valuation τ sig Val, Sat V L → op.result V (Proc.devRef .tc y) = vy)
    (hne : ∀ (V : Valuation τ sig Val) (r : Ref sig .tc), r ≠ y → op.result V (Proc.devRef .tc r) = V (Proc.devRef .tc r))
    (hfr : (L.all fun p => decide (p.1 ≠ y)) = true)
    (k : ∀ V : Valuation τ sig Val, Sat V (⟨y, vy⟩ :: L) → Sat (after rest V) Lout) :
    ∀ V : Valuation τ sig Val, Sat V L → Sat (after (op :: rest) V) Lout := by
  intro V h
  rw [after_cons]
  refine k _ (Sat.cons (hres V h) ?_)
  intro p hp
  rw [hne V p.1 (of_decide_eq_true (List.all_eq_true.1 hfr p hp))]
  exact h p hp

section Builders

variable {L Lout : List (Fact sig Val)} {rest : List (HloOp τ sig Val)}

theorem step_nullary {y : Ref sig .tc} {v : y.ty.Contents Val} {hy}
    (vy : y.ty.Contents Val) (hv : vy = v) (hfr : (L.all fun p => decide (p.1 ≠ y)) = true)
    (k : ∀ V : Valuation τ sig Val, Sat V (⟨y, vy⟩ :: L) → Sat (after rest V) Lout) :
    ∀ V : Valuation τ sig Val, Sat V L → Sat (after (nullary y v hy :: rest) V) Lout :=
  step vy (fun V _ => (nullary_result y v hy V).trans hv.symm) (fun V _ hr => nullary_result_ne y v hy V hr) hfr k

theorem step_unary {x y : Ref sig .tc} {f : x.ty.Contents Val → y.ty.Contents Val} {hx hy}
    (i : Nat) (vx : x.ty.Contents Val) (vy : y.ty.Contents Val) (hi : L[i]? = some ⟨x, vx⟩) (hv : vy = f vx)
    (hfr : (L.all fun p => decide (p.1 ≠ y)) = true)
    (k : ∀ V : Valuation τ sig Val, Sat V (⟨y, vy⟩ :: L) → Sat (after rest V) Lout) :
    ∀ V : Valuation τ sig Val, Sat V L → Sat (after (unary x y f hx hy :: rest) V) Lout :=
  step vy (fun V h => by rw [unary_result, h.get i hi, hv]) (fun V _ hr => unary_result_ne x y f hx hy V hr) hfr k

theorem step_binary {a b y : Ref sig .tc} {f : a.ty.Contents Val → b.ty.Contents Val → y.ty.Contents Val} {ha hb hy}
    (i j : Nat) (va : a.ty.Contents Val) (vb : b.ty.Contents Val) (vy : y.ty.Contents Val)
    (hi : L[i]? = some ⟨a, va⟩) (hj : L[j]? = some ⟨b, vb⟩) (hv : vy = f va vb)
    (hfr : (L.all fun p => decide (p.1 ≠ y)) = true)
    (k : ∀ V : Valuation τ sig Val, Sat V (⟨y, vy⟩ :: L) → Sat (after rest V) Lout) :
    ∀ V : Valuation τ sig Val, Sat V L → Sat (after (binary a b y f ha hb hy :: rest) V) Lout :=
  step vy (fun V h => by rw [binary_result, h.get i hi, h.get j hj, hv])
    (fun V _ hr => binary_result_ne a b y f ha hb hy V hr) hfr k

theorem step_reshape {x y : Ref sig .tc} {he : x.ty.elt = y.ty.elt} {hn : x.ty.shape.ShapeCasts y.ty.shape} {hx hy}
    (i : Nat) (vx : x.ty.Contents Val) (vy : y.ty.Contents Val) (hi : L[i]? = some ⟨x, vx⟩)
    (hv : vy = fun i => he ▸ shapeCast y.ty.shape vx hn i)
    (hfr : (L.all fun p => decide (p.1 ≠ y)) = true)
    (k : ∀ V : Valuation τ sig Val, Sat V (⟨y, vy⟩ :: L) → Sat (after rest V) Lout) :
    ∀ V : Valuation τ sig Val, Sat V L → Sat (after (reshape x y he hn hx hy :: rest) V) Lout :=
  step vy (fun V h => by rw [reshape_result, h.get i hi, hv])
    (fun V _ hr => reshape_result_ne x y he hn hx hy V hr) hfr k

theorem step_nary {n : Nat} {xs : Fin n → Ref sig .tc} {y : Ref sig .tc}
    {f : ((k : Fin n) → (xs k).ty.Contents Val) → y.ty.Contents Val} {hxs hy}
    (vy : y.ty.Contents Val)
    (hv : ∀ V : Valuation τ sig Val, Sat V L → f (fun k => V (Proc.devRef .tc (xs k))) = vy)
    (hfr : (L.all fun p => decide (p.1 ≠ y)) = true)
    (k : ∀ V : Valuation τ sig Val, Sat V (⟨y, vy⟩ :: L) → Sat (after rest V) Lout) :
    ∀ V : Valuation τ sig Val, Sat V L → Sat (after (nary xs y f hxs hy :: rest) V) Lout :=
  step vy (fun V h => (nary_result xs y f hxs hy V).trans (hv V h))
    (fun V _ hr => nary_result_ne (y := y) xs f hxs hy V hr) hfr k

end Builders

end HostLine
-- ==== Proof.Ref.OpsLists.lean ====
import proofs.«138431_j79370995631014_1_alg».proof.Proof.Ref.ReadP
import proofs.«138431_j79370995631014_1_alg».proof.Proof.LibHostLine

noncomputable section

namespace Cert.ReferenceIdeal.Hand

open Cert.ReferenceIdeal Cert.ReferenceIdeal.Gen Idealize.ShloMosaic Idealize.ShloMosaic.TcCoe Idealize.SL.Sem Idealize.ShloMosaic.StableHlo HostLine

variable {F : FTy → Type} [FloatOps F]

structure Args (F : FTy → Type) where
  x0 : (⟨S50000x1, .f32⟩ : BufTy).Contents (Elt F)
  x1 : (⟨S50000x1, .f32⟩ : BufTy).Contents (Elt F)
  x2 : (⟨S50000x1, .f32⟩ : BufTy).Contents (Elt F)
  x3 : (⟨S50000, .i32⟩ : BufTy).Contents (Elt F)
  x4 : (⟨S2x800000, .i32⟩ : BufTy).Contents (Elt F)
  x5 : (⟨S800000x3, .f32⟩ : BufTy).Contents (Elt F)
  x6 : (⟨S800000, .f32⟩ : BufTy).Contents (Elt F)
  x7 : (⟨S50000x2, .f32⟩ : BufTy).Contents (Elt F)
  x8 : (⟨S131x64, .f32⟩ : BufTy).Contents (Elt F)
  x9 : (⟨S64, .f32⟩ : BufTy).Contents (Elt F)
  x10 : (⟨S64x64, .f32⟩ : BufTy).Contents (Elt F)
  x11 : (⟨S64, .f32⟩ : BufTy).Contents (Elt F)
  x12 : (⟨S131x64, .f32⟩ : BufTy).Contents (Elt F)
  x13 : (⟨S64, .f32⟩ : BufTy).Contents (Elt F)
  x14 : (⟨S64x64, .f32⟩ : BufTy).Contents (Elt F)
  x15 : (⟨S64, .f32⟩ : BufTy).Contents (Elt F)
  x16 : (⟨S194x64, .f32⟩ : BufTy).Contents (Elt F)
  x17 : (⟨S64, .f32⟩ : BufTy).Contents (Elt F)
  x18 : (⟨S194x64, .f32⟩ : BufTy).Contents (Elt F)
  x19 : (⟨S64, .f32⟩ : BufTy).Contents (Elt F)
  x20 : (⟨S194x64, .f32⟩ : BufTy).Contents (Elt F)
  x21 : (⟨S64, .f32⟩ : BufTy).Contents (Elt F)
  x22 : (⟨S1x64, .f32⟩ : BufTy).Contents (Elt F)
  x23 : (⟨S64, .f32⟩ : BufTy).Contents (Elt F)
  x24 : (⟨S64x64, .f32⟩ : BufTy).Contents (Elt F)
  x25 : (⟨S64, .f32⟩ : BufTy).Contents (Elt F)
  x26 : (⟨S64x64, .f32⟩ : BufTy).Contents (Elt F)
  x27 : (⟨S64, .f32⟩ : BufTy).Contents (Elt F)
  x28 : (⟨S64x1, .f32⟩ : BufTy).Contents (Elt F)
  x29 : (⟨S1, .f32⟩ : BufTy).Contents (Elt F)

abbrev known0 (a : Args F) : List (Fact sig (Elt F)) :=
  [ ⟨main_arg0, a.x0⟩,
    ⟨main_arg1, a.x1⟩,
    ⟨main_arg2, a.x2⟩,
    ⟨main_arg3, a.x3⟩,
    ⟨main_arg4, a.x4⟩,
    ⟨main_arg5, a.x5⟩,
    ⟨main_arg6, a.x6⟩,
    ⟨main_arg7, a.x7⟩,
    ⟨main_arg8, a.x8⟩,
    ⟨main_arg9, a.x9⟩,
    ⟨main_arg10, a.x10⟩,
    ⟨main_arg11, a.x11⟩,
    ⟨main_arg12, a.x12⟩,
    ⟨main_arg13, a.x13⟩,
    ⟨main_arg14, a.x14⟩,
    ⟨main_arg15, a.x15⟩,
    ⟨main_arg16, a.x16⟩,
    ⟨main_arg17, a.x17⟩,
    ⟨main_arg18, a.x18⟩,
    ⟨main_arg19, a.x19⟩,
    ⟨main_arg20, a.x20⟩,
    ⟨main_arg21, a.x21⟩,
    ⟨main_arg22, a.x22⟩,
    ⟨main_arg23, a.x23⟩,
    ⟨main_arg24, a.x24⟩,
    ⟨main_arg25, a.x25⟩,
    ⟨main_arg26, a.x26⟩,
    ⟨main_arg27, a.x27⟩,
    ⟨main_arg28, a.x28⟩,
    ⟨main_arg29, a.x29⟩ ]

abbrev known1 (a : Args F) : List (Fact sig (Elt F)) :=
  [ ⟨main_v1, (Read.val_main_v1 (F := F) a.x4)⟩,
    ⟨main_v3, (Read.val_main_v3 (F := F) a.x4)⟩,
    ⟨main_v6, (Read.val_main_v6 (F := F) a.x4)⟩,
    ⟨main_v9, (Read.val_main_v9 (F := F) a.x3)⟩,
    ⟨main_v19, (Read.val_main_v19 (F := F) a.x0 a.x22 a.x23 a.x24 a.x25)⟩,
    ⟨main_v26, (Read.val_main_v26 (F := F) a.x0 a.x4 a.x22 a.x23 a.x24 a.x25)⟩,
    ⟨main_v33, (Read.val_main_v33 (F := F) a.x0 a.x4 a.x22 a.x23 a.x24 a.x25)⟩,
    ⟨main_arg0, a.x0⟩,
    ⟨main_arg1, a.x1⟩,
    ⟨main_arg2, a.x2⟩,
    ⟨main_arg3, a.x3⟩,
    ⟨main_arg4, a.x4⟩,
    ⟨main_arg5, a.x5⟩,
    ⟨main_arg6, a.x6⟩,
    ⟨main_arg7, a.x7⟩,
    ⟨main_arg8, a.x8⟩,
    ⟨main_arg9, a.x9⟩,
    ⟨main_arg10, a.x10⟩,
    ⟨main_arg11, a.x11⟩,
    ⟨main_arg12, a.x12⟩,
    ⟨main_arg13, a.x13⟩,
    ⟨main_arg14, a.x14⟩,
    ⟨main_arg15, a.x15⟩,
    ⟨main_arg16, a.x16⟩,
    ⟨main_arg17, a.x17⟩,
    ⟨main_arg18, a.x18⟩,
    ⟨main_arg19, a.x19⟩,
    ⟨main_arg20, a.x20⟩,
    ⟨main_arg21, a.x21⟩,
    ⟨main_arg22, a.x22⟩,
    ⟨main_arg23, a.x23⟩,
    ⟨main_arg24, a.x24⟩,
    ⟨main_arg25, a.x25⟩,
    ⟨main_arg26, a.x26⟩,
    ⟨main_arg27, a.x27⟩,
    ⟨main_arg28, a.x28⟩,
    ⟨main_arg29, a.x29⟩ ]

abbrev known2 (a : Args F) : List (Fact sig (Elt F)) :=
  [ ⟨main_v1, (Read.val_main_v1 (F := F) a.x4)⟩,
    ⟨main_v3, (Read.val_main_v3 (F := F) a.x4)⟩,
    ⟨main_v6, (Read.val_main_v6 (F := F) a.x4)⟩,
    ⟨main_v9, (Read.val_main_v9 (F := F) a.x3)⟩,
    ⟨main_v19, (Read.val_main_v19 (F := F) a.x0 a.x22 a.x23 a.x24 a.x25)⟩,
    ⟨main_v49, (Read.val_main_v49 (F := F) a.x0 a.x4 a.x5 a.x8 a.x9 a.x10 a.x11 a.x22 a.x23 a.x24 a.x25)⟩,
    ⟨main_v50, (Read.val_main_v50 (F := F))⟩,
    ⟨main_arg0, a.x0⟩,
    ⟨main_arg1, a.x1⟩,
    ⟨main_arg2, a.x2⟩,
    ⟨main_arg3, a.x3⟩,
    ⟨main_arg4, a.x4⟩,
    ⟨main_arg5, a.x5⟩,
    ⟨main_arg6, a.x6⟩,
    ⟨main_arg7, a.x7⟩,
    ⟨main_arg8, a.x8⟩,
    ⟨main_arg9, a.x9⟩,
    ⟨main_arg10, a.x10⟩,
    ⟨main_arg11, a.x11⟩,
    ⟨main_arg12, a.x12⟩,
    ⟨main_arg13, a.x13⟩,
    ⟨main_arg14, a.x14⟩,
    ⟨main_arg15, a.x15⟩,
    ⟨main_arg16, a.x16⟩,
    ⟨main_arg17, a.x17⟩,
    ⟨main_arg18, a.x18⟩,
    ⟨main_arg19, a.x19⟩,
    ⟨main_arg20, a.x20⟩,
    ⟨main_arg21, a.x21⟩,
    ⟨main_arg22, a.x22⟩,
    ⟨main_arg23, a.x23⟩,
    ⟨main_arg24, a.x24⟩,
    ⟨main_arg25, a.x25⟩,
    ⟨main_arg26, a.x26⟩,
    ⟨main_arg27, a.x27⟩,
    ⟨main_arg28, a.x28⟩,
    ⟨main_arg29, a.x29⟩ ]

abbrev known3 (a : Args F) : List (Fact sig (Elt F)) :=
  [ ⟨main_v1, (Read.val_main_v1 (F := F) a.x4)⟩,
    ⟨main_v3, (Read.val_main_v3 (F := F) a.x4)⟩,
    ⟨main_v6, (Read.val_main_v6 (F := F) a.x4)⟩,
    ⟨main_v9, (Read.val_main_v9 (F := F) a.x3)⟩,
    ⟨main_v19, (Read.val_main_v19 (F := F) a.x0 a.x22 a.x23 a.x24 a.x25)⟩,
    ⟨main_v49, (Read.val_main_v49 (F := F) a.x0 a.x4 a.x5 a.x8 a.x9 a.x10 a.x11 a.x22 a.x23 a.x24 a.x25)⟩,
    ⟨main_v56, (Read.val_main_v56 (F := F) a.x0 a.x4 a.x22 a.x23 a.x24 a.x25)⟩,
    ⟨main_v63, (Read.val_main_v63 (F := F) a.x0 a.x4 a.x22 a.x23 a.x24 a.x25)⟩,
    ⟨main_arg0, a.x0⟩,
    ⟨main_arg1, a.x1⟩,
    ⟨main_arg2, a.x2⟩,
    ⟨main_arg3, a.x3⟩,
    ⟨main_arg4, a.x4⟩,
    ⟨main_arg5, a.x5⟩,
    ⟨main_arg6, a.x6⟩,
    ⟨main_arg7, a.x7⟩,
    ⟨main_arg8, a.x8⟩,
    ⟨main_arg9, a.x9⟩,
    ⟨main_arg10, a.x10⟩,
    ⟨main_arg11, a.x11⟩,
    ⟨main_arg12, a.x12⟩,
    ⟨main_arg13, a.x13⟩,
    ⟨main_arg14, a.x14⟩,
    ⟨main_arg15, a.x15⟩,
    ⟨main_arg16, a.x16⟩,
    ⟨main_arg17, a.x17⟩,
    ⟨main_arg18, a.x18⟩,
    ⟨main_arg19, a.x19⟩,
    ⟨main_arg20, a.x20⟩,
    ⟨main_arg21, a.x21⟩,
    ⟨main_arg22, a.x22⟩,
    ⟨main_arg23, a.x23⟩,
    ⟨main_arg24, a.x24⟩,
    ⟨main_arg25, a.x25⟩,
    ⟨main_arg26, a.x26⟩,
    ⟨main_arg27, a.x27⟩,
    ⟨main_arg28, a.x28⟩,
    ⟨main_arg29, a.x29⟩ ]

abbrev known4 (a : Args F) : List (Fact sig (Elt F)) :=
  [ ⟨main_v1, (Read.val_main_v1 (F := F) a.x4)⟩,
    ⟨main_v3, (Read.val_main_v3 (F := F) a.x4)⟩,
    ⟨main_v6, (Read.val_main_v6 (F := F) a.x4)⟩,
    ⟨main_v9, (Read.val_main_v9 (F := F) a.x3)⟩,
    ⟨main_v19, (Read.val_main_v19 (F := F) a.x0 a.x22 a.x23 a.x24 a.x25)⟩,
    ⟨main_v49, (Read.val_main_v49 (F := F) a.x0 a.x4 a.x5 a.x8 a.x9 a.x10 a.x11 a.x22 a.x23 a.x24 a.x25)⟩,
    ⟨main_v79, (Read.val_main_v79 (F := F) a.x0 a.x4 a.x5 a.x12 a.x13 a.x14 a.x15 a.x22 a.x23 a.x24 a.x25)⟩,
    ⟨main_arg0, a.x0⟩,
    ⟨main_arg1, a.x1⟩,
    ⟨main_arg2, a.x2⟩,
    ⟨main_arg3, a.x3⟩,
    ⟨main_arg4, a.x4⟩,
    ⟨main_arg5, a.x5⟩,
    ⟨main_arg6, a.x6⟩,
    ⟨main_arg7, a.x7⟩,
    ⟨main_arg8, a.x8⟩,
    ⟨main_arg9, a.x9⟩,
    ⟨main_arg10, a.x10⟩,
    ⟨main_arg11, a.x11⟩,
    ⟨main_arg12, a.x12⟩,
    ⟨main_arg13, a.x13⟩,
    ⟨main_arg14, a.x14⟩,
    ⟨main_arg15, a.x15⟩,
    ⟨main_arg16, a.x16⟩,
    ⟨main_arg17, a.x17⟩,
    ⟨main_arg18, a.x18⟩,
    ⟨main_arg19, a.x19⟩,
    ⟨main_arg20, a.x20⟩,
    ⟨main_arg21, a.x21⟩,
    ⟨main_arg22, a.x22⟩,
    ⟨main_arg23, a.x23⟩,
    ⟨main_arg24, a.x24⟩,
    ⟨main_arg25, a.x25⟩,
    ⟨main_arg26, a.x26⟩,
    ⟨main_arg27, a.x27⟩,
    ⟨main_arg28, a.x28⟩,
    ⟨main_arg29, a.x29⟩ ]

abbrev known5 (a : Args F) : List (Fact sig (Elt F)) :=
  [ ⟨main_v1, (Read.val_main_v1 (F := F) a.x4)⟩,
    ⟨main_v3, (Read.val_main_v3 (F := F) a.x4)⟩,
    ⟨main_v6, (Read.val_main_v6 (F := F) a.x4)⟩,
    ⟨main_v9, (Read.val_main_v9 (F := F) a.x3)⟩,
    ⟨main_v19, (Read.val_main_v19 (F := F) a.x0 a.x22 a.x23 a.x24 a.x25)⟩,
    ⟨main_v49, (Read.val_main_v49 (F := F) a.x0 a.x4 a.x5 a.x8 a.x9 a.x10 a.x11 a.x22 a.x23 a.x24 a.x25)⟩,
    ⟨main_v79, (Read.val_main_v79 (F := F) a.x0 a.x4 a.x5 a.x12 a.x13 a.x14 a.x15 a.x22 a.x23 a.x24 a.x25)⟩,
    ⟨main_v90, (Read.val_main_v90 (F := F) a.x0 a.x4 a.x5 a.x7 a.x8 a.x9 a.x10 a.x11 a.x12 a.x13 a.x14 a.x15 a.x16 a.x17 a.x22 a.x23 a.x24 a.x25)⟩,
    ⟨main_v101, (Read.val_main_v101 (F := F) a.x0 a.x4 a.x5 a.x7 a.x8 a.x9 a.x10 a.x11 a.x12 a.x13 a.x14 a.x15 a.x18 a.x19 a.x22 a.x23 a.x24 a.x25)⟩,
    ⟨main_arg0, a.x0⟩,
    ⟨main_arg1, a.x1⟩,
    ⟨main_arg2, a.x2⟩,
    ⟨main_arg3, a.x3⟩,
    ⟨main_arg4, a.x4⟩,
    ⟨main_arg5, a.x5⟩,
    ⟨main_arg6, a.x6⟩,
    ⟨main_arg7, a.x7⟩,
    ⟨main_arg8, a.x8⟩,
    ⟨main_arg9, a.x9⟩,
    ⟨main_arg10, a.x10⟩,
    ⟨main_arg11, a.x11⟩,
    ⟨main_arg12, a.x12⟩,
    ⟨main_arg13, a.x13⟩,
    ⟨main_arg14, a.x14⟩,
    ⟨main_arg15, a.x15⟩,
    ⟨main_arg16, a.x16⟩,
    ⟨main_arg17, a.x17⟩,
    ⟨main_arg18, a.x18⟩,
    ⟨main_arg19, a.x19⟩,
    ⟨main_arg20, a.x20⟩,
    ⟨main_arg21, a.x21⟩,
    ⟨main_arg22, a.x22⟩,
    ⟨main_arg23, a.x23⟩,
    ⟨main_arg24, a.x24⟩,
    ⟨main_arg25, a.x25⟩,
    ⟨main_arg26, a.x26⟩,
    ⟨main_arg27, a.x27⟩,
    ⟨main_arg28, a.x28⟩,
    ⟨main_arg29, a.x29⟩ ]

abbrev known6 (a : Args F) : List (Fact sig (Elt F)) :=
  [ ⟨main_v1, (Read.val_main_v1 (F := F) a.x4)⟩,
    ⟨main_v3, (Read.val_main_v3 (F := F) a.x4)⟩,
    ⟨main_v6, (Read.val_main_v6 (F := F) a.x4)⟩,
    ⟨main_v9, (Read.val_main_v9 (F := F) a.x3)⟩,
    ⟨main_v19, (Read.val_main_v19 (F := F) a.x0 a.x22 a.x23 a.x24 a.x25)⟩,
    ⟨main_v110, (Read.val_main_v110 (F := F) a.x0 a.x3 a.x4 a.x5 a.x7 a.x8 a.x9 a.x10 a.x11 a.x12 a.x13 a.x14 a.x15 a.x16 a.x17 a.x18 a.x19 a.x20 a.x21 a.x22 a.x23 a.x24 a.x25)⟩,
    ⟨main_v120, (Read.val_main_v120 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29)⟩,
    ⟨main_v136, (Read.val_main_v136 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29)⟩,
    ⟨main_v153, (Read.val_main_v153 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29)⟩,
    ⟨main_arg0, a.x0⟩,
    ⟨main_arg1, a.x1⟩,
    ⟨main_arg2, a.x2⟩,
    ⟨main_arg3, a.x3⟩,
    ⟨main_arg4, a.x4⟩,
    ⟨main_arg5, a.x5⟩,
    ⟨main_arg6, a.x6⟩,
    ⟨main_arg7, a.x7⟩,
    ⟨main_arg8, a.x8⟩,
    ⟨main_arg9, a.x9⟩,
    ⟨main_arg10, a.x10⟩,
    ⟨main_arg11, a.x11⟩,
    ⟨main_arg12, a.x12⟩,
    ⟨main_arg13, a.x13⟩,
    ⟨main_arg14, a.x14⟩,
    ⟨main_arg15, a.x15⟩,
    ⟨main_arg16, a.x16⟩,
    ⟨main_arg17, a.x17⟩,
    ⟨main_arg18, a.x18⟩,
    ⟨main_arg19, a.x19⟩,
    ⟨main_arg20, a.x20⟩,
    ⟨main_arg21, a.x21⟩,
    ⟨main_arg22, a.x22⟩,
    ⟨main_arg23, a.x23⟩,
    ⟨main_arg24, a.x24⟩,
    ⟨main_arg25, a.x25⟩,
    ⟨main_arg26, a.x26⟩,
    ⟨main_arg27, a.x27⟩,
    ⟨main_arg28, a.x28⟩,
    ⟨main_arg29, a.x29⟩ ]

abbrev known7 (a : Args F) : List (Fact sig (Elt F)) :=
  [ ⟨main_v1, (Read.val_main_v1 (F := F) a.x4)⟩,
    ⟨main_v3, (Read.val_main_v3 (F := F) a.x4)⟩,
    ⟨main_v6, (Read.val_main_v6 (F := F) a.x4)⟩,
    ⟨main_v9, (Read.val_main_v9 (F := F) a.x3)⟩,
    ⟨main_v19, (Read.val_main_v19 (F := F) a.x0 a.x22 a.x23 a.x24 a.x25)⟩,
    ⟨main_v110, (Read.val_main_v110 (F := F) a.x0 a.x3 a.x4 a.x5 a.x7 a.x8 a.x9 a.x10 a.x11 a.x12 a.x13 a.x14 a.x15 a.x16 a.x17 a.x18 a.x19 a.x20 a.x21 a.x22 a.x23 a.x24 a.x25)⟩,
    ⟨main_v188, (Read.val_main_v188 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29)⟩,
    ⟨main_v195, (Read.val_main_v195 (F := F) a.x0 a.x3 a.x4 a.x5 a.x7 a.x8 a.x9 a.x10 a.x11 a.x12 a.x13 a.x14 a.x15 a.x16 a.x17 a.x18 a.x19 a.x20 a.x21 a.x22 a.x23 a.x24 a.x25)⟩,
    ⟨main_v201, (Read.val_main_v201 (F := F) a.x4)⟩,
    ⟨main_arg0, a.x0⟩,
    ⟨main_arg1, a.x1⟩,
    ⟨main_arg2, a.x2⟩,
    ⟨main_arg3, a.x3⟩,
    ⟨main_arg4, a.x4⟩,
    ⟨main_arg5, a.x5⟩,
    ⟨main_arg6, a.x6⟩,
    ⟨main_arg7, a.x7⟩,
    ⟨main_arg8, a.x8⟩,
    ⟨main_arg9, a.x9⟩,
    ⟨main_arg10, a.x10⟩,
    ⟨main_arg11, a.x11⟩,
    ⟨main_arg12, a.x12⟩,
    ⟨main_arg13, a.x13⟩,
    ⟨main_arg14, a.x14⟩,
    ⟨main_arg15, a.x15⟩,
    ⟨main_arg16, a.x16⟩,
    ⟨main_arg17, a.x17⟩,
    ⟨main_arg18, a.x18⟩,
    ⟨main_arg19, a.x19⟩,
    ⟨main_arg20, a.x20⟩,
    ⟨main_arg21, a.x21⟩,
    ⟨main_arg22, a.x22⟩,
    ⟨main_arg23, a.x23⟩,
    ⟨main_arg24, a.x24⟩,
    ⟨main_arg25, a.x25⟩,
    ⟨main_arg26, a.x26⟩,
    ⟨main_arg27, a.x27⟩,
    ⟨main_arg28, a.x28⟩,
    ⟨main_arg29, a.x29⟩ ]

abbrev known8 (a : Args F) : List (Fact sig (Elt F)) :=
  [ ⟨main_v1, (Read.val_main_v1 (F := F) a.x4)⟩,
    ⟨main_v3, (Read.val_main_v3 (F := F) a.x4)⟩,
    ⟨main_v6, (Read.val_main_v6 (F := F) a.x4)⟩,
    ⟨main_v9, (Read.val_main_v9 (F := F) a.x3)⟩,
    ⟨main_v19, (Read.val_main_v19 (F := F) a.x0 a.x22 a.x23 a.x24 a.x25)⟩,
    ⟨main_v110, (Read.val_main_v110 (F := F) a.x0 a.x3 a.x4 a.x5 a.x7 a.x8 a.x9 a.x10 a.x11 a.x12 a.x13 a.x14 a.x15 a.x16 a.x17 a.x18 a.x19 a.x20 a.x21 a.x22 a.x23 a.x24 a.x25)⟩,
    ⟨main_v188, (Read.val_main_v188 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29)⟩,
    ⟨main_v195, (Read.val_main_v195 (F := F) a.x0 a.x3 a.x4 a.x5 a.x7 a.x8 a.x9 a.x10 a.x11 a.x12 a.x13 a.x14 a.x15 a.x16 a.x17 a.x18 a.x19 a.x20 a.x21 a.x22 a.x23 a.x24 a.x25)⟩,
    ⟨main_v202, (Read.val_main_v202 (F := F) a.x0 a.x3 a.x4 a.x5 a.x7 a.x8 a.x9 a.x10 a.x11 a.x12 a.x13 a.x14 a.x15 a.x16 a.x17 a.x18 a.x19 a.x20 a.x21 a.x22 a.x23 a.x24 a.x25)⟩,
    ⟨main_arg0, a.x0⟩,
    ⟨main_arg1, a.x1⟩,
    ⟨main_arg2, a.x2⟩,
    ⟨main_arg3, a.x3⟩,
    ⟨main_arg4, a.x4⟩,
    ⟨main_arg5, a.x5⟩,
    ⟨main_arg6, a.x6⟩,
    ⟨main_arg7, a.x7⟩,
    ⟨main_arg8, a.x8⟩,
    ⟨main_arg9, a.x9⟩,
    ⟨main_arg10, a.x10⟩,
    ⟨main_arg11, a.x11⟩,
    ⟨main_arg12, a.x12⟩,
    ⟨main_arg13, a.x13⟩,
    ⟨main_arg14, a.x14⟩,
    ⟨main_arg15, a.x15⟩,
    ⟨main_arg16, a.x16⟩,
    ⟨main_arg17, a.x17⟩,
    ⟨main_arg18, a.x18⟩,
    ⟨main_arg19, a.x19⟩,
    ⟨main_arg20, a.x20⟩,
    ⟨main_arg21, a.x21⟩,
    ⟨main_arg22, a.x22⟩,
    ⟨main_arg23, a.x23⟩,
    ⟨main_arg24, a.x24⟩,
    ⟨main_arg25, a.x25⟩,
    ⟨main_arg26, a.x26⟩,
    ⟨main_arg27, a.x27⟩,
    ⟨main_arg28, a.x28⟩,
    ⟨main_arg29, a.x29⟩ ]

abbrev known9 (a : Args F) : List (Fact sig (Elt F)) :=
  [ ⟨main_v1, (Read.val_main_v1 (F := F) a.x4)⟩,
    ⟨main_v3, (Read.val_main_v3 (F := F) a.x4)⟩,
    ⟨main_v6, (Read.val_main_v6 (F := F) a.x4)⟩,
    ⟨main_v9, (Read.val_main_v9 (F := F) a.x3)⟩,
    ⟨main_v19, (Read.val_main_v19 (F := F) a.x0 a.x22 a.x23 a.x24 a.x25)⟩,
    ⟨main_v110, (Read.val_main_v110 (F := F) a.x0 a.x3 a.x4 a.x5 a.x7 a.x8 a.x9 a.x10 a.x11 a.x12 a.x13 a.x14 a.x15 a.x16 a.x17 a.x18 a.x19 a.x20 a.x21 a.x22 a.x23 a.x24 a.x25)⟩,
    ⟨main_v188, (Read.val_main_v188 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29)⟩,
    ⟨main_v218, (Read.val_main_v218 (F := F) a.x0 a.x3 a.x4 a.x5 a.x7 a.x8 a.x9 a.x10 a.x11 a.x12 a.x13 a.x14 a.x15 a.x16 a.x17 a.x18 a.x19 a.x20 a.x21 a.x22 a.x23 a.x24 a.x25)⟩,
    ⟨main_v225, (Read.val_main_v225 (F := F) a.x0 a.x3 a.x4 a.x5 a.x7 a.x8 a.x9 a.x10 a.x11 a.x12 a.x13 a.x14 a.x15 a.x16 a.x17 a.x18 a.x19 a.x20 a.x21 a.x22 a.x23 a.x24 a.x25)⟩,
    ⟨main_v232, (Read.val_main_v232 (F := F) a.x0 a.x3 a.x4 a.x5 a.x7 a.x8 a.x9 a.x10 a.x11 a.x12 a.x13 a.x14 a.x15 a.x16 a.x17 a.x18 a.x19 a.x20 a.x21 a.x22 a.x23 a.x24 a.x25)⟩,
    ⟨main_arg0, a.x0⟩,
    ⟨main_arg1, a.x1⟩,
    ⟨main_arg2, a.x2⟩,
    ⟨main_arg3, a.x3⟩,
    ⟨main_arg4, a.x4⟩,
    ⟨main_arg5, a.x5⟩,
    ⟨main_arg6, a.x6⟩,
    ⟨main_arg7, a.x7⟩,
    ⟨main_arg8, a.x8⟩,
    ⟨main_arg9, a.x9⟩,
    ⟨main_arg10, a.x10⟩,
    ⟨main_arg11, a.x11⟩,
    ⟨main_arg12, a.x12⟩,
    ⟨main_arg13, a.x13⟩,
    ⟨main_arg14, a.x14⟩,
    ⟨main_arg15, a.x15⟩,
    ⟨main_arg16, a.x16⟩,
    ⟨main_arg17, a.x17⟩,
    ⟨main_arg18, a.x18⟩,
    ⟨main_arg19, a.x19⟩,
    ⟨main_arg20, a.x20⟩,
    ⟨main_arg21, a.x21⟩,
    ⟨main_arg22, a.x22⟩,
    ⟨main_arg23, a.x23⟩,
    ⟨main_arg24, a.x24⟩,
    ⟨main_arg25, a.x25⟩,
    ⟨main_arg26, a.x26⟩,
    ⟨main_arg27, a.x27⟩,
    ⟨main_arg28, a.x28⟩,
    ⟨main_arg29, a.x29⟩ ]

abbrev known10 (a : Args F) : List (Fact sig (Elt F)) :=
  [ ⟨main_v1, (Read.val_main_v1 (F := F) a.x4)⟩,
    ⟨main_v3, (Read.val_main_v3 (F := F) a.x4)⟩,
    ⟨main_v9, (Read.val_main_v9 (F := F) a.x3)⟩,
    ⟨main_v19, (Read.val_main_v19 (F := F) a.x0 a.x22 a.x23 a.x24 a.x25)⟩,
    ⟨main_v110, (Read.val_main_v110 (F := F) a.x0 a.x3 a.x4 a.x5 a.x7 a.x8 a.x9 a.x10 a.x11 a.x12 a.x13 a.x14 a.x15 a.x16 a.x17 a.x18 a.x19 a.x20 a.x21 a.x22 a.x23 a.x24 a.x25)⟩,
    ⟨main_v188, (Read.val_main_v188 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29)⟩,
    ⟨main_v218, (Read.val_main_v218 (F := F) a.x0 a.x3 a.x4 a.x5 a.x7 a.x8 a.x9 a.x10 a.x11 a.x12 a.x13 a.x14 a.x15 a.x16 a.x17 a.x18 a.x19 a.x20 a.x21 a.x22 a.x23 a.x24 a.x25)⟩,
    ⟨main_v248, (Read.val_main_v248 (F := F) a.x0 a.x3 a.x4 a.x5 a.x7 a.x8 a.x9 a.x10 a.x11 a.x12 a.x13 a.x14 a.x15 a.x16 a.x17 a.x18 a.x19 a.x20 a.x21 a.x22 a.x23 a.x24 a.x25)⟩,
    ⟨main_arg0, a.x0⟩,
    ⟨main_arg1, a.x1⟩,
    ⟨main_arg2, a.x2⟩,
    ⟨main_arg3, a.x3⟩,
    ⟨main_arg4, a.x4⟩,
    ⟨main_arg5, a.x5⟩,
    ⟨main_arg6, a.x6⟩,
    ⟨main_arg7, a.x7⟩,
    ⟨main_arg8, a.x8⟩,
    ⟨main_arg9, a.x9⟩,
    ⟨main_arg10, a.x10⟩,
    ⟨main_arg11, a.x11⟩,
    ⟨main_arg12, a.x12⟩,
    ⟨main_arg13, a.x13⟩,
    ⟨main_arg14, a.x14⟩,
    ⟨main_arg15, a.x15⟩,
    ⟨main_arg16, a.x16⟩,
    ⟨main_arg17, a.x17⟩,
    ⟨main_arg18, a.x18⟩,
    ⟨main_arg19, a.x19⟩,
    ⟨main_arg20, a.x20⟩,
    ⟨main_arg21, a.x21⟩,
    ⟨main_arg22, a.x22⟩,
    ⟨main_arg23, a.x23⟩,
    ⟨main_arg24, a.x24⟩,
    ⟨main_arg25, a.x25⟩,
    ⟨main_arg26, a.x26⟩,
    ⟨main_arg27, a.x27⟩,
    ⟨main_arg28, a.x28⟩,
    ⟨main_arg29, a.x29⟩ ]

abbrev known11 (a : Args F) : List (Fact sig (Elt F)) :=
  [ ⟨main_v1, (Read.val_main_v1 (F := F) a.x4)⟩,
    ⟨main_v3, (Read.val_main_v3 (F := F) a.x4)⟩,
    ⟨main_v9, (Read.val_main_v9 (F := F) a.x3)⟩,
    ⟨main_v19, (Read.val_main_v19 (F := F) a.x0 a.x22 a.x23 a.x24 a.x25)⟩,
    ⟨main_v110, (Read.val_main_v110 (F := F) a.x0 a.x3 a.x4 a.x5 a.x7 a.x8 a.x9 a.x10 a.x11 a.x12 a.x13 a.x14 a.x15 a.x16 a.x17 a.x18 a.x19 a.x20 a.x21 a.x22 a.x23 a.x24 a.x25)⟩,
    ⟨main_v188, (Read.val_main_v188 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29)⟩,
    ⟨main_v218, (Read.val_main_v218 (F := F) a.x0 a.x3 a.x4 a.x5 a.x7 a.x8 a.x9 a.x10 a.x11 a.x12 a.x13 a.x14 a.x15 a.x16 a.x17 a.x18 a.x19 a.x20 a.x21 a.x22 a.x23 a.x24 a.x25)⟩,
    ⟨main_v248, (Read.val_main_v248 (F := F) a.x0 a.x3 a.x4 a.x5 a.x7 a.x8 a.x9 a.x10 a.x11 a.x12 a.x13 a.x14 a.x15 a.x16 a.x17 a.x18 a.x19 a.x20 a.x21 a.x22 a.x23 a.x24 a.x25)⟩,
    ⟨main_v249, (Read.val_main_v249 (F := F) a.x0 a.x3 a.x4 a.x5 a.x7 a.x8 a.x9 a.x10 a.x11 a.x12 a.x13 a.x14 a.x15 a.x16 a.x17 a.x18 a.x19 a.x20 a.x21 a.x22 a.x23 a.x24 a.x25)⟩,
    ⟨main_v253, (Read.val_main_v253 (F := F) a.x0 a.x3 a.x4 a.x5 a.x7 a.x8 a.x9 a.x10 a.x11 a.x12 a.x13 a.x14 a.x15 a.x16 a.x17 a.x18 a.x19 a.x20 a.x21 a.x22 a.x23 a.x24 a.x25)⟩,
    ⟨main_arg0, a.x0⟩,
    ⟨main_arg1, a.x1⟩,
    ⟨main_arg2, a.x2⟩,
    ⟨main_arg3, a.x3⟩,
    ⟨main_arg4, a.x4⟩,
    ⟨main_arg5, a.x5⟩,
    ⟨main_arg6, a.x6⟩,
    ⟨main_arg7, a.x7⟩,
    ⟨main_arg8, a.x8⟩,
    ⟨main_arg9, a.x9⟩,
    ⟨main_arg10, a.x10⟩,
    ⟨main_arg11, a.x11⟩,
    ⟨main_arg12, a.x12⟩,
    ⟨main_arg13, a.x13⟩,
    ⟨main_arg14, a.x14⟩,
    ⟨main_arg15, a.x15⟩,
    ⟨main_arg16, a.x16⟩,
    ⟨main_arg17, a.x17⟩,
    ⟨main_arg18, a.x18⟩,
    ⟨main_arg19, a.x19⟩,
    ⟨main_arg20, a.x20⟩,
    ⟨main_arg21, a.x21⟩,
    ⟨main_arg22, a.x22⟩,
    ⟨main_arg23, a.x23⟩,
    ⟨main_arg24, a.x24⟩,
    ⟨main_arg25, a.x25⟩,
    ⟨main_arg26, a.x26⟩,
    ⟨main_arg27, a.x27⟩,
    ⟨main_arg28, a.x28⟩,
    ⟨main_arg29, a.x29⟩ ]

abbrev known12 (a : Args F) : List (Fact sig (Elt F)) :=
  [ ⟨main_v1, (Read.val_main_v1 (F := F) a.x4)⟩,
    ⟨main_v3, (Read.val_main_v3 (F := F) a.x4)⟩,
    ⟨main_v9, (Read.val_main_v9 (F := F) a.x3)⟩,
    ⟨main_v19, (Read.val_main_v19 (F := F) a.x0 a.x22 a.x23 a.x24 a.x25)⟩,
    ⟨main_v110, (Read.val_main_v110 (F := F) a.x0 a.x3 a.x4 a.x5 a.x7 a.x8 a.x9 a.x10 a.x11 a.x12 a.x13 a.x14 a.x15 a.x16 a.x17 a.x18 a.x19 a.x20 a.x21 a.x22 a.x23 a.x24 a.x25)⟩,
    ⟨main_v188, (Read.val_main_v188 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29)⟩,
    ⟨main_v218, (Read.val_main_v218 (F := F) a.x0 a.x3 a.x4 a.x5 a.x7 a.x8 a.x9 a.x10 a.x11 a.x12 a.x13 a.x14 a.x15 a.x16 a.x17 a.x18 a.x19 a.x20 a.x21 a.x22 a.x23 a.x24 a.x25)⟩,
    ⟨main_v248, (Read.val_main_v248 (F := F) a.x0 a.x3 a.x4 a.x5 a.x7 a.x8 a.x9 a.x10 a.x11 a.x12 a.x13 a.x14 a.x15 a.x16 a.x17 a.x18 a.x19 a.x20 a.x21 a.x22 a.x23 a.x24 a.x25)⟩,
    ⟨main_v259, (Read.val_main_v259 (F := F) a.x0 a.x3 a.x4 a.x5 a.x7 a.x8 a.x9 a.x10 a.x11 a.x12 a.x13 a.x14 a.x15 a.x16 a.x17 a.x18 a.x19 a.x20 a.x21 a.x22 a.x23 a.x24 a.x25)⟩,
    ⟨main_v270, (Read.val_main_v270 (F := F) a.x0 a.x3 a.x4 a.x5 a.x7 a.x8 a.x9 a.x10 a.x11 a.x12 a.x13 a.x14 a.x15 a.x16 a.x17 a.x18 a.x19 a.x20 a.x21 a.x22 a.x23 a.x24 a.x25)⟩,
    ⟨main_arg0, a.x0⟩,
    ⟨main_arg1, a.x1⟩,
    ⟨main_arg2, a.x2⟩,
    ⟨main_arg3, a.x3⟩,
    ⟨main_arg4, a.x4⟩,
    ⟨main_arg5, a.x5⟩,
    ⟨main_arg6, a.x6⟩,
    ⟨main_arg7, a.x7⟩,
    ⟨main_arg8, a.x8⟩,
    ⟨main_arg9, a.x9⟩,
    ⟨main_arg10, a.x10⟩,
    ⟨main_arg11, a.x11⟩,
    ⟨main_arg12, a.x12⟩,
    ⟨main_arg13, a.x13⟩,
    ⟨main_arg14, a.x14⟩,
    ⟨main_arg15, a.x15⟩,
    ⟨main_arg16, a.x16⟩,
    ⟨main_arg17, a.x17⟩,
    ⟨main_arg18, a.x18⟩,
    ⟨main_arg19, a.x19⟩,
    ⟨main_arg20, a.x20⟩,
    ⟨main_arg21, a.x21⟩,
    ⟨main_arg22, a.x22⟩,
    ⟨main_arg23, a.x23⟩,
    ⟨main_arg24, a.x24⟩,
    ⟨main_arg25, a.x25⟩,
    ⟨main_arg26, a.x26⟩,
    ⟨main_arg27, a.x27⟩,
    ⟨main_arg28, a.x28⟩,
    ⟨main_arg29, a.x29⟩ ]

abbrev known13 (a : Args F) : List (Fact sig (Elt F)) :=
  [ ⟨main_v188, (Read.val_main_v188 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29)⟩,
    ⟨main_v279, (Read.val_main_v279 (F := F) a.x0 a.x3 a.x4 a.x5 a.x7 a.x8 a.x9 a.x10 a.x11 a.x12 a.x13 a.x14 a.x15 a.x16 a.x17 a.x18 a.x19 a.x20 a.x21 a.x22 a.x23 a.x24 a.x25)⟩,
    ⟨main_v289, (Read.val_main_v289 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29)⟩,
    ⟨main_v304, (Read.val_main_v304 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29)⟩,
    ⟨main_arg0, a.x0⟩,
    ⟨main_arg1, a.x1⟩,
    ⟨main_arg2, a.x2⟩,
    ⟨main_arg3, a.x3⟩,
    ⟨main_arg4, a.x4⟩,
    ⟨main_arg5, a.x5⟩,
    ⟨main_arg6, a.x6⟩,
    ⟨main_arg7, a.x7⟩,
    ⟨main_arg8, a.x8⟩,
    ⟨main_arg9, a.x9⟩,
    ⟨main_arg10, a.x10⟩,
    ⟨main_arg11, a.x11⟩,
    ⟨main_arg12, a.x12⟩,
    ⟨main_arg13, a.x13⟩,
    ⟨main_arg14, a.x14⟩,
    ⟨main_arg15, a.x15⟩,
    ⟨main_arg16, a.x16⟩,
    ⟨main_arg17, a.x17⟩,
    ⟨main_arg18, a.x18⟩,
    ⟨main_arg19, a.x19⟩,
    ⟨main_arg20, a.x20⟩,
    ⟨main_arg21, a.x21⟩,
    ⟨main_arg22, a.x22⟩,
    ⟨main_arg23, a.x23⟩,
    ⟨main_arg24, a.x24⟩,
    ⟨main_arg25, a.x25⟩,
    ⟨main_arg26, a.x26⟩,
    ⟨main_arg27, a.x27⟩,
    ⟨main_arg28, a.x28⟩,
    ⟨main_arg29, a.x29⟩ ]

abbrev known14 (a : Args F) : List (Fact sig (Elt F)) :=
  [ ⟨main_v188, (Read.val_main_v188 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29)⟩,
    ⟨main_v289, (Read.val_main_v289 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29)⟩,
    ⟨main_v329, (Read.val_main_v329 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29)⟩,
    ⟨main_v353, (Read.val_main_v353 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29)⟩,
    ⟨main_v354, (Read.val_main_v354 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29)⟩,
    ⟨main_arg0, a.x0⟩,
    ⟨main_arg1, a.x1⟩,
    ⟨main_arg2, a.x2⟩,
    ⟨main_arg3, a.x3⟩,
    ⟨main_arg4, a.x4⟩,
    ⟨main_arg5, a.x5⟩,
    ⟨main_arg6, a.x6⟩,
    ⟨main_arg7, a.x7⟩,
    ⟨main_arg8, a.x8⟩,
    ⟨main_arg9, a.x9⟩,
    ⟨main_arg10, a.x10⟩,
    ⟨main_arg11, a.x11⟩,
    ⟨main_arg12, a.x12⟩,
    ⟨main_arg13, a.x13⟩,
    ⟨main_arg14, a.x14⟩,
    ⟨main_arg15, a.x15⟩,
    ⟨main_arg16, a.x16⟩,
    ⟨main_arg17, a.x17⟩,
    ⟨main_arg18, a.x18⟩,
    ⟨main_arg19, a.x19⟩,
    ⟨main_arg20, a.x20⟩,
    ⟨main_arg21, a.x21⟩,
    ⟨main_arg22, a.x22⟩,
    ⟨main_arg23, a.x23⟩,
    ⟨main_arg24, a.x24⟩,
    ⟨main_arg25, a.x25⟩,
    ⟨main_arg26, a.x26⟩,
    ⟨main_arg27, a.x27⟩,
    ⟨main_arg28, a.x28⟩,
    ⟨main_arg29, a.x29⟩ ]

abbrev known15 (a : Args F) : List (Fact sig (Elt F)) :=
  [ ⟨main_v289, (Read.val_main_v289 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29)⟩,
    ⟨main_v357, (Read.val_main_v357 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29)⟩,
    ⟨main_arg0, a.x0⟩,
    ⟨main_arg1, a.x1⟩,
    ⟨main_arg2, a.x2⟩,
    ⟨main_arg3, a.x3⟩,
    ⟨main_arg4, a.x4⟩,
    ⟨main_arg5, a.x5⟩,
    ⟨main_arg6, a.x6⟩,
    ⟨main_arg7, a.x7⟩,
    ⟨main_arg8, a.x8⟩,
    ⟨main_arg9, a.x9⟩,
    ⟨main_arg10, a.x10⟩,
    ⟨main_arg11, a.x11⟩,
    ⟨main_arg12, a.x12⟩,
    ⟨main_arg13, a.x13⟩,
    ⟨main_arg14, a.x14⟩,
    ⟨main_arg15, a.x15⟩,
    ⟨main_arg16, a.x16⟩,
    ⟨main_arg17, a.x17⟩,
    ⟨main_arg18, a.x18⟩,
    ⟨main_arg19, a.x19⟩,
    ⟨main_arg20, a.x20⟩,
    ⟨main_arg21, a.x21⟩,
    ⟨main_arg22, a.x22⟩,
    ⟨main_arg23, a.x23⟩,
    ⟨main_arg24, a.x24⟩,
    ⟨main_arg25, a.x25⟩,
    ⟨main_arg26, a.x26⟩,
    ⟨main_arg27, a.x27⟩,
    ⟨main_arg28, a.x28⟩,
    ⟨main_arg29, a.x29⟩ ]

end Cert.ReferenceIdeal.Hand

end
-- ==== Proof.LibHostLine3.lean ====
import proofs.«138431_j79370995631014_1_alg».proof.Proof.LibHostLine

namespace HostLine

open Idealize.ShloMosaic Idealize.ShloMosaic.StableHlo Idealize.SL.Sem

variable {τ : Topo} {sig : RefSig} {Val : EltTy → Type}

theorem ofBuf_toBuf {T : BufTy} (x : TRef sig T) (v : T.Contents Val) : x.ofBuf (x.toBuf v) = v := by
  obtain ⟨ref, ty_eq, on_device, unscoped⟩ := x
  subst ty_eq
  rfl

theorem line_append {l₁ l₂ : List (HloOp τ sig Val)} {L M N : List (Fact sig Val)}
    (h₁ : ∀ V : Valuation τ sig Val, Sat V L → Sat (after l₁ V) M)
    (h₂ : ∀ V : Valuation τ sig Val, Sat V M → Sat (after l₂ V) N) :
    ∀ V : Valuation τ sig Val, Sat V L → Sat (after (l₁ ++ l₂) V) N := fun V h => by
  rw [StableHlo.after_append]
  exact h₂ _ (h₁ V h)

section Builders

variable {L Lout : List (Fact sig Val)} {rest : List (HloOp τ sig Val)}

theorem step_ternary {c a b y : Ref sig .tc}
    {f : c.ty.Contents Val → a.ty.Contents Val → b.ty.Contents Val → y.ty.Contents Val} {hc ha hb hy}
    (i j l : Nat) (vc : c.ty.Contents Val) (va : a.ty.Contents Val) (vb : b.ty.Contents Val) (vy : y.ty.Contents Val)
    (hi : L[i]? = some ⟨c, vc⟩) (hj : L[j]? = some ⟨a, va⟩) (hl : L[l]? = some ⟨b, vb⟩) (hv : vy = f vc va vb)
    (hfr : (L.all fun p => decide (p.1 ≠ y)) = true)
    (k : ∀ V : Valuation τ sig Val, Sat V (⟨y, vy⟩ :: L) → Sat (after rest V) Lout) :
    ∀ V : Valuation τ sig Val, Sat V L → Sat (after (ternary c a b y f hc ha hb hy :: rest) V) Lout :=
  step vy (fun V h => by rw [ternary_result, h.get i hi, h.get j hj, h.get l hl, hv])
    (fun V _ hr => ternary_result_ne (a := a) (b := b) (c := c) (y := y) f hc ha hb hy V hr) hfr k

variable {Tx Ta Tb Tc Ty : BufTy}

theorem step_tunary {x : TRef sig Tx} {y : TRef sig Ty} {f : Tx.Contents Val → Ty.Contents Val}
    (i : Nat) (vx : Tx.Contents Val) (vy : y.ref.ty.Contents Val) (hi : L[i]? = some ⟨x.ref, x.toBuf vx⟩)
    (hv : vy = y.toBuf (f vx)) (hfr : (L.all fun p => decide (p.1 ≠ y.ref)) = true)
    (k : ∀ V : Valuation τ sig Val, Sat V (⟨y.ref, vy⟩ :: L) → Sat (after rest V) Lout) :
    ∀ V : Valuation τ sig Val, Sat V L → Sat (after (TRef.unary x y f :: rest) V) Lout :=
  step_unary i (x.toBuf vx) vy hi
    (hv.trans (congrArg (fun t => y.toBuf (f t)) (ofBuf_toBuf x vx).symm)) hfr k

theorem step_tternary {c : TRef sig Tc} {a : TRef sig Ta} {b : TRef sig Tb} {y : TRef sig Ty}
    {f : Tc.Contents Val → Ta.Contents Val → Tb.Contents Val → Ty.Contents Val}
    (i j l : Nat) (vc : Tc.Contents Val) (va : Ta.Contents Val) (vb : Tb.Contents Val) (vy : y.ref.ty.Contents Val)
    (hi : L[i]? = some ⟨c.ref, c.toBuf vc⟩) (hj : L[j]? = some ⟨a.ref, a.toBuf va⟩)
    (hl : L[l]? = some ⟨b.ref, b.toBuf vb⟩)
    (hv : vy = y.toBuf (f vc va vb)) (hfr : (L.all fun p => decide (p.1 ≠ y.ref)) = true)
    (k : ∀ V : Valuation τ sig Val, Sat V (⟨y.ref, vy⟩ :: L) → Sat (after rest V) Lout) :
    ∀ V : Valuation τ sig Val, Sat V L → Sat (after (TRef.ternary c a b y f :: rest) V) Lout :=
  step_ternary i j l (c.toBuf vc) (a.toBuf va) (b.toBuf vb) vy hi hj hl
    (by rw [hv, ofBuf_toBuf, ofBuf_toBuf, ofBuf_toBuf]) hfr k

end Builders

end HostLine
-- ==== Proof.Ref.Ops0.lean ====
import proofs.«138431_j79370995631014_1_alg».proof.Proof.Ref.OpsLists
import proofs.«138431_j79370995631014_1_alg».proof.Proof.LibHostLine3

noncomputable section

namespace Cert.ReferenceIdeal.Hand

open Cert.ReferenceIdeal Cert.ReferenceIdeal.Gen Idealize.ShloMosaic Idealize.ShloMosaic.TcCoe Idealize.SL.Sem Idealize.ShloMosaic.StableHlo HostLine

variable {F : FTy → Type} [FloatOps F]

abbrev ops0 : List (HloOp τ sig (Elt F)) :=
  [ StableHlo.unary main_arg4 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg4 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_v1 main_v3 main_v4 (cmpi .ne : (⟨S800000, .i32⟩ : BufTy).Contents (Elt F) → (⟨S800000, .i32⟩ : BufTy).Contents (Elt F) → (⟨S800000, .i1⟩ : BufTy).Contents (Elt F)),
    StableHlo.unary main_v4 main_v5 (uitofp .f32 : (⟨S800000, .i1⟩ : BufTy).Contents (Elt F) → (⟨S800000, .f32⟩ : BufTy).Contents (Elt F)),
    StableHlo.unary main_v5 main_v6 (broadcastInDim S800000x1 ![0] bcast_S800000_S800000x1_0 : (⟨S800000, .f32⟩ : BufTy).Contents (Elt F) → (⟨S800000x1, .f32⟩ : BufTy).Contents (Elt F)),
    StableHlo.nullary main_c (constantI S_ 32 1#32),
    StableHlo.unary main_c main_v7 (broadcastInDim S50000 ![] bcast_S_S50000 : (⟨S_, .i32⟩ : BufTy).Contents (Elt F) → (⟨S50000, .i32⟩ : BufTy).Contents (Elt F)),
    StableHlo.binary main_arg3 main_v7 main_v8 (cmpi .eq : (⟨S50000, .i32⟩ : BufTy).Contents (Elt F) → (⟨S50000, .i32⟩ : BufTy).Contents (Elt F) → (⟨S50000, .i1⟩ : BufTy).Contents (Elt F)),
    StableHlo.unary main_v8 main_v9 (broadcastInDim S50000x1 ![0] bcast_S50000_S50000x1_0 : (⟨S50000, .i1⟩ : BufTy).Contents (Elt F) → (⟨S50000x1, .i1⟩ : BufTy).Contents (Elt F)),
    StableHlo.binary main_arg0 main_arg22 main_v10 ((fun l r => Host.dotGeneral dot_S50000x1_S1x64_S50000x64_1_0_0_1_n_n none l r) : (⟨S50000x1, .f32⟩ : BufTy).Contents (Elt F) → (⟨S1x64, .f32⟩ : BufTy).Contents (Elt F) → (⟨S50000x64, .f32⟩ : BufTy).Contents (Elt F)),
    StableHlo.unary main_arg23 main_v11 (broadcastInDim S1x64 ![1] bcast_S64_S1x64_1 : (⟨S64, .f32⟩ : BufTy).Contents (Elt F) → (⟨S1x64, .f32⟩ : BufTy).Contents (Elt F)),
    StableHlo.unary main_v11 main_v12 (broadcastInDim S50000x64 ![0, 1] bcast_S1x64_S50000x64_0_1 : (⟨S1x64, .f32⟩ : BufTy).Contents (Elt F) → (⟨S50000x64, .f32⟩ : BufTy).Contents (Elt F)),
    StableHlo.binary main_v10 main_v12 main_v13 (addf : (⟨S50000x64, .f32⟩ : BufTy).Contents (Elt F) → (⟨S50000x64, .f32⟩ : BufTy).Contents (Elt F) → (⟨S50000x64, .f32⟩ : BufTy).Contents (Elt F)),
    StableHlo.nullary main_cst (constant S_ .f32 0x00000000#32),
    StableHlo.unary main_cst main_v14 (broadcastInDim S50000x64 ![] bcast_S_S50000x64 : (⟨S_, .f32⟩ : BufTy).Contents (Elt F) → (⟨S50000x64, .f32⟩ : BufTy).Contents (Elt F)),
    StableHlo.binary main_v13 main_v14 main_v15 (maximumf : (⟨S50000x64, .f32⟩ : BufTy).Contents (Elt F) → (⟨S50000x64, .f32⟩ : BufTy).Contents (Elt F) → (⟨S50000x64, .f32⟩ : BufTy).Contents (Elt F)),
    StableHlo.binary main_v15 main_arg24 main_v16 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg25 main_v17 (broadcastInDim S1x64 ![1] bcast_S64_S1x64_1 : (⟨S64, .f32⟩ : BufTy).Contents (Elt F) → (⟨S1x64, .f32⟩ : BufTy).Contents (Elt F)),
    StableHlo.unary main_v17 main_v18 (broadcastInDim S50000x64 ![0, 1] bcast_S1x64_S50000x64_0_1 : (⟨S1x64, .f32⟩ : BufTy).Contents (Elt F) → (⟨S50000x64, .f32⟩ : BufTy).Contents (Elt F)),
    StableHlo.binary main_v16 main_v18 main_v19 (addf : (⟨S50000x64, .f32⟩ : BufTy).Contents (Elt F) → (⟨S50000x64, .f32⟩ : BufTy).Contents (Elt F) → (⟨S50000x64, .f32⟩ : BufTy).Contents (Elt F)),
    StableHlo.nullary main_c_0 (constantI S_ 32 0#32),
    StableHlo.unary main_c_0 main_v20 (broadcastInDim S800000 ![] bcast_S_S800000 : (⟨S_, .i32⟩ : BufTy).Contents (Elt F) → (⟨S800000, .i32⟩ : BufTy).Contents (Elt F)),
    StableHlo.binary main_v3 main_v20 main_v21 (cmpi .slt : (⟨S800000, .i32⟩ : BufTy).Contents (Elt F) → (⟨S800000, .i32⟩ : BufTy).Contents (Elt F) → (⟨S800000, .i1⟩ : BufTy).Contents (Elt F)),
    StableHlo.nullary main_c_1 (constantI S_ 32 50000#32),
    StableHlo.unary main_c_1 main_v22 (broadcastInDim S800000 ![] bcast_S_S800000 : (⟨S_, .i32⟩ : BufTy).Contents (Elt F) → (⟨S800000, .i32⟩ : BufTy).Contents (Elt F)),
    StableHlo.binary main_v3 main_v22 main_v23 (addi : (⟨S800000, .i32⟩ : BufTy).Contents (Elt F) → (⟨S800000, .i32⟩ : BufTy).Contents (Elt F) → (⟨S800000, .i32⟩ : BufTy).Contents (Elt F)),
    StableHlo.ternary main_v21 main_v23 main_v3 main_v24 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v24 main_v25 (broadcastInDim S800000x1 ![0] bcast_S800000_S800000x1_0 : (⟨S800000, .i32⟩ : BufTy).Contents (Elt F) → (⟨S800000x1, .i32⟩ : BufTy).Contents (Elt F)),
    StableHlo.binary main_v19 main_v25 main_v26 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_c_2 (constantI S_ 32 0#32),
    StableHlo.unary main_c_2 main_v27 (broadcastInDim S800000 ![] bcast_S_S800000 : (⟨S_, .i32⟩ : BufTy).Contents (Elt F) → (⟨S800000, .i32⟩ : BufTy).Contents (Elt F)),
    StableHlo.binary main_v1 main_v27 main_v28 (cmpi .slt : (⟨S800000, .i32⟩ : BufTy).Contents (Elt F) → (⟨S800000, .i32⟩ : BufTy).Contents (Elt F) → (⟨S800000, .i1⟩ : BufTy).Contents (Elt F)),
    StableHlo.nullary main_c_3 (constantI S_ 32 50000#32),
    StableHlo.unary main_c_3 main_v29 (broadcastInDim S800000 ![] bcast_S_S800000 : (⟨S_, .i32⟩ : BufTy).Contents (Elt F) → (⟨S800000, .i32⟩ : BufTy).Contents (Elt F)),
    StableHlo.binary main_v1 main_v29 main_v30 (addi : (⟨S800000, .i32⟩ : BufTy).Contents (Elt F) → (⟨S800000, .i32⟩ : BufTy).Contents (Elt F) → (⟨S800000, .i32⟩ : BufTy).Contents (Elt F)),
    StableHlo.ternary main_v28 main_v30 main_v1 main_v31 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v31 main_v32 (broadcastInDim S800000x1 ![0] bcast_S800000_S800000x1_0 : (⟨S800000, .i32⟩ : BufTy).Contents (Elt F) → (⟨S800000x1, .i32⟩ : BufTy).Contents (Elt F)),
    StableHlo.binary main_v19 main_v32 main_v33 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ]

theorem ops0_sub : (ops0 : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 4000000 in
set_option maxRecDepth 4096 in
theorem sat0 (a : Args F) : ∀ V : Valuation τ sig (Elt F), Sat V (known0 a) → Sat (after ops0 V) (known1 a) :=
  step_unary 4 a.x4 (Read.val_main_v0 (F := F) a.x4) rfl rfl rfl <|
  step_reshape 0 (Read.val_main_v0 (F := F) a.x4) (Read.val_main_v1 (F := F) a.x4) rfl rfl rfl <|
  step_unary 6 a.x4 (Read.val_main_v2 (F := F) a.x4) rfl rfl rfl <|
  step_reshape 0 (Read.val_main_v2 (F := F) a.x4) (Read.val_main_v3 (F := F) a.x4) rfl rfl rfl <|
  step_binary 2 0 (Read.val_main_v1 (F := F) a.x4) (Read.val_main_v3 (F := F) a.x4) (Read.val_main_v4 (F := F) a.x4) rfl rfl rfl rfl <|
  step_unary 0 (Read.val_main_v4 (F := F) a.x4) (Read.val_main_v5 (F := F) a.x4) rfl rfl rfl <|
  step_unary 0 (Read.val_main_v5 (F := F) a.x4) (Read.val_main_v6 (F := F) a.x4) rfl rfl rfl <|
  step_nullary (Read.val_main_c (F := F)) rfl rfl <|
  step_unary 0 (Read.val_main_c (F := F)) (Read.val_main_v7 (F := F)) rfl rfl rfl <|
  step_binary 12 0 a.x3 (Read.val_main_v7 (F := F)) (Read.val_main_v8 (F := F) a.x3) rfl rfl rfl rfl <|
  step_unary 0 (Read.val_main_v8 (F := F) a.x3) (Read.val_main_v9 (F := F) a.x3) rfl rfl rfl <|
  step_binary 11 33 a.x0 a.x22 (Read.val_main_v10 (F := F) a.x0 a.x22) rfl rfl rfl rfl <|
  step_unary 35 a.x23 (Read.val_main_v11 (F := F) a.x23) rfl rfl rfl <|
  step_unary 0 (Read.val_main_v11 (F := F) a.x23) (Read.val_main_v12 (F := F) a.x23) rfl rfl rfl <|
  step_binary 2 0 (Read.val_main_v10 (F := F) a.x0 a.x22) (Read.val_main_v12 (F := F) a.x23) (Read.val_main_v13 (F := F) a.x0 a.x22 a.x23) rfl rfl rfl rfl <|
  step_nullary (Read.val_main_cst (F := F)) rfl rfl <|
  step_unary 0 (Read.val_main_cst (F := F)) (Read.val_main_v14 (F := F)) rfl rfl rfl <|
  step_binary 2 0 (Read.val_main_v13 (F := F) a.x0 a.x22 a.x23) (Read.val_main_v14 (F := F)) (Read.val_main_v15 (F := F) a.x0 a.x22 a.x23) rfl rfl rfl rfl <|
  step_binary 0 42 (Read.val_main_v15 (F := F) a.x0 a.x22 a.x23) a.x24 (Read.val_main_v16 (F := F) a.x0 a.x22 a.x23 a.x24) rfl rfl rfl rfl <|
  step_unary 44 a.x25 (Read.val_main_v17 (F := F) a.x25) rfl rfl rfl <|
  step_unary 0 (Read.val_main_v17 (F := F) a.x25) (Read.val_main_v18 (F := F) a.x25) rfl rfl rfl <|
  step_binary 2 0 (Read.val_main_v16 (F := F) a.x0 a.x22 a.x23 a.x24) (Read.val_main_v18 (F := F) a.x25) (Read.val_main_v19 (F := F) a.x0 a.x22 a.x23 a.x24 a.x25) rfl rfl rfl rfl <|
  step_nullary (Read.val_main_c_0 (F := F)) rfl rfl <|
  step_unary 0 (Read.val_main_c_0 (F := F)) (Read.val_main_v20 (F := F)) rfl rfl rfl <|
  step_binary 20 0 (Read.val_main_v3 (F := F) a.x4) (Read.val_main_v20 (F := F)) (Read.val_main_v21 (F := F) a.x4) rfl rfl rfl rfl <|
  step_nullary (Read.val_main_c_1 (F := F)) rfl rfl <|
  step_unary 0 (Read.val_main_c_1 (F := F)) (Read.val_main_v22 (F := F)) rfl rfl rfl <|
  step_binary 23 0 (Read.val_main_v3 (F := F) a.x4) (Read.val_main_v22 (F := F)) (Read.val_main_v23 (F := F) a.x4) rfl rfl rfl rfl <|
  step_ternary 3 0 24 (Read.val_main_v21 (F := F) a.x4) (Read.val_main_v23 (F := F) a.x4) (Read.val_main_v3 (F := F) a.x4) (Read.val_main_v24 (F := F) a.x4) rfl rfl rfl rfl rfl <|
  step_unary 0 (Read.val_main_v24 (F := F) a.x4) (Read.val_main_v25 (F := F) a.x4) rfl rfl rfl <|
  step_binary 8 0 (Read.val_main_v19 (F := F) a.x0 a.x22 a.x23 a.x24 a.x25) (Read.val_main_v25 (F := F) a.x4) (Read.val_main_v26 (F := F) a.x0 a.x4 a.x22 a.x23 a.x24 a.x25) rfl rfl rfl rfl <|
  step_nullary (Read.val_main_c_2 (F := F)) rfl rfl <|
  step_unary 0 (Read.val_main_c_2 (F := F)) (Read.val_main_v27 (F := F)) rfl rfl rfl <|
  step_binary 31 0 (Read.val_main_v1 (F := F) a.x4) (Read.val_main_v27 (F := F)) (Read.val_main_v28 (F := F) a.x4) rfl rfl rfl rfl <|
  step_nullary (Read.val_main_c_3 (F := F)) rfl rfl <|
  step_unary 0 (Read.val_main_c_3 (F := F)) (Read.val_main_v29 (F := F)) rfl rfl rfl <|
  step_binary 34 0 (Read.val_main_v1 (F := F) a.x4) (Read.val_main_v29 (F := F)) (Read.val_main_v30 (F := F) a.x4) rfl rfl rfl rfl <|
  step_ternary 3 0 35 (Read.val_main_v28 (F := F) a.x4) (Read.val_main_v30 (F := F) a.x4) (Read.val_main_v1 (F := F) a.x4) (Read.val_main_v31 (F := F) a.x4) rfl rfl rfl rfl rfl <|
  step_unary 0 (Read.val_main_v31 (F := F) a.x4) (Read.val_main_v32 (F := F) a.x4) rfl rfl rfl <|
  step_binary 17 0 (Read.val_main_v19 (F := F) a.x0 a.x22 a.x23 a.x24 a.x25) (Read.val_main_v32 (F := F) a.x4) (Read.val_main_v33 (F := F) a.x0 a.x4 a.x22 a.x23 a.x24 a.x25) rfl rfl rfl rfl <|
  done [38, 36, 33, 29, 18, 9, 0, 40, 41, 42, 43, 44, 45, 46, 47, 48, 49, 50, 51, 52, 53, 54, 55, 56, 57, 58, 59, 60, 61, 62, 63, 64, 65, 66, 67, 68, 69] rfl

abbrev ops1 : List (HloOp τ sig (Elt F)) :=
  [ StableHlo.nary ![main_v26, main_v33, main_arg5] main_v34 (fun u => concatenate S800000x131 1 [⟨S800000x64, u 0⟩, ⟨S800000x64, u 1⟩, ⟨S800000x3, u 2⟩] concatenates_S800000x64_S800000x64_S800000x3_S800000x131_d1),
    StableHlo.binary main_v34 main_arg8 main_v35 ((fun l r => Host.dotGeneral dot_S800000x131_S131x64_S800000x64_1_0_0_1_n_n none l r) : (⟨S800000x131, .f32⟩ : BufTy).Contents (Elt F) → (⟨S131x64, .f32⟩ : BufTy).Contents (Elt F) → (⟨S800000x64, .f32⟩ : BufTy).Contents (Elt F)),
    StableHlo.unary main_arg9 main_v36 (broadcastInDim S1x64 ![1] bcast_S64_S1x64_1 : (⟨S64, .f32⟩ : BufTy).Contents (Elt F) → (⟨S1x64, .f32⟩ : BufTy).Contents (Elt F)),
    StableHlo.unary main_v36 main_v37 (broadcastInDim S800000x64 ![0, 1] bcast_S1x64_S800000x64_0_1 : (⟨S1x64, .f32⟩ : BufTy).Contents (Elt F) → (⟨S800000x64, .f32⟩ : BufTy).Contents (Elt F)),
    StableHlo.binary main_v35 main_v37 main_v38 (addf : (⟨S800000x64, .f32⟩ : BufTy).Contents (Elt F) → (⟨S800000x64, .f32⟩ : BufTy).Contents (Elt F) → (⟨S800000x64, .f32⟩ : BufTy).Contents (Elt F)),
    StableHlo.nullary main_cst_4 (constant S_ .f32 0x00000000#32),
    StableHlo.unary main_cst_4 main_v39 (broadcastInDim S800000x64 ![] bcast_S_S800000x64 : (⟨S_, .f32⟩ : BufTy).Contents (Elt F) → (⟨S800000x64, .f32⟩ : BufTy).Contents (Elt F)),
    StableHlo.binary main_v38 main_v39 main_v40 (maximumf : (⟨S800000x64, .f32⟩ : BufTy).Contents (Elt F) → (⟨S800000x64, .f32⟩ : BufTy).Contents (Elt F) → (⟨S800000x64, .f32⟩ : BufTy).Contents (Elt F)),
    StableHlo.binary main_v40 main_arg10 main_v41 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    StableHlo.unary main_arg11 main_v42 (broadcastInDim S1x64 ![1] bcast_S64_S1x64_1 : (⟨S64, .f32⟩ : BufTy).Contents (Elt F) → (⟨S1x64, .f32⟩ : BufTy).Contents (Elt F)),
    StableHlo.unary main_v42 main_v43 (broadcastInDim S800000x64 ![0, 1] bcast_S1x64_S800000x64_0_1 : (⟨S1x64, .f32⟩ : BufTy).Contents (Elt F) → (⟨S800000x64, .f32⟩ : BufTy).Contents (Elt F)),
    StableHlo.binary main_v41 main_v43 main_v44 (addf : (⟨S800000x64, .f32⟩ : BufTy).Contents (Elt F) → (⟨S800000x64, .f32⟩ : BufTy).Contents (Elt F) → (⟨S800000x64, .f32⟩ : BufTy).Contents (Elt F)),
    StableHlo.unary main_v6 main_v45 (broadcastInDim S800000x64 ![0, 1] bcast_S800000x1_S800000x64_0_1 : (⟨S800000x1, .f32⟩ : BufTy).Contents (Elt F) → (⟨S800000x64, .f32⟩ : BufTy).Contents (Elt F)),
    StableHlo.binary main_v44 main_v45 main_v46 (mulf : (⟨S800000x64, .f32⟩ : BufTy).Contents (Elt F) → (⟨S800000x64, .f32⟩ : BufTy).Contents (Elt F) → (⟨S800000x64, .f32⟩ : BufTy).Contents (Elt F)),
    StableHlo.nullary main_cst_5 (constant S_ .f32 0x00000000#32),
    StableHlo.unary main_cst_5 main_v47 (broadcastInDim S50000x64 ![] bcast_S_S50000x64 : (⟨S_, .f32⟩ : BufTy).Contents (Elt F) → (⟨S50000x64, .f32⟩ : BufTy).Contents (Elt F)),
    StableHlo.unary main_v3 main_v48 (broadcastInDim S800000x1 ![0] bcast_S800000_S800000x1_0 : (⟨S800000, .i32⟩ : BufTy).Contents (Elt F) → (⟨S800000x1, .i32⟩ : BufTy).Contents (Elt F)),
    StableHlo.ternary main_v47 main_v48 main_v46 main_v49 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.nullary main_c_6 (constantI S_ 32 0#32),
    StableHlo.unary main_c_6 main_v50 (broadcastInDim S800000 ![] bcast_S_S800000 : (⟨S_, .i32⟩ : BufTy).Contents (Elt F) → (⟨S800000, .i32⟩ : BufTy).Contents (Elt F)) ]

theorem ops1_sub : (ops1 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., binary_bufs_sub .., nullary_bufs_sub .., unary_bufs_sub .., unary_bufs_sub .., ternary_bufs_sub .., nullary_bufs_sub .., unary_bufs_sub ..⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

set_option maxHeartbeats 4000000 in
set_option maxRecDepth 4096 in
theorem sat1 (a : Args F) : ∀ V : Valuation τ sig (Elt F), Sat V (known1 a) → Sat (after ops1 V) (known2 a) :=
  step_nary (Read.val_main_v34 (F := F) a.x0 a.x4 a.x5 a.x22 a.x23 a.x24 a.x25) (fun V h => by
      have e0 := h.get 5 (b := main_v26) (v := (Read.val_main_v26 (F := F) a.x0 a.x4 a.x22 a.x23 a.x24 a.x25)) rfl
      have e1 := h.get 6 (b := main_v33) (v := (Read.val_main_v33 (F := F) a.x0 a.x4 a.x22 a.x23 a.x24 a.x25)) rfl
      have e2 := h.get 12 (b := main_arg5) (v := a.x5) rfl
      unfold Read.val_main_v34
      rw [← e0, ← e1, ← e2]
      rfl) rfl <|
  step_binary 0 16 (Read.val_main_v34 (F := F) a.x0 a.x4 a.x5 a.x22 a.x23 a.x24 a.x25) a.x8 (Read.val_main_v35 (F := F) a.x0 a.x4 a.x5 a.x8 a.x22 a.x23 a.x24 a.x25) rfl rfl rfl rfl <|
  step_unary 18 a.x9 (Read.val_main_v36 (F := F) a.x9) rfl rfl rfl <|
  step_unary 0 (Read.val_main_v36 (F := F) a.x9) (Read.val_main_v37 (F := F) a.x9) rfl rfl rfl <|
  step_binary 2 0 (Read.val_main_v35 (F := F) a.x0 a.x4 a.x5 a.x8 a.x22 a.x23 a.x24 a.x25) (Read.val_main_v37 (F := F) a.x9) (Read.val_main_v38 (F := F) a.x0 a.x4 a.x5 a.x8 a.x9 a.x22 a.x23 a.x24 a.x25) rfl rfl rfl rfl <|
  step_nullary (Read.val_main_cst_4 (F := F)) rfl rfl <|
  step_unary 0 (Read.val_main_cst_4 (F := F)) (Read.val_main_v39 (F := F)) rfl rfl rfl <|
  step_binary 2 0 (Read.val_main_v38 (F := F) a.x0 a.x4 a.x5 a.x8 a.x9 a.x22 a.x23 a.x24 a.x25) (Read.val_main_v39 (F := F)) (Read.val_main_v40 (F := F) a.x0 a.x4 a.x5 a.x8 a.x9 a.x22 a.x23 a.x24 a.x25) rfl rfl rfl rfl <|
  step_binary 0 25 (Read.val_main_v40 (F := F) a.x0 a.x4 a.x5 a.x8 a.x9 a.x22 a.x23 a.x24 a.x25) a.x10 (Read.val_main_v41 (F := F) a.x0 a.x4 a.x5 a.x8 a.x9 a.x10 a.x22 a.x23 a.x24 a.x25) rfl rfl rfl rfl <|
  step_unary 27 a.x11 (Read.val_main_v42 (F := F) a.x11) rfl rfl rfl <|
  step_unary 0 (Read.val_main_v42 (F := F) a.x11) (Read.val_main_v43 (F := F) a.x11) rfl rfl rfl <|
  step_binary 2 0 (Read.val_main_v41 (F := F) a.x0 a.x4 a.x5 a.x8 a.x9 a.x10 a.x22 a.x23 a.x24 a.x25) (Read.val_main_v43 (F := F) a.x11) (Read.val_main_v44 (F := F) a.x0 a.x4 a.x5 a.x8 a.x9 a.x10 a.x11 a.x22 a.x23 a.x24 a.x25) rfl rfl rfl rfl <|
  step_unary 14 (Read.val_main_v6 (F := F) a.x4) (Read.val_main_v45 (F := F) a.x4) rfl rfl rfl <|
  step_binary 1 0 (Read.val_main_v44 (F := F) a.x0 a.x4 a.x5 a.x8 a.x9 a.x10 a.x11 a.x22 a.x23 a.x24 a.x25) (Read.val_main_v45 (F := F) a.x4) (Read.val_main_v46 (F := F) a.x0 a.x4 a.x5 a.x8 a.x9 a.x10 a.x11 a.x22 a.x23 a.x24 a.x25) rfl rfl rfl rfl <|
  step_nullary (Read.val_main_cst_5 (F := F)) rfl rfl <|
  step_unary 0 (Read.val_main_cst_5 (F := F)) (Read.val_main_v47 (F := F)) rfl rfl rfl <|
  step_unary 17 (Read.val_main_v3 (F := F) a.x4) (Read.val_main_v48 (F := F) a.x4) rfl rfl rfl <|
  step_ternary 1 0 3 (Read.val_main_v47 (F := F)) (Read.val_main_v48 (F := F) a.x4) (Read.val_main_v46 (F := F) a.x0 a.x4 a.x5 a.x8 a.x9 a.x10 a.x11 a.x22 a.x23 a.x24 a.x25) (Read.val_main_v49 (F := F) a.x0 a.x4 a.x5 a.x8 a.x9 a.x10 a.x11 a.x22 a.x23 a.x24 a.x25) rfl rfl rfl rfl rfl <|
  step_nullary (Read.val_main_c_6 (F := F)) rfl rfl <|
  step_unary 0 (Read.val_main_c_6 (F := F)) (Read.val_main_v50 (F := F)) rfl rfl rfl <|
  done [20, 21, 22, 23, 24, 2, 0, 27, 28, 29, 30, 31, 32, 33, 34, 35, 36, 37, 38, 39, 40, 41, 42, 43, 44, 45, 46, 47, 48, 49, 50, 51, 52, 53, 54, 55, 56] rfl

abbrev win0 : List (HloOp τ sig (Elt F)) := ops0 ++ ops1

set_option maxHeartbeats 4000000 in
set_option maxRecDepth 4096 in
theorem main_part0_eq (d : Dev nD) : main_part0 (F := F) d = seq win0 := rfl

theorem win0_sub : (win0 : List (HloOp τ sig (Elt F))).Forall fun op => op.bufs ⊆ tcRefs τ sig :=
  List.forall_append.2 ⟨ops0_sub, ops1_sub⟩

theorem win0_fresh : (win0 : List (HloOp τ sig (Elt F))).Forall fun op => op.fresh = ∅ :=
  List.forall_append.2 ⟨ops0_fresh, ops1_fresh⟩

theorem win0_sat (a : Args F) : ∀ V : Valuation τ sig (Elt F), Sat V (known0 a) → Sat (after win0 V) (known2 a) :=
  line_append (sat0 a) (sat1 a)

end Cert.ReferenceIdeal.Hand

end
-- ==== Proof.Ref.Ops1.lean ====
import proofs.«138431_j79370995631014_1_alg».proof.Proof.Ref.OpsLists
import proofs.«138431_j79370995631014_1_alg».proof.Proof.LibHostLine3

noncomputable section

namespace Cert.ReferenceIdeal.Hand

open Cert.ReferenceIdeal Cert.ReferenceIdeal.Gen Idealize.ShloMosaic Idealize.ShloMosaic.TcCoe Idealize.SL.Sem Idealize.ShloMosaic.StableHlo HostLine

variable {F : FTy → Type} [FloatOps F]

abbrev ops2 : List (HloOp τ sig (Elt F)) :=
  [ StableHlo.binary main_v1 main_v50 main_v51 (cmpi .slt : (⟨S800000, .i32⟩ : BufTy).Contents (Elt F) → (⟨S800000, .i32⟩ : BufTy).Contents (Elt F) → (⟨S800000, .i1⟩ : BufTy).Contents (Elt F)),
    StableHlo.nullary main_c_7 (constantI S_ 32 50000#32),
    StableHlo.unary main_c_7 main_v52 (broadcastInDim S800000 ![] bcast_S_S800000 : (⟨S_, .i32⟩ : BufTy).Contents (Elt F) → (⟨S800000, .i32⟩ : BufTy).Contents (Elt F)),
    StableHlo.binary main_v1 main_v52 main_v53 (addi : (⟨S800000, .i32⟩ : BufTy).Contents (Elt F) → (⟨S800000, .i32⟩ : BufTy).Contents (Elt F) → (⟨S800000, .i32⟩ : BufTy).Contents (Elt F)),
    StableHlo.ternary main_v51 main_v53 main_v1 main_v54 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v54 main_v55 (broadcastInDim S800000x1 ![0] bcast_S800000_S800000x1_0 : (⟨S800000, .i32⟩ : BufTy).Contents (Elt F) → (⟨S800000x1, .i32⟩ : BufTy).Contents (Elt F)),
    StableHlo.binary main_v19 main_v55 main_v56 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_c_8 (constantI S_ 32 0#32),
    StableHlo.unary main_c_8 main_v57 (broadcastInDim S800000 ![] bcast_S_S800000 : (⟨S_, .i32⟩ : BufTy).Contents (Elt F) → (⟨S800000, .i32⟩ : BufTy).Contents (Elt F)),
    StableHlo.binary main_v3 main_v57 main_v58 (cmpi .slt : (⟨S800000, .i32⟩ : BufTy).Contents (Elt F) → (⟨S800000, .i32⟩ : BufTy).Contents (Elt F) → (⟨S800000, .i1⟩ : BufTy).Contents (Elt F)),
    StableHlo.nullary main_c_9 (constantI S_ 32 50000#32),
    StableHlo.unary main_c_9 main_v59 (broadcastInDim S800000 ![] bcast_S_S800000 : (⟨S_, .i32⟩ : BufTy).Contents (Elt F) → (⟨S800000, .i32⟩ : BufTy).Contents (Elt F)),
    StableHlo.binary main_v3 main_v59 main_v60 (addi : (⟨S800000, .i32⟩ : BufTy).Contents (Elt F) → (⟨S800000, .i32⟩ : BufTy).Contents (Elt F) → (⟨S800000, .i32⟩ : BufTy).Contents (Elt F)),
    StableHlo.ternary main_v58 main_v60 main_v3 main_v61 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v61 main_v62 (broadcastInDim S800000x1 ![0] bcast_S800000_S800000x1_0 : (⟨S800000, .i32⟩ : BufTy).Contents (Elt F) → (⟨S800000x1, .i32⟩ : BufTy).Contents (Elt F)),
    StableHlo.binary main_v19 main_v62 main_v63 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ]

theorem ops2_sub : (ops2 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem ops2_fresh : (ops2 : List (HloOp τ sig (Elt F))).Forall fun op => op.fresh = ∅ :=
  ⟨rfl, rfl, rfl, rfl, rfl, rfl, rfl, rfl, rfl, rfl, rfl, rfl, rfl, rfl, rfl, rfl⟩

set_option maxHeartbeats 4000000 in
set_option maxRecDepth 4096 in
theorem sat2 (a : Args F) : ∀ V : Valuation τ sig (Elt F), Sat V (known2 a) → Sat (after ops2 V) (known3 a) :=
  step_binary 0 6 (Read.val_main_v1 (F := F) a.x4) (Read.val_main_v50 (F := F)) (Read.val_main_v51 (F := F) a.x4) rfl rfl rfl rfl <|
  step_nullary (Read.val_main_c_7 (F := F)) rfl rfl <|
  step_unary 0 (Read.val_main_c_7 (F := F)) (Read.val_main_v52 (F := F)) rfl rfl rfl <|
  step_binary 3 0 (Read.val_main_v1 (F := F) a.x4) (Read.val_main_v52 (F := F)) (Read.val_main_v53 (F := F) a.x4) rfl rfl rfl rfl <|
  step_ternary 3 0 4 (Read.val_main_v51 (F := F) a.x4) (Read.val_main_v53 (F := F) a.x4) (Read.val_main_v1 (F := F) a.x4) (Read.val_main_v54 (F := F) a.x4) rfl rfl rfl rfl rfl <|
  step_unary 0 (Read.val_main_v54 (F := F) a.x4) (Read.val_main_v55 (F := F) a.x4) rfl rfl rfl <|
  step_binary 10 0 (Read.val_main_v19 (F := F) a.x0 a.x22 a.x23 a.x24 a.x25) (Read.val_main_v55 (F := F) a.x4) (Read.val_main_v56 (F := F) a.x0 a.x4 a.x22 a.x23 a.x24 a.x25) rfl rfl rfl rfl <|
  step_nullary (Read.val_main_c_8 (F := F)) rfl rfl <|
  step_unary 0 (Read.val_main_c_8 (F := F)) (Read.val_main_v57 (F := F)) rfl rfl rfl <|
  step_binary 10 0 (Read.val_main_v3 (F := F) a.x4) (Read.val_main_v57 (F := F)) (Read.val_main_v58 (F := F) a.x4) rfl rfl rfl rfl <|
  step_nullary (Read.val_main_c_9 (F := F)) rfl rfl <|
  step_unary 0 (Read.val_main_c_9 (F := F)) (Read.val_main_v59 (F := F)) rfl rfl rfl <|
  step_binary 13 0 (Read.val_main_v3 (F := F) a.x4) (Read.val_main_v59 (F := F)) (Read.val_main_v60 (F := F) a.x4) rfl rfl rfl rfl <|
  step_ternary 3 0 14 (Read.val_main_v58 (F := F) a.x4) (Read.val_main_v60 (F := F) a.x4) (Read.val_main_v3 (F := F) a.x4) (Read.val_main_v61 (F := F) a.x4) rfl rfl rfl rfl rfl <|
  step_unary 0 (Read.val_main_v61 (F := F) a.x4) (Read.val_main_v62 (F := F) a.x4) rfl rfl rfl <|
  step_binary 19 0 (Read.val_main_v19 (F := F) a.x0 a.x22 a.x23 a.x24 a.x25) (Read.val_main_v62 (F := F) a.x4) (Read.val_main_v63 (F := F) a.x0 a.x4 a.x22 a.x23 a.x24 a.x25) rfl rfl rfl rfl <|
  done [16, 17, 18, 19, 20, 21, 9, 0, 23, 24, 25, 26, 27, 28, 29, 30, 31, 32, 33, 34, 35, 36, 37, 38, 39, 40, 41, 42, 43, 44, 45, 46, 47, 48, 49, 50, 51, 52] rfl

abbrev ops3 : List (HloOp τ sig (Elt F)) :=
  [ StableHlo.nary ![main_v56, main_v63, main_arg5] main_v64 (fun u => concatenate S800000x131 1 [⟨S800000x64, u 0⟩, ⟨S800000x64, u 1⟩, ⟨S800000x3, u 2⟩] concatenates_S800000x64_S800000x64_S800000x3_S800000x131_d1),
    StableHlo.binary main_v64 main_arg12 main_v65 ((fun l r => Host.dotGeneral dot_S800000x131_S131x64_S800000x64_1_0_0_1_n_n none l r) : (⟨S800000x131, .f32⟩ : BufTy).Contents (Elt F) → (⟨S131x64, .f32⟩ : BufTy).Contents (Elt F) → (⟨S800000x64, .f32⟩ : BufTy).Contents (Elt F)),
    StableHlo.unary main_arg13 main_v66 (broadcastInDim S1x64 ![1] bcast_S64_S1x64_1 : (⟨S64, .f32⟩ : BufTy).Contents (Elt F) → (⟨S1x64, .f32⟩ : BufTy).Contents (Elt F)),
    StableHlo.unary main_v66 main_v67 (broadcastInDim S800000x64 ![0, 1] bcast_S1x64_S800000x64_0_1 : (⟨S1x64, .f32⟩ : BufTy).Contents (Elt F) → (⟨S800000x64, .f32⟩ : BufTy).Contents (Elt F)),
    StableHlo.binary main_v65 main_v67 main_v68 (addf : (⟨S800000x64, .f32⟩ : BufTy).Contents (Elt F) → (⟨S800000x64, .f32⟩ : BufTy).Contents (Elt F) → (⟨S800000x64, .f32⟩ : BufTy).Contents (Elt F)),
    StableHlo.nullary main_cst_10 (constant S_ .f32 0x00000000#32),
    StableHlo.unary main_cst_10 main_v69 (broadcastInDim S800000x64 ![] bcast_S_S800000x64 : (⟨S_, .f32⟩ : BufTy).Contents (Elt F) → (⟨S800000x64, .f32⟩ : BufTy).Contents (Elt F)),
    StableHlo.binary main_v68 main_v69 main_v70 (maximumf : (⟨S800000x64, .f32⟩ : BufTy).Contents (Elt F) → (⟨S800000x64, .f32⟩ : BufTy).Contents (Elt F) → (⟨S800000x64, .f32⟩ : BufTy).Contents (Elt F)),
    StableHlo.binary main_v70 main_arg14 main_v71 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    StableHlo.unary main_arg15 main_v72 (broadcastInDim S1x64 ![1] bcast_S64_S1x64_1 : (⟨S64, .f32⟩ : BufTy).Contents (Elt F) → (⟨S1x64, .f32⟩ : BufTy).Contents (Elt F)),
    StableHlo.unary main_v72 main_v73 (broadcastInDim S800000x64 ![0, 1] bcast_S1x64_S800000x64_0_1 : (⟨S1x64, .f32⟩ : BufTy).Contents (Elt F) → (⟨S800000x64, .f32⟩ : BufTy).Contents (Elt F)),
    StableHlo.binary main_v71 main_v73 main_v74 (addf : (⟨S800000x64, .f32⟩ : BufTy).Contents (Elt F) → (⟨S800000x64, .f32⟩ : BufTy).Contents (Elt F) → (⟨S800000x64, .f32⟩ : BufTy).Contents (Elt F)),
    StableHlo.unary main_v6 main_v75 (broadcastInDim S800000x64 ![0, 1] bcast_S800000x1_S800000x64_0_1 : (⟨S800000x1, .f32⟩ : BufTy).Contents (Elt F) → (⟨S800000x64, .f32⟩ : BufTy).Contents (Elt F)),
    StableHlo.binary main_v74 main_v75 main_v76 (mulf : (⟨S800000x64, .f32⟩ : BufTy).Contents (Elt F) → (⟨S800000x64, .f32⟩ : BufTy).Contents (Elt F) → (⟨S800000x64, .f32⟩ : BufTy).Contents (Elt F)),
    StableHlo.nullary main_cst_11 (constant S_ .f32 0x00000000#32),
    StableHlo.unary main_cst_11 main_v77 (broadcastInDim S50000x64 ![] bcast_S_S50000x64 : (⟨S_, .f32⟩ : BufTy).Contents (Elt F) → (⟨S50000x64, .f32⟩ : BufTy).Contents (Elt F)),
    StableHlo.unary main_v1 main_v78 (broadcastInDim S800000x1 ![0] bcast_S800000_S800000x1_0 : (⟨S800000, .i32⟩ : BufTy).Contents (Elt F) → (⟨S800000x1, .i32⟩ : BufTy).Contents (Elt F)),
    StableHlo.ternary main_v77 main_v78 main_v76 main_v79 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

theorem ops3_sub : (ops3 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., binary_bufs_sub .., nullary_bufs_sub .., unary_bufs_sub .., unary_bufs_sub .., ternary_bufs_sub ..⟩

theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl⟩

set_option maxHeartbeats 4000000 in
set_option maxRecDepth 4096 in
theorem sat3 (a : Args F) : ∀ V : Valuation τ sig (Elt F), Sat V (known3 a) → Sat (after ops3 V) (known4 a) :=
  step_nary (Read.val_main_v64 (F := F) a.x0 a.x4 a.x5 a.x22 a.x23 a.x24 a.x25) (fun V h => by
      have e0 := h.get 6 (b := main_v56) (v := (Read.val_main_v56 (F := F) a.x0 a.x4 a.x22 a.x23 a.x24 a.x25)) rfl
      have e1 := h.get 7 (b := main_v63) (v := (Read.val_main_v63 (F := F) a.x0 a.x4 a.x22 a.x23 a.x24 a.x25)) rfl
      have e2 := h.get 13 (b := main_arg5) (v := a.x5) rfl
      unfold Read.val_main_v64
      rw [← e0, ← e1, ← e2]
      rfl) rfl <|
  step_binary 0 21 (Read.val_main_v64 (F := F) a.x0 a.x4 a.x5 a.x22 a.x23 a.x24 a.x25) a.x12 (Read.val_main_v65 (F := F) a.x0 a.x4 a.x5 a.x12 a.x22 a.x23 a.x24 a.x25) rfl rfl rfl rfl <|
  step_unary 23 a.x13 (Read.val_main_v66 (F := F) a.x13) rfl rfl rfl <|
  step_unary 0 (Read.val_main_v66 (F := F) a.x13) (Read.val_main_v67 (F := F) a.x13) rfl rfl rfl <|
  step_binary 2 0 (Read.val_main_v65 (F := F) a.x0 a.x4 a.x5 a.x12 a.x22 a.x23 a.x24 a.x25) (Read.val_main_v67 (F := F) a.x13) (Read.val_main_v68 (F := F) a.x0 a.x4 a.x5 a.x12 a.x13 a.x22 a.x23 a.x24 a.x25) rfl rfl rfl rfl <|
  step_nullary (Read.val_main_cst_10 (F := F)) rfl rfl <|
  step_unary 0 (Read.val_main_cst_10 (F := F)) (Read.val_main_v69 (F := F)) rfl rfl rfl <|
  step_binary 2 0 (Read.val_main_v68 (F := F) a.x0 a.x4 a.x5 a.x12 a.x13 a.x22 a.x23 a.x24 a.x25) (Read.val_main_v69 (F := F)) (Read.val_main_v70 (F := F) a.x0 a.x4 a.x5 a.x12 a.x13 a.x22 a.x23 a.x24 a.x25) rfl rfl rfl rfl <|
  step_binary 0 30 (Read.val_main_v70 (F := F) a.x0 a.x4 a.x5 a.x12 a.x13 a.x22 a.x23 a.x24 a.x25) a.x14 (Read.val_main_v71 (F := F) a.x0 a.x4 a.x5 a.x12 a.x13 a.x14 a.x22 a.x23 a.x24 a.x25) rfl rfl rfl rfl <|
  step_unary 32 a.x15 (Read.val_main_v72 (F := F) a.x15) rfl rfl rfl <|
  step_unary 0 (Read.val_main_v72 (F := F) a.x15) (Read.val_main_v73 (F := F) a.x15) rfl rfl rfl <|
  step_binary 2 0 (Read.val_main_v71 (F := F) a.x0 a.x4 a.x5 a.x12 a.x13 a.x14 a.x22 a.x23 a.x24 a.x25) (Read.val_main_v73 (F := F) a.x15) (Read.val_main_v74 (F := F) a.x0 a.x4 a.x5 a.x12 a.x13 a.x14 a.x15 a.x22 a.x23 a.x24 a.x25) rfl rfl rfl rfl <|
  step_unary 14 (Read.val_main_v6 (F := F) a.x4) (Read.val_main_v75 (F := F) a.x4) rfl rfl rfl <|
  step_binary 1 0 (Read.val_main_v74 (F := F) a.x0 a.x4 a.x5 a.x12 a.x13 a.x14 a.x15 a.x22 a.x23 a.x24 a.x25) (Read.val_main_v75 (F := F) a.x4) (Read.val_main_v76 (F := F) a.x0 a.x4 a.x5 a.x12 a.x13 a.x14 a.x15 a.x22 a.x23 a.x24 a.x25) rfl rfl rfl rfl <|
  step_nullary (Read.val_main_cst_11 (F := F)) rfl rfl <|
  step_unary 0 (Read.val_main_cst_11 (F := F)) (Read.val_main_v77 (F := F)) rfl rfl rfl <|
  step_unary 16 (Read.val_main_v1 (F := F) a.x4) (Read.val_main_v78 (F := F) a.x4) rfl rfl rfl <|
  step_ternary 1 0 3 (Read.val_main_v77 (F := F)) (Read.val_main_v78 (F := F) a.x4) (Read.val_main_v76 (F := F) a.x0 a.x4 a.x5 a.x12 a.x13 a.x14 a.x15 a.x22 a.x23 a.x24 a.x25) (Read.val_main_v79 (F := F) a.x0 a.x4 a.x5 a.x12 a.x13 a.x14 a.x15 a.x22 a.x23 a.x24 a.x25) rfl rfl rfl rfl rfl <|
  done [18, 19, 20, 21, 22, 23, 0, 26, 27, 28, 29, 30, 31, 32, 33, 34, 35, 36, 37, 38, 39, 40, 41, 42, 43, 44, 45, 46, 47, 48, 49, 50, 51, 52, 53, 54, 55] rfl

abbrev ops4 : List (HloOp τ sig (Elt F)) :=
  [ StableHlo.nary ![main_v19, main_v49, main_v79, main_arg7] main_v80 (fun u => concatenate S50000x194 1 [⟨S50000x64, u 0⟩, ⟨S50000x64, u 1⟩, ⟨S50000x64, u 2⟩, ⟨S50000x2, u 3⟩] concatenates_S50000x64_S50000x64_S50000x64_S50000x2_S50000x194_d1),
    StableHlo.binary main_v80 main_arg16 main_v81 ((fun l r => Host.dotGeneral dot_S50000x194_S194x64_S50000x64_1_0_0_1_n_n none l r) : (⟨S50000x194, .f32⟩ : BufTy).Contents (Elt F) → (⟨S194x64, .f32⟩ : BufTy).Contents (Elt F) → (⟨S50000x64, .f32⟩ : BufTy).Contents (Elt F)),
    StableHlo.unary main_arg17 main_v82 (broadcastInDim S1x64 ![1] bcast_S64_S1x64_1 : (⟨S64, .f32⟩ : BufTy).Contents (Elt F) → (⟨S1x64, .f32⟩ : BufTy).Contents (Elt F)),
    StableHlo.unary main_v82 main_v83 (broadcastInDim S50000x64 ![0, 1] bcast_S1x64_S50000x64_0_1 : (⟨S1x64, .f32⟩ : BufTy).Contents (Elt F) → (⟨S50000x64, .f32⟩ : BufTy).Contents (Elt F)),
    StableHlo.binary main_v81 main_v83 main_v84 (addf : (⟨S50000x64, .f32⟩ : BufTy).Contents (Elt F) → (⟨S50000x64, .f32⟩ : BufTy).Contents (Elt F) → (⟨S50000x64, .f32⟩ : BufTy).Contents (Elt F)),
    StableHlo.unary main_v84 main_v85 (Host.negf : (⟨S50000x64, .f32⟩ : BufTy).Contents (Elt F) → (⟨S50000x64, .f32⟩ : BufTy).Contents (Elt F)),
    StableHlo.unary main_v85 main_v86 (Host.exp : (⟨S50000x64, .f32⟩ : BufTy).Contents (Elt F) → (⟨S50000x64, .f32⟩ : BufTy).Contents (Elt F)),
    StableHlo.nullary main_cst_12 (constant S_ .f32 0x3F800000#32),
    StableHlo.unary main_cst_12 main_v87 (broadcastInDim S50000x64 ![] bcast_S_S50000x64 : (⟨S_, .f32⟩ : BufTy).Contents (Elt F) → (⟨S50000x64, .f32⟩ : BufTy).Contents (Elt F)),
    StableHlo.binary main_v87 main_v86 main_v88 (addf : (⟨S50000x64, .f32⟩ : BufTy).Contents (Elt F) → (⟨S50000x64, .f32⟩ : BufTy).Contents (Elt F) → (⟨S50000x64, .f32⟩ : BufTy).Contents (Elt F)),
    StableHlo.nullary main_cst_13 (constant S_ .f32 0x3F800000#32),
    StableHlo.unary main_cst_13 main_v89 (broadcastInDim S50000x64 ![] bcast_S_S50000x64 : (⟨S_, .f32⟩ : BufTy).Contents (Elt F) → (⟨S50000x64, .f32⟩ : BufTy).Contents (Elt F)),
    StableHlo.binary main_v89 main_v88 main_v90 (Host.divf : (⟨S50000x64, .f32⟩ : BufTy).Contents (Elt F) → (⟨S50000x64, .f32⟩ : BufTy).Contents (Elt F) → (⟨S50000x64, .f32⟩ : BufTy).Contents (Elt F)),
    StableHlo.binary main_v80 main_arg18 main_v91 ((fun l r => Host.dotGeneral dot_S50000x194_S194x64_S50000x64_1_0_0_1_n_n none l r) : (⟨S50000x194, .f32⟩ : BufTy).Contents (Elt F) → (⟨S194x64, .f32⟩ : BufTy).Contents (Elt F) → (⟨S50000x64, .f32⟩ : BufTy).Contents (Elt F)),
    StableHlo.unary main_arg19 main_v92 (broadcastInDim S1x64 ![1] bcast_S64_S1x64_1 : (⟨S64, .f32⟩ : BufTy).Contents (Elt F) → (⟨S1x64, .f32⟩ : BufTy).Contents (Elt F)),
    StableHlo.unary main_v92 main_v93 (broadcastInDim S50000x64 ![0, 1] bcast_S1x64_S50000x64_0_1 : (⟨S1x64, .f32⟩ : BufTy).Contents (Elt F) → (⟨S50000x64, .f32⟩ : BufTy).Contents (Elt F)),
    StableHlo.binary main_v91 main_v93 main_v94 (addf : (⟨S50000x64, .f32⟩ : BufTy).Contents (Elt F) → (⟨S50000x64, .f32⟩ : BufTy).Contents (Elt F) → (⟨S50000x64, .f32⟩ : BufTy).Contents (Elt F)),
    StableHlo.unary main_v94 main_v95 (Host.negf : (⟨S50000x64, .f32⟩ : BufTy).Contents (Elt F) → (⟨S50000x64, .f32⟩ : BufTy).Contents (Elt F)),
    StableHlo.unary main_v95 main_v96 (Host.exp : (⟨S50000x64, .f32⟩ : BufTy).Contents (Elt F) → (⟨S50000x64, .f32⟩ : BufTy).Contents (Elt F)),
    StableHlo.nullary main_cst_14 (constant S_ .f32 0x3F800000#32),
    StableHlo.unary main_cst_14 main_v97 (broadcastInDim S50000x64 ![] bcast_S_S50000x64 : (⟨S_, .f32⟩ : BufTy).Contents (Elt F) → (⟨S50000x64, .f32⟩ : BufTy).Contents (Elt F)),
    StableHlo.binary main_v97 main_v96 main_v98 (addf : (⟨S50000x64, .f32⟩ : BufTy).Contents (Elt F) → (⟨S50000x64, .f32⟩ : BufTy).Contents (Elt F) → (⟨S50000x64, .f32⟩ : BufTy).Contents (Elt F)),
    StableHlo.nullary main_cst_15 (constant S_ .f32 0x3F800000#32),
    StableHlo.unary main_cst_15 main_v99 (broadcastInDim S50000x64 ![] bcast_S_S50000x64 : (⟨S_, .f32⟩ : BufTy).Contents (Elt F) → (⟨S50000x64, .f32⟩ : BufTy).Contents (Elt F)),
    StableHlo.binary main_v99 main_v98 main_v100 (Host.divf : (⟨S50000x64, .f32⟩ : BufTy).Contents (Elt F) → (⟨S50000x64, .f32⟩ : BufTy).Contents (Elt F) → (⟨S50000x64, .f32⟩ : BufTy).Contents (Elt F)),
    StableHlo.binary main_v100 main_v19 main_v101 (mulf : (⟨S50000x64, .f32⟩ : BufTy).Contents (Elt F) → (⟨S50000x64, .f32⟩ : BufTy).Contents (Elt F) → (⟨S50000x64, .f32⟩ : BufTy).Contents (Elt F)) ]

theorem ops4_sub : (ops4 : List (HloOp τ sig (Elt F))).Forall fun op => op.bufs ⊆ tcRefs τ sig :=
  ⟨nary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩

theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

set_option maxHeartbeats 4000000 in
set_option maxRecDepth 4096 in
theorem sat4 (a : Args F) : ∀ V : Valuation τ sig (Elt F), Sat V (known4 a) → Sat (after ops4 V) (known5 a) :=
  step_nary (Read.val_main_v80 (F := F) a.x0 a.x4 a.x5 a.x7 a.x8 a.x9 a.x10 a.x11 a.x12 a.x13 a.x14 a.x15 a.x22 a.x23 a.x24 a.x25) (fun V h => by
      have e0 := h.get 4 (b := main_v19) (v := (Read.val_main_v19 (F := F) a.x0 a.x22 a.x23 a.x24 a.x25)) rfl
      have e1 := h.get 5 (b := main_v49) (v := (Read.val_main_v49 (F := F) a.x0 a.x4 a.x5 a.x8 a.x9 a.x10 a.x11 a.x22 a.x23 a.x24 a.x25)) rfl
      have e2 := h.get 6 (b := main_v79) (v := (Read.val_main_v79 (F := F) a.x0 a.x4 a.x5 a.x12 a.x13 a.x14 a.x15 a.x22 a.x23 a.x24 a.x25)) rfl
      have e3 := h.get 14 (b := main_arg7) (v := a.x7) rfl
      unfold Read.val_main_v80
      rw [← e0, ← e1, ← e2, ← e3]
      rfl) rfl <|
  step_binary 0 24 (Read.val_main_v80 (F := F) a.x0 a.x4 a.x5 a.x7 a.x8 a.x9 a.x10 a.x11 a.x12 a.x13 a.x14 a.x15 a.x22 a.x23 a.x24 a.x25) a.x16 (Read.val_main_v81 (F := F) a.x0 a.x4 a.x5 a.x7 a.x8 a.x9 a.x10 a.x11 a.x12 a.x13 a.x14 a.x15 a.x16 a.x22 a.x23 a.x24 a.x25) rfl rfl rfl rfl <|
  step_unary 26 a.x17 (Read.val_main_v82 (F := F) a.x17) rfl rfl rfl <|
  step_unary 0 (Read.val_main_v82 (F := F) a.x17) (Read.val_main_v83 (F := F) a.x17) rfl rfl rfl <|
  step_binary 2 0 (Read.val_main_v81 (F := F) a.x0 a.x4 a.x5 a.x7 a.x8 a.x9 a.x10 a.x11 a.x12 a.x13 a.x14 a.x15 a.x16 a.x22 a.x23 a.x24 a.x25) (Read.val_main_v83 (F := F) a.x17) (Read.val_main_v84 (F := F) a.x0 a.x4 a.x5 a.x7 a.x8 a.x9 a.x10 a.x11 a.x12 a.x13 a.x14 a.x15 a.x16 a.x17 a.x22 a.x23 a.x24 a.x25) rfl rfl rfl rfl <|
  step_unary 0 (Read.val_main_v84 (F := F) a.x0 a.x4 a.x5 a.x7 a.x8 a.x9 a.x10 a.x11 a.x12 a.x13 a.x14 a.x15 a.x16 a.x17 a.x22 a.x23 a.x24 a.x25) (Read.val_main_v85 (F := F) a.x0 a.x4 a.x5 a.x7 a.x8 a.x9 a.x10 a.x11 a.x12 a.x13 a.x14 a.x15 a.x16 a.x17 a.x22 a.x23 a.x24 a.x25) rfl rfl rfl <|
  step_unary 0 (Read.val_main_v85 (F := F) a.x0 a.x4 a.x5 a.x7 a.x8 a.x9 a.x10 a.x11 a.x12 a.x13 a.x14 a.x15 a.x16 a.x17 a.x22 a.x23 a.x24 a.x25) (Read.val_main_v86 (F := F) a.x0 a.x4 a.x5 a.x7 a.x8 a.x9 a.x10 a.x11 a.x12 a.x13 a.x14 a.x15 a.x16 a.x17 a.x22 a.x23 a.x24 a.x25) rfl rfl rfl <|
  step_nullary (Read.val_main_cst_12 (F := F)) rfl rfl <|
  step_unary 0 (Read.val_main_cst_12 (F := F)) (Read.val_main_v87 (F := F)) rfl rfl rfl <|
  step_binary 0 2 (Read.val_main_v87 (F := F)) (Read.val_main_v86 (F := F) a.x0 a.x4 a.x5 a.x7 a.x8 a.x9 a.x10 a.x11 a.x12 a.x13 a.x14 a.x15 a.x16 a.x17 a.x22 a.x23 a.x24 a.x25) (Read.val_main_v88 (F := F) a.x0 a.x4 a.x5 a.x7 a.x8 a.x9 a.x10 a.x11 a.x12 a.x13 a.x14 a.x15 a.x16 a.x17 a.x22 a.x23 a.x24 a.x25) rfl rfl rfl rfl <|
  step_nullary (Read.val_main_cst_13 (F := F)) rfl rfl <|
  step_unary 0 (Read.val_main_cst_13 (F := F)) (Read.val_main_v89 (F := F)) rfl rfl rfl <|
  step_binary 0 2 (Read.val_main_v89 (F := F)) (Read.val_main_v88 (F := F) a.x0 a.x4 a.x5 a.x7 a.x8 a.x9 a.x10 a.x11 a.x12 a.x13 a.x14 a.x15 a.x16 a.x17 a.x22 a.x23 a.x24 a.x25) (Read.val_main_v90 (F := F) a.x0 a.x4 a.x5 a.x7 a.x8 a.x9 a.x10 a.x11 a.x12 a.x13 a.x14 a.x15 a.x16 a.x17 a.x22 a.x23 a.x24 a.x25) rfl rfl rfl rfl <|
  step_binary 12 38 (Read.val_main_v80 (F := F) a.x0 a.x4 a.x5 a.x7 a.x8 a.x9 a.x10 a.x11 a.x12 a.x13 a.x14 a.x15 a.x22 a.x23 a.x24 a.x25) a.x18 (Read.val_main_v91 (F := F) a.x0 a.x4 a.x5 a.x7 a.x8 a.x9 a.x10 a.x11 a.x12 a.x13 a.x14 a.x15 a.x18 a.x22 a.x23 a.x24 a.x25) rfl rfl rfl rfl <|
  step_unary 40 a.x19 (Read.val_main_v92 (F := F) a.x19) rfl rfl rfl <|
  step_unary 0 (Read.val_main_v92 (F := F) a.x19) (Read.val_main_v93 (F := F) a.x19) rfl rfl rfl <|
  step_binary 2 0 (Read.val_main_v91 (F := F) a.x0 a.x4 a.x5 a.x7 a.x8 a.x9 a.x10 a.x11 a.x12 a.x13 a.x14 a.x15 a.x18 a.x22 a.x23 a.x24 a.x25) (Read.val_main_v93 (F := F) a.x19) (Read.val_main_v94 (F := F) a.x0 a.x4 a.x5 a.x7 a.x8 a.x9 a.x10 a.x11 a.x12 a.x13 a.x14 a.x15 a.x18 a.x19 a.x22 a.x23 a.x24 a.x25) rfl rfl rfl rfl <|
  step_unary 0 (Read.val_main_v94 (F := F) a.x0 a.x4 a.x5 a.x7 a.x8 a.x9 a.x10 a.x11 a.x12 a.x13 a.x14 a.x15 a.x18 a.x19 a.x22 a.x23 a.x24 a.x25) (Read.val_main_v95 (F := F) a.x0 a.x4 a.x5 a.x7 a.x8 a.x9 a.x10 a.x11 a.x12 a.x13 a.x14 a.x15 a.x18 a.x19 a.x22 a.x23 a.x24 a.x25) rfl rfl rfl <|
  step_unary 0 (Read.val_main_v95 (F := F) a.x0 a.x4 a.x5 a.x7 a.x8 a.x9 a.x10 a.x11 a.x12 a.x13 a.x14 a.x15 a.x18 a.x19 a.x22 a.x23 a.x24 a.x25) (Read.val_main_v96 (F := F) a.x0 a.x4 a.x5 a.x7 a.x8 a.x9 a.x10 a.x11 a.x12 a.x13 a.x14 a.x15 a.x18 a.x19 a.x22 a.x23 a.x24 a.x25) rfl rfl rfl <|
  step_nullary (Read.val_main_cst_14 (F := F)) rfl rfl <|
  step_unary 0 (Read.val_main_cst_14 (F := F)) (Read.val_main_v97 (F := F)) rfl rfl rfl <|
  step_binary 0 2 (Read.val_main_v97 (F := F)) (Read.val_main_v96 (F := F) a.x0 a.x4 a.x5 a.x7 a.x8 a.x9 a.x10 a.x11 a.x12 a.x13 a.x14 a.x15 a.x18 a.x19 a.x22 a.x23 a.x24 a.x25) (Read.val_main_v98 (F := F) a.x0 a.x4 a.x5 a.x7 a.x8 a.x9 a.x10 a.x11 a.x12 a.x13 a.x14 a.x15 a.x18 a.x19 a.x22 a.x23 a.x24 a.x25) rfl rfl rfl rfl <|
  step_nullary (Read.val_main_cst_15 (F := F)) rfl rfl <|
  step_unary 0 (Read.val_main_cst_15 (F := F)) (Read.val_main_v99 (F := F)) rfl rfl rfl <|
  step_binary 0 2 (Read.val_main_v99 (F := F)) (Read.val_main_v98 (F := F) a.x0 a.x4 a.x5 a.x7 a.x8 a.x9 a.x10 a.x11 a.x12 a.x13 a.x14 a.x15 a.x18 a.x19 a.x22 a.x23 a.x24 a.x25) (Read.val_main_v100 (F := F) a.x0 a.x4 a.x5 a.x7 a.x8 a.x9 a.x10 a.x11 a.x12 a.x13 a.x14 a.x15 a.x18 a.x19 a.x22 a.x23 a.x24 a.x25) rfl rfl rfl rfl <|
  step_binary 0 29 (Read.val_main_v100 (F := F) a.x0 a.x4 a.x5 a.x7 a.x8 a.x9 a.x10 a.x11 a.x12 a.x13 a.x14 a.x15 a.x18 a.x19 a.x22 a.x23 a.x24 a.x25) (Read.val_main_v19 (F := F) a.x0 a.x22 a.x23 a.x24 a.x25) (Read.val_main_v101 (F := F) a.x0 a.x4 a.x5 a.x7 a.x8 a.x9 a.x10 a.x11 a.x12 a.x13 a.x14 a.x15 a.x18 a.x19 a.x22 a.x23 a.x24 a.x25) rfl rfl rfl rfl <|
  done [26, 27, 28, 29, 30, 31, 32, 13, 0, 33, 34, 35, 36, 37, 38, 39, 40, 41, 42, 43, 44, 45, 46, 47, 48, 49, 50, 51, 52, 53, 54, 55, 56, 57, 58, 59, 60, 61, 62] rfl

abbrev win1 : List (HloOp τ sig (Elt F)) := ops2 ++ ops3 ++ ops4

set_option maxHeartbeats 4000000 in
set_option maxRecDepth 4096 in
theorem main_part1_eq (d : Dev nD) : main_part1 (F := F) d = seq win1 := rfl

theorem win1_sub : (win1 : List (HloOp τ sig (Elt F))).Forall fun op => op.bufs ⊆ tcRefs τ sig :=
  List.forall_append.2 ⟨List.forall_append.2 ⟨ops2_sub, ops3_sub⟩, ops4_sub⟩

theorem win1_fresh : (win1 : List (HloOp τ sig (Elt F))).Forall fun op => op.fresh = ∅ :=
  List.forall_append.2 ⟨List.forall_append.2 ⟨ops2_fresh, ops3_fresh⟩, ops4_fresh⟩

theorem win1_sat (a : Args F) : ∀ V : Valuation τ sig (Elt F), Sat V (known2 a) → Sat (after win1 V) (known5 a) :=
  line_append (line_append (sat2 a) (sat3 a)) (sat4 a)

end Cert.ReferenceIdeal.Hand

end
-- ==== Proof.Ref.Ops2.lean ====
import proofs.«138431_j79370995631014_1_alg».proof.Proof.Ref.OpsLists
import proofs.«138431_j79370995631014_1_alg».proof.Proof.LibHostLine3

noncomputable section

namespace Cert.ReferenceIdeal.Hand

open Cert.ReferenceIdeal Cert.ReferenceIdeal.Gen Idealize.ShloMosaic Idealize.ShloMosaic.TcCoe Idealize.SL.Sem Idealize.ShloMosaic.StableHlo HostLine

variable {F : FTy → Type} [FloatOps F]

abbrev ops5 : List (HloOp τ sig (Elt F)) :=
  [ StableHlo.nary ![main_v101, main_v49, main_v79, main_arg7] main_v102 (fun u => concatenate S50000x194 1 [⟨S50000x64, u 0⟩, ⟨S50000x64, u 1⟩, ⟨S50000x64, u 2⟩, ⟨S50000x2, u 3⟩] concatenates_S50000x64_S50000x64_S50000x64_S50000x2_S50000x194_d1),
    StableHlo.binary main_v102 main_arg20 main_v103 ((fun l r => Host.dotGeneral dot_S50000x194_S194x64_S50000x64_1_0_0_1_n_n none l r) : (⟨S50000x194, .f32⟩ : BufTy).Contents (Elt F) → (⟨S194x64, .f32⟩ : BufTy).Contents (Elt F) → (⟨S50000x64, .f32⟩ : BufTy).Contents (Elt F)),
    StableHlo.unary main_arg21 main_v104 (broadcastInDim S1x64 ![1] bcast_S64_S1x64_1 : (⟨S64, .f32⟩ : BufTy).Contents (Elt F) → (⟨S1x64, .f32⟩ : BufTy).Contents (Elt F)),
    StableHlo.unary main_v104 main_v105 (broadcastInDim S50000x64 ![0, 1] bcast_S1x64_S50000x64_0_1 : (⟨S1x64, .f32⟩ : BufTy).Contents (Elt F) → (⟨S50000x64, .f32⟩ : BufTy).Contents (Elt F)),
    StableHlo.binary main_v103 main_v105 main_v106 (addf : (⟨S50000x64, .f32⟩ : BufTy).Contents (Elt F) → (⟨S50000x64, .f32⟩ : BufTy).Contents (Elt F) → (⟨S50000x64, .f32⟩ : BufTy).Contents (Elt F)),
    StableHlo.unary main_v106 main_v107 (Host.tanh : (⟨S50000x64, .f32⟩ : BufTy).Contents (Elt F) → (⟨S50000x64, .f32⟩ : BufTy).Contents (Elt F)),
    StableHlo.binary main_v90 main_v107 main_v108 (mulf : (⟨S50000x64, .f32⟩ : BufTy).Contents (Elt F) → (⟨S50000x64, .f32⟩ : BufTy).Contents (Elt F) → (⟨S50000x64, .f32⟩ : BufTy).Contents (Elt F)),
    StableHlo.binary main_v19 main_v108 main_v109 (addf : (⟨S50000x64, .f32⟩ : BufTy).Contents (Elt F) → (⟨S50000x64, .f32⟩ : BufTy).Contents (Elt F) → (⟨S50000x64, .f32⟩ : BufTy).Contents (Elt F)),
    TRef.unary (.of main_v9 : TRef sig ⟨S50000x1, .i1⟩) main_call0.v0 (broadcastInDim S50000x64 ![0, 1] bcast_S50000x1_S50000x64_0_1),
    TRef.ternary main_call0.v0 (.of main_v19 : TRef sig ⟨S50000x64, .f32⟩) (.of main_v109 : TRef sig ⟨S50000x64, .f32⟩) main_call0.v1 select,
    StableHlo.binary main_v110 main_arg26 main_v111 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg27 main_v112 (broadcastInDim S1x64 ![1] bcast_S64_S1x64_1 : (⟨S64, .f32⟩ : BufTy).Contents (Elt F) → (⟨S1x64, .f32⟩ : BufTy).Contents (Elt F)),
    StableHlo.unary main_v112 main_v113 (broadcastInDim S50000x64 ![0, 1] bcast_S1x64_S50000x64_0_1 : (⟨S1x64, .f32⟩ : BufTy).Contents (Elt F) → (⟨S50000x64, .f32⟩ : BufTy).Contents (Elt F)),
    StableHlo.binary main_v111 main_v113 main_v114 (addf : (⟨S50000x64, .f32⟩ : BufTy).Contents (Elt F) → (⟨S50000x64, .f32⟩ : BufTy).Contents (Elt F) → (⟨S50000x64, .f32⟩ : BufTy).Contents (Elt F)),
    StableHlo.nullary main_cst_16 (constant S_ .f32 0x00000000#32),
    StableHlo.unary main_cst_16 main_v115 (broadcastInDim S50000x64 ![] bcast_S_S50000x64 : (⟨S_, .f32⟩ : BufTy).Contents (Elt F) → (⟨S50000x64, .f32⟩ : BufTy).Contents (Elt F)),
    StableHlo.binary main_v114 main_v115 main_v116 (maximumf : (⟨S50000x64, .f32⟩ : BufTy).Contents (Elt F) → (⟨S50000x64, .f32⟩ : BufTy).Contents (Elt F) → (⟨S50000x64, .f32⟩ : BufTy).Contents (Elt F)),
    StableHlo.binary main_v116 main_arg28 main_v117 ((fun l r => Host.dotGeneral dot_S50000x64_S64x1_S50000x1_1_0_0_1_n_n none l r) : (⟨S50000x64, .f32⟩ : BufTy).Contents (Elt F) → (⟨S64x1, .f32⟩ : BufTy).Contents (Elt F) → (⟨S50000x1, .f32⟩ : BufTy).Contents (Elt F)),
    StableHlo.unary main_arg29 main_v118 (broadcastInDim S1x1 ![1] bcast_S1_S1x1_1 : (⟨S1, .f32⟩ : BufTy).Contents (Elt F) → (⟨S1x1, .f32⟩ : BufTy).Contents (Elt F)),
    StableHlo.unary main_v118 main_v119 (broadcastInDim S50000x1 ![0, 1] bcast_S1x1_S50000x1_0_1 : (⟨S1x1, .f32⟩ : BufTy).Contents (Elt F) → (⟨S50000x1, .f32⟩ : BufTy).Contents (Elt F)),
    StableHlo.binary main_v117 main_v119 main_v120 (addf : (⟨S50000x1, .f32⟩ : BufTy).Contents (Elt F) → (⟨S50000x1, .f32⟩ : BufTy).Contents (Elt F) → (⟨S50000x1, .f32⟩ : BufTy).Contents (Elt F)),
    StableHlo.unary main_arg6 main_v121 (broadcastInDim S800000x1 ![0] bcast_S800000_S800000x1_0 : (⟨S800000, .f32⟩ : BufTy).Contents (Elt F) → (⟨S800000x1, .f32⟩ : BufTy).Contents (Elt F)),
    StableHlo.nullary main_c_17 (constantI S_ 32 0#32),
    StableHlo.unary main_c_17 main_v122 (broadcastInDim S800000 ![] bcast_S_S800000 : (⟨S_, .i32⟩ : BufTy).Contents (Elt F) → (⟨S800000, .i32⟩ : BufTy).Contents (Elt F)),
    StableHlo.binary main_v3 main_v122 main_v123 (cmpi .slt : (⟨S800000, .i32⟩ : BufTy).Contents (Elt F) → (⟨S800000, .i32⟩ : BufTy).Contents (Elt F) → (⟨S800000, .i1⟩ : BufTy).Contents (Elt F)),
    StableHlo.nullary main_c_18 (constantI S_ 32 50000#32),
    StableHlo.unary main_c_18 main_v124 (broadcastInDim S800000 ![] bcast_S_S800000 : (⟨S_, .i32⟩ : BufTy).Contents (Elt F) → (⟨S800000, .i32⟩ : BufTy).Contents (Elt F)),
    StableHlo.binary main_v3 main_v124 main_v125 (addi : (⟨S800000, .i32⟩ : BufTy).Contents (Elt F) → (⟨S800000, .i32⟩ : BufTy).Contents (Elt F) → (⟨S800000, .i32⟩ : BufTy).Contents (Elt F)),
    StableHlo.ternary main_v123 main_v125 main_v3 main_v126 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v126 main_v127 (broadcastInDim S800000x1 ![0] bcast_S800000_S800000x1_0 : (⟨S800000, .i32⟩ : BufTy).Contents (Elt F) → (⟨S800000x1, .i32⟩ : BufTy).Contents (Elt F)),
    StableHlo.binary main_v120 main_v127 main_v128 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.binary main_v121 main_v128 main_v129 (mulf : (⟨S800000x1, .f32⟩ : BufTy).Contents (Elt F) → (⟨S800000x1, .f32⟩ : BufTy).Contents (Elt F) → (⟨S800000x1, .f32⟩ : BufTy).Contents (Elt F)),
    StableHlo.nullary main_cst_19 (constant S_ .f32 0x00000000#32),
    StableHlo.unary main_cst_19 main_v130 (broadcastInDim S50000x1 ![] bcast_S_S50000x1 : (⟨S_, .f32⟩ : BufTy).Contents (Elt F) → (⟨S50000x1, .f32⟩ : BufTy).Contents (Elt F)),
    StableHlo.unary main_v1 main_v131 (broadcastInDim S800000x1 ![0] bcast_S800000_S800000x1_0 : (⟨S800000, .i32⟩ : BufTy).Contents (Elt F) → (⟨S800000x1, .i32⟩ : BufTy).Contents (Elt F)),
    StableHlo.ternary main_v130 main_v131 main_v129 main_v132 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    StableHlo.binary main_v132 main_arg2 main_v133 (subf : (⟨S50000x1, .f32⟩ : BufTy).Contents (Elt F) → (⟨S50000x1, .f32⟩ : BufTy).Contents (Elt F) → (⟨S50000x1, .f32⟩ : BufTy).Contents (Elt F)),
    StableHlo.binary main_v133 main_v133 main_v134 (mulf : (⟨S50000x1, .f32⟩ : BufTy).Contents (Elt F) → (⟨S50000x1, .f32⟩ : BufTy).Contents (Elt F) → (⟨S50000x1, .f32⟩ : BufTy).Contents (Elt F)),
    StableHlo.nullary main_cst_20 (constant S_ .f32 0x00000000#32),
    StableHlo.binary main_v134 main_cst_20 main_v135 ((fun x v => Host.reduceAdd x v reducesTo_S50000x1_S_d0_1 h_S_) : (⟨S50000x1, .f32⟩ : BufTy).Contents (Elt F) → (⟨S_, .f32⟩ : BufTy).Contents (Elt F) → (⟨S_, .f32⟩ : BufTy).Contents (Elt F)),
    StableHlo.nullary main_cst_21 (constant S_ .f32 0x47435000#32),
    StableHlo.binary main_v135 main_cst_21 main_v136 (Host.divf : (⟨S_, .f32⟩ : BufTy).Contents (Elt F) → (⟨S_, .f32⟩ : BufTy).Contents (Elt F) → (⟨S_, .f32⟩ : BufTy).Contents (Elt F)),
    StableHlo.binary main_v110 main_arg26 main_v137 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg27 main_v138 (broadcastInDim S1x64 ![1] bcast_S64_S1x64_1 : (⟨S64, .f32⟩ : BufTy).Contents (Elt F) → (⟨S1x64, .f32⟩ : BufTy).Contents (Elt F)),
    StableHlo.unary main_v138 main_v139 (broadcastInDim S50000x64 ![0, 1] bcast_S1x64_S50000x64_0_1 : (⟨S1x64, .f32⟩ : BufTy).Contents (Elt F) → (⟨S50000x64, .f32⟩ : BufTy).Contents (Elt F)),
    StableHlo.binary main_v137 main_v139 main_v140 (addf : (⟨S50000x64, .f32⟩ : BufTy).Contents (Elt F) → (⟨S50000x64, .f32⟩ : BufTy).Contents (Elt F) → (⟨S50000x64, .f32⟩ : BufTy).Contents (Elt F)),
    StableHlo.nullary main_cst_22 (constant S_ .f32 0x00000000#32),
    StableHlo.unary main_cst_22 main_v141 (broadcastInDim S50000x64 ![] bcast_S_S50000x64 : (⟨S_, .f32⟩ : BufTy).Contents (Elt F) → (⟨S50000x64, .f32⟩ : BufTy).Contents (Elt F)),
    StableHlo.binary main_v140 main_v141 main_v142 (maximumf : (⟨S50000x64, .f32⟩ : BufTy).Contents (Elt F) → (⟨S50000x64, .f32⟩ : BufTy).Contents (Elt F) → (⟨S50000x64, .f32⟩ : BufTy).Contents (Elt F)),
    StableHlo.binary main_v142 main_arg28 main_v143 ((fun l r => Host.dotGeneral dot_S50000x64_S64x1_S50000x1_1_0_0_1_n_n none l r) : (⟨S50000x64, .f32⟩ : BufTy).Contents (Elt F) → (⟨S64x1, .f32⟩ : BufTy).Contents (Elt F) → (⟨S50000x1, .f32⟩ : BufTy).Contents (Elt F)),
    StableHlo.unary main_arg29 main_v144 (broadcastInDim S1x1 ![1] bcast_S1_S1x1_1 : (⟨S1, .f32⟩ : BufTy).Contents (Elt F) → (⟨S1x1, .f32⟩ : BufTy).Contents (Elt F)),
    StableHlo.unary main_v144 main_v145 (broadcastInDim S50000x1 ![0, 1] bcast_S1x1_S50000x1_0_1 : (⟨S1x1, .f32⟩ : BufTy).Contents (Elt F) → (⟨S50000x1, .f32⟩ : BufTy).Contents (Elt F)),
    StableHlo.binary main_v143 main_v145 main_v146 (addf : (⟨S50000x1, .f32⟩ : BufTy).Contents (Elt F) → (⟨S50000x1, .f32⟩ : BufTy).Contents (Elt F) → (⟨S50000x1, .f32⟩ : BufTy).Contents (Elt F)),
    StableHlo.binary main_v146 main_arg22 main_v147 ((fun l r => Host.dotGeneral dot_S50000x1_S1x64_S50000x64_1_0_0_1_n_n none l r) : (⟨S50000x1, .f32⟩ : BufTy).Contents (Elt F) → (⟨S1x64, .f32⟩ : BufTy).Contents (Elt F) → (⟨S50000x64, .f32⟩ : BufTy).Contents (Elt F)),
    StableHlo.unary main_arg23 main_v148 (broadcastInDim S1x64 ![1] bcast_S64_S1x64_1 : (⟨S64, .f32⟩ : BufTy).Contents (Elt F) → (⟨S1x64, .f32⟩ : BufTy).Contents (Elt F)),
    StableHlo.unary main_v148 main_v149 (broadcastInDim S50000x64 ![0, 1] bcast_S1x64_S50000x64_0_1 : (⟨S1x64, .f32⟩ : BufTy).Contents (Elt F) → (⟨S50000x64, .f32⟩ : BufTy).Contents (Elt F)),
    StableHlo.binary main_v147 main_v149 main_v150 (addf : (⟨S50000x64, .f32⟩ : BufTy).Contents (Elt F) → (⟨S50000x64, .f32⟩ : BufTy).Contents (Elt F) → (⟨S50000x64, .f32⟩ : BufTy).Contents (Elt F)),
    StableHlo.nullary main_cst_23 (constant S_ .f32 0x00000000#32),
    StableHlo.unary main_cst_23 main_v151 (broadcastInDim S50000x64 ![] bcast_S_S50000x64 : (⟨S_, .f32⟩ : BufTy).Contents (Elt F) → (⟨S50000x64, .f32⟩ : BufTy).Contents (Elt F)),
    StableHlo.binary main_v150 main_v151 main_v152 (maximumf : (⟨S50000x64, .f32⟩ : BufTy).Contents (Elt F) → (⟨S50000x64, .f32⟩ : BufTy).Contents (Elt F) → (⟨S50000x64, .f32⟩ : BufTy).Contents (Elt F)),
    StableHlo.binary main_v152 main_arg24 main_v153 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ]

theorem ops5_sub : (ops5 : List (HloOp τ sig (Elt F))).Forall fun op => op.bufs ⊆ tcRefs τ sig :=
  ⟨nary_bufs_sub .., binary_bufs_sub .., unary_bufs_sub .., unary_bufs_sub .., binary_bufs_sub .., unary_bufs_sub .., binary_bufs_sub .., binary_bufs_sub .., unary_bufs_sub .., ternary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., binary_bufs_sub .., binary_bufs_sub .., nullary_bufs_sub .., binary_bufs_sub .., nullary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub ..⟩

theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 4000000 in
set_option maxRecDepth 4096 in
theorem sat5 (a : Args F) : ∀ V : Valuation τ sig (Elt F), Sat V (known5 a) → Sat (after ops5 V) (known6 a) :=
  step_nary (Read.val_main_v102 (F := F) a.x0 a.x4 a.x5 a.x7 a.x8 a.x9 a.x10 a.x11 a.x12 a.x13 a.x14 a.x15 a.x18 a.x19 a.x22 a.x23 a.x24 a.x25) (fun V h => by
      have e0 := h.get 8 (b := main_v101) (v := (Read.val_main_v101 (F := F) a.x0 a.x4 a.x5 a.x7 a.x8 a.x9 a.x10 a.x11 a.x12 a.x13 a.x14 a.x15 a.x18 a.x19 a.x22 a.x23 a.x24 a.x25)) rfl
      have e1 := h.get 5 (b := main_v49) (v := (Read.val_main_v49 (F := F) a.x0 a.x4 a.x5 a.x8 a.x9 a.x10 a.x11 a.x22 a.x23 a.x24 a.x25)) rfl
      have e2 := h.get 6 (b := main_v79) (v := (Read.val_main_v79 (F := F) a.x0 a.x4 a.x5 a.x12 a.x13 a.x14 a.x15 a.x22 a.x23 a.x24 a.x25)) rfl
      have e3 := h.get 16 (b := main_arg7) (v := a.x7) rfl
      unfold Read.val_main_v102
      rw [← e0, ← e1, ← e2, ← e3]
      rfl) rfl <|
  step_binary 0 30 (Read.val_main_v102 (F := F) a.x0 a.x4 a.x5 a.x7 a.x8 a.x9 a.x10 a.x11 a.x12 a.x13 a.x14 a.x15 a.x18 a.x19 a.x22 a.x23 a.x24 a.x25) a.x20 (Read.val_main_v103 (F := F) a.x0 a.x4 a.x5 a.x7 a.x8 a.x9 a.x10 a.x11 a.x12 a.x13 a.x14 a.x15 a.x18 a.x19 a.x20 a.x22 a.x23 a.x24 a.x25) rfl rfl rfl rfl <|
  step_unary 32 a.x21 (Read.val_main_v104 (F := F) a.x21) rfl rfl rfl <|
  step_unary 0 (Read.val_main_v104 (F := F) a.x21) (Read.val_main_v105 (F := F) a.x21) rfl rfl rfl <|
  step_binary 2 0 (Read.val_main_v103 (F := F) a.x0 a.x4 a.x5 a.x7 a.x8 a.x9 a.x10 a.x11 a.x12 a.x13 a.x14 a.x15 a.x18 a.x19 a.x20 a.x22 a.x23 a.x24 a.x25) (Read.val_main_v105 (F := F) a.x21) (Read.val_main_v106 (F := F) a.x0 a.x4 a.x5 a.x7 a.x8 a.x9 a.x10 a.x11 a.x12 a.x13 a.x14 a.x15 a.x18 a.x19 a.x20 a.x21 a.x22 a.x23 a.x24 a.x25) rfl rfl rfl rfl <|
  step_unary 0 (Read.val_main_v106 (F := F) a.x0 a.x4 a.x5 a.x7 a.x8 a.x9 a.x10 a.x11 a.x12 a.x13 a.x14 a.x15 a.x18 a.x19 a.x20 a.x21 a.x22 a.x23 a.x24 a.x25) (Read.val_main_v107 (F := F) a.x0 a.x4 a.x5 a.x7 a.x8 a.x9 a.x10 a.x11 a.x12 a.x13 a.x14 a.x15 a.x18 a.x19 a.x20 a.x21 a.x22 a.x23 a.x24 a.x25) rfl rfl rfl <|
  step_binary 13 0 (Read.val_main_v90 (F := F) a.x0 a.x4 a.x5 a.x7 a.x8 a.x9 a.x10 a.x11 a.x12 a.x13 a.x14 a.x15 a.x16 a.x17 a.x22 a.x23 a.x24 a.x25) (Read.val_main_v107 (F := F) a.x0 a.x4 a.x5 a.x7 a.x8 a.x9 a.x10 a.x11 a.x12 a.x13 a.x14 a.x15 a.x18 a.x19 a.x20 a.x21 a.x22 a.x23 a.x24 a.x25) (Read.val_main_v108 (F := F) a.x0 a.x4 a.x5 a.x7 a.x8 a.x9 a.x10 a.x11 a.x12 a.x13 a.x14 a.x15 a.x16 a.x17 a.x18 a.x19 a.x20 a.x21 a.x22 a.x23 a.x24 a.x25) rfl rfl rfl rfl <|
  step_binary 11 0 (Read.val_main_v19 (F := F) a.x0 a.x22 a.x23 a.x24 a.x25) (Read.val_main_v108 (F := F) a.x0 a.x4 a.x5 a.x7 a.x8 a.x9 a.x10 a.x11 a.x12 a.x13 a.x14 a.x15 a.x16 a.x17 a.x18 a.x19 a.x20 a.x21 a.x22 a.x23 a.x24 a.x25) (Read.val_main_v109 (F := F) a.x0 a.x4 a.x5 a.x7 a.x8 a.x9 a.x10 a.x11 a.x12 a.x13 a.x14 a.x15 a.x16 a.x17 a.x18 a.x19 a.x20 a.x21 a.x22 a.x23 a.x24 a.x25) rfl rfl rfl rfl <|
  step_tunary 11 (Read.val_main_v9 (F := F) a.x3) (Read.val_main_call0_v0 (F := F) a.x3) rfl rfl rfl <|
  step_tternary 0 13 1 (Read.val_main_call0_v0 (F := F) a.x3) (Read.val_main_v19 (F := F) a.x0 a.x22 a.x23 a.x24 a.x25) (Read.val_main_v109 (F := F) a.x0 a.x4 a.x5 a.x7 a.x8 a.x9 a.x10 a.x11 a.x12 a.x13 a.x14 a.x15 a.x16 a.x17 a.x18 a.x19 a.x20 a.x21 a.x22 a.x23 a.x24 a.x25) (Read.val_main_v110 (F := F) a.x0 a.x3 a.x4 a.x5 a.x7 a.x8 a.x9 a.x10 a.x11 a.x12 a.x13 a.x14 a.x15 a.x16 a.x17 a.x18 a.x19 a.x20 a.x21 a.x22 a.x23 a.x24 a.x25) rfl rfl rfl rfl rfl <|
  step_binary 0 45 (Read.val_main_v110 (F := F) a.x0 a.x3 a.x4 a.x5 a.x7 a.x8 a.x9 a.x10 a.x11 a.x12 a.x13 a.x14 a.x15 a.x16 a.x17 a.x18 a.x19 a.x20 a.x21 a.x22 a.x23 a.x24 a.x25) a.x26 (Read.val_main_v111 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26) rfl rfl rfl rfl <|
  step_unary 47 a.x27 (Read.val_main_v112 (F := F) a.x27) rfl rfl rfl <|
  step_unary 0 (Read.val_main_v112 (F := F) a.x27) (Read.val_main_v113 (F := F) a.x27) rfl rfl rfl <|
  step_binary 2 0 (Read.val_main_v111 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26) (Read.val_main_v113 (F := F) a.x27) (Read.val_main_v114 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27) rfl rfl rfl rfl <|
  step_nullary (Read.val_main_cst_16 (F := F)) rfl rfl <|
  step_unary 0 (Read.val_main_cst_16 (F := F)) (Read.val_main_v115 (F := F)) rfl rfl rfl <|
  step_binary 2 0 (Read.val_main_v114 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27) (Read.val_main_v115 (F := F)) (Read.val_main_v116 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27) rfl rfl rfl rfl <|
  step_binary 0 54 (Read.val_main_v116 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27) a.x28 (Read.val_main_v117 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28) rfl rfl rfl rfl <|
  step_unary 56 a.x29 (Read.val_main_v118 (F := F) a.x29) rfl rfl rfl <|
  step_unary 0 (Read.val_main_v118 (F := F) a.x29) (Read.val_main_v119 (F := F) a.x29) rfl rfl rfl <|
  step_binary 2 0 (Read.val_main_v117 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28) (Read.val_main_v119 (F := F) a.x29) (Read.val_main_v120 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_unary 36 a.x6 (Read.val_main_v121 (F := F) a.x6) rfl rfl rfl <|
  step_nullary (Read.val_main_c_17 (F := F)) rfl rfl <|
  step_unary 0 (Read.val_main_c_17 (F := F)) (Read.val_main_v122 (F := F)) rfl rfl rfl <|
  step_binary 25 0 (Read.val_main_v3 (F := F) a.x4) (Read.val_main_v122 (F := F)) (Read.val_main_v123 (F := F) a.x4) rfl rfl rfl rfl <|
  step_nullary (Read.val_main_c_18 (F := F)) rfl rfl <|
  step_unary 0 (Read.val_main_c_18 (F := F)) (Read.val_main_v124 (F := F)) rfl rfl rfl <|
  step_binary 28 0 (Read.val_main_v3 (F := F) a.x4) (Read.val_main_v124 (F := F)) (Read.val_main_v125 (F := F) a.x4) rfl rfl rfl rfl <|
  step_ternary 3 0 29 (Read.val_main_v123 (F := F) a.x4) (Read.val_main_v125 (F := F) a.x4) (Read.val_main_v3 (F := F) a.x4) (Read.val_main_v126 (F := F) a.x4) rfl rfl rfl rfl rfl <|
  step_unary 0 (Read.val_main_v126 (F := F) a.x4) (Read.val_main_v127 (F := F) a.x4) rfl rfl rfl <|
  step_binary 9 0 (Read.val_main_v120 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v127 (F := F) a.x4) (Read.val_main_v128 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_binary 9 0 (Read.val_main_v121 (F := F) a.x6) (Read.val_main_v128 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v129 (F := F) a.x0 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_nullary (Read.val_main_cst_19 (F := F)) rfl rfl <|
  step_unary 0 (Read.val_main_cst_19 (F := F)) (Read.val_main_v130 (F := F)) rfl rfl rfl <|
  step_unary 34 (Read.val_main_v1 (F := F) a.x4) (Read.val_main_v131 (F := F) a.x4) rfl rfl rfl <|
  step_ternary 1 0 3 (Read.val_main_v130 (F := F)) (Read.val_main_v131 (F := F) a.x4) (Read.val_main_v129 (F := F) a.x0 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v132 (F := F) a.x0 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl rfl <|
  step_binary 0 47 (Read.val_main_v132 (F := F) a.x0 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29) a.x2 (Read.val_main_v133 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_binary 0 0 (Read.val_main_v133 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v133 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v134 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_nullary (Read.val_main_cst_20 (F := F)) rfl rfl <|
  step_binary 1 0 (Read.val_main_v134 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29) (Read.val_main_cst_20 (F := F)) (Read.val_main_v135 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_nullary (Read.val_main_cst_21 (F := F)) rfl rfl <|
  step_binary 1 0 (Read.val_main_v135 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29) (Read.val_main_cst_21 (F := F)) (Read.val_main_v136 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_binary 32 77 (Read.val_main_v110 (F := F) a.x0 a.x3 a.x4 a.x5 a.x7 a.x8 a.x9 a.x10 a.x11 a.x12 a.x13 a.x14 a.x15 a.x16 a.x17 a.x18 a.x19 a.x20 a.x21 a.x22 a.x23 a.x24 a.x25) a.x26 (Read.val_main_v137 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26) rfl rfl rfl rfl <|
  step_unary 79 a.x27 (Read.val_main_v138 (F := F) a.x27) rfl rfl rfl <|
  step_unary 0 (Read.val_main_v138 (F := F) a.x27) (Read.val_main_v139 (F := F) a.x27) rfl rfl rfl <|
  step_binary 2 0 (Read.val_main_v137 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26) (Read.val_main_v139 (F := F) a.x27) (Read.val_main_v140 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27) rfl rfl rfl rfl <|
  step_nullary (Read.val_main_cst_22 (F := F)) rfl rfl <|
  step_unary 0 (Read.val_main_cst_22 (F := F)) (Read.val_main_v141 (F := F)) rfl rfl rfl <|
  step_binary 2 0 (Read.val_main_v140 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27) (Read.val_main_v141 (F := F)) (Read.val_main_v142 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27) rfl rfl rfl rfl <|
  step_binary 0 86 (Read.val_main_v142 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27) a.x28 (Read.val_main_v143 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28) rfl rfl rfl rfl <|
  step_unary 88 a.x29 (Read.val_main_v144 (F := F) a.x29) rfl rfl rfl <|
  step_unary 0 (Read.val_main_v144 (F := F) a.x29) (Read.val_main_v145 (F := F) a.x29) rfl rfl rfl <|
  step_binary 2 0 (Read.val_main_v143 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28) (Read.val_main_v145 (F := F) a.x29) (Read.val_main_v146 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_binary 0 84 (Read.val_main_v146 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) a.x22 (Read.val_main_v147 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_unary 86 a.x23 (Read.val_main_v148 (F := F) a.x23) rfl rfl rfl <|
  step_unary 0 (Read.val_main_v148 (F := F) a.x23) (Read.val_main_v149 (F := F) a.x23) rfl rfl rfl <|
  step_binary 2 0 (Read.val_main_v147 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v149 (F := F) a.x23) (Read.val_main_v150 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_nullary (Read.val_main_cst_23 (F := F)) rfl rfl <|
  step_unary 0 (Read.val_main_cst_23 (F := F)) (Read.val_main_v151 (F := F)) rfl rfl rfl <|
  step_binary 2 0 (Read.val_main_v150 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v151 (F := F)) (Read.val_main_v152 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_binary 0 93 (Read.val_main_v152 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) a.x24 (Read.val_main_v153 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  done [61, 62, 63, 64, 65, 51, 40, 19, 0, 70, 71, 72, 73, 74, 75, 76, 77, 78, 79, 80, 81, 82, 83, 84, 85, 86, 87, 88, 89, 90, 91, 92, 93, 94, 95, 96, 97, 98, 99] rfl

abbrev win2 : List (HloOp τ sig (Elt F)) := ops5

set_option maxHeartbeats 4000000 in
set_option maxRecDepth 4096 in
theorem main_part2_eq (d : Dev nD) : main_part2 (F := F) d = seq win2 := rfl

theorem win2_sub : (win2 : List (HloOp τ sig (Elt F))).Forall fun op => op.bufs ⊆ tcRefs τ sig :=
  ops5_sub

theorem win2_fresh : (win2 : List (HloOp τ sig (Elt F))).Forall fun op => op.fresh = ∅ :=
  ops5_fresh

theorem win2_sat (a : Args F) : ∀ V : Valuation τ sig (Elt F), Sat V (known5 a) → Sat (after win2 V) (known6 a) :=
  sat5 a

end Cert.ReferenceIdeal.Hand

end
-- ==== Proof.Ref.Ops3.lean ====
import proofs.«138431_j79370995631014_1_alg».proof.Proof.Ref.OpsLists
import proofs.«138431_j79370995631014_1_alg».proof.Proof.LibHostLine3

noncomputable section

namespace Cert.ReferenceIdeal.Hand

open Cert.ReferenceIdeal Cert.ReferenceIdeal.Gen Idealize.ShloMosaic Idealize.ShloMosaic.TcCoe Idealize.SL.Sem Idealize.ShloMosaic.StableHlo HostLine

variable {F : FTy → Type} [FloatOps F]

abbrev ops6 : List (HloOp τ sig (Elt F)) :=
  [ StableHlo.unary main_arg25 main_v154 (broadcastInDim S1x64 ![1] bcast_S64_S1x64_1 : (⟨S64, .f32⟩ : BufTy).Contents (Elt F) → (⟨S1x64, .f32⟩ : BufTy).Contents (Elt F)),
    StableHlo.unary main_v154 main_v155 (broadcastInDim S50000x64 ![0, 1] bcast_S1x64_S50000x64_0_1 : (⟨S1x64, .f32⟩ : BufTy).Contents (Elt F) → (⟨S50000x64, .f32⟩ : BufTy).Contents (Elt F)),
    StableHlo.binary main_v153 main_v155 main_v156 (addf : (⟨S50000x64, .f32⟩ : BufTy).Contents (Elt F) → (⟨S50000x64, .f32⟩ : BufTy).Contents (Elt F) → (⟨S50000x64, .f32⟩ : BufTy).Contents (Elt F)),
    StableHlo.binary main_v156 main_v110 main_v157 (subf : (⟨S50000x64, .f32⟩ : BufTy).Contents (Elt F) → (⟨S50000x64, .f32⟩ : BufTy).Contents (Elt F) → (⟨S50000x64, .f32⟩ : BufTy).Contents (Elt F)),
    StableHlo.binary main_v157 main_v157 main_v158 (mulf : (⟨S50000x64, .f32⟩ : BufTy).Contents (Elt F) → (⟨S50000x64, .f32⟩ : BufTy).Contents (Elt F) → (⟨S50000x64, .f32⟩ : BufTy).Contents (Elt F)),
    StableHlo.nullary main_cst_24 (constant S_ .f32 0x00000000#32),
    StableHlo.binary main_v158 main_cst_24 main_v159 ((fun x v => Host.reduceAdd x v reducesTo_S50000x64_S_d0_1 h_S_) : (⟨S50000x64, .f32⟩ : BufTy).Contents (Elt F) → (⟨S_, .f32⟩ : BufTy).Contents (Elt F) → (⟨S_, .f32⟩ : BufTy).Contents (Elt F)),
    StableHlo.nullary main_cst_25 (constant S_ .f32 0x4A435000#32),
    StableHlo.binary main_v159 main_cst_25 main_v160 (Host.divf : (⟨S_, .f32⟩ : BufTy).Contents (Elt F) → (⟨S_, .f32⟩ : BufTy).Contents (Elt F) → (⟨S_, .f32⟩ : BufTy).Contents (Elt F)),
    StableHlo.binary main_v120 main_arg22 main_v161 ((fun l r => Host.dotGeneral dot_S50000x1_S1x64_S50000x64_1_0_0_1_n_n none l r) : (⟨S50000x1, .f32⟩ : BufTy).Contents (Elt F) → (⟨S1x64, .f32⟩ : BufTy).Contents (Elt F) → (⟨S50000x64, .f32⟩ : BufTy).Contents (Elt F)),
    StableHlo.unary main_arg23 main_v162 (broadcastInDim S1x64 ![1] bcast_S64_S1x64_1 : (⟨S64, .f32⟩ : BufTy).Contents (Elt F) → (⟨S1x64, .f32⟩ : BufTy).Contents (Elt F)),
    StableHlo.unary main_v162 main_v163 (broadcastInDim S50000x64 ![0, 1] bcast_S1x64_S50000x64_0_1 : (⟨S1x64, .f32⟩ : BufTy).Contents (Elt F) → (⟨S50000x64, .f32⟩ : BufTy).Contents (Elt F)),
    StableHlo.binary main_v161 main_v163 main_v164 (addf : (⟨S50000x64, .f32⟩ : BufTy).Contents (Elt F) → (⟨S50000x64, .f32⟩ : BufTy).Contents (Elt F) → (⟨S50000x64, .f32⟩ : BufTy).Contents (Elt F)),
    StableHlo.nullary main_cst_26 (constant S_ .f32 0x00000000#32),
    StableHlo.unary main_cst_26 main_v165 (broadcastInDim S50000x64 ![] bcast_S_S50000x64 : (⟨S_, .f32⟩ : BufTy).Contents (Elt F) → (⟨S50000x64, .f32⟩ : BufTy).Contents (Elt F)),
    StableHlo.binary main_v164 main_v165 main_v166 (maximumf : (⟨S50000x64, .f32⟩ : BufTy).Contents (Elt F) → (⟨S50000x64, .f32⟩ : BufTy).Contents (Elt F) → (⟨S50000x64, .f32⟩ : BufTy).Contents (Elt F)),
    StableHlo.binary main_v166 main_arg24 main_v167 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg25 main_v168 (broadcastInDim S1x64 ![1] bcast_S64_S1x64_1 : (⟨S64, .f32⟩ : BufTy).Contents (Elt F) → (⟨S1x64, .f32⟩ : BufTy).Contents (Elt F)),
    StableHlo.unary main_v168 main_v169 (broadcastInDim S50000x64 ![0, 1] bcast_S1x64_S50000x64_0_1 : (⟨S1x64, .f32⟩ : BufTy).Contents (Elt F) → (⟨S50000x64, .f32⟩ : BufTy).Contents (Elt F)),
    StableHlo.binary main_v167 main_v169 main_v170 (addf : (⟨S50000x64, .f32⟩ : BufTy).Contents (Elt F) → (⟨S50000x64, .f32⟩ : BufTy).Contents (Elt F) → (⟨S50000x64, .f32⟩ : BufTy).Contents (Elt F)),
    StableHlo.binary main_v170 main_arg26 main_v171 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg27 main_v172 (broadcastInDim S1x64 ![1] bcast_S64_S1x64_1 : (⟨S64, .f32⟩ : BufTy).Contents (Elt F) → (⟨S1x64, .f32⟩ : BufTy).Contents (Elt F)),
    StableHlo.unary main_v172 main_v173 (broadcastInDim S50000x64 ![0, 1] bcast_S1x64_S50000x64_0_1 : (⟨S1x64, .f32⟩ : BufTy).Contents (Elt F) → (⟨S50000x64, .f32⟩ : BufTy).Contents (Elt F)),
    StableHlo.binary main_v171 main_v173 main_v174 (addf : (⟨S50000x64, .f32⟩ : BufTy).Contents (Elt F) → (⟨S50000x64, .f32⟩ : BufTy).Contents (Elt F) → (⟨S50000x64, .f32⟩ : BufTy).Contents (Elt F)),
    StableHlo.nullary main_cst_27 (constant S_ .f32 0x00000000#32),
    StableHlo.unary main_cst_27 main_v175 (broadcastInDim S50000x64 ![] bcast_S_S50000x64 : (⟨S_, .f32⟩ : BufTy).Contents (Elt F) → (⟨S50000x64, .f32⟩ : BufTy).Contents (Elt F)),
    StableHlo.binary main_v174 main_v175 main_v176 (maximumf : (⟨S50000x64, .f32⟩ : BufTy).Contents (Elt F) → (⟨S50000x64, .f32⟩ : BufTy).Contents (Elt F) → (⟨S50000x64, .f32⟩ : BufTy).Contents (Elt F)),
    StableHlo.binary main_v176 main_arg28 main_v177 ((fun l r => Host.dotGeneral dot_S50000x64_S64x1_S50000x1_1_0_0_1_n_n none l r) : (⟨S50000x64, .f32⟩ : BufTy).Contents (Elt F) → (⟨S64x1, .f32⟩ : BufTy).Contents (Elt F) → (⟨S50000x1, .f32⟩ : BufTy).Contents (Elt F)),
    StableHlo.unary main_arg29 main_v178 (broadcastInDim S1x1 ![1] bcast_S1_S1x1_1 : (⟨S1, .f32⟩ : BufTy).Contents (Elt F) → (⟨S1x1, .f32⟩ : BufTy).Contents (Elt F)),
    StableHlo.unary main_v178 main_v179 (broadcastInDim S50000x1 ![0, 1] bcast_S1x1_S50000x1_0_1 : (⟨S1x1, .f32⟩ : BufTy).Contents (Elt F) → (⟨S50000x1, .f32⟩ : BufTy).Contents (Elt F)),
    StableHlo.binary main_v177 main_v179 main_v180 (addf : (⟨S50000x1, .f32⟩ : BufTy).Contents (Elt F) → (⟨S50000x1, .f32⟩ : BufTy).Contents (Elt F) → (⟨S50000x1, .f32⟩ : BufTy).Contents (Elt F)),
    StableHlo.binary main_v180 main_v120 main_v181 (subf : (⟨S50000x1, .f32⟩ : BufTy).Contents (Elt F) → (⟨S50000x1, .f32⟩ : BufTy).Contents (Elt F) → (⟨S50000x1, .f32⟩ : BufTy).Contents (Elt F)),
    StableHlo.binary main_v181 main_v181 main_v182 (mulf : (⟨S50000x1, .f32⟩ : BufTy).Contents (Elt F) → (⟨S50000x1, .f32⟩ : BufTy).Contents (Elt F) → (⟨S50000x1, .f32⟩ : BufTy).Contents (Elt F)),
    StableHlo.nullary main_cst_28 (constant S_ .f32 0x00000000#32),
    StableHlo.binary main_v182 main_cst_28 main_v183 ((fun x v => Host.reduceAdd x v reducesTo_S50000x1_S_d0_1 h_S_) : (⟨S50000x1, .f32⟩ : BufTy).Contents (Elt F) → (⟨S_, .f32⟩ : BufTy).Contents (Elt F) → (⟨S_, .f32⟩ : BufTy).Contents (Elt F)),
    StableHlo.nullary main_cst_29 (constant S_ .f32 0x47435000#32),
    StableHlo.binary main_v183 main_cst_29 main_v184 (Host.divf : (⟨S_, .f32⟩ : BufTy).Contents (Elt F) → (⟨S_, .f32⟩ : BufTy).Contents (Elt F) → (⟨S_, .f32⟩ : BufTy).Contents (Elt F)),
    StableHlo.nullary main_cst_30 (constant S_ .f32 0x3F666666#32),
    StableHlo.binary main_v136 main_cst_30 main_v185 (mulf : (⟨S_, .f32⟩ : BufTy).Contents (Elt F) → (⟨S_, .f32⟩ : BufTy).Contents (Elt F) → (⟨S_, .f32⟩ : BufTy).Contents (Elt F)),
    StableHlo.nullary main_cst_31 (constant S_ .f32 0x00000000#32),
    StableHlo.binary main_cst_31 main_v185 main_v186 (addf : (⟨S_, .f32⟩ : BufTy).Contents (Elt F) → (⟨S_, .f32⟩ : BufTy).Contents (Elt F) → (⟨S_, .f32⟩ : BufTy).Contents (Elt F)),
    StableHlo.binary main_v186 main_v160 main_v187 (addf : (⟨S_, .f32⟩ : BufTy).Contents (Elt F) → (⟨S_, .f32⟩ : BufTy).Contents (Elt F) → (⟨S_, .f32⟩ : BufTy).Contents (Elt F)),
    StableHlo.binary main_v187 main_v184 main_v188 (addf : (⟨S_, .f32⟩ : BufTy).Contents (Elt F) → (⟨S_, .f32⟩ : BufTy).Contents (Elt F) → (⟨S_, .f32⟩ : BufTy).Contents (Elt F)),
    StableHlo.nullary main_c_32 (constantI S_ 32 0#32),
    StableHlo.unary main_c_32 main_v189 (broadcastInDim S800000 ![] bcast_S_S800000 : (⟨S_, .i32⟩ : BufTy).Contents (Elt F) → (⟨S800000, .i32⟩ : BufTy).Contents (Elt F)),
    StableHlo.binary main_v3 main_v189 main_v190 (cmpi .slt : (⟨S800000, .i32⟩ : BufTy).Contents (Elt F) → (⟨S800000, .i32⟩ : BufTy).Contents (Elt F) → (⟨S800000, .i1⟩ : BufTy).Contents (Elt F)),
    StableHlo.nullary main_c_33 (constantI S_ 32 50000#32),
    StableHlo.unary main_c_33 main_v191 (broadcastInDim S800000 ![] bcast_S_S800000 : (⟨S_, .i32⟩ : BufTy).Contents (Elt F) → (⟨S800000, .i32⟩ : BufTy).Contents (Elt F)),
    StableHlo.binary main_v3 main_v191 main_v192 (addi : (⟨S800000, .i32⟩ : BufTy).Contents (Elt F) → (⟨S800000, .i32⟩ : BufTy).Contents (Elt F) → (⟨S800000, .i32⟩ : BufTy).Contents (Elt F)),
    StableHlo.ternary main_v190 main_v192 main_v3 main_v193 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v193 main_v194 (broadcastInDim S800000x1 ![0] bcast_S800000_S800000x1_0 : (⟨S800000, .i32⟩ : BufTy).Contents (Elt F) → (⟨S800000x1, .i32⟩ : BufTy).Contents (Elt F)),
    StableHlo.binary main_v110 main_v194 main_v195 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_c_34 (constantI S_ 32 0#32),
    StableHlo.unary main_c_34 main_v196 (broadcastInDim S800000 ![] bcast_S_S800000 : (⟨S_, .i32⟩ : BufTy).Contents (Elt F) → (⟨S800000, .i32⟩ : BufTy).Contents (Elt F)),
    StableHlo.binary main_v1 main_v196 main_v197 (cmpi .slt : (⟨S800000, .i32⟩ : BufTy).Contents (Elt F) → (⟨S800000, .i32⟩ : BufTy).Contents (Elt F) → (⟨S800000, .i1⟩ : BufTy).Contents (Elt F)),
    StableHlo.nullary main_c_35 (constantI S_ 32 50000#32),
    StableHlo.unary main_c_35 main_v198 (broadcastInDim S800000 ![] bcast_S_S800000 : (⟨S_, .i32⟩ : BufTy).Contents (Elt F) → (⟨S800000, .i32⟩ : BufTy).Contents (Elt F)),
    StableHlo.binary main_v1 main_v198 main_v199 (addi : (⟨S800000, .i32⟩ : BufTy).Contents (Elt F) → (⟨S800000, .i32⟩ : BufTy).Contents (Elt F) → (⟨S800000, .i32⟩ : BufTy).Contents (Elt F)),
    StableHlo.ternary main_v197 main_v199 main_v1 main_v200 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v200 main_v201 (broadcastInDim S800000x1 ![0] bcast_S800000_S800000x1_0 : (⟨S800000, .i32⟩ : BufTy).Contents (Elt F) → (⟨S800000x1, .i32⟩ : BufTy).Contents (Elt F)) ]

theorem ops6_sub : (ops6 : List (HloOp τ sig (Elt F))).Forall fun op => op.bufs ⊆ tcRefs τ sig :=
  ⟨unary_bufs_sub .., unary_bufs_sub .., binary_bufs_sub .., binary_bufs_sub .., binary_bufs_sub .., nullary_bufs_sub .., binary_bufs_sub .., nullary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., binary_bufs_sub .., nullary_bufs_sub .., binary_bufs_sub .., nullary_bufs_sub .., binary_bufs_sub .., nullary_bufs_sub .., binary_bufs_sub .., nullary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub ..⟩

theorem ops6_fresh : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 4000000 in
set_option maxRecDepth 4096 in
theorem sat6 (a : Args F) : ∀ V : Valuation τ sig (Elt F), Sat V (known6 a) → Sat (after ops6 V) (known7 a) :=
  step_unary 34 a.x25 (Read.val_main_v154 (F := F) a.x25) rfl rfl rfl <|
  step_unary 0 (Read.val_main_v154 (F := F) a.x25) (Read.val_main_v155 (F := F) a.x25) rfl rfl rfl <|
  step_binary 10 0 (Read.val_main_v153 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v155 (F := F) a.x25) (Read.val_main_v156 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_binary 0 8 (Read.val_main_v156 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v110 (F := F) a.x0 a.x3 a.x4 a.x5 a.x7 a.x8 a.x9 a.x10 a.x11 a.x12 a.x13 a.x14 a.x15 a.x16 a.x17 a.x18 a.x19 a.x20 a.x21 a.x22 a.x23 a.x24 a.x25) (Read.val_main_v157 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_binary 0 0 (Read.val_main_v157 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v157 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v158 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_nullary (Read.val_main_cst_24 (F := F)) rfl rfl <|
  step_binary 1 0 (Read.val_main_v158 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_cst_24 (F := F)) (Read.val_main_v159 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_nullary (Read.val_main_cst_25 (F := F)) rfl rfl <|
  step_binary 1 0 (Read.val_main_v159 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_cst_25 (F := F)) (Read.val_main_v160 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_binary 15 40 (Read.val_main_v120 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) a.x22 (Read.val_main_v161 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_unary 42 a.x23 (Read.val_main_v162 (F := F) a.x23) rfl rfl rfl <|
  step_unary 0 (Read.val_main_v162 (F := F) a.x23) (Read.val_main_v163 (F := F) a.x23) rfl rfl rfl <|
  step_binary 2 0 (Read.val_main_v161 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v163 (F := F) a.x23) (Read.val_main_v164 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_nullary (Read.val_main_cst_26 (F := F)) rfl rfl <|
  step_unary 0 (Read.val_main_cst_26 (F := F)) (Read.val_main_v165 (F := F)) rfl rfl rfl <|
  step_binary 2 0 (Read.val_main_v164 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v165 (F := F)) (Read.val_main_v166 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_binary 0 49 (Read.val_main_v166 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) a.x24 (Read.val_main_v167 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_unary 51 a.x25 (Read.val_main_v168 (F := F) a.x25) rfl rfl rfl <|
  step_unary 0 (Read.val_main_v168 (F := F) a.x25) (Read.val_main_v169 (F := F) a.x25) rfl rfl rfl <|
  step_binary 2 0 (Read.val_main_v167 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v169 (F := F) a.x25) (Read.val_main_v170 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_binary 0 55 (Read.val_main_v170 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) a.x26 (Read.val_main_v171 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_unary 57 a.x27 (Read.val_main_v172 (F := F) a.x27) rfl rfl rfl <|
  step_unary 0 (Read.val_main_v172 (F := F) a.x27) (Read.val_main_v173 (F := F) a.x27) rfl rfl rfl <|
  step_binary 2 0 (Read.val_main_v171 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v173 (F := F) a.x27) (Read.val_main_v174 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_nullary (Read.val_main_cst_27 (F := F)) rfl rfl <|
  step_unary 0 (Read.val_main_cst_27 (F := F)) (Read.val_main_v175 (F := F)) rfl rfl rfl <|
  step_binary 2 0 (Read.val_main_v174 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v175 (F := F)) (Read.val_main_v176 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_binary 0 64 (Read.val_main_v176 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) a.x28 (Read.val_main_v177 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_unary 66 a.x29 (Read.val_main_v178 (F := F) a.x29) rfl rfl rfl <|
  step_unary 0 (Read.val_main_v178 (F := F) a.x29) (Read.val_main_v179 (F := F) a.x29) rfl rfl rfl <|
  step_binary 2 0 (Read.val_main_v177 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v179 (F := F) a.x29) (Read.val_main_v180 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_binary 0 37 (Read.val_main_v180 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v120 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v181 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_binary 0 0 (Read.val_main_v181 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v181 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v182 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_nullary (Read.val_main_cst_28 (F := F)) rfl rfl <|
  step_binary 1 0 (Read.val_main_v182 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_cst_28 (F := F)) (Read.val_main_v183 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_nullary (Read.val_main_cst_29 (F := F)) rfl rfl <|
  step_binary 1 0 (Read.val_main_v183 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_cst_29 (F := F)) (Read.val_main_v184 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_nullary (Read.val_main_cst_30 (F := F)) rfl rfl <|
  step_binary 45 0 (Read.val_main_v136 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29) (Read.val_main_cst_30 (F := F)) (Read.val_main_v185 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_nullary (Read.val_main_cst_31 (F := F)) rfl rfl <|
  step_binary 0 1 (Read.val_main_cst_31 (F := F)) (Read.val_main_v185 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v186 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_binary 0 32 (Read.val_main_v186 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v160 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v187 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_binary 0 5 (Read.val_main_v187 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v184 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v188 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_nullary (Read.val_main_c_32 (F := F)) rfl rfl <|
  step_unary 0 (Read.val_main_c_32 (F := F)) (Read.val_main_v189 (F := F)) rfl rfl rfl <|
  step_binary 46 0 (Read.val_main_v3 (F := F) a.x4) (Read.val_main_v189 (F := F)) (Read.val_main_v190 (F := F) a.x4) rfl rfl rfl rfl <|
  step_nullary (Read.val_main_c_33 (F := F)) rfl rfl <|
  step_unary 0 (Read.val_main_c_33 (F := F)) (Read.val_main_v191 (F := F)) rfl rfl rfl <|
  step_binary 49 0 (Read.val_main_v3 (F := F) a.x4) (Read.val_main_v191 (F := F)) (Read.val_main_v192 (F := F) a.x4) rfl rfl rfl rfl <|
  step_ternary 3 0 50 (Read.val_main_v190 (F := F) a.x4) (Read.val_main_v192 (F := F) a.x4) (Read.val_main_v3 (F := F) a.x4) (Read.val_main_v193 (F := F) a.x4) rfl rfl rfl rfl rfl <|
  step_unary 0 (Read.val_main_v193 (F := F) a.x4) (Read.val_main_v194 (F := F) a.x4) rfl rfl rfl <|
  step_binary 56 0 (Read.val_main_v110 (F := F) a.x0 a.x3 a.x4 a.x5 a.x7 a.x8 a.x9 a.x10 a.x11 a.x12 a.x13 a.x14 a.x15 a.x16 a.x17 a.x18 a.x19 a.x20 a.x21 a.x22 a.x23 a.x24 a.x25) (Read.val_main_v194 (F := F) a.x4) (Read.val_main_v195 (F := F) a.x0 a.x3 a.x4 a.x5 a.x7 a.x8 a.x9 a.x10 a.x11 a.x12 a.x13 a.x14 a.x15 a.x16 a.x17 a.x18 a.x19 a.x20 a.x21 a.x22 a.x23 a.x24 a.x25) rfl rfl rfl rfl <|
  step_nullary (Read.val_main_c_34 (F := F)) rfl rfl <|
  step_unary 0 (Read.val_main_c_34 (F := F)) (Read.val_main_v196 (F := F)) rfl rfl rfl <|
  step_binary 54 0 (Read.val_main_v1 (F := F) a.x4) (Read.val_main_v196 (F := F)) (Read.val_main_v197 (F := F) a.x4) rfl rfl rfl rfl <|
  step_nullary (Read.val_main_c_35 (F := F)) rfl rfl <|
  step_unary 0 (Read.val_main_c_35 (F := F)) (Read.val_main_v198 (F := F)) rfl rfl rfl <|
  step_binary 57 0 (Read.val_main_v1 (F := F) a.x4) (Read.val_main_v198 (F := F)) (Read.val_main_v199 (F := F) a.x4) rfl rfl rfl rfl <|
  step_ternary 3 0 58 (Read.val_main_v197 (F := F) a.x4) (Read.val_main_v199 (F := F) a.x4) (Read.val_main_v1 (F := F) a.x4) (Read.val_main_v200 (F := F) a.x4) rfl rfl rfl rfl rfl <|
  step_unary 0 (Read.val_main_v200 (F := F) a.x4) (Read.val_main_v201 (F := F) a.x4) rfl rfl rfl <|
  done [60, 61, 62, 63, 64, 65, 17, 8, 0, 69, 70, 71, 72, 73, 74, 75, 76, 77, 78, 79, 80, 81, 82, 83, 84, 85, 86, 87, 88, 89, 90, 91, 92, 93, 94, 95, 96, 97, 98] rfl

abbrev win3 : List (HloOp τ sig (Elt F)) := ops6

set_option maxHeartbeats 4000000 in
set_option maxRecDepth 4096 in
theorem main_part3_eq (d : Dev nD) : main_part3 (F := F) d = seq win3 := rfl

theorem win3_sub : (win3 : List (HloOp τ sig (Elt F))).Forall fun op => op.bufs ⊆ tcRefs τ sig :=
  ops6_sub

theorem win3_fresh : (win3 : List (HloOp τ sig (Elt F))).Forall fun op => op.fresh = ∅ :=
  ops6_fresh

theorem win3_sat (a : Args F) : ∀ V : Valuation τ sig (Elt F), Sat V (known6 a) → Sat (after win3 V) (known7 a) :=
  sat6 a

end Cert.ReferenceIdeal.Hand

end
-- ==== Proof.Ref.Ops4.lean ====
import proofs.«138431_j79370995631014_1_alg».proof.Proof.Ref.OpsLists
import proofs.«138431_j79370995631014_1_alg».proof.Proof.LibHostLine3

noncomputable section

namespace Cert.ReferenceIdeal.Hand

open Cert.ReferenceIdeal Cert.ReferenceIdeal.Gen Idealize.ShloMosaic Idealize.ShloMosaic.TcCoe Idealize.SL.Sem Idealize.ShloMosaic.StableHlo HostLine

variable {F : FTy → Type} [FloatOps F]

abbrev ops7 : List (HloOp τ sig (Elt F)) :=
  [ StableHlo.binary main_v110 main_v201 main_v202 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ]

theorem ops7_sub : (ops7 : List (HloOp τ sig (Elt F))).Forall fun op => op.bufs ⊆ tcRefs τ sig :=
  binary_bufs_sub ..

theorem ops7_fresh : (ops7 : List (HloOp τ sig (Elt F))).Forall fun op => op.fresh = ∅ :=
  rfl

set_option maxHeartbeats 4000000 in
set_option maxRecDepth 4096 in
theorem sat7 (a : Args F) : ∀ V : Valuation τ sig (Elt F), Sat V (known7 a) → Sat (after ops7 V) (known8 a) :=
  step_binary 5 8 (Read.val_main_v110 (F := F) a.x0 a.x3 a.x4 a.x5 a.x7 a.x8 a.x9 a.x10 a.x11 a.x12 a.x13 a.x14 a.x15 a.x16 a.x17 a.x18 a.x19 a.x20 a.x21 a.x22 a.x23 a.x24 a.x25) (Read.val_main_v201 (F := F) a.x4) (Read.val_main_v202 (F := F) a.x0 a.x3 a.x4 a.x5 a.x7 a.x8 a.x9 a.x10 a.x11 a.x12 a.x13 a.x14 a.x15 a.x16 a.x17 a.x18 a.x19 a.x20 a.x21 a.x22 a.x23 a.x24 a.x25) rfl rfl rfl rfl <|
  done [1, 2, 3, 4, 5, 6, 7, 8, 0, 10, 11, 12, 13, 14, 15, 16, 17, 18, 19, 20, 21, 22, 23, 24, 25, 26, 27, 28, 29, 30, 31, 32, 33, 34, 35, 36, 37, 38, 39] rfl

abbrev ops8 : List (HloOp τ sig (Elt F)) :=
  [ StableHlo.nary ![main_v195, main_v202, main_arg5] main_v203 (fun u => concatenate S800000x131 1 [⟨S800000x64, u 0⟩, ⟨S800000x64, u 1⟩, ⟨S800000x3, u 2⟩] concatenates_S800000x64_S800000x64_S800000x3_S800000x131_d1),
    StableHlo.binary main_v203 main_arg8 main_v204 ((fun l r => Host.dotGeneral dot_S800000x131_S131x64_S800000x64_1_0_0_1_n_n none l r) : (⟨S800000x131, .f32⟩ : BufTy).Contents (Elt F) → (⟨S131x64, .f32⟩ : BufTy).Contents (Elt F) → (⟨S800000x64, .f32⟩ : BufTy).Contents (Elt F)),
    StableHlo.unary main_arg9 main_v205 (broadcastInDim S1x64 ![1] bcast_S64_S1x64_1 : (⟨S64, .f32⟩ : BufTy).Contents (Elt F) → (⟨S1x64, .f32⟩ : BufTy).Contents (Elt F)),
    StableHlo.unary main_v205 main_v206 (broadcastInDim S800000x64 ![0, 1] bcast_S1x64_S800000x64_0_1 : (⟨S1x64, .f32⟩ : BufTy).Contents (Elt F) → (⟨S800000x64, .f32⟩ : BufTy).Contents (Elt F)),
    StableHlo.binary main_v204 main_v206 main_v207 (addf : (⟨S800000x64, .f32⟩ : BufTy).Contents (Elt F) → (⟨S800000x64, .f32⟩ : BufTy).Contents (Elt F) → (⟨S800000x64, .f32⟩ : BufTy).Contents (Elt F)),
    StableHlo.nullary main_cst_36 (constant S_ .f32 0x00000000#32),
    StableHlo.unary main_cst_36 main_v208 (broadcastInDim S800000x64 ![] bcast_S_S800000x64 : (⟨S_, .f32⟩ : BufTy).Contents (Elt F) → (⟨S800000x64, .f32⟩ : BufTy).Contents (Elt F)),
    StableHlo.binary main_v207 main_v208 main_v209 (maximumf : (⟨S800000x64, .f32⟩ : BufTy).Contents (Elt F) → (⟨S800000x64, .f32⟩ : BufTy).Contents (Elt F) → (⟨S800000x64, .f32⟩ : BufTy).Contents (Elt F)),
    StableHlo.binary main_v209 main_arg10 main_v210 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    StableHlo.unary main_arg11 main_v211 (broadcastInDim S1x64 ![1] bcast_S64_S1x64_1 : (⟨S64, .f32⟩ : BufTy).Contents (Elt F) → (⟨S1x64, .f32⟩ : BufTy).Contents (Elt F)),
    StableHlo.unary main_v211 main_v212 (broadcastInDim S800000x64 ![0, 1] bcast_S1x64_S800000x64_0_1 : (⟨S1x64, .f32⟩ : BufTy).Contents (Elt F) → (⟨S800000x64, .f32⟩ : BufTy).Contents (Elt F)),
    StableHlo.binary main_v210 main_v212 main_v213 (addf : (⟨S800000x64, .f32⟩ : BufTy).Contents (Elt F) → (⟨S800000x64, .f32⟩ : BufTy).Contents (Elt F) → (⟨S800000x64, .f32⟩ : BufTy).Contents (Elt F)),
    StableHlo.unary main_v6 main_v214 (broadcastInDim S800000x64 ![0, 1] bcast_S800000x1_S800000x64_0_1 : (⟨S800000x1, .f32⟩ : BufTy).Contents (Elt F) → (⟨S800000x64, .f32⟩ : BufTy).Contents (Elt F)),
    StableHlo.binary main_v213 main_v214 main_v215 (mulf : (⟨S800000x64, .f32⟩ : BufTy).Contents (Elt F) → (⟨S800000x64, .f32⟩ : BufTy).Contents (Elt F) → (⟨S800000x64, .f32⟩ : BufTy).Contents (Elt F)),
    StableHlo.nullary main_cst_37 (constant S_ .f32 0x00000000#32),
    StableHlo.unary main_cst_37 main_v216 (broadcastInDim S50000x64 ![] bcast_S_S50000x64 : (⟨S_, .f32⟩ : BufTy).Contents (Elt F) → (⟨S50000x64, .f32⟩ : BufTy).Contents (Elt F)),
    StableHlo.unary main_v3 main_v217 (broadcastInDim S800000x1 ![0] bcast_S800000_S800000x1_0 : (⟨S800000, .i32⟩ : BufTy).Contents (Elt F) → (⟨S800000x1, .i32⟩ : BufTy).Contents (Elt F)),
    StableHlo.ternary main_v216 main_v217 main_v215 main_v218 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.nullary main_c_38 (constantI S_ 32 0#32),
    StableHlo.unary main_c_38 main_v219 (broadcastInDim S800000 ![] bcast_S_S800000 : (⟨S_, .i32⟩ : BufTy).Contents (Elt F) → (⟨S800000, .i32⟩ : BufTy).Contents (Elt F)),
    StableHlo.binary main_v1 main_v219 main_v220 (cmpi .slt : (⟨S800000, .i32⟩ : BufTy).Contents (Elt F) → (⟨S800000, .i32⟩ : BufTy).Contents (Elt F) → (⟨S800000, .i1⟩ : BufTy).Contents (Elt F)),
    StableHlo.nullary main_c_39 (constantI S_ 32 50000#32),
    StableHlo.unary main_c_39 main_v221 (broadcastInDim S800000 ![] bcast_S_S800000 : (⟨S_, .i32⟩ : BufTy).Contents (Elt F) → (⟨S800000, .i32⟩ : BufTy).Contents (Elt F)),
    StableHlo.binary main_v1 main_v221 main_v222 (addi : (⟨S800000, .i32⟩ : BufTy).Contents (Elt F) → (⟨S800000, .i32⟩ : BufTy).Contents (Elt F) → (⟨S800000, .i32⟩ : BufTy).Contents (Elt F)),
    StableHlo.ternary main_v220 main_v222 main_v1 main_v223 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v223 main_v224 (broadcastInDim S800000x1 ![0] bcast_S800000_S800000x1_0 : (⟨S800000, .i32⟩ : BufTy).Contents (Elt F) → (⟨S800000x1, .i32⟩ : BufTy).Contents (Elt F)),
    StableHlo.binary main_v110 main_v224 main_v225 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_c_40 (constantI S_ 32 0#32),
    StableHlo.unary main_c_40 main_v226 (broadcastInDim S800000 ![] bcast_S_S800000 : (⟨S_, .i32⟩ : BufTy).Contents (Elt F) → (⟨S800000, .i32⟩ : BufTy).Contents (Elt F)),
    StableHlo.binary main_v3 main_v226 main_v227 (cmpi .slt : (⟨S800000, .i32⟩ : BufTy).Contents (Elt F) → (⟨S800000, .i32⟩ : BufTy).Contents (Elt F) → (⟨S800000, .i1⟩ : BufTy).Contents (Elt F)),
    StableHlo.nullary main_c_41 (constantI S_ 32 50000#32),
    StableHlo.unary main_c_41 main_v228 (broadcastInDim S800000 ![] bcast_S_S800000 : (⟨S_, .i32⟩ : BufTy).Contents (Elt F) → (⟨S800000, .i32⟩ : BufTy).Contents (Elt F)),
    StableHlo.binary main_v3 main_v228 main_v229 (addi : (⟨S800000, .i32⟩ : BufTy).Contents (Elt F) → (⟨S800000, .i32⟩ : BufTy).Contents (Elt F) → (⟨S800000, .i32⟩ : BufTy).Contents (Elt F)),
    StableHlo.ternary main_v227 main_v229 main_v3 main_v230 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v230 main_v231 (broadcastInDim S800000x1 ![0] bcast_S800000_S800000x1_0 : (⟨S800000, .i32⟩ : BufTy).Contents (Elt F) → (⟨S800000x1, .i32⟩ : BufTy).Contents (Elt F)),
    StableHlo.binary main_v110 main_v231 main_v232 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ]

theorem ops8_sub : (ops8 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem ops8_fresh : (ops8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 4000000 in
set_option maxRecDepth 4096 in
theorem sat8 (a : Args F) : ∀ V : Valuation τ sig (Elt F), Sat V (known8 a) → Sat (after ops8 V) (known9 a) :=
  step_nary (Read.val_main_v203 (F := F) a.x0 a.x3 a.x4 a.x5 a.x7 a.x8 a.x9 a.x10 a.x11 a.x12 a.x13 a.x14 a.x15 a.x16 a.x17 a.x18 a.x19 a.x20 a.x21 a.x22 a.x23 a.x24 a.x25) (fun V h => by
      have e0 := h.get 7 (b := main_v195) (v := (Read.val_main_v195 (F := F) a.x0 a.x3 a.x4 a.x5 a.x7 a.x8 a.x9 a.x10 a.x11 a.x12 a.x13 a.x14 a.x15 a.x16 a.x17 a.x18 a.x19 a.x20 a.x21 a.x22 a.x23 a.x24 a.x25)) rfl
      have e1 := h.get 8 (b := main_v202) (v := (Read.val_main_v202 (F := F) a.x0 a.x3 a.x4 a.x5 a.x7 a.x8 a.x9 a.x10 a.x11 a.x12 a.x13 a.x14 a.x15 a.x16 a.x17 a.x18 a.x19 a.x20 a.x21 a.x22 a.x23 a.x24 a.x25)) rfl
      have e2 := h.get 14 (b := main_arg5) (v := a.x5) rfl
      unfold Read.val_main_v203
      rw [← e0, ← e1, ← e2]
      rfl) rfl <|
  step_binary 0 18 (Read.val_main_v203 (F := F) a.x0 a.x3 a.x4 a.x5 a.x7 a.x8 a.x9 a.x10 a.x11 a.x12 a.x13 a.x14 a.x15 a.x16 a.x17 a.x18 a.x19 a.x20 a.x21 a.x22 a.x23 a.x24 a.x25) a.x8 (Read.val_main_v204 (F := F) a.x0 a.x3 a.x4 a.x5 a.x7 a.x8 a.x9 a.x10 a.x11 a.x12 a.x13 a.x14 a.x15 a.x16 a.x17 a.x18 a.x19 a.x20 a.x21 a.x22 a.x23 a.x24 a.x25) rfl rfl rfl rfl <|
  step_unary 20 a.x9 (Read.val_main_v205 (F := F) a.x9) rfl rfl rfl <|
  step_unary 0 (Read.val_main_v205 (F := F) a.x9) (Read.val_main_v206 (F := F) a.x9) rfl rfl rfl <|
  step_binary 2 0 (Read.val_main_v204 (F := F) a.x0 a.x3 a.x4 a.x5 a.x7 a.x8 a.x9 a.x10 a.x11 a.x12 a.x13 a.x14 a.x15 a.x16 a.x17 a.x18 a.x19 a.x20 a.x21 a.x22 a.x23 a.x24 a.x25) (Read.val_main_v206 (F := F) a.x9) (Read.val_main_v207 (F := F) a.x0 a.x3 a.x4 a.x5 a.x7 a.x8 a.x9 a.x10 a.x11 a.x12 a.x13 a.x14 a.x15 a.x16 a.x17 a.x18 a.x19 a.x20 a.x21 a.x22 a.x23 a.x24 a.x25) rfl rfl rfl rfl <|
  step_nullary (Read.val_main_cst_36 (F := F)) rfl rfl <|
  step_unary 0 (Read.val_main_cst_36 (F := F)) (Read.val_main_v208 (F := F)) rfl rfl rfl <|
  step_binary 2 0 (Read.val_main_v207 (F := F) a.x0 a.x3 a.x4 a.x5 a.x7 a.x8 a.x9 a.x10 a.x11 a.x12 a.x13 a.x14 a.x15 a.x16 a.x17 a.x18 a.x19 a.x20 a.x21 a.x22 a.x23 a.x24 a.x25) (Read.val_main_v208 (F := F)) (Read.val_main_v209 (F := F) a.x0 a.x3 a.x4 a.x5 a.x7 a.x8 a.x9 a.x10 a.x11 a.x12 a.x13 a.x14 a.x15 a.x16 a.x17 a.x18 a.x19 a.x20 a.x21 a.x22 a.x23 a.x24 a.x25) rfl rfl rfl rfl <|
  step_binary 0 27 (Read.val_main_v209 (F := F) a.x0 a.x3 a.x4 a.x5 a.x7 a.x8 a.x9 a.x10 a.x11 a.x12 a.x13 a.x14 a.x15 a.x16 a.x17 a.x18 a.x19 a.x20 a.x21 a.x22 a.x23 a.x24 a.x25) a.x10 (Read.val_main_v210 (F := F) a.x0 a.x3 a.x4 a.x5 a.x7 a.x8 a.x9 a.x10 a.x11 a.x12 a.x13 a.x14 a.x15 a.x16 a.x17 a.x18 a.x19 a.x20 a.x21 a.x22 a.x23 a.x24 a.x25) rfl rfl rfl rfl <|
  step_unary 29 a.x11 (Read.val_main_v211 (F := F) a.x11) rfl rfl rfl <|
  step_unary 0 (Read.val_main_v211 (F := F) a.x11) (Read.val_main_v212 (F := F) a.x11) rfl rfl rfl <|
  step_binary 2 0 (Read.val_main_v210 (F := F) a.x0 a.x3 a.x4 a.x5 a.x7 a.x8 a.x9 a.x10 a.x11 a.x12 a.x13 a.x14 a.x15 a.x16 a.x17 a.x18 a.x19 a.x20 a.x21 a.x22 a.x23 a.x24 a.x25) (Read.val_main_v212 (F := F) a.x11) (Read.val_main_v213 (F := F) a.x0 a.x3 a.x4 a.x5 a.x7 a.x8 a.x9 a.x10 a.x11 a.x12 a.x13 a.x14 a.x15 a.x16 a.x17 a.x18 a.x19 a.x20 a.x21 a.x22 a.x23 a.x24 a.x25) rfl rfl rfl rfl <|
  step_unary 14 (Read.val_main_v6 (F := F) a.x4) (Read.val_main_v214 (F := F) a.x4) rfl rfl rfl <|
  step_binary 1 0 (Read.val_main_v213 (F := F) a.x0 a.x3 a.x4 a.x5 a.x7 a.x8 a.x9 a.x10 a.x11 a.x12 a.x13 a.x14 a.x15 a.x16 a.x17 a.x18 a.x19 a.x20 a.x21 a.x22 a.x23 a.x24 a.x25) (Read.val_main_v214 (F := F) a.x4) (Read.val_main_v215 (F := F) a.x0 a.x3 a.x4 a.x5 a.x7 a.x8 a.x9 a.x10 a.x11 a.x12 a.x13 a.x14 a.x15 a.x16 a.x17 a.x18 a.x19 a.x20 a.x21 a.x22 a.x23 a.x24 a.x25) rfl rfl rfl rfl <|
  step_nullary (Read.val_main_cst_37 (F := F)) rfl rfl <|
  step_unary 0 (Read.val_main_cst_37 (F := F)) (Read.val_main_v216 (F := F)) rfl rfl rfl <|
  step_unary 17 (Read.val_main_v3 (F := F) a.x4) (Read.val_main_v217 (F := F) a.x4) rfl rfl rfl <|
  step_ternary 1 0 3 (Read.val_main_v216 (F := F)) (Read.val_main_v217 (F := F) a.x4) (Read.val_main_v215 (F := F) a.x0 a.x3 a.x4 a.x5 a.x7 a.x8 a.x9 a.x10 a.x11 a.x12 a.x13 a.x14 a.x15 a.x16 a.x17 a.x18 a.x19 a.x20 a.x21 a.x22 a.x23 a.x24 a.x25) (Read.val_main_v218 (F := F) a.x0 a.x3 a.x4 a.x5 a.x7 a.x8 a.x9 a.x10 a.x11 a.x12 a.x13 a.x14 a.x15 a.x16 a.x17 a.x18 a.x19 a.x20 a.x21 a.x22 a.x23 a.x24 a.x25) rfl rfl rfl rfl rfl <|
  step_nullary (Read.val_main_c_38 (F := F)) rfl rfl <|
  step_unary 0 (Read.val_main_c_38 (F := F)) (Read.val_main_v219 (F := F)) rfl rfl rfl <|
  step_binary 20 0 (Read.val_main_v1 (F := F) a.x4) (Read.val_main_v219 (F := F)) (Read.val_main_v220 (F := F) a.x4) rfl rfl rfl rfl <|
  step_nullary (Read.val_main_c_39 (F := F)) rfl rfl <|
  step_unary 0 (Read.val_main_c_39 (F := F)) (Read.val_main_v221 (F := F)) rfl rfl rfl <|
  step_binary 23 0 (Read.val_main_v1 (F := F) a.x4) (Read.val_main_v221 (F := F)) (Read.val_main_v222 (F := F) a.x4) rfl rfl rfl rfl <|
  step_ternary 3 0 24 (Read.val_main_v220 (F := F) a.x4) (Read.val_main_v222 (F := F) a.x4) (Read.val_main_v1 (F := F) a.x4) (Read.val_main_v223 (F := F) a.x4) rfl rfl rfl rfl rfl <|
  step_unary 0 (Read.val_main_v223 (F := F) a.x4) (Read.val_main_v224 (F := F) a.x4) rfl rfl rfl <|
  step_binary 31 0 (Read.val_main_v110 (F := F) a.x0 a.x3 a.x4 a.x5 a.x7 a.x8 a.x9 a.x10 a.x11 a.x12 a.x13 a.x14 a.x15 a.x16 a.x17 a.x18 a.x19 a.x20 a.x21 a.x22 a.x23 a.x24 a.x25) (Read.val_main_v224 (F := F) a.x4) (Read.val_main_v225 (F := F) a.x0 a.x3 a.x4 a.x5 a.x7 a.x8 a.x9 a.x10 a.x11 a.x12 a.x13 a.x14 a.x15 a.x16 a.x17 a.x18 a.x19 a.x20 a.x21 a.x22 a.x23 a.x24 a.x25) rfl rfl rfl rfl <|
  step_nullary (Read.val_main_c_40 (F := F)) rfl rfl <|
  step_unary 0 (Read.val_main_c_40 (F := F)) (Read.val_main_v226 (F := F)) rfl rfl rfl <|
  step_binary 30 0 (Read.val_main_v3 (F := F) a.x4) (Read.val_main_v226 (F := F)) (Read.val_main_v227 (F := F) a.x4) rfl rfl rfl rfl <|
  step_nullary (Read.val_main_c_41 (F := F)) rfl rfl <|
  step_unary 0 (Read.val_main_c_41 (F := F)) (Read.val_main_v228 (F := F)) rfl rfl rfl <|
  step_binary 33 0 (Read.val_main_v3 (F := F) a.x4) (Read.val_main_v228 (F := F)) (Read.val_main_v229 (F := F) a.x4) rfl rfl rfl rfl <|
  step_ternary 3 0 34 (Read.val_main_v227 (F := F) a.x4) (Read.val_main_v229 (F := F) a.x4) (Read.val_main_v3 (F := F) a.x4) (Read.val_main_v230 (F := F) a.x4) rfl rfl rfl rfl rfl <|
  step_unary 0 (Read.val_main_v230 (F := F) a.x4) (Read.val_main_v231 (F := F) a.x4) rfl rfl rfl <|
  step_binary 40 0 (Read.val_main_v110 (F := F) a.x0 a.x3 a.x4 a.x5 a.x7 a.x8 a.x9 a.x10 a.x11 a.x12 a.x13 a.x14 a.x15 a.x16 a.x17 a.x18 a.x19 a.x20 a.x21 a.x22 a.x23 a.x24 a.x25) (Read.val_main_v231 (F := F) a.x4) (Read.val_main_v232 (F := F) a.x0 a.x3 a.x4 a.x5 a.x7 a.x8 a.x9 a.x10 a.x11 a.x12 a.x13 a.x14 a.x15 a.x16 a.x17 a.x18 a.x19 a.x20 a.x21 a.x22 a.x23 a.x24 a.x25) rfl rfl rfl rfl <|
  done [36, 37, 38, 39, 40, 41, 42, 18, 9, 0, 45, 46, 47, 48, 49, 50, 51, 52, 53, 54, 55, 56, 57, 58, 59, 60, 61, 62, 63, 64, 65, 66, 67, 68, 69, 70, 71, 72, 73, 74] rfl

abbrev ops9 : List (HloOp τ sig (Elt F)) :=
  [ StableHlo.nary ![main_v225, main_v232, main_arg5] main_v233 (fun u => concatenate S800000x131 1 [⟨S800000x64, u 0⟩, ⟨S800000x64, u 1⟩, ⟨S800000x3, u 2⟩] concatenates_S800000x64_S800000x64_S800000x3_S800000x131_d1),
    StableHlo.binary main_v233 main_arg12 main_v234 ((fun l r => Host.dotGeneral dot_S800000x131_S131x64_S800000x64_1_0_0_1_n_n none l r) : (⟨S800000x131, .f32⟩ : BufTy).Contents (Elt F) → (⟨S131x64, .f32⟩ : BufTy).Contents (Elt F) → (⟨S800000x64, .f32⟩ : BufTy).Contents (Elt F)),
    StableHlo.unary main_arg13 main_v235 (broadcastInDim S1x64 ![1] bcast_S64_S1x64_1 : (⟨S64, .f32⟩ : BufTy).Contents (Elt F) → (⟨S1x64, .f32⟩ : BufTy).Contents (Elt F)),
    StableHlo.unary main_v235 main_v236 (broadcastInDim S800000x64 ![0, 1] bcast_S1x64_S800000x64_0_1 : (⟨S1x64, .f32⟩ : BufTy).Contents (Elt F) → (⟨S800000x64, .f32⟩ : BufTy).Contents (Elt F)),
    StableHlo.binary main_v234 main_v236 main_v237 (addf : (⟨S800000x64, .f32⟩ : BufTy).Contents (Elt F) → (⟨S800000x64, .f32⟩ : BufTy).Contents (Elt F) → (⟨S800000x64, .f32⟩ : BufTy).Contents (Elt F)),
    StableHlo.nullary main_cst_42 (constant S_ .f32 0x00000000#32),
    StableHlo.unary main_cst_42 main_v238 (broadcastInDim S800000x64 ![] bcast_S_S800000x64 : (⟨S_, .f32⟩ : BufTy).Contents (Elt F) → (⟨S800000x64, .f32⟩ : BufTy).Contents (Elt F)),
    StableHlo.binary main_v237 main_v238 main_v239 (maximumf : (⟨S800000x64, .f32⟩ : BufTy).Contents (Elt F) → (⟨S800000x64, .f32⟩ : BufTy).Contents (Elt F) → (⟨S800000x64, .f32⟩ : BufTy).Contents (Elt F)),
    StableHlo.binary main_v239 main_arg14 main_v240 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    StableHlo.unary main_arg15 main_v241 (broadcastInDim S1x64 ![1] bcast_S64_S1x64_1 : (⟨S64, .f32⟩ : BufTy).Contents (Elt F) → (⟨S1x64, .f32⟩ : BufTy).Contents (Elt F)),
    StableHlo.unary main_v241 main_v242 (broadcastInDim S800000x64 ![0, 1] bcast_S1x64_S800000x64_0_1 : (⟨S1x64, .f32⟩ : BufTy).Contents (Elt F) → (⟨S800000x64, .f32⟩ : BufTy).Contents (Elt F)),
    StableHlo.binary main_v240 main_v242 main_v243 (addf : (⟨S800000x64, .f32⟩ : BufTy).Contents (Elt F) → (⟨S800000x64, .f32⟩ : BufTy).Contents (Elt F) → (⟨S800000x64, .f32⟩ : BufTy).Contents (Elt F)),
    StableHlo.unary main_v6 main_v244 (broadcastInDim S800000x64 ![0, 1] bcast_S800000x1_S800000x64_0_1 : (⟨S800000x1, .f32⟩ : BufTy).Contents (Elt F) → (⟨S800000x64, .f32⟩ : BufTy).Contents (Elt F)),
    StableHlo.binary main_v243 main_v244 main_v245 (mulf : (⟨S800000x64, .f32⟩ : BufTy).Contents (Elt F) → (⟨S800000x64, .f32⟩ : BufTy).Contents (Elt F) → (⟨S800000x64, .f32⟩ : BufTy).Contents (Elt F)),
    StableHlo.nullary main_cst_43 (constant S_ .f32 0x00000000#32),
    StableHlo.unary main_cst_43 main_v246 (broadcastInDim S50000x64 ![] bcast_S_S50000x64 : (⟨S_, .f32⟩ : BufTy).Contents (Elt F) → (⟨S50000x64, .f32⟩ : BufTy).Contents (Elt F)),
    StableHlo.unary main_v1 main_v247 (broadcastInDim S800000x1 ![0] bcast_S800000_S800000x1_0 : (⟨S800000, .i32⟩ : BufTy).Contents (Elt F) → (⟨S800000x1, .i32⟩ : BufTy).Contents (Elt F)),
    StableHlo.ternary main_v246 main_v247 main_v245 main_v248 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

theorem ops9_sub : (ops9 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., binary_bufs_sub .., nullary_bufs_sub .., unary_bufs_sub .., unary_bufs_sub .., ternary_bufs_sub ..⟩

theorem ops9_fresh : (ops9 : List (HloOp τ sig (Elt F))).Forall fun op => op.fresh = ∅ :=
  ⟨rfl, rfl, rfl, rfl, rfl, rfl, rfl, rfl, rfl, rfl, rfl, rfl, rfl, rfl, rfl, rfl, rfl, rfl⟩

set_option maxHeartbeats 4000000 in
set_option maxRecDepth 4096 in
theorem sat9 (a : Args F) : ∀ V : Valuation τ sig (Elt F), Sat V (known9 a) → Sat (after ops9 V) (known10 a) :=
  step_nary (Read.val_main_v233 (F := F) a.x0 a.x3 a.x4 a.x5 a.x7 a.x8 a.x9 a.x10 a.x11 a.x12 a.x13 a.x14 a.x15 a.x16 a.x17 a.x18 a.x19 a.x20 a.x21 a.x22 a.x23 a.x24 a.x25) (fun V h => by
      have e0 := h.get 8 (b := main_v225) (v := (Read.val_main_v225 (F := F) a.x0 a.x3 a.x4 a.x5 a.x7 a.x8 a.x9 a.x10 a.x11 a.x12 a.x13 a.x14 a.x15 a.x16 a.x17 a.x18 a.x19 a.x20 a.x21 a.x22 a.x23 a.x24 a.x25)) rfl
      have e1 := h.get 9 (b := main_v232) (v := (Read.val_main_v232 (F := F) a.x0 a.x3 a.x4 a.x5 a.x7 a.x8 a.x9 a.x10 a.x11 a.x12 a.x13 a.x14 a.x15 a.x16 a.x17 a.x18 a.x19 a.x20 a.x21 a.x22 a.x23 a.x24 a.x25)) rfl
      have e2 := h.get 15 (b := main_arg5) (v := a.x5) rfl
      unfold Read.val_main_v233
      rw [← e0, ← e1, ← e2]
      rfl) rfl <|
  step_binary 0 23 (Read.val_main_v233 (F := F) a.x0 a.x3 a.x4 a.x5 a.x7 a.x8 a.x9 a.x10 a.x11 a.x12 a.x13 a.x14 a.x15 a.x16 a.x17 a.x18 a.x19 a.x20 a.x21 a.x22 a.x23 a.x24 a.x25) a.x12 (Read.val_main_v234 (F := F) a.x0 a.x3 a.x4 a.x5 a.x7 a.x8 a.x9 a.x10 a.x11 a.x12 a.x13 a.x14 a.x15 a.x16 a.x17 a.x18 a.x19 a.x20 a.x21 a.x22 a.x23 a.x24 a.x25) rfl rfl rfl rfl <|
  step_unary 25 a.x13 (Read.val_main_v235 (F := F) a.x13) rfl rfl rfl <|
  step_unary 0 (Read.val_main_v235 (F := F) a.x13) (Read.val_main_v236 (F := F) a.x13) rfl rfl rfl <|
  step_binary 2 0 (Read.val_main_v234 (F := F) a.x0 a.x3 a.x4 a.x5 a.x7 a.x8 a.x9 a.x10 a.x11 a.x12 a.x13 a.x14 a.x15 a.x16 a.x17 a.x18 a.x19 a.x20 a.x21 a.x22 a.x23 a.x24 a.x25) (Read.val_main_v236 (F := F) a.x13) (Read.val_main_v237 (F := F) a.x0 a.x3 a.x4 a.x5 a.x7 a.x8 a.x9 a.x10 a.x11 a.x12 a.x13 a.x14 a.x15 a.x16 a.x17 a.x18 a.x19 a.x20 a.x21 a.x22 a.x23 a.x24 a.x25) rfl rfl rfl rfl <|
  step_nullary (Read.val_main_cst_42 (F := F)) rfl rfl <|
  step_unary 0 (Read.val_main_cst_42 (F := F)) (Read.val_main_v238 (F := F)) rfl rfl rfl <|
  step_binary 2 0 (Read.val_main_v237 (F := F) a.x0 a.x3 a.x4 a.x5 a.x7 a.x8 a.x9 a.x10 a.x11 a.x12 a.x13 a.x14 a.x15 a.x16 a.x17 a.x18 a.x19 a.x20 a.x21 a.x22 a.x23 a.x24 a.x25) (Read.val_main_v238 (F := F)) (Read.val_main_v239 (F := F) a.x0 a.x3 a.x4 a.x5 a.x7 a.x8 a.x9 a.x10 a.x11 a.x12 a.x13 a.x14 a.x15 a.x16 a.x17 a.x18 a.x19 a.x20 a.x21 a.x22 a.x23 a.x24 a.x25) rfl rfl rfl rfl <|
  step_binary 0 32 (Read.val_main_v239 (F := F) a.x0 a.x3 a.x4 a.x5 a.x7 a.x8 a.x9 a.x10 a.x11 a.x12 a.x13 a.x14 a.x15 a.x16 a.x17 a.x18 a.x19 a.x20 a.x21 a.x22 a.x23 a.x24 a.x25) a.x14 (Read.val_main_v240 (F := F) a.x0 a.x3 a.x4 a.x5 a.x7 a.x8 a.x9 a.x10 a.x11 a.x12 a.x13 a.x14 a.x15 a.x16 a.x17 a.x18 a.x19 a.x20 a.x21 a.x22 a.x23 a.x24 a.x25) rfl rfl rfl rfl <|
  step_unary 34 a.x15 (Read.val_main_v241 (F := F) a.x15) rfl rfl rfl <|
  step_unary 0 (Read.val_main_v241 (F := F) a.x15) (Read.val_main_v242 (F := F) a.x15) rfl rfl rfl <|
  step_binary 2 0 (Read.val_main_v240 (F := F) a.x0 a.x3 a.x4 a.x5 a.x7 a.x8 a.x9 a.x10 a.x11 a.x12 a.x13 a.x14 a.x15 a.x16 a.x17 a.x18 a.x19 a.x20 a.x21 a.x22 a.x23 a.x24 a.x25) (Read.val_main_v242 (F := F) a.x15) (Read.val_main_v243 (F := F) a.x0 a.x3 a.x4 a.x5 a.x7 a.x8 a.x9 a.x10 a.x11 a.x12 a.x13 a.x14 a.x15 a.x16 a.x17 a.x18 a.x19 a.x20 a.x21 a.x22 a.x23 a.x24 a.x25) rfl rfl rfl rfl <|
  step_unary 14 (Read.val_main_v6 (F := F) a.x4) (Read.val_main_v244 (F := F) a.x4) rfl rfl rfl <|
  step_binary 1 0 (Read.val_main_v243 (F := F) a.x0 a.x3 a.x4 a.x5 a.x7 a.x8 a.x9 a.x10 a.x11 a.x12 a.x13 a.x14 a.x15 a.x16 a.x17 a.x18 a.x19 a.x20 a.x21 a.x22 a.x23 a.x24 a.x25) (Read.val_main_v244 (F := F) a.x4) (Read.val_main_v245 (F := F) a.x0 a.x3 a.x4 a.x5 a.x7 a.x8 a.x9 a.x10 a.x11 a.x12 a.x13 a.x14 a.x15 a.x16 a.x17 a.x18 a.x19 a.x20 a.x21 a.x22 a.x23 a.x24 a.x25) rfl rfl rfl rfl <|
  step_nullary (Read.val_main_cst_43 (F := F)) rfl rfl <|
  step_unary 0 (Read.val_main_cst_43 (F := F)) (Read.val_main_v246 (F := F)) rfl rfl rfl <|
  step_unary 16 (Read.val_main_v1 (F := F) a.x4) (Read.val_main_v247 (F := F) a.x4) rfl rfl rfl <|
  step_ternary 1 0 3 (Read.val_main_v246 (F := F)) (Read.val_main_v247 (F := F) a.x4) (Read.val_main_v245 (F := F) a.x0 a.x3 a.x4 a.x5 a.x7 a.x8 a.x9 a.x10 a.x11 a.x12 a.x13 a.x14 a.x15 a.x16 a.x17 a.x18 a.x19 a.x20 a.x21 a.x22 a.x23 a.x24 a.x25) (Read.val_main_v248 (F := F) a.x0 a.x3 a.x4 a.x5 a.x7 a.x8 a.x9 a.x10 a.x11 a.x12 a.x13 a.x14 a.x15 a.x16 a.x17 a.x18 a.x19 a.x20 a.x21 a.x22 a.x23 a.x24 a.x25) rfl rfl rfl rfl rfl <|
  done [18, 19, 21, 22, 23, 24, 25, 0, 28, 29, 30, 31, 32, 33, 34, 35, 36, 37, 38, 39, 40, 41, 42, 43, 44, 45, 46, 47, 48, 49, 50, 51, 52, 53, 54, 55, 56, 57] rfl

abbrev ops10 : List (HloOp τ sig (Elt F)) :=
  [ StableHlo.nary ![main_v110, main_v218, main_v248, main_arg7] main_v249 (fun u => concatenate S50000x194 1 [⟨S50000x64, u 0⟩, ⟨S50000x64, u 1⟩, ⟨S50000x64, u 2⟩, ⟨S50000x2, u 3⟩] concatenates_S50000x64_S50000x64_S50000x64_S50000x2_S50000x194_d1),
    StableHlo.binary main_v249 main_arg16 main_v250 ((fun l r => Host.dotGeneral dot_S50000x194_S194x64_S50000x64_1_0_0_1_n_n none l r) : (⟨S50000x194, .f32⟩ : BufTy).Contents (Elt F) → (⟨S194x64, .f32⟩ : BufTy).Contents (Elt F) → (⟨S50000x64, .f32⟩ : BufTy).Contents (Elt F)),
    StableHlo.unary main_arg17 main_v251 (broadcastInDim S1x64 ![1] bcast_S64_S1x64_1 : (⟨S64, .f32⟩ : BufTy).Contents (Elt F) → (⟨S1x64, .f32⟩ : BufTy).Contents (Elt F)),
    StableHlo.unary main_v251 main_v252 (broadcastInDim S50000x64 ![0, 1] bcast_S1x64_S50000x64_0_1 : (⟨S1x64, .f32⟩ : BufTy).Contents (Elt F) → (⟨S50000x64, .f32⟩ : BufTy).Contents (Elt F)),
    StableHlo.binary main_v250 main_v252 main_v253 (addf : (⟨S50000x64, .f32⟩ : BufTy).Contents (Elt F) → (⟨S50000x64, .f32⟩ : BufTy).Contents (Elt F) → (⟨S50000x64, .f32⟩ : BufTy).Contents (Elt F)) ]

theorem ops10_sub : (ops10 : List (HloOp τ sig (Elt F))).Forall fun op => op.bufs ⊆ tcRefs τ sig :=
  ⟨nary_bufs_sub .., binary_bufs_sub .., unary_bufs_sub .., unary_bufs_sub .., binary_bufs_sub ..⟩

theorem ops10_fresh : (ops10 : List (HloOp τ sig (Elt F))).Forall fun op => op.fresh = ∅ :=
  ⟨rfl, rfl, rfl, rfl, rfl⟩

set_option maxHeartbeats 4000000 in
set_option maxRecDepth 4096 in
theorem sat10 (a : Args F) : ∀ V : Valuation τ sig (Elt F), Sat V (known10 a) → Sat (after ops10 V) (known11 a) :=
  step_nary (Read.val_main_v249 (F := F) a.x0 a.x3 a.x4 a.x5 a.x7 a.x8 a.x9 a.x10 a.x11 a.x12 a.x13 a.x14 a.x15 a.x16 a.x17 a.x18 a.x19 a.x20 a.x21 a.x22 a.x23 a.x24 a.x25) (fun V h => by
      have e0 := h.get 4 (b := main_v110) (v := (Read.val_main_v110 (F := F) a.x0 a.x3 a.x4 a.x5 a.x7 a.x8 a.x9 a.x10 a.x11 a.x12 a.x13 a.x14 a.x15 a.x16 a.x17 a.x18 a.x19 a.x20 a.x21 a.x22 a.x23 a.x24 a.x25)) rfl
      have e1 := h.get 6 (b := main_v218) (v := (Read.val_main_v218 (F := F) a.x0 a.x3 a.x4 a.x5 a.x7 a.x8 a.x9 a.x10 a.x11 a.x12 a.x13 a.x14 a.x15 a.x16 a.x17 a.x18 a.x19 a.x20 a.x21 a.x22 a.x23 a.x24 a.x25)) rfl
      have e2 := h.get 7 (b := main_v248) (v := (Read.val_main_v248 (F := F) a.x0 a.x3 a.x4 a.x5 a.x7 a.x8 a.x9 a.x10 a.x11 a.x12 a.x13 a.x14 a.x15 a.x16 a.x17 a.x18 a.x19 a.x20 a.x21 a.x22 a.x23 a.x24 a.x25)) rfl
      have e3 := h.get 15 (b := main_arg7) (v := a.x7) rfl
      unfold Read.val_main_v249
      rw [← e0, ← e1, ← e2, ← e3]
      rfl) rfl <|
  step_binary 0 25 (Read.val_main_v249 (F := F) a.x0 a.x3 a.x4 a.x5 a.x7 a.x8 a.x9 a.x10 a.x11 a.x12 a.x13 a.x14 a.x15 a.x16 a.x17 a.x18 a.x19 a.x20 a.x21 a.x22 a.x23 a.x24 a.x25) a.x16 (Read.val_main_v250 (F := F) a.x0 a.x3 a.x4 a.x5 a.x7 a.x8 a.x9 a.x10 a.x11 a.x12 a.x13 a.x14 a.x15 a.x16 a.x17 a.x18 a.x19 a.x20 a.x21 a.x22 a.x23 a.x24 a.x25) rfl rfl rfl rfl <|
  step_unary 27 a.x17 (Read.val_main_v251 (F := F) a.x17) rfl rfl rfl <|
  step_unary 0 (Read.val_main_v251 (F := F) a.x17) (Read.val_main_v252 (F := F) a.x17) rfl rfl rfl <|
  step_binary 2 0 (Read.val_main_v250 (F := F) a.x0 a.x3 a.x4 a.x5 a.x7 a.x8 a.x9 a.x10 a.x11 a.x12 a.x13 a.x14 a.x15 a.x16 a.x17 a.x18 a.x19 a.x20 a.x21 a.x22 a.x23 a.x24 a.x25) (Read.val_main_v252 (F := F) a.x17) (Read.val_main_v253 (F := F) a.x0 a.x3 a.x4 a.x5 a.x7 a.x8 a.x9 a.x10 a.x11 a.x12 a.x13 a.x14 a.x15 a.x16 a.x17 a.x18 a.x19 a.x20 a.x21 a.x22 a.x23 a.x24 a.x25) rfl rfl rfl rfl <|
  done [5, 6, 7, 8, 9, 10, 11, 12, 4, 0, 13, 14, 15, 16, 17, 18, 19, 20, 21, 22, 23, 24, 25, 26, 27, 28, 29, 30, 31, 32, 33, 34, 35, 36, 37, 38, 39, 40, 41, 42] rfl

abbrev win4 : List (HloOp τ sig (Elt F)) := ops7 ++ ops8 ++ ops9 ++ ops10

set_option maxHeartbeats 4000000 in
set_option maxRecDepth 4096 in
theorem main_part4_eq (d : Dev nD) : main_part4 (F := F) d = seq win4 := rfl

theorem win4_sub : (win4 : List (HloOp τ sig (Elt F))).Forall fun op => op.bufs ⊆ tcRefs τ sig :=
  List.forall_append.2 ⟨List.forall_append.2 ⟨List.forall_append.2 ⟨ops7_sub, ops8_sub⟩, ops9_sub⟩, ops10_sub⟩

theorem win4_fresh : (win4 : List (HloOp τ sig (Elt F))).Forall fun op => op.fresh = ∅ :=
  List.forall_append.2 ⟨List.forall_append.2 ⟨List.forall_append.2 ⟨ops7_fresh, ops8_fresh⟩, ops9_fresh⟩, ops10_fresh⟩

theorem win4_sat (a : Args F) : ∀ V : Valuation τ sig (Elt F), Sat V (known7 a) → Sat (after win4 V) (known11 a) :=
  line_append (line_append (line_append (sat7 a) (sat8 a)) (sat9 a)) (sat10 a)

end Cert.ReferenceIdeal.Hand

end
-- ==== Proof.Ref.Ops5.lean ====
import proofs.«138431_j79370995631014_1_alg».proof.Proof.Ref.OpsLists
import proofs.«138431_j79370995631014_1_alg».proof.Proof.LibHostLine3

noncomputable section

namespace Cert.ReferenceIdeal.Hand

open Cert.ReferenceIdeal Cert.ReferenceIdeal.Gen Idealize.ShloMosaic Idealize.ShloMosaic.TcCoe Idealize.SL.Sem Idealize.ShloMosaic.StableHlo HostLine

variable {F : FTy → Type} [FloatOps F]

abbrev ops11 : List (HloOp τ sig (Elt F)) :=
  [ StableHlo.unary main_v253 main_v254 (Host.negf : (⟨S50000x64, .f32⟩ : BufTy).Contents (Elt F) → (⟨S50000x64, .f32⟩ : BufTy).Contents (Elt F)),
    StableHlo.unary main_v254 main_v255 (Host.exp : (⟨S50000x64, .f32⟩ : BufTy).Contents (Elt F) → (⟨S50000x64, .f32⟩ : BufTy).Contents (Elt F)),
    StableHlo.nullary main_cst_44 (constant S_ .f32 0x3F800000#32),
    StableHlo.unary main_cst_44 main_v256 (broadcastInDim S50000x64 ![] bcast_S_S50000x64 : (⟨S_, .f32⟩ : BufTy).Contents (Elt F) → (⟨S50000x64, .f32⟩ : BufTy).Contents (Elt F)),
    StableHlo.binary main_v256 main_v255 main_v257 (addf : (⟨S50000x64, .f32⟩ : BufTy).Contents (Elt F) → (⟨S50000x64, .f32⟩ : BufTy).Contents (Elt F) → (⟨S50000x64, .f32⟩ : BufTy).Contents (Elt F)),
    StableHlo.nullary main_cst_45 (constant S_ .f32 0x3F800000#32),
    StableHlo.unary main_cst_45 main_v258 (broadcastInDim S50000x64 ![] bcast_S_S50000x64 : (⟨S_, .f32⟩ : BufTy).Contents (Elt F) → (⟨S50000x64, .f32⟩ : BufTy).Contents (Elt F)),
    StableHlo.binary main_v258 main_v257 main_v259 (Host.divf : (⟨S50000x64, .f32⟩ : BufTy).Contents (Elt F) → (⟨S50000x64, .f32⟩ : BufTy).Contents (Elt F) → (⟨S50000x64, .f32⟩ : BufTy).Contents (Elt F)),
    StableHlo.binary main_v249 main_arg18 main_v260 ((fun l r => Host.dotGeneral dot_S50000x194_S194x64_S50000x64_1_0_0_1_n_n none l r) : (⟨S50000x194, .f32⟩ : BufTy).Contents (Elt F) → (⟨S194x64, .f32⟩ : BufTy).Contents (Elt F) → (⟨S50000x64, .f32⟩ : BufTy).Contents (Elt F)),
    StableHlo.unary main_arg19 main_v261 (broadcastInDim S1x64 ![1] bcast_S64_S1x64_1 : (⟨S64, .f32⟩ : BufTy).Contents (Elt F) → (⟨S1x64, .f32⟩ : BufTy).Contents (Elt F)),
    StableHlo.unary main_v261 main_v262 (broadcastInDim S50000x64 ![0, 1] bcast_S1x64_S50000x64_0_1 : (⟨S1x64, .f32⟩ : BufTy).Contents (Elt F) → (⟨S50000x64, .f32⟩ : BufTy).Contents (Elt F)),
    StableHlo.binary main_v260 main_v262 main_v263 (addf : (⟨S50000x64, .f32⟩ : BufTy).Contents (Elt F) → (⟨S50000x64, .f32⟩ : BufTy).Contents (Elt F) → (⟨S50000x64, .f32⟩ : BufTy).Contents (Elt F)),
    StableHlo.unary main_v263 main_v264 (Host.negf : (⟨S50000x64, .f32⟩ : BufTy).Contents (Elt F) → (⟨S50000x64, .f32⟩ : BufTy).Contents (Elt F)),
    StableHlo.unary main_v264 main_v265 (Host.exp : (⟨S50000x64, .f32⟩ : BufTy).Contents (Elt F) → (⟨S50000x64, .f32⟩ : BufTy).Contents (Elt F)),
    StableHlo.nullary main_cst_46 (constant S_ .f32 0x3F800000#32),
    StableHlo.unary main_cst_46 main_v266 (broadcastInDim S50000x64 ![] bcast_S_S50000x64 : (⟨S_, .f32⟩ : BufTy).Contents (Elt F) → (⟨S50000x64, .f32⟩ : BufTy).Contents (Elt F)),
    StableHlo.binary main_v266 main_v265 main_v267 (addf : (⟨S50000x64, .f32⟩ : BufTy).Contents (Elt F) → (⟨S50000x64, .f32⟩ : BufTy).Contents (Elt F) → (⟨S50000x64, .f32⟩ : BufTy).Contents (Elt F)),
    StableHlo.nullary main_cst_47 (constant S_ .f32 0x3F800000#32),
    StableHlo.unary main_cst_47 main_v268 (broadcastInDim S50000x64 ![] bcast_S_S50000x64 : (⟨S_, .f32⟩ : BufTy).Contents (Elt F) → (⟨S50000x64, .f32⟩ : BufTy).Contents (Elt F)),
    StableHlo.binary main_v268 main_v267 main_v269 (Host.divf : (⟨S50000x64, .f32⟩ : BufTy).Contents (Elt F) → (⟨S50000x64, .f32⟩ : BufTy).Contents (Elt F) → (⟨S50000x64, .f32⟩ : BufTy).Contents (Elt F)),
    StableHlo.binary main_v269 main_v110 main_v270 (mulf : (⟨S50000x64, .f32⟩ : BufTy).Contents (Elt F) → (⟨S50000x64, .f32⟩ : BufTy).Contents (Elt F) → (⟨S50000x64, .f32⟩ : BufTy).Contents (Elt F)) ]

theorem ops11_sub : (ops11 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩

theorem ops11_fresh : (ops11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

set_option maxHeartbeats 4000000 in
set_option maxRecDepth 4096 in
theorem sat11 (a : Args F) : ∀ V : Valuation τ sig (Elt F), Sat V (known11 a) → Sat (after ops11 V) (known12 a) :=
  step_unary 9 (Read.val_main_v253 (F := F) a.x0 a.x3 a.x4 a.x5 a.x7 a.x8 a.x9 a.x10 a.x11 a.x12 a.x13 a.x14 a.x15 a.x16 a.x17 a.x18 a.x19 a.x20 a.x21 a.x22 a.x23 a.x24 a.x25) (Read.val_main_v254 (F := F) a.x0 a.x3 a.x4 a.x5 a.x7 a.x8 a.x9 a.x10 a.x11 a.x12 a.x13 a.x14 a.x15 a.x16 a.x17 a.x18 a.x19 a.x20 a.x21 a.x22 a.x23 a.x24 a.x25) rfl rfl rfl <|
  step_unary 0 (Read.val_main_v254 (F := F) a.x0 a.x3 a.x4 a.x5 a.x7 a.x8 a.x9 a.x10 a.x11 a.x12 a.x13 a.x14 a.x15 a.x16 a.x17 a.x18 a.x19 a.x20 a.x21 a.x22 a.x23 a.x24 a.x25) (Read.val_main_v255 (F := F) a.x0 a.x3 a.x4 a.x5 a.x7 a.x8 a.x9 a.x10 a.x11 a.x12 a.x13 a.x14 a.x15 a.x16 a.x17 a.x18 a.x19 a.x20 a.x21 a.x22 a.x23 a.x24 a.x25) rfl rfl rfl <|
  step_nullary (Read.val_main_cst_44 (F := F)) rfl rfl <|
  step_unary 0 (Read.val_main_cst_44 (F := F)) (Read.val_main_v256 (F := F)) rfl rfl rfl <|
  step_binary 0 2 (Read.val_main_v256 (F := F)) (Read.val_main_v255 (F := F) a.x0 a.x3 a.x4 a.x5 a.x7 a.x8 a.x9 a.x10 a.x11 a.x12 a.x13 a.x14 a.x15 a.x16 a.x17 a.x18 a.x19 a.x20 a.x21 a.x22 a.x23 a.x24 a.x25) (Read.val_main_v257 (F := F) a.x0 a.x3 a.x4 a.x5 a.x7 a.x8 a.x9 a.x10 a.x11 a.x12 a.x13 a.x14 a.x15 a.x16 a.x17 a.x18 a.x19 a.x20 a.x21 a.x22 a.x23 a.x24 a.x25) rfl rfl rfl rfl <|
  step_nullary (Read.val_main_cst_45 (F := F)) rfl rfl <|
  step_unary 0 (Read.val_main_cst_45 (F := F)) (Read.val_main_v258 (F := F)) rfl rfl rfl <|
  step_binary 0 2 (Read.val_main_v258 (F := F)) (Read.val_main_v257 (F := F) a.x0 a.x3 a.x4 a.x5 a.x7 a.x8 a.x9 a.x10 a.x11 a.x12 a.x13 a.x14 a.x15 a.x16 a.x17 a.x18 a.x19 a.x20 a.x21 a.x22 a.x23 a.x24 a.x25) (Read.val_main_v259 (F := F) a.x0 a.x3 a.x4 a.x5 a.x7 a.x8 a.x9 a.x10 a.x11 a.x12 a.x13 a.x14 a.x15 a.x16 a.x17 a.x18 a.x19 a.x20 a.x21 a.x22 a.x23 a.x24 a.x25) rfl rfl rfl rfl <|
  step_binary 16 36 (Read.val_main_v249 (F := F) a.x0 a.x3 a.x4 a.x5 a.x7 a.x8 a.x9 a.x10 a.x11 a.x12 a.x13 a.x14 a.x15 a.x16 a.x17 a.x18 a.x19 a.x20 a.x21 a.x22 a.x23 a.x24 a.x25) a.x18 (Read.val_main_v260 (F := F) a.x0 a.x3 a.x4 a.x5 a.x7 a.x8 a.x9 a.x10 a.x11 a.x12 a.x13 a.x14 a.x15 a.x16 a.x17 a.x18 a.x19 a.x20 a.x21 a.x22 a.x23 a.x24 a.x25) rfl rfl rfl rfl <|
  step_unary 38 a.x19 (Read.val_main_v261 (F := F) a.x19) rfl rfl rfl <|
  step_unary 0 (Read.val_main_v261 (F := F) a.x19) (Read.val_main_v262 (F := F) a.x19) rfl rfl rfl <|
  step_binary 2 0 (Read.val_main_v260 (F := F) a.x0 a.x3 a.x4 a.x5 a.x7 a.x8 a.x9 a.x10 a.x11 a.x12 a.x13 a.x14 a.x15 a.x16 a.x17 a.x18 a.x19 a.x20 a.x21 a.x22 a.x23 a.x24 a.x25) (Read.val_main_v262 (F := F) a.x19) (Read.val_main_v263 (F := F) a.x0 a.x3 a.x4 a.x5 a.x7 a.x8 a.x9 a.x10 a.x11 a.x12 a.x13 a.x14 a.x15 a.x16 a.x17 a.x18 a.x19 a.x20 a.x21 a.x22 a.x23 a.x24 a.x25) rfl rfl rfl rfl <|
  step_unary 0 (Read.val_main_v263 (F := F) a.x0 a.x3 a.x4 a.x5 a.x7 a.x8 a.x9 a.x10 a.x11 a.x12 a.x13 a.x14 a.x15 a.x16 a.x17 a.x18 a.x19 a.x20 a.x21 a.x22 a.x23 a.x24 a.x25) (Read.val_main_v264 (F := F) a.x0 a.x3 a.x4 a.x5 a.x7 a.x8 a.x9 a.x10 a.x11 a.x12 a.x13 a.x14 a.x15 a.x16 a.x17 a.x18 a.x19 a.x20 a.x21 a.x22 a.x23 a.x24 a.x25) rfl rfl rfl <|
  step_unary 0 (Read.val_main_v264 (F := F) a.x0 a.x3 a.x4 a.x5 a.x7 a.x8 a.x9 a.x10 a.x11 a.x12 a.x13 a.x14 a.x15 a.x16 a.x17 a.x18 a.x19 a.x20 a.x21 a.x22 a.x23 a.x24 a.x25) (Read.val_main_v265 (F := F) a.x0 a.x3 a.x4 a.x5 a.x7 a.x8 a.x9 a.x10 a.x11 a.x12 a.x13 a.x14 a.x15 a.x16 a.x17 a.x18 a.x19 a.x20 a.x21 a.x22 a.x23 a.x24 a.x25) rfl rfl rfl <|
  step_nullary (Read.val_main_cst_46 (F := F)) rfl rfl <|
  step_unary 0 (Read.val_main_cst_46 (F := F)) (Read.val_main_v266 (F := F)) rfl rfl rfl <|
  step_binary 0 2 (Read.val_main_v266 (F := F)) (Read.val_main_v265 (F := F) a.x0 a.x3 a.x4 a.x5 a.x7 a.x8 a.x9 a.x10 a.x11 a.x12 a.x13 a.x14 a.x15 a.x16 a.x17 a.x18 a.x19 a.x20 a.x21 a.x22 a.x23 a.x24 a.x25) (Read.val_main_v267 (F := F) a.x0 a.x3 a.x4 a.x5 a.x7 a.x8 a.x9 a.x10 a.x11 a.x12 a.x13 a.x14 a.x15 a.x16 a.x17 a.x18 a.x19 a.x20 a.x21 a.x22 a.x23 a.x24 a.x25) rfl rfl rfl rfl <|
  step_nullary (Read.val_main_cst_47 (F := F)) rfl rfl <|
  step_unary 0 (Read.val_main_cst_47 (F := F)) (Read.val_main_v268 (F := F)) rfl rfl rfl <|
  step_binary 0 2 (Read.val_main_v268 (F := F)) (Read.val_main_v267 (F := F) a.x0 a.x3 a.x4 a.x5 a.x7 a.x8 a.x9 a.x10 a.x11 a.x12 a.x13 a.x14 a.x15 a.x16 a.x17 a.x18 a.x19 a.x20 a.x21 a.x22 a.x23 a.x24 a.x25) (Read.val_main_v269 (F := F) a.x0 a.x3 a.x4 a.x5 a.x7 a.x8 a.x9 a.x10 a.x11 a.x12 a.x13 a.x14 a.x15 a.x16 a.x17 a.x18 a.x19 a.x20 a.x21 a.x22 a.x23 a.x24 a.x25) rfl rfl rfl rfl <|
  step_binary 0 24 (Read.val_main_v269 (F := F) a.x0 a.x3 a.x4 a.x5 a.x7 a.x8 a.x9 a.x10 a.x11 a.x12 a.x13 a.x14 a.x15 a.x16 a.x17 a.x18 a.x19 a.x20 a.x21 a.x22 a.x23 a.x24 a.x25) (Read.val_main_v110 (F := F) a.x0 a.x3 a.x4 a.x5 a.x7 a.x8 a.x9 a.x10 a.x11 a.x12 a.x13 a.x14 a.x15 a.x16 a.x17 a.x18 a.x19 a.x20 a.x21 a.x22 a.x23 a.x24 a.x25) (Read.val_main_v270 (F := F) a.x0 a.x3 a.x4 a.x5 a.x7 a.x8 a.x9 a.x10 a.x11 a.x12 a.x13 a.x14 a.x15 a.x16 a.x17 a.x18 a.x19 a.x20 a.x21 a.x22 a.x23 a.x24 a.x25) rfl rfl rfl rfl <|
  done [21, 22, 23, 24, 25, 26, 27, 28, 13, 0, 31, 32, 33, 34, 35, 36, 37, 38, 39, 40, 41, 42, 43, 44, 45, 46, 47, 48, 49, 50, 51, 52, 53, 54, 55, 56, 57, 58, 59, 60] rfl

abbrev ops12 : List (HloOp τ sig (Elt F)) :=
  [ StableHlo.nary ![main_v270, main_v218, main_v248, main_arg7] main_v271 (fun u => concatenate S50000x194 1 [⟨S50000x64, u 0⟩, ⟨S50000x64, u 1⟩, ⟨S50000x64, u 2⟩, ⟨S50000x2, u 3⟩] concatenates_S50000x64_S50000x64_S50000x64_S50000x2_S50000x194_d1),
    StableHlo.binary main_v271 main_arg20 main_v272 ((fun l r => Host.dotGeneral dot_S50000x194_S194x64_S50000x64_1_0_0_1_n_n none l r) : (⟨S50000x194, .f32⟩ : BufTy).Contents (Elt F) → (⟨S194x64, .f32⟩ : BufTy).Contents (Elt F) → (⟨S50000x64, .f32⟩ : BufTy).Contents (Elt F)),
    StableHlo.unary main_arg21 main_v273 (broadcastInDim S1x64 ![1] bcast_S64_S1x64_1 : (⟨S64, .f32⟩ : BufTy).Contents (Elt F) → (⟨S1x64, .f32⟩ : BufTy).Contents (Elt F)),
    StableHlo.unary main_v273 main_v274 (broadcastInDim S50000x64 ![0, 1] bcast_S1x64_S50000x64_0_1 : (⟨S1x64, .f32⟩ : BufTy).Contents (Elt F) → (⟨S50000x64, .f32⟩ : BufTy).Contents (Elt F)),
    StableHlo.binary main_v272 main_v274 main_v275 (addf : (⟨S50000x64, .f32⟩ : BufTy).Contents (Elt F) → (⟨S50000x64, .f32⟩ : BufTy).Contents (Elt F) → (⟨S50000x64, .f32⟩ : BufTy).Contents (Elt F)),
    StableHlo.unary main_v275 main_v276 (Host.tanh : (⟨S50000x64, .f32⟩ : BufTy).Contents (Elt F) → (⟨S50000x64, .f32⟩ : BufTy).Contents (Elt F)),
    StableHlo.binary main_v259 main_v276 main_v277 (mulf : (⟨S50000x64, .f32⟩ : BufTy).Contents (Elt F) → (⟨S50000x64, .f32⟩ : BufTy).Contents (Elt F) → (⟨S50000x64, .f32⟩ : BufTy).Contents (Elt F)),
    StableHlo.binary main_v110 main_v277 main_v278 (addf : (⟨S50000x64, .f32⟩ : BufTy).Contents (Elt F) → (⟨S50000x64, .f32⟩ : BufTy).Contents (Elt F) → (⟨S50000x64, .f32⟩ : BufTy).Contents (Elt F)),
    TRef.unary (.of main_v9 : TRef sig ⟨S50000x1, .i1⟩) main_call1.v0 (broadcastInDim S50000x64 ![0, 1] bcast_S50000x1_S50000x64_0_1),
    TRef.ternary main_call1.v0 (.of main_v19 : TRef sig ⟨S50000x64, .f32⟩) (.of main_v278 : TRef sig ⟨S50000x64, .f32⟩) main_call1.v1 select,
    StableHlo.binary main_v279 main_arg26 main_v280 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg27 main_v281 (broadcastInDim S1x64 ![1] bcast_S64_S1x64_1 : (⟨S64, .f32⟩ : BufTy).Contents (Elt F) → (⟨S1x64, .f32⟩ : BufTy).Contents (Elt F)),
    StableHlo.unary main_v281 main_v282 (broadcastInDim S50000x64 ![0, 1] bcast_S1x64_S50000x64_0_1 : (⟨S1x64, .f32⟩ : BufTy).Contents (Elt F) → (⟨S50000x64, .f32⟩ : BufTy).Contents (Elt F)),
    StableHlo.binary main_v280 main_v282 main_v283 (addf : (⟨S50000x64, .f32⟩ : BufTy).Contents (Elt F) → (⟨S50000x64, .f32⟩ : BufTy).Contents (Elt F) → (⟨S50000x64, .f32⟩ : BufTy).Contents (Elt F)),
    StableHlo.nullary main_cst_48 (constant S_ .f32 0x00000000#32),
    StableHlo.unary main_cst_48 main_v284 (broadcastInDim S50000x64 ![] bcast_S_S50000x64 : (⟨S_, .f32⟩ : BufTy).Contents (Elt F) → (⟨S50000x64, .f32⟩ : BufTy).Contents (Elt F)),
    StableHlo.binary main_v283 main_v284 main_v285 (maximumf : (⟨S50000x64, .f32⟩ : BufTy).Contents (Elt F) → (⟨S50000x64, .f32⟩ : BufTy).Contents (Elt F) → (⟨S50000x64, .f32⟩ : BufTy).Contents (Elt F)),
    StableHlo.binary main_v285 main_arg28 main_v286 ((fun l r => Host.dotGeneral dot_S50000x64_S64x1_S50000x1_1_0_0_1_n_n none l r) : (⟨S50000x64, .f32⟩ : BufTy).Contents (Elt F) → (⟨S64x1, .f32⟩ : BufTy).Contents (Elt F) → (⟨S50000x1, .f32⟩ : BufTy).Contents (Elt F)),
    StableHlo.unary main_arg29 main_v287 (broadcastInDim S1x1 ![1] bcast_S1_S1x1_1 : (⟨S1, .f32⟩ : BufTy).Contents (Elt F) → (⟨S1x1, .f32⟩ : BufTy).Contents (Elt F)),
    StableHlo.unary main_v287 main_v288 (broadcastInDim S50000x1 ![0, 1] bcast_S1x1_S50000x1_0_1 : (⟨S1x1, .f32⟩ : BufTy).Contents (Elt F) → (⟨S50000x1, .f32⟩ : BufTy).Contents (Elt F)),
    StableHlo.binary main_v286 main_v288 main_v289 (addf : (⟨S50000x1, .f32⟩ : BufTy).Contents (Elt F) → (⟨S50000x1, .f32⟩ : BufTy).Contents (Elt F) → (⟨S50000x1, .f32⟩ : BufTy).Contents (Elt F)),
    StableHlo.unary main_arg6 main_v290 (broadcastInDim S800000x1 ![0] bcast_S800000_S800000x1_0 : (⟨S800000, .f32⟩ : BufTy).Contents (Elt F) → (⟨S800000x1, .f32⟩ : BufTy).Contents (Elt F)),
    StableHlo.nullary main_c_49 (constantI S_ 32 0#32),
    StableHlo.unary main_c_49 main_v291 (broadcastInDim S800000 ![] bcast_S_S800000 : (⟨S_, .i32⟩ : BufTy).Contents (Elt F) → (⟨S800000, .i32⟩ : BufTy).Contents (Elt F)),
    StableHlo.binary main_v3 main_v291 main_v292 (cmpi .slt : (⟨S800000, .i32⟩ : BufTy).Contents (Elt F) → (⟨S800000, .i32⟩ : BufTy).Contents (Elt F) → (⟨S800000, .i1⟩ : BufTy).Contents (Elt F)),
    StableHlo.nullary main_c_50 (constantI S_ 32 50000#32),
    StableHlo.unary main_c_50 main_v293 (broadcastInDim S800000 ![] bcast_S_S800000 : (⟨S_, .i32⟩ : BufTy).Contents (Elt F) → (⟨S800000, .i32⟩ : BufTy).Contents (Elt F)),
    StableHlo.binary main_v3 main_v293 main_v294 (addi : (⟨S800000, .i32⟩ : BufTy).Contents (Elt F) → (⟨S800000, .i32⟩ : BufTy).Contents (Elt F) → (⟨S800000, .i32⟩ : BufTy).Contents (Elt F)),
    StableHlo.ternary main_v292 main_v294 main_v3 main_v295 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v295 main_v296 (broadcastInDim S800000x1 ![0] bcast_S800000_S800000x1_0 : (⟨S800000, .i32⟩ : BufTy).Contents (Elt F) → (⟨S800000x1, .i32⟩ : BufTy).Contents (Elt F)),
    StableHlo.binary main_v289 main_v296 main_v297 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.binary main_v290 main_v297 main_v298 (mulf : (⟨S800000x1, .f32⟩ : BufTy).Contents (Elt F) → (⟨S800000x1, .f32⟩ : BufTy).Contents (Elt F) → (⟨S800000x1, .f32⟩ : BufTy).Contents (Elt F)),
    StableHlo.nullary main_cst_51 (constant S_ .f32 0x00000000#32),
    StableHlo.unary main_cst_51 main_v299 (broadcastInDim S50000x1 ![] bcast_S_S50000x1 : (⟨S_, .f32⟩ : BufTy).Contents (Elt F) → (⟨S50000x1, .f32⟩ : BufTy).Contents (Elt F)),
    StableHlo.unary main_v1 main_v300 (broadcastInDim S800000x1 ![0] bcast_S800000_S800000x1_0 : (⟨S800000, .i32⟩ : BufTy).Contents (Elt F) → (⟨S800000x1, .i32⟩ : BufTy).Contents (Elt F)),
    StableHlo.ternary main_v299 main_v300 main_v298 main_v301 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    StableHlo.binary main_v301 main_arg2 main_v302 (subf : (⟨S50000x1, .f32⟩ : BufTy).Contents (Elt F) → (⟨S50000x1, .f32⟩ : BufTy).Contents (Elt F) → (⟨S50000x1, .f32⟩ : BufTy).Contents (Elt F)),
    StableHlo.binary main_v302 main_v302 main_v303 (mulf : (⟨S50000x1, .f32⟩ : BufTy).Contents (Elt F) → (⟨S50000x1, .f32⟩ : BufTy).Contents (Elt F) → (⟨S50000x1, .f32⟩ : BufTy).Contents (Elt F)),
    StableHlo.nullary main_cst_52 (constant S_ .f32 0x00000000#32),
    StableHlo.binary main_v303 main_cst_52 main_v304 ((fun x v => Host.reduceAdd x v reducesTo_S50000x1_S_d0_1 h_S_) : (⟨S50000x1, .f32⟩ : BufTy).Contents (Elt F) → (⟨S_, .f32⟩ : BufTy).Contents (Elt F) → (⟨S_, .f32⟩ : BufTy).Contents (Elt F)) ]

theorem ops12_sub : (ops12 : List (HloOp τ sig (Elt F))).Forall fun op => op.bufs ⊆ tcRefs τ sig :=
  ⟨nary_bufs_sub .., binary_bufs_sub .., unary_bufs_sub .., unary_bufs_sub .., binary_bufs_sub .., unary_bufs_sub .., binary_bufs_sub .., binary_bufs_sub .., unary_bufs_sub .., ternary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., binary_bufs_sub .., binary_bufs_sub .., nullary_bufs_sub .., binary_bufs_sub ..⟩

theorem ops12_fresh : (ops12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 4000000 in
set_option maxRecDepth 4096 in
theorem sat12 (a : Args F) : ∀ V : Valuation τ sig (Elt F), Sat V (known12 a) → Sat (after ops12 V) (known13 a) :=
  step_nary (Read.val_main_v271 (F := F) a.x0 a.x3 a.x4 a.x5 a.x7 a.x8 a.x9 a.x10 a.x11 a.x12 a.x13 a.x14 a.x15 a.x16 a.x17 a.x18 a.x19 a.x20 a.x21 a.x22 a.x23 a.x24 a.x25) (fun V h => by
      have e0 := h.get 9 (b := main_v270) (v := (Read.val_main_v270 (F := F) a.x0 a.x3 a.x4 a.x5 a.x7 a.x8 a.x9 a.x10 a.x11 a.x12 a.x13 a.x14 a.x15 a.x16 a.x17 a.x18 a.x19 a.x20 a.x21 a.x22 a.x23 a.x24 a.x25)) rfl
      have e1 := h.get 6 (b := main_v218) (v := (Read.val_main_v218 (F := F) a.x0 a.x3 a.x4 a.x5 a.x7 a.x8 a.x9 a.x10 a.x11 a.x12 a.x13 a.x14 a.x15 a.x16 a.x17 a.x18 a.x19 a.x20 a.x21 a.x22 a.x23 a.x24 a.x25)) rfl
      have e2 := h.get 7 (b := main_v248) (v := (Read.val_main_v248 (F := F) a.x0 a.x3 a.x4 a.x5 a.x7 a.x8 a.x9 a.x10 a.x11 a.x12 a.x13 a.x14 a.x15 a.x16 a.x17 a.x18 a.x19 a.x20 a.x21 a.x22 a.x23 a.x24 a.x25)) rfl
      have e3 := h.get 17 (b := main_arg7) (v := a.x7) rfl
      unfold Read.val_main_v271
      rw [← e0, ← e1, ← e2, ← e3]
      rfl) rfl <|
  step_binary 0 31 (Read.val_main_v271 (F := F) a.x0 a.x3 a.x4 a.x5 a.x7 a.x8 a.x9 a.x10 a.x11 a.x12 a.x13 a.x14 a.x15 a.x16 a.x17 a.x18 a.x19 a.x20 a.x21 a.x22 a.x23 a.x24 a.x25) a.x20 (Read.val_main_v272 (F := F) a.x0 a.x3 a.x4 a.x5 a.x7 a.x8 a.x9 a.x10 a.x11 a.x12 a.x13 a.x14 a.x15 a.x16 a.x17 a.x18 a.x19 a.x20 a.x21 a.x22 a.x23 a.x24 a.x25) rfl rfl rfl rfl <|
  step_unary 33 a.x21 (Read.val_main_v273 (F := F) a.x21) rfl rfl rfl <|
  step_unary 0 (Read.val_main_v273 (F := F) a.x21) (Read.val_main_v274 (F := F) a.x21) rfl rfl rfl <|
  step_binary 2 0 (Read.val_main_v272 (F := F) a.x0 a.x3 a.x4 a.x5 a.x7 a.x8 a.x9 a.x10 a.x11 a.x12 a.x13 a.x14 a.x15 a.x16 a.x17 a.x18 a.x19 a.x20 a.x21 a.x22 a.x23 a.x24 a.x25) (Read.val_main_v274 (F := F) a.x21) (Read.val_main_v275 (F := F) a.x0 a.x3 a.x4 a.x5 a.x7 a.x8 a.x9 a.x10 a.x11 a.x12 a.x13 a.x14 a.x15 a.x16 a.x17 a.x18 a.x19 a.x20 a.x21 a.x22 a.x23 a.x24 a.x25) rfl rfl rfl rfl <|
  step_unary 0 (Read.val_main_v275 (F := F) a.x0 a.x3 a.x4 a.x5 a.x7 a.x8 a.x9 a.x10 a.x11 a.x12 a.x13 a.x14 a.x15 a.x16 a.x17 a.x18 a.x19 a.x20 a.x21 a.x22 a.x23 a.x24 a.x25) (Read.val_main_v276 (F := F) a.x0 a.x3 a.x4 a.x5 a.x7 a.x8 a.x9 a.x10 a.x11 a.x12 a.x13 a.x14 a.x15 a.x16 a.x17 a.x18 a.x19 a.x20 a.x21 a.x22 a.x23 a.x24 a.x25) rfl rfl rfl <|
  step_binary 14 0 (Read.val_main_v259 (F := F) a.x0 a.x3 a.x4 a.x5 a.x7 a.x8 a.x9 a.x10 a.x11 a.x12 a.x13 a.x14 a.x15 a.x16 a.x17 a.x18 a.x19 a.x20 a.x21 a.x22 a.x23 a.x24 a.x25) (Read.val_main_v276 (F := F) a.x0 a.x3 a.x4 a.x5 a.x7 a.x8 a.x9 a.x10 a.x11 a.x12 a.x13 a.x14 a.x15 a.x16 a.x17 a.x18 a.x19 a.x20 a.x21 a.x22 a.x23 a.x24 a.x25) (Read.val_main_v277 (F := F) a.x0 a.x3 a.x4 a.x5 a.x7 a.x8 a.x9 a.x10 a.x11 a.x12 a.x13 a.x14 a.x15 a.x16 a.x17 a.x18 a.x19 a.x20 a.x21 a.x22 a.x23 a.x24 a.x25) rfl rfl rfl rfl <|
  step_binary 11 0 (Read.val_main_v110 (F := F) a.x0 a.x3 a.x4 a.x5 a.x7 a.x8 a.x9 a.x10 a.x11 a.x12 a.x13 a.x14 a.x15 a.x16 a.x17 a.x18 a.x19 a.x20 a.x21 a.x22 a.x23 a.x24 a.x25) (Read.val_main_v277 (F := F) a.x0 a.x3 a.x4 a.x5 a.x7 a.x8 a.x9 a.x10 a.x11 a.x12 a.x13 a.x14 a.x15 a.x16 a.x17 a.x18 a.x19 a.x20 a.x21 a.x22 a.x23 a.x24 a.x25) (Read.val_main_v278 (F := F) a.x0 a.x3 a.x4 a.x5 a.x7 a.x8 a.x9 a.x10 a.x11 a.x12 a.x13 a.x14 a.x15 a.x16 a.x17 a.x18 a.x19 a.x20 a.x21 a.x22 a.x23 a.x24 a.x25) rfl rfl rfl rfl <|
  step_tunary 10 (Read.val_main_v9 (F := F) a.x3) (Read.val_main_call1_v0 (F := F) a.x3) rfl rfl rfl <|
  step_tternary 0 12 1 (Read.val_main_call1_v0 (F := F) a.x3) (Read.val_main_v19 (F := F) a.x0 a.x22 a.x23 a.x24 a.x25) (Read.val_main_v278 (F := F) a.x0 a.x3 a.x4 a.x5 a.x7 a.x8 a.x9 a.x10 a.x11 a.x12 a.x13 a.x14 a.x15 a.x16 a.x17 a.x18 a.x19 a.x20 a.x21 a.x22 a.x23 a.x24 a.x25) (Read.val_main_v279 (F := F) a.x0 a.x3 a.x4 a.x5 a.x7 a.x8 a.x9 a.x10 a.x11 a.x12 a.x13 a.x14 a.x15 a.x16 a.x17 a.x18 a.x19 a.x20 a.x21 a.x22 a.x23 a.x24 a.x25) rfl rfl rfl rfl rfl <|
  step_binary 0 46 (Read.val_main_v279 (F := F) a.x0 a.x3 a.x4 a.x5 a.x7 a.x8 a.x9 a.x10 a.x11 a.x12 a.x13 a.x14 a.x15 a.x16 a.x17 a.x18 a.x19 a.x20 a.x21 a.x22 a.x23 a.x24 a.x25) a.x26 (Read.val_main_v280 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26) rfl rfl rfl rfl <|
  step_unary 48 a.x27 (Read.val_main_v281 (F := F) a.x27) rfl rfl rfl <|
  step_unary 0 (Read.val_main_v281 (F := F) a.x27) (Read.val_main_v282 (F := F) a.x27) rfl rfl rfl <|
  step_binary 2 0 (Read.val_main_v280 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26) (Read.val_main_v282 (F := F) a.x27) (Read.val_main_v283 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27) rfl rfl rfl rfl <|
  step_nullary (Read.val_main_cst_48 (F := F)) rfl rfl <|
  step_unary 0 (Read.val_main_cst_48 (F := F)) (Read.val_main_v284 (F := F)) rfl rfl rfl <|
  step_binary 2 0 (Read.val_main_v283 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27) (Read.val_main_v284 (F := F)) (Read.val_main_v285 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27) rfl rfl rfl rfl <|
  step_binary 0 55 (Read.val_main_v285 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27) a.x28 (Read.val_main_v286 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28) rfl rfl rfl rfl <|
  step_unary 57 a.x29 (Read.val_main_v287 (F := F) a.x29) rfl rfl rfl <|
  step_unary 0 (Read.val_main_v287 (F := F) a.x29) (Read.val_main_v288 (F := F) a.x29) rfl rfl rfl <|
  step_binary 2 0 (Read.val_main_v286 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28) (Read.val_main_v288 (F := F) a.x29) (Read.val_main_v289 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_unary 37 a.x6 (Read.val_main_v290 (F := F) a.x6) rfl rfl rfl <|
  step_nullary (Read.val_main_c_49 (F := F)) rfl rfl <|
  step_unary 0 (Read.val_main_c_49 (F := F)) (Read.val_main_v291 (F := F)) rfl rfl rfl <|
  step_binary 25 0 (Read.val_main_v3 (F := F) a.x4) (Read.val_main_v291 (F := F)) (Read.val_main_v292 (F := F) a.x4) rfl rfl rfl rfl <|
  step_nullary (Read.val_main_c_50 (F := F)) rfl rfl <|
  step_unary 0 (Read.val_main_c_50 (F := F)) (Read.val_main_v293 (F := F)) rfl rfl rfl <|
  step_binary 28 0 (Read.val_main_v3 (F := F) a.x4) (Read.val_main_v293 (F := F)) (Read.val_main_v294 (F := F) a.x4) rfl rfl rfl rfl <|
  step_ternary 3 0 29 (Read.val_main_v292 (F := F) a.x4) (Read.val_main_v294 (F := F) a.x4) (Read.val_main_v3 (F := F) a.x4) (Read.val_main_v295 (F := F) a.x4) rfl rfl rfl rfl rfl <|
  step_unary 0 (Read.val_main_v295 (F := F) a.x4) (Read.val_main_v296 (F := F) a.x4) rfl rfl rfl <|
  step_binary 9 0 (Read.val_main_v289 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v296 (F := F) a.x4) (Read.val_main_v297 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_binary 9 0 (Read.val_main_v290 (F := F) a.x6) (Read.val_main_v297 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v298 (F := F) a.x0 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_nullary (Read.val_main_cst_51 (F := F)) rfl rfl <|
  step_unary 0 (Read.val_main_cst_51 (F := F)) (Read.val_main_v299 (F := F)) rfl rfl rfl <|
  step_unary 34 (Read.val_main_v1 (F := F) a.x4) (Read.val_main_v300 (F := F) a.x4) rfl rfl rfl <|
  step_ternary 1 0 3 (Read.val_main_v299 (F := F)) (Read.val_main_v300 (F := F) a.x4) (Read.val_main_v298 (F := F) a.x0 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v301 (F := F) a.x0 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl rfl <|
  step_binary 0 48 (Read.val_main_v301 (F := F) a.x0 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29) a.x2 (Read.val_main_v302 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_binary 0 0 (Read.val_main_v302 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v302 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v303 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_nullary (Read.val_main_cst_52 (F := F)) rfl rfl <|
  step_binary 1 0 (Read.val_main_v303 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29) (Read.val_main_cst_52 (F := F)) (Read.val_main_v304 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  done [45, 30, 19, 0, 50, 51, 52, 53, 54, 55, 56, 57, 58, 59, 60, 61, 62, 63, 64, 65, 66, 67, 68, 69, 70, 71, 72, 73, 74, 75, 76, 77, 78, 79] rfl

abbrev win5 : List (HloOp τ sig (Elt F)) := ops11 ++ ops12

set_option maxHeartbeats 4000000 in
set_option maxRecDepth 4096 in
theorem main_part5_eq (d : Dev nD) : main_part5 (F := F) d = seq win5 := rfl

theorem win5_sub : (win5 : List (HloOp τ sig (Elt F))).Forall fun op => op.bufs ⊆ tcRefs τ sig :=
  List.forall_append.2 ⟨ops11_sub, ops12_sub⟩

theorem win5_fresh : (win5 : List (HloOp τ sig (Elt F))).Forall fun op => op.fresh = ∅ :=
  List.forall_append.2 ⟨ops11_fresh, ops12_fresh⟩

theorem win5_sat (a : Args F) : ∀ V : Valuation τ sig (Elt F), Sat V (known11 a) → Sat (after win5 V) (known13 a) :=
  line_append (sat11 a) (sat12 a)

end Cert.ReferenceIdeal.Hand

end
-- ==== Proof.Ref.Ops6.lean ====
import proofs.«138431_j79370995631014_1_alg».proof.Proof.Ref.OpsLists
import proofs.«138431_j79370995631014_1_alg».proof.Proof.LibHostLine3

noncomputable section

namespace Cert.ReferenceIdeal.Hand

open Cert.ReferenceIdeal Cert.ReferenceIdeal.Gen Idealize.ShloMosaic Idealize.ShloMosaic.TcCoe Idealize.SL.Sem Idealize.ShloMosaic.StableHlo HostLine

variable {F : FTy → Type} [FloatOps F]

abbrev ops13 : List (HloOp τ sig (Elt F)) :=
  [ StableHlo.nullary main_cst_53 (constant S_ .f32 0x47435000#32),
    StableHlo.binary main_v304 main_cst_53 main_v305 (Host.divf : (⟨S_, .f32⟩ : BufTy).Contents (Elt F) → (⟨S_, .f32⟩ : BufTy).Contents (Elt F) → (⟨S_, .f32⟩ : BufTy).Contents (Elt F)),
    StableHlo.binary main_v279 main_arg26 main_v306 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg27 main_v307 (broadcastInDim S1x64 ![1] bcast_S64_S1x64_1 : (⟨S64, .f32⟩ : BufTy).Contents (Elt F) → (⟨S1x64, .f32⟩ : BufTy).Contents (Elt F)),
    StableHlo.unary main_v307 main_v308 (broadcastInDim S50000x64 ![0, 1] bcast_S1x64_S50000x64_0_1 : (⟨S1x64, .f32⟩ : BufTy).Contents (Elt F) → (⟨S50000x64, .f32⟩ : BufTy).Contents (Elt F)),
    StableHlo.binary main_v306 main_v308 main_v309 (addf : (⟨S50000x64, .f32⟩ : BufTy).Contents (Elt F) → (⟨S50000x64, .f32⟩ : BufTy).Contents (Elt F) → (⟨S50000x64, .f32⟩ : BufTy).Contents (Elt F)),
    StableHlo.nullary main_cst_54 (constant S_ .f32 0x00000000#32),
    StableHlo.unary main_cst_54 main_v310 (broadcastInDim S50000x64 ![] bcast_S_S50000x64 : (⟨S_, .f32⟩ : BufTy).Contents (Elt F) → (⟨S50000x64, .f32⟩ : BufTy).Contents (Elt F)),
    StableHlo.binary main_v309 main_v310 main_v311 (maximumf : (⟨S50000x64, .f32⟩ : BufTy).Contents (Elt F) → (⟨S50000x64, .f32⟩ : BufTy).Contents (Elt F) → (⟨S50000x64, .f32⟩ : BufTy).Contents (Elt F)),
    StableHlo.binary main_v311 main_arg28 main_v312 ((fun l r => Host.dotGeneral dot_S50000x64_S64x1_S50000x1_1_0_0_1_n_n none l r) : (⟨S50000x64, .f32⟩ : BufTy).Contents (Elt F) → (⟨S64x1, .f32⟩ : BufTy).Contents (Elt F) → (⟨S50000x1, .f32⟩ : BufTy).Contents (Elt F)),
    StableHlo.unary main_arg29 main_v313 (broadcastInDim S1x1 ![1] bcast_S1_S1x1_1 : (⟨S1, .f32⟩ : BufTy).Contents (Elt F) → (⟨S1x1, .f32⟩ : BufTy).Contents (Elt F)),
    StableHlo.unary main_v313 main_v314 (broadcastInDim S50000x1 ![0, 1] bcast_S1x1_S50000x1_0_1 : (⟨S1x1, .f32⟩ : BufTy).Contents (Elt F) → (⟨S50000x1, .f32⟩ : BufTy).Contents (Elt F)),
    StableHlo.binary main_v312 main_v314 main_v315 (addf : (⟨S50000x1, .f32⟩ : BufTy).Contents (Elt F) → (⟨S50000x1, .f32⟩ : BufTy).Contents (Elt F) → (⟨S50000x1, .f32⟩ : BufTy).Contents (Elt F)),
    StableHlo.binary main_v315 main_arg22 main_v316 ((fun l r => Host.dotGeneral dot_S50000x1_S1x64_S50000x64_1_0_0_1_n_n none l r) : (⟨S50000x1, .f32⟩ : BufTy).Contents (Elt F) → (⟨S1x64, .f32⟩ : BufTy).Contents (Elt F) → (⟨S50000x64, .f32⟩ : BufTy).Contents (Elt F)),
    StableHlo.unary main_arg23 main_v317 (broadcastInDim S1x64 ![1] bcast_S64_S1x64_1 : (⟨S64, .f32⟩ : BufTy).Contents (Elt F) → (⟨S1x64, .f32⟩ : BufTy).Contents (Elt F)),
    StableHlo.unary main_v317 main_v318 (broadcastInDim S50000x64 ![0, 1] bcast_S1x64_S50000x64_0_1 : (⟨S1x64, .f32⟩ : BufTy).Contents (Elt F) → (⟨S50000x64, .f32⟩ : BufTy).Contents (Elt F)),
    StableHlo.binary main_v316 main_v318 main_v319 (addf : (⟨S50000x64, .f32⟩ : BufTy).Contents (Elt F) → (⟨S50000x64, .f32⟩ : BufTy).Contents (Elt F) → (⟨S50000x64, .f32⟩ : BufTy).Contents (Elt F)),
    StableHlo.nullary main_cst_55 (constant S_ .f32 0x00000000#32),
    StableHlo.unary main_cst_55 main_v320 (broadcastInDim S50000x64 ![] bcast_S_S50000x64 : (⟨S_, .f32⟩ : BufTy).Contents (Elt F) → (⟨S50000x64, .f32⟩ : BufTy).Contents (Elt F)),
    StableHlo.binary main_v319 main_v320 main_v321 (maximumf : (⟨S50000x64, .f32⟩ : BufTy).Contents (Elt F) → (⟨S50000x64, .f32⟩ : BufTy).Contents (Elt F) → (⟨S50000x64, .f32⟩ : BufTy).Contents (Elt F)),
    StableHlo.binary main_v321 main_arg24 main_v322 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg25 main_v323 (broadcastInDim S1x64 ![1] bcast_S64_S1x64_1 : (⟨S64, .f32⟩ : BufTy).Contents (Elt F) → (⟨S1x64, .f32⟩ : BufTy).Contents (Elt F)),
    StableHlo.unary main_v323 main_v324 (broadcastInDim S50000x64 ![0, 1] bcast_S1x64_S50000x64_0_1 : (⟨S1x64, .f32⟩ : BufTy).Contents (Elt F) → (⟨S50000x64, .f32⟩ : BufTy).Contents (Elt F)),
    StableHlo.binary main_v322 main_v324 main_v325 (addf : (⟨S50000x64, .f32⟩ : BufTy).Contents (Elt F) → (⟨S50000x64, .f32⟩ : BufTy).Contents (Elt F) → (⟨S50000x64, .f32⟩ : BufTy).Contents (Elt F)),
    StableHlo.binary main_v325 main_v279 main_v326 (subf : (⟨S50000x64, .f32⟩ : BufTy).Contents (Elt F) → (⟨S50000x64, .f32⟩ : BufTy).Contents (Elt F) → (⟨S50000x64, .f32⟩ : BufTy).Contents (Elt F)),
    StableHlo.binary main_v326 main_v326 main_v327 (mulf : (⟨S50000x64, .f32⟩ : BufTy).Contents (Elt F) → (⟨S50000x64, .f32⟩ : BufTy).Contents (Elt F) → (⟨S50000x64, .f32⟩ : BufTy).Contents (Elt F)),
    StableHlo.nullary main_cst_56 (constant S_ .f32 0x00000000#32),
    StableHlo.binary main_v327 main_cst_56 main_v328 ((fun x v => Host.reduceAdd x v reducesTo_S50000x64_S_d0_1 h_S_) : (⟨S50000x64, .f32⟩ : BufTy).Contents (Elt F) → (⟨S_, .f32⟩ : BufTy).Contents (Elt F) → (⟨S_, .f32⟩ : BufTy).Contents (Elt F)),
    StableHlo.nullary main_cst_57 (constant S_ .f32 0x4A435000#32),
    StableHlo.binary main_v328 main_cst_57 main_v329 (Host.divf : (⟨S_, .f32⟩ : BufTy).Contents (Elt F) → (⟨S_, .f32⟩ : BufTy).Contents (Elt F) → (⟨S_, .f32⟩ : BufTy).Contents (Elt F)),
    StableHlo.binary main_v289 main_arg22 main_v330 ((fun l r => Host.dotGeneral dot_S50000x1_S1x64_S50000x64_1_0_0_1_n_n none l r) : (⟨S50000x1, .f32⟩ : BufTy).Contents (Elt F) → (⟨S1x64, .f32⟩ : BufTy).Contents (Elt F) → (⟨S50000x64, .f32⟩ : BufTy).Contents (Elt F)),
    StableHlo.unary main_arg23 main_v331 (broadcastInDim S1x64 ![1] bcast_S64_S1x64_1 : (⟨S64, .f32⟩ : BufTy).Contents (Elt F) → (⟨S1x64, .f32⟩ : BufTy).Contents (Elt F)),
    StableHlo.unary main_v331 main_v332 (broadcastInDim S50000x64 ![0, 1] bcast_S1x64_S50000x64_0_1 : (⟨S1x64, .f32⟩ : BufTy).Contents (Elt F) → (⟨S50000x64, .f32⟩ : BufTy).Contents (Elt F)),
    StableHlo.binary main_v330 main_v332 main_v333 (addf : (⟨S50000x64, .f32⟩ : BufTy).Contents (Elt F) → (⟨S50000x64, .f32⟩ : BufTy).Contents (Elt F) → (⟨S50000x64, .f32⟩ : BufTy).Contents (Elt F)),
    StableHlo.nullary main_cst_58 (constant S_ .f32 0x00000000#32),
    StableHlo.unary main_cst_58 main_v334 (broadcastInDim S50000x64 ![] bcast_S_S50000x64 : (⟨S_, .f32⟩ : BufTy).Contents (Elt F) → (⟨S50000x64, .f32⟩ : BufTy).Contents (Elt F)),
    StableHlo.binary main_v333 main_v334 main_v335 (maximumf : (⟨S50000x64, .f32⟩ : BufTy).Contents (Elt F) → (⟨S50000x64, .f32⟩ : BufTy).Contents (Elt F) → (⟨S50000x64, .f32⟩ : BufTy).Contents (Elt F)),
    StableHlo.binary main_v335 main_arg24 main_v336 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg25 main_v337 (broadcastInDim S1x64 ![1] bcast_S64_S1x64_1 : (⟨S64, .f32⟩ : BufTy).Contents (Elt F) → (⟨S1x64, .f32⟩ : BufTy).Contents (Elt F)),
    StableHlo.unary main_v337 main_v338 (broadcastInDim S50000x64 ![0, 1] bcast_S1x64_S50000x64_0_1 : (⟨S1x64, .f32⟩ : BufTy).Contents (Elt F) → (⟨S50000x64, .f32⟩ : BufTy).Contents (Elt F)),
    StableHlo.binary main_v336 main_v338 main_v339 (addf : (⟨S50000x64, .f32⟩ : BufTy).Contents (Elt F) → (⟨S50000x64, .f32⟩ : BufTy).Contents (Elt F) → (⟨S50000x64, .f32⟩ : BufTy).Contents (Elt F)),
    StableHlo.binary main_v339 main_arg26 main_v340 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg27 main_v341 (broadcastInDim S1x64 ![1] bcast_S64_S1x64_1 : (⟨S64, .f32⟩ : BufTy).Contents (Elt F) → (⟨S1x64, .f32⟩ : BufTy).Contents (Elt F)),
    StableHlo.unary main_v341 main_v342 (broadcastInDim S50000x64 ![0, 1] bcast_S1x64_S50000x64_0_1 : (⟨S1x64, .f32⟩ : BufTy).Contents (Elt F) → (⟨S50000x64, .f32⟩ : BufTy).Contents (Elt F)),
    StableHlo.binary main_v340 main_v342 main_v343 (addf : (⟨S50000x64, .f32⟩ : BufTy).Contents (Elt F) → (⟨S50000x64, .f32⟩ : BufTy).Contents (Elt F) → (⟨S50000x64, .f32⟩ : BufTy).Contents (Elt F)),
    StableHlo.nullary main_cst_59 (constant S_ .f32 0x00000000#32),
    StableHlo.unary main_cst_59 main_v344 (broadcastInDim S50000x64 ![] bcast_S_S50000x64 : (⟨S_, .f32⟩ : BufTy).Contents (Elt F) → (⟨S50000x64, .f32⟩ : BufTy).Contents (Elt F)),
    StableHlo.binary main_v343 main_v344 main_v345 (maximumf : (⟨S50000x64, .f32⟩ : BufTy).Contents (Elt F) → (⟨S50000x64, .f32⟩ : BufTy).Contents (Elt F) → (⟨S50000x64, .f32⟩ : BufTy).Contents (Elt F)),
    StableHlo.binary main_v345 main_arg28 main_v346 ((fun l r => Host.dotGeneral dot_S50000x64_S64x1_S50000x1_1_0_0_1_n_n none l r) : (⟨S50000x64, .f32⟩ : BufTy).Contents (Elt F) → (⟨S64x1, .f32⟩ : BufTy).Contents (Elt F) → (⟨S50000x1, .f32⟩ : BufTy).Contents (Elt F)),
    StableHlo.unary main_arg29 main_v347 (broadcastInDim S1x1 ![1] bcast_S1_S1x1_1 : (⟨S1, .f32⟩ : BufTy).Contents (Elt F) → (⟨S1x1, .f32⟩ : BufTy).Contents (Elt F)),
    StableHlo.unary main_v347 main_v348 (broadcastInDim S50000x1 ![0, 1] bcast_S1x1_S50000x1_0_1 : (⟨S1x1, .f32⟩ : BufTy).Contents (Elt F) → (⟨S50000x1, .f32⟩ : BufTy).Contents (Elt F)),
    StableHlo.binary main_v346 main_v348 main_v349 (addf : (⟨S50000x1, .f32⟩ : BufTy).Contents (Elt F) → (⟨S50000x1, .f32⟩ : BufTy).Contents (Elt F) → (⟨S50000x1, .f32⟩ : BufTy).Contents (Elt F)),
    StableHlo.binary main_v349 main_v289 main_v350 (subf : (⟨S50000x1, .f32⟩ : BufTy).Contents (Elt F) → (⟨S50000x1, .f32⟩ : BufTy).Contents (Elt F) → (⟨S50000x1, .f32⟩ : BufTy).Contents (Elt F)),
    StableHlo.binary main_v350 main_v350 main_v351 (mulf : (⟨S50000x1, .f32⟩ : BufTy).Contents (Elt F) → (⟨S50000x1, .f32⟩ : BufTy).Contents (Elt F) → (⟨S50000x1, .f32⟩ : BufTy).Contents (Elt F)),
    StableHlo.nullary main_cst_60 (constant S_ .f32 0x00000000#32),
    StableHlo.binary main_v351 main_cst_60 main_v352 ((fun x v => Host.reduceAdd x v reducesTo_S50000x1_S_d0_1 h_S_) : (⟨S50000x1, .f32⟩ : BufTy).Contents (Elt F) → (⟨S_, .f32⟩ : BufTy).Contents (Elt F) → (⟨S_, .f32⟩ : BufTy).Contents (Elt F)),
    StableHlo.nullary main_cst_61 (constant S_ .f32 0x47435000#32),
    StableHlo.binary main_v352 main_cst_61 main_v353 (Host.divf : (⟨S_, .f32⟩ : BufTy).Contents (Elt F) → (⟨S_, .f32⟩ : BufTy).Contents (Elt F) → (⟨S_, .f32⟩ : BufTy).Contents (Elt F)),
    StableHlo.nullary main_cst_62 (constant S_ .f32 0x3F800000#32),
    StableHlo.binary main_v305 main_cst_62 main_v354 (mulf : (⟨S_, .f32⟩ : BufTy).Contents (Elt F) → (⟨S_, .f32⟩ : BufTy).Contents (Elt F) → (⟨S_, .f32⟩ : BufTy).Contents (Elt F)) ]

theorem ops13_sub : (ops13 : List (HloOp τ sig (Elt F))).Forall fun op => op.bufs ⊆ tcRefs τ sig :=
  ⟨nullary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., binary_bufs_sub .., nullary_bufs_sub .., binary_bufs_sub .., nullary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., binary_bufs_sub .., nullary_bufs_sub .., binary_bufs_sub .., nullary_bufs_sub .., binary_bufs_sub .., nullary_bufs_sub .., binary_bufs_sub ..⟩

theorem ops13_fresh : (ops13 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 4000000 in
set_option maxRecDepth 4096 in
theorem sat13 (a : Args F) : ∀ V : Valuation τ sig (Elt F), Sat V (known13 a) → Sat (after ops13 V) (known14 a) :=
  step_nullary (Read.val_main_cst_53 (F := F)) rfl rfl <|
  step_binary 4 0 (Read.val_main_v304 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29) (Read.val_main_cst_53 (F := F)) (Read.val_main_v305 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_binary 3 32 (Read.val_main_v279 (F := F) a.x0 a.x3 a.x4 a.x5 a.x7 a.x8 a.x9 a.x10 a.x11 a.x12 a.x13 a.x14 a.x15 a.x16 a.x17 a.x18 a.x19 a.x20 a.x21 a.x22 a.x23 a.x24 a.x25) a.x26 (Read.val_main_v306 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26) rfl rfl rfl rfl <|
  step_unary 34 a.x27 (Read.val_main_v307 (F := F) a.x27) rfl rfl rfl <|
  step_unary 0 (Read.val_main_v307 (F := F) a.x27) (Read.val_main_v308 (F := F) a.x27) rfl rfl rfl <|
  step_binary 2 0 (Read.val_main_v306 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26) (Read.val_main_v308 (F := F) a.x27) (Read.val_main_v309 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27) rfl rfl rfl rfl <|
  step_nullary (Read.val_main_cst_54 (F := F)) rfl rfl <|
  step_unary 0 (Read.val_main_cst_54 (F := F)) (Read.val_main_v310 (F := F)) rfl rfl rfl <|
  step_binary 2 0 (Read.val_main_v309 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27) (Read.val_main_v310 (F := F)) (Read.val_main_v311 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27) rfl rfl rfl rfl <|
  step_binary 0 41 (Read.val_main_v311 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27) a.x28 (Read.val_main_v312 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28) rfl rfl rfl rfl <|
  step_unary 43 a.x29 (Read.val_main_v313 (F := F) a.x29) rfl rfl rfl <|
  step_unary 0 (Read.val_main_v313 (F := F) a.x29) (Read.val_main_v314 (F := F) a.x29) rfl rfl rfl <|
  step_binary 2 0 (Read.val_main_v312 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28) (Read.val_main_v314 (F := F) a.x29) (Read.val_main_v315 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_binary 0 39 (Read.val_main_v315 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) a.x22 (Read.val_main_v316 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_unary 41 a.x23 (Read.val_main_v317 (F := F) a.x23) rfl rfl rfl <|
  step_unary 0 (Read.val_main_v317 (F := F) a.x23) (Read.val_main_v318 (F := F) a.x23) rfl rfl rfl <|
  step_binary 2 0 (Read.val_main_v316 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v318 (F := F) a.x23) (Read.val_main_v319 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_nullary (Read.val_main_cst_55 (F := F)) rfl rfl <|
  step_unary 0 (Read.val_main_cst_55 (F := F)) (Read.val_main_v320 (F := F)) rfl rfl rfl <|
  step_binary 2 0 (Read.val_main_v319 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v320 (F := F)) (Read.val_main_v321 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_binary 0 48 (Read.val_main_v321 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) a.x24 (Read.val_main_v322 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_unary 50 a.x25 (Read.val_main_v323 (F := F) a.x25) rfl rfl rfl <|
  step_unary 0 (Read.val_main_v323 (F := F) a.x25) (Read.val_main_v324 (F := F) a.x25) rfl rfl rfl <|
  step_binary 2 0 (Read.val_main_v322 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v324 (F := F) a.x25) (Read.val_main_v325 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_binary 0 25 (Read.val_main_v325 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v279 (F := F) a.x0 a.x3 a.x4 a.x5 a.x7 a.x8 a.x9 a.x10 a.x11 a.x12 a.x13 a.x14 a.x15 a.x16 a.x17 a.x18 a.x19 a.x20 a.x21 a.x22 a.x23 a.x24 a.x25) (Read.val_main_v326 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_binary 0 0 (Read.val_main_v326 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v326 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v327 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_nullary (Read.val_main_cst_56 (F := F)) rfl rfl <|
  step_binary 1 0 (Read.val_main_v327 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_cst_56 (F := F)) (Read.val_main_v328 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_nullary (Read.val_main_cst_57 (F := F)) rfl rfl <|
  step_binary 1 0 (Read.val_main_v328 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_cst_57 (F := F)) (Read.val_main_v329 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_binary 32 56 (Read.val_main_v289 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) a.x22 (Read.val_main_v330 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_unary 58 a.x23 (Read.val_main_v331 (F := F) a.x23) rfl rfl rfl <|
  step_unary 0 (Read.val_main_v331 (F := F) a.x23) (Read.val_main_v332 (F := F) a.x23) rfl rfl rfl <|
  step_binary 2 0 (Read.val_main_v330 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v332 (F := F) a.x23) (Read.val_main_v333 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_nullary (Read.val_main_cst_58 (F := F)) rfl rfl <|
  step_unary 0 (Read.val_main_cst_58 (F := F)) (Read.val_main_v334 (F := F)) rfl rfl rfl <|
  step_binary 2 0 (Read.val_main_v333 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v334 (F := F)) (Read.val_main_v335 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_binary 0 65 (Read.val_main_v335 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) a.x24 (Read.val_main_v336 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_unary 67 a.x25 (Read.val_main_v337 (F := F) a.x25) rfl rfl rfl <|
  step_unary 0 (Read.val_main_v337 (F := F) a.x25) (Read.val_main_v338 (F := F) a.x25) rfl rfl rfl <|
  step_binary 2 0 (Read.val_main_v336 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v338 (F := F) a.x25) (Read.val_main_v339 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_binary 0 71 (Read.val_main_v339 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) a.x26 (Read.val_main_v340 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_unary 73 a.x27 (Read.val_main_v341 (F := F) a.x27) rfl rfl rfl <|
  step_unary 0 (Read.val_main_v341 (F := F) a.x27) (Read.val_main_v342 (F := F) a.x27) rfl rfl rfl <|
  step_binary 2 0 (Read.val_main_v340 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v342 (F := F) a.x27) (Read.val_main_v343 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_nullary (Read.val_main_cst_59 (F := F)) rfl rfl <|
  step_unary 0 (Read.val_main_cst_59 (F := F)) (Read.val_main_v344 (F := F)) rfl rfl rfl <|
  step_binary 2 0 (Read.val_main_v343 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v344 (F := F)) (Read.val_main_v345 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_binary 0 80 (Read.val_main_v345 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) a.x28 (Read.val_main_v346 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_unary 82 a.x29 (Read.val_main_v347 (F := F) a.x29) rfl rfl rfl <|
  step_unary 0 (Read.val_main_v347 (F := F) a.x29) (Read.val_main_v348 (F := F) a.x29) rfl rfl rfl <|
  step_binary 2 0 (Read.val_main_v346 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v348 (F := F) a.x29) (Read.val_main_v349 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_binary 0 54 (Read.val_main_v349 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v289 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v350 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_binary 0 0 (Read.val_main_v350 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v350 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v351 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_nullary (Read.val_main_cst_60 (F := F)) rfl rfl <|
  step_binary 1 0 (Read.val_main_v351 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_cst_60 (F := F)) (Read.val_main_v352 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_nullary (Read.val_main_cst_61 (F := F)) rfl rfl <|
  step_binary 1 0 (Read.val_main_v352 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_cst_61 (F := F)) (Read.val_main_v353 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_nullary (Read.val_main_cst_62 (F := F)) rfl rfl <|
  step_binary 57 0 (Read.val_main_v305 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29) (Read.val_main_cst_62 (F := F)) (Read.val_main_v354 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  done [60, 62, 30, 2, 0, 64, 65, 66, 67, 68, 69, 70, 71, 72, 73, 74, 75, 76, 77, 78, 79, 80, 81, 82, 83, 84, 85, 86, 87, 88, 89, 90, 91, 92, 93] rfl

abbrev win6 : List (HloOp τ sig (Elt F)) := ops13

set_option maxHeartbeats 4000000 in
set_option maxRecDepth 4096 in
theorem main_part6_eq (d : Dev nD) : main_part6 (F := F) d = seq win6 := rfl

theorem win6_sub : (win6 : List (HloOp τ sig (Elt F))).Forall fun op => op.bufs ⊆ tcRefs τ sig :=
  ops13_sub

theorem win6_fresh : (win6 : List (HloOp τ sig (Elt F))).Forall fun op => op.fresh = ∅ :=
  ops13_fresh

theorem win6_sat (a : Args F) : ∀ V : Valuation τ sig (Elt F), Sat V (known13 a) → Sat (after win6 V) (known14 a) :=
  sat13 a

end Cert.ReferenceIdeal.Hand

end
-- ==== Proof.Ref.Ops7.lean ====
import proofs.«138431_j79370995631014_1_alg».proof.Proof.Ref.OpsLists
import proofs.«138431_j79370995631014_1_alg».proof.Proof.LibHostLine3

noncomputable section

namespace Cert.ReferenceIdeal.Hand

open Cert.ReferenceIdeal Cert.ReferenceIdeal.Gen Idealize.ShloMosaic Idealize.ShloMosaic.TcCoe Idealize.SL.Sem Idealize.ShloMosaic.StableHlo HostLine

variable {F : FTy → Type} [FloatOps F]

abbrev ops14 : List (HloOp τ sig (Elt F)) :=
  [ StableHlo.binary main_v188 main_v354 main_v355 (addf : (⟨S_, .f32⟩ : BufTy).Contents (Elt F) → (⟨S_, .f32⟩ : BufTy).Contents (Elt F) → (⟨S_, .f32⟩ : BufTy).Contents (Elt F)),
    StableHlo.binary main_v355 main_v329 main_v356 (addf : (⟨S_, .f32⟩ : BufTy).Contents (Elt F) → (⟨S_, .f32⟩ : BufTy).Contents (Elt F) → (⟨S_, .f32⟩ : BufTy).Contents (Elt F)),
    StableHlo.binary main_v356 main_v353 main_v357 (addf : (⟨S_, .f32⟩ : BufTy).Contents (Elt F) → (⟨S_, .f32⟩ : BufTy).Contents (Elt F) → (⟨S_, .f32⟩ : BufTy).Contents (Elt F)) ]

theorem ops14_sub : (ops14 : List (HloOp τ sig (Elt F))).Forall fun op => op.bufs ⊆ tcRefs τ sig :=
  ⟨binary_bufs_sub .., binary_bufs_sub .., binary_bufs_sub ..⟩

theorem ops14_fresh : (ops14 : List (HloOp τ sig (Elt F))).Forall fun op => op.fresh = ∅ :=
  ⟨rfl, rfl, rfl⟩

set_option maxHeartbeats 4000000 in
set_option maxRecDepth 4096 in
theorem sat14 (a : Args F) : ∀ V : Valuation τ sig (Elt F), Sat V (known14 a) → Sat (after ops14 V) (known15 a) :=
  step_binary 0 4 (Read.val_main_v188 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v354 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v355 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_binary 0 3 (Read.val_main_v355 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v329 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v356 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  step_binary 0 5 (Read.val_main_v356 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v353 (F := F) a.x0 a.x3 a.x4 a.x5 a.x7 a.x8 a.x9 a.x10 a.x11 a.x12 a.x13 a.x14 a.x15 a.x16 a.x17 a.x18 a.x19 a.x20 a.x21 a.x22 a.x23 a.x24 a.x25 a.x26 a.x27 a.x28 a.x29) (Read.val_main_v357 (F := F) a.x0 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 a.x28 a.x29) rfl rfl rfl rfl <|
  done [4, 0, 8, 9, 10, 11, 12, 13, 14, 15, 16, 17, 18, 19, 20, 21, 22, 23, 24, 25, 26, 27, 28, 29, 30, 31, 32, 33, 34, 35, 36, 37] rfl

abbrev win7 : List (HloOp τ sig (Elt F)) := ops14

set_option maxHeartbeats 4000000 in
set_option maxRecDepth 4096 in
theorem main_part7_eq (d : Dev nD) : main_part7 (F := F) d = seq win7 := rfl

theorem win7_sub : (win7 : List (HloOp τ sig (Elt F))).Forall fun op => op.bufs ⊆ tcRefs τ sig :=
  ops14_sub

theorem win7_fresh : (win7 : List (HloOp τ sig (Elt F))).Forall fun op => op.fresh = ∅ :=
  ops14_fresh

theorem win7_sat (a : Args F) : ∀ V : Valuation τ sig (Elt F), Sat V (known14 a) → Sat (after win7 V) (known15 a) :=
  sat14 a

end Cert.ReferenceIdeal.Hand

end
-- ==== Proof.Ref.Run.lean ====
import proofs.«138431_j79370995631014_1_alg».proof.Proof.Ref.Ops0
import proofs.«138431_j79370995631014_1_alg».proof.Proof.Ref.Ops1
import proofs.«138431_j79370995631014_1_alg».proof.Proof.Ref.Ops2
import proofs.«138431_j79370995631014_1_alg».proof.Proof.Ref.Ops3
import proofs.«138431_j79370995631014_1_alg».proof.Proof.Ref.Ops4
import proofs.«138431_j79370995631014_1_alg».proof.Proof.Ref.Ops5
import proofs.«138431_j79370995631014_1_alg».proof.Proof.Ref.Ops6
import proofs.«138431_j79370995631014_1_alg».proof.Proof.Ref.Ops7

noncomputable section

namespace Cert.ReferenceIdeal.Hand

open Cert.ReferenceIdeal Cert.ReferenceIdeal.Gen Idealize.ShloMosaic Idealize.ShloMosaic.TcCoe Idealize.SL.Sem Idealize.ShloMosaic.StableHlo HostLine

variable {F : FTy → Type} [FloatOps F]

abbrev ops : List (HloOp τ sig (Elt F)) := win0 ++ (win1 ++ (win2 ++ (win3 ++ (win4 ++ (win5 ++ (win6 ++ (win7)))))))

theorem main_eq (d : Dev nD) : main (F := F) d = seq ops := by
  simp only [main, main_part0_eq, main_part1_eq, main_part2_eq, main_part3_eq, main_part4_eq, main_part5_eq, main_part6_eq, main_part7_eq, ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.2 ⟨win0_sub, List.forall_append.2 ⟨win1_sub, List.forall_append.2 ⟨win2_sub, List.forall_append.2 ⟨win3_sub, List.forall_append.2 ⟨win4_sub, List.forall_append.2 ⟨win5_sub, List.forall_append.2 ⟨win6_sub, win7_sub⟩⟩⟩⟩⟩⟩⟩

theorem ops_fresh : ∀ op ∈ (ops : List (HloOp τ sig (Elt F))), op.fresh = ∅ :=
  List.forall_iff_forall_mem.1
    (List.forall_append.2 ⟨win0_fresh, List.forall_append.2 ⟨win1_fresh, List.forall_append.2 ⟨win2_fresh, List.forall_append.2 ⟨win3_fresh, List.forall_append.2 ⟨win4_fresh, List.forall_append.2 ⟨win5_fresh, List.forall_append.2 ⟨win6_fresh, win7_fresh⟩⟩⟩⟩⟩⟩⟩)

theorem ops_sat (a : Args F) : ∀ V : Valuation τ sig (Elt F), Sat V (known0 a) → Sat (after ops V) (known15 a) :=
  line_append (win0_sat a) (line_append (win1_sat a) (line_append (win2_sat a) (line_append (win3_sat a) (line_append (win4_sat a) (line_append (win5_sat a) (line_append (win6_sat a) (win7_sat a)))))))

abbrev launchArgs (m : (ℓ : Loc nD τ sig) → Buf (Elt F) ℓ) (c : Dev nD) : Args F where
  x0 := m ((c.tc : Thread nD τ).loc main_arg0)
  x1 := m ((c.tc : Thread nD τ).loc main_arg1)
  x2 := m ((c.tc : Thread nD τ).loc main_arg2)
  x3 := m ((c.tc : Thread nD τ).loc main_arg3)
  x4 := m ((c.tc : Thread nD τ).loc main_arg4)
  x5 := m ((c.tc : Thread nD τ).loc main_arg5)
  x6 := m ((c.tc : Thread nD τ).loc main_arg6)
  x7 := m ((c.tc : Thread nD τ).loc main_arg7)
  x8 := m ((c.tc : Thread nD τ).loc main_arg8)
  x9 := m ((c.tc : Thread nD τ).loc main_arg9)
  x10 := m ((c.tc : Thread nD τ).loc main_arg10)
  x11 := m ((c.tc : Thread nD τ).loc main_arg11)
  x12 := m ((c.tc : Thread nD τ).loc main_arg12)
  x13 := m ((c.tc : Thread nD τ).loc main_arg13)
  x14 := m ((c.tc : Thread nD τ).loc main_arg14)
  x15 := m ((c.tc : Thread nD τ).loc main_arg15)
  x16 := m ((c.tc : Thread nD τ).loc main_arg16)
  x17 := m ((c.tc : Thread nD τ).loc main_arg17)
  x18 := m ((c.tc : Thread nD τ).loc main_arg18)
  x19 := m ((c.tc : Thread nD τ).loc main_arg19)
  x20 := m ((c.tc : Thread nD τ).loc main_arg20)
  x21 := m ((c.tc : Thread nD τ).loc main_arg21)
  x22 := m ((c.tc : Thread nD τ).loc main_arg22)
  x23 := m ((c.tc : Thread nD τ).loc main_arg23)
  x24 := m ((c.tc : Thread nD τ).loc main_arg24)
  x25 := m ((c.tc : Thread nD τ).loc main_arg25)
  x26 := m ((c.tc : Thread nD τ).loc main_arg26)
  x27 := m ((c.tc : Thread nD τ).loc main_arg27)
  x28 := m ((c.tc : Thread nD τ).loc main_arg28)
  x29 := m ((c.tc : Thread nD τ).loc main_arg29)

theorem sat_launch (m : (ℓ : Loc nD τ sig) → Buf (Elt F) ℓ) (c : Dev nD) :
    Sat (launchContents m c) (known0 (launchArgs m c)) :=
  Sat.cons rfl <|
  Sat.cons rfl <|
  Sat.cons rfl <|
  Sat.cons rfl <|
  Sat.cons rfl <|
  Sat.cons rfl <|
  Sat.cons rfl <|
  Sat.cons rfl <|
  Sat.cons rfl <|
  Sat.cons rfl <|
  Sat.cons rfl <|
  Sat.cons rfl <|
  Sat.cons rfl <|
  Sat.cons rfl <|
  Sat.cons rfl <|
  Sat.cons rfl <|
  Sat.cons rfl <|
  Sat.cons rfl <|
  Sat.cons rfl <|
  Sat.cons rfl <|
  Sat.cons rfl <|
  Sat.cons rfl <|
  Sat.cons rfl <|
  Sat.cons rfl <|
  Sat.cons rfl <|
  Sat.cons rfl <|
  Sat.cons rfl <|
  Sat.cons rfl <|
  Sat.cons rfl <|
  Sat.cons rfl <|
  Sat.nil _

theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v289) = Read.val_main_v289 (F := F) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29))
      ∧ r.2.mem ((c.tc : Thread nD τ).loc main_v357) = Read.val_main_v357 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run defs _ _).mono (fun _ h c =>
      have hs := ops_sat (launchArgs m c) _ (sat_launch m c)
      ⟨(h c main_v289).trans (hs.get 0 rfl),
        (h c main_v357).trans (hs.get 1 rfl),
        (h c main_arg0).trans (hs.get 2 rfl),
        (h c main_arg1).trans (hs.get 3 rfl),
        (h c main_arg2).trans (hs.get 4 rfl),
        (h c main_arg3).trans (hs.get 5 rfl),
        (h c main_arg4).trans (hs.get 6 rfl),
        (h c main_arg5).trans (hs.get 7 rfl),
        (h c main_arg6).trans (hs.get 8 rfl),
        (h c main_arg7).trans (hs.get 9 rfl),
        (h c main_arg8).trans (hs.get 10 rfl),
        (h c main_arg9).trans (hs.get 11 rfl),
        (h c main_arg10).trans (hs.get 12 rfl),
        (h c main_arg11).trans (hs.get 13 rfl),
        (h c main_arg12).trans (hs.get 14 rfl),
        (h c main_arg13).trans (hs.get 15 rfl),
        (h c main_arg14).trans (hs.get 16 rfl),
        (h c main_arg15).trans (hs.get 17 rfl),
        (h c main_arg16).trans (hs.get 18 rfl),
        (h c main_arg17).trans (hs.get 19 rfl),
        (h c main_arg18).trans (hs.get 20 rfl),
        (h c main_arg19).trans (hs.get 21 rfl),
        (h c main_arg20).trans (hs.get 22 rfl),
        (h c main_arg21).trans (hs.get 23 rfl),
        (h c main_arg22).trans (hs.get 24 rfl),
        (h c main_arg23).trans (hs.get 25 rfl),
        (h c main_arg24).trans (hs.get 26 rfl),
        (h c main_arg25).trans (hs.get 27 rfl),
        (h c main_arg26).trans (hs.get 28 rfl),
        (h c main_arg27).trans (hs.get 29 rfl),
        (h c main_arg28).trans (hs.get 30 rfl),
        (h c main_arg29).trans (hs.get 31 rfl)⟩)
    (run_seq scopedRefs_eq scopedSems_eq defs main (fun _ => ops) main_eq (fun _ => ops_sub) m ρ (fun _ => ops_fresh))

end Cert.ReferenceIdeal.Hand

end
-- ==== Proof.Val.BridgeA.lean ====
import proofs.«138431_j79370995631014_1_alg».proof.Proof.Gen.KernelIdeal.Launch
import proofs.«138431_j79370995631014_1_alg».proof.Proof.Ref.ReadP
import Idealize.ShloMosaic.Lib.StableHlo.Run
import Idealize.ShloMosaic.PureOps.Ideal.Laws

noncomputable section

namespace Cert.KernelIdeal.Val

open Cert.KernelIdeal Cert.KernelIdeal.Gen
open Idealize.ShloMosaic Idealize.ShloMosaic.TcCoe Idealize.SL.Sem Idealize.ShloMosaic.StableHlo
open Cert.ReferenceIdeal.Read

abbrev Ct (s : Shape) (e : EltTy) : Type := (⟨s, e⟩ : BufTy).Contents (Elt Ideal)

variable (x0 x2 : Ct S50000x1 .f32) (x3 : Ct S50000 .i32) (x4 : Ct S2x800000 .i32) (x5 : Ct S800000x3 .f32)
  (x6 : Ct S800000 .f32) (x7 : Ct S50000x2 .f32)
  (x8 : Ct S131x64 .f32) (x9 : Ct S64 .f32) (x10 : Ct S64x64 .f32) (x11 : Ct S64 .f32)
  (x12 : Ct S131x64 .f32) (x13 : Ct S64 .f32) (x14 : Ct S64x64 .f32) (x15 : Ct S64 .f32)
  (x16 : Ct S194x64 .f32) (x17 : Ct S64 .f32) (x18 : Ct S194x64 .f32) (x19 : Ct S64 .f32)
  (x20 : Ct S194x64 .f32) (x21 : Ct S64 .f32)
  (x22 : Ct S1x64 .f32) (x23 : Ct S64 .f32) (x24 : Ct S64x64 .f32) (x25 : Ct S64 .f32)
  (x26 : Ct S64x64 .f32) (x27 : Ct S64 .f32) (x28 : Ct S64x1 .f32) (x29 : Ct S1 .f32)

local notation "rRow" => val_main_v1 (F := Ideal) x4
local notation "rCol" => val_main_v3 (F := Ideal) x4
local notation "rMask" => val_main_v6 (F := Ideal) x4

local notation "rH0" => val_main_v19 (F := Ideal) x0 x22 x23 x24 x25

local notation "rHc0" => val_main_v26 (F := Ideal) x0 x4 x22 x23 x24 x25
local notation "rHr0" => val_main_v33 (F := Ideal) x0 x4 x22 x23 x24 x25
local notation "rMt0" => val_main_v46 (F := Ideal) x0 x4 x5 x8 x9 x10 x11 x22 x23 x24 x25
local notation "rSt0" => val_main_v49 (F := Ideal) x0 x4 x5 x8 x9 x10 x11 x22 x23 x24 x25
local notation "rMf0" => val_main_v76 (F := Ideal) x0 x4 x5 x12 x13 x14 x15 x22 x23 x24 x25
local notation "rSf0" => val_main_v79 (F := Ideal) x0 x4 x5 x12 x13 x14 x15 x22 x23 x24 x25

local notation "rHn0" => val_main_v110 (F := Ideal) x0 x3 x4 x5 x7 x8 x9 x10 x11 x12 x13 x14 x15 x16 x17 x18 x19 x20 x21 x22 x23 x24 x25
local notation "rU0" => val_main_v120 (F := Ideal) x0 x3 x4 x5 x7 x8 x9 x10 x11 x12 x13 x14 x15 x16 x17 x18 x19 x20 x21 x22 x23 x24 x25 x26 x27 x28 x29
local notation "rRes0" => val_main_v136 (F := Ideal) x0 x2 x3 x4 x5 x6 x7 x8 x9 x10 x11 x12 x13 x14 x15 x16 x17 x18 x19 x20 x21 x22 x23 x24 x25 x26 x27 x28 x29
local notation "rEU0" => val_main_v156 (F := Ideal) x0 x3 x4 x5 x7 x8 x9 x10 x11 x12 x13 x14 x15 x16 x17 x18 x19 x20 x21 x22 x23 x24 x25 x26 x27 x28 x29
local notation "rEnc0" => val_main_v160 (F := Ideal) x0 x3 x4 x5 x7 x8 x9 x10 x11 x12 x13 x14 x15 x16 x17 x18 x19 x20 x21 x22 x23 x24 x25 x26 x27 x28 x29
local notation "rAU0" => val_main_v180 (F := Ideal) x0 x3 x4 x5 x7 x8 x9 x10 x11 x12 x13 x14 x15 x16 x17 x18 x19 x20 x21 x22 x23 x24 x25 x26 x27 x28 x29
local notation "rAe0" => val_main_v184 (F := Ideal) x0 x3 x4 x5 x7 x8 x9 x10 x11 x12 x13 x14 x15 x16 x17 x18 x19 x20 x21 x22 x23 x24 x25 x26 x27 x28 x29
local notation "rTot0" => val_main_v188 (F := Ideal) x0 x2 x3 x4 x5 x6 x7 x8 x9 x10 x11 x12 x13 x14 x15 x16 x17 x18 x19 x20 x21 x22 x23 x24 x25 x26 x27 x28 x29

local notation "rHc1" => val_main_v195 (F := Ideal) x0 x3 x4 x5 x7 x8 x9 x10 x11 x12 x13 x14 x15 x16 x17 x18 x19 x20 x21 x22 x23 x24 x25
local notation "rHr1" => val_main_v202 (F := Ideal) x0 x3 x4 x5 x7 x8 x9 x10 x11 x12 x13 x14 x15 x16 x17 x18 x19 x20 x21 x22 x23 x24 x25

theorem ref_v56 : val_main_v56 (F := Ideal) x0 x4 x22 x23 x24 x25 = rHr0 := rfl

theorem ref_v63 : val_main_v63 (F := Ideal) x0 x4 x22 x23 x24 x25 = rHc0 := rfl

theorem ref_v170 : val_main_v170 (F := Ideal) x0 x3 x4 x5 x7 x8 x9 x10 x11 x12 x13 x14 x15 x16 x17 x18 x19 x20 x21 x22 x23 x24 x25 x26 x27 x28 x29 = rEU0 := rfl

variable {x0 x2 x3 x4 x5 x6 x7 x8 x9 x10 x11 x12 x13 x14 x15 x16 x17 x18 x19 x20 x21 x22 x23 x24 x25 x26 x27 x28 x29}

variable (V : Valuation τ sig (Elt Ideal))

theorem h0_v1 (h4 : V (Proc.devRef .tc main_arg4) = x4) :
    StableHlo.after (hostOps0 (F := Ideal)) V (Proc.devRef .tc main_v1) = rRow := by
  subst h4; after_results; rfl

theorem h0_v3 (h4 : V (Proc.devRef .tc main_arg4) = x4) :
    StableHlo.after (hostOps0 (F := Ideal)) V (Proc.devRef .tc main_v3) = rCol := by
  subst h4; after_results; rfl

theorem h0_v6 (h4 : V (Proc.devRef .tc main_arg4) = x4) :
    StableHlo.after (hostOps0 (F := Ideal)) V (Proc.devRef .tc main_v6) = rMask := by
  subst h4; after_results; rfl

set_option maxHeartbeats 1000000 in

theorem h1_v38 (h9 : V (Proc.devRef .tc main_v9) = rH0) (h3 : V (Proc.devRef .tc main_v3) = rCol) :
    StableHlo.after (hostOps1 (F := Ideal)) V (Proc.devRef .tc main_v38) = rHc0 := by
  after_results_simp; rw [h9, h3]; rfl
set_option maxHeartbeats 1000000 in

theorem h1_v45 (h9 : V (Proc.devRef .tc main_v9) = rH0) (h1 : V (Proc.devRef .tc main_v1) = rRow) :
    StableHlo.after (hostOps1 (F := Ideal)) V (Proc.devRef .tc main_v45) = rHr0 := by
  after_results_simp; rw [h9, h1]; rfl

theorem h3_v54 (h3 : V (Proc.devRef .tc main_v3) = rCol) (h48 : V (Proc.devRef .tc main_v48) = rMt0) :
    StableHlo.after (hostOps3 (F := Ideal)) V (Proc.devRef .tc main_v54) = rSt0 := by
  after_results_simp; rw [h3, h48]; rfl

theorem h3_v57 (h1 : V (Proc.devRef .tc main_v1) = rRow) (h51 : V (Proc.devRef .tc main_v51) = rMf0) :
    StableHlo.after (hostOps3 (F := Ideal)) V (Proc.devRef .tc main_v57) = rSf0 := by
  after_results_simp; rw [h1, h51]; rfl

set_option maxHeartbeats 1000000 in

theorem h5_v80 (h64 : V (Proc.devRef .tc main_v64) = rU0) (h3 : V (Proc.devRef .tc main_v3) = rCol)
    (h1 : V (Proc.devRef .tc main_v1) = rRow) (h6 : V (Proc.devRef .tc main_arg6) = x6) (h2 : V (Proc.devRef .tc main_arg2) = x2) :
    StableHlo.after (hostOps5 (F := Ideal)) V (Proc.devRef .tc main_v80) = rRes0 := by
  subst h6; subst h2; after_results_simp; rw [h64, h3, h1]; rfl

theorem h6_v87 (h83 : V (Proc.devRef .tc main_v83) = rEU0) (h61 : V (Proc.devRef .tc main_v61) = rHn0) :
    StableHlo.after (hostOps6 (F := Ideal)) V (Proc.devRef .tc main_v87) = rEnc0 := by
  after_results_simp; rw [h83, h61]; rfl

set_option maxHeartbeats 1000000 in

theorem h7_v94 (h90 : V (Proc.devRef .tc main_v90) = rAU0) (h64 : V (Proc.devRef .tc main_v64) = rU0) :
    StableHlo.after (hostOps7 (F := Ideal)) V (Proc.devRef .tc main_v94) = rAe0 := by
  after_results_simp; rw [h90, h64]; rfl
set_option maxHeartbeats 1000000 in

theorem h7_v98 (h80 : V (Proc.devRef .tc main_v80) = rRes0) (h87 : V (Proc.devRef .tc main_v87) = rEnc0)
    (h90 : V (Proc.devRef .tc main_v90) = rAU0) (h64 : V (Proc.devRef .tc main_v64) = rU0) :
    StableHlo.after (hostOps7 (F := Ideal)) V (Proc.devRef .tc main_v98) = rTot0 := by
  after_results_simp; rw [h80, h87, h90, h64]; rfl
set_option maxHeartbeats 1000000 in

theorem h7_v105 (h61 : V (Proc.devRef .tc main_v61) = rHn0) (h3 : V (Proc.devRef .tc main_v3) = rCol) :
    StableHlo.after (hostOps7 (F := Ideal)) V (Proc.devRef .tc main_v105) = rHc1 := by
  after_results_simp; rw [h61, h3]; rfl
set_option maxHeartbeats 1000000 in

theorem h7_v112 (h61 : V (Proc.devRef .tc main_v61) = rHn0) (h1 : V (Proc.devRef .tc main_v1) = rRow) :
    StableHlo.after (hostOps7 (F := Ideal)) V (Proc.devRef .tc main_v112) = rHr1 := by
  after_results_simp; rw [h61, h1]; rfl

theorem k0_v7 (h23 : V (Proc.devRef .tc main_arg23) = x23) :
    StableHlo.after (hostOps0 (F := Ideal)) V (Proc.devRef .tc main_v7) = shapeCast S1x64 x23 shapeCasts_S64_S1x64 := by
  subst h23; after_results <;> rfl

theorem k0_v8 (h25 : V (Proc.devRef .tc main_arg25) = x25) :
    StableHlo.after (hostOps0 (F := Ideal)) V (Proc.devRef .tc main_v8) = shapeCast S1x64 x25 shapeCasts_S64_S1x64 := by
  subst h25; after_results <;> rfl

abbrev dmaskOf (t : (⟨S50000, .i32⟩ : BufTy).Contents (Elt Ideal)) : (⟨S50000x1, .f32⟩ : BufTy).Contents (Elt Ideal) :=
  (broadcastInDim S50000x1 ![0] bcast_S50000_S50000x1_0 : (⟨S50000, .f32⟩ : BufTy).Contents (Elt Ideal) → (⟨S50000x1, .f32⟩ : BufTy).Contents (Elt Ideal))
    ((uitofp (F := Ideal) .f32 : (⟨S50000, .i1⟩ : BufTy).Contents (Elt Ideal) → (⟨S50000, .f32⟩ : BufTy).Contents (Elt Ideal))
      ((cmpi .eq : (⟨S50000, .i32⟩ : BufTy).Contents (Elt Ideal) → (⟨S50000, .i32⟩ : BufTy).Contents (Elt Ideal) → (⟨S50000, .i1⟩ : BufTy).Contents (Elt Ideal)) t
        ((broadcastInDim S50000 ![] bcast_S_S50000 : (⟨S_, .i32⟩ : BufTy).Contents (Elt Ideal) → (⟨S50000, .i32⟩ : BufTy).Contents (Elt Ideal)) (constantI S_ 32 1#32))))

set_option maxHeartbeats 1000000 in
theorem k1_v13 (h3 : V (Proc.devRef .tc main_arg3) = x3) :
    StableHlo.after (hostOps1 (F := Ideal)) V (Proc.devRef .tc main_v13) = dmaskOf x3 := by
  subst h3; after_results_simp <;> rfl

set_option maxHeartbeats 1000000 in

theorem k1_v14 (h8 : V (Proc.devRef .tc main_arg8) = x8) :
    StableHlo.after (hostOps1 (F := Ideal)) V (Proc.devRef .tc main_v14) = extractStridedSlice S64x64 ![0, 0] x8 slices_S131x64_S64x64_0_0 := by
  subst h8; after_results_simp <;> rfl
set_option maxHeartbeats 1000000 in
theorem k1_v15 (h8 : V (Proc.devRef .tc main_arg8) = x8) :
    StableHlo.after (hostOps1 (F := Ideal)) V (Proc.devRef .tc main_v15) = extractStridedSlice S64x64 ![64, 0] x8 slices_S131x64_S64x64_64_0 := by
  subst h8; after_results_simp <;> rfl
set_option maxHeartbeats 1000000 in
theorem k1_v16 (h8 : V (Proc.devRef .tc main_arg8) = x8) :
    StableHlo.after (hostOps1 (F := Ideal)) V (Proc.devRef .tc main_v16) = extractStridedSlice S3x64 ![128, 0] x8 slices_S131x64_S3x64_128_0 := by
  subst h8; after_results_simp <;> rfl
set_option maxHeartbeats 1000000 in

theorem k1_v17 (h12 : V (Proc.devRef .tc main_arg12) = x12) :
    StableHlo.after (hostOps1 (F := Ideal)) V (Proc.devRef .tc main_v17) = extractStridedSlice S64x64 ![0, 0] x12 slices_S131x64_S64x64_0_0 := by
  subst h12; after_results_simp <;> rfl
set_option maxHeartbeats 1000000 in
theorem k1_v18 (h12 : V (Proc.devRef .tc main_arg12) = x12) :
    StableHlo.after (hostOps1 (F := Ideal)) V (Proc.devRef .tc main_v18) = extractStridedSlice S64x64 ![64, 0] x12 slices_S131x64_S64x64_64_0 := by
  subst h12; after_results_simp <;> rfl
set_option maxHeartbeats 1000000 in
theorem k1_v19 (h12 : V (Proc.devRef .tc main_arg12) = x12) :
    StableHlo.after (hostOps1 (F := Ideal)) V (Proc.devRef .tc main_v19) = extractStridedSlice S3x64 ![128, 0] x12 slices_S131x64_S3x64_128_0 := by
  subst h12; after_results_simp <;> rfl
set_option maxHeartbeats 1000000 in

theorem k1_v20 (h16 : V (Proc.devRef .tc main_arg16) = x16) :
    StableHlo.after (hostOps1 (F := Ideal)) V (Proc.devRef .tc main_v20) = extractStridedSlice S64x64 ![0, 0] x16 slices_S194x64_S64x64_0_0 := by
  subst h16; after_results_simp <;> rfl
set_option maxHeartbeats 1000000 in
theorem k1_v21 (h16 : V (Proc.devRef .tc main_arg16) = x16) :
    StableHlo.after (hostOps1 (F := Ideal)) V (Proc.devRef .tc main_v21) = extractStridedSlice S64x64 ![64, 0] x16 slices_S194x64_S64x64_64_0 := by
  subst h16; after_results_simp <;> rfl
set_option maxHeartbeats 1000000 in
theorem k1_v22 (h16 : V (Proc.devRef .tc main_arg16) = x16) :
    StableHlo.after (hostOps1 (F := Ideal)) V (Proc.devRef .tc main_v22) = extractStridedSlice S64x64 ![128, 0] x16 slices_S194x64_S64x64_128_0 := by
  subst h16; after_results_simp <;> rfl
set_option maxHeartbeats 1000000 in
theorem k1_v23 (h16 : V (Proc.devRef .tc main_arg16) = x16) :
    StableHlo.after (hostOps1 (F := Ideal)) V (Proc.devRef .tc main_v23) = extractStridedSlice S2x64 ![192, 0] x16 slices_S194x64_S2x64_192_0 := by
  subst h16; after_results_simp <;> rfl
set_option maxHeartbeats 1000000 in

theorem k1_v24 (h18 : V (Proc.devRef .tc main_arg18) = x18) :
    StableHlo.after (hostOps1 (F := Ideal)) V (Proc.devRef .tc main_v24) = extractStridedSlice S64x64 ![0, 0] x18 slices_S194x64_S64x64_0_0 := by
  subst h18; after_results_simp <;> rfl
set_option maxHeartbeats 1000000 in
theorem k1_v25 (h18 : V (Proc.devRef .tc main_arg18) = x18) :
    StableHlo.after (hostOps1 (F := Ideal)) V (Proc.devRef .tc main_v25) = extractStridedSlice S64x64 ![64, 0] x18 slices_S194x64_S64x64_64_0 := by
  subst h18; after_results_simp <;> rfl
set_option maxHeartbeats 1000000 in
theorem k1_v26 (h18 : V (Proc.devRef .tc main_arg18) = x18) :
    StableHlo.after (hostOps1 (F := Ideal)) V (Proc.devRef .tc main_v26) = extractStridedSlice S64x64 ![128, 0] x18 slices_S194x64_S64x64_128_0 := by
  subst h18; after_results_simp <;> rfl
set_option maxHeartbeats 1000000 in
theorem k1_v27 (h18 : V (Proc.devRef .tc main_arg18) = x18) :
    StableHlo.after (hostOps1 (F := Ideal)) V (Proc.devRef .tc main_v27) = extractStridedSlice S2x64 ![192, 0] x18 slices_S194x64_S2x64_192_0 := by
  subst h18; after_results_simp <;> rfl
set_option maxHeartbeats 1000000 in

theorem k1_v28 (h20 : V (Proc.devRef .tc main_arg20) = x20) :
    StableHlo.after (hostOps1 (F := Ideal)) V (Proc.devRef .tc main_v28) = extractStridedSlice S64x64 ![0, 0] x20 slices_S194x64_S64x64_0_0 := by
  subst h20; after_results_simp <;> rfl
set_option maxHeartbeats 1000000 in
theorem k1_v29 (h20 : V (Proc.devRef .tc main_arg20) = x20) :
    StableHlo.after (hostOps1 (F := Ideal)) V (Proc.devRef .tc main_v29) = extractStridedSlice S64x64 ![64, 0] x20 slices_S194x64_S64x64_64_0 := by
  subst h20; after_results_simp <;> rfl
set_option maxHeartbeats 1000000 in
theorem k1_v30 (h20 : V (Proc.devRef .tc main_arg20) = x20) :
    StableHlo.after (hostOps1 (F := Ideal)) V (Proc.devRef .tc main_v30) = extractStridedSlice S64x64 ![128, 0] x20 slices_S194x64_S64x64_128_0 := by
  subst h20; after_results_simp <;> rfl
set_option maxHeartbeats 1000000 in
theorem k1_v31 (h20 : V (Proc.devRef .tc main_arg20) = x20) :
    StableHlo.after (hostOps1 (F := Ideal)) V (Proc.devRef .tc main_v31) = extractStridedSlice S2x64 ![192, 0] x20 slices_S194x64_S2x64_192_0 := by
  subst h20; after_results_simp <;> rfl
set_option maxHeartbeats 1000000 in

theorem k1_v46 (h9 : V (Proc.devRef .tc main_arg9) = x9) :
    StableHlo.after (hostOps1 (F := Ideal)) V (Proc.devRef .tc main_v46) = shapeCast S1x64 x9 shapeCasts_S64_S1x64 := by
  subst h9; after_results_simp <;> rfl
set_option maxHeartbeats 1000000 in
theorem k1_v47 (h11 : V (Proc.devRef .tc main_arg11) = x11) :
    StableHlo.after (hostOps1 (F := Ideal)) V (Proc.devRef .tc main_v47) = shapeCast S1x64 x11 shapeCasts_S64_S1x64 := by
  subst h11; after_results_simp <;> rfl

theorem k2_v49 (h13 : V (Proc.devRef .tc main_arg13) = x13) :
    StableHlo.after (hostOps2 (F := Ideal)) V (Proc.devRef .tc main_v49) = shapeCast S1x64 x13 shapeCasts_S64_S1x64 := by
  subst h13; after_results <;> rfl
theorem k2_v50 (h15 : V (Proc.devRef .tc main_arg15) = x15) :
    StableHlo.after (hostOps2 (F := Ideal)) V (Proc.devRef .tc main_v50) = shapeCast S1x64 x15 shapeCasts_S64_S1x64 := by
  subst h15; after_results <;> rfl

theorem k3_v58 (h17 : V (Proc.devRef .tc main_arg17) = x17) :
    StableHlo.after (hostOps3 (F := Ideal)) V (Proc.devRef .tc main_v58) = shapeCast S1x64 x17 shapeCasts_S64_S1x64 := by
  subst h17; after_results_simp <;> rfl
theorem k3_v59 (h19 : V (Proc.devRef .tc main_arg19) = x19) :
    StableHlo.after (hostOps3 (F := Ideal)) V (Proc.devRef .tc main_v59) = shapeCast S1x64 x19 shapeCasts_S64_S1x64 := by
  subst h19; after_results_simp <;> rfl
theorem k3_v60 (h21 : V (Proc.devRef .tc main_arg21) = x21) :
    StableHlo.after (hostOps3 (F := Ideal)) V (Proc.devRef .tc main_v60) = shapeCast S1x64 x21 shapeCasts_S64_S1x64 := by
  subst h21; after_results_simp <;> rfl

theorem k4_v62 (h27 : V (Proc.devRef .tc main_arg27) = x27) :
    StableHlo.after (hostOps4 (F := Ideal)) V (Proc.devRef .tc main_v62) = shapeCast S1x64 x27 shapeCasts_S64_S1x64 := by
  subst h27; after_results <;> rfl
theorem k4_v63 (h29 : V (Proc.devRef .tc main_arg29) = x29) :
    StableHlo.after (hostOps4 (F := Ideal)) V (Proc.devRef .tc main_v63) = shapeCast S1x1 x29 shapeCasts_S1_S1x1 := by
  subst h29; after_results <;> rfl

set_option maxHeartbeats 1000000 in

theorem k5_v81 (h23 : V (Proc.devRef .tc main_arg23) = x23) :
    StableHlo.after (hostOps5 (F := Ideal)) V (Proc.devRef .tc main_v81) = shapeCast S1x64 x23 shapeCasts_S64_S1x64 := by
  subst h23; after_results_simp <;> rfl
set_option maxHeartbeats 1000000 in
theorem k5_v82 (h25 : V (Proc.devRef .tc main_arg25) = x25) :
    StableHlo.after (hostOps5 (F := Ideal)) V (Proc.devRef .tc main_v82) = shapeCast S1x64 x25 shapeCasts_S64_S1x64 := by
  subst h25; after_results_simp <;> rfl

theorem k6_v88 (h27 : V (Proc.devRef .tc main_arg27) = x27) :
    StableHlo.after (hostOps6 (F := Ideal)) V (Proc.devRef .tc main_v88) = shapeCast S1x64 x27 shapeCasts_S64_S1x64 := by
  subst h27; after_results_simp <;> rfl
theorem k6_v89 (h29 : V (Proc.devRef .tc main_arg29) = x29) :
    StableHlo.after (hostOps6 (F := Ideal)) V (Proc.devRef .tc main_v89) = shapeCast S1x1 x29 shapeCasts_S1_S1x1 := by
  subst h29; after_results_simp <;> rfl

set_option maxHeartbeats 1000000 in

theorem k7_v113 (h9 : V (Proc.devRef .tc main_arg9) = x9) :
    StableHlo.after (hostOps7 (F := Ideal)) V (Proc.devRef .tc main_v113) = shapeCast S1x64 x9 shapeCasts_S64_S1x64 := by
  subst h9; after_results_simp <;> rfl
set_option maxHeartbeats 1000000 in
theorem k7_v114 (h11 : V (Proc.devRef .tc main_arg11) = x11) :
    StableHlo.after (hostOps7 (F := Ideal)) V (Proc.devRef .tc main_v114) = shapeCast S1x64 x11 shapeCasts_S64_S1x64 := by
  subst h11; after_results_simp <;> rfl

end Cert.KernelIdeal.Val

end
-- ==== Proof.Val.Enc.lean ====
import proofs.«138431_j79370995631014_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen
open Idealize.ShloMosaic Idealize.ShloMosaic.ValueIdx
open scoped BigOperators

def encAt (a : EReal) (w1 b1 : Vec Ideal ⟨2, ![1, 64]⟩ .f32) (w2 : Vec Ideal ⟨2, ![64, 64]⟩ .f32)
    (b2 : Vec Ideal ⟨2, ![1, 64]⟩ .f32) (j : Fin 64) : EReal :=
  (∑ k : Fin 64, max (a * w1 (ix2 (0 : Fin 1) k) + b1 (ix2 (0 : Fin 1) k)) 0 * w2 (ix2 k j)) + b2 (ix2 (0 : Fin 1) j)

def EncG (x : Vec Ideal ⟨2, ![50000, 1]⟩ .f32) (w1 b1 : Vec Ideal ⟨2, ![1, 64]⟩ .f32) (w2 : Vec Ideal ⟨2, ![64, 64]⟩ .f32)
    (b2 : Vec Ideal ⟨2, ![1, 64]⟩ .f32) : Vec Ideal ⟨2, ![50000, 64]⟩ .f32 :=
  fun i => encAt (x (ix2 (i 0 : Fin 50000) (0 : Fin 1))) w1 b1 w2 b2 (i 1 : Fin 64)

theorem EncG_apply (x : Vec Ideal ⟨2, ![50000, 1]⟩ .f32) (w1 b1 : Vec Ideal ⟨2, ![1, 64]⟩ .f32) (w2 : Vec Ideal ⟨2, ![64, 64]⟩ .f32)
    (b2 : Vec Ideal ⟨2, ![1, 64]⟩ .f32) (r : Fin 50000) (j : Fin 64) :
    EncG x w1 b1 w2 b2 (ix2 r j) = encAt (x (ix2 r (0 : Fin 1))) w1 b1 w2 b2 j := rfl

theorem lhs_enc1_0 (i : S2000x64.Idx) (q : dot_S2000x1_S1x64_S2000x64_1_0_0_1_n_n.contr.Idx) :
    (dot_S2000x1_S1x64_S2000x64_1_0_0_1_n_n.lhsIdx i q 0).val = (i 0).val := by
  unfold DotDims.lhsIdx
  rw [dif_neg (show ¬(0 : Fin S2000x1.rank) ∈ dot_S2000x1_S1x64_S2000x64_1_0_0_1_n_n.lhsBatch by decide), dif_pos (show (0 : Fin S2000x1.rank) ∈ dot_S2000x1_S1x64_S2000x64_1_0_0_1_n_n.lhsNonContracting by decide)]
  rfl
theorem lhs_enc1_1 (i : S2000x64.Idx) (q : dot_S2000x1_S1x64_S2000x64_1_0_0_1_n_n.contr.Idx) :
    (dot_S2000x1_S1x64_S2000x64_1_0_0_1_n_n.lhsIdx i q 1).val = (q ⟨0, by decide⟩).val :=
  dot_S2000x1_S1x64_S2000x64_1_0_0_1_n_n.lhsIdx_val_of_single rfl i q
theorem rhs_enc1_0 (i : S2000x64.Idx) (q : dot_S2000x1_S1x64_S2000x64_1_0_0_1_n_n.contr.Idx) :
    (dot_S2000x1_S1x64_S2000x64_1_0_0_1_n_n.rhsIdx i q 0).val = (q ⟨0, by decide⟩).val :=
  dot_S2000x1_S1x64_S2000x64_1_0_0_1_n_n.rhsIdx_val_of_single rfl i q
theorem rhs_enc1_1 (i : S2000x64.Idx) (q : dot_S2000x1_S1x64_S2000x64_1_0_0_1_n_n.contr.Idx) :
    (dot_S2000x1_S1x64_S2000x64_1_0_0_1_n_n.rhsIdx i q 1).val = (i 1).val := by
  unfold DotDims.rhsIdx
  rw [dif_neg (show ¬(1 : Fin S1x64.rank) ∈ dot_S2000x1_S1x64_S2000x64_1_0_0_1_n_n.rhsBatch by decide), dif_pos (show (1 : Fin S1x64.rank) ∈ dot_S2000x1_S1x64_S2000x64_1_0_0_1_n_n.rhsNonContracting by decide)]
  rfl

theorem enc_mm1_apply {φ₁ φ₂ : FTy} (a : FVec Ideal S2000x1 φ₁) (b : FVec Ideal S1x64 φ₂) (p : Fin 2000) (k : Fin 64) :
    matmul dot_S2000x1_S1x64_S2000x64_1_0_0_1_n_n none a b (constant (F := Ideal) S2000x64 .f32 0x00000000#32) (ix2 p k)
      = a (ix2 p (0 : Fin 1)) * b (ix2 (0 : Fin 1) k) := by
  simp only [matmul]
  rw [Ideal.matmul_constant_zero_apply, ← Equiv.sum_comp (contrEquiv1 dot_S2000x1_S1x64_S2000x64_1_0_0_1_n_n 1 rfl rfl).symm,
    Fin.sum_univ_one]
  have hk := contrEquiv1_symm_val dot_S2000x1_S1x64_S2000x64_1_0_0_1_n_n 1 rfl rfl (0 : Fin 1)
  have el : dot_S2000x1_S1x64_S2000x64_1_0_0_1_n_n.lhsIdx (ix2 p k) ((contrEquiv1 dot_S2000x1_S1x64_S2000x64_1_0_0_1_n_n 1 rfl rfl).symm 0) = ix2 p (0 : Fin 1) := funext fun d => Fin.ext (by
    match d with
    | ⟨0, _⟩ => exact lhs_enc1_0 _ _
    | ⟨1, _⟩ => exact (lhs_enc1_1 _ _).trans hk)
  have er : dot_S2000x1_S1x64_S2000x64_1_0_0_1_n_n.rhsIdx (ix2 p k) ((contrEquiv1 dot_S2000x1_S1x64_S2000x64_1_0_0_1_n_n 1 rfl rfl).symm 0) = ix2 (0 : Fin 1) k := funext fun d => Fin.ext (by
    match d with
    | ⟨0, _⟩ => exact (rhs_enc1_0 _ _).trans hk
    | ⟨1, _⟩ => exact rhs_enc1_1 _ _)
  rw [el, er]

theorem lhs_enc2_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs_enc2_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem rhs_enc2_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem rhs_enc2_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

theorem enc_mm2_apply {φ₁ φ₂ : FTy} (h : FVec Ideal S2000x64 φ₁) (w : FVec Ideal S64x64 φ₂) (p : Fin 2000) (j : Fin 64) :
    matmul dot_S2000x64_S64x64_S2000x64_1_0_0_1_n_n none h w (constant (F := Ideal) S2000x64 .f32 0x00000000#32) (ix2 p j)
      = ∑ k : Fin 64, h (ix2 p k) * w (ix2 k j) := by
  simp only [matmul]
  rw [Ideal.matmul_constant_zero_apply, ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p j) ((contrEquiv1 dot_S2000x64_S64x64_S2000x64_1_0_0_1_n_n 64 rfl rfl).symm k) = ix2 p k := funext fun d => Fin.ext (by
    match d with
    | ⟨0, _⟩ => exact lhs_enc2_0 _ _
    | ⟨1, _⟩ => exact (lhs_enc2_1 _ _).trans hk)
  have er : dot_S2000x64_S64x64_S2000x64_1_0_0_1_n_n.rhsIdx (ix2 p j) ((contrEquiv1 dot_S2000x64_S64x64_S2000x64_1_0_0_1_n_n 64 rfl rfl).symm k) = ix2 k j := funext fun d => Fin.ext (by
    match d with
    | ⟨0, _⟩ => exact (rhs_enc2_0 _ _).trans hk
    | ⟨1, _⟩ => exact rhs_enc2_1 _ _)
  rw [el, er]

theorem enc_bias_apply {α : Type} (b : S1x64.Idx → α) (p : Fin 2000) (j : Fin 64) :
    broadcastTo S2000x64 b broadcasts_S1x64_S2000x64 (ix2 p j) = b (ix2 (0 : Fin 1) j) := by
  refine broadcastTo_apply b broadcasts_S1x64_S2000x64 (ix2 p j) (ix2 (0 : Fin 1) j) fun a => ?_
  match a with
  | ⟨0, _⟩ => rfl
  | ⟨1, _⟩ => show j.val = if (64 : Nat) = 1 then 0 else j.val; rw [if_neg (by decide)]

theorem enc_hidden_apply (x : FVec Ideal S2000x1 .f32) (w1 b1 : FVec Ideal S1x64 .f32) (p : Fin 2000) (k : Fin 64) :
    maximumf (addf (matmul dot_S2000x1_S1x64_S2000x64_1_0_0_1_n_n none (truncf .bf16 x bitsLt_bf16_f32) (truncf .bf16 w1 bitsLt_bf16_f32) (constant (F := Ideal) S2000x64 .f32 0x00000000#32))
        (broadcastTo S2000x64 b1 broadcasts_S1x64_S2000x64))
      (broadcast S2000x64 (Scalar.ofBits (F := Ideal) .f32 0x00000000#32)) (ix2 p k)
      = max (x (ix2 p (0 : Fin 1)) * w1 (ix2 (0 : Fin 1) k) + b1 (ix2 (0 : Fin 1) k)) 0 := by
  rw [maximumf_apply, addf_apply, enc_mm1_apply, enc_bias_apply, broadcast_apply, truncf_apply, truncf_apply]
  show max _ (Ideal.ofBits .f32 0x00000000#32) = _
  rw [Ideal.ofBits_zero_f32]

theorem k0_pay1_apply (v0 : Vec Ideal S2000x1 .f32) (v2 : Vec Ideal S1x64 .f32) (v5 : Vec Ideal S1x64 .f32)
    (v12 : Vec Ideal S64x64 .f32) (v15 : Vec Ideal S1x64 .f32) (p : Fin 2000) (j : Fin 64) :
    k0_pay1 (F := Ideal) v0 v2 v5 v12 v15 (ix2 p j) = encAt (v0 (ix2 p (0 : Fin 1))) v2 v5 v12 v15 j := by
  unfold k0_pay1 encAt
  simp only [shapeCast_self]
  rw [addf_apply, enc_mm2_apply, enc_bias_apply]
  refine congrArg (· + v15 (ix2 (0 : Fin 1) j)) (Finset.sum_congr rfl fun k _ => ?_)
  rw [truncf_apply, truncf_apply, enc_hidden_apply]

theorem k5_pay1_apply (v0 : Vec Ideal S2000x1 .f32) (v3 : Vec Ideal S1x64 .f32) (v6 : Vec Ideal S1x64 .f32)
    (v13 : Vec Ideal S64x64 .f32) (v16 : Vec Ideal S1x64 .f32) (p : Fin 2000) (j : Fin 64) :
    k5_pay1 (F := Ideal) v0 v3 v6 v13 v16 (ix2 p j) = encAt (v0 (ix2 p (0 : Fin 1))) v3 v6 v13 v16 j := by
  unfold k5_pay1 encAt
  simp only [shapeCast_self]
  rw [addf_apply, enc_mm2_apply, enc_bias_apply]
  refine congrArg (· + v16 (ix2 (0 : Fin 1) j)) (Finset.sum_congr rfl fun k _ => ?_)
  rw [truncf_apply, truncf_apply, enc_hidden_apply]

theorem k11_pay1_apply (v0 : Vec Ideal S2000x1 .f32) (v3 : Vec Ideal S1x64 .f32) (v6 : Vec Ideal S1x64 .f32)
    (v13 : Vec Ideal S64x64 .f32) (v16 : Vec Ideal S1x64 .f32) (p : Fin 2000) (j : Fin 64) :
    k11_pay1 (F := Ideal) v0 v3 v6 v13 v16 (ix2 p j) = encAt (v0 (ix2 p (0 : Fin 1))) v3 v6 v13 v16 j := by
  unfold k11_pay1 encAt
  simp only [shapeCast_self]
  rw [addf_apply, enc_mm2_apply, enc_bias_apply]
  refine congrArg (· + v16 (ix2 (0 : Fin 1) j)) (Finset.sum_congr rfl fun k _ => ?_)
  rw [truncf_apply, truncf_apply, enc_hidden_apply]

end Cert.KernelIdeal.Val

end
-- ==== Proof.Val.EncFinal.lean ====
import proofs.«138431_j79370995631014_1_alg».proof.Proof.KI.D0
import proofs.«138431_j79370995631014_1_alg».proof.Proof.KI.D5
import proofs.«138431_j79370995631014_1_alg».proof.Proof.KI.D11
import proofs.«138431_j79370995631014_1_alg».proof.Proof.Val.Enc
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem enc_hz : (![0, 0] : Fin 2 → Nat) = fun _ => 0 := funext fun a => by fin_cases a <;> rfl

theorem enc_block (P : Vec Ideal S2000x1 .f32 → Vec Ideal S1x64 .f32 → Vec Ideal S1x64 .f32 → Vec Ideal S64x64 .f32 → Vec Ideal S1x64 .f32 → FVec Ideal S2000x64 .f32)
    (hP : ∀ (x : Vec Ideal S2000x1 .f32) (w1 b1 : Vec Ideal S1x64 .f32) (w2 : Vec Ideal S64x64 .f32) (b2 : Vec Ideal S1x64 .f32) (p : Fin 2000) (j : Fin 64),
      P x w1 b1 w2 b2 (ix2 p j) = encAt (x (ix2 p (0 : Fin 1))) w1 b1 w2 b2 j)
    (X : Vec Ideal S50000x1 .f32) (w1 b1 : Vec Ideal S1x64 .f32) (w2 : Vec Ideal S64x64 .f32) (b2 : Vec Ideal S1x64 .f32)
    (x0 : Vec Ideal S2000x1 .f32) (n : Nat) (hn : n < 25)
    (hx : ∀ (y : S2000x1.Idx) (i : S50000x1.Idx), (i 0).val = n * 2000 + (y 0).val → (i 1).val = (y 1).val → x0 y = X i)
    (y : S2000x64.Idx) (i : S50000x64.Idx) (hi0 : (i 0).val = n * 2000 + (y 0).val) (hi1 : (i 1).val = (y 1).val) :
    P x0 w1 b1 w2 b2 y = EncG X w1 b1 w2 b2 i := by
  obtain ⟨p, q, rfl⟩ : ∃ (p : Fin 2000) (q : Fin 64), y = ix2 p q := ⟨y 0, y 1, eq_ix2 y⟩
  obtain ⟨r, j, rfl⟩ : ∃ (r : Fin 50000) (j : Fin 64), i = ix2 r j := ⟨i 0, i 1, eq_ix2 i⟩
  obtain rfl : j = q := Fin.ext hi1
  rw [hP, EncG_apply, hx (ix2 p (0 : Fin 1)) (ix2 r (0 : Fin 1)) hi0 rfl]

theorem idx_facts0 : ∀ t : Fin cfg0.N, win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem iblk0_0_apply (c : Dev nD) (t : Fin cfg0.N) (y : S2000x1.Idx) (i : S50000x1.Idx)
    (hi0 : (i 0).val = t.val * 2000 + (y 0).val) (hi1 : (i 1).val = (y 1).val) :
    (iblk0 V c 0 t : Vec Ideal S2000x1 .f32) y = (V c main_arg0 : S50000x1.Idx → EReal) i := by
  obtain ⟨e0, e1, -⟩ := idx_facts0 t
  unfold iblk0
  rw [View.read_apply]
  show V c main_arg0 _ = V c main_arg0 i
  congr 1
  funext a
  apply Fin.ext
  match a with
  | ⟨0, _⟩ => show win0_0.index t 0 * 2000 + 1 * (y 0).val = (i 0).val; rw [e0, hi0]; omega
  | ⟨1, _⟩ => show win0_0.index t 1 * 1 + 1 * (y 1).val = (i 1).val; rw [e1, hi1]; omega

theorem iblk0_1_eq (c : Dev nD) (t : Fin cfg0.N) : (iblk0 V c 1 t : Vec Ideal S1x64 .f32) = V c main_arg22 := by
  obtain ⟨-, -, -, -, e0, e1, -⟩ := idx_facts0 t
  funext y
  unfold iblk0
  rw [View.read_apply]
  show V c main_arg22 _ = V c main_arg22 y
  congr 1
  funext a
  apply Fin.ext
  match a with
  | ⟨0, _⟩ => show win0_1.index t 0 * 1 + 1 * (y 0).val = (y 0).val; rw [e0]; omega
  | ⟨1, _⟩ => show win0_1.index t 1 * 64 + 1 * (y 1).val = (y 1).val; rw [e1]; omega

theorem iblk0_2_eq (c : Dev nD) (t : Fin cfg0.N) : (iblk0 V c 2 t : Vec Ideal S1x64 .f32) = V c main_v7 := by
  obtain ⟨-, -, -, -, -, -, e0, e1, -⟩ := idx_facts0 t
  funext y
  unfold iblk0
  rw [View.read_apply]
  show V c main_v7 _ = V c main_v7 y
  congr 1
  funext a
  apply Fin.ext
  match a with
  | ⟨0, _⟩ => show win0_2.index t 0 * 1 + 1 * (y 0).val = (y 0).val; rw [e0]; omega
  | ⟨1, _⟩ => show win0_2.index t 1 * 64 + 1 * (y 1).val = (y 1).val; rw [e1]; omega

theorem iblk0_3_eq (c : Dev nD) (t : Fin cfg0.N) : (iblk0 V c 3 t : Vec Ideal S64x64 .f32) = V c main_arg24 := by
  obtain ⟨-, -, -, -, -, -, -, -, e0, e1, -⟩ := idx_facts0 t
  funext y
  unfold iblk0
  rw [View.read_apply]
  show V c main_arg24 _ = V c main_arg24 y
  congr 1
  funext a
  apply Fin.ext
  match a with
  | ⟨0, _⟩ => show win0_3.index t 0 * 64 + 1 * (y 0).val = (y 0).val; rw [e0]; omega
  | ⟨1, _⟩ => show win0_3.index t 1 * 64 + 1 * (y 1).val = (y 1).val; rw [e1]; omega

theorem iblk0_4_eq (c : Dev nD) (t : Fin cfg0.N) : (iblk0 V c 4 t : Vec Ideal S1x64 .f32) = V c main_v8 := by
  obtain ⟨-, -, -, -, -, -, -, -, -, -, e0, e1⟩ := idx_facts0 t
  funext y
  unfold iblk0
  rw [View.read_apply]
  show V c main_v8 _ = V c main_v8 y
  congr 1
  funext a
  apply Fin.ext
  match a with
  | ⟨0, _⟩ => show win0_4.index t 0 * 1 + 1 * (y 0).val = (y 0).val; rw [e0]; omega
  | ⟨1, _⟩ => show win0_4.index t 1 * 64 + 1 * (y 1).val = (y 1).val; rw [e1]; omega

theorem flushed0_eq (c : Dev nD) (t : Fin cfg0.N) :
    (dat0 (F := Ideal) V c).flushed 5 t = ((cfg0.win 5).blk t).view.read (Elt Ideal)
      (EncG (V c main_arg0) (V c main_arg22) (V c main_v7) (V c main_arg24) (V c main_v8)) := by
  show (cfg0.win 5).cut (grid0.coords t) ((dat0 V c).after 5 t) = _
  rw [after0_5]
  unfold out0
  rw [View.canon_unit_zero enc_hz]
  simp only [View.ld_unit_zero (S := S2000x1) enc_hz, View.ld_unit_zero (S := S1x64) enc_hz, View.ld_unit_zero (S := S64x64) enc_hz]
  rw [iblk0_1_eq, iblk0_2_eq, iblk0_3_eq, iblk0_4_eq]
  obtain ⟨-, -, e0, e1, -⟩ := idx_facts0 t
  have ht : t.val < 25 := lt_of_lt_of_eq t.isLt N_0
  funext y
  rw [View.read_apply]
  refine enc_block (k0_pay1 (F := Ideal)) k0_pay1_apply (V c main_arg0) (V c main_arg22) (V c main_v7) (V c main_arg24) (V c main_v8) (iblk0 V c 0 t) t.val ht
    (fun y' i h0 h1 => iblk0_0_apply V c t y' i h0 h1) y _ ?_ ?_
  · show win0_5.index t 0 * 2000 + 1 * (y 0).val = t.val * 2000 + (y 0).val; rw [e0]; omega
  · show win0_5.index t 1 * 64 + 1 * (y 1).val = (y 1).val; rw [e1]; omega

theorem mem_blk0 (t : Fin cfg0.N) (i : S50000x64.Idx) :
    i ∈ ((cfg0.win 5).blk t).view.set ↔ ∀ a : Fin 2, win0_5.index t a * S2000x64.size a ≤ (i a).val ∧ (i a).val < win0_5.index t a * S2000x64.size a + S2000x64.size a := by
  show i ∈ ((View.whole main_v9).slice (win0_5.rect t)).set ↔ _
  rw [View.set_slice_whole, Rect.mem_set_unit]
  exact Iff.rfl

theorem cover0 (i : S50000x64.Idx) : ∃ t : Fin cfg0.N, (cfg0.win 5).flush t = true ∧ i ∈ ((cfg0.win 5).blk t).view.set := by
  have h0 : (i 0).val < 50000 := (i 0).isLt
  have h1 : (i 1).val < 64 := (i 1).isLt
  have hN : cfg0.N = 25 := N_0
  refine ⟨⟨(i 0).val / 2000, by rw [hN]; omega⟩, flush0_5 _, ?_⟩
  rw [mem_blk0]
  obtain ⟨-, -, e0, e1, -⟩ := idx_facts0 ⟨(i 0).val / 2000, by rw [hN]; omega⟩
  intro a
  match a with
  | ⟨0, _⟩ =>
    show win0_5.index _ (0 : Fin 2) * 2000 ≤ (i 0).val ∧ (i 0).val < win0_5.index _ (0 : Fin 2) * 2000 + 2000
    rw [e0]; show (i 0).val / 2000 * 2000 ≤ (i 0).val ∧ (i 0).val < (i 0).val / 2000 * 2000 + 2000; omega
  | ⟨1, _⟩ =>
    show win0_5.index _ (1 : Fin 2) * 64 ≤ (i 1).val ∧ (i 1).val < win0_5.index _ (1 : Fin 2) * 64 + 64
    rw [e1]; omega

theorem final0 (c : Dev nD) :
    ((dat0 (F := Ideal) V c).arrAt 5 cfg0.N : S50000x64.Idx → EReal)
      = EncG (V c main_arg0) (V c main_arg22) (V c main_v7) (V c main_arg24) (V c main_v8) :=
  (dat0 (F := Ideal) V c).arrAt_eq_of_cover 5 (EncG (V c main_arg0) (V c main_arg22) (V c main_v7) (V c main_arg24) (V c main_v8))
    (fun t _ => flushed0_eq V c t) cover0

theorem idx_facts5 : ∀ t : Fin cfg5.N, win5_0.index t (0 : Fin 2) = t.val ∧ win5_0.index t (1 : Fin 2) = 0
    ∧ win5_5.index t (0 : Fin 2) = t.val ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

theorem iblk5_0_apply (c : Dev nD) (t : Fin cfg5.N) (y : S2000x1.Idx) (i : S50000x1.Idx)
    (hi0 : (i 0).val = t.val * 2000 + (y 0).val) (hi1 : (i 1).val = (y 1).val) :
    (iblk5 V c 0 t : Vec Ideal S2000x1 .f32) y = (V c main_v64 : S50000x1.Idx → EReal) i := by
  obtain ⟨e0, e1, -⟩ := idx_facts5 t
  unfold iblk5
  rw [View.read_apply]
  show V c main_v64 _ = V c main_v64 i
  congr 1
  funext a
  apply Fin.ext
  match a with
  | ⟨0, _⟩ => show win5_0.index t 0 * 2000 + 1 * (y 0).val = (i 0).val; rw [e0, hi0]; omega
  | ⟨1, _⟩ => show win5_0.index t 1 * 1 + 1 * (y 1).val = (i 1).val; rw [e1, hi1]; omega

theorem iblk5_1_eq (c : Dev nD) (t : Fin cfg5.N) : (iblk5 V c 1 t : Vec Ideal S1x64 .f32) = V c main_arg22 := by
  obtain ⟨-, -, -, -, e0, e1, -⟩ := idx_facts5 t
  funext y
  unfold iblk5
  rw [View.read_apply]
  show V c main_arg22 _ = V c main_arg22 y
  congr 1
  funext a
  apply Fin.ext
  match a with
  | ⟨0, _⟩ => show win5_1.index t 0 * 1 + 1 * (y 0).val = (y 0).val; rw [e0]; omega
  | ⟨1, _⟩ => show win5_1.index t 1 * 64 + 1 * (y 1).val = (y 1).val; rw [e1]; omega

theorem iblk5_2_eq (c : Dev nD) (t : Fin cfg5.N) : (iblk5 V c 2 t : Vec Ideal S1x64 .f32) = V c main_v81 := by
  obtain ⟨-, -, -, -, -, -, e0, e1, -⟩ := idx_facts5 t
  funext y
  unfold iblk5
  rw [View.read_apply]
  show V c main_v81 _ = V c main_v81 y
  congr 1
  funext a
  apply Fin.ext
  match a with
  | ⟨0, _⟩ => show win5_2.index t 0 * 1 + 1 * (y 0).val = (y 0).val; rw [e0]; omega
  | ⟨1, _⟩ => show win5_2.index t 1 * 64 + 1 * (y 1).val = (y 1).val; rw [e1]; omega

theorem iblk5_3_eq (c : Dev nD) (t : Fin cfg5.N) : (iblk5 V c 3 t : Vec Ideal S64x64 .f32) = V c main_arg24 := by
  obtain ⟨-, -, -, -, -, -, -, -, e0, e1, -⟩ := idx_facts5 t
  funext y
  unfold iblk5
  rw [View.read_apply]
  show V c main_arg24 _ = V c main_arg24 y
  congr 1
  funext a
  apply Fin.ext
  match a with
  | ⟨0, _⟩ => show win5_3.index t 0 * 64 + 1 * (y 0).val = (y 0).val; rw [e0]; omega
  | ⟨1, _⟩ => show win5_3.index t 1 * 64 + 1 * (y 1).val = (y 1).val; rw [e1]; omega

theorem iblk5_4_eq (c : Dev nD) (t : Fin cfg5.N) : (iblk5 V c 4 t : Vec Ideal S1x64 .f32) = V c main_v82 := by
  obtain ⟨-, -, -, -, -, -, -, -, -, -, e0, e1⟩ := idx_facts5 t
  funext y
  unfold iblk5
  rw [View.read_apply]
  show V c main_v82 _ = V c main_v82 y
  congr 1
  funext a
  apply Fin.ext
  match a with
  | ⟨0, _⟩ => show win5_4.index t 0 * 1 + 1 * (y 0).val = (y 0).val; rw [e0]; omega
  | ⟨1, _⟩ => show win5_4.index t 1 * 64 + 1 * (y 1).val = (y 1).val; rw [e1]; omega

theorem flushed5_eq (c : Dev nD) (t : Fin cfg5.N) :
    (dat5 (F := Ideal) V c).flushed 5 t = ((cfg5.win 5).blk t).view.read (Elt Ideal)
      (EncG (V c main_v64) (V c main_arg22) (V c main_v81) (V c main_arg24) (V c main_v82)) := by
  show (cfg5.win 5).cut (grid5.coords t) ((dat5 V c).after 5 t) = _
  rw [after5_5]
  unfold out5
  rw [View.canon_unit_zero enc_hz]
  simp only [View.ld_unit_zero (S := S2000x1) enc_hz, View.ld_unit_zero (S := S1x64) enc_hz, View.ld_unit_zero (S := S64x64) enc_hz]
  rw [iblk5_1_eq, iblk5_2_eq, iblk5_3_eq, iblk5_4_eq]
  obtain ⟨-, -, e0, e1, -⟩ := idx_facts5 t
  have ht : t.val < 25 := lt_of_lt_of_eq t.isLt N_5
  funext y
  rw [View.read_apply]
  refine enc_block (k5_pay1 (F := Ideal)) k5_pay1_apply (V c main_v64) (V c main_arg22) (V c main_v81) (V c main_arg24) (V c main_v82) (iblk5 V c 0 t) t.val ht
    (fun y' i h0 h1 => iblk5_0_apply V c t y' i h0 h1) y _ ?_ ?_
  · show win5_5.index t 0 * 2000 + 1 * (y 0).val = t.val * 2000 + (y 0).val; rw [e0]; omega
  · show win5_5.index t 1 * 64 + 1 * (y 1).val = (y 1).val; rw [e1]; omega

theorem mem_blk5 (t : Fin cfg5.N) (i : S50000x64.Idx) :
    i ∈ ((cfg5.win 5).blk t).view.set ↔ ∀ a : Fin 2, win5_5.index t a * S2000x64.size a ≤ (i a).val ∧ (i a).val < win5_5.index t a * S2000x64.size a + S2000x64.size a := by
  show i ∈ ((View.whole main_v83).slice (win5_5.rect t)).set ↔ _
  rw [View.set_slice_whole, Rect.mem_set_unit]
  exact Iff.rfl

theorem cover5 (i : S50000x64.Idx) : ∃ t : Fin cfg5.N, (cfg5.win 5).flush t = true ∧ i ∈ ((cfg5.win 5).blk t).view.set := by
  have h0 : (i 0).val < 50000 := (i 0).isLt
  have h1 : (i 1).val < 64 := (i 1).isLt
  have hN : cfg5.N = 25 := N_5
  refine ⟨⟨(i 0).val / 2000, by rw [hN]; omega⟩, flush5_5 _, ?_⟩
  rw [mem_blk5]
  obtain ⟨-, -, e0, e1, -⟩ := idx_facts5 ⟨(i 0).val / 2000, by rw [hN]; omega⟩
  intro a
  match a with
  | ⟨0, _⟩ =>
    show win5_5.index _ (0 : Fin 2) * 2000 ≤ (i 0).val ∧ (i 0).val < win5_5.index _ (0 : Fin 2) * 2000 + 2000
    rw [e0]; show (i 0).val / 2000 * 2000 ≤ (i 0).val ∧ (i 0).val < (i 0).val / 2000 * 2000 + 2000; omega
  | ⟨1, _⟩ =>
    show win5_5.index _ (1 : Fin 2) * 64 ≤ (i 1).val ∧ (i 1).val < win5_5.index _ (1 : Fin 2) * 64 + 64
    rw [e1]; omega

theorem final5 (c : Dev nD) :
    ((dat5 (F := Ideal) V c).arrAt 5 cfg5.N : S50000x64.Idx → EReal)
      = EncG (V c main_v64) (V c main_arg22) (V c main_v81) (V c main_arg24) (V c main_v82) :=
  (dat5 (F := Ideal) V c).arrAt_eq_of_cover 5 (EncG (V c main_v64) (V c main_arg22) (V c main_v81) (V c main_arg24) (V c main_v82))
    (fun t _ => flushed5_eq V c t) cover5

theorem idx_facts11 : ∀ t : Fin cfg11.N, win11_0.index t (0 : Fin 2) = t.val ∧ win11_0.index t (1 : Fin 2) = 0
    ∧ win11_5.index t (0 : Fin 2) = t.val ∧ win11_5.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0 :=
  (by decide +kernel : ∀ t : Fin grid11.N, _)

theorem iblk11_0_apply (c : Dev nD) (t : Fin cfg11.N) (y : S2000x1.Idx) (i : S50000x1.Idx)
    (hi0 : (i 0).val = t.val * 2000 + (y 0).val) (hi1 : (i 1).val = (y 1).val) :
    (iblk11 V c 0 t : Vec Ideal S2000x1 .f32) y = (V c main_v131 : S50000x1.Idx → EReal) i := by
  obtain ⟨e0, e1, -⟩ := idx_facts11 t
  unfold iblk11
  rw [View.read_apply]
  show V c main_v131 _ = V c main_v131 i
  congr 1
  funext a
  apply Fin.ext
  match a with
  | ⟨0, _⟩ => show win11_0.index t 0 * 2000 + 1 * (y 0).val = (i 0).val; rw [e0, hi0]; omega
  | ⟨1, _⟩ => show win11_0.index t 1 * 1 + 1 * (y 1).val = (i 1).val; rw [e1, hi1]; omega

theorem iblk11_1_eq (c : Dev nD) (t : Fin cfg11.N) : (iblk11 V c 1 t : Vec Ideal S1x64 .f32) = V c main_arg22 := by
  obtain ⟨-, -, -, -, e0, e1, -⟩ := idx_facts11 t
  funext y
  unfold iblk11
  rw [View.read_apply]
  show V c main_arg22 _ = V c main_arg22 y
  congr 1
  funext a
  apply Fin.ext
  match a with
  | ⟨0, _⟩ => show win11_1.index t 0 * 1 + 1 * (y 0).val = (y 0).val; rw [e0]; omega
  | ⟨1, _⟩ => show win11_1.index t 1 * 64 + 1 * (y 1).val = (y 1).val; rw [e1]; omega

theorem iblk11_2_eq (c : Dev nD) (t : Fin cfg11.N) : (iblk11 V c 2 t : Vec Ideal S1x64 .f32) = V c main_v148 := by
  obtain ⟨-, -, -, -, -, -, e0, e1, -⟩ := idx_facts11 t
  funext y
  unfold iblk11
  rw [View.read_apply]
  show V c main_v148 _ = V c main_v148 y
  congr 1
  funext a
  apply Fin.ext
  match a with
  | ⟨0, _⟩ => show win11_2.index t 0 * 1 + 1 * (y 0).val = (y 0).val; rw [e0]; omega
  | ⟨1, _⟩ => show win11_2.index t 1 * 64 + 1 * (y 1).val = (y 1).val; rw [e1]; omega

theorem iblk11_3_eq (c : Dev nD) (t : Fin cfg11.N) : (iblk11 V c 3 t : Vec Ideal S64x64 .f32) = V c main_arg24 := by
  obtain ⟨-, -, -, -, -, -, -, -, e0, e1, -⟩ := idx_facts11 t
  funext y
  unfold iblk11
  rw [View.read_apply]
  show V c main_arg24 _ = V c main_arg24 y
  congr 1
  funext a
  apply Fin.ext
  match a with
  | ⟨0, _⟩ => show win11_3.index t 0 * 64 + 1 * (y 0).val = (y 0).val; rw [e0]; omega
  | ⟨1, _⟩ => show win11_3.index t 1 * 64 + 1 * (y 1).val = (y 1).val; rw [e1]; omega

theorem iblk11_4_eq (c : Dev nD) (t : Fin cfg11.N) : (iblk11 V c 4 t : Vec Ideal S1x64 .f32) = V c main_v149 := by
  obtain ⟨-, -, -, -, -, -, -, -, -, -, e0, e1⟩ := idx_facts11 t
  funext y
  unfold iblk11
  rw [View.read_apply]
  show V c main_v149 _ = V c main_v149 y
  congr 1
  funext a
  apply Fin.ext
  match a with
  | ⟨0, _⟩ => show win11_4.index t 0 * 1 + 1 * (y 0).val = (y 0).val; rw [e0]; omega
  | ⟨1, _⟩ => show win11_4.index t 1 * 64 + 1 * (y 1).val = (y 1).val; rw [e1]; omega

theorem flushed11_eq (c : Dev nD) (t : Fin cfg11.N) :
    (dat11 (F := Ideal) V c).flushed 5 t = ((cfg11.win 5).blk t).view.read (Elt Ideal)
      (EncG (V c main_v131) (V c main_arg22) (V c main_v148) (V c main_arg24) (V c main_v149)) := by
  show (cfg11.win 5).cut (grid11.coords t) ((dat11 V c).after 5 t) = _
  rw [after11_5]
  unfold out11
  rw [View.canon_unit_zero enc_hz]
  simp only [View.ld_unit_zero (S := S2000x1) enc_hz, View.ld_unit_zero (S := S1x64) enc_hz, View.ld_unit_zero (S := S64x64) enc_hz]
  rw [iblk11_1_eq, iblk11_2_eq, iblk11_3_eq, iblk11_4_eq]
  obtain ⟨-, -, e0, e1, -⟩ := idx_facts11 t
  have ht : t.val < 25 := lt_of_lt_of_eq t.isLt N_11
  funext y
  rw [View.read_apply]
  refine enc_block (k11_pay1 (F := Ideal)) k11_pay1_apply (V c main_v131) (V c main_arg22) (V c main_v148) (V c main_arg24) (V c main_v149) (iblk11 V c 0 t) t.val ht
    (fun y' i h0 h1 => iblk11_0_apply V c t y' i h0 h1) y _ ?_ ?_
  · show win11_5.index t 0 * 2000 + 1 * (y 0).val = t.val * 2000 + (y 0).val; rw [e0]; omega
  · show win11_5.index t 1 * 64 + 1 * (y 1).val = (y 1).val; rw [e1]; omega

theorem mem_blk11 (t : Fin cfg11.N) (i : S50000x64.Idx) :
    i ∈ ((cfg11.win 5).blk t).view.set ↔ ∀ a : Fin 2, win11_5.index t a * S2000x64.size a ≤ (i a).val ∧ (i a).val < win11_5.index t a * S2000x64.size a + S2000x64.size a := by
  show i ∈ ((View.whole main_v150).slice (win11_5.rect t)).set ↔ _
  rw [View.set_slice_whole, Rect.mem_set_unit]
  exact Iff.rfl

theorem cover11 (i : S50000x64.Idx) : ∃ t : Fin cfg11.N, (cfg11.win 5).flush t = true ∧ i ∈ ((cfg11.win 5).blk t).view.set := by
  have h0 : (i 0).val < 50000 := (i 0).isLt
  have h1 : (i 1).val < 64 := (i 1).isLt
  have hN : cfg11.N = 25 := N_11
  refine ⟨⟨(i 0).val / 2000, by rw [hN]; omega⟩, flush11_5 _, ?_⟩
  rw [mem_blk11]
  obtain ⟨-, -, e0, e1, -⟩ := idx_facts11 ⟨(i 0).val / 2000, by rw [hN]; omega⟩
  intro a
  match a with
  | ⟨0, _⟩ =>
    show win11_5.index _ (0 : Fin 2) * 2000 ≤ (i 0).val ∧ (i 0).val < win11_5.index _ (0 : Fin 2) * 2000 + 2000
    rw [e0]; show (i 0).val / 2000 * 2000 ≤ (i 0).val ∧ (i 0).val < (i 0).val / 2000 * 2000 + 2000; omega
  | ⟨1, _⟩ =>
    show win11_5.index _ (1 : Fin 2) * 64 ≤ (i 1).val ∧ (i 1).val < win11_5.index _ (1 : Fin 2) * 64 + 64
    rw [e1]; omega

theorem final11 (c : Dev nD) :
    ((dat11 (F := Ideal) V c).arrAt 5 cfg11.N : S50000x64.Idx → EReal)
      = EncG (V c main_v131) (V c main_arg22) (V c main_v148) (V c main_arg24) (V c main_v149) :=
  (dat11 (F := Ideal) V c).arrAt_eq_of_cover 5 (EncG (V c main_v131) (V c main_arg22) (V c main_v148) (V c main_arg24) (V c main_v149))
    (fun t _ => flushed11_eq V c t) cover11

end Cert.KernelIdeal.Val

end
-- ==== Proof.Val.EncRef.lean ====
import proofs.«138431_j79370995631014_1_alg».proof.Proof.Ref.ReadP
import proofs.«138431_j79370995631014_1_alg».proof.Proof.Val.Enc

noncomputable section

namespace Cert.ReferenceIdeal.Val

open Cert.ReferenceIdeal Cert.ReferenceIdeal.Gen Cert.ReferenceIdeal.Read
open Idealize.ShloMosaic Idealize.ShloMosaic.ValueIdx Idealize.ShloMosaic.StableHlo
open Cert.KernelIdeal.Val (EncG encAt EncG_apply)
open scoped BigOperators

theorem enc_dot1_apply (u : (⟨S50000x1, .f32⟩ : BufTy).Contents (Elt Ideal)) (w : (⟨S1x64, .f32⟩ : BufTy).Contents (Elt Ideal))
    (r : Fin 50000) (k : Fin 64) :
    Host.dotGeneral (F := Ideal) (φ₁ := .f32) (φ₂ := .f32) dot_S50000x1_S1x64_S50000x64_1_0_0_1_n_n none u w (ix2 r k) = u (ix2 r (0 : Fin 1)) * w (ix2 (0 : Fin 1) k) := by
  refine (val_main_v10_apply u w (ix2 r k)).trans ?_
  rw [Fin.sum_univ_one]
  have el : lidx_main_v10 (ix2 r k) (0 : Fin 1) = ix2 r (0 : Fin 1) := funext fun a => Fin.ext (by
    match a with
    | ⟨0, _⟩ => rfl
    | ⟨1, _⟩ => rfl)
  have er : ridx_main_v10 (ix2 r k) (0 : Fin 1) = ix2 (0 : Fin 1) k := funext fun a => Fin.ext (by
    match a with
    | ⟨0, _⟩ => rfl
    | ⟨1, _⟩ => rfl)
  rw [el, er]

theorem enc_dot2_apply (H : (⟨S50000x64, .f32⟩ : BufTy).Contents (Elt Ideal)) (w : (⟨S64x64, .f32⟩ : BufTy).Contents (Elt Ideal))
    (r : Fin 50000) (j : Fin 64) :
    Host.dotGeneral (F := Ideal) (φ₁ := .f32) (φ₂ := .f32) dot_S50000x64_S64x64_S50000x64_1_0_0_1_n_n none H w (ix2 r j) = ∑ k : Fin 64, H (ix2 r k) * w (ix2 k j) := by
  simp only [Host.dotGeneral]
  rw [Ideal.dotGeneral_apply, ← Equiv.sum_comp (contrEquiv1 dot_S50000x64_S64x64_S50000x64_1_0_0_1_n_n 64 rfl rfl).symm]
  refine Finset.sum_congr rfl fun k _ => ?_
  have hk := contrEquiv1_symm_val dot_S50000x64_S64x64_S50000x64_1_0_0_1_n_n 64 rfl rfl k
  have el : dot_S50000x64_S64x64_S50000x64_1_0_0_1_n_n.lhsIdx (ix2 r j) ((contrEquiv1 dot_S50000x64_S64x64_S50000x64_1_0_0_1_n_n 64 rfl rfl).symm k) = ix2 r k := funext fun a => Fin.ext (by
    match a with
    | ⟨0, _⟩ => exact lhs_main_v16_0 _ _
    | ⟨1, _⟩ => exact (lhs_main_v16_1 _ _).trans hk)
  have er : dot_S50000x64_S64x64_S50000x64_1_0_0_1_n_n.rhsIdx (ix2 r j) ((contrEquiv1 dot_S50000x64_S64x64_S50000x64_1_0_0_1_n_n 64 rfl rfl).symm k) = ix2 k j := funext fun a => Fin.ext (by
    match a with
    | ⟨0, _⟩ => exact (rhs_main_v16_0 _ _).trans hk
    | ⟨1, _⟩ => exact rhs_main_v16_1 _ _)
  rw [el, er]

theorem enc_bias_bcast_apply (b : (⟨S64, .f32⟩ : BufTy).Contents (Elt Ideal)) (r : Fin 50000) (j : Fin 64) :
    broadcastInDim S50000x64 ![0, 1] bcast_S1x64_S50000x64_0_1 (broadcastInDim S1x64 ![1] bcast_S64_S1x64_1 b) (ix2 r j) = b (ix1 j) := by
  refine (val_main_v12_apply b (ix2 r j)).trans ((val_main_v11_apply b _).trans (congrArg b ?_))
  funext a
  apply Fin.ext
  match a with
  | ⟨0, _⟩ => rfl

theorem enc_bias_reshape_apply (b : (⟨S64, .f32⟩ : BufTy).Contents (Elt Ideal)) (j : Fin 64) :
    shapeCast Cert.KernelIdeal.S1x64 b Cert.KernelIdeal.Gen.shapeCasts_S64_S1x64 (ix2 (0 : Fin 1) j) = b (ix1 j) :=
  shapeCast_apply b Cert.KernelIdeal.Gen.shapeCasts_S64_S1x64 (ix2 (0 : Fin 1) j) (ix1 j) (by
    rw [Shape.rowMajor_val_two, Shape.rowMajor_val_one]; show j.val = 0 * 64 + j.val; omega)

theorem enc_zero_apply (i : S50000x64.Idx) :
    broadcastInDim S50000x64 ![] bcast_S_S50000x64 (constant (F := Ideal) S_ .f32 0x00000000#32) i = (0 : EReal) := by
  refine (val_main_v14_apply (F := Ideal) i).trans ((val_main_cst_apply (F := Ideal) _).trans ?_)
  show Ideal.ofBits .f32 0x00000000#32 = 0
  exact Ideal.ofBits_zero_f32

theorem refEnc (u : (⟨S50000x1, .f32⟩ : BufTy).Contents (Elt Ideal)) (x22 : (⟨S1x64, .f32⟩ : BufTy).Contents (Elt Ideal))
    (x23 : (⟨S64, .f32⟩ : BufTy).Contents (Elt Ideal)) (x24 : (⟨S64x64, .f32⟩ : BufTy).Contents (Elt Ideal))
    (x25 : (⟨S64, .f32⟩ : BufTy).Contents (Elt Ideal)) :
    addf (Host.dotGeneral (F := Ideal) (φ₁ := .f32) (φ₂ := .f32) dot_S50000x64_S64x64_S50000x64_1_0_0_1_n_n none
        (maximumf (addf (Host.dotGeneral (F := Ideal) (φ₁ := .f32) (φ₂ := .f32) dot_S50000x1_S1x64_S50000x64_1_0_0_1_n_n none u x22)
            (broadcastInDim S50000x64 ![0, 1] bcast_S1x64_S50000x64_0_1 (broadcastInDim S1x64 ![1] bcast_S64_S1x64_1 x23)))
          (broadcastInDim S50000x64 ![] bcast_S_S50000x64 (constant (F := Ideal) S_ .f32 0x00000000#32))) x24)
      (broadcastInDim S50000x64 ![0, 1] bcast_S1x64_S50000x64_0_1 (broadcastInDim S1x64 ![1] bcast_S64_S1x64_1 x25))
      = EncG u x22 (shapeCast Cert.KernelIdeal.S1x64 x23 Cert.KernelIdeal.Gen.shapeCasts_S64_S1x64) x24
          (shapeCast Cert.KernelIdeal.S1x64 x25 Cert.KernelIdeal.Gen.shapeCasts_S64_S1x64) := by
  funext i
  obtain ⟨r, j, rfl⟩ : ∃ (r : Fin 50000) (j : Fin 64), i = ix2 r j := ⟨i 0, i 1, eq_ix2 i⟩
  rw [EncG_apply, addf_apply, enc_dot2_apply, enc_bias_bcast_apply]
  unfold encAt
  rw [enc_bias_reshape_apply]
  refine congrArg (· + x25 (ix1 j)) (Finset.sum_congr rfl fun k _ => ?_)
  rw [maximumf_apply, addf_apply, enc_dot1_apply, enc_bias_bcast_apply, enc_zero_apply, enc_bias_reshape_apply]

theorem ref_Enc_v19 (x0 : (⟨S50000x1, .f32⟩ : BufTy).Contents (Elt Ideal)) (x22 : (⟨S1x64, .f32⟩ : BufTy).Contents (Elt Ideal)) (x23 : (⟨S64, .f32⟩ : BufTy).Contents (Elt Ideal)) (x24 : (⟨S64x64, .f32⟩ : BufTy).Contents (Elt Ideal)) (x25 : (⟨S64, .f32⟩ : BufTy).Contents (Elt Ideal)) :
    val_main_v19 (F := Ideal) x0 x22 x23 x24 x25
      = EncG x0 x22 (shapeCast Cert.KernelIdeal.S1x64 x23 Cert.KernelIdeal.Gen.shapeCasts_S64_S1x64) x24 (shapeCast Cert.KernelIdeal.S1x64 x25 Cert.KernelIdeal.Gen.shapeCasts_S64_S1x64) := by
  unfold val_main_v19 val_main_v16 val_main_v15 val_main_v13 val_main_v10 val_main_v12 val_main_v11 val_main_v14 val_main_cst val_main_v18 val_main_v17
  exact refEnc x0 x22 x23 x24 x25

theorem ref_Enc_v156 (x0 : (⟨S50000x1, .f32⟩ : BufTy).Contents (Elt Ideal)) (x3 : (⟨S50000, .i32⟩ : BufTy).Contents (Elt Ideal)) (x4 : (⟨S2x800000, .i32⟩ : BufTy).Contents (Elt Ideal)) (x5 : (⟨S800000x3, .f32⟩ : BufTy).Contents (Elt Ideal)) (x7 : (⟨S50000x2, .f32⟩ : BufTy).Contents (Elt Ideal)) (x8 : (⟨S131x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S131x64, .f32⟩ : BufTy).Contents (Elt Ideal)) (x13 : (⟨S64, .f32⟩ : BufTy).Contents (Elt Ideal)) (x14 : (⟨S64x64, .f32⟩ : BufTy).Contents (Elt Ideal)) (x15 : (⟨S64, .f32⟩ : BufTy).Contents (Elt Ideal)) (x16 : (⟨S194x64, .f32⟩ : BufTy).Contents (Elt Ideal)) (x17 : (⟨S64, .f32⟩ : BufTy).Contents (Elt Ideal)) (x18 : (⟨S194x64, .f32⟩ : BufTy).Contents (Elt Ideal)) (x19 : (⟨S64, .f32⟩ : BufTy).Contents (Elt Ideal)) (x20 : (⟨S194x64, .f32⟩ : BufTy).Contents (Elt Ideal)) (x21 : (⟨S64, .f32⟩ : BufTy).Contents (Elt Ideal)) (x22 : (⟨S1x64, .f32⟩ : BufTy).Contents (Elt Ideal)) (x23 : (⟨S64, .f32⟩ : BufTy).Contents (Elt Ideal)) (x24 : (⟨S64x64, .f32⟩ : BufTy).Contents (Elt Ideal)) (x25 : (⟨S64, .f32⟩ : BufTy).Contents (Elt Ideal)) (x26 : (⟨S64x64, .f32⟩ : BufTy).Contents (Elt Ideal)) (x27 : (⟨S64, .f32⟩ : BufTy).Contents (Elt Ideal)) (x28 : (⟨S64x1, .f32⟩ : BufTy).Contents (Elt Ideal)) (x29 : (⟨S1, .f32⟩ : BufTy).Contents (Elt Ideal)) :
    val_main_v156 (F := Ideal) x0 x3 x4 x5 x7 x8 x9 x10 x11 x12 x13 x14 x15 x16 x17 x18 x19 x20 x21 x22 x23 x24 x25 x26 x27 x28 x29
      = EncG (val_main_v146 (F := Ideal) x0 x3 x4 x5 x7 x8 x9 x10 x11 x12 x13 x14 x15 x16 x17 x18 x19 x20 x21 x22 x23 x24 x25 x26 x27 x28 x29) x22 (shapeCast Cert.KernelIdeal.S1x64 x23 Cert.KernelIdeal.Gen.shapeCasts_S64_S1x64) x24 (shapeCast Cert.KernelIdeal.S1x64 x25 Cert.KernelIdeal.Gen.shapeCasts_S64_S1x64) := by
  unfold val_main_v156 val_main_v153 val_main_v152 val_main_v150 val_main_v147 val_main_v149 val_main_v148 val_main_v151 val_main_cst_23 val_main_v155 val_main_v154
  exact refEnc (val_main_v146 (F := Ideal) x0 x3 x4 x5 x7 x8 x9 x10 x11 x12 x13 x14 x15 x16 x17 x18 x19 x20 x21 x22 x23 x24 x25 x26 x27 x28 x29) x22 x23 x24 x25

theorem ref_Enc_v170 (x0 : (⟨S50000x1, .f32⟩ : BufTy).Contents (Elt Ideal)) (x3 : (⟨S50000, .i32⟩ : BufTy).Contents (Elt Ideal)) (x4 : (⟨S2x800000, .i32⟩ : BufTy).Contents (Elt Ideal)) (x5 : (⟨S800000x3, .f32⟩ : BufTy).Contents (Elt Ideal)) (x7 : (⟨S50000x2, .f32⟩ : BufTy).Contents (Elt Ideal)) (x8 : (⟨S131x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S131x64, .f32⟩ : BufTy).Contents (Elt Ideal)) (x13 : (⟨S64, .f32⟩ : BufTy).Contents (Elt Ideal)) (x14 : (⟨S64x64, .f32⟩ : BufTy).Contents (Elt Ideal)) (x15 : (⟨S64, .f32⟩ : BufTy).Contents (Elt Ideal)) (x16 : (⟨S194x64, .f32⟩ : BufTy).Contents (Elt Ideal)) (x17 : (⟨S64, .f32⟩ : BufTy).Contents (Elt Ideal)) (x18 : (⟨S194x64, .f32⟩ : BufTy).Contents (Elt Ideal)) (x19 : (⟨S64, .f32⟩ : BufTy).Contents (Elt Ideal)) (x20 : (⟨S194x64, .f32⟩ : BufTy).Contents (Elt Ideal)) (x21 : (⟨S64, .f32⟩ : BufTy).Contents (Elt Ideal)) (x22 : (⟨S1x64, .f32⟩ : BufTy).Contents (Elt Ideal)) (x23 : (⟨S64, .f32⟩ : BufTy).Contents (Elt Ideal)) (x24 : (⟨S64x64, .f32⟩ : BufTy).Contents (Elt Ideal)) (x25 : (⟨S64, .f32⟩ : BufTy).Contents (Elt Ideal)) (x26 : (⟨S64x64, .f32⟩ : BufTy).Contents (Elt Ideal)) (x27 : (⟨S64, .f32⟩ : BufTy).Contents (Elt Ideal)) (x28 : (⟨S64x1, .f32⟩ : BufTy).Contents (Elt Ideal)) (x29 : (⟨S1, .f32⟩ : BufTy).Contents (Elt Ideal)) :
    val_main_v170 (F := Ideal) x0 x3 x4 x5 x7 x8 x9 x10 x11 x12 x13 x14 x15 x16 x17 x18 x19 x20 x21 x22 x23 x24 x25 x26 x27 x28 x29
      = EncG (val_main_v120 (F := Ideal) x0 x3 x4 x5 x7 x8 x9 x10 x11 x12 x13 x14 x15 x16 x17 x18 x19 x20 x21 x22 x23 x24 x25 x26 x27 x28 x29) x22 (shapeCast Cert.KernelIdeal.S1x64 x23 Cert.KernelIdeal.Gen.shapeCasts_S64_S1x64) x24 (shapeCast Cert.KernelIdeal.S1x64 x25 Cert.KernelIdeal.Gen.shapeCasts_S64_S1x64) := by
  unfold val_main_v170 val_main_v167 val_main_v166 val_main_v164 val_main_v161 val_main_v163 val_main_v162 val_main_v165 val_main_cst_26 val_main_v169 val_main_v168
  exact refEnc (val_main_v120 (F := Ideal) x0 x3 x4 x5 x7 x8 x9 x10 x11 x12 x13 x14 x15 x16 x17 x18 x19 x20 x21 x22 x23 x24 x25 x26 x27 x28 x29) x22 x23 x24 x25

theorem ref_Enc_v325 (x0 : (⟨S50000x1, .f32⟩ : BufTy).Contents (Elt Ideal)) (x3 : (⟨S50000, .i32⟩ : BufTy).Contents (Elt Ideal)) (x4 : (⟨S2x800000, .i32⟩ : BufTy).Contents (Elt Ideal)) (x5 : (⟨S800000x3, .f32⟩ : BufTy).Contents (Elt Ideal)) (x7 : (⟨S50000x2, .f32⟩ : BufTy).Contents (Elt Ideal)) (x8 : (⟨S131x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S131x64, .f32⟩ : BufTy).Contents (Elt Ideal)) (x13 : (⟨S64, .f32⟩ : BufTy).Contents (Elt Ideal)) (x14 : (⟨S64x64, .f32⟩ : BufTy).Contents (Elt Ideal)) (x15 : (⟨S64, .f32⟩ : BufTy).Contents (Elt Ideal)) (x16 : (⟨S194x64, .f32⟩ : BufTy).Contents (Elt Ideal)) (x17 : (⟨S64, .f32⟩ : BufTy).Contents (Elt Ideal)) (x18 : (⟨S194x64, .f32⟩ : BufTy).Contents (Elt Ideal)) (x19 : (⟨S64, .f32⟩ : BufTy).Contents (Elt Ideal)) (x20 : (⟨S194x64, .f32⟩ : BufTy).Contents (Elt Ideal)) (x21 : (⟨S64, .f32⟩ : BufTy).Contents (Elt Ideal)) (x22 : (⟨S1x64, .f32⟩ : BufTy).Contents (Elt Ideal)) (x23 : (⟨S64, .f32⟩ : BufTy).Contents (Elt Ideal)) (x24 : (⟨S64x64, .f32⟩ : BufTy).Contents (Elt Ideal)) (x25 : (⟨S64, .f32⟩ : BufTy).Contents (Elt Ideal)) (x26 : (⟨S64x64, .f32⟩ : BufTy).Contents (Elt Ideal)) (x27 : (⟨S64, .f32⟩ : BufTy).Contents (Elt Ideal)) (x28 : (⟨S64x1, .f32⟩ : BufTy).Contents (Elt Ideal)) (x29 : (⟨S1, .f32⟩ : BufTy).Contents (Elt Ideal)) :
    val_main_v325 (F := Ideal) x0 x3 x4 x5 x7 x8 x9 x10 x11 x12 x13 x14 x15 x16 x17 x18 x19 x20 x21 x22 x23 x24 x25 x26 x27 x28 x29
      = EncG (val_main_v315 (F := Ideal) x0 x3 x4 x5 x7 x8 x9 x10 x11 x12 x13 x14 x15 x16 x17 x18 x19 x20 x21 x22 x23 x24 x25 x26 x27 x28 x29) x22 (shapeCast Cert.KernelIdeal.S1x64 x23 Cert.KernelIdeal.Gen.shapeCasts_S64_S1x64) x24 (shapeCast Cert.KernelIdeal.S1x64 x25 Cert.KernelIdeal.Gen.shapeCasts_S64_S1x64) := by
  unfold val_main_v325 val_main_v322 val_main_v321 val_main_v319 val_main_v316 val_main_v318 val_main_v317 val_main_v320 val_main_cst_55 val_main_v324 val_main_v323
  exact refEnc (val_main_v315 (F := Ideal) x0 x3 x4 x5 x7 x8 x9 x10 x11 x12 x13 x14 x15 x16 x17 x18 x19 x20 x21 x22 x23 x24 x25 x26 x27 x28 x29) x22 x23 x24 x25

end Cert.ReferenceIdeal.Val

end
-- ==== Proof.Val.Dec.lean ====
import proofs.«138431_j79370995631014_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen
open Idealize.ShloMosaic Idealize.ShloMosaic.ValueIdx
open scoped BigOperators

def decAt (row : Fin 64 → EReal) (w1 : Vec Ideal ⟨2, ![64, 64]⟩ .f32) (b1 : Vec Ideal ⟨2, ![1, 64]⟩ .f32)
    (w2 : Vec Ideal ⟨2, ![64, 1]⟩ .f32) (b2 : Vec Ideal ⟨2, ![1, 1]⟩ .f32) : EReal :=
  (∑ k : Fin 64, max ((∑ l : Fin 64, row l * w1 (ix2 l k)) + b1 (ix2 (0 : Fin 1) k)) 0 * w2 (ix2 k (0 : Fin 1)))
    + b2 (ix2 (0 : Fin 1) (0 : Fin 1))

def DecG (h : Vec Ideal ⟨2, ![50000, 64]⟩ .f32) (w1 : Vec Ideal ⟨2, ![64, 64]⟩ .f32) (b1 : Vec Ideal ⟨2, ![1, 64]⟩ .f32)
    (w2 : Vec Ideal ⟨2, ![64, 1]⟩ .f32) (b2 : Vec Ideal ⟨2, ![1, 1]⟩ .f32) : Vec Ideal ⟨2, ![50000, 1]⟩ .f32 :=
  fun i => decAt (fun l => h (ix2 (i 0 : Fin 50000) l)) w1 b1 w2 b2

theorem DecG_apply (h : Vec Ideal ⟨2, ![50000, 64]⟩ .f32) (w1 : Vec Ideal ⟨2, ![64, 64]⟩ .f32) (b1 : Vec Ideal ⟨2, ![1, 64]⟩ .f32)
    (w2 : Vec Ideal ⟨2, ![64, 1]⟩ .f32) (b2 : Vec Ideal ⟨2, ![1, 1]⟩ .f32) (r : Fin 50000) (q : Fin 1) :
    DecG h w1 b1 w2 b2 (ix2 r q) = decAt (fun l => h (ix2 r l)) w1 b1 w2 b2 := rfl

theorem lhs_dec1_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs_dec1_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem rhs_dec1_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem rhs_dec1_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

theorem dec_mm1_apply {φ₁ φ₂ : FTy} (h : FVec Ideal S2000x64 φ₁) (w : FVec Ideal S64x64 φ₂) (p : Fin 2000) (k : Fin 64) :
    matmul dot_S2000x64_S64x64_S2000x64_1_0_0_1_n_n none h w (constant (F := Ideal) S2000x64 .f32 0x00000000#32) (ix2 p k)
      = ∑ l : Fin 64, h (ix2 p l) * w (ix2 l k) := by
  simp only [matmul]
  rw [Ideal.matmul_constant_zero_apply, ← Equiv.sum_comp (contrEquiv1 dot_S2000x64_S64x64_S2000x64_1_0_0_1_n_n 64 rfl rfl).symm]
  refine Finset.sum_congr rfl fun l _ => ?_
  have hl := contrEquiv1_symm_val dot_S2000x64_S64x64_S2000x64_1_0_0_1_n_n 64 rfl rfl l
  have el : dot_S2000x64_S64x64_S2000x64_1_0_0_1_n_n.lhsIdx (ix2 p k) ((contrEquiv1 dot_S2000x64_S64x64_S2000x64_1_0_0_1_n_n 64 rfl rfl).symm l) = ix2 p l := funext fun d => Fin.ext (by
    match d with
    | ⟨0, _⟩ => exact lhs_dec1_0 _ _
    | ⟨1, _⟩ => exact (lhs_dec1_1 _ _).trans hl)
  have er : dot_S2000x64_S64x64_S2000x64_1_0_0_1_n_n.rhsIdx (ix2 p k) ((contrEquiv1 dot_S2000x64_S64x64_S2000x64_1_0_0_1_n_n 64 rfl rfl).symm l) = ix2 l k := funext fun d => Fin.ext (by
    match d with
    | ⟨0, _⟩ => exact (rhs_dec1_0 _ _).trans hl
    | ⟨1, _⟩ => exact rhs_dec1_1 _ _)
  rw [el, er]

theorem lhs_dec2_0 (i : S2000x1.Idx) (q : dot_S2000x64_S64x1_S2000x1_1_0_0_1_n_n.contr.Idx) :
    (dot_S2000x64_S64x1_S2000x1_1_0_0_1_n_n.lhsIdx i q 0).val = (i 0).val := by
  unfold DotDims.lhsIdx
  rw [dif_neg (show ¬(0 : Fin S2000x64.rank) ∈ dot_S2000x64_S64x1_S2000x1_1_0_0_1_n_n.lhsBatch by decide), dif_pos (show (0 : Fin S2000x64.rank) ∈ dot_S2000x64_S64x1_S2000x1_1_0_0_1_n_n.lhsNonContracting by decide)]
  rfl
theorem lhs_dec2_1 (i : S2000x1.Idx) (q : dot_S2000x64_S64x1_S2000x1_1_0_0_1_n_n.contr.Idx) :
    (dot_S2000x64_S64x1_S2000x1_1_0_0_1_n_n.lhsIdx i q 1).val = (q ⟨0, by decide⟩).val :=
  dot_S2000x64_S64x1_S2000x1_1_0_0_1_n_n.lhsIdx_val_of_single rfl i q
theorem rhs_dec2_0 (i : S2000x1.Idx) (q : dot_S2000x64_S64x1_S2000x1_1_0_0_1_n_n.contr.Idx) :
    (dot_S2000x64_S64x1_S2000x1_1_0_0_1_n_n.rhsIdx i q 0).val = (q ⟨0, by decide⟩).val :=
  dot_S2000x64_S64x1_S2000x1_1_0_0_1_n_n.rhsIdx_val_of_single rfl i q
theorem rhs_dec2_1 (i : S2000x1.Idx) (q : dot_S2000x64_S64x1_S2000x1_1_0_0_1_n_n.contr.Idx) :
    (dot_S2000x64_S64x1_S2000x1_1_0_0_1_n_n.rhsIdx i q 1).val = (i 1).val := by
  unfold DotDims.rhsIdx
  rw [dif_neg (show ¬(1 : Fin S64x1.rank) ∈ dot_S2000x64_S64x1_S2000x1_1_0_0_1_n_n.rhsBatch by decide), dif_pos (show (1 : Fin S64x1.rank) ∈ dot_S2000x64_S64x1_S2000x1_1_0_0_1_n_n.rhsNonContracting by decide)]
  rfl

theorem dec_mm2_apply {φ₁ φ₂ : FTy} (h : FVec Ideal S2000x64 φ₁) (w : FVec Ideal S64x1 φ₂) (p : Fin 2000) (q : Fin 1) :
    matmul dot_S2000x64_S64x1_S2000x1_1_0_0_1_n_n none h w (constant (F := Ideal) S2000x1 .f32 0x00000000#32) (ix2 p q)
      = ∑ k : Fin 64, h (ix2 p k) * w (ix2 k q) := by
  simp only [matmul]
  rw [Ideal.matmul_constant_zero_apply, ← Equiv.sum_comp (contrEquiv1 dot_S2000x64_S64x1_S2000x1_1_0_0_1_n_n 64 rfl rfl).symm]
  refine Finset.sum_congr rfl fun k _ => ?_
  have hk := contrEquiv1_symm_val dot_S2000x64_S64x1_S2000x1_1_0_0_1_n_n 64 rfl rfl k
  have el : dot_S2000x64_S64x1_S2000x1_1_0_0_1_n_n.lhsIdx (ix2 p q) ((contrEquiv1 dot_S2000x64_S64x1_S2000x1_1_0_0_1_n_n 64 rfl rfl).symm k) = ix2 p k := funext fun d => Fin.ext (by
    match d with
    | ⟨0, _⟩ => exact lhs_dec2_0 _ _
    | ⟨1, _⟩ => exact (lhs_dec2_1 _ _).trans hk)
  have er : dot_S2000x64_S64x1_S2000x1_1_0_0_1_n_n.rhsIdx (ix2 p q) ((contrEquiv1 dot_S2000x64_S64x1_S2000x1_1_0_0_1_n_n 64 rfl rfl).symm k) = ix2 k q := funext fun d => Fin.ext (by
    match d with
    | ⟨0, _⟩ => exact (rhs_dec2_0 _ _).trans hk
    | ⟨1, _⟩ => exact rhs_dec2_1 _ _)
  rw [el, er]

theorem dec_bias1_apply {α : Type} (b : S1x64.Idx → α) (p : Fin 2000) (k : Fin 64) :
    broadcastTo S2000x64 b broadcasts_S1x64_S2000x64 (ix2 p k) = b (ix2 (0 : Fin 1) k) := by
  refine broadcastTo_apply b broadcasts_S1x64_S2000x64 (ix2 p k) (ix2 (0 : Fin 1) k) fun a => ?_
  match a with
  | ⟨0, _⟩ => rfl
  | ⟨1, _⟩ => show k.val = if (64 : Nat) = 1 then 0 else k.val; rw [if_neg (by decide)]

theorem dec_bias2_apply {α : Type} (b : S1x1.Idx → α) (p : Fin 2000) (q : Fin 1) :
    broadcastTo S2000x1 b broadcasts_S1x1_S2000x1 (ix2 p q) = b (ix2 (0 : Fin 1) (0 : Fin 1)) := by
  refine broadcastTo_apply b broadcasts_S1x1_S2000x1 (ix2 p q) (ix2 (0 : Fin 1) (0 : Fin 1)) fun a => ?_
  match a with
  | ⟨0, _⟩ => rfl
  | ⟨1, _⟩ => rfl

theorem dec_hidden_apply (x : FVec Ideal S2000x64 .f32) (w1 : FVec Ideal S64x64 .f32) (b1 : FVec Ideal S1x64 .f32) (p : Fin 2000) (k : Fin 64) :
    maximumf (addf (matmul dot_S2000x64_S64x64_S2000x64_1_0_0_1_n_n none (truncf .bf16 x bitsLt_bf16_f32) (truncf .bf16 w1 bitsLt_bf16_f32) (constant (F := Ideal) S2000x64 .f32 0x00000000#32))
        (broadcastTo S2000x64 b1 broadcasts_S1x64_S2000x64))
      (broadcast S2000x64 (Scalar.ofBits (F := Ideal) .f32 0x00000000#32)) (ix2 p k)
      = max ((∑ l : Fin 64, x (ix2 p l) * w1 (ix2 l k)) + b1 (ix2 (0 : Fin 1) k)) 0 := by
  rw [maximumf_apply, addf_apply, dec_mm1_apply, dec_bias1_apply, broadcast_apply]
  show max _ (Ideal.ofBits .f32 0x00000000#32) = _
  rw [Ideal.ofBits_zero_f32]
  rfl

theorem k4_pay1_apply (v0 : Vec Ideal S2000x64 .f32) (v3 : Vec Ideal S64x64 .f32) (v6 : Vec Ideal S1x64 .f32)
    (v13 : Vec Ideal S64x1 .f32) (v16 : Vec Ideal S1x1 .f32) (p : Fin 2000) (q : Fin 1) :
    k4_pay1 (F := Ideal) v0 v3 v6 v13 v16 (ix2 p q) = decAt (fun l => v0 (ix2 p l)) v3 v6 v13 v16 := by
  obtain rfl : q = 0 := Subsingleton.elim _ _
  unfold k4_pay1 decAt
  simp only [shapeCast_self]
  rw [addf_apply, dec_mm2_apply, dec_bias2_apply]
  refine congrArg (· + v16 (ix2 (0 : Fin 1) (0 : Fin 1))) (Finset.sum_congr rfl fun k _ => ?_)
  rw [truncf_apply, truncf_apply, dec_hidden_apply]

theorem k6_pay1_apply (v0 : Vec Ideal S2000x64 .f32) (v3 : Vec Ideal S64x64 .f32) (v6 : Vec Ideal S1x64 .f32)
    (v13 : Vec Ideal S64x1 .f32) (v16 : Vec Ideal S1x1 .f32) (p : Fin 2000) (q : Fin 1) :
    k6_pay1 (F := Ideal) v0 v3 v6 v13 v16 (ix2 p q) = decAt (fun l => v0 (ix2 p l)) v3 v6 v13 v16 := by
  obtain rfl : q = 0 := Subsingleton.elim _ _
  unfold k6_pay1 decAt
  simp only [shapeCast_self]
  rw [addf_apply, dec_mm2_apply, dec_bias2_apply]
  refine congrArg (· + v16 (ix2 (0 : Fin 1) (0 : Fin 1))) (Finset.sum_congr rfl fun k _ => ?_)
  rw [truncf_apply, truncf_apply, dec_hidden_apply]

theorem k10_pay1_apply (v0 : Vec Ideal S2000x64 .f32) (v3 : Vec Ideal S64x64 .f32) (v6 : Vec Ideal S1x64 .f32)
    (v13 : Vec Ideal S64x1 .f32) (v16 : Vec Ideal S1x1 .f32) (p : Fin 2000) (q : Fin 1) :
    k10_pay1 (F := Ideal) v0 v3 v6 v13 v16 (ix2 p q) = decAt (fun l => v0 (ix2 p l)) v3 v6 v13 v16 := by
  obtain rfl : q = 0 := Subsingleton.elim _ _
  unfold k10_pay1 decAt
  simp only [shapeCast_self]
  rw [addf_apply, dec_mm2_apply, dec_bias2_apply]
  refine congrArg (· + v16 (ix2 (0 : Fin 1) (0 : Fin 1))) (Finset.sum_congr rfl fun k _ => ?_)
  rw [truncf_apply, truncf_apply, dec_hidden_apply]

theorem k12_pay1_apply (v0 : Vec Ideal S2000x64 .f32) (v3 : Vec Ideal S64x64 .f32) (v6 : Vec Ideal S1x64 .f32)
    (v13 : Vec Ideal S64x1 .f32) (v16 : Vec Ideal S1x1 .f32) (p : Fin 2000) (q : Fin 1) :
    k12_pay1 (F := Ideal) v0 v3 v6 v13 v16 (ix2 p q) = decAt (fun l => v0 (ix2 p l)) v3 v6 v13 v16 := by
  obtain rfl : q = 0 := Subsingleton.elim _ _
  unfold k12_pay1 decAt
  simp only [shapeCast_self]
  rw [addf_apply, dec_mm2_apply, dec_bias2_apply]
  refine congrArg (· + v16 (ix2 (0 : Fin 1) (0 : Fin 1))) (Finset.sum_congr rfl fun k _ => ?_)
  rw [truncf_apply, truncf_apply, dec_hidden_apply]

end Cert.KernelIdeal.Val

end
-- ==== Proof.Val.DecFinal.lean ====
import proofs.«138431_j79370995631014_1_alg».proof.Proof.KI.D4
import proofs.«138431_j79370995631014_1_alg».proof.Proof.KI.D6
import proofs.«138431_j79370995631014_1_alg».proof.Proof.KI.D10
import proofs.«138431_j79370995631014_1_alg».proof.Proof.KI.D12
import proofs.«138431_j79370995631014_1_alg».proof.Proof.Val.Dec
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem dec_hz : (![0, 0] : Fin 2 → Nat) = fun _ => 0 := funext fun a => by fin_cases a <;> rfl

theorem dec_block (P : Vec Ideal S2000x64 .f32 → Vec Ideal S64x64 .f32 → Vec Ideal S1x64 .f32 → Vec Ideal S64x1 .f32 → Vec Ideal S1x1 .f32 → FVec Ideal S2000x1 .f32)
    (hP : ∀ (x : Vec Ideal S2000x64 .f32) (w1 : Vec Ideal S64x64 .f32) (b1 : Vec Ideal S1x64 .f32) (w2 : Vec Ideal S64x1 .f32) (b2 : Vec Ideal S1x1 .f32) (p : Fin 2000) (q : Fin 1),
      P x w1 b1 w2 b2 (ix2 p q) = decAt (fun l => x (ix2 p l)) w1 b1 w2 b2)
    (X : Vec Ideal S50000x64 .f32) (w1 : Vec Ideal S64x64 .f32) (b1 : Vec Ideal S1x64 .f32) (w2 : Vec Ideal S64x1 .f32) (b2 : Vec Ideal S1x1 .f32)
    (x0 : Vec Ideal S2000x64 .f32) (n : Nat) (hn : n < 25)
    (hx : ∀ (y : S2000x64.Idx) (i : S50000x64.Idx), (i 0).val = n * 2000 + (y 0).val → (i 1).val = (y 1).val → x0 y = X i)
    (y : S2000x1.Idx) (i : S50000x1.Idx) (hi0 : (i 0).val = n * 2000 + (y 0).val) (hi1 : (i 1).val = (y 1).val) :
    P x0 w1 b1 w2 b2 y = DecG X w1 b1 w2 b2 i := by
  obtain ⟨p, q, rfl⟩ : ∃ (p : Fin 2000) (q : Fin 1), y = ix2 p q := ⟨y 0, y 1, eq_ix2 y⟩
  obtain ⟨r, j, rfl⟩ : ∃ (r : Fin 50000) (j : Fin 1), i = ix2 r j := ⟨i 0, i 1, eq_ix2 i⟩
  have hrow : (fun l : Fin 64 => x0 (ix2 p l)) = fun l : Fin 64 => X (ix2 r l) :=
    funext fun l => hx (ix2 p l) (ix2 r l) hi0 rfl
  rw [hP, DecG_apply, hrow]

theorem idx_facts4 : ∀ t : Fin cfg4.N, win4_0.index t (0 : Fin 2) = t.val ∧ win4_0.index t (1 : Fin 2) = 0
    ∧ win4_5.index t (0 : Fin 2) = t.val ∧ win4_5.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

theorem iblk4_0_apply (c : Dev nD) (t : Fin cfg4.N) (y : S2000x64.Idx) (i : S50000x64.Idx)
    (hi0 : (i 0).val = t.val * 2000 + (y 0).val) (hi1 : (i 1).val = (y 1).val) :
    (iblk4 V c 0 t : Vec Ideal S2000x64 .f32) y = (V c main_v61 : S50000x64.Idx → EReal) i := by
  obtain ⟨e0, e1, -⟩ := idx_facts4 t
  unfold iblk4
  rw [View.read_apply]
  show V c main_v61 _ = V c main_v61 i
  congr 1
  funext a
  apply Fin.ext
  match a with
  | ⟨0, _⟩ => show win4_0.index t 0 * 2000 + 1 * (y 0).val = (i 0).val; rw [e0, hi0]; omega
  | ⟨1, _⟩ => show win4_0.index t 1 * 64 + 1 * (y 1).val = (i 1).val; rw [e1, hi1]; omega

theorem iblk4_1_eq (c : Dev nD) (t : Fin cfg4.N) : (iblk4 V c 1 t : Vec Ideal S64x64 .f32) = V c main_arg26 := by
  obtain ⟨-, -, -, -, e0, e1, -⟩ := idx_facts4 t
  funext y
  unfold iblk4
  rw [View.read_apply]
  show V c main_arg26 _ = V c main_arg26 y
  congr 1
  funext a
  apply Fin.ext
  match a with
  | ⟨0, _⟩ => show win4_1.index t 0 * 64 + 1 * (y 0).val = (y 0).val; rw [e0]; omega
  | ⟨1, _⟩ => show win4_1.index t 1 * 64 + 1 * (y 1).val = (y 1).val; rw [e1]; omega

theorem iblk4_2_eq (c : Dev nD) (t : Fin cfg4.N) : (iblk4 V c 2 t : Vec Ideal S1x64 .f32) = V c main_v62 := by
  obtain ⟨-, -, -, -, -, -, e0, e1, -⟩ := idx_facts4 t
  funext y
  unfold iblk4
  rw [View.read_apply]
  show V c main_v62 _ = V c main_v62 y
  congr 1
  funext a
  apply Fin.ext
  match a with
  | ⟨0, _⟩ => show win4_2.index t 0 * 1 + 1 * (y 0).val = (y 0).val; rw [e0]; omega
  | ⟨1, _⟩ => show win4_2.index t 1 * 64 + 1 * (y 1).val = (y 1).val; rw [e1]; omega

theorem iblk4_3_eq (c : Dev nD) (t : Fin cfg4.N) : (iblk4 V c 3 t : Vec Ideal S64x1 .f32) = V c main_arg28 := by
  obtain ⟨-, -, -, -, -, -, -, -, e0, e1, -⟩ := idx_facts4 t
  funext y
  unfold iblk4
  rw [View.read_apply]
  show V c main_arg28 _ = V c main_arg28 y
  congr 1
  funext a
  apply Fin.ext
  match a with
  | ⟨0, _⟩ => show win4_3.index t 0 * 64 + 1 * (y 0).val = (y 0).val; rw [e0]; omega
  | ⟨1, _⟩ => show win4_3.index t 1 * 1 + 1 * (y 1).val = (y 1).val; rw [e1]; omega

theorem iblk4_4_eq (c : Dev nD) (t : Fin cfg4.N) : (iblk4 V c 4 t : Vec Ideal S1x1 .f32) = V c main_v63 := by
  obtain ⟨-, -, -, -, -, -, -, -, -, -, e0, e1⟩ := idx_facts4 t
  funext y
  unfold iblk4
  rw [View.read_apply]
  show V c main_v63 _ = V c main_v63 y
  congr 1
  funext a
  apply Fin.ext
  match a with
  | ⟨0, _⟩ => show win4_4.index t 0 * 1 + 1 * (y 0).val = (y 0).val; rw [e0]; omega
  | ⟨1, _⟩ => show win4_4.index t 1 * 1 + 1 * (y 1).val = (y 1).val; rw [e1]; omega

theorem flushed4_eq (c : Dev nD) (t : Fin cfg4.N) :
    (dat4 (F := Ideal) V c).flushed 5 t = ((cfg4.win 5).blk t).view.read (Elt Ideal)
      (DecG (V c main_v61) (V c main_arg26) (V c main_v62) (V c main_arg28) (V c main_v63)) := by
  show (cfg4.win 5).cut (grid4.coords t) ((dat4 V c).after 5 t) = _
  rw [after4_5]
  unfold out4
  rw [View.canon_unit_zero dec_hz]
  simp only [View.ld_unit_zero (S := S2000x64) dec_hz, View.ld_unit_zero (S := S64x64) dec_hz, View.ld_unit_zero (S := S1x64) dec_hz,
    View.ld_unit_zero (S := S64x1) dec_hz, View.ld_unit_zero (S := S1x1) dec_hz]
  rw [iblk4_1_eq, iblk4_2_eq, iblk4_3_eq, iblk4_4_eq]
  obtain ⟨-, -, e0, e1, -⟩ := idx_facts4 t
  have ht : t.val < 25 := lt_of_lt_of_eq t.isLt N_4
  funext y
  rw [View.read_apply]
  refine dec_block (k4_pay1 (F := Ideal)) k4_pay1_apply (V c main_v61) (V c main_arg26) (V c main_v62) (V c main_arg28) (V c main_v63) (iblk4 V c 0 t) t.val ht
    (fun y' i h0 h1 => iblk4_0_apply V c t y' i h0 h1) y _ ?_ ?_
  · show win4_5.index t 0 * 2000 + 1 * (y 0).val = t.val * 2000 + (y 0).val; rw [e0]; omega
  · show win4_5.index t 1 * 1 + 1 * (y 1).val = (y 1).val; rw [e1]; omega

theorem mem_blk4 (t : Fin cfg4.N) (i : S50000x1.Idx) :
    i ∈ ((cfg4.win 5).blk t).view.set ↔ ∀ a : Fin 2, win4_5.index t a * S2000x1.size a ≤ (i a).val ∧ (i a).val < win4_5.index t a * S2000x1.size a + S2000x1.size a := by
  show i ∈ ((View.whole main_v64).slice (win4_5.rect t)).set ↔ _
  rw [View.set_slice_whole, Rect.mem_set_unit]
  exact Iff.rfl

theorem cover4 (i : S50000x1.Idx) : ∃ t : Fin cfg4.N, (cfg4.win 5).flush t = true ∧ i ∈ ((cfg4.win 5).blk t).view.set := by
  have h0 : (i 0).val < 50000 := (i 0).isLt
  have h1 : (i 1).val < 1 := (i 1).isLt
  have hN : cfg4.N = 25 := N_4
  refine ⟨⟨(i 0).val / 2000, by rw [hN]; omega⟩, flush4_5 _, ?_⟩
  rw [mem_blk4]
  obtain ⟨-, -, e0, e1, -⟩ := idx_facts4 ⟨(i 0).val / 2000, by rw [hN]; omega⟩
  intro a
  match a with
  | ⟨0, _⟩ =>
    show win4_5.index _ (0 : Fin 2) * 2000 ≤ (i 0).val ∧ (i 0).val < win4_5.index _ (0 : Fin 2) * 2000 + 2000
    rw [e0]; show (i 0).val / 2000 * 2000 ≤ (i 0).val ∧ (i 0).val < (i 0).val / 2000 * 2000 + 2000; omega
  | ⟨1, _⟩ =>
    show win4_5.index _ (1 : Fin 2) * 1 ≤ (i 1).val ∧ (i 1).val < win4_5.index _ (1 : Fin 2) * 1 + 1
    rw [e1]; omega

theorem final4 (c : Dev nD) :
    ((dat4 (F := Ideal) V c).arrAt 5 cfg4.N : S50000x1.Idx → EReal)
      = DecG (V c main_v61) (V c main_arg26) (V c main_v62) (V c main_arg28) (V c main_v63) :=
  (dat4 (F := Ideal) V c).arrAt_eq_of_cover 5 (DecG (V c main_v61) (V c main_arg26) (V c main_v62) (V c main_arg28) (V c main_v63))
    (fun t _ => flushed4_eq V c t) cover4

theorem idx_facts6 : ∀ t : Fin cfg6.N, win6_0.index t (0 : Fin 2) = t.val ∧ win6_0.index t (1 : Fin 2) = 0
    ∧ win6_5.index t (0 : Fin 2) = t.val ∧ win6_5.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0 :=
  (by decide +kernel : ∀ t : Fin grid6.N, _)

theorem iblk6_0_apply (c : Dev nD) (t : Fin cfg6.N) (y : S2000x64.Idx) (i : S50000x64.Idx)
    (hi0 : (i 0).val = t.val * 2000 + (y 0).val) (hi1 : (i 1).val = (y 1).val) :
    (iblk6 V c 0 t : Vec Ideal S2000x64 .f32) y = (V c main_v83 : S50000x64.Idx → EReal) i := by
  obtain ⟨e0, e1, -⟩ := idx_facts6 t
  unfold iblk6
  rw [View.read_apply]
  show V c main_v83 _ = V c main_v83 i
  congr 1
  funext a
  apply Fin.ext
  match a with
  | ⟨0, _⟩ => show win6_0.index t 0 * 2000 + 1 * (y 0).val = (i 0).val; rw [e0, hi0]; omega
  | ⟨1, _⟩ => show win6_0.index t 1 * 64 + 1 * (y 1).val = (i 1).val; rw [e1, hi1]; omega

theorem iblk6_1_eq (c : Dev nD) (t : Fin cfg6.N) : (iblk6 V c 1 t : Vec Ideal S64x64 .f32) = V c main_arg26 := by
  obtain ⟨-, -, -, -, e0, e1, -⟩ := idx_facts6 t
  funext y
  unfold iblk6
  rw [View.read_apply]
  show V c main_arg26 _ = V c main_arg26 y
  congr 1
  funext a
  apply Fin.ext
  match a with
  | ⟨0, _⟩ => show win6_1.index t 0 * 64 + 1 * (y 0).val = (y 0).val; rw [e0]; omega
  | ⟨1, _⟩ => show win6_1.index t 1 * 64 + 1 * (y 1).val = (y 1).val; rw [e1]; omega

theorem iblk6_2_eq (c : Dev nD) (t : Fin cfg6.N) : (iblk6 V c 2 t : Vec Ideal S1x64 .f32) = V c main_v88 := by
  obtain ⟨-, -, -, -, -, -, e0, e1, -⟩ := idx_facts6 t
  funext y
  unfold iblk6
  rw [View.read_apply]
  show V c main_v88 _ = V c main_v88 y
  congr 1
  funext a
  apply Fin.ext
  match a with
  | ⟨0, _⟩ => show win6_2.index t 0 * 1 + 1 * (y 0).val = (y 0).val; rw [e0]; omega
  | ⟨1, _⟩ => show win6_2.index t 1 * 64 + 1 * (y 1).val = (y 1).val; rw [e1]; omega

theorem iblk6_3_eq (c : Dev nD) (t : Fin cfg6.N) : (iblk6 V c 3 t : Vec Ideal S64x1 .f32) = V c main_arg28 := by
  obtain ⟨-, -, -, -, -, -, -, -, e0, e1, -⟩ := idx_facts6 t
  funext y
  unfold iblk6
  rw [View.read_apply]
  show V c main_arg28 _ = V c main_arg28 y
  congr 1
  funext a
  apply Fin.ext
  match a with
  | ⟨0, _⟩ => show win6_3.index t 0 * 64 + 1 * (y 0).val = (y 0).val; rw [e0]; omega
  | ⟨1, _⟩ => show win6_3.index t 1 * 1 + 1 * (y 1).val = (y 1).val; rw [e1]; omega

theorem iblk6_4_eq (c : Dev nD) (t : Fin cfg6.N) : (iblk6 V c 4 t : Vec Ideal S1x1 .f32) = V c main_v89 := by
  obtain ⟨-, -, -, -, -, -, -, -, -, -, e0, e1⟩ := idx_facts6 t
  funext y
  unfold iblk6
  rw [View.read_apply]
  show V c main_v89 _ = V c main_v89 y
  congr 1
  funext a
  apply Fin.ext
  match a with
  | ⟨0, _⟩ => show win6_4.index t 0 * 1 + 1 * (y 0).val = (y 0).val; rw [e0]; omega
  | ⟨1, _⟩ => show win6_4.index t 1 * 1 + 1 * (y 1).val = (y 1).val; rw [e1]; omega

theorem flushed6_eq (c : Dev nD) (t : Fin cfg6.N) :
    (dat6 (F := Ideal) V c).flushed 5 t = ((cfg6.win 5).blk t).view.read (Elt Ideal)
      (DecG (V c main_v83) (V c main_arg26) (V c main_v88) (V c main_arg28) (V c main_v89)) := by
  show (cfg6.win 5).cut (grid6.coords t) ((dat6 V c).after 5 t) = _
  rw [after6_5]
  unfold out6
  rw [View.canon_unit_zero dec_hz]
  simp only [View.ld_unit_zero (S := S2000x64) dec_hz, View.ld_unit_zero (S := S64x64) dec_hz, View.ld_unit_zero (S := S1x64) dec_hz,
    View.ld_unit_zero (S := S64x1) dec_hz, View.ld_unit_zero (S := S1x1) dec_hz]
  rw [iblk6_1_eq, iblk6_2_eq, iblk6_3_eq, iblk6_4_eq]
  obtain ⟨-, -, e0, e1, -⟩ := idx_facts6 t
  have ht : t.val < 25 := lt_of_lt_of_eq t.isLt N_6
  funext y
  rw [View.read_apply]
  refine dec_block (k6_pay1 (F := Ideal)) k6_pay1_apply (V c main_v83) (V c main_arg26) (V c main_v88) (V c main_arg28) (V c main_v89) (iblk6 V c 0 t) t.val ht
    (fun y' i h0 h1 => iblk6_0_apply V c t y' i h0 h1) y _ ?_ ?_
  · show win6_5.index t 0 * 2000 + 1 * (y 0).val = t.val * 2000 + (y 0).val; rw [e0]; omega
  · show win6_5.index t 1 * 1 + 1 * (y 1).val = (y 1).val; rw [e1]; omega

theorem mem_blk6 (t : Fin cfg6.N) (i : S50000x1.Idx) :
    i ∈ ((cfg6.win 5).blk t).view.set ↔ ∀ a : Fin 2, win6_5.index t a * S2000x1.size a ≤ (i a).val ∧ (i a).val < win6_5.index t a * S2000x1.size a + S2000x1.size a := by
  show i ∈ ((View.whole main_v90).slice (win6_5.rect t)).set ↔ _
  rw [View.set_slice_whole, Rect.mem_set_unit]
  exact Iff.rfl

theorem cover6 (i : S50000x1.Idx) : ∃ t : Fin cfg6.N, (cfg6.win 5).flush t = true ∧ i ∈ ((cfg6.win 5).blk t).view.set := by
  have h0 : (i 0).val < 50000 := (i 0).isLt
  have h1 : (i 1).val < 1 := (i 1).isLt
  have hN : cfg6.N = 25 := N_6
  refine ⟨⟨(i 0).val / 2000, by rw [hN]; omega⟩, flush6_5 _, ?_⟩
  rw [mem_blk6]
  obtain ⟨-, -, e0, e1, -⟩ := idx_facts6 ⟨(i 0).val / 2000, by rw [hN]; omega⟩
  intro a
  match a with
  | ⟨0, _⟩ =>
    show win6_5.index _ (0 : Fin 2) * 2000 ≤ (i 0).val ∧ (i 0).val < win6_5.index _ (0 : Fin 2) * 2000 + 2000
    rw [e0]; show (i 0).val / 2000 * 2000 ≤ (i 0).val ∧ (i 0).val < (i 0).val / 2000 * 2000 + 2000; omega
  | ⟨1, _⟩ =>
    show win6_5.index _ (1 : Fin 2) * 1 ≤ (i 1).val ∧ (i 1).val < win6_5.index _ (1 : Fin 2) * 1 + 1
    rw [e1]; omega

theorem final6 (c : Dev nD) :
    ((dat6 (F := Ideal) V c).arrAt 5 cfg6.N : S50000x1.Idx → EReal)
      = DecG (V c main_v83) (V c main_arg26) (V c main_v88) (V c main_arg28) (V c main_v89) :=
  (dat6 (F := Ideal) V c).arrAt_eq_of_cover 5 (DecG (V c main_v83) (V c main_arg26) (V c main_v88) (V c main_arg28) (V c main_v89))
    (fun t _ => flushed6_eq V c t) cover6

theorem idx_facts10 : ∀ t : Fin cfg10.N, win10_0.index t (0 : Fin 2) = t.val ∧ win10_0.index t (1 : Fin 2) = 0
    ∧ win10_5.index t (0 : Fin 2) = t.val ∧ win10_5.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0 :=
  (by decide +kernel : ∀ t : Fin grid10.N, _)

theorem iblk10_0_apply (c : Dev nD) (t : Fin cfg10.N) (y : S2000x64.Idx) (i : S50000x64.Idx)
    (hi0 : (i 0).val = t.val * 2000 + (y 0).val) (hi1 : (i 1).val = (y 1).val) :
    (iblk10 V c 0 t : Vec Ideal S2000x64 .f32) y = (V c main_v128 : S50000x64.Idx → EReal) i := by
  obtain ⟨e0, e1, -⟩ := idx_facts10 t
  unfold iblk10
  rw [View.read_apply]
  show V c main_v128 _ = V c main_v128 i
  congr 1
  funext a
  apply Fin.ext
  match a with
  | ⟨0, _⟩ => show win10_0.index t 0 * 2000 + 1 * (y 0).val = (i 0).val; rw [e0, hi0]; omega
  | ⟨1, _⟩ => show win10_0.index t 1 * 64 + 1 * (y 1).val = (i 1).val; rw [e1, hi1]; omega

theorem iblk10_1_eq (c : Dev nD) (t : Fin cfg10.N) : (iblk10 V c 1 t : Vec Ideal S64x64 .f32) = V c main_arg26 := by
  obtain ⟨-, -, -, -, e0, e1, -⟩ := idx_facts10 t
  funext y
  unfold iblk10
  rw [View.read_apply]
  show V c main_arg26 _ = V c main_arg26 y
  congr 1
  funext a
  apply Fin.ext
  match a with
  | ⟨0, _⟩ => show win10_1.index t 0 * 64 + 1 * (y 0).val = (y 0).val; rw [e0]; omega
  | ⟨1, _⟩ => show win10_1.index t 1 * 64 + 1 * (y 1).val = (y 1).val; rw [e1]; omega

theorem iblk10_2_eq (c : Dev nD) (t : Fin cfg10.N) : (iblk10 V c 2 t : Vec Ideal S1x64 .f32) = V c main_v129 := by
  obtain ⟨-, -, -, -, -, -, e0, e1, -⟩ := idx_facts10 t
  funext y
  unfold iblk10
  rw [View.read_apply]
  show V c main_v129 _ = V c main_v129 y
  congr 1
  funext a
  apply Fin.ext
  match a with
  | ⟨0, _⟩ => show win10_2.index t 0 * 1 + 1 * (y 0).val = (y 0).val; rw [e0]; omega
  | ⟨1, _⟩ => show win10_2.index t 1 * 64 + 1 * (y 1).val = (y 1).val; rw [e1]; omega

theorem iblk10_3_eq (c : Dev nD) (t : Fin cfg10.N) : (iblk10 V c 3 t : Vec Ideal S64x1 .f32) = V c main_arg28 := by
  obtain ⟨-, -, -, -, -, -, -, -, e0, e1, -⟩ := idx_facts10 t
  funext y
  unfold iblk10
  rw [View.read_apply]
  show V c main_arg28 _ = V c main_arg28 y
  congr 1
  funext a
  apply Fin.ext
  match a with
  | ⟨0, _⟩ => show win10_3.index t 0 * 64 + 1 * (y 0).val = (y 0).val; rw [e0]; omega
  | ⟨1, _⟩ => show win10_3.index t 1 * 1 + 1 * (y 1).val = (y 1).val; rw [e1]; omega

theorem iblk10_4_eq (c : Dev nD) (t : Fin cfg10.N) : (iblk10 V c 4 t : Vec Ideal S1x1 .f32) = V c main_v130 := by
  obtain ⟨-, -, -, -, -, -, -, -, -, -, e0, e1⟩ := idx_facts10 t
  funext y
  unfold iblk10
  rw [View.read_apply]
  show V c main_v130 _ = V c main_v130 y
  congr 1
  funext a
  apply Fin.ext
  match a with
  | ⟨0, _⟩ => show win10_4.index t 0 * 1 + 1 * (y 0).val = (y 0).val; rw [e0]; omega
  | ⟨1, _⟩ => show win10_4.index t 1 * 1 + 1 * (y 1).val = (y 1).val; rw [e1]; omega

theorem flushed10_eq (c : Dev nD) (t : Fin cfg10.N) :
    (dat10 (F := Ideal) V c).flushed 5 t = ((cfg10.win 5).blk t).view.read (Elt Ideal)
      (DecG (V c main_v128) (V c main_arg26) (V c main_v129) (V c main_arg28) (V c main_v130)) := by
  show (cfg10.win 5).cut (grid10.coords t) ((dat10 V c).after 5 t) = _
  rw [after10_5]
  unfold out10
  rw [View.canon_unit_zero dec_hz]
  simp only [View.ld_unit_zero (S := S2000x64) dec_hz, View.ld_unit_zero (S := S64x64) dec_hz, View.ld_unit_zero (S := S1x64) dec_hz,
    View.ld_unit_zero (S := S64x1) dec_hz, View.ld_unit_zero (S := S1x1) dec_hz]
  rw [iblk10_1_eq, iblk10_2_eq, iblk10_3_eq, iblk10_4_eq]
  obtain ⟨-, -, e0, e1, -⟩ := idx_facts10 t
  have ht : t.val < 25 := lt_of_lt_of_eq t.isLt N_10
  funext y
  rw [View.read_apply]
  refine dec_block (k10_pay1 (F := Ideal)) k10_pay1_apply (V c main_v128) (V c main_arg26) (V c main_v129) (V c main_arg28) (V c main_v130) (iblk10 V c 0 t) t.val ht
    (fun y' i h0 h1 => iblk10_0_apply V c t y' i h0 h1) y _ ?_ ?_
  · show win10_5.index t 0 * 2000 + 1 * (y 0).val = t.val * 2000 + (y 0).val; rw [e0]; omega
  · show win10_5.index t 1 * 1 + 1 * (y 1).val = (y 1).val; rw [e1]; omega

theorem mem_blk10 (t : Fin cfg10.N) (i : S50000x1.Idx) :
    i ∈ ((cfg10.win 5).blk t).view.set ↔ ∀ a : Fin 2, win10_5.index t a * S2000x1.size a ≤ (i a).val ∧ (i a).val < win10_5.index t a * S2000x1.size a + S2000x1.size a := by
  show i ∈ ((View.whole main_v131).slice (win10_5.rect t)).set ↔ _
  rw [View.set_slice_whole, Rect.mem_set_unit]
  exact Iff.rfl

theorem cover10 (i : S50000x1.Idx) : ∃ t : Fin cfg10.N, (cfg10.win 5).flush t = true ∧ i ∈ ((cfg10.win 5).blk t).view.set := by
  have h0 : (i 0).val < 50000 := (i 0).isLt
  have h1 : (i 1).val < 1 := (i 1).isLt
  have hN : cfg10.N = 25 := N_10
  refine ⟨⟨(i 0).val / 2000, by rw [hN]; omega⟩, flush10_5 _, ?_⟩
  rw [mem_blk10]
  obtain ⟨-, -, e0, e1, -⟩ := idx_facts10 ⟨(i 0).val / 2000, by rw [hN]; omega⟩
  intro a
  match a with
  | ⟨0, _⟩ =>
    show win10_5.index _ (0 : Fin 2) * 2000 ≤ (i 0).val ∧ (i 0).val < win10_5.index _ (0 : Fin 2) * 2000 + 2000
    rw [e0]; show (i 0).val / 2000 * 2000 ≤ (i 0).val ∧ (i 0).val < (i 0).val / 2000 * 2000 + 2000; omega
  | ⟨1, _⟩ =>
    show win10_5.index _ (1 : Fin 2) * 1 ≤ (i 1).val ∧ (i 1).val < win10_5.index _ (1 : Fin 2) * 1 + 1
    rw [e1]; omega

theorem final10 (c : Dev nD) :
    ((dat10 (F := Ideal) V c).arrAt 5 cfg10.N : S50000x1.Idx → EReal)
      = DecG (V c main_v128) (V c main_arg26) (V c main_v129) (V c main_arg28) (V c main_v130) :=
  (dat10 (F := Ideal) V c).arrAt_eq_of_cover 5 (DecG (V c main_v128) (V c main_arg26) (V c main_v129) (V c main_arg28) (V c main_v130))
    (fun t _ => flushed10_eq V c t) cover10

theorem idx_facts12 : ∀ t : Fin cfg12.N, win12_0.index t (0 : Fin 2) = t.val ∧ win12_0.index t (1 : Fin 2) = 0
    ∧ win12_5.index t (0 : Fin 2) = t.val ∧ win12_5.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0 :=
  (by decide +kernel : ∀ t : Fin grid12.N, _)

theorem iblk12_0_apply (c : Dev nD) (t : Fin cfg12.N) (y : S2000x64.Idx) (i : S50000x64.Idx)
    (hi0 : (i 0).val = t.val * 2000 + (y 0).val) (hi1 : (i 1).val = (y 1).val) :
    (iblk12 V c 0 t : Vec Ideal S2000x64 .f32) y = (V c main_v150 : S50000x64.Idx → EReal) i := by
  obtain ⟨e0, e1, -⟩ := idx_facts12 t
  unfold iblk12
  rw [View.read_apply]
  show V c main_v150 _ = V c main_v150 i
  congr 1
  funext a
  apply Fin.ext
  match a with
  | ⟨0, _⟩ => show win12_0.index t 0 * 2000 + 1 * (y 0).val = (i 0).val; rw [e0, hi0]; omega
  | ⟨1, _⟩ => show win12_0.index t 1 * 64 + 1 * (y 1).val = (i 1).val; rw [e1, hi1]; omega

theorem iblk12_1_eq (c : Dev nD) (t : Fin cfg12.N) : (iblk12 V c 1 t : Vec Ideal S64x64 .f32) = V c main_arg26 := by
  obtain ⟨-, -, -, -, e0, e1, -⟩ := idx_facts12 t
  funext y
  unfold iblk12
  rw [View.read_apply]
  show V c main_arg26 _ = V c main_arg26 y
  congr 1
  funext a
  apply Fin.ext
  match a with
  | ⟨0, _⟩ => show win12_1.index t 0 * 64 + 1 * (y 0).val = (y 0).val; rw [e0]; omega
  | ⟨1, _⟩ => show win12_1.index t 1 * 64 + 1 * (y 1).val = (y 1).val; rw [e1]; omega

theorem iblk12_2_eq (c : Dev nD) (t : Fin cfg12.N) : (iblk12 V c 2 t : Vec Ideal S1x64 .f32) = V c main_v155 := by
  obtain ⟨-, -, -, -, -, -, e0, e1, -⟩ := idx_facts12 t
  funext y
  unfold iblk12
  rw [View.read_apply]
  show V c main_v155 _ = V c main_v155 y
  congr 1
  funext a
  apply Fin.ext
  match a with
  | ⟨0, _⟩ => show win12_2.index t 0 * 1 + 1 * (y 0).val = (y 0).val; rw [e0]; omega
  | ⟨1, _⟩ => show win12_2.index t 1 * 64 + 1 * (y 1).val = (y 1).val; rw [e1]; omega

theorem iblk12_3_eq (c : Dev nD) (t : Fin cfg12.N) : (iblk12 V c 3 t : Vec Ideal S64x1 .f32) = V c main_arg28 := by
  obtain ⟨-, -, -, -, -, -, -, -, e0, e1, -⟩ := idx_facts12 t
  funext y
  unfold iblk12
  rw [View.read_apply]
  show V c main_arg28 _ = V c main_arg28 y
  congr 1
  funext a
  apply Fin.ext
  match a with
  | ⟨0, _⟩ => show win12_3.index t 0 * 64 + 1 * (y 0).val = (y 0).val; rw [e0]; omega
  | ⟨1, _⟩ => show win12_3.index t 1 * 1 + 1 * (y 1).val = (y 1).val; rw [e1]; omega

theorem iblk12_4_eq (c : Dev nD) (t : Fin cfg12.N) : (iblk12 V c 4 t : Vec Ideal S1x1 .f32) = V c main_v156 := by
  obtain ⟨-, -, -, -, -, -, -, -, -, -, e0, e1⟩ := idx_facts12 t
  funext y
  unfold iblk12
  rw [View.read_apply]
  show V c main_v156 _ = V c main_v156 y
  congr 1
  funext a
  apply Fin.ext
  match a with
  | ⟨0, _⟩ => show win12_4.index t 0 * 1 + 1 * (y 0).val = (y 0).val; rw [e0]; omega
  | ⟨1, _⟩ => show win12_4.index t 1 * 1 + 1 * (y 1).val = (y 1).val; rw [e1]; omega

theorem flushed12_eq (c : Dev nD) (t : Fin cfg12.N) :
    (dat12 (F := Ideal) V c).flushed 5 t = ((cfg12.win 5).blk t).view.read (Elt Ideal)
      (DecG (V c main_v150) (V c main_arg26) (V c main_v155) (V c main_arg28) (V c main_v156)) := by
  show (cfg12.win 5).cut (grid12.coords t) ((dat12 V c).after 5 t) = _
  rw [after12_5]
  unfold out12
  rw [View.canon_unit_zero dec_hz]
  simp only [View.ld_unit_zero (S := S2000x64) dec_hz, View.ld_unit_zero (S := S64x64) dec_hz, View.ld_unit_zero (S := S1x64) dec_hz,
    View.ld_unit_zero (S := S64x1) dec_hz, View.ld_unit_zero (S := S1x1) dec_hz]
  rw [iblk12_1_eq, iblk12_2_eq, iblk12_3_eq, iblk12_4_eq]
  obtain ⟨-, -, e0, e1, -⟩ := idx_facts12 t
  have ht : t.val < 25 := lt_of_lt_of_eq t.isLt N_12
  funext y
  rw [View.read_apply]
  refine dec_block (k12_pay1 (F := Ideal)) k12_pay1_apply (V c main_v150) (V c main_arg26) (V c main_v155) (V c main_arg28) (V c main_v156) (iblk12 V c 0 t) t.val ht
    (fun y' i h0 h1 => iblk12_0_apply V c t y' i h0 h1) y _ ?_ ?_
  · show win12_5.index t 0 * 2000 + 1 * (y 0).val = t.val * 2000 + (y 0).val; rw [e0]; omega
  · show win12_5.index t 1 * 1 + 1 * (y 1).val = (y 1).val; rw [e1]; omega

theorem mem_blk12 (t : Fin cfg12.N) (i : S50000x1.Idx) :
    i ∈ ((cfg12.win 5).blk t).view.set ↔ ∀ a : Fin 2, win12_5.index t a * S2000x1.size a ≤ (i a).val ∧ (i a).val < win12_5.index t a * S2000x1.size a + S2000x1.size a := by
  show i ∈ ((View.whole main_v157).slice (win12_5.rect t)).set ↔ _
  rw [View.set_slice_whole, Rect.mem_set_unit]
  exact Iff.rfl

theorem cover12 (i : S50000x1.Idx) : ∃ t : Fin cfg12.N, (cfg12.win 5).flush t = true ∧ i ∈ ((cfg12.win 5).blk t).view.set := by
  have h0 : (i 0).val < 50000 := (i 0).isLt
  have h1 : (i 1).val < 1 := (i 1).isLt
  have hN : cfg12.N = 25 := N_12
  refine ⟨⟨(i 0).val / 2000, by rw [hN]; omega⟩, flush12_5 _, ?_⟩
  rw [mem_blk12]
  obtain ⟨-, -, e0, e1, -⟩ := idx_facts12 ⟨(i 0).val / 2000, by rw [hN]; omega⟩
  intro a
  match a with
  | ⟨0, _⟩ =>
    show win12_5.index _ (0 : Fin 2) * 2000 ≤ (i 0).val ∧ (i 0).val < win12_5.index _ (0 : Fin 2) * 2000 + 2000
    rw [e0]; show (i 0).val / 2000 * 2000 ≤ (i 0).val ∧ (i 0).val < (i 0).val / 2000 * 2000 + 2000; omega
  | ⟨1, _⟩ =>
    show win12_5.index _ (1 : Fin 2) * 1 ≤ (i 1).val ∧ (i 1).val < win12_5.index _ (1 : Fin 2) * 1 + 1
    rw [e1]; omega

theorem final12 (c : Dev nD) :
    ((dat12 (F := Ideal) V c).arrAt 5 cfg12.N : S50000x1.Idx → EReal)
      = DecG (V c main_v150) (V c main_arg26) (V c main_v155) (V c main_arg28) (V c main_v156) :=
  (dat12 (F := Ideal) V c).arrAt_eq_of_cover 5 (DecG (V c main_v150) (V c main_arg26) (V c main_v155) (V c main_arg28) (V c main_v156))
    (fun t _ => flushed12_eq V c t) cover12

end Cert.KernelIdeal.Val

end
-- ==== Proof.Val.DecRef.lean ====
import proofs.«138431_j79370995631014_1_alg».proof.Proof.Ref.ReadP
import proofs.«138431_j79370995631014_1_alg».proof.Proof.Val.Dec

noncomputable section

namespace Cert.ReferenceIdeal.Val

open Cert.ReferenceIdeal Cert.ReferenceIdeal.Gen Cert.ReferenceIdeal.Read
open Idealize.ShloMosaic Idealize.ShloMosaic.ValueIdx Idealize.ShloMosaic.StableHlo
open Cert.KernelIdeal.Val (DecG decAt DecG_apply)
open scoped BigOperators

theorem dec_dot1_apply (H : (⟨S50000x64, .f32⟩ : BufTy).Contents (Elt Ideal)) (w : (⟨S64x64, .f32⟩ : BufTy).Contents (Elt Ideal))
    (r : Fin 50000) (k : Fin 64) :
    Host.dotGeneral (F := Ideal) (φ₁ := .f32) (φ₂ := .f32) dot_S50000x64_S64x64_S50000x64_1_0_0_1_n_n none H w (ix2 r k) = ∑ l : Fin 64, H (ix2 r l) * w (ix2 l k) := by
  simp only [Host.dotGeneral]
  rw [Ideal.dotGeneral_apply, ← Equiv.sum_comp (contrEquiv1 dot_S50000x64_S64x64_S50000x64_1_0_0_1_n_n 64 rfl rfl).symm]
  refine Finset.sum_congr rfl fun l _ => ?_
  have hl := contrEquiv1_symm_val dot_S50000x64_S64x64_S50000x64_1_0_0_1_n_n 64 rfl rfl l
  have el : dot_S50000x64_S64x64_S50000x64_1_0_0_1_n_n.lhsIdx (ix2 r k) ((contrEquiv1 dot_S50000x64_S64x64_S50000x64_1_0_0_1_n_n 64 rfl rfl).symm l) = ix2 r l := funext fun a => Fin.ext (by
    match a with
    | ⟨0, _⟩ => exact lhs_main_v111_0 _ _
    | ⟨1, _⟩ => exact (lhs_main_v111_1 _ _).trans hl)
  have er : dot_S50000x64_S64x64_S50000x64_1_0_0_1_n_n.rhsIdx (ix2 r k) ((contrEquiv1 dot_S50000x64_S64x64_S50000x64_1_0_0_1_n_n 64 rfl rfl).symm l) = ix2 l k := funext fun a => Fin.ext (by
    match a with
    | ⟨0, _⟩ => exact (rhs_main_v111_0 _ _).trans hl
    | ⟨1, _⟩ => exact rhs_main_v111_1 _ _)
  rw [el, er]

theorem dec_dot2_apply (H : (⟨S50000x64, .f32⟩ : BufTy).Contents (Elt Ideal)) (w : (⟨S64x1, .f32⟩ : BufTy).Contents (Elt Ideal))
    (r : Fin 50000) (q : Fin 1) :
    Host.dotGeneral (F := Ideal) (φ₁ := .f32) (φ₂ := .f32) dot_S50000x64_S64x1_S50000x1_1_0_0_1_n_n none H w (ix2 r q) = ∑ k : Fin 64, H (ix2 r k) * w (ix2 k q) := by
  simp only [Host.dotGeneral]
  rw [Ideal.dotGeneral_apply, ← Equiv.sum_comp (contrEquiv1 dot_S50000x64_S64x1_S50000x1_1_0_0_1_n_n 64 rfl rfl).symm]
  refine Finset.sum_congr rfl fun k _ => ?_
  have hk := contrEquiv1_symm_val dot_S50000x64_S64x1_S50000x1_1_0_0_1_n_n 64 rfl rfl k
  have el : dot_S50000x64_S64x1_S50000x1_1_0_0_1_n_n.lhsIdx (ix2 r q) ((contrEquiv1 dot_S50000x64_S64x1_S50000x1_1_0_0_1_n_n 64 rfl rfl).symm k) = ix2 r k := funext fun a => Fin.ext (by
    match a with
    | ⟨0, _⟩ => exact lhs_main_v117_0 _ _
    | ⟨1, _⟩ => exact (lhs_main_v117_1 _ _).trans hk)
  have er : dot_S50000x64_S64x1_S50000x1_1_0_0_1_n_n.rhsIdx (ix2 r q) ((contrEquiv1 dot_S50000x64_S64x1_S50000x1_1_0_0_1_n_n 64 rfl rfl).symm k) = ix2 k q := funext fun a => Fin.ext (by
    match a with
    | ⟨0, _⟩ => exact (rhs_main_v117_0 _ _).trans hk
    | ⟨1, _⟩ => exact rhs_main_v117_1 _ _)
  rw [el, er]

theorem dec_bias1_bcast_apply (b : (⟨S64, .f32⟩ : BufTy).Contents (Elt Ideal)) (r : Fin 50000) (k : Fin 64) :
    broadcastInDim S50000x64 ![0, 1] bcast_S1x64_S50000x64_0_1 (broadcastInDim S1x64 ![1] bcast_S64_S1x64_1 b) (ix2 r k) = b (ix1 k) := by
  refine (val_main_v113_apply b (ix2 r k)).trans ((val_main_v112_apply b _).trans (congrArg b ?_))
  funext a
  apply Fin.ext
  match a with
  | ⟨0, _⟩ => rfl

theorem dec_bias2_bcast_apply (b : (⟨S1, .f32⟩ : BufTy).Contents (Elt Ideal)) (r : Fin 50000) (q : Fin 1) :
    broadcastInDim S50000x1 ![0, 1] bcast_S1x1_S50000x1_0_1 (broadcastInDim S1x1 ![1] bcast_S1_S1x1_1 b) (ix2 r q) = b (ix1 (0 : Fin 1)) := by
  refine (val_main_v119_apply b (ix2 r q)).trans ((val_main_v118_apply b _).trans (congrArg b ?_))
  funext a
  apply Fin.ext
  match a with
  | ⟨0, _⟩ => rfl

theorem dec_bias1_reshape_apply (b : (⟨S64, .f32⟩ : BufTy).Contents (Elt Ideal)) (k : Fin 64) :
    shapeCast Cert.KernelIdeal.S1x64 b Cert.KernelIdeal.Gen.shapeCasts_S64_S1x64 (ix2 (0 : Fin 1) k) = b (ix1 k) :=
  shapeCast_apply b Cert.KernelIdeal.Gen.shapeCasts_S64_S1x64 (ix2 (0 : Fin 1) k) (ix1 k) (by
    rw [Shape.rowMajor_val_two, Shape.rowMajor_val_one]; show k.val = 0 * 64 + k.val; omega)

theorem dec_bias2_reshape_apply (b : (⟨S1, .f32⟩ : BufTy).Contents (Elt Ideal)) :
    shapeCast Cert.KernelIdeal.S1x1 b Cert.KernelIdeal.Gen.shapeCasts_S1_S1x1 (ix2 (0 : Fin 1) (0 : Fin 1)) = b (ix1 (0 : Fin 1)) :=
  shapeCast_apply b Cert.KernelIdeal.Gen.shapeCasts_S1_S1x1 (ix2 (0 : Fin 1) (0 : Fin 1)) (ix1 (0 : Fin 1)) (by
    rw [Shape.rowMajor_val_two, Shape.rowMajor_val_one]; rfl)

theorem dec_zero_apply (i : S50000x64.Idx) :
    broadcastInDim S50000x64 ![] bcast_S_S50000x64 (constant (F := Ideal) S_ .f32 0x00000000#32) i = (0 : EReal) := by
  refine (val_main_v115_apply (F := Ideal) i).trans ((val_main_cst_16_apply (F := Ideal) _).trans ?_)
  show Ideal.ofBits .f32 0x00000000#32 = 0
  exact Ideal.ofBits_zero_f32

theorem refDec (h : (⟨S50000x64, .f32⟩ : BufTy).Contents (Elt Ideal)) (x26 : (⟨S64x64, .f32⟩ : BufTy).Contents (Elt Ideal))
    (x27 : (⟨S64, .f32⟩ : BufTy).Contents (Elt Ideal)) (x28 : (⟨S64x1, .f32⟩ : BufTy).Contents (Elt Ideal))
    (x29 : (⟨S1, .f32⟩ : BufTy).Contents (Elt Ideal)) :
    addf (Host.dotGeneral (F := Ideal) (φ₁ := .f32) (φ₂ := .f32) dot_S50000x64_S64x1_S50000x1_1_0_0_1_n_n none
        (maximumf (addf (Host.dotGeneral (F := Ideal) (φ₁ := .f32) (φ₂ := .f32) dot_S50000x64_S64x64_S50000x64_1_0_0_1_n_n none h x26)
            (broadcastInDim S50000x64 ![0, 1] bcast_S1x64_S50000x64_0_1 (broadcastInDim S1x64 ![1] bcast_S64_S1x64_1 x27)))
          (broadcastInDim S50000x64 ![] bcast_S_S50000x64 (constant (F := Ideal) S_ .f32 0x00000000#32))) x28)
      (broadcastInDim S50000x1 ![0, 1] bcast_S1x1_S50000x1_0_1 (broadcastInDim S1x1 ![1] bcast_S1_S1x1_1 x29))
      = DecG h x26 (shapeCast Cert.KernelIdeal.S1x64 x27 Cert.KernelIdeal.Gen.shapeCasts_S64_S1x64) x28 (shapeCast Cert.KernelIdeal.S1x1 x29 Cert.KernelIdeal.Gen.shapeCasts_S1_S1x1) := by
  funext i
  obtain ⟨r, q, rfl⟩ : ∃ (r : Fin 50000) (q : Fin 1), i = ix2 r q := ⟨i 0, i 1, eq_ix2 i⟩
  obtain rfl : q = 0 := Subsingleton.elim _ _
  rw [DecG_apply, addf_apply, dec_dot2_apply, dec_bias2_bcast_apply]
  unfold decAt
  rw [dec_bias2_reshape_apply]
  refine congrArg (· + x29 (ix1 (0 : Fin 1))) (Finset.sum_congr rfl fun k _ => ?_)
  rw [maximumf_apply, addf_apply, dec_dot1_apply, dec_bias1_bcast_apply, dec_zero_apply, dec_bias1_reshape_apply]

theorem ref_Dec_v120 (x0 : (⟨S50000x1, .f32⟩ : BufTy).Contents (Elt Ideal)) (x3 : (⟨S50000, .i32⟩ : BufTy).Contents (Elt Ideal)) (x4 : (⟨S2x800000, .i32⟩ : BufTy).Contents (Elt Ideal)) (x5 : (⟨S800000x3, .f32⟩ : BufTy).Contents (Elt Ideal)) (x7 : (⟨S50000x2, .f32⟩ : BufTy).Contents (Elt Ideal)) (x8 : (⟨S131x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S131x64, .f32⟩ : BufTy).Contents (Elt Ideal)) (x13 : (⟨S64, .f32⟩ : BufTy).Contents (Elt Ideal)) (x14 : (⟨S64x64, .f32⟩ : BufTy).Contents (Elt Ideal)) (x15 : (⟨S64, .f32⟩ : BufTy).Contents (Elt Ideal)) (x16 : (⟨S194x64, .f32⟩ : BufTy).Contents (Elt Ideal)) (x17 : (⟨S64, .f32⟩ : BufTy).Contents (Elt Ideal)) (x18 : (⟨S194x64, .f32⟩ : BufTy).Contents (Elt Ideal)) (x19 : (⟨S64, .f32⟩ : BufTy).Contents (Elt Ideal)) (x20 : (⟨S194x64, .f32⟩ : BufTy).Contents (Elt Ideal)) (x21 : (⟨S64, .f32⟩ : BufTy).Contents (Elt Ideal)) (x22 : (⟨S1x64, .f32⟩ : BufTy).Contents (Elt Ideal)) (x23 : (⟨S64, .f32⟩ : BufTy).Contents (Elt Ideal)) (x24 : (⟨S64x64, .f32⟩ : BufTy).Contents (Elt Ideal)) (x25 : (⟨S64, .f32⟩ : BufTy).Contents (Elt Ideal)) (x26 : (⟨S64x64, .f32⟩ : BufTy).Contents (Elt Ideal)) (x27 : (⟨S64, .f32⟩ : BufTy).Contents (Elt Ideal)) (x28 : (⟨S64x1, .f32⟩ : BufTy).Contents (Elt Ideal)) (x29 : (⟨S1, .f32⟩ : BufTy).Contents (Elt Ideal)) :
    val_main_v120 (F := Ideal) x0 x3 x4 x5 x7 x8 x9 x10 x11 x12 x13 x14 x15 x16 x17 x18 x19 x20 x21 x22 x23 x24 x25 x26 x27 x28 x29
      = DecG (val_main_v110 (F := Ideal) x0 x3 x4 x5 x7 x8 x9 x10 x11 x12 x13 x14 x15 x16 x17 x18 x19 x20 x21 x22 x23 x24 x25) x26 (shapeCast Cert.KernelIdeal.S1x64 x27 Cert.KernelIdeal.Gen.shapeCasts_S64_S1x64) x28 (shapeCast Cert.KernelIdeal.S1x1 x29 Cert.KernelIdeal.Gen.shapeCasts_S1_S1x1) := by
  unfold val_main_v120 val_main_v117 val_main_v116 val_main_v114 val_main_v111 val_main_v113 val_main_v112 val_main_v115 val_main_cst_16 val_main_v119 val_main_v118
  exact refDec (val_main_v110 (F := Ideal) x0 x3 x4 x5 x7 x8 x9 x10 x11 x12 x13 x14 x15 x16 x17 x18 x19 x20 x21 x22 x23 x24 x25) x26 x27 x28 x29

theorem ref_Dec_v180 (x0 : (⟨S50000x1, .f32⟩ : BufTy).Contents (Elt Ideal)) (x3 : (⟨S50000, .i32⟩ : BufTy).Contents (Elt Ideal)) (x4 : (⟨S2x800000, .i32⟩ : BufTy).Contents (Elt Ideal)) (x5 : (⟨S800000x3, .f32⟩ : BufTy).Contents (Elt Ideal)) (x7 : (⟨S50000x2, .f32⟩ : BufTy).Contents (Elt Ideal)) (x8 : (⟨S131x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S131x64, .f32⟩ : BufTy).Contents (Elt Ideal)) (x13 : (⟨S64, .f32⟩ : BufTy).Contents (Elt Ideal)) (x14 : (⟨S64x64, .f32⟩ : BufTy).Contents (Elt Ideal)) (x15 : (⟨S64, .f32⟩ : BufTy).Contents (Elt Ideal)) (x16 : (⟨S194x64, .f32⟩ : BufTy).Contents (Elt Ideal)) (x17 : (⟨S64, .f32⟩ : BufTy).Contents (Elt Ideal)) (x18 : (⟨S194x64, .f32⟩ : BufTy).Contents (Elt Ideal)) (x19 : (⟨S64, .f32⟩ : BufTy).Contents (Elt Ideal)) (x20 : (⟨S194x64, .f32⟩ : BufTy).Contents (Elt Ideal)) (x21 : (⟨S64, .f32⟩ : BufTy).Contents (Elt Ideal)) (x22 : (⟨S1x64, .f32⟩ : BufTy).Contents (Elt Ideal)) (x23 : (⟨S64, .f32⟩ : BufTy).Contents (Elt Ideal)) (x24 : (⟨S64x64, .f32⟩ : BufTy).Contents (Elt Ideal)) (x25 : (⟨S64, .f32⟩ : BufTy).Contents (Elt Ideal)) (x26 : (⟨S64x64, .f32⟩ : BufTy).Contents (Elt Ideal)) (x27 : (⟨S64, .f32⟩ : BufTy).Contents (Elt Ideal)) (x28 : (⟨S64x1, .f32⟩ : BufTy).Contents (Elt Ideal)) (x29 : (⟨S1, .f32⟩ : BufTy).Contents (Elt Ideal)) :
    val_main_v180 (F := Ideal) x0 x3 x4 x5 x7 x8 x9 x10 x11 x12 x13 x14 x15 x16 x17 x18 x19 x20 x21 x22 x23 x24 x25 x26 x27 x28 x29
      = DecG (val_main_v170 (F := Ideal) x0 x3 x4 x5 x7 x8 x9 x10 x11 x12 x13 x14 x15 x16 x17 x18 x19 x20 x21 x22 x23 x24 x25 x26 x27 x28 x29) x26 (shapeCast Cert.KernelIdeal.S1x64 x27 Cert.KernelIdeal.Gen.shapeCasts_S64_S1x64) x28 (shapeCast Cert.KernelIdeal.S1x1 x29 Cert.KernelIdeal.Gen.shapeCasts_S1_S1x1) := by
  unfold val_main_v180 val_main_v177 val_main_v176 val_main_v174 val_main_v171 val_main_v173 val_main_v172 val_main_v175 val_main_cst_27 val_main_v179 val_main_v178
  exact refDec (val_main_v170 (F := Ideal) x0 x3 x4 x5 x7 x8 x9 x10 x11 x12 x13 x14 x15 x16 x17 x18 x19 x20 x21 x22 x23 x24 x25 x26 x27 x28 x29) x26 x27 x28 x29

theorem ref_Dec_v289 (x0 : (⟨S50000x1, .f32⟩ : BufTy).Contents (Elt Ideal)) (x3 : (⟨S50000, .i32⟩ : BufTy).Contents (Elt Ideal)) (x4 : (⟨S2x800000, .i32⟩ : BufTy).Contents (Elt Ideal)) (x5 : (⟨S800000x3, .f32⟩ : BufTy).Contents (Elt Ideal)) (x7 : (⟨S50000x2, .f32⟩ : BufTy).Contents (Elt Ideal)) (x8 : (⟨S131x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S131x64, .f32⟩ : BufTy).Contents (Elt Ideal)) (x13 : (⟨S64, .f32⟩ : BufTy).Contents (Elt Ideal)) (x14 : (⟨S64x64, .f32⟩ : BufTy).Contents (Elt Ideal)) (x15 : (⟨S64, .f32⟩ : BufTy).Contents (Elt Ideal)) (x16 : (⟨S194x64, .f32⟩ : BufTy).Contents (Elt Ideal)) (x17 : (⟨S64, .f32⟩ : BufTy).Contents (Elt Ideal)) (x18 : (⟨S194x64, .f32⟩ : BufTy).Contents (Elt Ideal)) (x19 : (⟨S64, .f32⟩ : BufTy).Contents (Elt Ideal)) (x20 : (⟨S194x64, .f32⟩ : BufTy).Contents (Elt Ideal)) (x21 : (⟨S64, .f32⟩ : BufTy).Contents (Elt Ideal)) (x22 : (⟨S1x64, .f32⟩ : BufTy).Contents (Elt Ideal)) (x23 : (⟨S64, .f32⟩ : BufTy).Contents (Elt Ideal)) (x24 : (⟨S64x64, .f32⟩ : BufTy).Contents (Elt Ideal)) (x25 : (⟨S64, .f32⟩ : BufTy).Contents (Elt Ideal)) (x26 : (⟨S64x64, .f32⟩ : BufTy).Contents (Elt Ideal)) (x27 : (⟨S64, .f32⟩ : BufTy).Contents (Elt Ideal)) (x28 : (⟨S64x1, .f32⟩ : BufTy).Contents (Elt Ideal)) (x29 : (⟨S1, .f32⟩ : BufTy).Contents (Elt Ideal)) :
    val_main_v289 (F := Ideal) x0 x3 x4 x5 x7 x8 x9 x10 x11 x12 x13 x14 x15 x16 x17 x18 x19 x20 x21 x22 x23 x24 x25 x26 x27 x28 x29
      = DecG (val_main_v279 (F := Ideal) x0 x3 x4 x5 x7 x8 x9 x10 x11 x12 x13 x14 x15 x16 x17 x18 x19 x20 x21 x22 x23 x24 x25) x26 (shapeCast Cert.KernelIdeal.S1x64 x27 Cert.KernelIdeal.Gen.shapeCasts_S64_S1x64) x28 (shapeCast Cert.KernelIdeal.S1x1 x29 Cert.KernelIdeal.Gen.shapeCasts_S1_S1x1) := by
  unfold val_main_v289 val_main_v286 val_main_v285 val_main_v283 val_main_v280 val_main_v282 val_main_v281 val_main_v284 val_main_cst_48 val_main_v288 val_main_v287
  exact refDec (val_main_v279 (F := Ideal) x0 x3 x4 x5 x7 x8 x9 x10 x11 x12 x13 x14 x15 x16 x17 x18 x19 x20 x21 x22 x23 x24 x25) x26 x27 x28 x29

theorem ref_Dec_v349 (x0 : (⟨S50000x1, .f32⟩ : BufTy).Contents (Elt Ideal)) (x3 : (⟨S50000, .i32⟩ : BufTy).Contents (Elt Ideal)) (x4 : (⟨S2x800000, .i32⟩ : BufTy).Contents (Elt Ideal)) (x5 : (⟨S800000x3, .f32⟩ : BufTy).Contents (Elt Ideal)) (x7 : (⟨S50000x2, .f32⟩ : BufTy).Contents (Elt Ideal)) (x8 : (⟨S131x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S131x64, .f32⟩ : BufTy).Contents (Elt Ideal)) (x13 : (⟨S64, .f32⟩ : BufTy).Contents (Elt Ideal)) (x14 : (⟨S64x64, .f32⟩ : BufTy).Contents (Elt Ideal)) (x15 : (⟨S64, .f32⟩ : BufTy).Contents (Elt Ideal)) (x16 : (⟨S194x64, .f32⟩ : BufTy).Contents (Elt Ideal)) (x17 : (⟨S64, .f32⟩ : BufTy).Contents (Elt Ideal)) (x18 : (⟨S194x64, .f32⟩ : BufTy).Contents (Elt Ideal)) (x19 : (⟨S64, .f32⟩ : BufTy).Contents (Elt Ideal)) (x20 : (⟨S194x64, .f32⟩ : BufTy).Contents (Elt Ideal)) (x21 : (⟨S64, .f32⟩ : BufTy).Contents (Elt Ideal)) (x22 : (⟨S1x64, .f32⟩ : BufTy).Contents (Elt Ideal)) (x23 : (⟨S64, .f32⟩ : BufTy).Contents (Elt Ideal)) (x24 : (⟨S64x64, .f32⟩ : BufTy).Contents (Elt Ideal)) (x25 : (⟨S64, .f32⟩ : BufTy).Contents (Elt Ideal)) (x26 : (⟨S64x64, .f32⟩ : BufTy).Contents (Elt Ideal)) (x27 : (⟨S64, .f32⟩ : BufTy).Contents (Elt Ideal)) (x28 : (⟨S64x1, .f32⟩ : BufTy).Contents (Elt Ideal)) (x29 : (⟨S1, .f32⟩ : BufTy).Contents (Elt Ideal)) :
    val_main_v349 (F := Ideal) x0 x3 x4 x5 x7 x8 x9 x10 x11 x12 x13 x14 x15 x16 x17 x18 x19 x20 x21 x22 x23 x24 x25 x26 x27 x28 x29
      = DecG (val_main_v339 (F := Ideal) x0 x3 x4 x5 x7 x8 x9 x10 x11 x12 x13 x14 x15 x16 x17 x18 x19 x20 x21 x22 x23 x24 x25 x26 x27 x28 x29) x26 (shapeCast Cert.KernelIdeal.S1x64 x27 Cert.KernelIdeal.Gen.shapeCasts_S64_S1x64) x28 (shapeCast Cert.KernelIdeal.S1x1 x29 Cert.KernelIdeal.Gen.shapeCasts_S1_S1x1) := by
  unfold val_main_v349 val_main_v346 val_main_v345 val_main_v343 val_main_v340 val_main_v342 val_main_v341 val_main_v344 val_main_cst_59 val_main_v348 val_main_v347
  exact refDec (val_main_v339 (F := Ideal) x0 x3 x4 x5 x7 x8 x9 x10 x11 x12 x13 x14 x15 x16 x17 x18 x19 x20 x21 x22 x23 x24 x25 x26 x27 x28 x29) x26 x27 x28 x29

end Cert.ReferenceIdeal.Val

end
-- ==== Proof.Val.Msg.lean ====
import Idealize.ShloMosaic.Lib.Pipeline.Value
import Idealize.ShloMosaic.Lib.ValueIdx
import Idealize.ShloMosaic.Lib.ValueLayout
import Idealize.ShloMosaic.PureOps.Ideal.Laws
import proofs.«138431_j79370995631014_1_alg».proof.Proof.Gen.KernelIdeal.Skeleton

noncomputable section

open scoped BigOperators

namespace Cert.KernelIdeal.Val

open Cert.KernelIdeal Cert.KernelIdeal.Gen Idealize.ShloMosaic Idealize.ShloMosaic.ValueIdx

def msgRow (hi hj : Fin 64 → EReal) (ea : Fin 3 → EReal) (mask : EReal)
    (w1i w1j : Vec Ideal S64x64 .f32) (w1ea : Vec Ideal S3x64 .f32) (b1 : Vec Ideal S1x64 .f32)
    (w2 : Vec Ideal S64x64 .f32) (b2 : Vec Ideal S1x64 .f32) (j : Fin 64) : EReal :=
  ((∑ k : Fin 64, max ((((∑ l : Fin 64, hi l * w1i (ix2 l k)) + (∑ l : Fin 64, hj l * w1j (ix2 l k)))
        + (∑ l : Fin 3, ea l * w1ea (ix2 l k))) + b1 (ix2 (0 : Fin 1) k)) 0 * w2 (ix2 k j))
      + b2 (ix2 (0 : Fin 1) j)) * mask

def MsgG (hi hj : Vec Ideal S800000x64 .f32) (ea : Vec Ideal S800000x3 .f32) (mask : Vec Ideal S800000x1 .f32)
    (w1i w1j : Vec Ideal S64x64 .f32) (w1ea : Vec Ideal S3x64 .f32) (b1 : Vec Ideal S1x64 .f32)
    (w2 : Vec Ideal S64x64 .f32) (b2 : Vec Ideal S1x64 .f32) : Vec Ideal S800000x64 .f32 :=
  fun i => msgRow (fun l => hi (ix2 (i 0) l)) (fun l => hj (ix2 (i 0) l)) (fun l => ea (ix2 (i 0) l))
    (mask (ix2 (i 0) (0 : Fin 1))) w1i w1j w1ea b1 w2 b2 (i 1)

theorem MsgG_apply (hi hj : Vec Ideal S800000x64 .f32) (ea : Vec Ideal S800000x3 .f32) (mask : Vec Ideal S800000x1 .f32)
    (w1i w1j : Vec Ideal S64x64 .f32) (w1ea : Vec Ideal S3x64 .f32) (b1 : Vec Ideal S1x64 .f32)
    (w2 : Vec Ideal S64x64 .f32) (b2 : Vec Ideal S1x64 .f32) (e : Fin 800000) (j : Fin 64) :
    MsgG hi hj ea mask w1i w1j w1ea b1 w2 b2 (ix2 e j)
      = msgRow (fun l => hi (ix2 e l)) (fun l => hj (ix2 e l)) (fun l => ea (ix2 e l)) (mask (ix2 e (0 : Fin 1)))
          w1i w1j w1ea b1 w2 b2 j := rfl

theorem lhs_mm64_0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
theorem lhs_mm64_1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
theorem rhs_mm64_0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
theorem rhs_mm64_1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

theorem lhs_mm3_0 (i : S4000x64.Idx) (q : dot_S4000x3_S3x64_S4000x64_1_0_0_1_n_n.contr.Idx) :
    (dot_S4000x3_S3x64_S4000x64_1_0_0_1_n_n.lhsIdx i q 0).val = (i 0).val := by
  unfold DotDims.lhsIdx
  rw [dif_neg (show ¬(0 : Fin S4000x3.rank) ∈ dot_S4000x3_S3x64_S4000x64_1_0_0_1_n_n.lhsBatch by decide), dif_pos (show (0 : Fin S4000x3.rank) ∈ dot_S4000x3_S3x64_S4000x64_1_0_0_1_n_n.lhsNonContracting by decide)]
  rfl
theorem lhs_mm3_1 (i : S4000x64.Idx) (q : dot_S4000x3_S3x64_S4000x64_1_0_0_1_n_n.contr.Idx) :
    (dot_S4000x3_S3x64_S4000x64_1_0_0_1_n_n.lhsIdx i q 1).val = (q ⟨0, by decide⟩).val :=
  dot_S4000x3_S3x64_S4000x64_1_0_0_1_n_n.lhsIdx_val_of_single rfl i q
theorem rhs_mm3_0 (i : S4000x64.Idx) (q : dot_S4000x3_S3x64_S4000x64_1_0_0_1_n_n.contr.Idx) :
    (dot_S4000x3_S3x64_S4000x64_1_0_0_1_n_n.rhsIdx i q 0).val = (q ⟨0, by decide⟩).val :=
  dot_S4000x3_S3x64_S4000x64_1_0_0_1_n_n.rhsIdx_val_of_single rfl i q
theorem rhs_mm3_1 (i : S4000x64.Idx) (q : dot_S4000x3_S3x64_S4000x64_1_0_0_1_n_n.contr.Idx) :
    (dot_S4000x3_S3x64_S4000x64_1_0_0_1_n_n.rhsIdx i q 1).val = (i 1).val := by
  unfold DotDims.rhsIdx
  rw [dif_neg (show ¬(1 : Fin S3x64.rank) ∈ dot_S4000x3_S3x64_S4000x64_1_0_0_1_n_n.rhsBatch by decide), dif_pos (show (1 : Fin S3x64.rank) ∈ dot_S4000x3_S3x64_S4000x64_1_0_0_1_n_n.rhsNonContracting by decide)]
  rfl

theorem mm64_apply (x : FVec Ideal S4000x64 .bf16) (w : FVec Ideal S64x64 .bf16) (p : Fin 4000) (q : Fin 64) :
    matmul dot_S4000x64_S64x64_S4000x64_1_0_0_1_n_n none x w (constant (F := Ideal) S4000x64 .f32 0x00000000#32) (ix2 p q)
      = ∑ l : Fin 64, x (ix2 p l) * w (ix2 l q) := by
  simp only [matmul]
  rw [Ideal.matmul_constant_zero_apply, ← Equiv.sum_comp (contrEquiv1 dot_S4000x64_S64x64_S4000x64_1_0_0_1_n_n 64 rfl rfl).symm]
  refine Finset.sum_congr rfl fun k _ => ?_
  have hk := contrEquiv1_symm_val dot_S4000x64_S64x64_S4000x64_1_0_0_1_n_n 64 rfl rfl k
  have el : dot_S4000x64_S64x64_S4000x64_1_0_0_1_n_n.lhsIdx (ix2 p q) ((contrEquiv1 dot_S4000x64_S64x64_S4000x64_1_0_0_1_n_n 64 rfl rfl).symm k) = ix2 p k := funext fun a => Fin.ext (by
    match a with
    | ⟨0, _⟩ => exact lhs_mm64_0 _ _
    | ⟨1, _⟩ => exact (lhs_mm64_1 _ _).trans hk)
  have er : dot_S4000x64_S64x64_S4000x64_1_0_0_1_n_n.rhsIdx (ix2 p q) ((contrEquiv1 dot_S4000x64_S64x64_S4000x64_1_0_0_1_n_n 64 rfl rfl).symm k) = ix2 k q := funext fun a => Fin.ext (by
    match a with
    | ⟨0, _⟩ => exact (rhs_mm64_0 _ _).trans hk
    | ⟨1, _⟩ => exact rhs_mm64_1 _ _)
  rw [el, er]

theorem mm3_apply (x : FVec Ideal S4000x3 .bf16) (w : FVec Ideal S3x64 .bf16) (p : Fin 4000) (q : Fin 64) :
    matmul dot_S4000x3_S3x64_S4000x64_1_0_0_1_n_n none x w (constant (F := Ideal) S4000x64 .f32 0x00000000#32) (ix2 p q)
      = ∑ l : Fin 3, x (ix2 p l) * w (ix2 l q) := by
  simp only [matmul]
  rw [Ideal.matmul_constant_zero_apply, ← Equiv.sum_comp (contrEquiv1 dot_S4000x3_S3x64_S4000x64_1_0_0_1_n_n 3 rfl rfl).symm]
  refine Finset.sum_congr rfl fun k _ => ?_
  have hk := contrEquiv1_symm_val dot_S4000x3_S3x64_S4000x64_1_0_0_1_n_n 3 rfl rfl k
  have el : dot_S4000x3_S3x64_S4000x64_1_0_0_1_n_n.lhsIdx (ix2 p q) ((contrEquiv1 dot_S4000x3_S3x64_S4000x64_1_0_0_1_n_n 3 rfl rfl).symm k) = ix2 p k := funext fun a => Fin.ext (by
    match a with
    | ⟨0, _⟩ => exact lhs_mm3_0 _ _
    | ⟨1, _⟩ => exact (lhs_mm3_1 _ _).trans hk)
  have er : dot_S4000x3_S3x64_S4000x64_1_0_0_1_n_n.rhsIdx (ix2 p q) ((contrEquiv1 dot_S4000x3_S3x64_S4000x64_1_0_0_1_n_n 3 rfl rfl).symm k) = ix2 k q := funext fun a => Fin.ext (by
    match a with
    | ⟨0, _⟩ => exact (rhs_mm3_0 _ _).trans hk
    | ⟨1, _⟩ => exact rhs_mm3_1 _ _)
  rw [el, er]

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

def msgPart (v0 v3 : Vec Ideal S4000x64 .f32) (v6 : Vec Ideal S4000x3 .f32) (v8 v11 : Vec Ideal S64x64 .f32) (v14 : Vec Ideal S3x64 .f32) (v22 : Vec Ideal S1x64 .f32) (v29 : Vec Ideal S64x64 .f32) (v32 : Vec Ideal S1x64 .f32) : FVec Ideal S4000x64 .f32 :=
  addf (matmul dot_S4000x64_S64x64_S4000x64_1_0_0_1_n_n none
      (truncf .bf16 (maximumf
        (addf (addf (addf
            (matmul dot_S4000x64_S64x64_S4000x64_1_0_0_1_n_n none (truncf .bf16 v0 bitsLt_bf16_f32) (truncf .bf16 v8 bitsLt_bf16_f32) (constant (F := Ideal) S4000x64 .f32 0x00000000#32))
            (matmul dot_S4000x64_S64x64_S4000x64_1_0_0_1_n_n none (truncf .bf16 v3 bitsLt_bf16_f32) (truncf .bf16 v11 bitsLt_bf16_f32) (constant (F := Ideal) S4000x64 .f32 0x00000000#32)))
            (matmul dot_S4000x3_S3x64_S4000x64_1_0_0_1_n_n none (truncf .bf16 v6 bitsLt_bf16_f32) (truncf .bf16 v14 bitsLt_bf16_f32) (constant (F := Ideal) S4000x64 .f32 0x00000000#32)))
          (broadcastTo S4000x64 v22 broadcasts_S1x64_S4000x64))
        (broadcast S4000x64 (Scalar.ofBits (F := Ideal) .f32 0x00000000#32))) bitsLt_bf16_f32)
      (truncf .bf16 v29 bitsLt_bf16_f32) (constant (F := Ideal) S4000x64 .f32 0x00000000#32))
    (broadcastTo S4000x64 v32 broadcasts_S1x64_S4000x64)

def msgTop (v35 : FVec Ideal S4000x64 .f32) (v36 : Vec Ideal S4000x1 .f32) : FVec Ideal S4000x64 .f32 :=
  mulf v35 (broadcastTo S4000x64 v36 broadcasts_S4000x1_S4000x64)

theorem msgTop_msgPart_apply (hi hj : Vec Ideal S4000x64 .f32) (ea : Vec Ideal S4000x3 .f32) (mask : Vec Ideal S4000x1 .f32)
    (w1i w1j : Vec Ideal S64x64 .f32) (w1ea : Vec Ideal S3x64 .f32) (b1 : Vec Ideal S1x64 .f32)
    (w2 : Vec Ideal S64x64 .f32) (b2 : Vec Ideal S1x64 .f32) (p : Fin 4000) (q : Fin 64) :
    msgTop (msgPart hi hj ea w1i w1j w1ea b1 w2 b2) mask (ix2 p q)
      = msgRow (fun l => hi (ix2 p l)) (fun l => hj (ix2 p l)) (fun l => ea (ix2 p l)) (mask (ix2 p (0 : Fin 1)))
          w1i w1j w1ea b1 w2 b2 q := by
  unfold msgTop msgPart msgRow
  simp only [mulf_apply, addf_apply, maximumf_apply, truncf_apply, broadcast_apply, mm64_apply, mm3_apply,
    broadcastTo_1b_ab_apply, broadcastTo_a1_ab_apply]
  rw [show Scalar.ofBits (F := Ideal) .f32 0x00000000#32 = (0 : EReal) from Ideal.ofBits_zero_f32]

theorem k1_pay2_eq (v0 v3 : Vec Ideal S4000x64 .f32) (v6 : Vec Ideal S4000x3 .f32) (v8 v11 : Vec Ideal S64x64 .f32) (v14 : Vec Ideal S3x64 .f32) (v22 : Vec Ideal S1x64 .f32) (v29 : Vec Ideal S64x64 .f32) (v32 : Vec Ideal S1x64 .f32) :
    k1_pay2 (F := Ideal) v0 v3 v6 v8 v11 v14 v22 v29 v32 = msgPart v0 v3 v6 v8 v11 v14 v22 v29 v32 := by
  unfold k1_pay2 msgPart
  simp only [shapeCast_self]

theorem k1_pay1_eq (v35 : FVec Ideal S4000x64 .f32) (v36 : Vec Ideal S4000x1 .f32) :
    k1_pay1 (F := Ideal) v35 v36 = msgTop v35 v36 := by
  unfold k1_pay1 msgTop
  simp only [shapeCast_self]

theorem k1_pay_apply (hi hj : Vec Ideal S4000x64 .f32) (ea : Vec Ideal S4000x3 .f32) (mask : Vec Ideal S4000x1 .f32)
    (w1i w1j : Vec Ideal S64x64 .f32) (w1ea : Vec Ideal S3x64 .f32) (b1 : Vec Ideal S1x64 .f32)
    (w2 : Vec Ideal S64x64 .f32) (b2 : Vec Ideal S1x64 .f32) (p : Fin 4000) (q : Fin 64) :
    k1_pay1 (F := Ideal) (k1_pay2 (F := Ideal) hi hj ea w1i w1j w1ea b1 w2 b2) mask (ix2 p q)
      = msgRow (fun l => hi (ix2 p l)) (fun l => hj (ix2 p l)) (fun l => ea (ix2 p l)) (mask (ix2 p (0 : Fin 1)))
          w1i w1j w1ea b1 w2 b2 q := by
  rw [k1_pay2_eq, k1_pay1_eq]
  exact msgTop_msgPart_apply hi hj ea mask w1i w1j w1ea b1 w2 b2 p q

theorem k2_pay2_eq (v0 v3 : Vec Ideal S4000x64 .f32) (v6 : Vec Ideal S4000x3 .f32) (v8 v11 : Vec Ideal S64x64 .f32) (v14 : Vec Ideal S3x64 .f32) (v22 : Vec Ideal S1x64 .f32) (v29 : Vec Ideal S64x64 .f32) (v32 : Vec Ideal S1x64 .f32) :
    k2_pay2 (F := Ideal) v0 v3 v6 v8 v11 v14 v22 v29 v32 = msgPart v0 v3 v6 v8 v11 v14 v22 v29 v32 := by
  unfold k2_pay2 msgPart
  simp only [shapeCast_self]

theorem k2_pay1_eq (v35 : FVec Ideal S4000x64 .f32) (v36 : Vec Ideal S4000x1 .f32) :
    k2_pay1 (F := Ideal) v35 v36 = msgTop v35 v36 := by
  unfold k2_pay1 msgTop
  simp only [shapeCast_self]

theorem k2_pay_apply (hi hj : Vec Ideal S4000x64 .f32) (ea : Vec Ideal S4000x3 .f32) (mask : Vec Ideal S4000x1 .f32)
    (w1i w1j : Vec Ideal S64x64 .f32) (w1ea : Vec Ideal S3x64 .f32) (b1 : Vec Ideal S1x64 .f32)
    (w2 : Vec Ideal S64x64 .f32) (b2 : Vec Ideal S1x64 .f32) (p : Fin 4000) (q : Fin 64) :
    k2_pay1 (F := Ideal) (k2_pay2 (F := Ideal) hi hj ea w1i w1j w1ea b1 w2 b2) mask (ix2 p q)
      = msgRow (fun l => hi (ix2 p l)) (fun l => hj (ix2 p l)) (fun l => ea (ix2 p l)) (mask (ix2 p (0 : Fin 1)))
          w1i w1j w1ea b1 w2 b2 q := by
  rw [k2_pay2_eq, k2_pay1_eq]
  exact msgTop_msgPart_apply hi hj ea mask w1i w1j w1ea b1 w2 b2 p q

theorem k7_pay2_eq (v0 v3 : Vec Ideal S4000x64 .f32) (v6 : Vec Ideal S4000x3 .f32) (v8 v11 : Vec Ideal S64x64 .f32) (v14 : Vec Ideal S3x64 .f32) (v22 : Vec Ideal S1x64 .f32) (v29 : Vec Ideal S64x64 .f32) (v32 : Vec Ideal S1x64 .f32) :
    k7_pay2 (F := Ideal) v0 v3 v6 v8 v11 v14 v22 v29 v32 = msgPart v0 v3 v6 v8 v11 v14 v22 v29 v32 := by
  unfold k7_pay2 msgPart
  simp only [shapeCast_self]

theorem k7_pay1_eq (v35 : FVec Ideal S4000x64 .f32) (v36 : Vec Ideal S4000x1 .f32) :
    k7_pay1 (F := Ideal) v35 v36 = msgTop v35 v36 := by
  unfold k7_pay1 msgTop
  simp only [shapeCast_self]

theorem k7_pay_apply (hi hj : Vec Ideal S4000x64 .f32) (ea : Vec Ideal S4000x3 .f32) (mask : Vec Ideal S4000x1 .f32)
    (w1i w1j : Vec Ideal S64x64 .f32) (w1ea : Vec Ideal S3x64 .f32) (b1 : Vec Ideal S1x64 .f32)
    (w2 : Vec Ideal S64x64 .f32) (b2 : Vec Ideal S1x64 .f32) (p : Fin 4000) (q : Fin 64) :
    k7_pay1 (F := Ideal) (k7_pay2 (F := Ideal) hi hj ea w1i w1j w1ea b1 w2 b2) mask (ix2 p q)
      = msgRow (fun l => hi (ix2 p l)) (fun l => hj (ix2 p l)) (fun l => ea (ix2 p l)) (mask (ix2 p (0 : Fin 1)))
          w1i w1j w1ea b1 w2 b2 q := by
  rw [k7_pay2_eq, k7_pay1_eq]
  exact msgTop_msgPart_apply hi hj ea mask w1i w1j w1ea b1 w2 b2 p q

theorem k8_pay2_eq (v0 v3 : Vec Ideal S4000x64 .f32) (v6 : Vec Ideal S4000x3 .f32) (v8 v11 : Vec Ideal S64x64 .f32) (v14 : Vec Ideal S3x64 .f32) (v22 : Vec Ideal S1x64 .f32) (v29 : Vec Ideal S64x64 .f32) (v32 : Vec Ideal S1x64 .f32) :
    k8_pay2 (F := Ideal) v0 v3 v6 v8 v11 v14 v22 v29 v32 = msgPart v0 v3 v6 v8 v11 v14 v22 v29 v32 := by
  unfold k8_pay2 msgPart
  simp only [shapeCast_self]

theorem k8_pay1_eq (v35 : FVec Ideal S4000x64 .f32) (v36 : Vec Ideal S4000x1 .f32) :
    k8_pay1 (F := Ideal) v35 v36 = msgTop v35 v36 := by
  unfold k8_pay1 msgTop
  simp only [shapeCast_self]

theorem k8_pay_apply (hi hj : Vec Ideal S4000x64 .f32) (ea : Vec Ideal S4000x3 .f32) (mask : Vec Ideal S4000x1 .f32)
    (w1i w1j : Vec Ideal S64x64 .f32) (w1ea : Vec Ideal S3x64 .f32) (b1 : Vec Ideal S1x64 .f32)
    (w2 : Vec Ideal S64x64 .f32) (b2 : Vec Ideal S1x64 .f32) (p : Fin 4000) (q : Fin 64) :
    k8_pay1 (F := Ideal) (k8_pay2 (F := Ideal) hi hj ea w1i w1j w1ea b1 w2 b2) mask (ix2 p q)
      = msgRow (fun l => hi (ix2 p l)) (fun l => hj (ix2 p l)) (fun l => ea (ix2 p l)) (mask (ix2 p (0 : Fin 1)))
          w1i w1j w1ea b1 w2 b2 q := by
  rw [k8_pay2_eq, k8_pay1_eq]
  exact msgTop_msgPart_apply hi hj ea mask w1i w1j w1ea b1 w2 b2 p q

end Cert.KernelIdeal.Val

end
-- ==== Proof.Val.MsgFinal1.lean ====
import proofs.«138431_j79370995631014_1_alg».proof.Proof.Val.Msg
import proofs.«138431_j79370995631014_1_alg».proof.Proof.KI.D1
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = t.val ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_9 : ∀ t : Fin cfg1.N, win1_9.index t (0 : Fin 2) = 0 ∧ win1_9.index t (1 : Fin 2) = 0 :=
  (by decide +kernel : ∀ t : Fin grid1.N, _)
theorem idx1_10 : ∀ t : Fin cfg1.N, win1_10.index t (0 : Fin 2) = t.val ∧ win1_10.index t (1 : Fin 2) = 0 :=
  (by decide +kernel : ∀ t : Fin grid1.N, _)

theorem iblk1_0_apply (c : Dev nD) (t : Fin cfg1.N) (p : Fin 4000) (l : Fin 64) (e : Fin 800000)
    (he : e.val = 4000 * t.val + p.val) :
    (iblk1 V c 0 t : Vec Ideal S4000x64 .f32) (ix2 p l) = (V c main_v38 : Vec Ideal S800000x64 .f32) (ix2 e l) := by
  obtain ⟨h0, h1⟩ := idx1_0 t
  unfold iblk1
  rw [View.read_apply]
  show V c main_v38 _ = V c main_v38 _
  congr 1
  funext a
  apply Fin.ext
  match a with
  | ⟨0, _⟩ => show win1_0.index t 0 * 4000 + 1 * p.val = e.val; rw [h0, he]; omega
  | ⟨1, _⟩ => show win1_0.index t 1 * 64 + 1 * l.val = l.val; rw [h1]; omega

theorem iblk1_1_apply (c : Dev nD) (t : Fin cfg1.N) (p : Fin 4000) (l : Fin 64) (e : Fin 800000)
    (he : e.val = 4000 * t.val + p.val) :
    (iblk1 V c 1 t : Vec Ideal S4000x64 .f32) (ix2 p l) = (V c main_v45 : Vec Ideal S800000x64 .f32) (ix2 e l) := by
  obtain ⟨h0, h1⟩ := idx1_1 t
  unfold iblk1
  rw [View.read_apply]
  show V c main_v45 _ = V c main_v45 _
  congr 1
  funext a
  apply Fin.ext
  match a with
  | ⟨0, _⟩ => show win1_1.index t 0 * 4000 + 1 * p.val = e.val; rw [h0, he]; omega
  | ⟨1, _⟩ => show win1_1.index t 1 * 64 + 1 * l.val = l.val; rw [h1]; omega

theorem iblk1_2_apply (c : Dev nD) (t : Fin cfg1.N) (p : Fin 4000) (l : Fin 3) (e : Fin 800000)
    (he : e.val = 4000 * t.val + p.val) :
    (iblk1 V c 2 t : Vec Ideal S4000x3 .f32) (ix2 p l) = (V c main_arg5 : Vec Ideal S800000x3 .f32) (ix2 e l) := by
  obtain ⟨h0, h1⟩ := idx1_2 t
  unfold iblk1
  rw [View.read_apply]
  show V c main_arg5 _ = V c main_arg5 _
  congr 1
  funext a
  apply Fin.ext
  match a with
  | ⟨0, _⟩ => show win1_2.index t 0 * 4000 + 1 * p.val = e.val; rw [h0, he]; omega
  | ⟨1, _⟩ => show win1_2.index t 1 * 3 + 1 * l.val = l.val; rw [h1]; omega

theorem iblk1_3_apply (c : Dev nD) (t : Fin cfg1.N) (p : Fin 4000) (l : Fin 1) (e : Fin 800000)
    (he : e.val = 4000 * t.val + p.val) :
    (iblk1 V c 3 t : Vec Ideal S4000x1 .f32) (ix2 p l) = (V c main_v6 : Vec Ideal S800000x1 .f32) (ix2 e l) := by
  obtain ⟨h0, h1⟩ := idx1_3 t
  unfold iblk1
  rw [View.read_apply]
  show V c main_v6 _ = V c main_v6 _
  congr 1
  funext a
  apply Fin.ext
  match a with
  | ⟨0, _⟩ => show win1_3.index t 0 * 4000 + 1 * p.val = e.val; rw [h0, he]; omega
  | ⟨1, _⟩ => show win1_3.index t 1 * 1 + 1 * l.val = l.val; rw [h1]; omega

theorem iblk1_4_eq (c : Dev nD) (t : Fin cfg1.N) : (iblk1 V c 4 t : Vec Ideal S64x64 .f32) = V c main_v14 := by
  obtain ⟨h0, h1⟩ := idx1_4 t
  funext y
  unfold iblk1
  rw [View.read_apply]
  show V c main_v14 _ = V c main_v14 y
  congr 1
  funext a
  apply Fin.ext
  match a with
  | ⟨0, _⟩ => show win1_4.index t 0 * 64 + 1 * (y 0).val = (y 0).val; rw [h0]; omega
  | ⟨1, _⟩ => show win1_4.index t 1 * 64 + 1 * (y 1).val = (y 1).val; rw [h1]; omega

theorem iblk1_5_eq (c : Dev nD) (t : Fin cfg1.N) : (iblk1 V c 5 t : Vec Ideal S64x64 .f32) = V c main_v15 := by
  obtain ⟨h0, h1⟩ := idx1_5 t
  funext y
  unfold iblk1
  rw [View.read_apply]
  show V c main_v15 _ = V c main_v15 y
  congr 1
  funext a
  apply Fin.ext
  match a with
  | ⟨0, _⟩ => show win1_5.index t 0 * 64 + 1 * (y 0).val = (y 0).val; rw [h0]; omega
  | ⟨1, _⟩ => show win1_5.index t 1 * 64 + 1 * (y 1).val = (y 1).val; rw [h1]; omega

theorem iblk1_6_eq (c : Dev nD) (t : Fin cfg1.N) : (iblk1 V c 6 t : Vec Ideal S3x64 .f32) = V c main_v16 := by
  obtain ⟨h0, h1⟩ := idx1_6 t
  funext y
  unfold iblk1
  rw [View.read_apply]
  show V c main_v16 _ = V c main_v16 y
  congr 1
  funext a
  apply Fin.ext
  match a with
  | ⟨0, _⟩ => show win1_6.index t 0 * 3 + 1 * (y 0).val = (y 0).val; rw [h0]; omega
  | ⟨1, _⟩ => show win1_6.index t 1 * 64 + 1 * (y 1).val = (y 1).val; rw [h1]; omega

theorem iblk1_7_eq (c : Dev nD) (t : Fin cfg1.N) : (iblk1 V c 7 t : Vec Ideal S1x64 .f32) = V c main_v46 := by
  obtain ⟨h0, h1⟩ := idx1_7 t
  funext y
  unfold iblk1
  rw [View.read_apply]
  show V c main_v46 _ = V c main_v46 y
  congr 1
  funext a
  apply Fin.ext
  match a with
  | ⟨0, _⟩ => show win1_7.index t 0 * 1 + 1 * (y 0).val = (y 0).val; rw [h0]; omega
  | ⟨1, _⟩ => show win1_7.index t 1 * 64 + 1 * (y 1).val = (y 1).val; rw [h1]; omega

theorem iblk1_8_eq (c : Dev nD) (t : Fin cfg1.N) : (iblk1 V c 8 t : Vec Ideal S64x64 .f32) = V c main_arg10 := by
  obtain ⟨h0, h1⟩ := idx1_8 t
  funext y
  unfold iblk1
  rw [View.read_apply]
  show V c main_arg10 _ = V c main_arg10 y
  congr 1
  funext a
  apply Fin.ext
  match a with
  | ⟨0, _⟩ => show win1_8.index t 0 * 64 + 1 * (y 0).val = (y 0).val; rw [h0]; omega
  | ⟨1, _⟩ => show win1_8.index t 1 * 64 + 1 * (y 1).val = (y 1).val; rw [h1]; omega

theorem iblk1_9_eq (c : Dev nD) (t : Fin cfg1.N) : (iblk1 V c 9 t : Vec Ideal S1x64 .f32) = V c main_v47 := by
  obtain ⟨h0, h1⟩ := idx1_9 t
  funext y
  unfold iblk1
  rw [View.read_apply]
  show V c main_v47 _ = V c main_v47 y
  congr 1
  funext a
  apply Fin.ext
  match a with
  | ⟨0, _⟩ => show win1_9.index t 0 * 1 + 1 * (y 0).val = (y 0).val; rw [h0]; omega
  | ⟨1, _⟩ => show win1_9.index t 1 * 64 + 1 * (y 1).val = (y 1).val; rw [h1]; omega

theorem out1_apply (hi hj : Vec Ideal S4000x64 .f32) (ea : Vec Ideal S4000x3 .f32) (mask : Vec Ideal S4000x1 .f32)
    (w1i w1j : Vec Ideal S64x64 .f32) (w1ea : Vec Ideal S3x64 .f32) (b1 : Vec Ideal S1x64 .f32)
    (w2 : Vec Ideal S64x64 .f32) (b2 : Vec Ideal S1x64 .f32) (p : Fin 4000) (q : Fin 64) :
    out1 (F := Ideal) hi hj ea mask w1i w1j w1ea b1 w2 b2 (ix2 p q)
      = msgRow (fun l => hi (ix2 p l)) (fun l => hj (ix2 p l)) (fun l => ea (ix2 p l)) (mask (ix2 p (0 : Fin 1)))
          w1i w1j w1ea b1 w2 b2 q := by
  unfold out1
  rw [View.canon_unit_zero hz1]
  simp only [View.ld_unit_zero (S := S4000x64) hz1, View.ld_unit_zero (S := S4000x3) hz1, View.ld_unit_zero (S := S4000x1) hz1,
    View.ld_unit_zero (S := S64x64) hz1, View.ld_unit_zero (S := S3x64) hz1, View.ld_unit_zero (S := S1x64) hz1]
  exact k1_pay_apply hi hj ea mask w1i w1j w1ea b1 w2 b2 p q

theorem emb1_10 (t : Fin cfg1.N) (y : ((cfg1.win 10).xblock (cfg1.grid.coords t)).Idx) (q : Fin 64) (e : Fin 800000)
    (he : e.val = 4000 * t.val + (y 0).val) (hq : q.val = (y 1).val) :
    ((cfg1.win 10).blk t).view.emb y = (ix2 e q : S800000x64.Idx) := by
  obtain ⟨h0, h1⟩ := idx1_10 t
  funext a
  apply Fin.ext
  match a with
  | ⟨0, _⟩ => show win1_10.index t 0 * 4000 + 1 * (y 0).val = e.val; rw [h0, he]; omega
  | ⟨1, _⟩ => show win1_10.index t 1 * 64 + 1 * (y 1).val = q.val; rw [h1, hq]; omega

theorem flushed1_eq (c : Dev nD) (t : Fin cfg1.N) :
    (dat1 V c).flushed 10 t = ((cfg1.win 10).blk t).view.read (Elt Ideal)
      (MsgG (V c main_v38) (V c main_v45) (V c main_arg5) (V c main_v6) (V c main_v14) (V c main_v15) (V c main_v16) (V c main_v46)
      (V c main_arg10) (V c main_v47)) := by
  have hN : cfg1.N = 200 := N_1
  show (cfg1.win 10).cut (grid1.coords t) ((dat1 V c).after 10 t) = _
  rw [after1_10]
  funext y
  have hp : (y 0).val < 4000 := (y 0).isLt
  have hq : (y 1).val < 64 := (y 1).isLt
  have ht : t.val < 200 := hN ▸ t.isLt
  have hx : (cfg1.win 10).xinj (grid1.coords t) y = (ix2 (⟨(y 0).val, hp⟩ : Fin 4000) (⟨(y 1).val, hq⟩ : Fin 64) : S4000x64.Idx) :=
    funext fun a => Fin.ext (by
      match a with
      | ⟨0, _⟩ => rfl
      | ⟨1, _⟩ => rfl)
  rw [View.read_apply,
    emb1_10 t y ⟨(y 1).val, hq⟩ ⟨4000 * t.val + (y 0).val, by omega⟩ rfl rfl, MsgG_apply]
  refine (congrArg (out1 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)) hx).trans ?_
  refine (out1_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) ⟨(y 0).val, hp⟩ ⟨(y 1).val, hq⟩).trans ?_
  have r0 := funext fun l : Fin 64 => iblk1_0_apply V c t ⟨(y 0).val, hp⟩ l ⟨4000 * t.val + (y 0).val, by omega⟩ rfl
  have r1 := funext fun l : Fin 64 => iblk1_1_apply V c t ⟨(y 0).val, hp⟩ l ⟨4000 * t.val + (y 0).val, by omega⟩ rfl
  have r2 := funext fun l : Fin 3 => iblk1_2_apply V c t ⟨(y 0).val, hp⟩ l ⟨4000 * t.val + (y 0).val, by omega⟩ rfl
  have r3 := iblk1_3_apply V c t ⟨(y 0).val, hp⟩ (0 : Fin 1) ⟨4000 * t.val + (y 0).val, by omega⟩ rfl
  rw [r0, r1, r2, r3, iblk1_4_eq V c t, iblk1_5_eq V c t, iblk1_6_eq V c t, iblk1_7_eq V c t, iblk1_8_eq V c t, iblk1_9_eq V c t]
  exact (cast_eq _ _).symm

theorem mem_blk1 (t : Fin cfg1.N) (i : S800000x64.Idx) :
    i ∈ ((cfg1.win 10).blk t).view.set ↔ ∀ a : Fin 2, win1_10.index t a * S4000x64.size a ≤ (i a).val
      ∧ (i a).val < win1_10.index t a * S4000x64.size a + S4000x64.size a := by
  show i ∈ ((View.whole main_v48).slice (win1_10.rect t)).set ↔ _
  rw [View.set_slice_whole, Rect.mem_set_unit]
  exact Iff.rfl

theorem covered1 (i : S800000x64.Idx) :
    ∃ t : Fin cfg1.N, (cfg1.win 10).flush t = true ∧ i ∈ ((cfg1.win 10).blk t).view.set := by
  have hN : cfg1.N = 200 := N_1
  have hi0 : (i 0).val < 800000 := (i 0).isLt
  have hi1 : (i 1).val < 64 := (i 1).isLt
  have ht : (i 0).val / 4000 < cfg1.N := by rw [hN]; omega
  obtain ⟨e0, e1⟩ := idx1_10 ⟨(i 0).val / 4000, ht⟩
  refine ⟨⟨(i 0).val / 4000, ht⟩, flush1_10 _, ?_⟩
  rw [mem_blk1]
  intro a
  match a with
  | ⟨0, _⟩ =>
    show win1_10.index ⟨(i 0).val / 4000, ht⟩ 0 * 4000 ≤ (i 0).val ∧ (i 0).val < win1_10.index ⟨(i 0).val / 4000, ht⟩ 0 * 4000 + 4000
    rw [e0]
    show (i 0).val / 4000 * 4000 ≤ (i 0).val ∧ (i 0).val < (i 0).val / 4000 * 4000 + 4000
    omega
  | ⟨1, _⟩ =>
    show win1_10.index ⟨(i 0).val / 4000, ht⟩ 1 * 64 ≤ (i 1).val ∧ (i 1).val < win1_10.index ⟨(i 0).val / 4000, ht⟩ 1 * 64 + 64
    rw [e1]
    omega

theorem final1 (c : Dev nD) :
    ((dat1 (F := Ideal) V c).arrAt 10 cfg1.N : S800000x64.Idx → EReal)
      = MsgG (V c main_v38) (V c main_v45) (V c main_arg5) (V c main_v6) (V c main_v14) (V c main_v15) (V c main_v16) (V c main_v46)
          (V c main_arg10) (V c main_v47) :=
  (dat1 (F := Ideal) V c).arrAt_eq_of_cover 10
    (MsgG (V c main_v38) (V c main_v45) (V c main_arg5) (V c main_v6) (V c main_v14) (V c main_v15) (V c main_v16) (V c main_v46)
      (V c main_arg10) (V c main_v47))
    (fun t _ => flushed1_eq V c t) covered1

end Cert.KernelIdeal.Val

end
-- ==== Proof.Val.MsgFinal2.lean ====
import proofs.«138431_j79370995631014_1_alg».proof.Proof.Val.Msg
import proofs.«138431_j79370995631014_1_alg».proof.Proof.KI.D2
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = t.val ∧ win2_1.index t (1 : Fin 2) = 0 :=
  (by decide +kernel : ∀ t : Fin grid2.N, _)
theorem idx2_2 : ∀ t : Fin cfg2.N, win2_2.index t (0 : Fin 2) = t.val ∧ win2_2.index t (1 : Fin 2) = 0 :=
  (by decide +kernel : ∀ t : Fin grid2.N, _)
theorem idx2_3 : ∀ t : Fin cfg2.N, win2_3.index t (0 : Fin 2) = t.val ∧ win2_3.index t (1 : Fin 2) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)
theorem idx2_5 : ∀ t : Fin cfg2.N, win2_5.index t (0 : Fin 2) = 0 ∧ win2_5.index t (1 : Fin 2) = 0 :=
  (by decide +kernel : ∀ t : Fin grid2.N, _)
theorem idx2_6 : ∀ t : Fin cfg2.N, win2_6.index t (0 : Fin 2) = 0 ∧ win2_6.index t (1 : Fin 2) = 0 :=
  (by decide +kernel : ∀ t : Fin grid2.N, _)
theorem idx2_7 : ∀ t : Fin cfg2.N, win2_7.index t (0 : Fin 2) = 0 ∧ win2_7.index t (1 : Fin 2) = 0 :=
  (by decide +kernel : ∀ t : Fin grid2.N, _)
theorem idx2_8 : ∀ t : Fin cfg2.N, win2_8.index t (0 : Fin 2) = 0 ∧ win2_8.index t (1 : Fin 2) = 0 :=
  (by decide +kernel : ∀ t : Fin grid2.N, _)
theorem idx2_9 : ∀ t : Fin cfg2.N, win2_9.index t (0 : Fin 2) = 0 ∧ win2_9.index t (1 : Fin 2) = 0 :=
  (by decide +kernel : ∀ t : Fin grid2.N, _)
theorem idx2_10 : ∀ t : Fin cfg2.N, win2_10.index t (0 : Fin 2) = t.val ∧ win2_10.index t (1 : Fin 2) = 0 :=
  (by decide +kernel : ∀ t : Fin grid2.N, _)

theorem iblk2_0_apply (c : Dev nD) (t : Fin cfg2.N) (p : Fin 4000) (l : Fin 64) (e : Fin 800000)
    (he : e.val = 4000 * t.val + p.val) :
    (iblk2 V c 0 t : Vec Ideal S4000x64 .f32) (ix2 p l) = (V c main_v45 : Vec Ideal S800000x64 .f32) (ix2 e l) := by
  obtain ⟨h0, h1⟩ := idx2_0 t
  unfold iblk2
  rw [View.read_apply]
  show V c main_v45 _ = V c main_v45 _
  congr 1
  funext a
  apply Fin.ext
  match a with
  | ⟨0, _⟩ => show win2_0.index t 0 * 4000 + 1 * p.val = e.val; rw [h0, he]; omega
  | ⟨1, _⟩ => show win2_0.index t 1 * 64 + 1 * l.val = l.val; rw [h1]; omega

theorem iblk2_1_apply (c : Dev nD) (t : Fin cfg2.N) (p : Fin 4000) (l : Fin 64) (e : Fin 800000)
    (he : e.val = 4000 * t.val + p.val) :
    (iblk2 V c 1 t : Vec Ideal S4000x64 .f32) (ix2 p l) = (V c main_v38 : Vec Ideal S800000x64 .f32) (ix2 e l) := by
  obtain ⟨h0, h1⟩ := idx2_1 t
  unfold iblk2
  rw [View.read_apply]
  show V c main_v38 _ = V c main_v38 _
  congr 1
  funext a
  apply Fin.ext
  match a with
  | ⟨0, _⟩ => show win2_1.index t 0 * 4000 + 1 * p.val = e.val; rw [h0, he]; omega
  | ⟨1, _⟩ => show win2_1.index t 1 * 64 + 1 * l.val = l.val; rw [h1]; omega

theorem iblk2_2_apply (c : Dev nD) (t : Fin cfg2.N) (p : Fin 4000) (l : Fin 3) (e : Fin 800000)
    (he : e.val = 4000 * t.val + p.val) :
    (iblk2 V c 2 t : Vec Ideal S4000x3 .f32) (ix2 p l) = (V c main_arg5 : Vec Ideal S800000x3 .f32) (ix2 e l) := by
  obtain ⟨h0, h1⟩ := idx2_2 t
  unfold iblk2
  rw [View.read_apply]
  show V c main_arg5 _ = V c main_arg5 _
  congr 1
  funext a
  apply Fin.ext
  match a with
  | ⟨0, _⟩ => show win2_2.index t 0 * 4000 + 1 * p.val = e.val; rw [h0, he]; omega
  | ⟨1, _⟩ => show win2_2.index t 1 * 3 + 1 * l.val = l.val; rw [h1]; omega

theorem iblk2_3_apply (c : Dev nD) (t : Fin cfg2.N) (p : Fin 4000) (l : Fin 1) (e : Fin 800000)
    (he : e.val = 4000 * t.val + p.val) :
    (iblk2 V c 3 t : Vec Ideal S4000x1 .f32) (ix2 p l) = (V c main_v6 : Vec Ideal S800000x1 .f32) (ix2 e l) := by
  obtain ⟨h0, h1⟩ := idx2_3 t
  unfold iblk2
  rw [View.read_apply]
  show V c main_v6 _ = V c main_v6 _
  congr 1
  funext a
  apply Fin.ext
  match a with
  | ⟨0, _⟩ => show win2_3.index t 0 * 4000 + 1 * p.val = e.val; rw [h0, he]; omega
  | ⟨1, _⟩ => show win2_3.index t 1 * 1 + 1 * l.val = l.val; rw [h1]; omega

theorem iblk2_4_eq (c : Dev nD) (t : Fin cfg2.N) : (iblk2 V c 4 t : Vec Ideal S64x64 .f32) = V c main_v17 := by
  obtain ⟨h0, h1⟩ := idx2_4 t
  funext y
  unfold iblk2
  rw [View.read_apply]
  show V c main_v17 _ = V c main_v17 y
  congr 1
  funext a
  apply Fin.ext
  match a with
  | ⟨0, _⟩ => show win2_4.index t 0 * 64 + 1 * (y 0).val = (y 0).val; rw [h0]; omega
  | ⟨1, _⟩ => show win2_4.index t 1 * 64 + 1 * (y 1).val = (y 1).val; rw [h1]; omega

theorem iblk2_5_eq (c : Dev nD) (t : Fin cfg2.N) : (iblk2 V c 5 t : Vec Ideal S64x64 .f32) = V c main_v18 := by
  obtain ⟨h0, h1⟩ := idx2_5 t
  funext y
  unfold iblk2
  rw [View.read_apply]
  show V c main_v18 _ = V c main_v18 y
  congr 1
  funext a
  apply Fin.ext
  match a with
  | ⟨0, _⟩ => show win2_5.index t 0 * 64 + 1 * (y 0).val = (y 0).val; rw [h0]; omega
  | ⟨1, _⟩ => show win2_5.index t 1 * 64 + 1 * (y 1).val = (y 1).val; rw [h1]; omega

theorem iblk2_6_eq (c : Dev nD) (t : Fin cfg2.N) : (iblk2 V c 6 t : Vec Ideal S3x64 .f32) = V c main_v19 := by
  obtain ⟨h0, h1⟩ := idx2_6 t
  funext y
  unfold iblk2
  rw [View.read_apply]
  show V c main_v19 _ = V c main_v19 y
  congr 1
  funext a
  apply Fin.ext
  match a with
  | ⟨0, _⟩ => show win2_6.index t 0 * 3 + 1 * (y 0).val = (y 0).val; rw [h0]; omega
  | ⟨1, _⟩ => show win2_6.index t 1 * 64 + 1 * (y 1).val = (y 1).val; rw [h1]; omega

theorem iblk2_7_eq (c : Dev nD) (t : Fin cfg2.N) : (iblk2 V c 7 t : Vec Ideal S1x64 .f32) = V c main_v49 := by
  obtain ⟨h0, h1⟩ := idx2_7 t
  funext y
  unfold iblk2
  rw [View.read_apply]
  show V c main_v49 _ = V c main_v49 y
  congr 1
  funext a
  apply Fin.ext
  match a with
  | ⟨0, _⟩ => show win2_7.index t 0 * 1 + 1 * (y 0).val = (y 0).val; rw [h0]; omega
  | ⟨1, _⟩ => show win2_7.index t 1 * 64 + 1 * (y 1).val = (y 1).val; rw [h1]; omega

theorem iblk2_8_eq (c : Dev nD) (t : Fin cfg2.N) : (iblk2 V c 8 t : Vec Ideal S64x64 .f32) = V c main_arg14 := by
  obtain ⟨h0, h1⟩ := idx2_8 t
  funext y
  unfold iblk2
  rw [View.read_apply]
  show V c main_arg14 _ = V c main_arg14 y
  congr 1
  funext a
  apply Fin.ext
  match a with
  | ⟨0, _⟩ => show win2_8.index t 0 * 64 + 1 * (y 0).val = (y 0).val; rw [h0]; omega
  | ⟨1, _⟩ => show win2_8.index t 1 * 64 + 1 * (y 1).val = (y 1).val; rw [h1]; omega

theorem iblk2_9_eq (c : Dev nD) (t : Fin cfg2.N) : (iblk2 V c 9 t : Vec Ideal S1x64 .f32) = V c main_v50 := by
  obtain ⟨h0, h1⟩ := idx2_9 t
  funext y
  unfold iblk2
  rw [View.read_apply]
  show V c main_v50 _ = V c main_v50 y
  congr 1
  funext a
  apply Fin.ext
  match a with
  | ⟨0, _⟩ => show win2_9.index t 0 * 1 + 1 * (y 0).val = (y 0).val; rw [h0]; omega
  | ⟨1, _⟩ => show win2_9.index t 1 * 64 + 1 * (y 1).val = (y 1).val; rw [h1]; omega

theorem out2_apply (hi hj : Vec Ideal S4000x64 .f32) (ea : Vec Ideal S4000x3 .f32) (mask : Vec Ideal S4000x1 .f32)
    (w1i w1j : Vec Ideal S64x64 .f32) (w1ea : Vec Ideal S3x64 .f32) (b1 : Vec Ideal S1x64 .f32)
    (w2 : Vec Ideal S64x64 .f32) (b2 : Vec Ideal S1x64 .f32) (p : Fin 4000) (q : Fin 64) :
    out2 (F := Ideal) hi hj ea mask w1i w1j w1ea b1 w2 b2 (ix2 p q)
      = msgRow (fun l => hi (ix2 p l)) (fun l => hj (ix2 p l)) (fun l => ea (ix2 p l)) (mask (ix2 p (0 : Fin 1)))
          w1i w1j w1ea b1 w2 b2 q := by
  unfold out2
  rw [View.canon_unit_zero hz2]
  simp only [View.ld_unit_zero (S := S4000x64) hz2, View.ld_unit_zero (S := S4000x3) hz2, View.ld_unit_zero (S := S4000x1) hz2,
    View.ld_unit_zero (S := S64x64) hz2, View.ld_unit_zero (S := S3x64) hz2, View.ld_unit_zero (S := S1x64) hz2]
  exact k2_pay_apply hi hj ea mask w1i w1j w1ea b1 w2 b2 p q

theorem emb2_10 (t : Fin cfg2.N) (y : ((cfg2.win 10).xblock (cfg2.grid.coords t)).Idx) (q : Fin 64) (e : Fin 800000)
    (he : e.val = 4000 * t.val + (y 0).val) (hq : q.val = (y 1).val) :
    ((cfg2.win 10).blk t).view.emb y = (ix2 e q : S800000x64.Idx) := by
  obtain ⟨h0, h1⟩ := idx2_10 t
  funext a
  apply Fin.ext
  match a with
  | ⟨0, _⟩ => show win2_10.index t 0 * 4000 + 1 * (y 0).val = e.val; rw [h0, he]; omega
  | ⟨1, _⟩ => show win2_10.index t 1 * 64 + 1 * (y 1).val = q.val; rw [h1, hq]; omega

theorem flushed2_eq (c : Dev nD) (t : Fin cfg2.N) :
    (dat2 V c).flushed 10 t = ((cfg2.win 10).blk t).view.read (Elt Ideal)
      (MsgG (V c main_v45) (V c main_v38) (V c main_arg5) (V c main_v6) (V c main_v17) (V c main_v18) (V c main_v19) (V c main_v49)
      (V c main_arg14) (V c main_v50)) := by
  have hN : cfg2.N = 200 := N_2
  show (cfg2.win 10).cut (grid2.coords t) ((dat2 V c).after 10 t) = _
  rw [after2_10]
  funext y
  have hp : (y 0).val < 4000 := (y 0).isLt
  have hq : (y 1).val < 64 := (y 1).isLt
  have ht : t.val < 200 := hN ▸ t.isLt
  have hx : (cfg2.win 10).xinj (grid2.coords t) y = (ix2 (⟨(y 0).val, hp⟩ : Fin 4000) (⟨(y 1).val, hq⟩ : Fin 64) : S4000x64.Idx) :=
    funext fun a => Fin.ext (by
      match a with
      | ⟨0, _⟩ => rfl
      | ⟨1, _⟩ => rfl)
  rw [View.read_apply,
    emb2_10 t y ⟨(y 1).val, hq⟩ ⟨4000 * t.val + (y 0).val, by omega⟩ rfl rfl, MsgG_apply]
  refine (congrArg (out2 (F := Ideal) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)) hx).trans ?_
  refine (out2_apply (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) ⟨(y 0).val, hp⟩ ⟨(y 1).val, hq⟩).trans ?_
  have r0 := funext fun l : Fin 64 => iblk2_0_apply V c t ⟨(y 0).val, hp⟩ l ⟨4000 * t.val + (y 0).val, by omega⟩ rfl
  have r1 := funext fun l : Fin 64 => iblk2_1_apply V c t ⟨(y 0).val, hp⟩ l ⟨4000 * t.val + (y 0).val, by omega⟩ rfl
  have r2 := funext fun l : Fin 3 => iblk2_2_apply V c t ⟨(y 0).val, hp⟩ l ⟨4000 * t.val + (y 0).val, by omega⟩ rfl
  have r3 := iblk2_3_apply V c t ⟨(y 0).val, hp⟩ (0 : Fin 1) ⟨4000 * t.val + (y 0).val, by omega⟩ rfl
  rw [r0, r1, r2, r3, iblk2_4_eq V c t, iblk2_5_eq V c t, iblk2_6_eq V c t, iblk2_7_eq V c t, iblk2_8_eq V c t, iblk2_9_eq V c t]
  exact (cast_eq _ _).symm

theorem mem_blk2 (t : Fin cfg2.N) (i : S800000x64.Idx) :
    i ∈ ((cfg2.win 10).blk t).view.set ↔ ∀ a : Fin 2, win2_10.index t a * S4000x64.size a ≤ (i a).val
      ∧ (i a).val < win2_10.index t a * S4000x64.size a + S4000x64.size a := by
  show i ∈ ((View.whole main_v51).slice (win2_10.rect t)).set ↔ _
  rw [View.set_slice_whole, Rect.mem_set_unit]
  exact Iff.rfl

theorem covered2 (i : S800000x64.Idx) :
    ∃ t : Fin cfg2.N, (cfg2.win 10).flush t = true ∧ i ∈ ((cfg2.win 10).blk t).view.set := by
  have hN : cfg2.N = 200 := N_2
  have hi0 : (i 0).val < 800000 := (i 0).isLt
  have hi1 : (i 1).val < 64 := (i 1).isLt
  have ht : (i 0).val / 4000 < cfg2.N := by rw [hN]; omega
  obtain ⟨e0, e1⟩ := idx2_10 ⟨(i 0).val / 4000, ht⟩
  refine ⟨⟨(i 0).val / 4000, ht⟩, flush2_10 _, ?_⟩
  rw [mem_blk2]
  intro a
  match a with
  | ⟨0, _⟩ =>
    show win2_10.index ⟨(i 0).val / 4000, ht⟩ 0 * 4000 ≤ (i 0).val ∧ (i 0).val < win2_10.index ⟨(i 0).val / 4000, ht⟩ 0 * 4000 + 4000
    rw [e0]
    show (i 0).val / 4000 * 4000 ≤ (i 0).val ∧ (i 0).val < (i 0).val / 4000 * 4000 + 4000
    omega
  | ⟨1, _⟩ =>
    show win2_10.index ⟨(i 0).val / 4000, ht⟩ 1 * 64 ≤ (i 1).val ∧ (i 1).val < win2_10.index ⟨(i 0).val / 4000, ht⟩ 1 * 64 + 64
    rw [e1]
    omega

theorem final2 (c : Dev nD) :
    ((dat2 (F := Ideal) V c).arrAt 10 cfg2.N : S800000x64.Idx → EReal)
      = MsgG (V c main_v45) (V c main_v38) (V c main_arg5) (V c main_v6) (V c main_v17) (V c main_v18) (V c main_v19) (V c main_v49)
          (V c main_arg14) (V c main_v50) :=
  (dat2 (F := Ideal) V c).arrAt_eq_of_cover 10
    (MsgG (V c main_v45) (V c main_v38) (V c main_arg5) (V c main_v6) (V c main_v17) (V c main_v18) (V c main_v19) (V c main_v49)
      (V c main_arg14) (V c main_v50))
    (fun t _ => flushed2_eq V c t) covered2

end Cert.KernelIdeal.Val

end
-- ==== Proof.Val.MsgRef.lean ====
import proofs.«138431_j79370995631014_1_alg».proof.Proof.Val.Msg
import proofs.«138431_j79370995631014_1_alg».proof.Proof.Ref.ReadP
import Mathlib.Algebra.BigOperators.Fin

noncomputable section

open scoped BigOperators

namespace Cert.ReferenceIdeal.MsgStage

open Cert.ReferenceIdeal Cert.ReferenceIdeal.Gen Cert.ReferenceIdeal.Read Idealize.ShloMosaic

variable {F : FTy → Type} [FloatOps F]

def refMsg (A B : (⟨S800000x64, .f32⟩ : BufTy).Contents (Elt F)) (C : (⟨S800000x3, .f32⟩ : BufTy).Contents (Elt F))
    (M : (⟨S800000x1, .f32⟩ : BufTy).Contents (Elt F)) (W1 : (⟨S131x64, .f32⟩ : BufTy).Contents (Elt F))
    (b1 : (⟨S64, .f32⟩ : BufTy).Contents (Elt F)) (W2 : (⟨S64x64, .f32⟩ : BufTy).Contents (Elt F))
    (b2 : (⟨S64, .f32⟩ : BufTy).Contents (Elt F)) : (⟨S800000x64, .f32⟩ : BufTy).Contents (Elt F) :=
  mulf
    (addf
      (Host.dotGeneral dot_S800000x64_S64x64_S800000x64_1_0_0_1_n_n none
        (maximumf
          (addf
            (Host.dotGeneral dot_S800000x131_S131x64_S800000x64_1_0_0_1_n_n none
              (concatenate S800000x131 1 [⟨S800000x64, A⟩, ⟨S800000x64, B⟩, ⟨S800000x3, C⟩] concatenates_S800000x64_S800000x64_S800000x3_S800000x131_d1 :
                (⟨S800000x131, .f32⟩ : BufTy).Contents (Elt F))
              W1 : (⟨S800000x64, .f32⟩ : BufTy).Contents (Elt F))
            (broadcastInDim S800000x64 ![0, 1] bcast_S1x64_S800000x64_0_1 (broadcastInDim S1x64 ![1] bcast_S64_S1x64_1 b1)))
          (broadcastInDim S800000x64 ![] bcast_S_S800000x64 (constant S_ .f32 0x00000000#32)))
        W2 : (⟨S800000x64, .f32⟩ : BufTy).Contents (Elt F))
      (broadcastInDim S800000x64 ![0, 1] bcast_S1x64_S800000x64_0_1 (broadcastInDim S1x64 ![1] bcast_S64_S1x64_1 b2)))
    (broadcastInDim S800000x64 ![0, 1] bcast_S800000x1_S800000x64_0_1 M)

theorem val_main_v46_eq_refMsg (x0 : (⟨S50000x1, .f32⟩ : BufTy).Contents (Elt F)) (x4 : (⟨S2x800000, .i32⟩ : BufTy).Contents (Elt F)) (x5 : (⟨S800000x3, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) :
    val_main_v46 (F := F) x0 x4 x5 x8 x9 x10 x11 x22 x23 x24 x25
      = refMsg (val_main_v26 (F := F) x0 x4 x22 x23 x24 x25) (val_main_v33 (F := F) x0 x4 x22 x23 x24 x25) x5
          (val_main_v6 (F := F) x4) x8 x9 x10 x11 := by
  unfold val_main_v46 val_main_v44 val_main_v41 val_main_v40 val_main_v38 val_main_v35 val_main_v34 val_main_v37 val_main_v36 val_main_v39 val_main_cst_4 val_main_v43 val_main_v42 val_main_v45 refMsg
  rfl

theorem val_main_v76_eq_refMsg (x0 : (⟨S50000x1, .f32⟩ : BufTy).Contents (Elt F)) (x4 : (⟨S2x800000, .i32⟩ : BufTy).Contents (Elt F)) (x5 : (⟨S800000x3, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) :
    val_main_v76 (F := F) x0 x4 x5 x12 x13 x14 x15 x22 x23 x24 x25
      = refMsg (val_main_v56 (F := F) x0 x4 x22 x23 x24 x25) (val_main_v63 (F := F) x0 x4 x22 x23 x24 x25) x5
          (val_main_v6 (F := F) x4) x12 x13 x14 x15 := by
  unfold val_main_v76 val_main_v74 val_main_v71 val_main_v70 val_main_v68 val_main_v65 val_main_v64 val_main_v67 val_main_v66 val_main_v69 val_main_cst_10 val_main_v73 val_main_v72 val_main_v75 refMsg
  rfl

theorem val_main_v215_eq_refMsg (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) :
    val_main_v215 (F := F) x0 x3 x4 x5 x7 x8 x9 x10 x11 x12 x13 x14 x15 x16 x17 x18 x19 x20 x21 x22 x23 x24 x25
      = refMsg (val_main_v195 (F := F) x0 x3 x4 x5 x7 x8 x9 x10 x11 x12 x13 x14 x15 x16 x17 x18 x19 x20 x21 x22 x23 x24 x25) (val_main_v202 (F := F) x0 x3 x4 x5 x7 x8 x9 x10 x11 x12 x13 x14 x15 x16 x17 x18 x19 x20 x21 x22 x23 x24 x25) x5
          (val_main_v6 (F := F) x4) x8 x9 x10 x11 := by
  unfold val_main_v215 val_main_v213 val_main_v210 val_main_v209 val_main_v207 val_main_v204 val_main_v203 val_main_v206 val_main_v205 val_main_v208 val_main_cst_36 val_main_v212 val_main_v211 val_main_v214 refMsg
  rfl

theorem val_main_v245_eq_refMsg (x0 : (⟨S50000x1, .f32⟩ : BufTy).Contents (Elt F)) (x3 : (⟨S50000, .i32⟩ : BufTy).Contents (Elt F)) (x4 : (⟨S2x800000, .i32⟩ : BufTy).Contents (Elt F)) (x5 : (⟨S800000x3, .f32⟩ : BufTy).Contents (Elt F)) (x7 : (⟨S50000x2, .f32⟩ : BufTy).Contents (Elt F)) (x8 : (⟨S131x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S131x64, .f32⟩ : BufTy).Contents (Elt F)) (x13 : (⟨S64, .f32⟩ : BufTy).Contents (Elt F)) (x14 : (⟨S64x64, .f32⟩ : BufTy).Contents (Elt F)) (x15 : (⟨S64, .f32⟩ : BufTy).Contents (Elt F)) (x16 : (⟨S194x64, .f32⟩ : BufTy).Contents (Elt F)) (x17 : (⟨S64, .f32⟩ : BufTy).Contents (Elt F)) (x18 : (⟨S194x64, .f32⟩ : BufTy).Contents (Elt F)) (x19 : (⟨S64, .f32⟩ : BufTy).Contents (Elt F)) (x20 : (⟨S194x64, .f32⟩ : BufTy).Contents (Elt F)) (x21 : (⟨S64, .f32⟩ : BufTy).Contents (Elt F)) (x22 : (⟨S1x64, .f32⟩ : BufTy).Contents (Elt F)) (x23 : (⟨S64, .f32⟩ : BufTy).Contents (Elt F)) (x24 : (⟨S64x64, .f32⟩ : BufTy).Contents (Elt F)) (x25 : (⟨S64, .f32⟩ : BufTy).Contents (Elt F)) :
    val_main_v245 (F := F) x0 x3 x4 x5 x7 x8 x9 x10 x11 x12 x13 x14 x15 x16 x17 x18 x19 x20 x21 x22 x23 x24 x25
      = refMsg (val_main_v225 (F := F) x0 x3 x4 x5 x7 x8 x9 x10 x11 x12 x13 x14 x15 x16 x17 x18 x19 x20 x21 x22 x23 x24 x25) (val_main_v232 (F := F) x0 x3 x4 x5 x7 x8 x9 x10 x11 x12 x13 x14 x15 x16 x17 x18 x19 x20 x21 x22 x23 x24 x25) x5
          (val_main_v6 (F := F) x4) x12 x13 x14 x15 := by
  unfold val_main_v245 val_main_v243 val_main_v240 val_main_v239 val_main_v237 val_main_v234 val_main_v233 val_main_v236 val_main_v235 val_main_v238 val_main_cst_42 val_main_v242 val_main_v241 val_main_v244 refMsg
  rfl

end Cert.ReferenceIdeal.MsgStage

namespace Cert.KernelIdeal.Val

open Idealize.ShloMosaic Idealize.ShloMosaic.ValueIdx
open Cert.ReferenceIdeal.Read (lhs_main_v35_0 lhs_main_v35_1 rhs_main_v35_0 rhs_main_v35_1 lhs_main_v41_0 lhs_main_v41_1 rhs_main_v41_0 rhs_main_v41_1)
open Cert.ReferenceIdeal (dot_S800000x131_S131x64_S800000x64_1_0_0_1_n_n dot_S800000x64_S64x64_S800000x64_1_0_0_1_n_n)
open Cert.ReferenceIdeal.MsgStage (refMsg)

theorem hostDot131_apply (y : FVec Ideal Cert.ReferenceIdeal.S800000x131 .f32) (w : FVec Ideal S131x64 .f32) (e : Fin 800000) (k : Fin 64) :
    Host.dotGeneral dot_S800000x131_S131x64_S800000x64_1_0_0_1_n_n none y w (ix2 e k) = ∑ l : Fin 131, y (ix2 e l) * w (ix2 l k) := by
  simp only [Host.dotGeneral]
  rw [Ideal.dotGeneral_apply, ← Equiv.sum_comp (contrEquiv1 dot_S800000x131_S131x64_S800000x64_1_0_0_1_n_n 131 rfl rfl).symm]
  refine Finset.sum_congr rfl fun l _ => ?_
  have hl := contrEquiv1_symm_val dot_S800000x131_S131x64_S800000x64_1_0_0_1_n_n 131 rfl rfl l
  have el : dot_S800000x131_S131x64_S800000x64_1_0_0_1_n_n.lhsIdx (ix2 e k) ((contrEquiv1 dot_S800000x131_S131x64_S800000x64_1_0_0_1_n_n 131 rfl rfl).symm l) = ix2 e l := funext fun a => Fin.ext (by
    match a with
    | ⟨0, _⟩ => exact lhs_main_v35_0 _ _
    | ⟨1, _⟩ => exact (lhs_main_v35_1 _ _).trans hl)
  have er : dot_S800000x131_S131x64_S800000x64_1_0_0_1_n_n.rhsIdx (ix2 e k) ((contrEquiv1 dot_S800000x131_S131x64_S800000x64_1_0_0_1_n_n 131 rfl rfl).symm l) = ix2 l k := funext fun a => Fin.ext (by
    match a with
    | ⟨0, _⟩ => exact (rhs_main_v35_0 _ _).trans hl
    | ⟨1, _⟩ => exact rhs_main_v35_1 _ _)
  rw [el, er]

theorem hostDot64_apply (y : FVec Ideal S800000x64 .f32) (w : FVec Ideal S64x64 .f32) (e : Fin 800000) (k : Fin 64) :
    Host.dotGeneral dot_S800000x64_S64x64_S800000x64_1_0_0_1_n_n none y w (ix2 e k) = ∑ l : Fin 64, y (ix2 e l) * w (ix2 l k) := by
  simp only [Host.dotGeneral]
  rw [Ideal.dotGeneral_apply, ← Equiv.sum_comp (contrEquiv1 dot_S800000x64_S64x64_S800000x64_1_0_0_1_n_n 64 rfl rfl).symm]
  refine Finset.sum_congr rfl fun l _ => ?_
  have hl := contrEquiv1_symm_val dot_S800000x64_S64x64_S800000x64_1_0_0_1_n_n 64 rfl rfl l
  have el : dot_S800000x64_S64x64_S800000x64_1_0_0_1_n_n.lhsIdx (ix2 e k) ((contrEquiv1 dot_S800000x64_S64x64_S800000x64_1_0_0_1_n_n 64 rfl rfl).symm l) = ix2 e l := funext fun a => Fin.ext (by
    match a with
    | ⟨0, _⟩ => exact lhs_main_v41_0 _ _
    | ⟨1, _⟩ => exact (lhs_main_v41_1 _ _).trans hl)
  have er : dot_S800000x64_S64x64_S800000x64_1_0_0_1_n_n.rhsIdx (ix2 e k) ((contrEquiv1 dot_S800000x64_S64x64_S800000x64_1_0_0_1_n_n 64 rfl rfl).symm l) = ix2 l k := funext fun a => Fin.ext (by
    match a with
    | ⟨0, _⟩ => exact (rhs_main_v41_0 _ _).trans hl
    | ⟨1, _⟩ => exact rhs_main_v41_1 _ _)
  rw [el, er]

theorem sum_fin131 (f : Fin 131 → EReal) :
    ∑ k : Fin 131, f k
      = ((∑ l : Fin 64, f ⟨l.val, by omega⟩) + ∑ l : Fin 64, f ⟨64 + l.val, by omega⟩) + ∑ l : Fin 3, f ⟨128 + l.val, by omega⟩ := by
  have h1 := Fin.sum_univ_add (M := EReal) (a := 64 + 64) (b := 3) f
  have h2 := Fin.sum_univ_add (M := EReal) (a := 64) (b := 64) fun i : Fin (64 + 64) => f (Fin.castAdd 3 i)
  rw [h2] at h1
  exact h1

theorem cat_apply_i (A B : S800000x64.Idx → EReal) (C : S800000x3.Idx → EReal) (e : Fin 800000) (l : Fin 64) :
    concatenate Cert.ReferenceIdeal.S800000x131 1 [⟨S800000x64, A⟩, ⟨S800000x64, B⟩, ⟨S800000x3, C⟩] Cert.ReferenceIdeal.Gen.concatenates_S800000x64_S800000x64_S800000x3_S800000x131_d1
        (ix2 e (⟨l.val, by omega⟩ : Fin 131)) = A (ix2 e l) := by
  refine concatenate_apply_piece (t := Cert.ReferenceIdeal.S800000x131) 1 [⟨S800000x64, A⟩, ⟨S800000x64, B⟩, ⟨S800000x3, C⟩] Cert.ReferenceIdeal.Gen.concatenates_S800000x64_S800000x64_S800000x3_S800000x131_d1
    (ix2 e (⟨l.val, by omega⟩ : Fin 131)) 0 (by simp) S800000x64 A rfl rfl 0 rfl (ix2 e l) (fun b hb => ?_) ?_
  · match b with
    | ⟨0, _⟩ => rfl
    | ⟨1, _⟩ => exact absurd rfl hb
  · show 0 + l.val = l.val
    omega

theorem cat_apply_j (A B : S800000x64.Idx → EReal) (C : S800000x3.Idx → EReal) (e : Fin 800000) (l : Fin 64) :
    concatenate Cert.ReferenceIdeal.S800000x131 1 [⟨S800000x64, A⟩, ⟨S800000x64, B⟩, ⟨S800000x3, C⟩] Cert.ReferenceIdeal.Gen.concatenates_S800000x64_S800000x64_S800000x3_S800000x131_d1
        (ix2 e (⟨64 + l.val, by omega⟩ : Fin 131)) = B (ix2 e l) := by
  refine concatenate_apply_piece (t := Cert.ReferenceIdeal.S800000x131) 1 [⟨S800000x64, A⟩, ⟨S800000x64, B⟩, ⟨S800000x3, C⟩] Cert.ReferenceIdeal.Gen.concatenates_S800000x64_S800000x64_S800000x3_S800000x131_d1
    (ix2 e (⟨64 + l.val, by omega⟩ : Fin 131)) 1 (by simp) S800000x64 B rfl rfl 64 rfl (ix2 e l) (fun b hb => ?_) ?_
  · match b with
    | ⟨0, _⟩ => rfl
    | ⟨1, _⟩ => exact absurd rfl hb
  · show 64 + l.val = 64 + l.val
    omega

theorem cat_apply_ea (A B : S800000x64.Idx → EReal) (C : S800000x3.Idx → EReal) (e : Fin 800000) (l : Fin 3) :
    concatenate Cert.ReferenceIdeal.S800000x131 1 [⟨S800000x64, A⟩, ⟨S800000x64, B⟩, ⟨S800000x3, C⟩] Cert.ReferenceIdeal.Gen.concatenates_S800000x64_S800000x64_S800000x3_S800000x131_d1
        (ix2 e (⟨128 + l.val, by omega⟩ : Fin 131)) = C (ix2 e l) := by
  refine concatenate_apply_piece (t := Cert.ReferenceIdeal.S800000x131) 1 [⟨S800000x64, A⟩, ⟨S800000x64, B⟩, ⟨S800000x3, C⟩] Cert.ReferenceIdeal.Gen.concatenates_S800000x64_S800000x64_S800000x3_S800000x131_d1
    (ix2 e (⟨128 + l.val, by omega⟩ : Fin 131)) 2 (by simp) S800000x3 C rfl rfl 128 rfl (ix2 e l) (fun b hb => ?_) ?_
  · match b with
    | ⟨0, _⟩ => rfl
    | ⟨1, _⟩ => exact absurd rfl hb
  · show 128 + l.val = 128 + l.val
    omega

theorem biasRef_apply (b : Cert.ReferenceIdeal.S64.Idx → EReal) (e : Fin 800000) (k : Fin 64) :
    broadcastInDim Cert.ReferenceIdeal.S800000x64 ![0, 1] Cert.ReferenceIdeal.Gen.bcast_S1x64_S800000x64_0_1
      (broadcastInDim Cert.ReferenceIdeal.S1x64 ![1] Cert.ReferenceIdeal.Gen.bcast_S64_S1x64_1 b) (ix2 e k) = b (ix1 k) := by
  refine (broadcastInDim_apply _ Cert.ReferenceIdeal.Gen.bcast_S1x64_S800000x64_0_1 _ (ix2 e k) (ix2 (0 : Fin 1) k) fun a => ?_).trans ?_
  · match a with
    | ⟨0, _⟩ => show 0 = if (1 : Nat) = 1 then 0 else e.val; rw [if_pos rfl]
    | ⟨1, _⟩ => show k.val = if (64 : Nat) = 1 then 0 else k.val; rw [if_neg (by decide)]
  · exact broadcastInDim_apply _ Cert.ReferenceIdeal.Gen.bcast_S64_S1x64_1 b (ix2 (0 : Fin 1) k) (ix1 k) fun a =>
      match a with
      | ⟨0, _⟩ => by show k.val = if (64 : Nat) = 1 then 0 else k.val; rw [if_neg (by decide)]

theorem zeroRef_apply (i : Cert.ReferenceIdeal.S800000x64.Idx) :
    broadcastInDim Cert.ReferenceIdeal.S800000x64 ![] Cert.ReferenceIdeal.Gen.bcast_S_S800000x64
      (constant (F := Ideal) Cert.ReferenceIdeal.S_ .f32 0x00000000#32) i = 0 := by
  refine (broadcastInDim_apply _ Cert.ReferenceIdeal.Gen.bcast_S_S800000x64 _ i (fun a => a.elim0) fun a => a.elim0).trans ?_
  exact Ideal.ofBits_zero_f32

theorem maskRef_apply (M : Cert.ReferenceIdeal.S800000x1.Idx → EReal) (e : Fin 800000) (j : Fin 64) :
    broadcastInDim Cert.ReferenceIdeal.S800000x64 ![0, 1] Cert.ReferenceIdeal.Gen.bcast_S800000x1_S800000x64_0_1 M (ix2 e j) = M (ix2 e (0 : Fin 1)) :=
  broadcastInDim_apply _ Cert.ReferenceIdeal.Gen.bcast_S800000x1_S800000x64_0_1 M (ix2 e j) (ix2 e (0 : Fin 1)) fun a =>
    match a with
    | ⟨0, _⟩ => by show e.val = if (800000 : Nat) = 1 then 0 else e.val; rw [if_neg (by decide)]
    | ⟨1, _⟩ => by show 0 = if (1 : Nat) = 1 then 0 else j.val; rw [if_pos rfl]

theorem slice0_apply (W : S131x64.Idx → EReal) (l k : Fin 64) :
    extractStridedSlice S64x64 ![0, 0] W Gen.slices_S131x64_S64x64_0_0 (ix2 l k) = W (ix2 (⟨l.val, by omega⟩ : Fin 131) k) :=
  extractStridedSlice_apply _ W _ (ix2 l k) _ fun a =>
    match a with
    | ⟨0, _⟩ => by show l.val = 0 + l.val; omega
    | ⟨1, _⟩ => by show k.val = 0 + k.val; omega

theorem slice64_apply (W : S131x64.Idx → EReal) (l k : Fin 64) :
    extractStridedSlice S64x64 ![64, 0] W Gen.slices_S131x64_S64x64_64_0 (ix2 l k) = W (ix2 (⟨64 + l.val, by omega⟩ : Fin 131) k) :=
  extractStridedSlice_apply _ W _ (ix2 l k) _ fun a =>
    match a with
    | ⟨0, _⟩ => rfl
    | ⟨1, _⟩ => by show k.val = 0 + k.val; omega

theorem slice128_apply (W : S131x64.Idx → EReal) (l : Fin 3) (k : Fin 64) :
    extractStridedSlice S3x64 ![128, 0] W Gen.slices_S131x64_S3x64_128_0 (ix2 l k) = W (ix2 (⟨128 + l.val, by omega⟩ : Fin 131) k) :=
  extractStridedSlice_apply _ W _ (ix2 l k) _ fun a =>
    match a with
    | ⟨0, _⟩ => rfl
    | ⟨1, _⟩ => by show k.val = 0 + k.val; omega

theorem refMsg_eq_MsgG (A B : Vec Ideal S800000x64 .f32) (C : Vec Ideal S800000x3 .f32) (M : Vec Ideal S800000x1 .f32)
    (W1 : Vec Ideal S131x64 .f32) (b1 : Vec Ideal S64 .f32) (W2 : Vec Ideal S64x64 .f32) (b2 : Vec Ideal S64 .f32) :
    refMsg (F := Ideal) A B C M W1 b1 W2 b2
      = MsgG A B C M (extractStridedSlice S64x64 ![0, 0] W1 Gen.slices_S131x64_S64x64_0_0)
          (extractStridedSlice S64x64 ![64, 0] W1 Gen.slices_S131x64_S64x64_64_0)
          (extractStridedSlice S3x64 ![128, 0] W1 Gen.slices_S131x64_S3x64_128_0)
          (shapeCast S1x64 b1 Gen.shapeCasts_S64_S1x64) W2 (shapeCast S1x64 b2 Gen.shapeCasts_S64_S1x64) := by
  funext i
  obtain ⟨e, j, rfl⟩ : ∃ (e : Fin 800000) (j : Fin 64), i = ix2 e j := ⟨i 0, i 1, eq_ix2 i⟩
  rw [MsgG_apply]
  unfold refMsg msgRow
  simp only [mulf_apply, addf_apply, maximumf_apply, hostDot64_apply, hostDot131_apply, sum_fin131, cat_apply_i, cat_apply_j,
    cat_apply_ea, slice0_apply, slice64_apply, slice128_apply, shapeCast_a_1a_apply]

  refine congrArg₂ (· * ·) (congrArg₂ (· + ·) (Finset.sum_congr rfl fun k _ => ?_) (biasRef_apply b2 e j)) (maskRef_apply M e j)
  exact congrArg (· * W2 (ix2 k j)) (congrArg₂ max (congrArg (_ + ·) (biasRef_apply b1 e k)) (zeroRef_apply (ix2 e k)))

theorem ref_Msg_v46 (x0 : (⟨Cert.ReferenceIdeal.S50000x1, .f32⟩ : BufTy).Contents (Elt Ideal)) (x4 : (⟨Cert.ReferenceIdeal.S2x800000, .i32⟩ : BufTy).Contents (Elt Ideal)) (x5 : (⟨Cert.ReferenceIdeal.S800000x3, .f32⟩ : BufTy).Contents (Elt Ideal)) (x8 : (⟨Cert.ReferenceIdeal.S131x64, .f32⟩ : BufTy).Contents (Elt Ideal)) (x9 : (⟨Cert.ReferenceIdeal.S64, .f32⟩ : BufTy).Contents (Elt Ideal)) (x10 : (⟨Cert.ReferenceIdeal.S64x64, .f32⟩ : BufTy).Contents (Elt Ideal)) (x11 : (⟨Cert.ReferenceIdeal.S64, .f32⟩ : BufTy).Contents (Elt Ideal)) (x22 : (⟨Cert.ReferenceIdeal.S1x64, .f32⟩ : BufTy).Contents (Elt Ideal)) (x23 : (⟨Cert.ReferenceIdeal.S64, .f32⟩ : BufTy).Contents (Elt Ideal)) (x24 : (⟨Cert.ReferenceIdeal.S64x64, .f32⟩ : BufTy).Contents (Elt Ideal)) (x25 : (⟨Cert.ReferenceIdeal.S64, .f32⟩ : BufTy).Contents (Elt Ideal)) :
    Cert.ReferenceIdeal.Read.val_main_v46 (F := Ideal) x0 x4 x5 x8 x9 x10 x11 x22 x23 x24 x25
      = MsgG (Cert.ReferenceIdeal.Read.val_main_v26 (F := Ideal) x0 x4 x22 x23 x24 x25)
          (Cert.ReferenceIdeal.Read.val_main_v33 (F := Ideal) x0 x4 x22 x23 x24 x25) x5
          (Cert.ReferenceIdeal.Read.val_main_v6 (F := Ideal) x4)
          (extractStridedSlice S64x64 ![0, 0] x8 Gen.slices_S131x64_S64x64_0_0)
          (extractStridedSlice S64x64 ![64, 0] x8 Gen.slices_S131x64_S64x64_64_0)
          (extractStridedSlice S3x64 ![128, 0] x8 Gen.slices_S131x64_S3x64_128_0)
          (shapeCast S1x64 x9 Gen.shapeCasts_S64_S1x64) x10
          (shapeCast S1x64 x11 Gen.shapeCasts_S64_S1x64) :=
  (Cert.ReferenceIdeal.MsgStage.val_main_v46_eq_refMsg (F := Ideal) x0 x4 x5 x8 x9 x10 x11 x22 x23 x24 x25).trans (refMsg_eq_MsgG _ _ _ _ _ _ _ _)

theorem ref_Msg_v76 (x0 : (⟨Cert.ReferenceIdeal.S50000x1, .f32⟩ : BufTy).Contents (Elt Ideal)) (x4 : (⟨Cert.ReferenceIdeal.S2x800000, .i32⟩ : BufTy).Contents (Elt Ideal)) (x5 : (⟨Cert.ReferenceIdeal.S800000x3, .f32⟩ : BufTy).Contents (Elt Ideal)) (x12 : (⟨Cert.ReferenceIdeal.S131x64, .f32⟩ : BufTy).Contents (Elt Ideal)) (x13 : (⟨Cert.ReferenceIdeal.S64, .f32⟩ : BufTy).Contents (Elt Ideal)) (x14 : (⟨Cert.ReferenceIdeal.S64x64, .f32⟩ : BufTy).Contents (Elt Ideal)) (x15 : (⟨Cert.ReferenceIdeal.S64, .f32⟩ : BufTy).Contents (Elt Ideal)) (x22 : (⟨Cert.ReferenceIdeal.S1x64, .f32⟩ : BufTy).Contents (Elt Ideal)) (x23 : (⟨Cert.ReferenceIdeal.S64, .f32⟩ : BufTy).Contents (Elt Ideal)) (x24 : (⟨Cert.ReferenceIdeal.S64x64, .f32⟩ : BufTy).Contents (Elt Ideal)) (x25 : (⟨Cert.ReferenceIdeal.S64, .f32⟩ : BufTy).Contents (Elt Ideal)) :
    Cert.ReferenceIdeal.Read.val_main_v76 (F := Ideal) x0 x4 x5 x12 x13 x14 x15 x22 x23 x24 x25
      = MsgG (Cert.ReferenceIdeal.Read.val_main_v56 (F := Ideal) x0 x4 x22 x23 x24 x25)
          (Cert.ReferenceIdeal.Read.val_main_v63 (F := Ideal) x0 x4 x22 x23 x24 x25) x5
          (Cert.ReferenceIdeal.Read.val_main_v6 (F := Ideal) x4)
          (extractStridedSlice S64x64 ![0, 0] x12 Gen.slices_S131x64_S64x64_0_0)
          (extractStridedSlice S64x64 ![64, 0] x12 Gen.slices_S131x64_S64x64_64_0)
          (extractStridedSlice S3x64 ![128, 0] x12 Gen.slices_S131x64_S3x64_128_0)
          (shapeCast S1x64 x13 Gen.shapeCasts_S64_S1x64) x14
          (shapeCast S1x64 x15 Gen.shapeCasts_S64_S1x64) :=
  (Cert.ReferenceIdeal.MsgStage.val_main_v76_eq_refMsg (F := Ideal) x0 x4 x5 x12 x13 x14 x15 x22 x23 x24 x25).trans (refMsg_eq_MsgG _ _ _ _ _ _ _ _)

theorem ref_Msg_v215 (x0 : (⟨Cert.ReferenceIdeal.S50000x1, .f32⟩ : BufTy).Contents (Elt Ideal)) (x3 : (⟨Cert.ReferenceIdeal.S50000, .i32⟩ : BufTy).Contents (Elt Ideal)) (x4 : (⟨Cert.ReferenceIdeal.S2x800000, .i32⟩ : BufTy).Contents (Elt Ideal)) (x5 : (⟨Cert.ReferenceIdeal.S800000x3, .f32⟩ : BufTy).Contents (Elt Ideal)) (x7 : (⟨Cert.ReferenceIdeal.S50000x2, .f32⟩ : BufTy).Contents (Elt Ideal)) (x8 : (⟨Cert.ReferenceIdeal.S131x64, .f32⟩ : BufTy).Contents (Elt Ideal)) (x9 : (⟨Cert.ReferenceIdeal.S64, .f32⟩ : BufTy).Contents (Elt Ideal)) (x10 : (⟨Cert.ReferenceIdeal.S64x64, .f32⟩ : BufTy).Contents (Elt Ideal)) (x11 : (⟨Cert.ReferenceIdeal.S64, .f32⟩ : BufTy).Contents (Elt Ideal)) (x12 : (⟨Cert.ReferenceIdeal.S131x64, .f32⟩ : BufTy).Contents (Elt Ideal)) (x13 : (⟨Cert.ReferenceIdeal.S64, .f32⟩ : BufTy).Contents (Elt Ideal)) (x14 : (⟨Cert.ReferenceIdeal.S64x64, .f32⟩ : BufTy).Contents (Elt Ideal)) (x15 : (⟨Cert.ReferenceIdeal.S64, .f32⟩ : BufTy).Contents (Elt Ideal)) (x16 : (⟨Cert.ReferenceIdeal.S194x64, .f32⟩ : BufTy).Contents (Elt Ideal)) (x17 : (⟨Cert.ReferenceIdeal.S64, .f32⟩ : BufTy).Contents (Elt Ideal)) (x18 : (⟨Cert.ReferenceIdeal.S194x64, .f32⟩ : BufTy).Contents (Elt Ideal)) (x19 : (⟨Cert.ReferenceIdeal.S64, .f32⟩ : BufTy).Contents (Elt Ideal)) (x20 : (⟨Cert.ReferenceIdeal.S194x64, .f32⟩ : BufTy).Contents (Elt Ideal)) (x21 : (⟨Cert.ReferenceIdeal.S64, .f32⟩ : BufTy).Contents (Elt Ideal)) (x22 : (⟨Cert.ReferenceIdeal.S1x64, .f32⟩ : BufTy).Contents (Elt Ideal)) (x23 : (⟨Cert.ReferenceIdeal.S64, .f32⟩ : BufTy).Contents (Elt Ideal)) (x24 : (⟨Cert.ReferenceIdeal.S64x64, .f32⟩ : BufTy).Contents (Elt Ideal)) (x25 : (⟨Cert.ReferenceIdeal.S64, .f32⟩ : BufTy).Contents (Elt Ideal)) :
    Cert.ReferenceIdeal.Read.val_main_v215 (F := Ideal) x0 x3 x4 x5 x7 x8 x9 x10 x11 x12 x13 x14 x15 x16 x17 x18 x19 x20 x21 x22 x23 x24 x25
      = MsgG (Cert.ReferenceIdeal.Read.val_main_v195 (F := Ideal) x0 x3 x4 x5 x7 x8 x9 x10 x11 x12 x13 x14 x15 x16 x17 x18 x19 x20 x21 x22 x23 x24 x25)
          (Cert.ReferenceIdeal.Read.val_main_v202 (F := Ideal) x0 x3 x4 x5 x7 x8 x9 x10 x11 x12 x13 x14 x15 x16 x17 x18 x19 x20 x21 x22 x23 x24 x25) x5
          (Cert.ReferenceIdeal.Read.val_main_v6 (F := Ideal) x4)
          (extractStridedSlice S64x64 ![0, 0] x8 Gen.slices_S131x64_S64x64_0_0)
          (extractStridedSlice S64x64 ![64, 0] x8 Gen.slices_S131x64_S64x64_64_0)
          (extractStridedSlice S3x64 ![128, 0] x8 Gen.slices_S131x64_S3x64_128_0)
          (shapeCast S1x64 x9 Gen.shapeCasts_S64_S1x64) x10
          (shapeCast S1x64 x11 Gen.shapeCasts_S64_S1x64) :=
  (Cert.ReferenceIdeal.MsgStage.val_main_v215_eq_refMsg (F := Ideal) x0 x3 x4 x5 x7 x8 x9 x10 x11 x12 x13 x14 x15 x16 x17 x18 x19 x20 x21 x22 x23 x24 x25).trans (refMsg_eq_MsgG _ _ _ _ _ _ _ _)

theorem ref_Msg_v245 (x0 : (⟨Cert.ReferenceIdeal.S50000x1, .f32⟩ : BufTy).Contents (Elt Ideal)) (x3 : (⟨Cert.ReferenceIdeal.S50000, .i32⟩ : BufTy).Contents (Elt Ideal)) (x4 : (⟨Cert.ReferenceIdeal.S2x800000, .i32⟩ : BufTy).Contents (Elt Ideal)) (x5 : (⟨Cert.ReferenceIdeal.S800000x3, .f32⟩ : BufTy).Contents (Elt Ideal)) (x7 : (⟨Cert.ReferenceIdeal.S50000x2, .f32⟩ : BufTy).Contents (Elt Ideal)) (x8 : (⟨Cert.ReferenceIdeal.S131x64, .f32⟩ : BufTy).Contents (Elt Ideal)) (x9 : (⟨Cert.ReferenceIdeal.S64, .f32⟩ : BufTy).Contents (Elt Ideal)) (x10 : (⟨Cert.ReferenceIdeal.S64x64, .f32⟩ : BufTy).Contents (Elt Ideal)) (x11 : (⟨Cert.ReferenceIdeal.S64, .f32⟩ : BufTy).Contents (Elt Ideal)) (x12 : (⟨Cert.ReferenceIdeal.S131x64, .f32⟩ : BufTy).Contents (Elt Ideal)) (x13 : (⟨Cert.ReferenceIdeal.S64, .f32⟩ : BufTy).Contents (Elt Ideal)) (x14 : (⟨Cert.ReferenceIdeal.S64x64, .f32⟩ : BufTy).Contents (Elt Ideal)) (x15 : (⟨Cert.ReferenceIdeal.S64, .f32⟩ : BufTy).Contents (Elt Ideal)) (x16 : (⟨Cert.ReferenceIdeal.S194x64, .f32⟩ : BufTy).Contents (Elt Ideal)) (x17 : (⟨Cert.ReferenceIdeal.S64, .f32⟩ : BufTy).Contents (Elt Ideal)) (x18 : (⟨Cert.ReferenceIdeal.S194x64, .f32⟩ : BufTy).Contents (Elt Ideal)) (x19 : (⟨Cert.ReferenceIdeal.S64, .f32⟩ : BufTy).Contents (Elt Ideal)) (x20 : (⟨Cert.ReferenceIdeal.S194x64, .f32⟩ : BufTy).Contents (Elt Ideal)) (x21 : (⟨Cert.ReferenceIdeal.S64, .f32⟩ : BufTy).Contents (Elt Ideal)) (x22 : (⟨Cert.ReferenceIdeal.S1x64, .f32⟩ : BufTy).Contents (Elt Ideal)) (x23 : (⟨Cert.ReferenceIdeal.S64, .f32⟩ : BufTy).Contents (Elt Ideal)) (x24 : (⟨Cert.ReferenceIdeal.S64x64, .f32⟩ : BufTy).Contents (Elt Ideal)) (x25 : (⟨Cert.ReferenceIdeal.S64, .f32⟩ : BufTy).Contents (Elt Ideal)) :
    Cert.ReferenceIdeal.Read.val_main_v245 (F := Ideal) x0 x3 x4 x5 x7 x8 x9 x10 x11 x12 x13 x14 x15 x16 x17 x18 x19 x20 x21 x22 x23 x24 x25
      = MsgG (Cert.ReferenceIdeal.Read.val_main_v225 (F := Ideal) x0 x3 x4 x5 x7 x8 x9 x10 x11 x12 x13 x14 x15 x16 x17 x18 x19 x20 x21 x22 x23 x24 x25)
          (Cert.ReferenceIdeal.Read.val_main_v232 (F := Ideal) x0 x3 x4 x5 x7 x8 x9 x10 x11 x12 x13 x14 x15 x16 x17 x18 x19 x20 x21 x22 x23 x24 x25) x5
          (Cert.ReferenceIdeal.Read.val_main_v6 (F := Ideal) x4)
          (extractStridedSlice S64x64 ![0, 0] x12 Gen.slices_S131x64_S64x64_0_0)
          (extractStridedSlice S64x64 ![64, 0] x12 Gen.slices_S131x64_S64x64_64_0)
          (extractStridedSlice S3x64 ![128, 0] x12 Gen.slices_S131x64_S3x64_128_0)
          (shapeCast S1x64 x13 Gen.shapeCasts_S64_S1x64) x14
          (shapeCast S1x64 x15 Gen.shapeCasts_S64_S1x64) :=
  (Cert.ReferenceIdeal.MsgStage.val_main_v245_eq_refMsg (F := Ideal) x0 x3 x4 x5 x7 x8 x9 x10 x11 x12 x13 x14 x15 x16 x17 x18 x19 x20 x21 x22 x23 x24 x25).trans (refMsg_eq_MsgG _ _ _ _ _ _ _ _)

end Cert.KernelIdeal.Val

end
-- ==== Proof.Val.Gate.lean ====
import Idealize.ShloMosaic.Lib.ValueIdx
import Idealize.ShloMosaic.Lib.ValueLayout
import Idealize.ShloMosaic.PureOps.Ideal.Laws
import proofs.«138431_j79370995631014_1_alg».proof.Proof.Gen.KernelIdeal.Skeleton

noncomputable section

open scoped BigOperators

namespace Cert.KernelIdeal.Val

open Idealize.ShloMosaic Idealize.ShloMosaic.ValueIdx Cert.KernelIdeal Cert.KernelIdeal.Gen

def gatePre (u mt mf : Fin 64 → EReal) (pr : Fin 2 → EReal)
    (wh wto wfrom : Vec Ideal S64x64 .f32) (wprb : Vec Ideal S2x64 .f32) (b : Vec Ideal S1x64 .f32) (q : Fin 64) : EReal :=
  (∑ k : Fin 64, u k * wh (ix2 k q)) + (∑ k : Fin 64, mt k * wto (ix2 k q)) + (∑ k : Fin 64, mf k * wfrom (ix2 k q))
    + (∑ k : Fin 2, pr k * wprb (ix2 k q)) + b (ix2 (0 : Fin 1) q)

def gateRow (h mt mf : Fin 64 → EReal) (pr : Fin 2 → EReal) (h0 : Fin 64 → EReal) (d : EReal)
    (zwh zwto zwfrom : Vec Ideal S64x64 .f32) (zwprb : Vec Ideal S2x64 .f32) (zb : Vec Ideal S1x64 .f32)
    (rwh rwto rwfrom : Vec Ideal S64x64 .f32) (rwprb : Vec Ideal S2x64 .f32) (rb : Vec Ideal S1x64 .f32)
    (cwh cwto cwfrom : Vec Ideal S64x64 .f32) (cwprb : Vec Ideal S2x64 .f32) (cb : Vec Ideal S1x64 .f32) (q : Fin 64) : EReal :=
  d * h0 q + (1 - d) * (h q + Ideal.logistic (gatePre h mt mf pr zwh zwto zwfrom zwprb zb q)
    * Ideal.tanh (gatePre (fun k => Ideal.logistic (gatePre h mt mf pr rwh rwto rwfrom rwprb rb k) * h k) mt mf pr cwh cwto cwfrom cwprb cb q))

def GateG (h mto mfrom : Vec Ideal S50000x64 .f32) (prb : Vec Ideal S50000x2 .f32) (h0 : Vec Ideal S50000x64 .f32)
    (dmask : Vec Ideal S50000x1 .f32)
    (zwh zwto zwfrom : Vec Ideal S64x64 .f32) (zwprb : Vec Ideal S2x64 .f32) (zb : Vec Ideal S1x64 .f32)
    (rwh rwto rwfrom : Vec Ideal S64x64 .f32) (rwprb : Vec Ideal S2x64 .f32) (rb : Vec Ideal S1x64 .f32)
    (cwh cwto cwfrom : Vec Ideal S64x64 .f32) (cwprb : Vec Ideal S2x64 .f32) (cb : Vec Ideal S1x64 .f32) : Vec Ideal S50000x64 .f32 :=
  fun j => gateRow (fun k => h (ix2 (j 0) k)) (fun k => mto (ix2 (j 0) k)) (fun k => mfrom (ix2 (j 0) k)) (fun k => prb (ix2 (j 0) k))
    (fun k => h0 (ix2 (j 0) k)) (dmask (ix2 (j 0) (0 : Fin 1))) zwh zwto zwfrom zwprb zb rwh rwto rwfrom rwprb rb cwh cwto cwfrom cwprb cb (j 1)

theorem GateG_apply (h mto mfrom : Vec Ideal S50000x64 .f32) (prb : Vec Ideal S50000x2 .f32) (h0 : Vec Ideal S50000x64 .f32)
    (dmask : Vec Ideal S50000x1 .f32)
    (zwh zwto zwfrom : Vec Ideal S64x64 .f32) (zwprb : Vec Ideal S2x64 .f32) (zb : Vec Ideal S1x64 .f32)
    (rwh rwto rwfrom : Vec Ideal S64x64 .f32) (rwprb : Vec Ideal S2x64 .f32) (rb : Vec Ideal S1x64 .f32)
    (cwh cwto cwfrom : Vec Ideal S64x64 .f32) (cwprb : Vec Ideal S2x64 .f32) (cb : Vec Ideal S1x64 .f32) (r : Fin 50000) (q : Fin 64) :
    GateG h mto mfrom prb h0 dmask zwh zwto zwfrom zwprb zb rwh rwto rwfrom rwprb rb cwh cwto cwfrom cwprb cb (ix2 r q)
      = gateRow (fun k => h (ix2 r k)) (fun k => mto (ix2 r k)) (fun k => mfrom (ix2 r k)) (fun k => prb (ix2 r k))
          (fun k => h0 (ix2 r k)) (dmask (ix2 r (0 : Fin 1))) zwh zwto zwfrom zwprb zb rwh rwto rwfrom rwprb rb cwh cwto cwfrom cwprb cb q := rfl

theorem gate_one_sub_one : (1 : EReal) - 1 = 0 := by
  rw [← EReal.coe_one, ← EReal.coe_sub, sub_self, EReal.coe_zero]

theorem gate_blend_eq_one (a b : EReal) : (1 : EReal) * a + (1 - 1) * b = a := by
  rw [gate_one_sub_one, one_mul, zero_mul, add_zero]

theorem gate_blend_eq_zero (a b : EReal) : (0 : EReal) * a + (1 - 0) * b = b := by
  rw [sub_zero, zero_mul, one_mul, zero_add]

theorem gate_one_f32 : Ideal.ofBits .f32 0x3F800000#32 = 1 := IdealRules.sign_bit.ideal_onePat .f32

theorem gate_tanh_apply {s : Shape} {φ : FTy} (a : FVec Ideal s φ) (i : s.Idx) : tanh a i = Ideal.tanh (a i) := rfl

theorem gate_logistic_apply {s : Shape} {φ : FTy} (a : FVec Ideal s φ) (i : s.Idx) : logistic a i = Ideal.logistic (a i) := rfl

theorem gate_broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem gate_lhs64_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem gate_lhs64_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem gate_rhs64_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem gate_rhs64_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

theorem gate_mm64_apply {φ₁ φ₂ : FTy} (a : FVec Ideal S2000x64 φ₁) (w : FVec Ideal S64x64 φ₂) (p : Fin 2000) (q : Fin 64) :
    matmul dot_S2000x64_S64x64_S2000x64_1_0_0_1_n_n none a w (constant (F := Ideal) S2000x64 .f32 0x00000000#32) (ix2 p q)
      = ∑ k : Fin 64, a (ix2 p k) * w (ix2 k q) := by
  simp only [matmul]
  rw [Ideal.matmul_constant_zero_apply, ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p q) ((contrEquiv1 dot_S2000x64_S64x64_S2000x64_1_0_0_1_n_n 64 rfl rfl).symm k) = ix2 p k := funext fun a => Fin.ext (by
    match a with
    | ⟨0, _⟩ => exact gate_lhs64_0 _ _
    | ⟨1, _⟩ => exact (gate_lhs64_1 _ _).trans hk)
  have er : dot_S2000x64_S64x64_S2000x64_1_0_0_1_n_n.rhsIdx (ix2 p q) ((contrEquiv1 dot_S2000x64_S64x64_S2000x64_1_0_0_1_n_n 64 rfl rfl).symm k) = ix2 k q := funext fun a => Fin.ext (by
    match a with
    | ⟨0, _⟩ => exact (gate_rhs64_0 _ _).trans hk
    | ⟨1, _⟩ => exact gate_rhs64_1 _ _)
  rw [el, er]

theorem gate_lhs2_0 (i : S2000x64.Idx) (q : dot_S2000x2_S2x64_S2000x64_1_0_0_1_n_n.contr.Idx) :
    (dot_S2000x2_S2x64_S2000x64_1_0_0_1_n_n.lhsIdx i q 0).val = (i 0).val := by
  unfold DotDims.lhsIdx
  rw [dif_neg (show ¬(0 : Fin S2000x2.rank) ∈ dot_S2000x2_S2x64_S2000x64_1_0_0_1_n_n.lhsBatch by decide), dif_pos (show (0 : Fin S2000x2.rank) ∈ dot_S2000x2_S2x64_S2000x64_1_0_0_1_n_n.lhsNonContracting by decide)]
  rfl
theorem gate_lhs2_1 (i : S2000x64.Idx) (q : dot_S2000x2_S2x64_S2000x64_1_0_0_1_n_n.contr.Idx) :
    (dot_S2000x2_S2x64_S2000x64_1_0_0_1_n_n.lhsIdx i q 1).val = (q ⟨0, by decide⟩).val :=
  dot_S2000x2_S2x64_S2000x64_1_0_0_1_n_n.lhsIdx_val_of_single rfl i q
theorem gate_rhs2_0 (i : S2000x64.Idx) (q : dot_S2000x2_S2x64_S2000x64_1_0_0_1_n_n.contr.Idx) :
    (dot_S2000x2_S2x64_S2000x64_1_0_0_1_n_n.rhsIdx i q 0).val = (q ⟨0, by decide⟩).val :=
  dot_S2000x2_S2x64_S2000x64_1_0_0_1_n_n.rhsIdx_val_of_single rfl i q
theorem gate_rhs2_1 (i : S2000x64.Idx) (q : dot_S2000x2_S2x64_S2000x64_1_0_0_1_n_n.contr.Idx) :
    (dot_S2000x2_S2x64_S2000x64_1_0_0_1_n_n.rhsIdx i q 1).val = (i 1).val := by
  unfold DotDims.rhsIdx
  rw [dif_neg (show ¬(1 : Fin S2x64.rank) ∈ dot_S2000x2_S2x64_S2000x64_1_0_0_1_n_n.rhsBatch by decide), dif_pos (show (1 : Fin S2x64.rank) ∈ dot_S2000x2_S2x64_S2000x64_1_0_0_1_n_n.rhsNonContracting by decide)]
  rfl

theorem gate_mm2_apply {φ₁ φ₂ : FTy} (a : FVec Ideal S2000x2 φ₁) (w : FVec Ideal S2x64 φ₂) (p : Fin 2000) (q : Fin 64) :
    matmul dot_S2000x2_S2x64_S2000x64_1_0_0_1_n_n none a w (constant (F := Ideal) S2000x64 .f32 0x00000000#32) (ix2 p q)
      = ∑ k : Fin 2, a (ix2 p k) * w (ix2 k q) := by
  simp only [matmul]
  rw [Ideal.matmul_constant_zero_apply, ← Equiv.sum_comp (contrEquiv1 dot_S2000x2_S2x64_S2000x64_1_0_0_1_n_n 2 rfl rfl).symm]
  refine Finset.sum_congr rfl fun k _ => ?_
  have hk := contrEquiv1_symm_val dot_S2000x2_S2x64_S2000x64_1_0_0_1_n_n 2 rfl rfl k
  have el : dot_S2000x2_S2x64_S2000x64_1_0_0_1_n_n.lhsIdx (ix2 p q) ((contrEquiv1 dot_S2000x2_S2x64_S2000x64_1_0_0_1_n_n 2 rfl rfl).symm k) = ix2 p k := funext fun a => Fin.ext (by
    match a with
    | ⟨0, _⟩ => exact gate_lhs2_0 _ _
    | ⟨1, _⟩ => exact (gate_lhs2_1 _ _).trans hk)
  have er : dot_S2000x2_S2x64_S2000x64_1_0_0_1_n_n.rhsIdx (ix2 p q) ((contrEquiv1 dot_S2000x2_S2x64_S2000x64_1_0_0_1_n_n 2 rfl rfl).symm k) = ix2 k q := funext fun a => Fin.ext (by
    match a with
    | ⟨0, _⟩ => exact (gate_rhs2_0 _ _).trans hk
    | ⟨1, _⟩ => exact gate_rhs2_1 _ _)
  rw [el, er]

theorem gate_pay9_apply (x0 x1 x2 : Vec Ideal S2000x64 .f32) (x3 : Vec Ideal S2000x2 .f32) (w0 w1 w2 : Vec Ideal S64x64 .f32)
    (w3 : Vec Ideal S2x64 .f32) (p : Fin 2000) (q : Fin 64) :
    k9_pay9 x0 x1 x2 x3 w0 w1 w2 w3 (ix2 p q)
      = (∑ k : Fin 64, x0 (ix2 p k) * w0 (ix2 k q)) + (∑ k : Fin 64, x1 (ix2 p k) * w1 (ix2 k q))
        + (∑ k : Fin 64, x2 (ix2 p k) * w2 (ix2 k q)) + (∑ k : Fin 2, x3 (ix2 p k) * w3 (ix2 k q)) := by
  unfold k9_pay9 k9_pay8 k9_pay5 k9_pay6 k9_pay7 k9_pay2
  simp only [shapeCast_self, addf_apply, gate_mm64_apply, gate_mm2_apply, truncf_apply]

theorem gate_pay10_apply (v33 : FVec Ideal S2000x64 .f32) (b : Vec Ideal S1x64 .f32) (p : Fin 2000) (q : Fin 64) :
    k9_pay10 v33 b (ix2 p q) = Ideal.logistic (v33 (ix2 p q) + b (ix2 (0 : Fin 1) q)) := by
  unfold k9_pay10
  simp only [shapeCast_self, gate_logistic_apply, addf_apply, broadcastTo_1b_ab_apply]

theorem gate_pay11_apply (v1 : FVec Ideal S2000x64 .f32) (v11 v12 : FVec Ideal S2000x64 .bf16) (v13 : FVec Ideal S2000x2 .bf16)
    (v14 : FVec Ideal S2000x64 .bf16) (w0 w1 w2 : Vec Ideal S64x64 .f32) (w3 : Vec Ideal S2x64 .f32) (b : Vec Ideal S1x64 .f32)
    (wc : Vec Ideal S64x64 .f32) (p : Fin 2000) (q : Fin 64) :
    k9_pay11 v1 v11 v12 v13 v14 w0 w1 w2 w3 b wc (ix2 p q)
      = ∑ k : Fin 64, (Ideal.logistic ((∑ l : Fin 64, v14 (ix2 p l) * w0 (ix2 l k)) + (∑ l : Fin 64, v11 (ix2 p l) * w1 (ix2 l k))
          + (∑ l : Fin 64, v12 (ix2 p l) * w2 (ix2 l k)) + (∑ l : Fin 2, v13 (ix2 p l) * w3 (ix2 l k)) + b (ix2 (0 : Fin 1) k))
          * v1 (ix2 p k)) * wc (ix2 k q) := by
  unfold k9_pay11
  simp only [shapeCast_self, addf_apply, mulf_apply, gate_logistic_apply, gate_mm64_apply, gate_mm2_apply, truncf_apply, broadcastTo_1b_ab_apply]

theorem gate_pay12_apply (v11 : FVec Ideal S2000x64 .bf16) (w : Vec Ideal S64x64 .f32) (p : Fin 2000) (q : Fin 64) :
    k9_pay12 v11 w (ix2 p q) = ∑ k : Fin 64, v11 (ix2 p k) * w (ix2 k q) := by
  unfold k9_pay12
  simp only [shapeCast_self, gate_mm64_apply, truncf_apply]

theorem gate_scalar_one_f32 : (Scalar.ofBits (F := Ideal) .f32 0x3F800000#32 : Ideal .f32) = 1 := gate_one_f32

theorem gate_pay1_apply (v1 v8 : FVec Ideal S2000x64 .f32) (v10 : FVec Ideal S2000x1 .f32) (v12 : FVec Ideal S2000x64 .bf16)
    (v13 : FVec Ideal S2000x2 .bf16) (v38 v68 v72 : FVec Ideal S2000x64 .f32) (v74 : Vec Ideal S64x64 .f32) (v79 : Vec Ideal S2x64 .f32)
    (v84 : Vec Ideal S1x64 .f32) (p : Fin 2000) (q : Fin 64) :
    k9_pay1 v1 v8 v10 v12 v13 v38 v68 v72 v74 v79 v84 (ix2 p q)
      = v10 (ix2 p (0 : Fin 1)) * v8 (ix2 p q) + (1 - v10 (ix2 p (0 : Fin 1))) * (v1 (ix2 p q) + v38 (ix2 p q)
          * Ideal.tanh (v68 (ix2 p q) + v72 (ix2 p q) + (∑ k : Fin 64, v12 (ix2 p k) * v74 (ix2 k q))
              + (∑ k : Fin 2, v13 (ix2 p k) * v79 (ix2 k q)) + v84 (ix2 (0 : Fin 1) q))) := by
  unfold k9_pay1
  simp only [shapeCast_self, addf_apply, mulf_apply, subf_apply, gate_tanh_apply, gate_mm64_apply, gate_mm2_apply, truncf_apply,
    broadcastTo_1b_ab_apply, gate_broadcastTo_a1_ab_apply, broadcast_apply, gate_scalar_one_f32]

section AnyInstance
variable {F : FTy → Type} [FloatOps F]

def gatePay9 (x0 x1 x2 : Vec F S2000x64 .f32) (x3 : Vec F S2000x2 .f32) (x4 : Vec F S2000x64 .f32) (x5 : Vec F S2000x1 .f32)
    (x6 x7 x8 : Vec F S64x64 .f32) (x9 : Vec F S2x64 .f32) (x10 : Vec F S1x64 .f32)
    (x11 x12 x13 : Vec F S64x64 .f32) (x14 : Vec F S2x64 .f32) (x15 : Vec F S1x64 .f32)
    (x16 x17 x18 : Vec F S64x64 .f32) (x19 : Vec F S2x64 .f32) (x20 : Vec F S1x64 .f32) : FVec F S2000x64 .f32 :=
  k9_pay1 (k9_pay2 x0) (k9_pay3 x4) (k9_pay4 x5) (k9_pay6 x2) (k9_pay7 x3) (k9_pay10 (k9_pay9 x0 x1 x2 x3 x6 x7 x8 x9) x10)
    (k9_pay11 (k9_pay2 x0) (k9_pay5 x1) (k9_pay6 x2) (k9_pay7 x3) (k9_pay8 x0) x11 x12 x13 x14 x15 x16) (k9_pay12 (k9_pay5 x1) x17) x18 x19 x20

def gatePay3 (x0 x1 x2 : Vec F S2000x64 .f32) (x3 : Vec F S2000x2 .f32) (x4 : Vec F S2000x64 .f32) (x5 : Vec F S2000x1 .f32)
    (x6 x7 x8 : Vec F S64x64 .f32) (x9 : Vec F S2x64 .f32) (x10 : Vec F S1x64 .f32)
    (x11 x12 x13 : Vec F S64x64 .f32) (x14 : Vec F S2x64 .f32) (x15 : Vec F S1x64 .f32)
    (x16 x17 x18 : Vec F S64x64 .f32) (x19 : Vec F S2x64 .f32) (x20 : Vec F S1x64 .f32) : FVec F S2000x64 .f32 :=
  k3_pay1 (k3_pay2 x0) (k3_pay3 x4) (k3_pay4 x5) (k3_pay6 x2) (k3_pay7 x3) (k3_pay10 (k3_pay9 x0 x1 x2 x3 x6 x7 x8 x9) x10)
    (k3_pay11 (k3_pay2 x0) (k3_pay5 x1) (k3_pay6 x2) (k3_pay7 x3) (k3_pay8 x0) x11 x12 x13 x14 x15 x16) (k3_pay12 (k3_pay5 x1) x17) x18 x19 x20

theorem gatePay3_eq (x0 x1 x2 : Vec F S2000x64 .f32) (x3 : Vec F S2000x2 .f32) (x4 : Vec F S2000x64 .f32) (x5 : Vec F S2000x1 .f32)
    (x6 x7 x8 : Vec F S64x64 .f32) (x9 : Vec F S2x64 .f32) (x10 : Vec F S1x64 .f32)
    (x11 x12 x13 : Vec F S64x64 .f32) (x14 : Vec F S2x64 .f32) (x15 : Vec F S1x64 .f32)
    (x16 x17 x18 : Vec F S64x64 .f32) (x19 : Vec F S2x64 .f32) (x20 : Vec F S1x64 .f32) : gatePay3 x0 x1 x2 x3 x4 x5 x6 x7 x8 x9 x10 x11 x12 x13 x14 x15 x16 x17 x18 x19 x20 = gatePay9 x0 x1 x2 x3 x4 x5 x6 x7 x8 x9 x10 x11 x12 x13 x14 x15 x16 x17 x18 x19 x20 := rfl

end AnyInstance

theorem gatePay9_apply (x0 x1 x2 : Vec Ideal S2000x64 .f32) (x3 : Vec Ideal S2000x2 .f32) (x4 : Vec Ideal S2000x64 .f32) (x5 : Vec Ideal S2000x1 .f32)
    (x6 x7 x8 : Vec Ideal S64x64 .f32) (x9 : Vec Ideal S2x64 .f32) (x10 : Vec Ideal S1x64 .f32)
    (x11 x12 x13 : Vec Ideal S64x64 .f32) (x14 : Vec Ideal S2x64 .f32) (x15 : Vec Ideal S1x64 .f32)
    (x16 x17 x18 : Vec Ideal S64x64 .f32) (x19 : Vec Ideal S2x64 .f32) (x20 : Vec Ideal S1x64 .f32) (p : Fin 2000) (q : Fin 64) :
    gatePay9 x0 x1 x2 x3 x4 x5 x6 x7 x8 x9 x10 x11 x12 x13 x14 x15 x16 x17 x18 x19 x20 (ix2 p q)
      = gateRow (fun k => x0 (ix2 p k)) (fun k => x1 (ix2 p k)) (fun k => x2 (ix2 p k)) (fun k => x3 (ix2 p k))
          (fun k => x4 (ix2 p k)) (x5 (ix2 p (0 : Fin 1))) x6 x7 x8 x9 x10 x11 x12 x13 x14 x15 x16 x17 x18 x19 x20 q := by
  unfold gatePay9
  rw [gate_pay1_apply]
  unfold gateRow gatePre
  simp only [gate_pay10_apply, gate_pay9_apply, gate_pay11_apply, gate_pay12_apply, k9_pay2, k9_pay3, k9_pay4, k9_pay5, k9_pay6, k9_pay7, k9_pay8,
    shapeCast_self, truncf_apply]

end Cert.KernelIdeal.Val

end
-- ==== Proof.Val.GateFinal.lean ====
import proofs.«138431_j79370995631014_1_alg».proof.Proof.KI.D9
import proofs.«138431_j79370995631014_1_alg».proof.Proof.Val.Gate
import Idealize.ShloMosaic.Lib.Pipeline.Value

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem gate_hz2 : (![0, 0] : Fin 2 → Nat) = fun _ => 0 := funext fun a => by fin_cases a <;> rfl

theorem gate_idx2_ext {n0 n1 : ℕ} (i : (⟨2, ![n0, n1]⟩ : Shape).Idx) (a : Fin n0) (b : Fin n1) (h0 : (i 0).val = a.val)
    (h1 : (i 1).val = b.val) : i = ix2 a b := by
  funext d
  apply Fin.ext
  match d with
  | ⟨0, _⟩ => exact h0
  | ⟨1, _⟩ => exact h1

theorem gate_whole_read (b : Ref sig .tc) (idx : Fin b.ty.shape.rank → Nat) (h0 : ∀ a, idx a = 0)
    (inb : ∀ a, idx a * b.ty.shape.size a + b.ty.shape.size a ≤ b.ty.shape.size a) (f : b.ty.Contents (Elt Ideal)) :
    ((Memref.whole b).access (Rect.unit (fun a => idx a * b.ty.shape.size a) b.ty.shape.size inb) : View sig .tc _ _ _).read (Elt Ideal) f = f :=
  Memref.read_access_unit_zero (Elt Ideal) b (funext fun a => by rw [h0 a, Nat.zero_mul]) inb f

theorem gate_block_eq (x0 x1 x2 : Vec Ideal S2000x64 .f32) (x3 : Vec Ideal S2000x2 .f32) (x4 : Vec Ideal S2000x64 .f32) (x5 : Vec Ideal S2000x1 .f32)
    (x6 x7 x8 : Vec Ideal S64x64 .f32) (x9 : Vec Ideal S2x64 .f32) (x10 : Vec Ideal S1x64 .f32)
    (x11 x12 x13 : Vec Ideal S64x64 .f32) (x14 : Vec Ideal S2x64 .f32) (x15 : Vec Ideal S1x64 .f32)
    (x16 x17 x18 : Vec Ideal S64x64 .f32) (x19 : Vec Ideal S2x64 .f32) (x20 : Vec Ideal S1x64 .f32)
    (A0 A1 A2 : Vec Ideal S50000x64 .f32) (A3 : Vec Ideal S50000x2 .f32) (A4 : Vec Ideal S50000x64 .f32) (A5 : Vec Ideal S50000x1 .f32)
    (p : Fin 2000) (q : Fin 64) (r : Fin 50000)
    (h0 : ∀ k : Fin 64, x0 (ix2 p k) = A0 (ix2 r k)) (h1 : ∀ k : Fin 64, x1 (ix2 p k) = A1 (ix2 r k))
    (h2 : ∀ k : Fin 64, x2 (ix2 p k) = A2 (ix2 r k)) (h3 : ∀ k : Fin 2, x3 (ix2 p k) = A3 (ix2 r k))
    (h4 : ∀ k : Fin 64, x4 (ix2 p k) = A4 (ix2 r k)) (h5 : x5 (ix2 p (0 : Fin 1)) = A5 (ix2 r (0 : Fin 1))) :
    gatePay9 x0 x1 x2 x3 x4 x5 x6 x7 x8 x9 x10 x11 x12 x13 x14 x15 x16 x17 x18 x19 x20 (ix2 p q)
      = GateG A0 A1 A2 A3 A4 A5 x6 x7 x8 x9 x10 x11 x12 x13 x14 x15 x16 x17 x18 x19 x20 (ix2 r q) := by
  rw [gatePay9_apply, GateG_apply]
  simp only [h0, h1, h2, h3, h4, h5]

theorem out9_eq (x0 x1 x2 : Vec Ideal S2000x64 .f32) (x3 : Vec Ideal S2000x2 .f32) (x4 : Vec Ideal S2000x64 .f32) (x5 : Vec Ideal S2000x1 .f32)
    (x6 x7 x8 : Vec Ideal S64x64 .f32) (x9 : Vec Ideal S2x64 .f32) (x10 : Vec Ideal S1x64 .f32)
    (x11 x12 x13 : Vec Ideal S64x64 .f32) (x14 : Vec Ideal S2x64 .f32) (x15 : Vec Ideal S1x64 .f32)
    (x16 x17 x18 : Vec Ideal S64x64 .f32) (x19 : Vec Ideal S2x64 .f32) (x20 : Vec Ideal S1x64 .f32) :
    out9 x0 x1 x2 x3 x4 x5 x6 x7 x8 x9 x10 x11 x12 x13 x14 x15 x16 x17 x18 x19 x20 = gatePay9 x0 x1 x2 x3 x4 x5 x6 x7 x8 x9 x10 x11 x12 x13 x14 x15 x16 x17 x18 x19 x20 := by
  unfold out9 gatePay9
  rw [View.canon_unit_zero gate_hz2]
  simp only [View.ld_unit_zero (S := S2000x64) gate_hz2, View.ld_unit_zero (S := S2000x2) gate_hz2, View.ld_unit_zero (S := S2000x1) gate_hz2,
    View.ld_unit_zero (S := S64x64) gate_hz2, View.ld_unit_zero (S := S2x64) gate_hz2, View.ld_unit_zero (S := S1x64) gate_hz2]

theorem rows9 : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = t.val ∧ win9_3.index t (1 : Fin 2) = 0
    ∧ win9_4.index t (0 : Fin 2) = t.val ∧ win9_4.index t (1 : Fin 2) = 0
    ∧ win9_5.index t (0 : Fin 2) = t.val ∧ win9_5.index t (1 : Fin 2) = 0
    ∧ win9_21.index t (0 : Fin 2) = t.val ∧ win9_21.index t (1 : Fin 2) = 0 :=
  (by decide +kernel : ∀ t : Fin grid9.N, _)

theorem whole9 : ∀ (t : Fin cfg9.N) (a : Fin 2), win9_6.index t a = 0 ∧ win9_7.index t a = 0 ∧ win9_8.index t a = 0 ∧ win9_9.index t a = 0 ∧ win9_10.index t a = 0 ∧ win9_11.index t a = 0 ∧ win9_12.index t a = 0 ∧ win9_13.index t a = 0 ∧ win9_14.index t a = 0 ∧ win9_15.index t a = 0 ∧ win9_16.index t a = 0 ∧ win9_17.index t a = 0 ∧ win9_18.index t a = 0 ∧ win9_19.index t a = 0 ∧ win9_20.index t a = 0 :=
  (by decide +kernel : ∀ (t : Fin grid9.N) (a : Fin 2), _)

theorem iblk9_0_apply (c : Dev nD) (t : Fin cfg9.N) (p : Fin 2000) (k : Fin 64) (r : Fin 50000) (hr : r.val = 2000 * t.val + p.val) :
    (iblk9 V c 0 t : Vec Ideal S2000x64 .f32) (ix2 p k) = (V c main_v61 : S50000x64.Idx → Elt Ideal .f32) (ix2 r k) := by
  have e0 := (rows9 t).1
  have e1 := ((rows9 t).2).1
  unfold iblk9
  rw [View.read_apply]
  show V c main_v61 _ = V c main_v61 _
  refine congrArg _ (gate_idx2_ext _ r k ?_ ?_)
  · show win9_0.index t (0 : Fin 2) * 2000 + 1 * p.val = r.val
    rw [e0, hr]; omega
  · show win9_0.index t (1 : Fin 2) * 64 + 1 * k.val = k.val
    rw [e1]; omega

theorem iblk9_1_apply (c : Dev nD) (t : Fin cfg9.N) (p : Fin 2000) (k : Fin 64) (r : Fin 50000) (hr : r.val = 2000 * t.val + p.val) :
    (iblk9 V c 1 t : Vec Ideal S2000x64 .f32) (ix2 p k) = (V c main_v121 : S50000x64.Idx → Elt Ideal .f32) (ix2 r k) := by
  have e0 := (((rows9 t).2).2).1
  have e1 := ((((rows9 t).2).2).2).1
  unfold iblk9
  rw [View.read_apply]
  show V c main_v121 _ = V c main_v121 _
  refine congrArg _ (gate_idx2_ext _ r k ?_ ?_)
  · show win9_1.index t (0 : Fin 2) * 2000 + 1 * p.val = r.val
    rw [e0, hr]; omega
  · show win9_1.index t (1 : Fin 2) * 64 + 1 * k.val = k.val
    rw [e1]; omega

theorem iblk9_2_apply (c : Dev nD) (t : Fin cfg9.N) (p : Fin 2000) (k : Fin 64) (r : Fin 50000) (hr : r.val = 2000 * t.val + p.val) :
    (iblk9 V c 2 t : Vec Ideal S2000x64 .f32) (ix2 p k) = (V c main_v124 : S50000x64.Idx → Elt Ideal .f32) (ix2 r k) := by
  have e0 := (((((rows9 t).2).2).2).2).1
  have e1 := ((((((rows9 t).2).2).2).2).2).1
  unfold iblk9
  rw [View.read_apply]
  show V c main_v124 _ = V c main_v124 _
  refine congrArg _ (gate_idx2_ext _ r k ?_ ?_)
  · show win9_2.index t (0 : Fin 2) * 2000 + 1 * p.val = r.val
    rw [e0, hr]; omega
  · show win9_2.index t (1 : Fin 2) * 64 + 1 * k.val = k.val
    rw [e1]; omega

theorem iblk9_3_apply (c : Dev nD) (t : Fin cfg9.N) (p : Fin 2000) (k : Fin 2) (r : Fin 50000) (hr : r.val = 2000 * t.val + p.val) :
    (iblk9 V c 3 t : Vec Ideal S2000x2 .f32) (ix2 p k) = (V c main_arg7 : S50000x2.Idx → Elt Ideal .f32) (ix2 r k) := by
  have e0 := (((((((rows9 t).2).2).2).2).2).2).1
  have e1 := ((((((((rows9 t).2).2).2).2).2).2).2).1
  unfold iblk9
  rw [View.read_apply]
  show V c main_arg7 _ = V c main_arg7 _
  refine congrArg _ (gate_idx2_ext _ r k ?_ ?_)
  · show win9_3.index t (0 : Fin 2) * 2000 + 1 * p.val = r.val
    rw [e0, hr]; omega
  · show win9_3.index t (1 : Fin 2) * 2 + 1 * k.val = k.val
    rw [e1]; omega

theorem iblk9_4_apply (c : Dev nD) (t : Fin cfg9.N) (p : Fin 2000) (k : Fin 64) (r : Fin 50000) (hr : r.val = 2000 * t.val + p.val) :
    (iblk9 V c 4 t : Vec Ideal S2000x64 .f32) (ix2 p k) = (V c main_v9 : S50000x64.Idx → Elt Ideal .f32) (ix2 r k) := by
  have e0 := (((((((((rows9 t).2).2).2).2).2).2).2).2).1
  have e1 := ((((((((((rows9 t).2).2).2).2).2).2).2).2).2).1
  unfold iblk9
  rw [View.read_apply]
  show V c main_v9 _ = V c main_v9 _
  refine congrArg _ (gate_idx2_ext _ r k ?_ ?_)
  · show win9_4.index t (0 : Fin 2) * 2000 + 1 * p.val = r.val
    rw [e0, hr]; omega
  · show win9_4.index t (1 : Fin 2) * 64 + 1 * k.val = k.val
    rw [e1]; omega

theorem iblk9_5_apply (c : Dev nD) (t : Fin cfg9.N) (p : Fin 2000) (k : Fin 1) (r : Fin 50000) (hr : r.val = 2000 * t.val + p.val) :
    (iblk9 V c 5 t : Vec Ideal S2000x1 .f32) (ix2 p k) = (V c main_v13 : S50000x1.Idx → Elt Ideal .f32) (ix2 r k) := by
  have e0 := (((((((((((rows9 t).2).2).2).2).2).2).2).2).2).2).1
  have e1 := ((((((((((((rows9 t).2).2).2).2).2).2).2).2).2).2).2).1
  unfold iblk9
  rw [View.read_apply]
  show V c main_v13 _ = V c main_v13 _
  refine congrArg _ (gate_idx2_ext _ r k ?_ ?_)
  · show win9_5.index t (0 : Fin 2) * 2000 + 1 * p.val = r.val
    rw [e0, hr]; omega
  · show win9_5.index t (1 : Fin 2) * 1 + 1 * k.val = k.val
    rw [e1]; omega

theorem iblk9_6_eq (c : Dev nD) (t : Fin cfg9.N) : (iblk9 V c 6 t : Vec Ideal S64x64 .f32) = V c main_v20 :=
  gate_whole_read main_v20 (win9_6.index t) (fun a => (whole9 t a).1) _ (V c main_v20)

theorem iblk9_7_eq (c : Dev nD) (t : Fin cfg9.N) : (iblk9 V c 7 t : Vec Ideal S64x64 .f32) = V c main_v21 :=
  gate_whole_read main_v21 (win9_7.index t) (fun a => ((whole9 t a).2).1) _ (V c main_v21)

theorem iblk9_8_eq (c : Dev nD) (t : Fin cfg9.N) : (iblk9 V c 8 t : Vec Ideal S64x64 .f32) = V c main_v22 :=
  gate_whole_read main_v22 (win9_8.index t) (fun a => (((whole9 t a).2).2).1) _ (V c main_v22)

theorem iblk9_9_eq (c : Dev nD) (t : Fin cfg9.N) : (iblk9 V c 9 t : Vec Ideal S2x64 .f32) = V c main_v23 :=
  gate_whole_read main_v23 (win9_9.index t) (fun a => ((((whole9 t a).2).2).2).1) _ (V c main_v23)

theorem iblk9_10_eq (c : Dev nD) (t : Fin cfg9.N) : (iblk9 V c 10 t : Vec Ideal S1x64 .f32) = V c main_v125 :=
  gate_whole_read main_v125 (win9_10.index t) (fun a => (((((whole9 t a).2).2).2).2).1) _ (V c main_v125)

theorem iblk9_11_eq (c : Dev nD) (t : Fin cfg9.N) : (iblk9 V c 11 t : Vec Ideal S64x64 .f32) = V c main_v24 :=
  gate_whole_read main_v24 (win9_11.index t) (fun a => ((((((whole9 t a).2).2).2).2).2).1) _ (V c main_v24)

theorem iblk9_12_eq (c : Dev nD) (t : Fin cfg9.N) : (iblk9 V c 12 t : Vec Ideal S64x64 .f32) = V c main_v25 :=
  gate_whole_read main_v25 (win9_12.index t) (fun a => (((((((whole9 t a).2).2).2).2).2).2).1) _ (V c main_v25)

theorem iblk9_13_eq (c : Dev nD) (t : Fin cfg9.N) : (iblk9 V c 13 t : Vec Ideal S64x64 .f32) = V c main_v26 :=
  gate_whole_read main_v26 (win9_13.index t) (fun a => ((((((((whole9 t a).2).2).2).2).2).2).2).1) _ (V c main_v26)

theorem iblk9_14_eq (c : Dev nD) (t : Fin cfg9.N) : (iblk9 V c 14 t : Vec Ideal S2x64 .f32) = V c main_v27 :=
  gate_whole_read main_v27 (win9_14.index t) (fun a => (((((((((whole9 t a).2).2).2).2).2).2).2).2).1) _ (V c main_v27)

theorem iblk9_15_eq (c : Dev nD) (t : Fin cfg9.N) : (iblk9 V c 15 t : Vec Ideal S1x64 .f32) = V c main_v126 :=
  gate_whole_read main_v126 (win9_15.index t) (fun a => ((((((((((whole9 t a).2).2).2).2).2).2).2).2).2).1) _ (V c main_v126)

theorem iblk9_16_eq (c : Dev nD) (t : Fin cfg9.N) : (iblk9 V c 16 t : Vec Ideal S64x64 .f32) = V c main_v28 :=
  gate_whole_read main_v28 (win9_16.index t) (fun a => (((((((((((whole9 t a).2).2).2).2).2).2).2).2).2).2).1) _ (V c main_v28)

theorem iblk9_17_eq (c : Dev nD) (t : Fin cfg9.N) : (iblk9 V c 17 t : Vec Ideal S64x64 .f32) = V c main_v29 :=
  gate_whole_read main_v29 (win9_17.index t) (fun a => ((((((((((((whole9 t a).2).2).2).2).2).2).2).2).2).2).2).1) _ (V c main_v29)

theorem iblk9_18_eq (c : Dev nD) (t : Fin cfg9.N) : (iblk9 V c 18 t : Vec Ideal S64x64 .f32) = V c main_v30 :=
  gate_whole_read main_v30 (win9_18.index t) (fun a => (((((((((((((whole9 t a).2).2).2).2).2).2).2).2).2).2).2).2).1) _ (V c main_v30)

theorem iblk9_19_eq (c : Dev nD) (t : Fin cfg9.N) : (iblk9 V c 19 t : Vec Ideal S2x64 .f32) = V c main_v31 :=
  gate_whole_read main_v31 (win9_19.index t) (fun a => ((((((((((((((whole9 t a).2).2).2).2).2).2).2).2).2).2).2).2).2).1) _ (V c main_v31)

theorem iblk9_20_eq (c : Dev nD) (t : Fin cfg9.N) : (iblk9 V c 20 t : Vec Ideal S1x64 .f32) = V c main_v127 :=
  gate_whole_read main_v127 (win9_20.index t) (fun a => ((((((((((((((whole9 t a).2).2).2).2).2).2).2).2).2).2).2).2).2).2) _ (V c main_v127)

theorem flushed9_eq (c : Dev nD) (t : Fin cfg9.N) :
    (dat9 V c).flushed 21 t = ((cfg9.win 21).blk t).view.read (Elt Ideal)
      (GateG (V c main_v61) (V c main_v121) (V c main_v124) (V c main_arg7) (V c main_v9) (V c main_v13) (V c main_v20) (V c main_v21) (V c main_v22) (V c main_v23) (V c main_v125) (V c main_v24) (V c main_v25) (V c main_v26) (V c main_v27) (V c main_v126) (V c main_v28) (V c main_v29) (V c main_v30) (V c main_v31) (V c main_v127)) := by
  show (cfg9.win 21).cut (grid9.coords t) ((dat9 V c).after 21 t) = _
  rw [after9_21, out9_eq, iblk9_6_eq V c t, iblk9_7_eq V c t, iblk9_8_eq V c t, iblk9_9_eq V c t, iblk9_10_eq V c t, iblk9_11_eq V c t, iblk9_12_eq V c t, iblk9_13_eq V c t, iblk9_14_eq V c t, iblk9_15_eq V c t, iblk9_16_eq V c t, iblk9_17_eq V c t, iblk9_18_eq V c t, iblk9_19_eq V c t, iblk9_20_eq V c t]
  funext y
  obtain ⟨p, q, rfl⟩ : ∃ (p : Fin 2000) (q : Fin 64), y = ix2 p q := ⟨y 0, y 1, eq_ix2 y⟩
  have ht : t.val < 25 := Nat.lt_of_lt_of_eq t.isLt N_9
  have hr : 2000 * t.val + p.val < 50000 := by have := p.isLt; omega
  have e0 := (((((((((((((rows9 t).2).2).2).2).2).2).2).2).2).2).2).2).1
  have e1 := (((((((((((((rows9 t).2).2).2).2).2).2).2).2).2).2).2).2).2
  have he : ((cfg9.win 21).blk t).view.emb (ix2 p q) = ix2 (⟨2000 * t.val + p.val, hr⟩ : Fin 50000) q :=
    gate_idx2_ext _ _ _ (by show win9_21.index t (0 : Fin 2) * 2000 + 1 * p.val = 2000 * t.val + p.val; rw [e0]; omega)
      (by show win9_21.index t (1 : Fin 2) * 64 + 1 * q.val = q.val; rw [e1]; omega)
  show gatePay9 (F := Ideal) _ _ _ _ _ _ _ _ _ _ _ _ _ _ _ _ _ _ _ _ _ (ix2 p q) = GateG _ _ _ _ _ _ _ _ _ _ _ _ _ _ _ _ _ _ _ _ _ (((cfg9.win 21).blk t).view.emb (ix2 p q))
  rw [he]
  exact gate_block_eq _ _ _ _ _ _ _ _ _ _ _ _ _ _ _ _ _ _ _ _ _ _ _ _ _ _ _ p q ⟨_, hr⟩
    (fun k => iblk9_0_apply V c t p k _ rfl) (fun k => iblk9_1_apply V c t p k _ rfl) (fun k => iblk9_2_apply V c t p k _ rfl)
    (fun k => iblk9_3_apply V c t p k _ rfl) (fun k => iblk9_4_apply V c t p k _ rfl) (iblk9_5_apply V c t p 0 _ rfl)

theorem mem_blk9 (t : Fin cfg9.N) (i : S50000x64.Idx) :
    i ∈ ((cfg9.win 21).blk t).view.set ↔ ∀ a : Fin 2, win9_21.index t a * S2000x64.size a ≤ (i a).val
      ∧ (i a).val < win9_21.index t a * S2000x64.size a + S2000x64.size a := by
  show i ∈ ((View.whole main_v128).slice (win9_21.rect t)).set ↔ _
  rw [View.set_slice_whole, Rect.mem_set_unit]
  exact Iff.rfl

theorem gate_cover9 (i : S50000x64.Idx) : ∃ t : Fin cfg9.N, (cfg9.win 21).flush t = true ∧ i ∈ ((cfg9.win 21).blk t).view.set := by
  have h0 : (i 0).val < 50000 := (i 0).isLt
  have h1 : (i 1).val < 64 := (i 1).isLt
  have hN : cfg9.N = 25 := N_9
  have hlt : (i 0).val / 2000 < cfg9.N := by rw [hN]; omega
  refine ⟨⟨(i 0).val / 2000, hlt⟩, flush9_21 _, ?_⟩
  have e0 : win9_21.index ⟨(i 0).val / 2000, hlt⟩ (0 : Fin 2) = (i 0).val / 2000 := (((((((((((((rows9 ⟨(i 0).val / 2000, hlt⟩).2).2).2).2).2).2).2).2).2).2).2).2).1
  have e1 : win9_21.index ⟨(i 0).val / 2000, hlt⟩ (1 : Fin 2) = 0 := (((((((((((((rows9 ⟨(i 0).val / 2000, hlt⟩).2).2).2).2).2).2).2).2).2).2).2).2).2
  rw [mem_blk9]
  intro a
  match a with
  | ⟨0, _⟩ =>
    show win9_21.index ⟨(i 0).val / 2000, hlt⟩ (0 : Fin 2) * 2000 ≤ (i 0).val
      ∧ (i 0).val < win9_21.index ⟨(i 0).val / 2000, hlt⟩ (0 : Fin 2) * 2000 + 2000
    rw [e0]; omega
  | ⟨1, _⟩ =>
    show win9_21.index ⟨(i 0).val / 2000, hlt⟩ (1 : Fin 2) * 64 ≤ (i 1).val
      ∧ (i 1).val < win9_21.index ⟨(i 0).val / 2000, hlt⟩ (1 : Fin 2) * 64 + 64
    rw [e1]; omega

theorem final9 (c : Dev nD) : ((dat9 (F := Ideal) V c).arrAt 21 cfg9.N : S50000x64.Idx → EReal)
    = GateG (V c main_v61) (V c main_v121) (V c main_v124) (V c main_arg7) (V c main_v9) (V c main_v13) (V c main_v20) (V c main_v21) (V c main_v22) (V c main_v23) (V c main_v125) (V c main_v24) (V c main_v25) (V c main_v26) (V c main_v27) (V c main_v126) (V c main_v28) (V c main_v29) (V c main_v30) (V c main_v31) (V c main_v127) :=
  (dat9 V c).arrAt_eq_of_cover 21 _ (fun t _ => flushed9_eq V c t) gate_cover9

end Cert.KernelIdeal.Val

end
-- ==== Proof.Val.GateFinal3.lean ====
import proofs.«138431_j79370995631014_1_alg».proof.Proof.KI.D3
import proofs.«138431_j79370995631014_1_alg».proof.Proof.Val.GateFinal

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem out3_eq (x0 x1 x2 : Vec Ideal S2000x64 .f32) (x3 : Vec Ideal S2000x2 .f32) (x4 : Vec Ideal S2000x64 .f32) (x5 : Vec Ideal S2000x1 .f32)
    (x6 x7 x8 : Vec Ideal S64x64 .f32) (x9 : Vec Ideal S2x64 .f32) (x10 : Vec Ideal S1x64 .f32)
    (x11 x12 x13 : Vec Ideal S64x64 .f32) (x14 : Vec Ideal S2x64 .f32) (x15 : Vec Ideal S1x64 .f32)
    (x16 x17 x18 : Vec Ideal S64x64 .f32) (x19 : Vec Ideal S2x64 .f32) (x20 : Vec Ideal S1x64 .f32) :
    out3 x0 x1 x2 x3 x4 x5 x6 x7 x8 x9 x10 x11 x12 x13 x14 x15 x16 x17 x18 x19 x20 = gatePay3 x0 x1 x2 x3 x4 x5 x6 x7 x8 x9 x10 x11 x12 x13 x14 x15 x16 x17 x18 x19 x20 := by
  unfold out3 gatePay3
  rw [View.canon_unit_zero gate_hz2]
  simp only [View.ld_unit_zero (S := S2000x64) gate_hz2, View.ld_unit_zero (S := S2000x2) gate_hz2, View.ld_unit_zero (S := S2000x1) gate_hz2,
    View.ld_unit_zero (S := S64x64) gate_hz2, View.ld_unit_zero (S := S2x64) gate_hz2, View.ld_unit_zero (S := S1x64) gate_hz2]

theorem rows3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0
    ∧ win3_21.index t (0 : Fin 2) = t.val ∧ win3_21.index t (1 : Fin 2) = 0 :=
  (by decide +kernel : ∀ t : Fin grid3.N, _)

theorem whole3 : ∀ (t : Fin cfg3.N) (a : Fin 2), win3_6.index t a = 0 ∧ win3_7.index t a = 0 ∧ win3_8.index t a = 0 ∧ win3_9.index t a = 0 ∧ win3_10.index t a = 0 ∧ win3_11.index t a = 0 ∧ win3_12.index t a = 0 ∧ win3_13.index t a = 0 ∧ win3_14.index t a = 0 ∧ win3_15.index t a = 0 ∧ win3_16.index t a = 0 ∧ win3_17.index t a = 0 ∧ win3_18.index t a = 0 ∧ win3_19.index t a = 0 ∧ win3_20.index t a = 0 :=
  (by decide +kernel : ∀ (t : Fin grid3.N) (a : Fin 2), _)

theorem iblk3_0_apply (c : Dev nD) (t : Fin cfg3.N) (p : Fin 2000) (k : Fin 64) (r : Fin 50000) (hr : r.val = 2000 * t.val + p.val) :
    (iblk3 V c 0 t : Vec Ideal S2000x64 .f32) (ix2 p k) = (V c main_v9 : S50000x64.Idx → Elt Ideal .f32) (ix2 r k) := by
  have e0 := (rows3 t).1
  have e1 := ((rows3 t).2).1
  unfold iblk3
  rw [View.read_apply]
  show V c main_v9 _ = V c main_v9 _
  refine congrArg _ (gate_idx2_ext _ r k ?_ ?_)
  · show win3_0.index t (0 : Fin 2) * 2000 + 1 * p.val = r.val
    rw [e0, hr]; omega
  · show win3_0.index t (1 : Fin 2) * 64 + 1 * k.val = k.val
    rw [e1]; omega

theorem iblk3_1_apply (c : Dev nD) (t : Fin cfg3.N) (p : Fin 2000) (k : Fin 64) (r : Fin 50000) (hr : r.val = 2000 * t.val + p.val) :
    (iblk3 V c 1 t : Vec Ideal S2000x64 .f32) (ix2 p k) = (V c main_v54 : S50000x64.Idx → Elt Ideal .f32) (ix2 r k) := by
  have e0 := (((rows3 t).2).2).1
  have e1 := ((((rows3 t).2).2).2).1
  unfold iblk3
  rw [View.read_apply]
  show V c main_v54 _ = V c main_v54 _
  refine congrArg _ (gate_idx2_ext _ r k ?_ ?_)
  · show win3_1.index t (0 : Fin 2) * 2000 + 1 * p.val = r.val
    rw [e0, hr]; omega
  · show win3_1.index t (1 : Fin 2) * 64 + 1 * k.val = k.val
    rw [e1]; omega

theorem iblk3_2_apply (c : Dev nD) (t : Fin cfg3.N) (p : Fin 2000) (k : Fin 64) (r : Fin 50000) (hr : r.val = 2000 * t.val + p.val) :
    (iblk3 V c 2 t : Vec Ideal S2000x64 .f32) (ix2 p k) = (V c main_v57 : S50000x64.Idx → Elt Ideal .f32) (ix2 r k) := by
  have e0 := (((((rows3 t).2).2).2).2).1
  have e1 := ((((((rows3 t).2).2).2).2).2).1
  unfold iblk3
  rw [View.read_apply]
  show V c main_v57 _ = V c main_v57 _
  refine congrArg _ (gate_idx2_ext _ r k ?_ ?_)
  · show win3_2.index t (0 : Fin 2) * 2000 + 1 * p.val = r.val
    rw [e0, hr]; omega
  · show win3_2.index t (1 : Fin 2) * 64 + 1 * k.val = k.val
    rw [e1]; omega

theorem iblk3_3_apply (c : Dev nD) (t : Fin cfg3.N) (p : Fin 2000) (k : Fin 2) (r : Fin 50000) (hr : r.val = 2000 * t.val + p.val) :
    (iblk3 V c 3 t : Vec Ideal S2000x2 .f32) (ix2 p k) = (V c main_arg7 : S50000x2.Idx → Elt Ideal .f32) (ix2 r k) := by
  have e0 := (((((((rows3 t).2).2).2).2).2).2).1
  have e1 := ((((((((rows3 t).2).2).2).2).2).2).2).1
  unfold iblk3
  rw [View.read_apply]
  show V c main_arg7 _ = V c main_arg7 _
  refine congrArg _ (gate_idx2_ext _ r k ?_ ?_)
  · show win3_3.index t (0 : Fin 2) * 2000 + 1 * p.val = r.val
    rw [e0, hr]; omega
  · show win3_3.index t (1 : Fin 2) * 2 + 1 * k.val = k.val
    rw [e1]; omega

theorem iblk3_4_apply (c : Dev nD) (t : Fin cfg3.N) (p : Fin 2000) (k : Fin 64) (r : Fin 50000) (hr : r.val = 2000 * t.val + p.val) :
    (iblk3 V c 4 t : Vec Ideal S2000x64 .f32) (ix2 p k) = (V c main_v9 : S50000x64.Idx → Elt Ideal .f32) (ix2 r k) := by
  have e0 := (((((((((rows3 t).2).2).2).2).2).2).2).2).1
  have e1 := ((((((((((rows3 t).2).2).2).2).2).2).2).2).2).1
  unfold iblk3
  rw [View.read_apply]
  show V c main_v9 _ = V c main_v9 _
  refine congrArg _ (gate_idx2_ext _ r k ?_ ?_)
  · show win3_4.index t (0 : Fin 2) * 2000 + 1 * p.val = r.val
    rw [e0, hr]; omega
  · show win3_4.index t (1 : Fin 2) * 64 + 1 * k.val = k.val
    rw [e1]; omega

theorem iblk3_5_apply (c : Dev nD) (t : Fin cfg3.N) (p : Fin 2000) (k : Fin 1) (r : Fin 50000) (hr : r.val = 2000 * t.val + p.val) :
    (iblk3 V c 5 t : Vec Ideal S2000x1 .f32) (ix2 p k) = (V c main_v13 : S50000x1.Idx → Elt Ideal .f32) (ix2 r k) := by
  have e0 := (((((((((((rows3 t).2).2).2).2).2).2).2).2).2).2).1
  have e1 := ((((((((((((rows3 t).2).2).2).2).2).2).2).2).2).2).2).1
  unfold iblk3
  rw [View.read_apply]
  show V c main_v13 _ = V c main_v13 _
  refine congrArg _ (gate_idx2_ext _ r k ?_ ?_)
  · show win3_5.index t (0 : Fin 2) * 2000 + 1 * p.val = r.val
    rw [e0, hr]; omega
  · show win3_5.index t (1 : Fin 2) * 1 + 1 * k.val = k.val
    rw [e1]; omega

theorem iblk3_6_eq (c : Dev nD) (t : Fin cfg3.N) : (iblk3 V c 6 t : Vec Ideal S64x64 .f32) = V c main_v20 :=
  gate_whole_read main_v20 (win3_6.index t) (fun a => (whole3 t a).1) _ (V c main_v20)

theorem iblk3_7_eq (c : Dev nD) (t : Fin cfg3.N) : (iblk3 V c 7 t : Vec Ideal S64x64 .f32) = V c main_v21 :=
  gate_whole_read main_v21 (win3_7.index t) (fun a => ((whole3 t a).2).1) _ (V c main_v21)

theorem iblk3_8_eq (c : Dev nD) (t : Fin cfg3.N) : (iblk3 V c 8 t : Vec Ideal S64x64 .f32) = V c main_v22 :=
  gate_whole_read main_v22 (win3_8.index t) (fun a => (((whole3 t a).2).2).1) _ (V c main_v22)

theorem iblk3_9_eq (c : Dev nD) (t : Fin cfg3.N) : (iblk3 V c 9 t : Vec Ideal S2x64 .f32) = V c main_v23 :=
  gate_whole_read main_v23 (win3_9.index t) (fun a => ((((whole3 t a).2).2).2).1) _ (V c main_v23)

theorem iblk3_10_eq (c : Dev nD) (t : Fin cfg3.N) : (iblk3 V c 10 t : Vec Ideal S1x64 .f32) = V c main_v58 :=
  gate_whole_read main_v58 (win3_10.index t) (fun a => (((((whole3 t a).2).2).2).2).1) _ (V c main_v58)

theorem iblk3_11_eq (c : Dev nD) (t : Fin cfg3.N) : (iblk3 V c 11 t : Vec Ideal S64x64 .f32) = V c main_v24 :=
  gate_whole_read main_v24 (win3_11.index t) (fun a => ((((((whole3 t a).2).2).2).2).2).1) _ (V c main_v24)

theorem iblk3_12_eq (c : Dev nD) (t : Fin cfg3.N) : (iblk3 V c 12 t : Vec Ideal S64x64 .f32) = V c main_v25 :=
  gate_whole_read main_v25 (win3_12.index t) (fun a => (((((((whole3 t a).2).2).2).2).2).2).1) _ (V c main_v25)

theorem iblk3_13_eq (c : Dev nD) (t : Fin cfg3.N) : (iblk3 V c 13 t : Vec Ideal S64x64 .f32) = V c main_v26 :=
  gate_whole_read main_v26 (win3_13.index t) (fun a => ((((((((whole3 t a).2).2).2).2).2).2).2).1) _ (V c main_v26)

theorem iblk3_14_eq (c : Dev nD) (t : Fin cfg3.N) : (iblk3 V c 14 t : Vec Ideal S2x64 .f32) = V c main_v27 :=
  gate_whole_read main_v27 (win3_14.index t) (fun a => (((((((((whole3 t a).2).2).2).2).2).2).2).2).1) _ (V c main_v27)

theorem iblk3_15_eq (c : Dev nD) (t : Fin cfg3.N) : (iblk3 V c 15 t : Vec Ideal S1x64 .f32) = V c main_v59 :=
  gate_whole_read main_v59 (win3_15.index t) (fun a => ((((((((((whole3 t a).2).2).2).2).2).2).2).2).2).1) _ (V c main_v59)

theorem iblk3_16_eq (c : Dev nD) (t : Fin cfg3.N) : (iblk3 V c 16 t : Vec Ideal S64x64 .f32) = V c main_v28 :=
  gate_whole_read main_v28 (win3_16.index t) (fun a => (((((((((((whole3 t a).2).2).2).2).2).2).2).2).2).2).1) _ (V c main_v28)

theorem iblk3_17_eq (c : Dev nD) (t : Fin cfg3.N) : (iblk3 V c 17 t : Vec Ideal S64x64 .f32) = V c main_v29 :=
  gate_whole_read main_v29 (win3_17.index t) (fun a => ((((((((((((whole3 t a).2).2).2).2).2).2).2).2).2).2).2).1) _ (V c main_v29)

theorem iblk3_18_eq (c : Dev nD) (t : Fin cfg3.N) : (iblk3 V c 18 t : Vec Ideal S64x64 .f32) = V c main_v30 :=
  gate_whole_read main_v30 (win3_18.index t) (fun a => (((((((((((((whole3 t a).2).2).2).2).2).2).2).2).2).2).2).2).1) _ (V c main_v30)

theorem iblk3_19_eq (c : Dev nD) (t : Fin cfg3.N) : (iblk3 V c 19 t : Vec Ideal S2x64 .f32) = V c main_v31 :=
  gate_whole_read main_v31 (win3_19.index t) (fun a => ((((((((((((((whole3 t a).2).2).2).2).2).2).2).2).2).2).2).2).2).1) _ (V c main_v31)

theorem iblk3_20_eq (c : Dev nD) (t : Fin cfg3.N) : (iblk3 V c 20 t : Vec Ideal S1x64 .f32) = V c main_v60 :=
  gate_whole_read main_v60 (win3_20.index t) (fun a => ((((((((((((((whole3 t a).2).2).2).2).2).2).2).2).2).2).2).2).2).2) _ (V c main_v60)

theorem flushed3_eq (c : Dev nD) (t : Fin cfg3.N) :
    (dat3 V c).flushed 21 t = ((cfg3.win 21).blk t).view.read (Elt Ideal)
      (GateG (V c main_v9) (V c main_v54) (V c main_v57) (V c main_arg7) (V c main_v9) (V c main_v13) (V c main_v20) (V c main_v21) (V c main_v22) (V c main_v23) (V c main_v58) (V c main_v24) (V c main_v25) (V c main_v26) (V c main_v27) (V c main_v59) (V c main_v28) (V c main_v29) (V c main_v30) (V c main_v31) (V c main_v60)) := by
  show (cfg3.win 21).cut (grid3.coords t) ((dat3 V c).after 21 t) = _
  rw [after3_21, out3_eq, iblk3_6_eq V c t, iblk3_7_eq V c t, iblk3_8_eq V c t, iblk3_9_eq V c t, iblk3_10_eq V c t, iblk3_11_eq V c t, iblk3_12_eq V c t, iblk3_13_eq V c t, iblk3_14_eq V c t, iblk3_15_eq V c t, iblk3_16_eq V c t, iblk3_17_eq V c t, iblk3_18_eq V c t, iblk3_19_eq V c t, iblk3_20_eq V c t]
  funext y
  obtain ⟨p, q, rfl⟩ : ∃ (p : Fin 2000) (q : Fin 64), y = ix2 p q := ⟨y 0, y 1, eq_ix2 y⟩
  have ht : t.val < 25 := Nat.lt_of_lt_of_eq t.isLt N_3
  have hr : 2000 * t.val + p.val < 50000 := by have := p.isLt; omega
  have e0 := (((((((((((((rows3 t).2).2).2).2).2).2).2).2).2).2).2).2).1
  have e1 := (((((((((((((rows3 t).2).2).2).2).2).2).2).2).2).2).2).2).2
  have he : ((cfg3.win 21).blk t).view.emb (ix2 p q) = ix2 (⟨2000 * t.val + p.val, hr⟩ : Fin 50000) q :=
    gate_idx2_ext _ _ _ (by show win3_21.index t (0 : Fin 2) * 2000 + 1 * p.val = 2000 * t.val + p.val; rw [e0]; omega)
      (by show win3_21.index t (1 : Fin 2) * 64 + 1 * q.val = q.val; rw [e1]; omega)
  show gatePay3 (F := Ideal) _ _ _ _ _ _ _ _ _ _ _ _ _ _ _ _ _ _ _ _ _ (ix2 p q) = GateG _ _ _ _ _ _ _ _ _ _ _ _ _ _ _ _ _ _ _ _ _ (((cfg3.win 21).blk t).view.emb (ix2 p q))
  rw [he, gatePay3_eq]
  exact gate_block_eq _ _ _ _ _ _ _ _ _ _ _ _ _ _ _ _ _ _ _ _ _ _ _ _ _ _ _ p q ⟨_, hr⟩
    (fun k => iblk3_0_apply V c t p k _ rfl) (fun k => iblk3_1_apply V c t p k _ rfl) (fun k => iblk3_2_apply V c t p k _ rfl)
    (fun k => iblk3_3_apply V c t p k _ rfl) (fun k => iblk3_4_apply V c t p k _ rfl) (iblk3_5_apply V c t p 0 _ rfl)

theorem mem_blk3 (t : Fin cfg3.N) (i : S50000x64.Idx) :
    i ∈ ((cfg3.win 21).blk t).view.set ↔ ∀ a : Fin 2, win3_21.index t a * S2000x64.size a ≤ (i a).val
      ∧ (i a).val < win3_21.index t a * S2000x64.size a + S2000x64.size a := by
  show i ∈ ((View.whole main_v61).slice (win3_21.rect t)).set ↔ _
  rw [View.set_slice_whole, Rect.mem_set_unit]
  exact Iff.rfl

theorem gate_cover3 (i : S50000x64.Idx) : ∃ t : Fin cfg3.N, (cfg3.win 21).flush t = true ∧ i ∈ ((cfg3.win 21).blk t).view.set := by
  have h0 : (i 0).val < 50000 := (i 0).isLt
  have h1 : (i 1).val < 64 := (i 1).isLt
  have hN : cfg3.N = 25 := N_3
  have hlt : (i 0).val / 2000 < cfg3.N := by rw [hN]; omega
  refine ⟨⟨(i 0).val / 2000, hlt⟩, flush3_21 _, ?_⟩
  have e0 : win3_21.index ⟨(i 0).val / 2000, hlt⟩ (0 : Fin 2) = (i 0).val / 2000 := (((((((((((((rows3 ⟨(i 0).val / 2000, hlt⟩).2).2).2).2).2).2).2).2).2).2).2).2).1
  have e1 : win3_21.index ⟨(i 0).val / 2000, hlt⟩ (1 : Fin 2) = 0 := (((((((((((((rows3 ⟨(i 0).val / 2000, hlt⟩).2).2).2).2).2).2).2).2).2).2).2).2).2
  rw [mem_blk3]
  intro a
  match a with
  | ⟨0, _⟩ =>
    show win3_21.index ⟨(i 0).val / 2000, hlt⟩ (0 : Fin 2) * 2000 ≤ (i 0).val
      ∧ (i 0).val < win3_21.index ⟨(i 0).val / 2000, hlt⟩ (0 : Fin 2) * 2000 + 2000
    rw [e0]; omega
  | ⟨1, _⟩ =>
    show win3_21.index ⟨(i 0).val / 2000, hlt⟩ (1 : Fin 2) * 64 ≤ (i 1).val
      ∧ (i 1).val < win3_21.index ⟨(i 0).val / 2000, hlt⟩ (1 : Fin 2) * 64 + 64
    rw [e1]; omega

theorem final3 (c : Dev nD) : ((dat3 (F := Ideal) V c).arrAt 21 cfg3.N : S50000x64.Idx → EReal)
    = GateG (V c main_v9) (V c main_v54) (V c main_v57) (V c main_arg7) (V c main_v9) (V c main_v13) (V c main_v20) (V c main_v21) (V c main_v22) (V c main_v23) (V c main_v58) (V c main_v24) (V c main_v25) (V c main_v26) (V c main_v27) (V c main_v59) (V c main_v28) (V c main_v29) (V c main_v30) (V c main_v31) (V c main_v60) :=
  (dat3 V c).arrAt_eq_of_cover 21 _ (fun t _ => flushed3_eq V c t) gate_cover3

end Cert.KernelIdeal.Val

end
-- ==== Proof.Val.GateRef.lean ====
import proofs.«138431_j79370995631014_1_alg».proof.Proof.Ref.ReadP
import proofs.«138431_j79370995631014_1_alg».proof.Proof.Val.Gate
import Idealize.ShloMosaic.Lib.ValueLayout

noncomputable section

open scoped BigOperators

namespace Cert.KernelIdeal.Val

open Idealize.ShloMosaic Idealize.ShloMosaic.ValueIdx Cert.KernelIdeal Cert.KernelIdeal.Gen
open Cert.ReferenceIdeal.Read

theorem gate_sum_split4 {M : Type*} [AddCommMonoid M] (a b c d : ℕ) (f : Fin (a + b + c + d) → M) :
    ∑ k, f k = (∑ k : Fin a, f ⟨k.val, by have := k.isLt; omega⟩) + (∑ k : Fin b, f ⟨a + k.val, by have := k.isLt; omega⟩)
      + (∑ k : Fin c, f ⟨a + b + k.val, by have := k.isLt; omega⟩) + ∑ k : Fin d, f ⟨a + b + c + k.val, by have := k.isLt; omega⟩ := by
  rw [Fin.sum_univ_add, Fin.sum_univ_add, Fin.sum_univ_add]
  rfl

abbrev gate_S50000x194 : Shape := ⟨2, ![50000, 194]⟩

theorem gate_dot194_apply (X : FVec Ideal gate_S50000x194 .f32) (W : FVec Ideal S194x64 .f32) (r : Fin 50000) (q : Fin 64) :
    Host.dotGeneral (F := Ideal) Cert.ReferenceIdeal.dot_S50000x194_S194x64_S50000x64_1_0_0_1_n_n none X W (ix2 r q) = ∑ k : Fin 194, X (ix2 r k) * W (ix2 k q) := by
  simp only [Host.dotGeneral]
  rw [Ideal.dotGeneral_apply, ← Equiv.sum_comp (contrEquiv1 Cert.ReferenceIdeal.dot_S50000x194_S194x64_S50000x64_1_0_0_1_n_n 194 rfl rfl).symm]
  refine Finset.sum_congr rfl fun k _ => ?_
  have hk := contrEquiv1_symm_val Cert.ReferenceIdeal.dot_S50000x194_S194x64_S50000x64_1_0_0_1_n_n 194 rfl rfl k
  have el : Cert.ReferenceIdeal.dot_S50000x194_S194x64_S50000x64_1_0_0_1_n_n.lhsIdx (ix2 r q) ((contrEquiv1 Cert.ReferenceIdeal.dot_S50000x194_S194x64_S50000x64_1_0_0_1_n_n 194 rfl rfl).symm k) = ix2 r k := funext fun a => Fin.ext (by
    match a with
    | ⟨0, _⟩ => exact lhs_main_v81_0 _ _
    | ⟨1, _⟩ => exact (lhs_main_v81_1 _ _).trans hk)
  have er : Cert.ReferenceIdeal.dot_S50000x194_S194x64_S50000x64_1_0_0_1_n_n.rhsIdx (ix2 r q) ((contrEquiv1 Cert.ReferenceIdeal.dot_S50000x194_S194x64_S50000x64_1_0_0_1_n_n 194 rfl rfl).symm k) = ix2 k q := funext fun a => Fin.ext (by
    match a with
    | ⟨0, _⟩ => exact (rhs_main_v81_0 _ _).trans hk
    | ⟨1, _⟩ => exact rhs_main_v81_1 _ _)
  rw [el, er]

section Pieces
variable (A B C : Vec Ideal S50000x64 .f32) (P : Vec Ideal S50000x2 .f32)
  (hc : Shape.Concatenates [S50000x64, S50000x64, S50000x64, S50000x2] gate_S50000x194 1) (r : Fin 50000)

theorem gate_cat4_0 (k : Fin 64) (k' : Fin 194) (hk : k'.val = k.val) :
    concatenate gate_S50000x194 1 [⟨S50000x64, A⟩, ⟨S50000x64, B⟩, ⟨S50000x64, C⟩, ⟨S50000x2, P⟩] hc (ix2 r k') = A (ix2 r k) :=
  concatenate_apply_piece 1 [⟨S50000x64, A⟩, ⟨S50000x64, B⟩, ⟨S50000x64, C⟩, ⟨S50000x2, P⟩] hc (ix2 r k') 0 (by show 0 < 4; omega) S50000x64 A rfl rfl 0 rfl (ix2 r k)
    (fun b hb => by match b with | ⟨0, _⟩ => rfl | ⟨1, _⟩ => exact absurd rfl hb)
    (by show 0 + k.val = k'.val; omega)

theorem gate_cat4_1 (k : Fin 64) (k' : Fin 194) (hk : k'.val = 64 + k.val) :
    concatenate gate_S50000x194 1 [⟨S50000x64, A⟩, ⟨S50000x64, B⟩, ⟨S50000x64, C⟩, ⟨S50000x2, P⟩] hc (ix2 r k') = B (ix2 r k) :=
  concatenate_apply_piece 1 [⟨S50000x64, A⟩, ⟨S50000x64, B⟩, ⟨S50000x64, C⟩, ⟨S50000x2, P⟩] hc (ix2 r k') 1 (by show 1 < 4; omega) S50000x64 B rfl rfl 64 rfl (ix2 r k)
    (fun b hb => by match b with | ⟨0, _⟩ => rfl | ⟨1, _⟩ => exact absurd rfl hb)
    (by show 64 + k.val = k'.val; omega)

theorem gate_cat4_2 (k : Fin 64) (k' : Fin 194) (hk : k'.val = 128 + k.val) :
    concatenate gate_S50000x194 1 [⟨S50000x64, A⟩, ⟨S50000x64, B⟩, ⟨S50000x64, C⟩, ⟨S50000x2, P⟩] hc (ix2 r k') = C (ix2 r k) :=
  concatenate_apply_piece 1 [⟨S50000x64, A⟩, ⟨S50000x64, B⟩, ⟨S50000x64, C⟩, ⟨S50000x2, P⟩] hc (ix2 r k') 2 (by show 2 < 4; omega) S50000x64 C rfl rfl 128 rfl (ix2 r k)
    (fun b hb => by match b with | ⟨0, _⟩ => rfl | ⟨1, _⟩ => exact absurd rfl hb)
    (by show 128 + k.val = k'.val; omega)

theorem gate_cat4_3 (k : Fin 2) (k' : Fin 194) (hk : k'.val = 192 + k.val) :
    concatenate gate_S50000x194 1 [⟨S50000x64, A⟩, ⟨S50000x64, B⟩, ⟨S50000x64, C⟩, ⟨S50000x2, P⟩] hc (ix2 r k') = P (ix2 r k) :=
  concatenate_apply_piece 1 [⟨S50000x64, A⟩, ⟨S50000x64, B⟩, ⟨S50000x64, C⟩, ⟨S50000x2, P⟩] hc (ix2 r k') 3 (by show 3 < 4; omega) S50000x2 P rfl rfl 192 rfl (ix2 r k)
    (fun b hb => by match b with | ⟨0, _⟩ => rfl | ⟨1, _⟩ => exact absurd rfl hb)
    (by show 192 + k.val = k'.val; omega)

end Pieces

abbrev wRows0 (W : Vec Ideal S194x64 .f32) : Vec Ideal S64x64 .f32 := extractStridedSlice S64x64 ![0, 0] W slices_S194x64_S64x64_0_0
abbrev wRows64 (W : Vec Ideal S194x64 .f32) : Vec Ideal S64x64 .f32 := extractStridedSlice S64x64 ![64, 0] W slices_S194x64_S64x64_64_0
abbrev wRows128 (W : Vec Ideal S194x64 .f32) : Vec Ideal S64x64 .f32 := extractStridedSlice S64x64 ![128, 0] W slices_S194x64_S64x64_128_0
abbrev wRows192 (W : Vec Ideal S194x64 .f32) : Vec Ideal S2x64 .f32 := extractStridedSlice S2x64 ![192, 0] W slices_S194x64_S2x64_192_0

abbrev biasRow (b : Vec Ideal S64 .f32) : Vec Ideal S1x64 .f32 := shapeCast S1x64 b shapeCasts_S64_S1x64

abbrev gate_markBit (tg : IVec S50000 32) : IVec S50000 1 := cmpi .eq tg (broadcastInDim S50000 ![] bcast_S_S50000 (constantI S_ 32 1#32))

abbrev markF (tg : IVec S50000 32) : Vec Ideal S50000x1 .f32 :=
  broadcastInDim S50000x1 ![0] bcast_S50000_S50000x1_0 (uitofp (F := Ideal) .f32 (gate_markBit tg))

theorem gate_markF_apply (tg : IVec S50000 32) (r : Fin 50000) :
    markF tg (ix2 r (0 : Fin 1)) = FloatOps.uitofp (F := Ideal) .f32 (gate_markBit tg (ix1 r)) := by
  unfold markF
  rw [broadcastInDim_apply _ bcast_S50000_S50000x1_0 (uitofp (F := Ideal) .f32 (gate_markBit tg)) (ix2 r (0 : Fin 1)) (ix1 r) (fun a => by
    match a with
    | ⟨0, _⟩ => show r.val = if (50000 : Nat) = 1 then 0 else r.val; rw [if_neg (by decide)])]
  rfl

theorem gate_select_eq_blend (b : BitVec 1) (x y : EReal) :
    Scalar.select b x y = FloatOps.uitofp (F := Ideal) .f32 b * x + (1 - FloatOps.uitofp (F := Ideal) .f32 b) * y := by
  rcases BitVec.eq_zero_or_eq_one b with rfl | rfl
  · rw [select_zero]
    show y = ((((0#1 : BitVec 1).toNat : ℝ) : EReal)) * x + (1 - (((0#1 : BitVec 1).toNat : ℝ) : EReal)) * y
    rw [show (((0#1 : BitVec 1).toNat : ℝ) : EReal) = 0 by norm_num, gate_blend_eq_zero]
  · rw [select_one]
    show x = ((((1#1 : BitVec 1).toNat : ℝ) : EReal)) * x + (1 - (((1#1 : BitVec 1).toNat : ℝ) : EReal)) * y
    rw [show (((1#1 : BitVec 1).toNat : ℝ) : EReal) = 1 by norm_num, gate_blend_eq_one]

section Stage
variable (h0 : S_.BroadcastsInDim S50000x64 (![] : Fin 0 → Fin S50000x64.rank))
  (h1 : S64.BroadcastsInDim S1x64 (![1] : Fin 1 → Fin S1x64.rank))
  (h2 : S1x64.BroadcastsInDim S50000x64 (![0, 1] : Fin 2 → Fin S50000x64.rank))
  (hm : S50000x1.BroadcastsInDim S50000x64 (![0, 1] : Fin 2 → Fin S50000x64.rank))
  (hc : Shape.Concatenates [S50000x64, S50000x64, S50000x64, S50000x2] gate_S50000x194 1)

def gate_refOnes : FVec Ideal S50000x64 .f32 := broadcastInDim S50000x64 ![] h0 (constant (F := Ideal) S_ .f32 0x3F800000#32)

def gate_refBias (b : FVec Ideal S64 .f32) : FVec Ideal S50000x64 .f32 :=
  broadcastInDim S50000x64 ![0, 1] h2 (broadcastInDim S1x64 ![1] h1 b)

def gate_refSig (x : FVec Ideal S50000x64 .f32) : FVec Ideal S50000x64 .f32 :=
  Host.divf (gate_refOnes h0) (addf (gate_refOnes h0) (Host.exp (Host.negf x)))

def gate_refPre (U MT MF : FVec Ideal S50000x64 .f32) (P : FVec Ideal S50000x2 .f32) (W : FVec Ideal S194x64 .f32) (b : FVec Ideal S64 .f32) :
    FVec Ideal S50000x64 .f32 :=
  addf (Host.dotGeneral (F := Ideal) Cert.ReferenceIdeal.dot_S50000x194_S194x64_S50000x64_1_0_0_1_n_n none
    (concatenate gate_S50000x194 1 [⟨S50000x64, U⟩, ⟨S50000x64, MT⟩, ⟨S50000x64, MF⟩, ⟨S50000x2, P⟩] hc) W) (gate_refBias h1 h2 b)

def refGate (H MT MF : FVec Ideal S50000x64 .f32) (P : FVec Ideal S50000x2 .f32) (H0 : FVec Ideal S50000x64 .f32) (M : IVec S50000x1 1)
    (Wz : FVec Ideal S194x64 .f32) (bz : FVec Ideal S64 .f32) (Wr : FVec Ideal S194x64 .f32) (br : FVec Ideal S64 .f32)
    (Wc : FVec Ideal S194x64 .f32) (bc : FVec Ideal S64 .f32) : FVec Ideal S50000x64 .f32 :=
  select (broadcastInDim S50000x64 ![0, 1] hm M) H0
    (addf H (mulf (gate_refSig h0 (gate_refPre h1 h2 hc H MT MF P Wz bz))
      (Host.tanh (gate_refPre h1 h2 hc (mulf (gate_refSig h0 (gate_refPre h1 h2 hc H MT MF P Wr br)) H) MT MF P Wc bc))))

theorem gate_refOnes_apply (i : S50000x64.Idx) : gate_refOnes h0 i = 1 := by
  unfold gate_refOnes
  exact (broadcastInDim_apply _ h0 (constant (F := Ideal) S_ .f32 0x3F800000#32) i (fun a => a.elim0) (fun a => a.elim0)).trans gate_one_f32

theorem gate_refSig_apply (x : FVec Ideal S50000x64 .f32) (i : S50000x64.Idx) : gate_refSig h0 x i = Ideal.logistic (x i) := by
  unfold gate_refSig
  show FloatOps.hostDivf (gate_refOnes h0 i) (FloatOps.addf (gate_refOnes h0 i) (FloatOps.hostUnary .exp (FloatOps.hostNegf (x i)))) = _
  rw [gate_refOnes_apply]
  rfl

theorem gate_refBias_apply (b : FVec Ideal S64 .f32) (r : Fin 50000) (q : Fin 64) : gate_refBias h1 h2 b (ix2 r q) = b (ix1 q) := by
  unfold gate_refBias
  rw [broadcastInDim_apply _ h2 (broadcastInDim S1x64 ![1] h1 b) (ix2 r q) (ix2 (0 : Fin 1) q) (fun a => by
    match a with
    | ⟨0, _⟩ => show 0 = if (1 : Nat) = 1 then 0 else r.val; rw [if_pos rfl]
    | ⟨1, _⟩ => show q.val = if (64 : Nat) = 1 then 0 else q.val; rw [if_neg (by decide)])]
  exact broadcastInDim_apply _ h1 b (ix2 (0 : Fin 1) q) (ix1 q) (fun a => by
    match a with
    | ⟨0, _⟩ => show q.val = if (64 : Nat) = 1 then 0 else q.val; rw [if_neg (by decide)])

theorem gate_hostTanh_apply {s : Shape} (x : FVec Ideal s .f32) (i : s.Idx) : Host.tanh x i = Ideal.tanh (x i) := rfl

theorem gate_biasRow_apply (b : Vec Ideal S64 .f32) (q : Fin 64) : biasRow b (ix2 (0 : Fin 1) q) = b (ix1 q) :=
  shapeCast_a_1a_apply b shapeCasts_S64_S1x64 (0 : Fin 1) q

theorem gate_dot_cat4_apply (U MT MF : FVec Ideal S50000x64 .f32) (P : FVec Ideal S50000x2 .f32) (W : FVec Ideal S194x64 .f32)
    (r : Fin 50000) (q : Fin 64) :
    Host.dotGeneral (F := Ideal) Cert.ReferenceIdeal.dot_S50000x194_S194x64_S50000x64_1_0_0_1_n_n none (concatenate gate_S50000x194 1 [⟨S50000x64, U⟩, ⟨S50000x64, MT⟩, ⟨S50000x64, MF⟩, ⟨S50000x2, P⟩] hc) W (ix2 r q)
      = (∑ k : Fin 64, U (ix2 r k) * wRows0 W (ix2 k q)) + (∑ k : Fin 64, MT (ix2 r k) * wRows64 W (ix2 k q))
        + (∑ k : Fin 64, MF (ix2 r k) * wRows128 W (ix2 k q)) + ∑ k : Fin 2, P (ix2 r k) * wRows192 W (ix2 k q) := by
  rw [gate_dot194_apply, gate_sum_split4 64 64 64 2 (fun k : Fin 194 => (concatenate gate_S50000x194 1 [⟨S50000x64, U⟩, ⟨S50000x64, MT⟩, ⟨S50000x64, MF⟩, ⟨S50000x2, P⟩] hc) (ix2 r k) * W (ix2 k q))]
  refine congrArg₂ (· + ·) (congrArg₂ (· + ·) (congrArg₂ (· + ·) ?_ ?_) ?_) ?_
  · refine Finset.sum_congr rfl fun k _ => ?_
    exact congrArg₂ (· * ·) (gate_cat4_0 U MT MF P hc r k _ rfl)
      (slice2_axis0_apply 0 W slices_S194x64_S64x64_0_0 k q _ (Nat.zero_add _).symm).symm
  · refine Finset.sum_congr rfl fun k _ => ?_
    exact congrArg₂ (· * ·) (gate_cat4_1 U MT MF P hc r k _ rfl)
      (slice2_axis0_apply 64 W slices_S194x64_S64x64_64_0 k q _ rfl).symm
  · refine Finset.sum_congr rfl fun k _ => ?_
    exact congrArg₂ (· * ·) (gate_cat4_2 U MT MF P hc r k _ (by show 64 + 64 + k.val = 128 + k.val; omega))
      (slice2_axis0_apply 128 W slices_S194x64_S64x64_128_0 k q _ (by show 64 + 64 + k.val = 128 + k.val; omega)).symm
  · refine Finset.sum_congr rfl fun k _ => ?_
    exact congrArg₂ (· * ·) (gate_cat4_3 U MT MF P hc r k _ (by show 64 + 64 + 64 + k.val = 192 + k.val; omega))
      (slice2_axis0_apply 192 W slices_S194x64_S2x64_192_0 k q _ (by show 64 + 64 + 64 + k.val = 192 + k.val; omega)).symm

theorem gate_refPre_apply (U MT MF : FVec Ideal S50000x64 .f32) (P : FVec Ideal S50000x2 .f32) (W : FVec Ideal S194x64 .f32)
    (b : FVec Ideal S64 .f32) (r : Fin 50000) (q : Fin 64) :
    gate_refPre h1 h2 hc U MT MF P W b (ix2 r q)
      = gatePre (fun k => U (ix2 r k)) (fun k => MT (ix2 r k)) (fun k => MF (ix2 r k)) (fun k => P (ix2 r k))
          (wRows0 W) (wRows64 W) (wRows128 W) (wRows192 W) (biasRow b) q := by
  unfold gatePre gate_refPre
  show FloatOps.addf (Host.dotGeneral (F := Ideal) Cert.ReferenceIdeal.dot_S50000x194_S194x64_S50000x64_1_0_0_1_n_n none (concatenate gate_S50000x194 1 [⟨S50000x64, U⟩, ⟨S50000x64, MT⟩, ⟨S50000x64, MF⟩, ⟨S50000x2, P⟩] hc) W (ix2 r q)) (gate_refBias h1 h2 b (ix2 r q)) = _
  rw [gate_dot_cat4_apply, gate_refBias_apply, gate_biasRow_apply]
  rfl

theorem refGate_eq (H MT MF : FVec Ideal S50000x64 .f32) (P : FVec Ideal S50000x2 .f32) (H0 : FVec Ideal S50000x64 .f32)
    (tg : IVec S50000 32) (hb : S50000.BroadcastsInDim S50000x1 (![0] : Fin 1 → Fin S50000x1.rank))
    (Wz : FVec Ideal S194x64 .f32) (bz : FVec Ideal S64 .f32) (Wr : FVec Ideal S194x64 .f32) (br : FVec Ideal S64 .f32)
    (Wc : FVec Ideal S194x64 .f32) (bc : FVec Ideal S64 .f32) :
    refGate h0 h1 h2 hm hc H MT MF P H0 (broadcastInDim S50000x1 ![0] hb (gate_markBit tg)) Wz bz Wr br Wc bc
      = GateG H MT MF P H0 (markF tg) (wRows0 Wz) (wRows64 Wz) (wRows128 Wz) (wRows192 Wz) (biasRow bz)
          (wRows0 Wr) (wRows64 Wr) (wRows128 Wr) (wRows192 Wr) (biasRow br)
          (wRows0 Wc) (wRows64 Wc) (wRows128 Wc) (wRows192 Wc) (biasRow bc) := by
  funext i
  obtain ⟨r, q, rfl⟩ : ∃ (r : Fin 50000) (q : Fin 64), i = ix2 r q := ⟨i 0, i 1, eq_ix2 i⟩
  rw [GateG_apply]
  unfold gateRow refGate
  rw [select_apply, gate_markF_apply]
  have hM : broadcastInDim S50000x64 ![0, 1] hm (broadcastInDim S50000x1 ![0] hb (gate_markBit tg)) (ix2 r q) = gate_markBit tg (ix1 r) := by
    rw [broadcastInDim_apply _ hm (broadcastInDim S50000x1 ![0] hb (gate_markBit tg)) (ix2 r q) (ix2 r (0 : Fin 1)) (fun a => by
      match a with
      | ⟨0, _⟩ => show r.val = if (50000 : Nat) = 1 then 0 else r.val; rw [if_neg (by decide)]
      | ⟨1, _⟩ => show 0 = if (1 : Nat) = 1 then 0 else q.val; rw [if_pos rfl])]
    exact broadcastInDim_apply _ hb (gate_markBit tg) (ix2 r (0 : Fin 1)) (ix1 r) (fun a => by
      match a with
      | ⟨0, _⟩ => show r.val = if (50000 : Nat) = 1 then 0 else r.val; rw [if_neg (by decide)])
  rw [hM, gate_select_eq_blend]
  simp only [addf_apply, mulf_apply, gate_hostTanh_apply, gate_refSig_apply, gate_refPre_apply]

end Stage

theorem ref_Gate_v110 (x0 : (⟨Cert.ReferenceIdeal.S50000x1, .f32⟩ : BufTy).Contents (Elt Ideal)) (x3 : (⟨Cert.ReferenceIdeal.S50000, .i32⟩ : BufTy).Contents (Elt Ideal)) (x4 : (⟨Cert.ReferenceIdeal.S2x800000, .i32⟩ : BufTy).Contents (Elt Ideal)) (x5 : (⟨Cert.ReferenceIdeal.S800000x3, .f32⟩ : BufTy).Contents (Elt Ideal)) (x7 : (⟨Cert.ReferenceIdeal.S50000x2, .f32⟩ : BufTy).Contents (Elt Ideal)) (x8 : (⟨Cert.ReferenceIdeal.S131x64, .f32⟩ : BufTy).Contents (Elt Ideal)) (x9 : (⟨Cert.ReferenceIdeal.S64, .f32⟩ : BufTy).Contents (Elt Ideal)) (x10 : (⟨Cert.ReferenceIdeal.S64x64, .f32⟩ : BufTy).Contents (Elt Ideal)) (x11 : (⟨Cert.ReferenceIdeal.S64, .f32⟩ : BufTy).Contents (Elt Ideal)) (x12 : (⟨Cert.ReferenceIdeal.S131x64, .f32⟩ : BufTy).Contents (Elt Ideal)) (x13 : (⟨Cert.ReferenceIdeal.S64, .f32⟩ : BufTy).Contents (Elt Ideal)) (x14 : (⟨Cert.ReferenceIdeal.S64x64, .f32⟩ : BufTy).Contents (Elt Ideal)) (x15 : (⟨Cert.ReferenceIdeal.S64, .f32⟩ : BufTy).Contents (Elt Ideal)) (x16 : (⟨Cert.ReferenceIdeal.S194x64, .f32⟩ : BufTy).Contents (Elt Ideal)) (x17 : (⟨Cert.ReferenceIdeal.S64, .f32⟩ : BufTy).Contents (Elt Ideal)) (x18 : (⟨Cert.ReferenceIdeal.S194x64, .f32⟩ : BufTy).Contents (Elt Ideal)) (x19 : (⟨Cert.ReferenceIdeal.S64, .f32⟩ : BufTy).Contents (Elt Ideal)) (x20 : (⟨Cert.ReferenceIdeal.S194x64, .f32⟩ : BufTy).Contents (Elt Ideal)) (x21 : (⟨Cert.ReferenceIdeal.S64, .f32⟩ : BufTy).Contents (Elt Ideal)) (x22 : (⟨Cert.ReferenceIdeal.S1x64, .f32⟩ : BufTy).Contents (Elt Ideal)) (x23 : (⟨Cert.ReferenceIdeal.S64, .f32⟩ : BufTy).Contents (Elt Ideal)) (x24 : (⟨Cert.ReferenceIdeal.S64x64, .f32⟩ : BufTy).Contents (Elt Ideal)) (x25 : (⟨Cert.ReferenceIdeal.S64, .f32⟩ : BufTy).Contents (Elt Ideal)) :
    val_main_v110 (F := Ideal) x0 x3 x4 x5 x7 x8 x9 x10 x11 x12 x13 x14 x15 x16 x17 x18 x19 x20 x21 x22 x23 x24 x25
      = GateG (val_main_v19 (F := Ideal) x0 x22 x23 x24 x25) (val_main_v49 (F := Ideal) x0 x4 x5 x8 x9 x10 x11 x22 x23 x24 x25)
          (val_main_v79 (F := Ideal) x0 x4 x5 x12 x13 x14 x15 x22 x23 x24 x25) x7
          (val_main_v19 (F := Ideal) x0 x22 x23 x24 x25) (markF x3) (wRows0 x16) (wRows64 x16) (wRows128 x16) (wRows192 x16) (biasRow x17)
          (wRows0 x18) (wRows64 x18) (wRows128 x18) (wRows192 x18) (biasRow x19)
          (wRows0 x20) (wRows64 x20) (wRows128 x20) (wRows192 x20) (biasRow x21) := by
  have e : val_main_v110 (F := Ideal) x0 x3 x4 x5 x7 x8 x9 x10 x11 x12 x13 x14 x15 x16 x17 x18 x19 x20 x21 x22 x23 x24 x25
      = refGate Cert.ReferenceIdeal.Gen.bcast_S_S50000x64 Cert.ReferenceIdeal.Gen.bcast_S64_S1x64_1 Cert.ReferenceIdeal.Gen.bcast_S1x64_S50000x64_0_1 Cert.ReferenceIdeal.Gen.bcast_S50000x1_S50000x64_0_1
      Cert.ReferenceIdeal.Gen.concatenates_S50000x64_S50000x64_S50000x64_S50000x2_S50000x194_d1
          (val_main_v19 (F := Ideal) x0 x22 x23 x24 x25) (val_main_v49 (F := Ideal) x0 x4 x5 x8 x9 x10 x11 x22 x23 x24 x25)
          (val_main_v79 (F := Ideal) x0 x4 x5 x12 x13 x14 x15 x22 x23 x24 x25) x7
          (val_main_v19 (F := Ideal) x0 x22 x23 x24 x25) (broadcastInDim S50000x1 ![0] Cert.ReferenceIdeal.Gen.bcast_S50000_S50000x1_0 (gate_markBit x3))
          x16 x17 x18 x19 x20 x21 := by
    unfold val_main_v110 val_main_call0_v0 val_main_v9 val_main_v8 val_main_v7 val_main_c val_main_v109 val_main_v108 val_main_v107 val_main_v106
      val_main_v105 val_main_v104 val_main_v103 val_main_v102 val_main_v101 val_main_v100 val_main_v99 val_main_v98 val_main_v97 val_main_v96
      val_main_v95 val_main_v94 val_main_v93 val_main_v92 val_main_v91 val_main_v90 val_main_v89 val_main_v88 val_main_v87 val_main_v86
      val_main_v85 val_main_v84 val_main_v83 val_main_v82 val_main_v81 val_main_v80 val_main_cst_12 val_main_cst_13 val_main_cst_14 val_main_cst_15
      refGate gate_refPre gate_refSig gate_refBias gate_refOnes
    rfl
  rw [e, refGate_eq]

theorem ref_Gate_v279 (x0 : (⟨Cert.ReferenceIdeal.S50000x1, .f32⟩ : BufTy).Contents (Elt Ideal)) (x3 : (⟨Cert.ReferenceIdeal.S50000, .i32⟩ : BufTy).Contents (Elt Ideal)) (x4 : (⟨Cert.ReferenceIdeal.S2x800000, .i32⟩ : BufTy).Contents (Elt Ideal)) (x5 : (⟨Cert.ReferenceIdeal.S800000x3, .f32⟩ : BufTy).Contents (Elt Ideal)) (x7 : (⟨Cert.ReferenceIdeal.S50000x2, .f32⟩ : BufTy).Contents (Elt Ideal)) (x8 : (⟨Cert.ReferenceIdeal.S131x64, .f32⟩ : BufTy).Contents (Elt Ideal)) (x9 : (⟨Cert.ReferenceIdeal.S64, .f32⟩ : BufTy).Contents (Elt Ideal)) (x10 : (⟨Cert.ReferenceIdeal.S64x64, .f32⟩ : BufTy).Contents (Elt Ideal)) (x11 : (⟨Cert.ReferenceIdeal.S64, .f32⟩ : BufTy).Contents (Elt Ideal)) (x12 : (⟨Cert.ReferenceIdeal.S131x64, .f32⟩ : BufTy).Contents (Elt Ideal)) (x13 : (⟨Cert.ReferenceIdeal.S64, .f32⟩ : BufTy).Contents (Elt Ideal)) (x14 : (⟨Cert.ReferenceIdeal.S64x64, .f32⟩ : BufTy).Contents (Elt Ideal)) (x15 : (⟨Cert.ReferenceIdeal.S64, .f32⟩ : BufTy).Contents (Elt Ideal)) (x16 : (⟨Cert.ReferenceIdeal.S194x64, .f32⟩ : BufTy).Contents (Elt Ideal)) (x17 : (⟨Cert.ReferenceIdeal.S64, .f32⟩ : BufTy).Contents (Elt Ideal)) (x18 : (⟨Cert.ReferenceIdeal.S194x64, .f32⟩ : BufTy).Contents (Elt Ideal)) (x19 : (⟨Cert.ReferenceIdeal.S64, .f32⟩ : BufTy).Contents (Elt Ideal)) (x20 : (⟨Cert.ReferenceIdeal.S194x64, .f32⟩ : BufTy).Contents (Elt Ideal)) (x21 : (⟨Cert.ReferenceIdeal.S64, .f32⟩ : BufTy).Contents (Elt Ideal)) (x22 : (⟨Cert.ReferenceIdeal.S1x64, .f32⟩ : BufTy).Contents (Elt Ideal)) (x23 : (⟨Cert.ReferenceIdeal.S64, .f32⟩ : BufTy).Contents (Elt Ideal)) (x24 : (⟨Cert.ReferenceIdeal.S64x64, .f32⟩ : BufTy).Contents (Elt Ideal)) (x25 : (⟨Cert.ReferenceIdeal.S64, .f32⟩ : BufTy).Contents (Elt Ideal)) :
    val_main_v279 (F := Ideal) x0 x3 x4 x5 x7 x8 x9 x10 x11 x12 x13 x14 x15 x16 x17 x18 x19 x20 x21 x22 x23 x24 x25
      = GateG (val_main_v110 (F := Ideal) x0 x3 x4 x5 x7 x8 x9 x10 x11 x12 x13 x14 x15 x16 x17 x18 x19 x20 x21 x22 x23 x24 x25) (val_main_v218 (F := Ideal) x0 x3 x4 x5 x7 x8 x9 x10 x11 x12 x13 x14 x15 x16 x17 x18 x19 x20 x21 x22 x23 x24 x25)
          (val_main_v248 (F := Ideal) x0 x3 x4 x5 x7 x8 x9 x10 x11 x12 x13 x14 x15 x16 x17 x18 x19 x20 x21 x22 x23 x24 x25) x7
          (val_main_v19 (F := Ideal) x0 x22 x23 x24 x25) (markF x3) (wRows0 x16) (wRows64 x16) (wRows128 x16) (wRows192 x16) (biasRow x17)
          (wRows0 x18) (wRows64 x18) (wRows128 x18) (wRows192 x18) (biasRow x19)
          (wRows0 x20) (wRows64 x20) (wRows128 x20) (wRows192 x20) (biasRow x21) := by
  have e : val_main_v279 (F := Ideal) x0 x3 x4 x5 x7 x8 x9 x10 x11 x12 x13 x14 x15 x16 x17 x18 x19 x20 x21 x22 x23 x24 x25
      = refGate Cert.ReferenceIdeal.Gen.bcast_S_S50000x64 Cert.ReferenceIdeal.Gen.bcast_S64_S1x64_1 Cert.ReferenceIdeal.Gen.bcast_S1x64_S50000x64_0_1 Cert.ReferenceIdeal.Gen.bcast_S50000x1_S50000x64_0_1
      Cert.ReferenceIdeal.Gen.concatenates_S50000x64_S50000x64_S50000x64_S50000x2_S50000x194_d1
          (val_main_v110 (F := Ideal) x0 x3 x4 x5 x7 x8 x9 x10 x11 x12 x13 x14 x15 x16 x17 x18 x19 x20 x21 x22 x23 x24 x25) (val_main_v218 (F := Ideal) x0 x3 x4 x5 x7 x8 x9 x10 x11 x12 x13 x14 x15 x16 x17 x18 x19 x20 x21 x22 x23 x24 x25)
          (val_main_v248 (F := Ideal) x0 x3 x4 x5 x7 x8 x9 x10 x11 x12 x13 x14 x15 x16 x17 x18 x19 x20 x21 x22 x23 x24 x25) x7
          (val_main_v19 (F := Ideal) x0 x22 x23 x24 x25) (broadcastInDim S50000x1 ![0] Cert.ReferenceIdeal.Gen.bcast_S50000_S50000x1_0 (gate_markBit x3))
          x16 x17 x18 x19 x20 x21 := by
    unfold val_main_v279 val_main_call1_v0 val_main_v9 val_main_v8 val_main_v7 val_main_c val_main_v278 val_main_v277 val_main_v276 val_main_v275
      val_main_v274 val_main_v273 val_main_v272 val_main_v271 val_main_v270 val_main_v269 val_main_v268 val_main_v267 val_main_v266 val_main_v265
      val_main_v264 val_main_v263 val_main_v262 val_main_v261 val_main_v260 val_main_v259 val_main_v258 val_main_v257 val_main_v256 val_main_v255
      val_main_v254 val_main_v253 val_main_v252 val_main_v251 val_main_v250 val_main_v249 val_main_cst_44 val_main_cst_45 val_main_cst_46 val_main_cst_47
      refGate gate_refPre gate_refSig gate_refBias gate_refOnes
    rfl
  rw [e, refGate_eq]

end Cert.KernelIdeal.Val

end
-- ==== Proof.Val.BridgeR.lean ====
import proofs.«138431_j79370995631014_1_alg».proof.Proof.Val.BridgeA
import proofs.«138431_j79370995631014_1_alg».proof.Proof.Val.EncFinal
import proofs.«138431_j79370995631014_1_alg».proof.Proof.Val.EncRef
import proofs.«138431_j79370995631014_1_alg».proof.Proof.Val.DecFinal
import proofs.«138431_j79370995631014_1_alg».proof.Proof.Val.DecRef
import proofs.«138431_j79370995631014_1_alg».proof.Proof.Val.MsgFinal1
import proofs.«138431_j79370995631014_1_alg».proof.Proof.Val.MsgFinal2
import proofs.«138431_j79370995631014_1_alg».proof.Proof.Val.MsgRef
import proofs.«138431_j79370995631014_1_alg».proof.Proof.Val.GateFinal3
import proofs.«138431_j79370995631014_1_alg».proof.Proof.Val.GateRef

noncomputable section

namespace Cert.KernelIdeal.Val

open Cert.KernelIdeal Cert.KernelIdeal.Gen Cert.KernelIdeal.Hand
open Idealize.ShloMosaic Idealize.ShloMosaic.TcCoe Idealize.SL.Sem Idealize.ShloMosaic.StableHlo
open Cert.ReferenceIdeal.Read
open Cert.ReferenceIdeal.Val (ref_Enc_v19 ref_Enc_v156 ref_Enc_v170 ref_Dec_v120 ref_Dec_v180)

variable {x0 x2 : Ct S50000x1 .f32} {x3 : Ct S50000 .i32} {x4 : Ct S2x800000 .i32} {x5 : Ct S800000x3 .f32}
  {x6 : Ct S800000 .f32} {x7 : Ct S50000x2 .f32}
  {x8 : Ct S131x64 .f32} {x9 : Ct S64 .f32} {x10 : Ct S64x64 .f32} {x11 : Ct S64 .f32}
  {x12 : Ct S131x64 .f32} {x13 : Ct S64 .f32} {x14 : Ct S64x64 .f32} {x15 : Ct S64 .f32}
  {x16 : Ct S194x64 .f32} {x17 : Ct S64 .f32} {x18 : Ct S194x64 .f32} {x19 : Ct S64 .f32}
  {x20 : Ct S194x64 .f32} {x21 : Ct S64 .f32}
  {x22 : Ct S1x64 .f32} {x23 : Ct S64 .f32} {x24 : Ct S64x64 .f32} {x25 : Ct S64 .f32}
  {x26 : Ct S64x64 .f32} {x27 : Ct S64 .f32} {x28 : Ct S64x1 .f32} {x29 : Ct S1 .f32}

local notation "rMask" => val_main_v6 (F := Ideal) x4
local notation "rH0" => val_main_v19 (F := Ideal) x0 x22 x23 x24 x25
local notation "rHc0" => val_main_v26 (F := Ideal) x0 x4 x22 x23 x24 x25
local notation "rHr0" => val_main_v33 (F := Ideal) x0 x4 x22 x23 x24 x25
local notation "rMt0" => val_main_v46 (F := Ideal) x0 x4 x5 x8 x9 x10 x11 x22 x23 x24 x25
local notation "rSt0" => val_main_v49 (F := Ideal) x0 x4 x5 x8 x9 x10 x11 x22 x23 x24 x25
local notation "rMf0" => val_main_v76 (F := Ideal) x0 x4 x5 x12 x13 x14 x15 x22 x23 x24 x25
local notation "rSf0" => val_main_v79 (F := Ideal) x0 x4 x5 x12 x13 x14 x15 x22 x23 x24 x25
local notation "rHn0" => val_main_v110 (F := Ideal) x0 x3 x4 x5 x7 x8 x9 x10 x11 x12 x13 x14 x15 x16 x17 x18 x19 x20 x21 x22 x23 x24 x25
local notation "rU0" => val_main_v120 (F := Ideal) x0 x3 x4 x5 x7 x8 x9 x10 x11 x12 x13 x14 x15 x16 x17 x18 x19 x20 x21 x22 x23 x24 x25 x26 x27 x28 x29
local notation "rEU0" => val_main_v156 (F := Ideal) x0 x3 x4 x5 x7 x8 x9 x10 x11 x12 x13 x14 x15 x16 x17 x18 x19 x20 x21 x22 x23 x24 x25 x26 x27 x28 x29
local notation "rAU0" => val_main_v180 (F := Ideal) x0 x3 x4 x5 x7 x8 x9 x10 x11 x12 x13 x14 x15 x16 x17 x18 x19 x20 x21 x22 x23 x24 x25 x26 x27 x28 x29

variable (V : (c : Dev nD) → (b : Ref sig .tc) → Buf (Elt Ideal) ((c : Thread nD τ).loc b)) (c : Dev nD)

theorem stage0 (h0 : V c main_arg0 = x0) (h1 : V c main_arg22 = x22)
    (h2 : V c main_v7 = shapeCast S1x64 x23 shapeCasts_S64_S1x64) (h3 : V c main_arg24 = x24)
    (h4 : V c main_v8 = shapeCast S1x64 x25 shapeCasts_S64_S1x64) :
    ((dat0 (F := Ideal) V c).arrAt 5 cfg0.N : S50000x64.Idx → EReal) = rH0 :=
  (final0 V c).trans (by rw [h0, h1, h2, h3, h4]; exact (ref_Enc_v19 x0 x22 x23 x24 x25).symm)

theorem stage1 (h0 : V c main_v38 = rHc0) (h1 : V c main_v45 = rHr0) (h2 : V c main_arg5 = x5) (h3 : V c main_v6 = rMask)
    (h4 : V c main_v14 = extractStridedSlice S64x64 ![0, 0] x8 slices_S131x64_S64x64_0_0)
    (h5 : V c main_v15 = extractStridedSlice S64x64 ![64, 0] x8 slices_S131x64_S64x64_64_0)
    (h6 : V c main_v16 = extractStridedSlice S3x64 ![128, 0] x8 slices_S131x64_S3x64_128_0)
    (h7 : V c main_v46 = shapeCast S1x64 x9 shapeCasts_S64_S1x64) (h8 : V c main_arg10 = x10)
    (h9 : V c main_v47 = shapeCast S1x64 x11 shapeCasts_S64_S1x64) :
    ((dat1 (F := Ideal) V c).arrAt 10 cfg1.N : S800000x64.Idx → EReal) = rMt0 :=
  (final1 V c).trans (by
    rw [h0, h1, h2, h3, h4, h5, h6, h7, h8, h9]; exact (ref_Msg_v46 x0 x4 x5 x8 x9 x10 x11 x22 x23 x24 x25).symm)

theorem stage2 (h0 : V c main_v45 = rHr0) (h1 : V c main_v38 = rHc0) (h2 : V c main_arg5 = x5) (h3 : V c main_v6 = rMask)
    (h4 : V c main_v17 = extractStridedSlice S64x64 ![0, 0] x12 slices_S131x64_S64x64_0_0)
    (h5 : V c main_v18 = extractStridedSlice S64x64 ![64, 0] x12 slices_S131x64_S64x64_64_0)
    (h6 : V c main_v19 = extractStridedSlice S3x64 ![128, 0] x12 slices_S131x64_S3x64_128_0)
    (h7 : V c main_v49 = shapeCast S1x64 x13 shapeCasts_S64_S1x64) (h8 : V c main_arg14 = x14)
    (h9 : V c main_v50 = shapeCast S1x64 x15 shapeCasts_S64_S1x64) :
    ((dat2 (F := Ideal) V c).arrAt 10 cfg2.N : S800000x64.Idx → EReal) = rMf0 :=
  (final2 V c).trans (by
    rw [h0, h1, h2, h3, h4, h5, h6, h7, h8, h9, ← ref_v56 x0 x4 x22 x23 x24 x25, ← ref_v63 x0 x4 x22 x23 x24 x25]
    exact (ref_Msg_v76 x0 x4 x5 x12 x13 x14 x15 x22 x23 x24 x25).symm)

theorem stage3 (h0 : V c main_v9 = rH0) (h1 : V c main_v54 = rSt0) (h2 : V c main_v57 = rSf0) (h3 : V c main_arg7 = x7)
    (h5 : V c main_v13 = dmaskOf x3)
    (h6 : V c main_v20 = extractStridedSlice S64x64 ![0, 0] x16 slices_S194x64_S64x64_0_0)
    (h7 : V c main_v21 = extractStridedSlice S64x64 ![64, 0] x16 slices_S194x64_S64x64_64_0)
    (h8 : V c main_v22 = extractStridedSlice S64x64 ![128, 0] x16 slices_S194x64_S64x64_128_0)
    (h9 : V c main_v23 = extractStridedSlice S2x64 ![192, 0] x16 slices_S194x64_S2x64_192_0)
    (h10 : V c main_v58 = shapeCast S1x64 x17 shapeCasts_S64_S1x64)
    (h11 : V c main_v24 = extractStridedSlice S64x64 ![0, 0] x18 slices_S194x64_S64x64_0_0)
    (h12 : V c main_v25 = extractStridedSlice S64x64 ![64, 0] x18 slices_S194x64_S64x64_64_0)
    (h13 : V c main_v26 = extractStridedSlice S64x64 ![128, 0] x18 slices_S194x64_S64x64_128_0)
    (h14 : V c main_v27 = extractStridedSlice S2x64 ![192, 0] x18 slices_S194x64_S2x64_192_0)
    (h15 : V c main_v59 = shapeCast S1x64 x19 shapeCasts_S64_S1x64)
    (h16 : V c main_v28 = extractStridedSlice S64x64 ![0, 0] x20 slices_S194x64_S64x64_0_0)
    (h17 : V c main_v29 = extractStridedSlice S64x64 ![64, 0] x20 slices_S194x64_S64x64_64_0)
    (h18 : V c main_v30 = extractStridedSlice S64x64 ![128, 0] x20 slices_S194x64_S64x64_128_0)
    (h19 : V c main_v31 = extractStridedSlice S2x64 ![192, 0] x20 slices_S194x64_S2x64_192_0)
    (h20 : V c main_v60 = shapeCast S1x64 x21 shapeCasts_S64_S1x64) :
    ((dat3 (F := Ideal) V c).arrAt 21 cfg3.N : S50000x64.Idx → EReal) = rHn0 :=
  (final3 V c).trans (by
    rw [h0, h1, h2, h3, h5, h6, h7, h8, h9, h10, h11, h12, h13, h14, h15, h16, h17, h18, h19, h20]
    exact (ref_Gate_v110 x0 x3 x4 x5 x7 x8 x9 x10 x11 x12 x13 x14 x15 x16 x17 x18 x19 x20 x21 x22 x23 x24 x25).symm)

theorem stage4 (h0 : V c main_v61 = rHn0) (h1 : V c main_arg26 = x26) (h2 : V c main_v62 = shapeCast S1x64 x27 shapeCasts_S64_S1x64)
    (h3 : V c main_arg28 = x28) (h4 : V c main_v63 = shapeCast S1x1 x29 shapeCasts_S1_S1x1) :
    ((dat4 (F := Ideal) V c).arrAt 5 cfg4.N : S50000x1.Idx → EReal) = rU0 :=
  (final4 V c).trans (by
    rw [h0, h1, h2, h3, h4]
    exact (ref_Dec_v120 x0 x3 x4 x5 x7 x8 x9 x10 x11 x12 x13 x14 x15 x16 x17 x18 x19 x20 x21 x22 x23 x24 x25 x26 x27 x28 x29).symm)

theorem stage5 (h0 : V c main_v64 = rU0) (h1 : V c main_arg22 = x22) (h2 : V c main_v81 = shapeCast S1x64 x23 shapeCasts_S64_S1x64)
    (h3 : V c main_arg24 = x24) (h4 : V c main_v82 = shapeCast S1x64 x25 shapeCasts_S64_S1x64) :
    ((dat5 (F := Ideal) V c).arrAt 5 cfg5.N : S50000x64.Idx → EReal) = rEU0 :=
  (final5 V c).trans (by
    rw [h0, h1, h2, h3, h4]
    exact (ref_Enc_v170 x0 x3 x4 x5 x7 x8 x9 x10 x11 x12 x13 x14 x15 x16 x17 x18 x19 x20 x21 x22 x23 x24 x25 x26 x27 x28 x29).symm.trans
      (ref_v170 x0 x3 x4 x5 x7 x8 x9 x10 x11 x12 x13 x14 x15 x16 x17 x18 x19 x20 x21 x22 x23 x24 x25 x26 x27 x28 x29))

theorem stage6 (h0 : V c main_v83 = rEU0) (h1 : V c main_arg26 = x26) (h2 : V c main_v88 = shapeCast S1x64 x27 shapeCasts_S64_S1x64)
    (h3 : V c main_arg28 = x28) (h4 : V c main_v89 = shapeCast S1x1 x29 shapeCasts_S1_S1x1) :
    ((dat6 (F := Ideal) V c).arrAt 5 cfg6.N : S50000x1.Idx → EReal) = rAU0 :=
  (final6 V c).trans (by
    rw [h0, h1, h2, h3, h4, ← ref_v170 x0 x3 x4 x5 x7 x8 x9 x10 x11 x12 x13 x14 x15 x16 x17 x18 x19 x20 x21 x22 x23 x24 x25 x26 x27 x28 x29]
    exact (ref_Dec_v180 x0 x3 x4 x5 x7 x8 x9 x10 x11 x12 x13 x14 x15 x16 x17 x18 x19 x20 x21 x22 x23 x24 x25 x26 x27 x28 x29).symm)

end Cert.KernelIdeal.Val

end
-- ==== Proof.Val.Bridge2.lean ====
import proofs.«138431_j79370995631014_1_alg».proof.Proof.Gen.KernelIdeal.Launch
import proofs.«138431_j79370995631014_1_alg».proof.Proof.Ref.ReadP
import Idealize.ShloMosaic.Lib.StableHlo.Run
import Idealize.ShloMosaic.PureOps.Ideal.Laws

noncomputable section

namespace Cert.KernelIdeal.Val

open Cert.KernelIdeal Cert.KernelIdeal.Gen
open Idealize.ShloMosaic Idealize.ShloMosaic.TcCoe Idealize.SL.Sem Idealize.ShloMosaic.StableHlo
open Cert.ReferenceIdeal.Read

section Host

variable (V : Valuation τ sig (Elt Ideal))
variable {x0 : (⟨S50000x1, .f32⟩ : BufTy).Contents (Elt Ideal)}
  {x2 : (⟨S50000x1, .f32⟩ : BufTy).Contents (Elt Ideal)}
  {x3 : (⟨S50000, .i32⟩ : BufTy).Contents (Elt Ideal)}
  {x4 : (⟨S2x800000, .i32⟩ : BufTy).Contents (Elt Ideal)}
  {x5 : (⟨S800000x3, .f32⟩ : BufTy).Contents (Elt Ideal)}
  {x6 : (⟨S800000, .f32⟩ : BufTy).Contents (Elt Ideal)}
  {x7 : (⟨S50000x2, .f32⟩ : BufTy).Contents (Elt Ideal)}
  {x8 : (⟨S131x64, .f32⟩ : BufTy).Contents (Elt Ideal)}
  {x9 : (⟨S64, .f32⟩ : BufTy).Contents (Elt Ideal)}
  {x10 : (⟨S64x64, .f32⟩ : BufTy).Contents (Elt Ideal)}
  {x11 : (⟨S64, .f32⟩ : BufTy).Contents (Elt Ideal)}
  {x12 : (⟨S131x64, .f32⟩ : BufTy).Contents (Elt Ideal)}
  {x13 : (⟨S64, .f32⟩ : BufTy).Contents (Elt Ideal)}
  {x14 : (⟨S64x64, .f32⟩ : BufTy).Contents (Elt Ideal)}
  {x15 : (⟨S64, .f32⟩ : BufTy).Contents (Elt Ideal)}
  {x16 : (⟨S194x64, .f32⟩ : BufTy).Contents (Elt Ideal)}
  {x17 : (⟨S64, .f32⟩ : BufTy).Contents (Elt Ideal)}
  {x18 : (⟨S194x64, .f32⟩ : BufTy).Contents (Elt Ideal)}
  {x19 : (⟨S64, .f32⟩ : BufTy).Contents (Elt Ideal)}
  {x20 : (⟨S194x64, .f32⟩ : BufTy).Contents (Elt Ideal)}
  {x21 : (⟨S64, .f32⟩ : BufTy).Contents (Elt Ideal)}
  {x22 : (⟨S1x64, .f32⟩ : BufTy).Contents (Elt Ideal)}
  {x23 : (⟨S64, .f32⟩ : BufTy).Contents (Elt Ideal)}
  {x24 : (⟨S64x64, .f32⟩ : BufTy).Contents (Elt Ideal)}
  {x25 : (⟨S64, .f32⟩ : BufTy).Contents (Elt Ideal)}
  {x26 : (⟨S64x64, .f32⟩ : BufTy).Contents (Elt Ideal)}
  {x27 : (⟨S64, .f32⟩ : BufTy).Contents (Elt Ideal)}
  {x28 : (⟨S64x1, .f32⟩ : BufTy).Contents (Elt Ideal)}
  {x29 : (⟨S1, .f32⟩ : BufTy).Contents (Elt Ideal)}

local notation "R188" => val_main_v188 (F := Ideal) x0 x2 x3 x4 x5 x6 x7 x8 x9 x10 x11 x12 x13 x14 x15 x16 x17 x18 x19 x20 x21 x22 x23 x24 x25 x26 x27 x28 x29
local notation "R215" => val_main_v215 (F := Ideal) x0 x3 x4 x5 x7 x8 x9 x10 x11 x12 x13 x14 x15 x16 x17 x18 x19 x20 x21 x22 x23 x24 x25
local notation "R218" => val_main_v218 (F := Ideal) x0 x3 x4 x5 x7 x8 x9 x10 x11 x12 x13 x14 x15 x16 x17 x18 x19 x20 x21 x22 x23 x24 x25
local notation "R245" => val_main_v245 (F := Ideal) x0 x3 x4 x5 x7 x8 x9 x10 x11 x12 x13 x14 x15 x16 x17 x18 x19 x20 x21 x22 x23 x24 x25
local notation "R248" => val_main_v248 (F := Ideal) x0 x3 x4 x5 x7 x8 x9 x10 x11 x12 x13 x14 x15 x16 x17 x18 x19 x20 x21 x22 x23 x24 x25
local notation "R279" => val_main_v279 (F := Ideal) x0 x3 x4 x5 x7 x8 x9 x10 x11 x12 x13 x14 x15 x16 x17 x18 x19 x20 x21 x22 x23 x24 x25
local notation "R289" => val_main_v289 (F := Ideal) x0 x3 x4 x5 x7 x8 x9 x10 x11 x12 x13 x14 x15 x16 x17 x18 x19 x20 x21 x22 x23 x24 x25 x26 x27 x28 x29
local notation "R305" => val_main_v305 (F := Ideal) x0 x2 x3 x4 x5 x6 x7 x8 x9 x10 x11 x12 x13 x14 x15 x16 x17 x18 x19 x20 x21 x22 x23 x24 x25 x26 x27 x28 x29
local notation "R325" => val_main_v325 (F := Ideal) x0 x3 x4 x5 x7 x8 x9 x10 x11 x12 x13 x14 x15 x16 x17 x18 x19 x20 x21 x22 x23 x24 x25 x26 x27 x28 x29
local notation "R329" => val_main_v329 (F := Ideal) x0 x3 x4 x5 x7 x8 x9 x10 x11 x12 x13 x14 x15 x16 x17 x18 x19 x20 x21 x22 x23 x24 x25 x26 x27 x28 x29
local notation "R349" => val_main_v349 (F := Ideal) x0 x3 x4 x5 x7 x8 x9 x10 x11 x12 x13 x14 x15 x16 x17 x18 x19 x20 x21 x22 x23 x24 x25 x26 x27 x28 x29
local notation "R357" => val_main_v357 (F := Ideal) x0 x2 x3 x4 x5 x6 x7 x8 x9 x10 x11 x12 x13 x14 x15 x16 x17 x18 x19 x20 x21 x22 x23 x24 x25 x26 x27 x28 x29

local notation "R195" => val_main_v195 (F := Ideal) x0 x3 x4 x5 x7 x8 x9 x10 x11 x12 x13 x14 x15 x16 x17 x18 x19 x20 x21 x22 x23 x24 x25
local notation "R202" => val_main_v202 (F := Ideal) x0 x3 x4 x5 x7 x8 x9 x10 x11 x12 x13 x14 x15 x16 x17 x18 x19 x20 x21 x22 x23 x24 x25
local notation "R225" => val_main_v225 (F := Ideal) x0 x3 x4 x5 x7 x8 x9 x10 x11 x12 x13 x14 x15 x16 x17 x18 x19 x20 x21 x22 x23 x24 x25
local notation "R232" => val_main_v232 (F := Ideal) x0 x3 x4 x5 x7 x8 x9 x10 x11 x12 x13 x14 x15 x16 x17 x18 x19 x20 x21 x22 x23 x24 x25
local notation "R315" => val_main_v315 (F := Ideal) x0 x3 x4 x5 x7 x8 x9 x10 x11 x12 x13 x14 x15 x16 x17 x18 x19 x20 x21 x22 x23 x24 x25 x26 x27 x28 x29
local notation "R339" => val_main_v339 (F := Ideal) x0 x3 x4 x5 x7 x8 x9 x10 x11 x12 x13 x14 x15 x16 x17 x18 x19 x20 x21 x22 x23 x24 x25 x26 x27 x28 x29

theorem ref_v225_eq : R225 = R202 := rfl

theorem ref_v232_eq : R232 = R195 := rfl

theorem ref_v315_eq : R315 = R289 := rfl

theorem ref_v339_eq : R339 = R325 := rfl

theorem h8_v116 (h13 : V (Proc.devRef .tc main_arg13) = x13) :
    StableHlo.after (hostOps8 (F := Ideal)) V (Proc.devRef .tc main_v116) = shapeCast S1x64 x13 shapeCasts_S64_S1x64 := by
  after_results_simp
  rw [h13]
  rfl

theorem h8_v117 (h15 : V (Proc.devRef .tc main_arg15) = x15) :
    StableHlo.after (hostOps8 (F := Ideal)) V (Proc.devRef .tc main_v117) = shapeCast S1x64 x15 shapeCasts_S64_S1x64 := by
  after_results_simp
  rw [h15]
  rfl

set_option maxHeartbeats 1000000 in

theorem h9_v121 (h3 : V (Proc.devRef .tc main_v3) = val_main_v3 (F := Ideal) x4)
    (h115 : V (Proc.devRef .tc main_v115) = R215) :
    StableHlo.after (hostOps9 (F := Ideal)) V (Proc.devRef .tc main_v121) = R218 := by
  after_results_simp
  rw [h3, h115]
  rfl

set_option maxHeartbeats 1000000 in

theorem h9_v124 (h1 : V (Proc.devRef .tc main_v1) = val_main_v1 (F := Ideal) x4)
    (h118 : V (Proc.devRef .tc main_v118) = R245) :
    StableHlo.after (hostOps9 (F := Ideal)) V (Proc.devRef .tc main_v124) = R248 := by
  after_results_simp
  rw [h1, h118]
  rfl

theorem h9_v125 (h17 : V (Proc.devRef .tc main_arg17) = x17) :
    StableHlo.after (hostOps9 (F := Ideal)) V (Proc.devRef .tc main_v125) = shapeCast S1x64 x17 shapeCasts_S64_S1x64 := by
  after_results_simp
  rw [h17]
  rfl

theorem h9_v126 (h19 : V (Proc.devRef .tc main_arg19) = x19) :
    StableHlo.after (hostOps9 (F := Ideal)) V (Proc.devRef .tc main_v126) = shapeCast S1x64 x19 shapeCasts_S64_S1x64 := by
  after_results_simp
  rw [h19]
  rfl

theorem h9_v127 (h21 : V (Proc.devRef .tc main_arg21) = x21) :
    StableHlo.after (hostOps9 (F := Ideal)) V (Proc.devRef .tc main_v127) = shapeCast S1x64 x21 shapeCasts_S64_S1x64 := by
  after_results_simp
  rw [h21]
  rfl

theorem h10_v129 (h27 : V (Proc.devRef .tc main_arg27) = x27) :
    StableHlo.after (hostOps10 (F := Ideal)) V (Proc.devRef .tc main_v129) = shapeCast S1x64 x27 shapeCasts_S64_S1x64 := by
  after_results_simp
  rw [h27]
  rfl

theorem h10_v130 (h29 : V (Proc.devRef .tc main_arg29) = x29) :
    StableHlo.after (hostOps10 (F := Ideal)) V (Proc.devRef .tc main_v130) = shapeCast S1x1 x29 shapeCasts_S1_S1x1 := by
  after_results_simp
  rw [h29]
  rfl

set_option maxHeartbeats 1000000 in

theorem h11_v147 (h6 : V (Proc.devRef .tc main_arg6) = x6)
    (h3 : V (Proc.devRef .tc main_v3) = val_main_v3 (F := Ideal) x4)
    (h131 : V (Proc.devRef .tc main_v131) = R289)
    (h1 : V (Proc.devRef .tc main_v1) = val_main_v1 (F := Ideal) x4)
    (h2 : V (Proc.devRef .tc main_arg2) = x2) :
    StableHlo.after (hostOps11 (F := Ideal)) V (Proc.devRef .tc main_v147) = R305 := by
  after_results_simp
  rw [h6, h3, h131, h1, h2]
  rfl

theorem h11_v148 (h23 : V (Proc.devRef .tc main_arg23) = x23) :
    StableHlo.after (hostOps11 (F := Ideal)) V (Proc.devRef .tc main_v148) = shapeCast S1x64 x23 shapeCasts_S64_S1x64 := by
  after_results_simp
  rw [h23]
  rfl

theorem h11_v149 (h25 : V (Proc.devRef .tc main_arg25) = x25) :
    StableHlo.after (hostOps11 (F := Ideal)) V (Proc.devRef .tc main_v149) = shapeCast S1x64 x25 shapeCasts_S64_S1x64 := by
  after_results_simp
  rw [h25]
  rfl

set_option maxHeartbeats 1000000 in

theorem h12_v154 (h150 : V (Proc.devRef .tc main_v150) = R325)
    (h128 : V (Proc.devRef .tc main_v128) = R279) :
    StableHlo.after (hostOps12 (F := Ideal)) V (Proc.devRef .tc main_v154) = R329 := by
  after_results_simp
  rw [h150, h128]
  rfl

theorem h12_v155 (h27 : V (Proc.devRef .tc main_arg27) = x27) :
    StableHlo.after (hostOps12 (F := Ideal)) V (Proc.devRef .tc main_v155) = shapeCast S1x64 x27 shapeCasts_S64_S1x64 := by
  after_results_simp
  rw [h27]
  rfl

theorem h12_v156 (h29 : V (Proc.devRef .tc main_arg29) = x29) :
    StableHlo.after (hostOps12 (F := Ideal)) V (Proc.devRef .tc main_v156) = shapeCast S1x1 x29 shapeCasts_S1_S1x1 := by
  after_results_simp
  rw [h29]
  rfl

set_option maxHeartbeats 1000000 in

theorem h13_v165 (h157 : V (Proc.devRef .tc main_v157) = R349)
    (h131 : V (Proc.devRef .tc main_v131) = R289)
    (h147 : V (Proc.devRef .tc main_v147) = R305)
    (h98 : V (Proc.devRef .tc main_v98) = R188)
    (h154 : V (Proc.devRef .tc main_v154) = R329) :
    StableHlo.after (hostOps13 (F := Ideal)) V (Proc.devRef .tc main_v165) = R357 := by
  after_results_simp
  rw [h157, h131, h147, h98, h154]
  rfl

end Host

end Cert.KernelIdeal.Val
end
-- ==== Proof.Val.MsgFinal7.lean ====
import proofs.«138431_j79370995631014_1_alg».proof.Proof.Val.Msg
import proofs.«138431_j79370995631014_1_alg».proof.Proof.KI.D7
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz7 : (![0, 0] : Fin 2 → Nat) = fun _ => 0 := funext fun a => by fin_cases a <;> rfl

theorem idx7_0 : ∀ t : Fin cfg7.N, win7_0.index t (0 : Fin 2) = t.val ∧ win7_0.index t (1 : Fin 2) = 0 :=
  (by decide +kernel : ∀ t : Fin grid7.N, _)
theorem idx7_1 : ∀ t : Fin cfg7.N, win7_1.index t (0 : Fin 2) = t.val ∧ win7_1.index t (1 : Fin 2) = 0 :=
  (by decide +kernel : ∀ t : Fin grid7.N, _)
theorem idx7_2 : ∀ t : Fin cfg7.N, win7_2.index t (0 : Fin 2) = t.val ∧ win7_2.index t (1 : Fin 2) = 0 :=
  (by decide +kernel : ∀ t : Fin grid7.N, _)
theorem idx7_3 : ∀ t : Fin cfg7.N, win7_3.index t (0 : Fin 2) = t.val ∧ win7_3.index t (1 : Fin 2) = 0 :=
  (by decide +kernel : ∀ t : Fin grid7.N, _)
theorem idx7_4 : ∀ t : Fin cfg7.N, win7_4.index t (0 : Fin 2) = 0 ∧ win7_4.index t (1 : Fin 2) = 0 :=
  (by decide +kernel : ∀ t : Fin grid7.N, _)
theorem idx7_5 : ∀ t : Fin cfg7.N, win7_5.index t (0 : Fin 2) = 0 ∧ win7_5.index t (1 : Fin 2) = 0 :=
  (by decide +kernel : ∀ t : Fin grid7.N, _)
theorem idx7_6 : ∀ t : Fin cfg7.N, win7_6.index t (0 : Fin 2) = 0 ∧ win7_6.index t (1 : Fin 2) = 0 :=
  (by decide +kernel : ∀ t : Fin grid7.N, _)
theorem idx7_7 : ∀ t : Fin cfg7.N, win7_7.index t (0 : Fin 2) = 0 ∧ win7_7.index t (1 : Fin 2) = 0 :=
  (by decide +kernel : ∀ t : Fin grid7.N, _)
theorem idx7_8 : ∀ t : Fin cfg7.N, win7_8.index t (0 : Fin 2) = 0 ∧ win7_8.index t (1 : Fin 2) = 0 :=
  (by decide +kernel : ∀ t : Fin grid7.N, _)
theorem idx7_9 : ∀ t : Fin cfg7.N, win7_9.index t (0 : Fin 2) = 0 ∧ win7_9.index t (1 : Fin 2) = 0 :=
  (by decide +kernel : ∀ t : Fin grid7.N, _)
theorem idx7_10 : ∀ t : Fin cfg7.N, win7_10.index t (0 : Fin 2) = t.val ∧ win7_10.index t (1 : Fin 2) = 0 :=
  (by decide +kernel : ∀ t : Fin grid7.N, _)

theorem iblk7_0_apply (c : Dev nD) (t : Fin cfg7.N) (p : Fin 4000) (l : Fin 64) (e : Fin 800000)
    (he : e.val = 4000 * t.val + p.val) :
    (iblk7 V c 0 t : Vec Ideal S4000x64 .f32) (ix2 p l) = (V c main_v105 : Vec Ideal S800000x64 .f32) (ix2 e l) := by
  obtain ⟨h0, h1⟩ := idx7_0 t
  unfold iblk7
  rw [View.read_apply]
  show V c main_v105 _ = V c main_v105 _
  congr 1
  funext a
  apply Fin.ext
  match a with
  | ⟨0, _⟩ => show win7_0.index t 0 * 4000 + 1 * p.val = e.val; rw [h0, he]; omega
  | ⟨1, _⟩ => show win7_0.index t 1 * 64 + 1 * l.val = l.val; rw [h1]; omega

theorem iblk7_1_apply (c : Dev nD) (t : Fin cfg7.N) (p : Fin 4000) (l : Fin 64) (e : Fin 800000)
    (he : e.val = 4000 * t.val + p.val) :
    (iblk7 V c 1 t : Vec Ideal S4000x64 .f32) (ix2 p l) = (V c main_v112 : Vec Ideal S800000x64 .f32) (ix2 e l) := by
  obtain ⟨h0, h1⟩ := idx7_1 t
  unfold iblk7
  rw [View.read_apply]
  show V c main_v112 _ = V c main_v112 _
  congr 1
  funext a
  apply Fin.ext
  match a with
  | ⟨0, _⟩ => show win7_1.index t 0 * 4000 + 1 * p.val = e.val; rw [h0, he]; omega
  | ⟨1, _⟩ => show win7_1.index t 1 * 64 + 1 * l.val = l.val; rw [h1]; omega

theorem iblk7_2_apply (c : Dev nD) (t : Fin cfg7.N) (p : Fin 4000) (l : Fin 3) (e : Fin 800000)
    (he : e.val = 4000 * t.val + p.val) :
    (iblk7 V c 2 t : Vec Ideal S4000x3 .f32) (ix2 p l) = (V c main_arg5 : Vec Ideal S800000x3 .f32) (ix2 e l) := by
  obtain ⟨h0, h1⟩ := idx7_2 t
  unfold iblk7
  rw [View.read_apply]
  show V c main_arg5 _ = V c main_arg5 _
  congr 1
  funext a
  apply Fin.ext
  match a with
  | ⟨0, _⟩ => show win7_2.index t 0 * 4000 + 1 * p.val = e.val; rw [h0, he]; omega
  | ⟨1, _⟩ => show win7_2.index t 1 * 3 + 1 * l.val = l.val; rw [h1]; omega

theorem iblk7_3_apply (c : Dev nD) (t : Fin cfg7.N) (p : Fin 4000) (l : Fin 1) (e : Fin 800000)
    (he : e.val = 4000 * t.val + p.val) :
    (iblk7 V c 3 t : Vec Ideal S4000x1 .f32) (ix2 p l) = (V c main_v6 : Vec Ideal S800000x1 .f32) (ix2 e l) := by
  obtain ⟨h0, h1⟩ := idx7_3 t
  unfold iblk7
  rw [View.read_apply]
  show V c main_v6 _ = V c main_v6 _
  congr 1
  funext a
  apply Fin.ext
  match a with
  | ⟨0, _⟩ => show win7_3.index t 0 * 4000 + 1 * p.val = e.val; rw [h0, he]; omega
  | ⟨1, _⟩ => show win7_3.index t 1 * 1 + 1 * l.val = l.val; rw [h1]; omega

theorem iblk7_4_eq (c : Dev nD) (t : Fin cfg7.N) : (iblk7 V c 4 t : Vec Ideal S64x64 .f32) = V c main_v14 := by
  obtain ⟨h0, h1⟩ := idx7_4 t
  funext y
  unfold iblk7
  rw [View.read_apply]
  show V c main_v14 _ = V c main_v14 y
  congr 1
  funext a
  apply Fin.ext
  match a with
  | ⟨0, _⟩ => show win7_4.index t 0 * 64 + 1 * (y 0).val = (y 0).val; rw [h0]; omega
  | ⟨1, _⟩ => show win7_4.index t 1 * 64 + 1 * (y 1).val = (y 1).val; rw [h1]; omega

theorem iblk7_5_eq (c : Dev nD) (t : Fin cfg7.N) : (iblk7 V c 5 t : Vec Ideal S64x64 .f32) = V c main_v15 := by
  obtain ⟨h0, h1⟩ := idx7_5 t
  funext y
  unfold iblk7
  rw [View.read_apply]
  show V c main_v15 _ = V c main_v15 y
  congr 1
  funext a
  apply Fin.ext
  match a with
  | ⟨0, _⟩ => show win7_5.index t 0 * 64 + 1 * (y 0).val = (y 0).val; rw [h0]; omega
  | ⟨1, _⟩ => show win7_5.index t 1 * 64 + 1 * (y 1).val = (y 1).val; rw [h1]; omega

theorem iblk7_6_eq (c : Dev nD) (t : Fin cfg7.N) : (iblk7 V c 6 t : Vec Ideal S3x64 .f32) = V c main_v16 := by
  obtain ⟨h0, h1⟩ := idx7_6 t
  funext y
  unfold iblk7
  rw [View.read_apply]
  show V c main_v16 _ = V c main_v16 y
  congr 1
  funext a
  apply Fin.ext
  match a with
  | ⟨0, _⟩ => show win7_6.index t 0 * 3 + 1 * (y 0).val = (y 0).val; rw [h0]; omega
  | ⟨1, _⟩ => show win7_6.index t 1 * 64 + 1 * (y 1).val = (y 1).val; rw [h1]; omega

theorem iblk7_7_eq (c : Dev nD) (t : Fin cfg7.N) : (iblk7 V c 7 t : Vec Ideal S1x64 .f32) = V c main_v113 := by
  obtain ⟨h0, h1⟩ := idx7_7 t
  funext y
  unfold iblk7
  rw [View.read_apply]
  show V c main_v113 _ = V c main_v113 y
  congr 1
  funext a
  apply Fin.ext
  match a with
  | ⟨0, _⟩ => show win7_7.index t 0 * 1 + 1 * (y 0).val = (y 0).val; rw [h0]; omega
  | ⟨1, _⟩ => show win7_7.index t 1 * 64 + 1 * (y 1).val = (y 1).val; rw [h1]; omega

theorem iblk7_8_eq (c : Dev nD) (t : Fin cfg7.N) : (iblk7 V c 8 t : Vec Ideal S64x64 .f32) = V c main_arg10 := by
  obtain ⟨h0, h1⟩ := idx7_8 t
  funext y
  unfold iblk7
  rw [View.read_apply]
  show V c main_arg10 _ = V c main_arg10 y
  congr 1
  funext a
  apply Fin.ext
  match a with
  | ⟨0, _⟩ => show win7_8.index t 0 * 64 + 1 * (y 0).val = (y 0).val; rw [h0]; omega
  | ⟨1, _⟩ => show win7_8.index t 1 * 64 + 1 * (y 1).val = (y 1).val; rw [h1]; omega

theorem iblk7_9_eq (c : Dev nD) (t : Fin cfg7.N) : (iblk7 V c 9 t : Vec Ideal S1x64 .f32) = V c main_v114 := by
  obtain ⟨h0, h1⟩ := idx7_9 t
  funext y
  unfold iblk7
  rw [View.read_apply]
  show V c main_v114 _ = V c main_v114 y
  congr 1
  funext a
  apply Fin.ext
  match a with
  | ⟨0, _⟩ => show win7_9.index t 0 * 1 + 1 * (y 0).val = (y 0).val; rw [h0]; omega
  | ⟨1, _⟩ => show win7_9.index t 1 * 64 + 1 * (y 1).val = (y 1).val; rw [h1]; omega

theorem out7_apply (hi hj : Vec Ideal S4000x64 .f32) (ea : Vec Ideal S4000x3 .f32) (mask : Vec Ideal S4000x1 .f32)
    (w1i w1j : Vec Ideal S64x64 .f32) (w1ea : Vec Ideal S3x64 .f32) (b1 : Vec Ideal S1x64 .f32)
    (w2 : Vec Ideal S64x64 .f32) (b2 : Vec Ideal S1x64 .f32) (p : Fin 4000) (q : Fin 64) :
    out7 (F := Ideal) hi hj ea mask w1i w1j w1ea b1 w2 b2 (ix2 p q)
      = msgRow (fun l => hi (ix2 p l)) (fun l => hj (ix2 p l)) (fun l => ea (ix2 p l)) (mask (ix2 p (0 : Fin 1)))
          w1i w1j w1ea b1 w2 b2 q := by
  unfold out7
  rw [View.canon_unit_zero hz7]
  simp only [View.ld_unit_zero (S := S4000x64) hz7, View.ld_unit_zero (S := S4000x3) hz7, View.ld_unit_zero (S := S4000x1) hz7,
    View.ld_unit_zero (S := S64x64) hz7, View.ld_unit_zero (S := S3x64) hz7, View.ld_unit_zero (S := S1x64) hz7]
  exact k7_pay_apply hi hj ea mask w1i w1j w1ea b1 w2 b2 p q

theorem emb7_10 (t : Fin cfg7.N) (y : ((cfg7.win 10).xblock (cfg7.grid.coords t)).Idx) (q : Fin 64) (e : Fin 800000)
    (he : e.val = 4000 * t.val + (y 0).val) (hq : q.val = (y 1).val) :
    ((cfg7.win 10).blk t).view.emb y = (ix2 e q : S800000x64.Idx) := by
  obtain ⟨h0, h1⟩ := idx7_10 t
  funext a
  apply Fin.ext
  match a with
  | ⟨0, _⟩ => show win7_10.index t 0 * 4000 + 1 * (y 0).val = e.val; rw [h0, he]; omega
  | ⟨1, _⟩ => show win7_10.index t 1 * 64 + 1 * (y 1).val = q.val; rw [h1, hq]; omega

theorem flushed7_eq (c : Dev nD) (t : Fin cfg7.N) :
    (dat7 V c).flushed 10 t = ((cfg7.win 10).blk t).view.read (Elt Ideal)
      (MsgG (V c main_v105) (V c main_v112) (V c main_arg5) (V c main_v6) (V c main_v14) (V c main_v15) (V c main_v16) (V c main_v113)
      (V c main_arg10) (V c main_v114)) := by
  have hN : cfg7.N = 200 := N_7
  show (cfg7.win 10).cut (grid7.coords t) ((dat7 V c).after 10 t) = _
  rw [after7_10]
  funext y
  have hp : (y 0).val < 4000 := (y 0).isLt
  have hq : (y 1).val < 64 := (y 1).isLt
  have ht : t.val < 200 := hN ▸ t.isLt
  have hx : (cfg7.win 10).xinj (grid7.coords t) y = (ix2 (⟨(y 0).val, hp⟩ : Fin 4000) (⟨(y 1).val, hq⟩ : Fin 64) : S4000x64.Idx) :=
    funext fun a => Fin.ext (by
      match a with
      | ⟨0, _⟩ => rfl
      | ⟨1, _⟩ => rfl)
  rw [View.read_apply,
    emb7_10 t y ⟨(y 1).val, hq⟩ ⟨4000 * t.val + (y 0).val, by omega⟩ rfl rfl, MsgG_apply]
  refine (congrArg (out7 (F := Ideal) (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t)) hx).trans ?_
  refine (out7_apply (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) ⟨(y 0).val, hp⟩ ⟨(y 1).val, hq⟩).trans ?_
  have r0 := funext fun l : Fin 64 => iblk7_0_apply V c t ⟨(y 0).val, hp⟩ l ⟨4000 * t.val + (y 0).val, by omega⟩ rfl
  have r1 := funext fun l : Fin 64 => iblk7_1_apply V c t ⟨(y 0).val, hp⟩ l ⟨4000 * t.val + (y 0).val, by omega⟩ rfl
  have r2 := funext fun l : Fin 3 => iblk7_2_apply V c t ⟨(y 0).val, hp⟩ l ⟨4000 * t.val + (y 0).val, by omega⟩ rfl
  have r3 := iblk7_3_apply V c t ⟨(y 0).val, hp⟩ (0 : Fin 1) ⟨4000 * t.val + (y 0).val, by omega⟩ rfl
  rw [r0, r1, r2, r3, iblk7_4_eq V c t, iblk7_5_eq V c t, iblk7_6_eq V c t, iblk7_7_eq V c t, iblk7_8_eq V c t, iblk7_9_eq V c t]
  exact (cast_eq _ _).symm

theorem mem_blk7 (t : Fin cfg7.N) (i : S800000x64.Idx) :
    i ∈ ((cfg7.win 10).blk t).view.set ↔ ∀ a : Fin 2, win7_10.index t a * S4000x64.size a ≤ (i a).val
      ∧ (i a).val < win7_10.index t a * S4000x64.size a + S4000x64.size a := by
  show i ∈ ((View.whole main_v115).slice (win7_10.rect t)).set ↔ _
  rw [View.set_slice_whole, Rect.mem_set_unit]
  exact Iff.rfl

theorem covered7 (i : S800000x64.Idx) :
    ∃ t : Fin cfg7.N, (cfg7.win 10).flush t = true ∧ i ∈ ((cfg7.win 10).blk t).view.set := by
  have hN : cfg7.N = 200 := N_7
  have hi0 : (i 0).val < 800000 := (i 0).isLt
  have hi1 : (i 1).val < 64 := (i 1).isLt
  have ht : (i 0).val / 4000 < cfg7.N := by rw [hN]; omega
  obtain ⟨e0, e1⟩ := idx7_10 ⟨(i 0).val / 4000, ht⟩
  refine ⟨⟨(i 0).val / 4000, ht⟩, flush7_10 _, ?_⟩
  rw [mem_blk7]
  intro a
  match a with
  | ⟨0, _⟩ =>
    show win7_10.index ⟨(i 0).val / 4000, ht⟩ 0 * 4000 ≤ (i 0).val ∧ (i 0).val < win7_10.index ⟨(i 0).val / 4000, ht⟩ 0 * 4000 + 4000
    rw [e0]
    show (i 0).val / 4000 * 4000 ≤ (i 0).val ∧ (i 0).val < (i 0).val / 4000 * 4000 + 4000
    omega
  | ⟨1, _⟩ =>
    show win7_10.index ⟨(i 0).val / 4000, ht⟩ 1 * 64 ≤ (i 1).val ∧ (i 1).val < win7_10.index ⟨(i 0).val / 4000, ht⟩ 1 * 64 + 64
    rw [e1]
    omega

theorem final7 (c : Dev nD) :
    ((dat7 (F := Ideal) V c).arrAt 10 cfg7.N : S800000x64.Idx → EReal)
      = MsgG (V c main_v105) (V c main_v112) (V c main_arg5) (V c main_v6) (V c main_v14) (V c main_v15) (V c main_v16) (V c main_v113)
          (V c main_arg10) (V c main_v114) :=
  (dat7 (F := Ideal) V c).arrAt_eq_of_cover 10
    (MsgG (V c main_v105) (V c main_v112) (V c main_arg5) (V c main_v6) (V c main_v14) (V c main_v15) (V c main_v16) (V c main_v113)
      (V c main_arg10) (V c main_v114))
    (fun t _ => flushed7_eq V c t) covered7

end Cert.KernelIdeal.Val

end
-- ==== Proof.Val.MsgFinal8.lean ====
import proofs.«138431_j79370995631014_1_alg».proof.Proof.Val.Msg
import proofs.«138431_j79370995631014_1_alg».proof.Proof.KI.D8
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz8 : (![0, 0] : Fin 2 → Nat) = fun _ => 0 := funext fun a => by fin_cases a <;> rfl

theorem idx8_0 : ∀ t : Fin cfg8.N, win8_0.index t (0 : Fin 2) = t.val ∧ win8_0.index t (1 : Fin 2) = 0 :=
  (by decide +kernel : ∀ t : Fin grid8.N, _)
theorem idx8_1 : ∀ t : Fin cfg8.N, win8_1.index t (0 : Fin 2) = t.val ∧ win8_1.index t (1 : Fin 2) = 0 :=
  (by decide +kernel : ∀ t : Fin grid8.N, _)
theorem idx8_2 : ∀ t : Fin cfg8.N, win8_2.index t (0 : Fin 2) = t.val ∧ win8_2.index t (1 : Fin 2) = 0 :=
  (by decide +kernel : ∀ t : Fin grid8.N, _)
theorem idx8_3 : ∀ t : Fin cfg8.N, win8_3.index t (0 : Fin 2) = t.val ∧ win8_3.index t (1 : Fin 2) = 0 :=
  (by decide +kernel : ∀ t : Fin grid8.N, _)
theorem idx8_4 : ∀ t : Fin cfg8.N, win8_4.index t (0 : Fin 2) = 0 ∧ win8_4.index t (1 : Fin 2) = 0 :=
  (by decide +kernel : ∀ t : Fin grid8.N, _)
theorem idx8_5 : ∀ t : Fin cfg8.N, win8_5.index t (0 : Fin 2) = 0 ∧ win8_5.index t (1 : Fin 2) = 0 :=
  (by decide +kernel : ∀ t : Fin grid8.N, _)
theorem idx8_6 : ∀ t : Fin cfg8.N, win8_6.index t (0 : Fin 2) = 0 ∧ win8_6.index t (1 : Fin 2) = 0 :=
  (by decide +kernel : ∀ t : Fin grid8.N, _)
theorem idx8_7 : ∀ t : Fin cfg8.N, win8_7.index t (0 : Fin 2) = 0 ∧ win8_7.index t (1 : Fin 2) = 0 :=
  (by decide +kernel : ∀ t : Fin grid8.N, _)
theorem idx8_8 : ∀ t : Fin cfg8.N, win8_8.index t (0 : Fin 2) = 0 ∧ win8_8.index t (1 : Fin 2) = 0 :=
  (by decide +kernel : ∀ t : Fin grid8.N, _)
theorem idx8_9 : ∀ t : Fin cfg8.N, win8_9.index t (0 : Fin 2) = 0 ∧ win8_9.index t (1 : Fin 2) = 0 :=
  (by decide +kernel : ∀ t : Fin grid8.N, _)
theorem idx8_10 : ∀ t : Fin cfg8.N, win8_10.index t (0 : Fin 2) = t.val ∧ win8_10.index t (1 : Fin 2) = 0 :=
  (by decide +kernel : ∀ t : Fin grid8.N, _)

theorem iblk8_0_apply (c : Dev nD) (t : Fin cfg8.N) (p : Fin 4000) (l : Fin 64) (e : Fin 800000)
    (he : e.val = 4000 * t.val + p.val) :
    (iblk8 V c 0 t : Vec Ideal S4000x64 .f32) (ix2 p l) = (V c main_v112 : Vec Ideal S800000x64 .f32) (ix2 e l) := by
  obtain ⟨h0, h1⟩ := idx8_0 t
  unfold iblk8
  rw [View.read_apply]
  show V c main_v112 _ = V c main_v112 _
  congr 1
  funext a
  apply Fin.ext
  match a with
  | ⟨0, _⟩ => show win8_0.index t 0 * 4000 + 1 * p.val = e.val; rw [h0, he]; omega
  | ⟨1, _⟩ => show win8_0.index t 1 * 64 + 1 * l.val = l.val; rw [h1]; omega

theorem iblk8_1_apply (c : Dev nD) (t : Fin cfg8.N) (p : Fin 4000) (l : Fin 64) (e : Fin 800000)
    (he : e.val = 4000 * t.val + p.val) :
    (iblk8 V c 1 t : Vec Ideal S4000x64 .f32) (ix2 p l) = (V c main_v105 : Vec Ideal S800000x64 .f32) (ix2 e l) := by
  obtain ⟨h0, h1⟩ := idx8_1 t
  unfold iblk8
  rw [View.read_apply]
  show V c main_v105 _ = V c main_v105 _
  congr 1
  funext a
  apply Fin.ext
  match a with
  | ⟨0, _⟩ => show win8_1.index t 0 * 4000 + 1 * p.val = e.val; rw [h0, he]; omega
  | ⟨1, _⟩ => show win8_1.index t 1 * 64 + 1 * l.val = l.val; rw [h1]; omega

theorem iblk8_2_apply (c : Dev nD) (t : Fin cfg8.N) (p : Fin 4000) (l : Fin 3) (e : Fin 800000)
    (he : e.val = 4000 * t.val + p.val) :
    (iblk8 V c 2 t : Vec Ideal S4000x3 .f32) (ix2 p l) = (V c main_arg5 : Vec Ideal S800000x3 .f32) (ix2 e l) := by
  obtain ⟨h0, h1⟩ := idx8_2 t
  unfold iblk8
  rw [View.read_apply]
  show V c main_arg5 _ = V c main_arg5 _
  congr 1
  funext a
  apply Fin.ext
  match a with
  | ⟨0, _⟩ => show win8_2.index t 0 * 4000 + 1 * p.val = e.val; rw [h0, he]; omega
  | ⟨1, _⟩ => show win8_2.index t 1 * 3 + 1 * l.val = l.val; rw [h1]; omega

theorem iblk8_3_apply (c : Dev nD) (t : Fin cfg8.N) (p : Fin 4000) (l : Fin 1) (e : Fin 800000)
    (he : e.val = 4000 * t.val + p.val) :
    (iblk8 V c 3 t : Vec Ideal S4000x1 .f32) (ix2 p l) = (V c main_v6 : Vec Ideal S800000x1 .f32) (ix2 e l) := by
  obtain ⟨h0, h1⟩ := idx8_3 t
  unfold iblk8
  rw [View.read_apply]
  show V c main_v6 _ = V c main_v6 _
  congr 1
  funext a
  apply Fin.ext
  match a with
  | ⟨0, _⟩ => show win8_3.index t 0 * 4000 + 1 * p.val = e.val; rw [h0, he]; omega
  | ⟨1, _⟩ => show win8_3.index t 1 * 1 + 1 * l.val = l.val; rw [h1]; omega

theorem iblk8_4_eq (c : Dev nD) (t : Fin cfg8.N) : (iblk8 V c 4 t : Vec Ideal S64x64 .f32) = V c main_v17 := by
  obtain ⟨h0, h1⟩ := idx8_4 t
  funext y
  unfold iblk8
  rw [View.read_apply]
  show V c main_v17 _ = V c main_v17 y
  congr 1
  funext a
  apply Fin.ext
  match a with
  | ⟨0, _⟩ => show win8_4.index t 0 * 64 + 1 * (y 0).val = (y 0).val; rw [h0]; omega
  | ⟨1, _⟩ => show win8_4.index t 1 * 64 + 1 * (y 1).val = (y 1).val; rw [h1]; omega

theorem iblk8_5_eq (c : Dev nD) (t : Fin cfg8.N) : (iblk8 V c 5 t : Vec Ideal S64x64 .f32) = V c main_v18 := by
  obtain ⟨h0, h1⟩ := idx8_5 t
  funext y
  unfold iblk8
  rw [View.read_apply]
  show V c main_v18 _ = V c main_v18 y
  congr 1
  funext a
  apply Fin.ext
  match a with
  | ⟨0, _⟩ => show win8_5.index t 0 * 64 + 1 * (y 0).val = (y 0).val; rw [h0]; omega
  | ⟨1, _⟩ => show win8_5.index t 1 * 64 + 1 * (y 1).val = (y 1).val; rw [h1]; omega

theorem iblk8_6_eq (c : Dev nD) (t : Fin cfg8.N) : (iblk8 V c 6 t : Vec Ideal S3x64 .f32) = V c main_v19 := by
  obtain ⟨h0, h1⟩ := idx8_6 t
  funext y
  unfold iblk8
  rw [View.read_apply]
  show V c main_v19 _ = V c main_v19 y
  congr 1
  funext a
  apply Fin.ext
  match a with
  | ⟨0, _⟩ => show win8_6.index t 0 * 3 + 1 * (y 0).val = (y 0).val; rw [h0]; omega
  | ⟨1, _⟩ => show win8_6.index t 1 * 64 + 1 * (y 1).val = (y 1).val; rw [h1]; omega

theorem iblk8_7_eq (c : Dev nD) (t : Fin cfg8.N) : (iblk8 V c 7 t : Vec Ideal S1x64 .f32) = V c main_v116 := by
  obtain ⟨h0, h1⟩ := idx8_7 t
  funext y
  unfold iblk8
  rw [View.read_apply]
  show V c main_v116 _ = V c main_v116 y
  congr 1
  funext a
  apply Fin.ext
  match a with
  | ⟨0, _⟩ => show win8_7.index t 0 * 1 + 1 * (y 0).val = (y 0).val; rw [h0]; omega
  | ⟨1, _⟩ => show win8_7.index t 1 * 64 + 1 * (y 1).val = (y 1).val; rw [h1]; omega

theorem iblk8_8_eq (c : Dev nD) (t : Fin cfg8.N) : (iblk8 V c 8 t : Vec Ideal S64x64 .f32) = V c main_arg14 := by
  obtain ⟨h0, h1⟩ := idx8_8 t
  funext y
  unfold iblk8
  rw [View.read_apply]
  show V c main_arg14 _ = V c main_arg14 y
  congr 1
  funext a
  apply Fin.ext
  match a with
  | ⟨0, _⟩ => show win8_8.index t 0 * 64 + 1 * (y 0).val = (y 0).val; rw [h0]; omega
  | ⟨1, _⟩ => show win8_8.index t 1 * 64 + 1 * (y 1).val = (y 1).val; rw [h1]; omega

theorem iblk8_9_eq (c : Dev nD) (t : Fin cfg8.N) : (iblk8 V c 9 t : Vec Ideal S1x64 .f32) = V c main_v117 := by
  obtain ⟨h0, h1⟩ := idx8_9 t
  funext y
  unfold iblk8
  rw [View.read_apply]
  show V c main_v117 _ = V c main_v117 y
  congr 1
  funext a
  apply Fin.ext
  match a with
  | ⟨0, _⟩ => show win8_9.index t 0 * 1 + 1 * (y 0).val = (y 0).val; rw [h0]; omega
  | ⟨1, _⟩ => show win8_9.index t 1 * 64 + 1 * (y 1).val = (y 1).val; rw [h1]; omega

theorem out8_apply (hi hj : Vec Ideal S4000x64 .f32) (ea : Vec Ideal S4000x3 .f32) (mask : Vec Ideal S4000x1 .f32)
    (w1i w1j : Vec Ideal S64x64 .f32) (w1ea : Vec Ideal S3x64 .f32) (b1 : Vec Ideal S1x64 .f32)
    (w2 : Vec Ideal S64x64 .f32) (b2 : Vec Ideal S1x64 .f32) (p : Fin 4000) (q : Fin 64) :
    out8 (F := Ideal) hi hj ea mask w1i w1j w1ea b1 w2 b2 (ix2 p q)
      = msgRow (fun l => hi (ix2 p l)) (fun l => hj (ix2 p l)) (fun l => ea (ix2 p l)) (mask (ix2 p (0 : Fin 1)))
          w1i w1j w1ea b1 w2 b2 q := by
  unfold out8
  rw [View.canon_unit_zero hz8]
  simp only [View.ld_unit_zero (S := S4000x64) hz8, View.ld_unit_zero (S := S4000x3) hz8, View.ld_unit_zero (S := S4000x1) hz8,
    View.ld_unit_zero (S := S64x64) hz8, View.ld_unit_zero (S := S3x64) hz8, View.ld_unit_zero (S := S1x64) hz8]
  exact k8_pay_apply hi hj ea mask w1i w1j w1ea b1 w2 b2 p q

theorem emb8_10 (t : Fin cfg8.N) (y : ((cfg8.win 10).xblock (cfg8.grid.coords t)).Idx) (q : Fin 64) (e : Fin 800000)
    (he : e.val = 4000 * t.val + (y 0).val) (hq : q.val = (y 1).val) :
    ((cfg8.win 10).blk t).view.emb y = (ix2 e q : S800000x64.Idx) := by
  obtain ⟨h0, h1⟩ := idx8_10 t
  funext a
  apply Fin.ext
  match a with
  | ⟨0, _⟩ => show win8_10.index t 0 * 4000 + 1 * (y 0).val = e.val; rw [h0, he]; omega
  | ⟨1, _⟩ => show win8_10.index t 1 * 64 + 1 * (y 1).val = q.val; rw [h1, hq]; omega

theorem flushed8_eq (c : Dev nD) (t : Fin cfg8.N) :
    (dat8 V c).flushed 10 t = ((cfg8.win 10).blk t).view.read (Elt Ideal)
      (MsgG (V c main_v112) (V c main_v105) (V c main_arg5) (V c main_v6) (V c main_v17) (V c main_v18) (V c main_v19) (V c main_v116)
      (V c main_arg14) (V c main_v117)) := by
  have hN : cfg8.N = 200 := N_8
  show (cfg8.win 10).cut (grid8.coords t) ((dat8 V c).after 10 t) = _
  rw [after8_10]
  funext y
  have hp : (y 0).val < 4000 := (y 0).isLt
  have hq : (y 1).val < 64 := (y 1).isLt
  have ht : t.val < 200 := hN ▸ t.isLt
  have hx : (cfg8.win 10).xinj (grid8.coords t) y = (ix2 (⟨(y 0).val, hp⟩ : Fin 4000) (⟨(y 1).val, hq⟩ : Fin 64) : S4000x64.Idx) :=
    funext fun a => Fin.ext (by
      match a with
      | ⟨0, _⟩ => rfl
      | ⟨1, _⟩ => rfl)
  rw [View.read_apply,
    emb8_10 t y ⟨(y 1).val, hq⟩ ⟨4000 * t.val + (y 0).val, by omega⟩ rfl rfl, MsgG_apply]
  refine (congrArg (out8 (F := Ideal) (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t)) hx).trans ?_
  refine (out8_apply (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) ⟨(y 0).val, hp⟩ ⟨(y 1).val, hq⟩).trans ?_
  have r0 := funext fun l : Fin 64 => iblk8_0_apply V c t ⟨(y 0).val, hp⟩ l ⟨4000 * t.val + (y 0).val, by omega⟩ rfl
  have r1 := funext fun l : Fin 64 => iblk8_1_apply V c t ⟨(y 0).val, hp⟩ l ⟨4000 * t.val + (y 0).val, by omega⟩ rfl
  have r2 := funext fun l : Fin 3 => iblk8_2_apply V c t ⟨(y 0).val, hp⟩ l ⟨4000 * t.val + (y 0).val, by omega⟩ rfl
  have r3 := iblk8_3_apply V c t ⟨(y 0).val, hp⟩ (0 : Fin 1) ⟨4000 * t.val + (y 0).val, by omega⟩ rfl
  rw [r0, r1, r2, r3, iblk8_4_eq V c t, iblk8_5_eq V c t, iblk8_6_eq V c t, iblk8_7_eq V c t, iblk8_8_eq V c t, iblk8_9_eq V c t]
  exact (cast_eq _ _).symm

theorem mem_blk8 (t : Fin cfg8.N) (i : S800000x64.Idx) :
    i ∈ ((cfg8.win 10).blk t).view.set ↔ ∀ a : Fin 2, win8_10.index t a * S4000x64.size a ≤ (i a).val
      ∧ (i a).val < win8_10.index t a * S4000x64.size a + S4000x64.size a := by
  show i ∈ ((View.whole main_v118).slice (win8_10.rect t)).set ↔ _
  rw [View.set_slice_whole, Rect.mem_set_unit]
  exact Iff.rfl

theorem covered8 (i : S800000x64.Idx) :
    ∃ t : Fin cfg8.N, (cfg8.win 10).flush t = true ∧ i ∈ ((cfg8.win 10).blk t).view.set := by
  have hN : cfg8.N = 200 := N_8
  have hi0 : (i 0).val < 800000 := (i 0).isLt
  have hi1 : (i 1).val < 64 := (i 1).isLt
  have ht : (i 0).val / 4000 < cfg8.N := by rw [hN]; omega
  obtain ⟨e0, e1⟩ := idx8_10 ⟨(i 0).val / 4000, ht⟩
  refine ⟨⟨(i 0).val / 4000, ht⟩, flush8_10 _, ?_⟩
  rw [mem_blk8]
  intro a
  match a with
  | ⟨0, _⟩ =>
    show win8_10.index ⟨(i 0).val / 4000, ht⟩ 0 * 4000 ≤ (i 0).val ∧ (i 0).val < win8_10.index ⟨(i 0).val / 4000, ht⟩ 0 * 4000 + 4000
    rw [e0]
    show (i 0).val / 4000 * 4000 ≤ (i 0).val ∧ (i 0).val < (i 0).val / 4000 * 4000 + 4000
    omega
  | ⟨1, _⟩ =>
    show win8_10.index ⟨(i 0).val / 4000, ht⟩ 1 * 64 ≤ (i 1).val ∧ (i 1).val < win8_10.index ⟨(i 0).val / 4000, ht⟩ 1 * 64 + 64
    rw [e1]
    omega

theorem final8 (c : Dev nD) :
    ((dat8 (F := Ideal) V c).arrAt 10 cfg8.N : S800000x64.Idx → EReal)
      = MsgG (V c main_v112) (V c main_v105) (V c main_arg5) (V c main_v6) (V c main_v17) (V c main_v18) (V c main_v19) (V c main_v116)
          (V c main_arg14) (V c main_v117) :=
  (dat8 (F := Ideal) V c).arrAt_eq_of_cover 10
    (MsgG (V c main_v112) (V c main_v105) (V c main_arg5) (V c main_v6) (V c main_v17) (V c main_v18) (V c main_v19) (V c main_v116)
      (V c main_arg14) (V c main_v117))
    (fun t _ => flushed8_eq V c t) covered8

end Cert.KernelIdeal.Val

end
-- ==== Proof.Val.Bridge2R.lean ====
import proofs.«138431_j79370995631014_1_alg».proof.Proof.Val.Bridge2
import proofs.«138431_j79370995631014_1_alg».proof.Proof.Val.BridgeA
import proofs.«138431_j79370995631014_1_alg».proof.Proof.Val.MsgFinal7
import proofs.«138431_j79370995631014_1_alg».proof.Proof.Val.MsgFinal8
import proofs.«138431_j79370995631014_1_alg».proof.Proof.Val.MsgRef
import proofs.«138431_j79370995631014_1_alg».proof.Proof.Val.GateFinal
import proofs.«138431_j79370995631014_1_alg».proof.Proof.Val.GateRef
import proofs.«138431_j79370995631014_1_alg».proof.Proof.Val.DecFinal
import proofs.«138431_j79370995631014_1_alg».proof.Proof.Val.DecRef
import proofs.«138431_j79370995631014_1_alg».proof.Proof.Val.EncFinal
import proofs.«138431_j79370995631014_1_alg».proof.Proof.Val.EncRef

noncomputable section

namespace Cert.KernelIdeal.Val

open Cert.KernelIdeal Cert.KernelIdeal.Gen Cert.KernelIdeal.Hand
open Idealize.ShloMosaic Idealize.ShloMosaic.TcCoe Idealize.SL.Sem
open Cert.ReferenceIdeal.Read
open Cert.ReferenceIdeal.Val (ref_Enc_v325 ref_Dec_v289 ref_Dec_v349)

variable {x0 x2 : Ct S50000x1 .f32} {x3 : Ct S50000 .i32} {x4 : Ct S2x800000 .i32} {x5 : Ct S800000x3 .f32}
  {x6 : Ct S800000 .f32} {x7 : Ct S50000x2 .f32}
  {x8 : Ct S131x64 .f32} {x9 : Ct S64 .f32} {x10 : Ct S64x64 .f32} {x11 : Ct S64 .f32}
  {x12 : Ct S131x64 .f32} {x13 : Ct S64 .f32} {x14 : Ct S64x64 .f32} {x15 : Ct S64 .f32}
  {x16 : Ct S194x64 .f32} {x17 : Ct S64 .f32} {x18 : Ct S194x64 .f32} {x19 : Ct S64 .f32}
  {x20 : Ct S194x64 .f32} {x21 : Ct S64 .f32}
  {x22 : Ct S1x64 .f32} {x23 : Ct S64 .f32} {x24 : Ct S64x64 .f32} {x25 : Ct S64 .f32}
  {x26 : Ct S64x64 .f32} {x27 : Ct S64 .f32} {x28 : Ct S64x1 .f32} {x29 : Ct S1 .f32}

local notation "rMask" => val_main_v6 (F := Ideal) x4
local notation "rH0" => val_main_v19 (F := Ideal) x0 x22 x23 x24 x25
local notation "rHn0" => val_main_v110 (F := Ideal) x0 x3 x4 x5 x7 x8 x9 x10 x11 x12 x13 x14 x15 x16 x17 x18 x19 x20 x21 x22 x23 x24 x25
local notation "rHc1" => val_main_v195 (F := Ideal) x0 x3 x4 x5 x7 x8 x9 x10 x11 x12 x13 x14 x15 x16 x17 x18 x19 x20 x21 x22 x23 x24 x25
local notation "rHr1" => val_main_v202 (F := Ideal) x0 x3 x4 x5 x7 x8 x9 x10 x11 x12 x13 x14 x15 x16 x17 x18 x19 x20 x21 x22 x23 x24 x25
local notation "rMt1" => val_main_v215 (F := Ideal) x0 x3 x4 x5 x7 x8 x9 x10 x11 x12 x13 x14 x15 x16 x17 x18 x19 x20 x21 x22 x23 x24 x25
local notation "rSt1" => val_main_v218 (F := Ideal) x0 x3 x4 x5 x7 x8 x9 x10 x11 x12 x13 x14 x15 x16 x17 x18 x19 x20 x21 x22 x23 x24 x25
local notation "rMf1" => val_main_v245 (F := Ideal) x0 x3 x4 x5 x7 x8 x9 x10 x11 x12 x13 x14 x15 x16 x17 x18 x19 x20 x21 x22 x23 x24 x25
local notation "rSf1" => val_main_v248 (F := Ideal) x0 x3 x4 x5 x7 x8 x9 x10 x11 x12 x13 x14 x15 x16 x17 x18 x19 x20 x21 x22 x23 x24 x25
local notation "rHn1" => val_main_v279 (F := Ideal) x0 x3 x4 x5 x7 x8 x9 x10 x11 x12 x13 x14 x15 x16 x17 x18 x19 x20 x21 x22 x23 x24 x25
local notation "rU1" => val_main_v289 (F := Ideal) x0 x3 x4 x5 x7 x8 x9 x10 x11 x12 x13 x14 x15 x16 x17 x18 x19 x20 x21 x22 x23 x24 x25 x26 x27 x28 x29
local notation "rEU1" => val_main_v325 (F := Ideal) x0 x3 x4 x5 x7 x8 x9 x10 x11 x12 x13 x14 x15 x16 x17 x18 x19 x20 x21 x22 x23 x24 x25 x26 x27 x28 x29
local notation "rAU1" => val_main_v349 (F := Ideal) x0 x3 x4 x5 x7 x8 x9 x10 x11 x12 x13 x14 x15 x16 x17 x18 x19 x20 x21 x22 x23 x24 x25 x26 x27 x28 x29

variable (V : (c : Dev nD) → (b : Ref sig .tc) → Buf (Elt Ideal) ((c : Thread nD τ).loc b)) (c : Dev nD)

theorem stage7 (h0 : V c main_v105 = rHc1) (h1 : V c main_v112 = rHr1) (h2 : V c main_arg5 = x5) (h3 : V c main_v6 = rMask)
    (h4 : V c main_v14 = extractStridedSlice S64x64 ![0, 0] x8 slices_S131x64_S64x64_0_0)
    (h5 : V c main_v15 = extractStridedSlice S64x64 ![64, 0] x8 slices_S131x64_S64x64_64_0)
    (h6 : V c main_v16 = extractStridedSlice S3x64 ![128, 0] x8 slices_S131x64_S3x64_128_0)
    (h7 : V c main_v113 = shapeCast S1x64 x9 shapeCasts_S64_S1x64) (h8 : V c main_arg10 = x10)
    (h9 : V c main_v114 = shapeCast S1x64 x11 shapeCasts_S64_S1x64) :
    ((dat7 (F := Ideal) V c).arrAt 10 cfg7.N : S800000x64.Idx → EReal) = rMt1 :=
  (final7 V c).trans (by
    rw [h0, h1, h2, h3, h4, h5, h6, h7, h8, h9]
    exact (ref_Msg_v215 x0 x3 x4 x5 x7 x8 x9 x10 x11 x12 x13 x14 x15 x16 x17 x18 x19 x20 x21 x22 x23 x24 x25).symm)

theorem stage8 (h0 : V c main_v112 = rHr1) (h1 : V c main_v105 = rHc1) (h2 : V c main_arg5 = x5) (h3 : V c main_v6 = rMask)
    (h4 : V c main_v17 = extractStridedSlice S64x64 ![0, 0] x12 slices_S131x64_S64x64_0_0)
    (h5 : V c main_v18 = extractStridedSlice S64x64 ![64, 0] x12 slices_S131x64_S64x64_64_0)
    (h6 : V c main_v19 = extractStridedSlice S3x64 ![128, 0] x12 slices_S131x64_S3x64_128_0)
    (h7 : V c main_v116 = shapeCast S1x64 x13 shapeCasts_S64_S1x64) (h8 : V c main_arg14 = x14)
    (h9 : V c main_v117 = shapeCast S1x64 x15 shapeCasts_S64_S1x64) :
    ((dat8 (F := Ideal) V c).arrAt 10 cfg8.N : S800000x64.Idx → EReal) = rMf1 :=
  (final8 V c).trans (by
    rw [h0, h1, h2, h3, h4, h5, h6, h7, h8, h9, ← ref_v225_eq, ← ref_v232_eq]
    exact (ref_Msg_v245 x0 x3 x4 x5 x7 x8 x9 x10 x11 x12 x13 x14 x15 x16 x17 x18 x19 x20 x21 x22 x23 x24 x25).symm)

theorem stage9 (h0 : V c main_v61 = rHn0) (h1 : V c main_v121 = rSt1) (h2 : V c main_v124 = rSf1) (h3 : V c main_arg7 = x7)
    (h4 : V c main_v9 = rH0) (h5 : V c main_v13 = dmaskOf x3)
    (h6 : V c main_v20 = extractStridedSlice S64x64 ![0, 0] x16 slices_S194x64_S64x64_0_0)
    (h7 : V c main_v21 = extractStridedSlice S64x64 ![64, 0] x16 slices_S194x64_S64x64_64_0)
    (h8 : V c main_v22 = extractStridedSlice S64x64 ![128, 0] x16 slices_S194x64_S64x64_128_0)
    (h9 : V c main_v23 = extractStridedSlice S2x64 ![192, 0] x16 slices_S194x64_S2x64_192_0)
    (h10 : V c main_v125 = shapeCast S1x64 x17 shapeCasts_S64_S1x64)
    (h11 : V c main_v24 = extractStridedSlice S64x64 ![0, 0] x18 slices_S194x64_S64x64_0_0)
    (h12 : V c main_v25 = extractStridedSlice S64x64 ![64, 0] x18 slices_S194x64_S64x64_64_0)
    (h13 : V c main_v26 = extractStridedSlice S64x64 ![128, 0] x18 slices_S194x64_S64x64_128_0)
    (h14 : V c main_v27 = extractStridedSlice S2x64 ![192, 0] x18 slices_S194x64_S2x64_192_0)
    (h15 : V c main_v126 = shapeCast S1x64 x19 shapeCasts_S64_S1x64)
    (h16 : V c main_v28 = extractStridedSlice S64x64 ![0, 0] x20 slices_S194x64_S64x64_0_0)
    (h17 : V c main_v29 = extractStridedSlice S64x64 ![64, 0] x20 slices_S194x64_S64x64_64_0)
    (h18 : V c main_v30 = extractStridedSlice S64x64 ![128, 0] x20 slices_S194x64_S64x64_128_0)
    (h19 : V c main_v31 = extractStridedSlice S2x64 ![192, 0] x20 slices_S194x64_S2x64_192_0)
    (h20 : V c main_v127 = shapeCast S1x64 x21 shapeCasts_S64_S1x64) :
    ((dat9 (F := Ideal) V c).arrAt 21 cfg9.N : S50000x64.Idx → EReal) = rHn1 :=
  (final9 V c).trans (by
    rw [h0, h1, h2, h3, h4, h5, h6, h7, h8, h9, h10, h11, h12, h13, h14, h15, h16, h17, h18, h19, h20]
    exact (ref_Gate_v279 x0 x3 x4 x5 x7 x8 x9 x10 x11 x12 x13 x14 x15 x16 x17 x18 x19 x20 x21 x22 x23 x24 x25).symm)

theorem stage10 (h0 : V c main_v128 = rHn1) (h1 : V c main_arg26 = x26) (h2 : V c main_v129 = shapeCast S1x64 x27 shapeCasts_S64_S1x64)
    (h3 : V c main_arg28 = x28) (h4 : V c main_v130 = shapeCast S1x1 x29 shapeCasts_S1_S1x1) :
    ((dat10 (F := Ideal) V c).arrAt 5 cfg10.N : S50000x1.Idx → EReal) = rU1 :=
  (final10 V c).trans (by
    rw [h0, h1, h2, h3, h4]
    exact (ref_Dec_v289 x0 x3 x4 x5 x7 x8 x9 x10 x11 x12 x13 x14 x15 x16 x17 x18 x19 x20 x21 x22 x23 x24 x25 x26 x27 x28 x29).symm)

theorem stage11 (h0 : V c main_v131 = rU1) (h1 : V c main_arg22 = x22) (h2 : V c main_v148 = shapeCast S1x64 x23 shapeCasts_S64_S1x64)
    (h3 : V c main_arg24 = x24) (h4 : V c main_v149 = shapeCast S1x64 x25 shapeCasts_S64_S1x64) :
    ((dat11 (F := Ideal) V c).arrAt 5 cfg11.N : S50000x64.Idx → EReal) = rEU1 :=
  (final11 V c).trans (by
    rw [h0, h1, h2, h3, h4, ← ref_v315_eq]
    exact (ref_Enc_v325 x0 x3 x4 x5 x7 x8 x9 x10 x11 x12 x13 x14 x15 x16 x17 x18 x19 x20 x21 x22 x23 x24 x25 x26 x27 x28 x29).symm)

theorem stage12 (h0 : V c main_v150 = rEU1) (h1 : V c main_arg26 = x26) (h2 : V c main_v155 = shapeCast S1x64 x27 shapeCasts_S64_S1x64)
    (h3 : V c main_arg28 = x28) (h4 : V c main_v156 = shapeCast S1x1 x29 shapeCasts_S1_S1x1) :
    ((dat12 (F := Ideal) V c).arrAt 5 cfg12.N : S50000x1.Idx → EReal) = rAU1 :=
  (final12 V c).trans (by
    rw [h0, h1, h2, h3, h4, ← ref_v339_eq]
    exact (ref_Dec_v349 x0 x3 x4 x5 x7 x8 x9 x10 x11 x12 x13 x14 x15 x16 x17 x18 x19 x20 x21 x22 x23 x24 x25 x26 x27 x28 x29).symm)

end Cert.KernelIdeal.Val

end
-- ==== Proof.Val.Bridge.lean ====
import proofs.«138431_j79370995631014_1_alg».proof.Proof.KI.Fold
import proofs.«138431_j79370995631014_1_alg».proof.Proof.Val.BridgeA
import proofs.«138431_j79370995631014_1_alg».proof.Proof.Val.BridgeR
import proofs.«138431_j79370995631014_1_alg».proof.Proof.Val.Bridge2
import proofs.«138431_j79370995631014_1_alg».proof.Proof.Val.Bridge2R

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Cert.ReferenceIdeal.Read

variable (m : (ℓ : Loc nD τ sig) → Buf (Elt Ideal) ℓ) (ρ : Dev nD → PrngReg) (c : Dev nD)

theorem w0 (b : Ref sig .tc) : W0 m ρ c (no_index (Proc.devRef .tc b)) = m ((c : Thread nD τ).loc b) := rfl
theorem w1 (b : Ref sig .tc) (hb : b ∉ hostOps0_W) : W1 m ρ c (no_index (Proc.devRef .tc b)) = W0 m ρ c (Proc.devRef .tc b) := keep0 _ b hb
theorem w2 (b : Ref sig .tc) (hb : b ≠ main_v9) : W2 m ρ c (no_index (Proc.devRef .tc b)) = W1 m ρ c (Proc.devRef .tc b) := W2_of_ne m ρ c b hb
theorem w3 (b : Ref sig .tc) (hb : b ∉ hostOps1_W) : W3 m ρ c (no_index (Proc.devRef .tc b)) = W2 m ρ c (Proc.devRef .tc b) := keep1 _ b hb
theorem w4 (b : Ref sig .tc) (hb : b ≠ main_v48) : W4 m ρ c (no_index (Proc.devRef .tc b)) = W3 m ρ c (Proc.devRef .tc b) := W4_of_ne m ρ c b hb
theorem w5 (b : Ref sig .tc) (hb : b ∉ hostOps2_W) : W5 m ρ c (no_index (Proc.devRef .tc b)) = W4 m ρ c (Proc.devRef .tc b) := keep2 _ b hb
theorem w6 (b : Ref sig .tc) (hb : b ≠ main_v51) : W6 m ρ c (no_index (Proc.devRef .tc b)) = W5 m ρ c (Proc.devRef .tc b) := W6_of_ne m ρ c b hb
theorem w7 (b : Ref sig .tc) (hb : b ∉ hostOps3_W) : W7 m ρ c (no_index (Proc.devRef .tc b)) = W6 m ρ c (Proc.devRef .tc b) := keep3 _ b hb
theorem w8 (b : Ref sig .tc) (hb : b ≠ main_v61) : W8 m ρ c (no_index (Proc.devRef .tc b)) = W7 m ρ c (Proc.devRef .tc b) := W8_of_ne m ρ c b hb
theorem w9 (b : Ref sig .tc) (hb : b ∉ hostOps4_W) : W9 m ρ c (no_index (Proc.devRef .tc b)) = W8 m ρ c (Proc.devRef .tc b) := keep4 _ b hb
theorem w10 (b : Ref sig .tc) (hb : b ≠ main_v64) : W10 m ρ c (no_index (Proc.devRef .tc b)) = W9 m ρ c (Proc.devRef .tc b) := W10_of_ne m ρ c b hb
theorem w11 (b : Ref sig .tc) (hb : b ∉ hostOps5_W) : W11 m ρ c (no_index (Proc.devRef .tc b)) = W10 m ρ c (Proc.devRef .tc b) := keep5 _ b hb
theorem w12 (b : Ref sig .tc) (hb : b ≠ main_v83) : W12 m ρ c (no_index (Proc.devRef .tc b)) = W11 m ρ c (Proc.devRef .tc b) := W12_of_ne m ρ c b hb
theorem w13 (b : Ref sig .tc) (hb : b ∉ hostOps6_W) : W13 m ρ c (no_index (Proc.devRef .tc b)) = W12 m ρ c (Proc.devRef .tc b) := keep6 _ b hb
theorem w14 (b : Ref sig .tc) (hb : b ≠ main_v90) : W14 m ρ c (no_index (Proc.devRef .tc b)) = W13 m ρ c (Proc.devRef .tc b) := W14_of_ne m ρ c b hb
theorem w15 (b : Ref sig .tc) (hb : b ∉ hostOps7_W) : W15 m ρ c (no_index (Proc.devRef .tc b)) = W14 m ρ c (Proc.devRef .tc b) := keep7 _ b hb
theorem w16 (b : Ref sig .tc) (hb : b ≠ main_v115) : W16 m ρ c (no_index (Proc.devRef .tc b)) = W15 m ρ c (Proc.devRef .tc b) := W16_of_ne m ρ c b hb
theorem w17 (b : Ref sig .tc) (hb : b ∉ hostOps8_W) : W17 m ρ c (no_index (Proc.devRef .tc b)) = W16 m ρ c (Proc.devRef .tc b) := keep8 _ b hb
theorem w18 (b : Ref sig .tc) (hb : b ≠ main_v118) : W18 m ρ c (no_index (Proc.devRef .tc b)) = W17 m ρ c (Proc.devRef .tc b) := W18_of_ne m ρ c b hb
theorem w19 (b : Ref sig .tc) (hb : b ∉ hostOps9_W) : W19 m ρ c (no_index (Proc.devRef .tc b)) = W18 m ρ c (Proc.devRef .tc b) := keep9 _ b hb
theorem w20 (b : Ref sig .tc) (hb : b ≠ main_v128) : W20 m ρ c (no_index (Proc.devRef .tc b)) = W19 m ρ c (Proc.devRef .tc b) := W20_of_ne m ρ c b hb
theorem w21 (b : Ref sig .tc) (hb : b ∉ hostOps10_W) : W21 m ρ c (no_index (Proc.devRef .tc b)) = W20 m ρ c (Proc.devRef .tc b) := keep10 _ b hb
theorem w22 (b : Ref sig .tc) (hb : b ≠ main_v131) : W22 m ρ c (no_index (Proc.devRef .tc b)) = W21 m ρ c (Proc.devRef .tc b) := W22_of_ne m ρ c b hb
theorem w23 (b : Ref sig .tc) (hb : b ∉ hostOps11_W) : W23 m ρ c (no_index (Proc.devRef .tc b)) = W22 m ρ c (Proc.devRef .tc b) := keep11 _ b hb
theorem w24 (b : Ref sig .tc) (hb : b ≠ main_v150) : W24 m ρ c (no_index (Proc.devRef .tc b)) = W23 m ρ c (Proc.devRef .tc b) := W24_of_ne m ρ c b hb
theorem w25 (b : Ref sig .tc) (hb : b ∉ hostOps12_W) : W25 m ρ c (no_index (Proc.devRef .tc b)) = W24 m ρ c (Proc.devRef .tc b) := keep12 _ b hb
theorem w26 (b : Ref sig .tc) (hb : b ≠ main_v157) : W26 m ρ c (no_index (Proc.devRef .tc b)) = W25 m ρ c (Proc.devRef .tc b) := W26_of_ne m ρ c b hb
theorem w27 (b : Ref sig .tc) (hb : b ∉ hostOps13_W) : W27 m ρ c (no_index (Proc.devRef .tc b)) = W26 m ρ c (Proc.devRef .tc b) := keep13 _ b hb

local macro "walk" : tactic =>
  `(tactic| simp (disch := decide) only [w0, w1, w2, w3, w4, w5, w6, w7, w8, w9, w10, w11, w12, w13, w14, w15, w16, w17, w18, w19, w20,
      w21, w22, w23, w24, w25, w26, w27])

abbrev A0 : Ct S50000x1 .f32 := m ((c : Thread nD τ).loc main_arg0)
abbrev A2 : Ct S50000x1 .f32 := m ((c : Thread nD τ).loc main_arg2)
abbrev A3 : Ct S50000 .i32 := m ((c : Thread nD τ).loc main_arg3)
abbrev A4 : Ct S2x800000 .i32 := m ((c : Thread nD τ).loc main_arg4)
abbrev A5 : Ct S800000x3 .f32 := m ((c : Thread nD τ).loc main_arg5)
abbrev A6 : Ct S800000 .f32 := m ((c : Thread nD τ).loc main_arg6)
abbrev A7 : Ct S50000x2 .f32 := m ((c : Thread nD τ).loc main_arg7)
abbrev A8 : Ct S131x64 .f32 := m ((c : Thread nD τ).loc main_arg8)
abbrev A9 : Ct S64 .f32 := m ((c : Thread nD τ).loc main_arg9)
abbrev A10 : Ct S64x64 .f32 := m ((c : Thread nD τ).loc main_arg10)
abbrev A11 : Ct S64 .f32 := m ((c : Thread nD τ).loc main_arg11)
abbrev A12 : Ct S131x64 .f32 := m ((c : Thread nD τ).loc main_arg12)
abbrev A13 : Ct S64 .f32 := m ((c : Thread nD τ).loc main_arg13)
abbrev A14 : Ct S64x64 .f32 := m ((c : Thread nD τ).loc main_arg14)
abbrev A15 : Ct S64 .f32 := m ((c : Thread nD τ).loc main_arg15)
abbrev A16 : Ct S194x64 .f32 := m ((c : Thread nD τ).loc main_arg16)
abbrev A17 : Ct S64 .f32 := m ((c : Thread nD τ).loc main_arg17)
abbrev A18 : Ct S194x64 .f32 := m ((c : Thread nD τ).loc main_arg18)
abbrev A19 : Ct S64 .f32 := m ((c : Thread nD τ).loc main_arg19)
abbrev A20 : Ct S194x64 .f32 := m ((c : Thread nD τ).loc main_arg20)
abbrev A21 : Ct S64 .f32 := m ((c : Thread nD τ).loc main_arg21)
abbrev A22 : Ct S1x64 .f32 := m ((c : Thread nD τ).loc main_arg22)
abbrev A23 : Ct S64 .f32 := m ((c : Thread nD τ).loc main_arg23)
abbrev A24 : Ct S64x64 .f32 := m ((c : Thread nD τ).loc main_arg24)
abbrev A25 : Ct S64 .f32 := m ((c : Thread nD τ).loc main_arg25)
abbrev A26 : Ct S64x64 .f32 := m ((c : Thread nD τ).loc main_arg26)
abbrev A27 : Ct S64 .f32 := m ((c : Thread nD τ).loc main_arg27)
abbrev A28 : Ct S64x1 .f32 := m ((c : Thread nD τ).loc main_arg28)
abbrev A29 : Ct S1 .f32 := m ((c : Thread nD τ).loc main_arg29)

local notation "a0" => A0 m c
local notation "a2" => A2 m c
local notation "a3" => A3 m c
local notation "a4" => A4 m c
local notation "a5" => A5 m c
local notation "a6" => A6 m c
local notation "a7" => A7 m c
local notation "a8" => A8 m c
local notation "a9" => A9 m c
local notation "a10" => A10 m c
local notation "a11" => A11 m c
local notation "a12" => A12 m c
local notation "a13" => A13 m c
local notation "a14" => A14 m c
local notation "a15" => A15 m c
local notation "a16" => A16 m c
local notation "a17" => A17 m c
local notation "a18" => A18 m c
local notation "a19" => A19 m c
local notation "a20" => A20 m c
local notation "a21" => A21 m c
local notation "a22" => A22 m c
local notation "a23" => A23 m c
local notation "a24" => A24 m c
local notation "a25" => A25 m c
local notation "a26" => A26 m c
local notation "a27" => A27 m c
local notation "a28" => A28 m c
local notation "a29" => A29 m c

local notation "sRow" => val_main_v1 (F := Ideal) a4
local notation "sCol" => val_main_v3 (F := Ideal) a4
local notation "sMask" => val_main_v6 (F := Ideal) a4
local notation "sH0" => val_main_v19 (F := Ideal) a0 a22 a23 a24 a25
local notation "sHc0" => val_main_v26 (F := Ideal) a0 a4 a22 a23 a24 a25
local notation "sHr0" => val_main_v33 (F := Ideal) a0 a4 a22 a23 a24 a25
local notation "sMt0" => val_main_v46 (F := Ideal) a0 a4 a5 a8 a9 a10 a11 a22 a23 a24 a25
local notation "sSt0" => val_main_v49 (F := Ideal) a0 a4 a5 a8 a9 a10 a11 a22 a23 a24 a25
local notation "sMf0" => val_main_v76 (F := Ideal) a0 a4 a5 a12 a13 a14 a15 a22 a23 a24 a25
local notation "sSf0" => val_main_v79 (F := Ideal) a0 a4 a5 a12 a13 a14 a15 a22 a23 a24 a25
local notation "sHn0" => val_main_v110 (F := Ideal) a0 a3 a4 a5 a7 a8 a9 a10 a11 a12 a13 a14 a15 a16 a17 a18 a19 a20 a21 a22 a23 a24 a25
local notation "sU0" => val_main_v120 (F := Ideal) a0 a3 a4 a5 a7 a8 a9 a10 a11 a12 a13 a14 a15 a16 a17 a18 a19 a20 a21 a22 a23 a24 a25 a26 a27 a28 a29
local notation "sRes0" => val_main_v136 (F := Ideal) a0 a2 a3 a4 a5 a6 a7 a8 a9 a10 a11 a12 a13 a14 a15 a16 a17 a18 a19 a20 a21 a22 a23 a24 a25 a26 a27 a28 a29
local notation "sEU0" => val_main_v156 (F := Ideal) a0 a3 a4 a5 a7 a8 a9 a10 a11 a12 a13 a14 a15 a16 a17 a18 a19 a20 a21 a22 a23 a24 a25 a26 a27 a28 a29
local notation "sEnc0" => val_main_v160 (F := Ideal) a0 a3 a4 a5 a7 a8 a9 a10 a11 a12 a13 a14 a15 a16 a17 a18 a19 a20 a21 a22 a23 a24 a25 a26 a27 a28 a29
local notation "sAU0" => val_main_v180 (F := Ideal) a0 a3 a4 a5 a7 a8 a9 a10 a11 a12 a13 a14 a15 a16 a17 a18 a19 a20 a21 a22 a23 a24 a25 a26 a27 a28 a29
local notation "sAe0" => val_main_v184 (F := Ideal) a0 a3 a4 a5 a7 a8 a9 a10 a11 a12 a13 a14 a15 a16 a17 a18 a19 a20 a21 a22 a23 a24 a25 a26 a27 a28 a29
local notation "sTot0" => val_main_v188 (F := Ideal) a0 a2 a3 a4 a5 a6 a7 a8 a9 a10 a11 a12 a13 a14 a15 a16 a17 a18 a19 a20 a21 a22 a23 a24 a25 a26 a27 a28 a29
local notation "sHc1" => val_main_v195 (F := Ideal) a0 a3 a4 a5 a7 a8 a9 a10 a11 a12 a13 a14 a15 a16 a17 a18 a19 a20 a21 a22 a23 a24 a25
local notation "sHr1" => val_main_v202 (F := Ideal) a0 a3 a4 a5 a7 a8 a9 a10 a11 a12 a13 a14 a15 a16 a17 a18 a19 a20 a21 a22 a23 a24 a25
local notation "sMt1" => val_main_v215 (F := Ideal) a0 a3 a4 a5 a7 a8 a9 a10 a11 a12 a13 a14 a15 a16 a17 a18 a19 a20 a21 a22 a23 a24 a25
local notation "sSt1" => val_main_v218 (F := Ideal) a0 a3 a4 a5 a7 a8 a9 a10 a11 a12 a13 a14 a15 a16 a17 a18 a19 a20 a21 a22 a23 a24 a25
local notation "sMf1" => val_main_v245 (F := Ideal) a0 a3 a4 a5 a7 a8 a9 a10 a11 a12 a13 a14 a15 a16 a17 a18 a19 a20 a21 a22 a23 a24 a25
local notation "sSf1" => val_main_v248 (F := Ideal) a0 a3 a4 a5 a7 a8 a9 a10 a11 a12 a13 a14 a15 a16 a17 a18 a19 a20 a21 a22 a23 a24 a25
local notation "sHn1" => val_main_v279 (F := Ideal) a0 a3 a4 a5 a7 a8 a9 a10 a11 a12 a13 a14 a15 a16 a17 a18 a19 a20 a21 a22 a23 a24 a25
local notation "sU1" => val_main_v289 (F := Ideal) a0 a3 a4 a5 a7 a8 a9 a10 a11 a12 a13 a14 a15 a16 a17 a18 a19 a20 a21 a22 a23 a24 a25 a26 a27 a28 a29
local notation "sRes1" => val_main_v305 (F := Ideal) a0 a2 a3 a4 a5 a6 a7 a8 a9 a10 a11 a12 a13 a14 a15 a16 a17 a18 a19 a20 a21 a22 a23 a24 a25 a26 a27 a28 a29
local notation "sEU1" => val_main_v325 (F := Ideal) a0 a3 a4 a5 a7 a8 a9 a10 a11 a12 a13 a14 a15 a16 a17 a18 a19 a20 a21 a22 a23 a24 a25 a26 a27 a28 a29
local notation "sEnc1" => val_main_v329 (F := Ideal) a0 a3 a4 a5 a7 a8 a9 a10 a11 a12 a13 a14 a15 a16 a17 a18 a19 a20 a21 a22 a23 a24 a25 a26 a27 a28 a29
local notation "sAU1" => val_main_v349 (F := Ideal) a0 a3 a4 a5 a7 a8 a9 a10 a11 a12 a13 a14 a15 a16 a17 a18 a19 a20 a21 a22 a23 a24 a25 a26 a27 a28 a29
local notation "sTot1" => val_main_v357 (F := Ideal) a0 a2 a3 a4 a5 a6 a7 a8 a9 a10 a11 a12 a13 a14 a15 a16 a17 a18 a19 a20 a21 a22 a23 a24 a25 a26 a27 a28 a29

theorem D_v1 : W1 m ρ c (Proc.devRef .tc main_v1) = sRow := h0_v1 (W0 m ρ c) rfl
theorem D_v3 : W1 m ρ c (Proc.devRef .tc main_v3) = sCol := h0_v3 (W0 m ρ c) rfl
theorem D_v6 : W1 m ρ c (Proc.devRef .tc main_v6) = sMask := h0_v6 (W0 m ρ c) rfl
theorem D_v7 : W1 m ρ c (Proc.devRef .tc main_v7) = shapeCast S1x64 a23 shapeCasts_S64_S1x64 := k0_v7 (W0 m ρ c) rfl
theorem D_v8 : W1 m ρ c (Proc.devRef .tc main_v8) = shapeCast S1x64 a25 shapeCasts_S64_S1x64 := k0_v8 (W0 m ρ c) rfl

theorem D_v9 : W2 m ρ c (Proc.devRef .tc main_v9) = sH0 :=
  (W2_out m ρ c).trans (stage0 (V1 m ρ) c (by walk) (by walk) (D_v7 m ρ c) (by walk) (D_v8 m ρ c))

theorem D_v13 : W3 m ρ c (Proc.devRef .tc main_v13) = dmaskOf a3 := k1_v13 (W2 m ρ c) (by walk)
theorem D_v14 : W3 m ρ c (Proc.devRef .tc main_v14) = extractStridedSlice S64x64 ![0, 0] a8 slices_S131x64_S64x64_0_0 := k1_v14 (W2 m ρ c) (by walk)
theorem D_v15 : W3 m ρ c (Proc.devRef .tc main_v15) = extractStridedSlice S64x64 ![64, 0] a8 slices_S131x64_S64x64_64_0 := k1_v15 (W2 m ρ c) (by walk)
theorem D_v16 : W3 m ρ c (Proc.devRef .tc main_v16) = extractStridedSlice S3x64 ![128, 0] a8 slices_S131x64_S3x64_128_0 := k1_v16 (W2 m ρ c) (by walk)
theorem D_v17 : W3 m ρ c (Proc.devRef .tc main_v17) = extractStridedSlice S64x64 ![0, 0] a12 slices_S131x64_S64x64_0_0 := k1_v17 (W2 m ρ c) (by walk)
theorem D_v18 : W3 m ρ c (Proc.devRef .tc main_v18) = extractStridedSlice S64x64 ![64, 0] a12 slices_S131x64_S64x64_64_0 := k1_v18 (W2 m ρ c) (by walk)
theorem D_v19 : W3 m ρ c (Proc.devRef .tc main_v19) = extractStridedSlice S3x64 ![128, 0] a12 slices_S131x64_S3x64_128_0 := k1_v19 (W2 m ρ c) (by walk)
theorem D_v20 : W3 m ρ c (Proc.devRef .tc main_v20) = extractStridedSlice S64x64 ![0, 0] a16 slices_S194x64_S64x64_0_0 := k1_v20 (W2 m ρ c) (by walk)
theorem D_v21 : W3 m ρ c (Proc.devRef .tc main_v21) = extractStridedSlice S64x64 ![64, 0] a16 slices_S194x64_S64x64_64_0 := k1_v21 (W2 m ρ c) (by walk)
theorem D_v22 : W3 m ρ c (Proc.devRef .tc main_v22) = extractStridedSlice S64x64 ![128, 0] a16 slices_S194x64_S64x64_128_0 := k1_v22 (W2 m ρ c) (by walk)
theorem D_v23 : W3 m ρ c (Proc.devRef .tc main_v23) = extractStridedSlice S2x64 ![192, 0] a16 slices_S194x64_S2x64_192_0 := k1_v23 (W2 m ρ c) (by walk)
theorem D_v24 : W3 m ρ c (Proc.devRef .tc main_v24) = extractStridedSlice S64x64 ![0, 0] a18 slices_S194x64_S64x64_0_0 := k1_v24 (W2 m ρ c) (by walk)
theorem D_v25 : W3 m ρ c (Proc.devRef .tc main_v25) = extractStridedSlice S64x64 ![64, 0] a18 slices_S194x64_S64x64_64_0 := k1_v25 (W2 m ρ c) (by walk)
theorem D_v26 : W3 m ρ c (Proc.devRef .tc main_v26) = extractStridedSlice S64x64 ![128, 0] a18 slices_S194x64_S64x64_128_0 := k1_v26 (W2 m ρ c) (by walk)
theorem D_v27 : W3 m ρ c (Proc.devRef .tc main_v27) = extractStridedSlice S2x64 ![192, 0] a18 slices_S194x64_S2x64_192_0 := k1_v27 (W2 m ρ c) (by walk)
theorem D_v28 : W3 m ρ c (Proc.devRef .tc main_v28) = extractStridedSlice S64x64 ![0, 0] a20 slices_S194x64_S64x64_0_0 := k1_v28 (W2 m ρ c) (by walk)
theorem D_v29 : W3 m ρ c (Proc.devRef .tc main_v29) = extractStridedSlice S64x64 ![64, 0] a20 slices_S194x64_S64x64_64_0 := k1_v29 (W2 m ρ c) (by walk)
theorem D_v30 : W3 m ρ c (Proc.devRef .tc main_v30) = extractStridedSlice S64x64 ![128, 0] a20 slices_S194x64_S64x64_128_0 := k1_v30 (W2 m ρ c) (by walk)
theorem D_v31 : W3 m ρ c (Proc.devRef .tc main_v31) = extractStridedSlice S2x64 ![192, 0] a20 slices_S194x64_S2x64_192_0 := k1_v31 (W2 m ρ c) (by walk)
theorem D_v46 : W3 m ρ c (Proc.devRef .tc main_v46) = shapeCast S1x64 a9 shapeCasts_S64_S1x64 := k1_v46 (W2 m ρ c) (by walk)
theorem D_v47 : W3 m ρ c (Proc.devRef .tc main_v47) = shapeCast S1x64 a11 shapeCasts_S64_S1x64 := k1_v47 (W2 m ρ c) (by walk)
theorem D_v38 : W3 m ρ c (Proc.devRef .tc main_v38) = sHc0 :=
  h1_v38 (W2 m ρ c) (D_v9 m ρ c) (by walk; exact D_v3 m ρ c)
theorem D_v45 : W3 m ρ c (Proc.devRef .tc main_v45) = sHr0 :=
  h1_v45 (W2 m ρ c) (D_v9 m ρ c) (by walk; exact D_v1 m ρ c)

theorem D_v48 : W4 m ρ c (Proc.devRef .tc main_v48) = sMt0 :=
  (W4_out m ρ c).trans (stage1 (V3 m ρ) c (D_v38 m ρ c) (D_v45 m ρ c) (by walk) (by walk; exact D_v6 m ρ c)
    (D_v14 m ρ c) (D_v15 m ρ c) (D_v16 m ρ c) (D_v46 m ρ c) (by walk) (D_v47 m ρ c))

theorem D_v49 : W5 m ρ c (Proc.devRef .tc main_v49) = shapeCast S1x64 a13 shapeCasts_S64_S1x64 := k2_v49 (W4 m ρ c) (by walk)
theorem D_v50 : W5 m ρ c (Proc.devRef .tc main_v50) = shapeCast S1x64 a15 shapeCasts_S64_S1x64 := k2_v50 (W4 m ρ c) (by walk)

theorem D_v51 : W6 m ρ c (Proc.devRef .tc main_v51) = sMf0 :=
  (W6_out m ρ c).trans (stage2 (V5 m ρ) c (by walk; exact D_v45 m ρ c) (by walk; exact D_v38 m ρ c) (by walk)
    (by walk; exact D_v6 m ρ c) (by walk; exact D_v17 m ρ c) (by walk; exact D_v18 m ρ c) (by walk; exact D_v19 m ρ c)
    (D_v49 m ρ c) (by walk) (D_v50 m ρ c))

theorem D_v54 : W7 m ρ c (Proc.devRef .tc main_v54) = sSt0 :=
  h3_v54 (W6 m ρ c) (by walk; exact D_v3 m ρ c) (by walk; exact D_v48 m ρ c)
theorem D_v57 : W7 m ρ c (Proc.devRef .tc main_v57) = sSf0 :=
  h3_v57 (W6 m ρ c) (by walk; exact D_v1 m ρ c) (D_v51 m ρ c)
theorem D_v58 : W7 m ρ c (Proc.devRef .tc main_v58) = shapeCast S1x64 a17 shapeCasts_S64_S1x64 := k3_v58 (W6 m ρ c) (by walk)
theorem D_v59 : W7 m ρ c (Proc.devRef .tc main_v59) = shapeCast S1x64 a19 shapeCasts_S64_S1x64 := k3_v59 (W6 m ρ c) (by walk)
theorem D_v60 : W7 m ρ c (Proc.devRef .tc main_v60) = shapeCast S1x64 a21 shapeCasts_S64_S1x64 := k3_v60 (W6 m ρ c) (by walk)

theorem D_v61 : W8 m ρ c (Proc.devRef .tc main_v61) = sHn0 :=
  (W8_out m ρ c).trans (stage3 (V7 m ρ) c (by walk; exact D_v9 m ρ c) (D_v54 m ρ c) (D_v57 m ρ c) (by walk)
    (by walk; exact D_v13 m ρ c)
    (by walk; exact D_v20 m ρ c) (by walk; exact D_v21 m ρ c) (by walk; exact D_v22 m ρ c) (by walk; exact D_v23 m ρ c) (D_v58 m ρ c)
    (by walk; exact D_v24 m ρ c) (by walk; exact D_v25 m ρ c) (by walk; exact D_v26 m ρ c) (by walk; exact D_v27 m ρ c) (D_v59 m ρ c)
    (by walk; exact D_v28 m ρ c) (by walk; exact D_v29 m ρ c) (by walk; exact D_v30 m ρ c) (by walk; exact D_v31 m ρ c) (D_v60 m ρ c))

theorem D_v62 : W9 m ρ c (Proc.devRef .tc main_v62) = shapeCast S1x64 a27 shapeCasts_S64_S1x64 := k4_v62 (W8 m ρ c) (by walk)
theorem D_v63 : W9 m ρ c (Proc.devRef .tc main_v63) = shapeCast S1x1 a29 shapeCasts_S1_S1x1 := k4_v63 (W8 m ρ c) (by walk)

theorem D_v64 : W10 m ρ c (Proc.devRef .tc main_v64) = sU0 :=
  (W10_out m ρ c).trans (stage4 (V9 m ρ) c (by walk; exact D_v61 m ρ c) (by walk) (D_v62 m ρ c) (by walk) (D_v63 m ρ c))

theorem D_v80 : W11 m ρ c (Proc.devRef .tc main_v80) = sRes0 :=
  h5_v80 (W10 m ρ c) (D_v64 m ρ c) (by walk; exact D_v3 m ρ c) (by walk; exact D_v1 m ρ c) (by walk) (by walk)
theorem D_v81 : W11 m ρ c (Proc.devRef .tc main_v81) = shapeCast S1x64 a23 shapeCasts_S64_S1x64 := k5_v81 (W10 m ρ c) (by walk)
theorem D_v82 : W11 m ρ c (Proc.devRef .tc main_v82) = shapeCast S1x64 a25 shapeCasts_S64_S1x64 := k5_v82 (W10 m ρ c) (by walk)

theorem D_v83 : W12 m ρ c (Proc.devRef .tc main_v83) = sEU0 :=
  (W12_out m ρ c).trans (stage5 (V11 m ρ) c (by walk; exact D_v64 m ρ c) (by walk) (D_v81 m ρ c) (by walk) (D_v82 m ρ c))

theorem D_v87 : W13 m ρ c (Proc.devRef .tc main_v87) = sEnc0 :=
  h6_v87 (W12 m ρ c) (D_v83 m ρ c) (by walk; exact D_v61 m ρ c)
theorem D_v88 : W13 m ρ c (Proc.devRef .tc main_v88) = shapeCast S1x64 a27 shapeCasts_S64_S1x64 := k6_v88 (W12 m ρ c) (by walk)
theorem D_v89 : W13 m ρ c (Proc.devRef .tc main_v89) = shapeCast S1x1 a29 shapeCasts_S1_S1x1 := k6_v89 (W12 m ρ c) (by walk)

theorem D_v90 : W14 m ρ c (Proc.devRef .tc main_v90) = sAU0 :=
  (W14_out m ρ c).trans (stage6 (V13 m ρ) c (by walk; exact D_v83 m ρ c) (by walk) (D_v88 m ρ c) (by walk) (D_v89 m ρ c))

theorem D_v98 : W15 m ρ c (Proc.devRef .tc main_v98) = sTot0 :=
  h7_v98 (W14 m ρ c) (by walk; exact D_v80 m ρ c) (by walk; exact D_v87 m ρ c) (D_v90 m ρ c) (by walk; exact D_v64 m ρ c)
theorem D_v105 : W15 m ρ c (Proc.devRef .tc main_v105) = sHc1 :=
  h7_v105 (W14 m ρ c) (by walk; exact D_v61 m ρ c) (by walk; exact D_v3 m ρ c)
theorem D_v112 : W15 m ρ c (Proc.devRef .tc main_v112) = sHr1 :=
  h7_v112 (W14 m ρ c) (by walk; exact D_v61 m ρ c) (by walk; exact D_v1 m ρ c)
theorem D_v113 : W15 m ρ c (Proc.devRef .tc main_v113) = shapeCast S1x64 a9 shapeCasts_S64_S1x64 := k7_v113 (W14 m ρ c) (by walk)
theorem D_v114 : W15 m ρ c (Proc.devRef .tc main_v114) = shapeCast S1x64 a11 shapeCasts_S64_S1x64 := k7_v114 (W14 m ρ c) (by walk)

theorem D_v115 : W16 m ρ c (Proc.devRef .tc main_v115) = sMt1 :=
  (W16_out m ρ c).trans (stage7 (V15 m ρ) c (D_v105 m ρ c) (D_v112 m ρ c) (by walk) (by walk; exact D_v6 m ρ c)
    (by walk; exact D_v14 m ρ c) (by walk; exact D_v15 m ρ c) (by walk; exact D_v16 m ρ c) (D_v113 m ρ c) (by walk) (D_v114 m ρ c))

theorem D_v116 : W17 m ρ c (Proc.devRef .tc main_v116) = shapeCast S1x64 a13 shapeCasts_S64_S1x64 := h8_v116 (W16 m ρ c) (by walk)
theorem D_v117 : W17 m ρ c (Proc.devRef .tc main_v117) = shapeCast S1x64 a15 shapeCasts_S64_S1x64 := h8_v117 (W16 m ρ c) (by walk)

theorem D_v118 : W18 m ρ c (Proc.devRef .tc main_v118) = sMf1 :=
  (W18_out m ρ c).trans (stage8 (V17 m ρ) c (by walk; exact D_v112 m ρ c) (by walk; exact D_v105 m ρ c) (by walk)
    (by walk; exact D_v6 m ρ c) (by walk; exact D_v17 m ρ c) (by walk; exact D_v18 m ρ c) (by walk; exact D_v19 m ρ c)
    (D_v116 m ρ c) (by walk) (D_v117 m ρ c))

theorem D_v121 : W19 m ρ c (Proc.devRef .tc main_v121) = sSt1 :=
  h9_v121 (W18 m ρ c) (by walk; exact D_v3 m ρ c) (by walk; exact D_v115 m ρ c)
theorem D_v124 : W19 m ρ c (Proc.devRef .tc main_v124) = sSf1 :=
  h9_v124 (W18 m ρ c) (by walk; exact D_v1 m ρ c) (D_v118 m ρ c)
theorem D_v125 : W19 m ρ c (Proc.devRef .tc main_v125) = shapeCast S1x64 a17 shapeCasts_S64_S1x64 := h9_v125 (W18 m ρ c) (by walk)
theorem D_v126 : W19 m ρ c (Proc.devRef .tc main_v126) = shapeCast S1x64 a19 shapeCasts_S64_S1x64 := h9_v126 (W18 m ρ c) (by walk)
theorem D_v127 : W19 m ρ c (Proc.devRef .tc main_v127) = shapeCast S1x64 a21 shapeCasts_S64_S1x64 := h9_v127 (W18 m ρ c) (by walk)

theorem D_v128 : W20 m ρ c (Proc.devRef .tc main_v128) = sHn1 :=
  (W20_out m ρ c).trans (stage9 (V19 m ρ) c (by walk; exact D_v61 m ρ c) (D_v121 m ρ c) (D_v124 m ρ c) (by walk)
    (by walk; exact D_v9 m ρ c) (by walk; exact D_v13 m ρ c)
    (by walk; exact D_v20 m ρ c) (by walk; exact D_v21 m ρ c) (by walk; exact D_v22 m ρ c) (by walk; exact D_v23 m ρ c) (D_v125 m ρ c)
    (by walk; exact D_v24 m ρ c) (by walk; exact D_v25 m ρ c) (by walk; exact D_v26 m ρ c) (by walk; exact D_v27 m ρ c) (D_v126 m ρ c)
    (by walk; exact D_v28 m ρ c) (by walk; exact D_v29 m ρ c) (by walk; exact D_v30 m ρ c) (by walk; exact D_v31 m ρ c) (D_v127 m ρ c))

theorem D_v129 : W21 m ρ c (Proc.devRef .tc main_v129) = shapeCast S1x64 a27 shapeCasts_S64_S1x64 := h10_v129 (W20 m ρ c) (by walk)
theorem D_v130 : W21 m ρ c (Proc.devRef .tc main_v130) = shapeCast S1x1 a29 shapeCasts_S1_S1x1 := h10_v130 (W20 m ρ c) (by walk)

theorem D_v131 : W22 m ρ c (Proc.devRef .tc main_v131) = sU1 :=
  (W22_out m ρ c).trans (stage10 (V21 m ρ) c (by walk; exact D_v128 m ρ c) (by walk) (D_v129 m ρ c) (by walk) (D_v130 m ρ c))

theorem D_v147 : W23 m ρ c (Proc.devRef .tc main_v147) = sRes1 :=
  h11_v147 (W22 m ρ c) (by walk) (by walk; exact D_v3 m ρ c) (D_v131 m ρ c) (by walk; exact D_v1 m ρ c) (by walk)
theorem D_v148 : W23 m ρ c (Proc.devRef .tc main_v148) = shapeCast S1x64 a23 shapeCasts_S64_S1x64 := h11_v148 (W22 m ρ c) (by walk)
theorem D_v149 : W23 m ρ c (Proc.devRef .tc main_v149) = shapeCast S1x64 a25 shapeCasts_S64_S1x64 := h11_v149 (W22 m ρ c) (by walk)

theorem D_v150 : W24 m ρ c (Proc.devRef .tc main_v150) = sEU1 :=
  (W24_out m ρ c).trans (stage11 (V23 m ρ) c (by walk; exact D_v131 m ρ c) (by walk) (D_v148 m ρ c) (by walk) (D_v149 m ρ c))

theorem D_v154 : W25 m ρ c (Proc.devRef .tc main_v154) = sEnc1 :=
  h12_v154 (W24 m ρ c) (D_v150 m ρ c) (by walk; exact D_v128 m ρ c)
theorem D_v155 : W25 m ρ c (Proc.devRef .tc main_v155) = shapeCast S1x64 a27 shapeCasts_S64_S1x64 := h12_v155 (W24 m ρ c) (by walk)
theorem D_v156 : W25 m ρ c (Proc.devRef .tc main_v156) = shapeCast S1x1 a29 shapeCasts_S1_S1x1 := h12_v156 (W24 m ρ c) (by walk)

theorem D_v157 : W26 m ρ c (Proc.devRef .tc main_v157) = sAU1 :=
  (W26_out m ρ c).trans (stage12 (V25 m ρ) c (by walk; exact D_v150 m ρ c) (by walk) (D_v155 m ρ c) (by walk) (D_v156 m ρ c))

theorem res0_eq : W27 m ρ c (Proc.devRef .tc main_v131) = sU1 := by
  walk; exact D_v131 m ρ c

theorem res1_eq : W27 m ρ c (Proc.devRef .tc main_v165) = sTot1 :=
  h13_v165 (W26 m ρ c) (D_v157 m ρ c) (by walk; exact D_v131 m ρ c) (by walk; exact D_v147 m ρ c) (by walk; exact D_v98 m ρ c)
    (by walk; exact D_v154 m ρ c)

abbrev refArg (m' : (ℓ : Loc Cert.ReferenceIdeal.nD Cert.ReferenceIdeal.τ Cert.ReferenceIdeal.sig) → Buf (Elt Ideal) ℓ)
    (c : Dev Cert.KernelIdeal.nD) (b : Ref Cert.ReferenceIdeal.sig .tc) :
    Buf (Elt Ideal) ((c.tc : Thread Cert.ReferenceIdeal.nD Cert.ReferenceIdeal.τ).loc b) :=
  m' ((c.tc : Thread Cert.ReferenceIdeal.nD Cert.ReferenceIdeal.τ).loc b)

theorem results_eq (m' : (ℓ : Loc Cert.ReferenceIdeal.nD Cert.ReferenceIdeal.τ Cert.ReferenceIdeal.sig) → Buf (Elt Ideal) ℓ)
    (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) :
    W27 m ρ c (Proc.devRef .tc main_v131)
        = val_main_v289 (F := Ideal) (refArg m' c Cert.ReferenceIdeal.main_arg0) (refArg m' c Cert.ReferenceIdeal.main_arg3) (refArg m' c Cert.ReferenceIdeal.main_arg4) (refArg m' c Cert.ReferenceIdeal.main_arg5) (refArg m' c Cert.ReferenceIdeal.main_arg7) (refArg m' c Cert.ReferenceIdeal.main_arg8) (refArg m' c Cert.ReferenceIdeal.main_arg9) (refArg m' c Cert.ReferenceIdeal.main_arg10) (refArg m' c Cert.ReferenceIdeal.main_arg11) (refArg m' c Cert.ReferenceIdeal.main_arg12) (refArg m' c Cert.ReferenceIdeal.main_arg13) (refArg m' c Cert.ReferenceIdeal.main_arg14) (refArg m' c Cert.ReferenceIdeal.main_arg15) (refArg m' c Cert.ReferenceIdeal.main_arg16) (refArg m' c Cert.ReferenceIdeal.main_arg17) (refArg m' c Cert.ReferenceIdeal.main_arg18) (refArg m' c Cert.ReferenceIdeal.main_arg19) (refArg m' c Cert.ReferenceIdeal.main_arg20) (refArg m' c Cert.ReferenceIdeal.main_arg21) (refArg m' c Cert.ReferenceIdeal.main_arg22) (refArg m' c Cert.ReferenceIdeal.main_arg23) (refArg m' c Cert.ReferenceIdeal.main_arg24) (refArg m' c Cert.ReferenceIdeal.main_arg25) (refArg m' c Cert.ReferenceIdeal.main_arg26) (refArg m' c Cert.ReferenceIdeal.main_arg27) (refArg m' c Cert.ReferenceIdeal.main_arg28) (refArg m' c Cert.ReferenceIdeal.main_arg29)
    ∧ W27 m ρ c (Proc.devRef .tc main_v165)
        = val_main_v357 (F := Ideal) (refArg m' c Cert.ReferenceIdeal.main_arg0) (refArg m' c Cert.ReferenceIdeal.main_arg2) (refArg m' c Cert.ReferenceIdeal.main_arg3) (refArg m' c Cert.ReferenceIdeal.main_arg4) (refArg m' c Cert.ReferenceIdeal.main_arg5) (refArg m' c Cert.ReferenceIdeal.main_arg6) (refArg m' c Cert.ReferenceIdeal.main_arg7) (refArg m' c Cert.ReferenceIdeal.main_arg8) (refArg m' c Cert.ReferenceIdeal.main_arg9) (refArg m' c Cert.ReferenceIdeal.main_arg10) (refArg m' c Cert.ReferenceIdeal.main_arg11) (refArg m' c Cert.ReferenceIdeal.main_arg12) (refArg m' c Cert.ReferenceIdeal.main_arg13) (refArg m' c Cert.ReferenceIdeal.main_arg14) (refArg m' c Cert.ReferenceIdeal.main_arg15) (refArg m' c Cert.ReferenceIdeal.main_arg16) (refArg m' c Cert.ReferenceIdeal.main_arg17) (refArg m' c Cert.ReferenceIdeal.main_arg18) (refArg m' c Cert.ReferenceIdeal.main_arg19) (refArg m' c Cert.ReferenceIdeal.main_arg20) (refArg m' c Cert.ReferenceIdeal.main_arg21) (refArg m' c Cert.ReferenceIdeal.main_arg22) (refArg m' c Cert.ReferenceIdeal.main_arg23) (refArg m' c Cert.ReferenceIdeal.main_arg24) (refArg m' c Cert.ReferenceIdeal.main_arg25) (refArg m' c Cert.ReferenceIdeal.main_arg26) (refArg m' c Cert.ReferenceIdeal.main_arg27) (refArg m' c Cert.ReferenceIdeal.main_arg28) (refArg m' c Cert.ReferenceIdeal.main_arg29) := by
  obtain ⟨e0, e1, e2, e3, e4, e5, e6, e7, e8, e9, e10, e11, e12, e13, e14, e15, e16, e17, e18, e19, e20, e21, e22, e23, e24, e25, e26, e27, e28, e29⟩ := hag c
  dsimp only [refArg]
  rw [e0, e2, e3, e4, e5, e6, e7, e8, e9, e10, e11, e12, e13, e14, e15, e16, e17, e18, e19, e20, e21, e22, e23, e24, e25, e26, e27, e28, e29]
  exact ⟨res0_eq m ρ c, res1_eq m ρ c⟩

end Cert.KernelIdeal.Val

end
-- ==== Proof.lean ====
/- Two steps of a message-passing solver on a graph: a node encoder, edge messages summed onto the nodes, a gated update, a
   decoder, and a discounted total of three means of squares. The kernel program and the host-only reference both return the
   last solution column and that total. The two printed kernel programs are one text, so one frame proof, generic in the
   float instance, serves both; at the ideal instance the kernel's final buffers are the reference's stages of the arguments. -/
import proofs.«138431_j79370995631014_1_alg».proof.Defs
import proofs.«138431_j79370995631014_1_alg».proof.Proof.Gen.Kernel
import proofs.«138431_j79370995631014_1_alg».proof.Proof.Gen.KernelIdeal
import proofs.«138431_j79370995631014_1_alg».proof.Proof.Gen.ReferenceIdeal
import proofs.«138431_j79370995631014_1_alg».proof.Proof.Gen.Pre_finite_inputs
import proofs.«138431_j79370995631014_1_alg».proof.Proof.KI.Segs
import proofs.«138431_j79370995631014_1_alg».proof.Proof.Ref.Run
import proofs.«138431_j79370995631014_1_alg».proof.Proof.Val.Bridge

noncomputable section

open Idealize.ShloMosaic Idealize.ShloMosaic.TcCoe Idealize.SL.Sem

namespace Cert.Proof

-- Closes the goal with a term whose type agrees with it only after both programs are unfolded; the comparison is left to the type checker.
open Lean Elab Tactic in
elab "kernel_exact " e:term : tactic => do
  let v ← instantiateMVars (← elabTerm e none)
  if v.hasExprMVar then throwError "unresolved metavariables in{indentExpr v}"
  (← getMainGoal).assign v

-- The idealization rewrote nothing: both kernel programs unfold to one term, and its frame holds at every float instance.
theorem frame_k : Cert.frame_Kernel := by
  kernel_exact fun (m : (ℓ : Loc Cert.Kernel.nD Cert.Kernel.τ Cert.Kernel.sig) → Buf (Elt Bits) ℓ)
    (ρ : Dev Cert.Kernel.nD → PrngReg) (_ : Cert.Pre_Kernel m) => Cert.KernelIdeal.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2.2) (Cert.ReferenceIdeal.Hand.run (F := Ideal) m ρ)

-- The witnesses are the last segment boundary's contents at the two result arrays; `results_eq` identifies them with the reference's stages.
open Cert.KernelIdeal Cert.KernelIdeal.Hand in
theorem algebraic : Cert.algebraic_KernelIdeal_ReferenceIdeal := by
  intro m ρ m' ρ' _ hagree
  refine ⟨fun c => W27 m ρ c (Proc.devRef .tc main_v131), fun c => W27 m ρ c (Proc.devRef .tc main_v165), ?_, ?_⟩
  · exact (θ_run Cert.KernelIdeal.defs _ _).mono (fun r h c =>
      ⟨h c _ (mem_uc main_v131 (by decide)), h c _ (mem_uc main_v165 (by decide)),
       (h c _ (mem_uc main_arg0 (by decide))).trans (W27_main_arg0 m ρ c),
       (h c _ (mem_uc main_arg1 (by decide))).trans (W27_main_arg1 m ρ c),
       (h c _ (mem_uc main_arg2 (by decide))).trans (W27_main_arg2 m ρ c),
       (h c _ (mem_uc main_arg3 (by decide))).trans (W27_main_arg3 m ρ c),
       (h c _ (mem_uc main_arg4 (by decide))).trans (W27_main_arg4 m ρ c),
       (h c _ (mem_uc main_arg5 (by decide))).trans (W27_main_arg5 m ρ c),
       (h c _ (mem_uc main_arg6 (by decide))).trans (W27_main_arg6 m ρ c),
       (h c _ (mem_uc main_arg7 (by decide))).trans (W27_main_arg7 m ρ c),
       (h c _ (mem_uc main_arg8 (by decide))).trans (W27_main_arg8 m ρ c),
       (h c _ (mem_uc main_arg9 (by decide))).trans (W27_main_arg9 m ρ c),
       (h c _ (mem_uc main_arg10 (by decide))).trans (W27_main_arg10 m ρ c),
       (h c _ (mem_uc main_arg11 (by decide))).trans (W27_main_arg11 m ρ c),
       (h c _ (mem_uc main_arg12 (by decide))).trans (W27_main_arg12 m ρ c),
       (h c _ (mem_uc main_arg13 (by decide))).trans (W27_main_arg13 m ρ c),
       (h c _ (mem_uc main_arg14 (by decide))).trans (W27_main_arg14 m ρ c),
       (h c _ (mem_uc main_arg15 (by decide))).trans (W27_main_arg15 m ρ c),
       (h c _ (mem_uc main_arg16 (by decide))).trans (W27_main_arg16 m ρ c),
       (h c _ (mem_uc main_arg17 (by decide))).trans (W27_main_arg17 m ρ c),
       (h c _ (mem_uc main_arg18 (by decide))).trans (W27_main_arg18 m ρ c),
       (h c _ (mem_uc main_arg19 (by decide))).trans (W27_main_arg19 m ρ c),
       (h c _ (mem_uc main_arg20 (by decide))).trans (W27_main_arg20 m ρ c),
       (h c _ (mem_uc main_arg21 (by decide))).trans (W27_main_arg21 m ρ c),
       (h c _ (mem_uc main_arg22 (by decide))).trans (W27_main_arg22 m ρ c),
       (h c _ (mem_uc main_arg23 (by decide))).trans (W27_main_arg23 m ρ c),
       (h c _ (mem_uc main_arg24 (by decide))).trans (W27_main_arg24 m ρ c),
       (h c _ (mem_uc main_arg25 (by decide))).trans (W27_main_arg25 m ρ c),
       (h c _ (mem_uc main_arg26 (by decide))).trans (W27_main_arg26 m ρ c),
       (h c _ (mem_uc main_arg27 (by decide))).trans (W27_main_arg27 m ρ c),
       (h c _ (mem_uc main_arg28 (by decide))).trans (W27_main_arg28 m ρ c),
       (h c _ (mem_uc main_arg29 (by decide))).trans (W27_main_arg29 m ρ c)⟩)
      (run_all (F := Ideal) m ρ)
  · exact (θ_run Cert.ReferenceIdeal.defs _ _).mono (fun r h c =>
      ⟨(h c).1.trans (Cert.KernelIdeal.Val.results_eq m ρ c m' hagree).1.symm,
       (h c).2.1.trans (Cert.KernelIdeal.Val.results_eq m ρ c m' hagree).2.symm, (h c).2.2⟩)
      (Cert.ReferenceIdeal.Hand.run (F := Ideal) m' ρ')

theorem claim : Cert.Claim := ⟨Cert.Kernel.Gen.facts, Cert.KernelIdeal.Gen.facts, Cert.ReferenceIdeal.Gen.facts, Cert.Pre_finite_inputs.Gen.facts, frame_k, frame_ki, frame_ri, trivial, algebraic⟩

end Cert.Proof

end
